-- ==== Defs.lean ====
def Pre_Kernel [hPre_input_domain : Cert.Pre_input_domain.Facts] (m : (ℓ : Loc Cert.Kernel.nD Cert.Kernel.τ Cert.Kernel.sig) → Buf (Elt Bits) ℓ) : Prop :=
  ∀ c : Dev Cert.Kernel.nD,
    (Cert.Pre_input_domain.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18))) = (fun _ => 1#1)

def Pre_KernelIdeal [hPre_input_domain : Cert.Pre_input_domain.Facts] (m : (ℓ : Loc Cert.KernelIdeal.nD Cert.KernelIdeal.τ Cert.KernelIdeal.sig) → Buf (Elt Ideal) ℓ) : Prop :=
  ∀ c : Dev Cert.KernelIdeal.nD,
    (Cert.Pre_input_domain.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18))) = (fun _ => 1#1)

def Pre_ReferenceIdeal [hPre_input_domain : Cert.Pre_input_domain.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_input_domain.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18))) = (fun _ => 1#1)

def frame_Kernel [hKernel : Cert.Kernel.Facts] [hPre_input_domain : Cert.Pre_input_domain.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18))

def frame_KernelIdeal [hKernelIdeal : Cert.KernelIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))

def frame_ReferenceIdeal [hReferenceIdeal : Cert.ReferenceIdeal.Facts] [hPre_input_domain : Cert.Pre_input_domain.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18))

def preserves_Kernel_KernelIdeal : Prop :=
  True

def algebraic_KernelIdeal_ReferenceIdeal [hKernelIdeal : Cert.KernelIdeal.Facts] [hReferenceIdeal : Cert.ReferenceIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)) →
    ∃ (v0 : (c : Dev Cert.KernelIdeal.nD) → Buf (Elt Ideal) ((c.tc : Thread Cert.KernelIdeal.nD Cert.KernelIdeal.τ).loc Cert.KernelIdeal.main_v17)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v17) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v73) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18))

def Claim : Prop :=
  ∃ (hKernel : Cert.Kernel.Facts) (hKernelIdeal : Cert.KernelIdeal.Facts) (hReferenceIdeal : Cert.ReferenceIdeal.Facts) (hPre_input_domain : Cert.Pre_input_domain.Facts),
    frame_Kernel (hKernel := hKernel) (hPre_input_domain := hPre_input_domain)
    ∧ frame_KernelIdeal (hKernelIdeal := hKernelIdeal) (hPre_input_domain := hPre_input_domain)
    ∧ frame_ReferenceIdeal (hReferenceIdeal := hReferenceIdeal) (hPre_input_domain := hPre_input_domain)
    ∧ preserves_Kernel_KernelIdeal
    ∧ algebraic_KernelIdeal_ReferenceIdeal (hKernelIdeal := hKernelIdeal) (hReferenceIdeal := hReferenceIdeal) (hPre_input_domain := hPre_input_domain)
-- ==== Pre_input_domain.lean ====
abbrev S1x250000 : Shape := ⟨2, ![1, 250000]⟩
abbrev S1x50000 : Shape := ⟨2, ![1, 50000]⟩
abbrev S1x200000 : Shape := ⟨2, ![1, 200000]⟩
abbrev S1600000 : Shape := ⟨1, ![1600000]⟩
abbrev S4 : Shape := ⟨1, ![4]⟩
abbrev S2 : Shape := ⟨1, ![2]⟩
abbrev S50000 : Shape := ⟨1, ![50000]⟩
abbrev S1600000x2 : Shape := ⟨2, ![1600000, 2]⟩
abbrev S_ : Shape := ⟨0, ![]⟩
abbrev S1600000x1 : Shape := ⟨2, ![1600000, 1]⟩

class Facts : Prop where
  bcast_S_S1x250000 : S_.BroadcastsInDim S1x250000 (![] : Fin 0 → Fin S1x250000.rank)
  reducesTo_S1x250000_S_d0_1 : S1x250000.ReducesTo [0, 1] S_
  h_S_ : 0 < S_.numel
  bcast_S_S1x50000 : S_.BroadcastsInDim S1x50000 (![] : Fin 0 → Fin S1x50000.rank)
  reducesTo_S1x50000_S_d0_1 : S1x50000.ReducesTo [0, 1] S_
  bcast_S_S1x200000 : S_.BroadcastsInDim S1x200000 (![] : Fin 0 → Fin S1x200000.rank)
  reducesTo_S1x200000_S_d0_1 : S1x200000.ReducesTo [0, 1] S_
  bcast_S_S1600000 : S_.BroadcastsInDim S1600000 (![] : Fin 0 → Fin S1600000.rank)
  reducesTo_S1600000_S_d0 : S1600000.ReducesTo [0] S_
  bcast_S_S4 : S_.BroadcastsInDim S4 (![] : Fin 0 → Fin S4.rank)
  reducesTo_S4_S_d0 : S4.ReducesTo [0] S_
  bcast_S_S2 : S_.BroadcastsInDim S2 (![] : Fin 0 → Fin S2.rank)
  reducesTo_S2_S_d0 : S2.ReducesTo [0] S_
  bcast_S_S50000 : S_.BroadcastsInDim S50000 (![] : Fin 0 → Fin S50000.rank)
  reducesTo_S50000_S_d0 : S50000.ReducesTo [0] S_
  bcast_S_S1600000x2 : S_.BroadcastsInDim S1600000x2 (![] : Fin 0 → Fin S1600000x2.rank)
  reducesTo_S1600000x2_S_d0_1 : S1600000x2.ReducesTo [0, 1] S_
  slices_S1600000x2_S1600000x1_0_0 : S1600000x2.Slices ![0, 0] S1600000x1
  shapeCasts_S1600000x1_S1600000 : S1600000x1.ShapeCasts S1600000

variable [Facts]

def fn_part6 {F : FTy → Type} [FloatOps F] (main_arg0 : FVec F S1x250000 .f32) (main_v101 : IVec S_ 1) (main_cst_39 : FVec F S_ .f32) : IVec S_ 1 :=
  let main_v102 : FVec F S1x250000 .f32 := broadcastInDim S1x250000 ![] bcast_S_S1x250000 main_cst_39
  let main_v103 : IVec S1x250000 1 := cmpf .oeq main_arg0 main_v102
  let main_cst_40 : FVec F S_ .f32 := constant S_ .f32 0x3F800000#32
  let main_v104 : FVec F S1x250000 .f32 := broadcastInDim S1x250000 ![] bcast_S_S1x250000 main_cst_40
  let main_v105 : IVec S1x250000 1 := cmpf .oeq main_arg0 main_v104
  let main_v106 : IVec S1x250000 1 := ori main_v103 main_v105
  let main_c_41 : IVec S_ 1 := constantI S_ 1 1#1
  let main_v107 : IVec S_ 1 := (fun x v => Host.reduce IntOp.andi x v reducesTo_S1x250000_S_d0_1 h_S_) main_v106 main_c_41
  let main_v108 : IVec S_ 1 := andi main_v101 main_v107
  main_v108

def fn_part5 {F : FTy → Type} [FloatOps F] (main_arg0 : FVec F S1x250000 .f32) (main_arg18 : IVec S1600000x2 32) (main_v83 : IVec S_ 1) (main_v84 : FVec F S50000 .f32) (main_cst_32 : FVec F S_ .f32) : IVec S_ 1 :=
  let main_v85 : FVec F S50000 .f32 := broadcastInDim S50000 ![] bcast_S_S50000 main_cst_32
  let main_v86 : IVec S50000 1 := cmpf .olt main_v84 main_v85
  let main_c_33 : IVec S_ 1 := constantI S_ 1 1#1
  let main_v87 : IVec S_ 1 := (fun x v => Host.reduce IntOp.andi x v reducesTo_S50000_S_d0 h_S_) main_v86 main_c_33
  let main_v88 : IVec S_ 1 := andi main_v83 main_v87
  let main_c_34 : IVec S_ 32 := constantI S_ 32 0#32
  let main_v89 : IVec S1600000x2 32 := broadcastInDim S1600000x2 ![] bcast_S_S1600000x2 main_c_34
  let main_v90 : IVec S1600000x2 1 := cmpi .sge main_arg18 main_v89
  let main_c_35 : IVec S_ 32 := constantI S_ 32 249999#32
  let main_v91 : IVec S1600000x2 32 := broadcastInDim S1600000x2 ![] bcast_S_S1600000x2 main_c_35
  let main_v92 : IVec S1600000x2 1 := cmpi .sle main_arg18 main_v91
  let main_v93 : IVec S1600000x2 1 := andi main_v90 main_v92
  let main_c_36 : IVec S_ 1 := constantI S_ 1 1#1
  let main_v94 : IVec S_ 1 := (fun x v => Host.reduce IntOp.andi x v reducesTo_S1600000x2_S_d0_1 h_S_) main_v93 main_c_36
  let main_v95 : IVec S_ 1 := andi main_v88 main_v94
  let main_v96 : IVec S1600000x1 32 := (extractStridedSlice S1600000x1 ![0, 0] · slices_S1600000x2_S1600000x1_0_0) main_arg18
  let main_v97 : IVec S1600000 32 := shapeCast S1600000 main_v96 shapeCasts_S1600000x1_S1600000
  let main_c_37 : IVec S_ 32 := constantI S_ 32 199999#32
  let main_v98 : IVec S1600000 32 := broadcastInDim S1600000 ![] bcast_S_S1600000 main_c_37
  let main_v99 : IVec S1600000 1 := cmpi .sle main_v97 main_v98
  let main_c_38 : IVec S_ 1 := constantI S_ 1 1#1
  let main_v100 : IVec S_ 1 := (fun x v => Host.reduce IntOp.andi x v reducesTo_S1600000_S_d0 h_S_) main_v99 main_c_38
  let main_v101 : IVec S_ 1 := andi main_v95 main_v100
  let main_cst_39 : FVec F S_ .f32 := constant S_ .f32 0x00000000#32
  fn_part6 (F := F) main_arg0 main_v101 main_cst_39

def fn_part4 {F : FTy → Type} [FloatOps F] (main_arg0 : FVec F S1x250000 .f32) (main_arg14 : FVec F S50000 .f32) (main_arg15 : FVec F S50000 .f32) (main_arg16 : FVec F S50000 .f32) (main_arg17 : FVec F S50000 .f32) (main_arg18 : IVec S1600000x2 32) (main_v63 : IVec S_ 1) (main_v67 : IVec S_ 1) : IVec S_ 1 :=
  let main_v68 : IVec S_ 1 := andi main_v63 main_v67
  let main_v69 : FVec F S50000 .f32 := Host.absf main_arg14
  let main_cst_26 : FVec F S_ .f32 := constant S_ .f32 0x7F800000#32
  let main_v70 : FVec F S50000 .f32 := broadcastInDim S50000 ![] bcast_S_S50000 main_cst_26
  let main_v71 : IVec S50000 1 := cmpf .olt main_v69 main_v70
  let main_c_27 : IVec S_ 1 := constantI S_ 1 1#1
  let main_v72 : IVec S_ 1 := (fun x v => Host.reduce IntOp.andi x v reducesTo_S50000_S_d0 h_S_) main_v71 main_c_27
  let main_v73 : IVec S_ 1 := andi main_v68 main_v72
  let main_v74 : FVec F S50000 .f32 := Host.absf main_arg15
  let main_cst_28 : FVec F S_ .f32 := constant S_ .f32 0x7F800000#32
  let main_v75 : FVec F S50000 .f32 := broadcastInDim S50000 ![] bcast_S_S50000 main_cst_28
  let main_v76 : IVec S50000 1 := cmpf .olt main_v74 main_v75
  let main_c_29 : IVec S_ 1 := constantI S_ 1 1#1
  let main_v77 : IVec S_ 1 := (fun x v => Host.reduce IntOp.andi x v reducesTo_S50000_S_d0 h_S_) main_v76 main_c_29
  let main_v78 : IVec S_ 1 := andi main_v73 main_v77
  let main_v79 : FVec F S50000 .f32 := Host.absf main_arg16
  let main_cst_30 : FVec F S_ .f32 := constant S_ .f32 0x7F800000#32
  let main_v80 : FVec F S50000 .f32 := broadcastInDim S50000 ![] bcast_S_S50000 main_cst_30
  let main_v81 : IVec S50000 1 := cmpf .olt main_v79 main_v80
  let main_c_31 : IVec S_ 1 := constantI S_ 1 1#1
  let main_v82 : IVec S_ 1 := (fun x v => Host.reduce IntOp.andi x v reducesTo_S50000_S_d0 h_S_) main_v81 main_c_31
  let main_v83 : IVec S_ 1 := andi main_v78 main_v82
  let main_v84 : FVec F S50000 .f32 := Host.absf main_arg17
  let main_cst_32 : FVec F S_ .f32 := constant S_ .f32 0x7F800000#32
  fn_part5 (F := F) main_arg0 main_arg18 main_v83 main_v84 main_cst_32

def fn_part3 {F : FTy → Type} [FloatOps F] (main_arg0 : FVec F S1x250000 .f32) (main_arg11 : FVec F S2 .f32) (main_arg12 : FVec F S50000 .f32) (main_arg13 : FVec F S50000 .f32) (main_arg14 : FVec F S50000 .f32) (main_arg15 : FVec F S50000 .f32) (main_arg16 : FVec F S50000 .f32) (main_arg17 : FVec F S50000 .f32) (main_arg18 : IVec S1600000x2 32) (main_v48 : IVec S_ 1) (main_v49 : FVec F S2 .f32) (main_v50 : FVec F S2 .f32) : IVec S_ 1 :=
  let main_v51 : IVec S2 1 := cmpf .olt main_v49 main_v50
  let main_c_19 : IVec S_ 1 := constantI S_ 1 1#1
  let main_v52 : IVec S_ 1 := (fun x v => Host.reduce IntOp.andi x v reducesTo_S2_S_d0 h_S_) main_v51 main_c_19
  let main_v53 : IVec S_ 1 := andi main_v48 main_v52
  let main_v54 : FVec F S2 .f32 := Host.absf main_arg11
  let main_cst_20 : FVec F S_ .f32 := constant S_ .f32 0x7F800000#32
  let main_v55 : FVec F S2 .f32 := broadcastInDim S2 ![] bcast_S_S2 main_cst_20
  let main_v56 : IVec S2 1 := cmpf .olt main_v54 main_v55
  let main_c_21 : IVec S_ 1 := constantI S_ 1 1#1
  let main_v57 : IVec S_ 1 := (fun x v => Host.reduce IntOp.andi x v reducesTo_S2_S_d0 h_S_) main_v56 main_c_21
  let main_v58 : IVec S_ 1 := andi main_v53 main_v57
  let main_v59 : FVec F S50000 .f32 := Host.absf main_arg12
  let main_cst_22 : FVec F S_ .f32 := constant S_ .f32 0x7F800000#32
  let main_v60 : FVec F S50000 .f32 := broadcastInDim S50000 ![] bcast_S_S50000 main_cst_22
  let main_v61 : IVec S50000 1 := cmpf .olt main_v59 main_v60
  let main_c_23 : IVec S_ 1 := constantI S_ 1 1#1
  let main_v62 : IVec S_ 1 := (fun x v => Host.reduce IntOp.andi x v reducesTo_S50000_S_d0 h_S_) main_v61 main_c_23
  let main_v63 : IVec S_ 1 := andi main_v58 main_v62
  let main_v64 : FVec F S50000 .f32 := Host.absf main_arg13
  let main_cst_24 : FVec F S_ .f32 := constant S_ .f32 0x7F800000#32
  let main_v65 : FVec F S50000 .f32 := broadcastInDim S50000 ![] bcast_S_S50000 main_cst_24
  let main_v66 : IVec S50000 1 := cmpf .olt main_v64 main_v65
  let main_c_25 : IVec S_ 1 := constantI S_ 1 1#1
  let main_v67 : IVec S_ 1 := (fun x v => Host.reduce IntOp.andi x v reducesTo_S50000_S_d0 h_S_) main_v66 main_c_25
  fn_part4 (F := F) main_arg0 main_arg14 main_arg15 main_arg16 main_arg17 main_arg18 main_v63 main_v67

def fn_part2 {F : FTy → Type} [FloatOps F] (main_arg0 : FVec F S1x250000 .f32) (main_arg7 : FVec F S1x50000 .f32) (main_arg8 : FVec F S4 .f32) (main_arg9 : FVec F S4 .f32) (main_arg10 : FVec F S2 .f32) (main_arg11 : FVec F S2 .f32) (main_arg12 : FVec F S50000 .f32) (main_arg13 : FVec F S50000 .f32) (main_arg14 : FVec F S50000 .f32) (main_arg15 : FVec F S50000 .f32) (main_arg16 : FVec F S50000 .f32) (main_arg17 : FVec F S50000 .f32) (main_arg18 : IVec S1600000x2 32) (main_v33 : IVec S_ 1) : IVec S_ 1 :=
  let main_v34 : FVec F S1x50000 .f32 := Host.absf main_arg7
  let main_cst_12 : FVec F S_ .f32 := constant S_ .f32 0x7F800000#32
  let main_v35 : FVec F S1x50000 .f32 := broadcastInDim S1x50000 ![] bcast_S_S1x50000 main_cst_12
  let main_v36 : IVec S1x50000 1 := cmpf .olt main_v34 main_v35
  let main_c_13 : IVec S_ 1 := constantI S_ 1 1#1
  let main_v37 : IVec S_ 1 := (fun x v => Host.reduce IntOp.andi x v reducesTo_S1x50000_S_d0_1 h_S_) main_v36 main_c_13
  let main_v38 : IVec S_ 1 := andi main_v33 main_v37
  let main_v39 : FVec F S4 .f32 := Host.absf main_arg8
  let main_cst_14 : FVec F S_ .f32 := constant S_ .f32 0x7F800000#32
  let main_v40 : FVec F S4 .f32 := broadcastInDim S4 ![] bcast_S_S4 main_cst_14
  let main_v41 : IVec S4 1 := cmpf .olt main_v39 main_v40
  let main_c_15 : IVec S_ 1 := constantI S_ 1 1#1
  let main_v42 : IVec S_ 1 := (fun x v => Host.reduce IntOp.andi x v reducesTo_S4_S_d0 h_S_) main_v41 main_c_15
  let main_v43 : IVec S_ 1 := andi main_v38 main_v42
  let main_v44 : FVec F S4 .f32 := Host.absf main_arg9
  let main_cst_16 : FVec F S_ .f32 := constant S_ .f32 0x7F800000#32
  let main_v45 : FVec F S4 .f32 := broadcastInDim S4 ![] bcast_S_S4 main_cst_16
  let main_v46 : IVec S4 1 := cmpf .olt main_v44 main_v45
  let main_c_17 : IVec S_ 1 := constantI S_ 1 1#1
  let main_v47 : IVec S_ 1 := (fun x v => Host.reduce IntOp.andi x v reducesTo_S4_S_d0 h_S_) main_v46 main_c_17
  let main_v48 : IVec S_ 1 := andi main_v43 main_v47
  let main_v49 : FVec F S2 .f32 := Host.absf main_arg10
  let main_cst_18 : FVec F S_ .f32 := constant S_ .f32 0x7F800000#32
  let main_v50 : FVec F S2 .f32 := broadcastInDim S2 ![] bcast_S_S2 main_cst_18
  fn_part3 (F := F) main_arg0 main_arg11 main_arg12 main_arg13 main_arg14 main_arg15 main_arg16 main_arg17 main_arg18 main_v48 main_v49 main_v50

def fn_part1 {F : FTy → Type} [FloatOps F] (main_arg0 : FVec F S1x250000 .f32) (main_arg4 : FVec F S1x50000 .f32) (main_arg5 : FVec F S1x200000 .f32) (main_arg6 : FVec F S1600000 .f32) (main_arg7 : FVec F S1x50000 .f32) (main_arg8 : FVec F S4 .f32) (main_arg9 : FVec F S4 .f32) (main_arg10 : FVec F S2 .f32) (main_arg11 : FVec F S2 .f32) (main_arg12 : FVec F S50000 .f32) (main_arg13 : FVec F S50000 .f32) (main_arg14 : FVec F S50000 .f32) (main_arg15 : FVec F S50000 .f32) (main_arg16 : FVec F S50000 .f32) (main_arg17 : FVec F S50000 .f32) (main_arg18 : IVec S1600000x2 32) (main_v13 : IVec S_ 1) (main_v16 : IVec S1x50000 1) : IVec S_ 1 :=
  let main_c_5 : IVec S_ 1 := constantI S_ 1 1#1
  let main_v17 : IVec S_ 1 := (fun x v => Host.reduce IntOp.andi x v reducesTo_S1x50000_S_d0_1 h_S_) main_v16 main_c_5
  let main_v18 : IVec S_ 1 := andi main_v13 main_v17
  let main_v19 : FVec F S1x50000 .f32 := Host.absf main_arg4
  let main_cst_6 : FVec F S_ .f32 := constant S_ .f32 0x7F800000#32
  let main_v20 : FVec F S1x50000 .f32 := broadcastInDim S1x50000 ![] bcast_S_S1x50000 main_cst_6
  let main_v21 : IVec S1x50000 1 := cmpf .olt main_v19 main_v20
  let main_c_7 : IVec S_ 1 := constantI S_ 1 1#1
  let main_v22 : IVec S_ 1 := (fun x v => Host.reduce IntOp.andi x v reducesTo_S1x50000_S_d0_1 h_S_) main_v21 main_c_7
  let main_v23 : IVec S_ 1 := andi main_v18 main_v22
  let main_v24 : FVec F S1x200000 .f32 := Host.absf main_arg5
  let main_cst_8 : FVec F S_ .f32 := constant S_ .f32 0x7F800000#32
  let main_v25 : FVec F S1x200000 .f32 := broadcastInDim S1x200000 ![] bcast_S_S1x200000 main_cst_8
  let main_v26 : IVec S1x200000 1 := cmpf .olt main_v24 main_v25
  let main_c_9 : IVec S_ 1 := constantI S_ 1 1#1
  let main_v27 : IVec S_ 1 := (fun x v => Host.reduce IntOp.andi x v reducesTo_S1x200000_S_d0_1 h_S_) main_v26 main_c_9
  let main_v28 : IVec S_ 1 := andi main_v23 main_v27
  let main_v29 : FVec F S1600000 .f32 := Host.absf main_arg6
  let main_cst_10 : FVec F S_ .f32 := constant S_ .f32 0x7F800000#32
  let main_v30 : FVec F S1600000 .f32 := broadcastInDim S1600000 ![] bcast_S_S1600000 main_cst_10
  let main_v31 : IVec S1600000 1 := cmpf .olt main_v29 main_v30
  let main_c_11 : IVec S_ 1 := constantI S_ 1 1#1
  let main_v32 : IVec S_ 1 := (fun x v => Host.reduce IntOp.andi x v reducesTo_S1600000_S_d0 h_S_) main_v31 main_c_11
  let main_v33 : IVec S_ 1 := andi main_v28 main_v32
  fn_part2 (F := F) main_arg0 main_arg7 main_arg8 main_arg9 main_arg10 main_arg11 main_arg12 main_arg13 main_arg14 main_arg15 main_arg16 main_arg17 main_arg18 main_v33

def fn {F : FTy → Type} [FloatOps F] (main_arg0 : FVec F S1x250000 .f32) (main_arg1 : FVec F S1x50000 .f32) (main_arg2 : FVec F S1x50000 .f32) (main_arg3 : FVec F S1x50000 .f32) (main_arg4 : FVec F S1x50000 .f32) (main_arg5 : FVec F S1x200000 .f32) (main_arg6 : FVec F S1600000 .f32) (main_arg7 : FVec F S1x50000 .f32) (main_arg8 : FVec F S4 .f32) (main_arg9 : FVec F S4 .f32) (main_arg10 : FVec F S2 .f32) (main_arg11 : FVec F S2 .f32) (main_arg12 : FVec F S50000 .f32) (main_arg13 : FVec F S50000 .f32) (main_arg14 : FVec F S50000 .f32) (main_arg15 : FVec F S50000 .f32) (main_arg16 : FVec F S50000 .f32) (main_arg17 : FVec F S50000 .f32) (main_arg18 : IVec S1600000x2 32) : IVec S_ 1 :=
  let main_v0 : FVec F S1x250000 .f32 := Host.absf main_arg0
  let main_cst : FVec F S_ .f32 := constant S_ .f32 0x7F800000#32
  let main_v1 : FVec F S1x250000 .f32 := broadcastInDim S1x250000 ![] bcast_S_S1x250000 main_cst
  let main_v2 : IVec S1x250000 1 := cmpf .olt main_v0 main_v1
  let main_c : IVec S_ 1 := constantI S_ 1 1#1
  let main_v3 : IVec S_ 1 := (fun x v => Host.reduce IntOp.andi x v reducesTo_S1x250000_S_d0_1 h_S_) main_v2 main_c
  let main_v4 : FVec F S1x50000 .f32 := Host.absf main_arg1
  let main_cst_0 : FVec F S_ .f32 := constant S_ .f32 0x7F800000#32
  let main_v5 : FVec F S1x50000 .f32 := broadcastInDim S1x50000 ![] bcast_S_S1x50000 main_cst_0
  let main_v6 : IVec S1x50000 1 := cmpf .olt main_v4 main_v5
  let main_c_1 : IVec S_ 1 := constantI S_ 1 1#1
  let main_v7 : IVec S_ 1 := (fun x v => Host.reduce IntOp.andi x v reducesTo_S1x50000_S_d0_1 h_S_) main_v6 main_c_1
  let main_v8 : IVec S_ 1 := andi main_v3 main_v7
  let main_v9 : FVec F S1x50000 .f32 := Host.absf main_arg2
  let main_cst_2 : FVec F S_ .f32 := constant S_ .f32 0x7F800000#32
  let main_v10 : FVec F S1x50000 .f32 := broadcastInDim S1x50000 ![] bcast_S_S1x50000 main_cst_2
  let main_v11 : IVec S1x50000 1 := cmpf .olt main_v9 main_v10
  let main_c_3 : IVec S_ 1 := constantI S_ 1 1#1
  let main_v12 : IVec S_ 1 := (fun x v => Host.reduce IntOp.andi x v reducesTo_S1x50000_S_d0_1 h_S_) main_v11 main_c_3
  let main_v13 : IVec S_ 1 := andi main_v8 main_v12
  let main_v14 : FVec F S1x50000 .f32 := Host.absf main_arg3
  let main_cst_4 : FVec F S_ .f32 := constant S_ .f32 0x7F800000#32
  let main_v15 : FVec F S1x50000 .f32 := broadcastInDim S1x50000 ![] bcast_S_S1x50000 main_cst_4
  let main_v16 : IVec S1x50000 1 := cmpf .olt main_v14 main_v15
  fn_part1 (F := F) main_arg0 main_arg4 main_arg5 main_arg6 main_arg7 main_arg8 main_arg9 main_arg10 main_arg11 main_arg12 main_arg13 main_arg14 main_arg15 main_arg16 main_arg17 main_arg18 main_v13 main_v16
-- ==== Kernel.lean ====
abbrev S1x250000 : Shape := ⟨2, ![1, 250000]⟩
abbrev S1x50000 : Shape := ⟨2, ![1, 50000]⟩
abbrev S1x200000 : Shape := ⟨2, ![1, 200000]⟩
abbrev S1600000 : Shape := ⟨1, ![1600000]⟩
abbrev S4 : Shape := ⟨1, ![4]⟩
abbrev S2 : Shape := ⟨1, ![2]⟩
abbrev S50000 : Shape := ⟨1, ![50000]⟩
abbrev S1600000x2 : Shape := ⟨2, ![1600000, 2]⟩
abbrev S1600000x1 : Shape := ⟨2, ![1600000, 1]⟩
abbrev S_ : Shape := ⟨0, ![]⟩
abbrev S16 : Shape := ⟨1, ![16]⟩
abbrev S1x200704 : Shape := ⟨2, ![1, 200704]⟩
abbrev S1x262144 : Shape := ⟨2, ![1, 262144]⟩
abbrev S1x8192 : Shape := ⟨2, ![1, 8192]⟩
abbrev S32x50176 : Shape := ⟨2, ![32, 50176]⟩
abbrev S8192 : Shape := ⟨1, ![8192]⟩
abbrev S50176 : Shape := ⟨1, ![50176]⟩
abbrev S10000 : Shape := ⟨1, ![10000]⟩
abbrev S6272 : Shape := ⟨1, ![6272]⟩
abbrev S1x6272 : Shape := ⟨2, ![1, 6272]⟩
abbrev S1x50176 : Shape := ⟨2, ![1, 50176]⟩
abbrev S1 : Shape := ⟨1, ![1]⟩

abbrev nBuf : Table → Nat
  | .hbm => 45
  | .local .tc .vmem => 17
  | .local .tc .smem => 2
  | .local .scVector .vmem => 11
  | _ => 0

abbrev bufTy : (tb : Table) → Fin (nBuf tb) → BufTy
  | .hbm, ⟨0, _⟩ => ⟨S1x250000, .f32⟩
  | .hbm, ⟨1, _⟩ => ⟨S1x50000, .f32⟩
  | .hbm, ⟨2, _⟩ => ⟨S1x50000, .f32⟩
  | .hbm, ⟨3, _⟩ => ⟨S1x50000, .f32⟩
  | .hbm, ⟨4, _⟩ => ⟨S1x50000, .f32⟩
  | .hbm, ⟨5, _⟩ => ⟨S1x200000, .f32⟩
  | .hbm, ⟨6, _⟩ => ⟨S1600000, .f32⟩
  | .hbm, ⟨7, _⟩ => ⟨S1x50000, .f32⟩
  | .hbm, ⟨8, _⟩ => ⟨S4, .f32⟩
  | .hbm, ⟨9, _⟩ => ⟨S4, .f32⟩
  | .hbm, ⟨10, _⟩ => ⟨S2, .f32⟩
  | .hbm, ⟨11, _⟩ => ⟨S2, .f32⟩
  | .hbm, ⟨12, _⟩ => ⟨S50000, .f32⟩
  | .hbm, ⟨13, _⟩ => ⟨S50000, .f32⟩
  | .hbm, ⟨14, _⟩ => ⟨S50000, .f32⟩
  | .hbm, ⟨15, _⟩ => ⟨S50000, .f32⟩
  | .hbm, ⟨16, _⟩ => ⟨S50000, .f32⟩
  | .hbm, ⟨17, _⟩ => ⟨S50000, .f32⟩
  | .hbm, ⟨18, _⟩ => ⟨S1600000x2, .i32⟩
  | .hbm, ⟨19, _⟩ => ⟨S1600000x1, .i32⟩
  | .hbm, ⟨20, _⟩ => ⟨S1600000, .i32⟩
  | .hbm, ⟨21, _⟩ => ⟨S1600000x1, .i32⟩
  | .hbm, ⟨22, _⟩ => ⟨S1600000, .i32⟩
  | .hbm, ⟨23, _⟩ => ⟨S_, .i32⟩
  | .hbm, ⟨24, _⟩ => ⟨S_, .f32⟩
  | .hbm, ⟨25, _⟩ => ⟨S16, .f32⟩
  | .hbm, ⟨26, _⟩ => ⟨S_, .i32⟩
  | .hbm, ⟨27, _⟩ => ⟨S_, .f32⟩
  | .hbm, ⟨28, _⟩ => ⟨S16, .f32⟩
  | .hbm, ⟨29, _⟩ => ⟨S_, .i32⟩
  | .hbm, ⟨30, _⟩ => ⟨S_, .f32⟩
  | .hbm, ⟨31, _⟩ => ⟨S1x200704, .f32⟩
  | .hbm, ⟨32, _⟩ => ⟨S_, .i32⟩
  | .hbm, ⟨33, _⟩ => ⟨S_, .f32⟩
  | .hbm, ⟨34, _⟩ => ⟨S1x262144, .f32⟩
  | .hbm, ⟨35, _⟩ => ⟨S1x8192, .i32⟩
  | .hbm, ⟨36, _⟩ => ⟨S32x50176, .f32⟩
  | .hbm, ⟨37, _⟩ => ⟨S1x50000, .f32⟩
  | .hbm, ⟨38, _⟩ => ⟨S1x50000, .f32⟩
  | .hbm, ⟨39, _⟩ => ⟨S1x50000, .f32⟩
  | .hbm, ⟨40, _⟩ => ⟨S1x50000, .f32⟩
  | .hbm, ⟨41, _⟩ => ⟨S1x50000, .f32⟩
  | .hbm, ⟨42, _⟩ => ⟨S1x50000, .f32⟩
  | .hbm, ⟨43, _⟩ => ⟨S1x50000, .f32⟩
  | .hbm, ⟨44, _⟩ => ⟨S1x50000, .f32⟩
  | .local .tc .vmem, ⟨0, _⟩ => ⟨S1x8192, .f32⟩
  | .local .tc .vmem, ⟨1, _⟩ => ⟨S1x8192, .f32⟩
  | .local .tc .vmem, ⟨2, _⟩ => ⟨S1x8192, .i32⟩
  | .local .tc .vmem, ⟨3, _⟩ => ⟨S32x50176, .f32⟩
  | .local .tc .vmem, ⟨4, _⟩ => ⟨S1x50000, .f32⟩
  | .local .tc .vmem, ⟨5, _⟩ => ⟨S1x50000, .f32⟩
  | .local .tc .vmem, ⟨6, _⟩ => ⟨S1x50000, .f32⟩
  | .local .tc .vmem, ⟨7, _⟩ => ⟨S1x50000, .f32⟩
  | .local .tc .vmem, ⟨8, _⟩ => ⟨S1x50000, .f32⟩
  | .local .tc .vmem, ⟨9, _⟩ => ⟨S1x50000, .f32⟩
  | .local .tc .vmem, ⟨10, _⟩ => ⟨S1x50000, .f32⟩
  | .local .tc .vmem, ⟨11, _⟩ => ⟨S1x50000, .f32⟩
  | .local .tc .vmem, ⟨12, _⟩ => ⟨S1x50000, .f32⟩
  | .local .tc .vmem, ⟨13, _⟩ => ⟨S1x50000, .f32⟩
  | .local .tc .vmem, ⟨14, _⟩ => ⟨S1x50000, .f32⟩
  | .local .tc .vmem, ⟨15, _⟩ => ⟨S1x50000, .f32⟩
  | .local .tc .vmem, ⟨16, _⟩ => ⟨S1x50000, .f32⟩
  | .local .tc .smem, ⟨0, _⟩ => ⟨S2, .f32⟩
  | .local .tc .smem, ⟨1, _⟩ => ⟨S2, .f32⟩
  | .local .scVector .vmem, ⟨0, _⟩ => ⟨S8192, .i32⟩
  | .local .scVector .vmem, ⟨1, _⟩ => ⟨S50176, .f32⟩
  | .local .scVector .vmem, ⟨2, _⟩ => ⟨S10000, .i32⟩
  | .local .scVector .vmem, ⟨3, _⟩ => ⟨S10000, .i32⟩
  | .local .scVector .vmem, ⟨4, _⟩ => ⟨S10000, .i32⟩
  | .local .scVector .vmem, ⟨5, _⟩ => ⟨S10000, .i32⟩
  | .local .scVector .vmem, ⟨6, _⟩ => ⟨S10000, .f32⟩
  | .local .scVector .vmem, ⟨7, _⟩ => ⟨S10000, .f32⟩
  | .local .scVector .vmem, ⟨8, _⟩ => ⟨S16, .f32⟩
  | .local .scVector .vmem, ⟨9, _⟩ => ⟨S6272, .f32⟩
  | .local .scVector .vmem, ⟨10, _⟩ => ⟨S16, .f32⟩
  | _, _ => ⟨S1x250000, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .smem, ⟨0, _⟩ => true
  | .smem, ⟨1, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 26 → Bool
  | ⟨0, _⟩ => true
  | ⟨1, _⟩ => true
  | ⟨2, _⟩ => true
  | ⟨3, _⟩ => false
  | ⟨4, _⟩ => false
  | ⟨5, _⟩ => false
  | ⟨6, _⟩ => false
  | ⟨7, _⟩ => false
  | ⟨8, _⟩ => false
  | ⟨9, _⟩ => false
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTables nBuf rfl bufTy 4 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_c : Ref sig .tc := ⟨.hbm, 23, rfl⟩
abbrev main_call0_v0 : Ref sig .tc := ⟨.hbm, 24, rfl⟩
abbrev main_v4 : Ref sig .tc := ⟨.hbm, 25, rfl⟩
abbrev main_c_0 : Ref sig .tc := ⟨.hbm, 26, rfl⟩
abbrev main_call1_v0 : Ref sig .tc := ⟨.hbm, 27, rfl⟩
abbrev main_v5 : Ref sig .tc := ⟨.hbm, 28, rfl⟩
abbrev main_c_1 : Ref sig .tc := ⟨.hbm, 29, rfl⟩
abbrev main_call2_v0 : Ref sig .tc := ⟨.hbm, 30, rfl⟩
abbrev main_v6 : Ref sig .tc := ⟨.hbm, 31, rfl⟩
abbrev main_c_2 : Ref sig .tc := ⟨.hbm, 32, rfl⟩
abbrev main_call3_v0 : Ref sig .tc := ⟨.hbm, 33, rfl⟩
abbrev main_v7 : Ref sig .tc := ⟨.hbm, 34, rfl⟩
abbrev main_v8 : Ref sig .tc := ⟨.hbm, 35, rfl⟩
abbrev main_v9 : Ref sig .tc := ⟨.hbm, 36, rfl⟩
abbrev main_v10 : Ref sig .tc := ⟨.hbm, 37, rfl⟩
abbrev main_v11 : Ref sig .tc := ⟨.hbm, 38, rfl⟩
abbrev main_v12 : Ref sig .tc := ⟨.hbm, 39, rfl⟩
abbrev main_v13 : Ref sig .tc := ⟨.hbm, 40, rfl⟩
abbrev main_v14 : Ref sig .tc := ⟨.hbm, 41, rfl⟩
abbrev main_v15 : Ref sig .tc := ⟨.hbm, 42, rfl⟩
abbrev main_v16 : Ref sig .tc := ⟨.hbm, 43, rfl⟩
abbrev main_v17 : Ref sig .tc := ⟨.hbm, 44, rfl⟩
abbrev main_v8_scv : Ref sig .scVector := ⟨.hbm, 35, rfl⟩
abbrev main_v1_scv : Ref sig .scVector := ⟨.hbm, 20, rfl⟩
abbrev main_v3_scv : Ref sig .scVector := ⟨.hbm, 22, rfl⟩
abbrev main_arg6_scv : Ref sig .scVector := ⟨.hbm, 6, rfl⟩
abbrev main_v4_scv : Ref sig .scVector := ⟨.hbm, 25, rfl⟩
abbrev main_v6_scv : Ref sig .scVector := ⟨.hbm, 31, rfl⟩
abbrev main_v5_scv : Ref sig .scVector := ⟨.hbm, 28, rfl⟩
abbrev main_v9_scv : Ref sig .scVector := ⟨.hbm, 36, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc2_stg0_0 : Ref sig .tc := ⟨.vmem, 3, rfl⟩
abbrev cc2_stg1_0 : Ref sig .tc := ⟨.vmem, 4, rfl⟩
abbrev cc2_stg2_0 : Ref sig .tc := ⟨.vmem, 5, rfl⟩
abbrev cc2_stg3_0 : Ref sig .tc := ⟨.vmem, 6, rfl⟩
abbrev cc2_stg4_0 : Ref sig .tc := ⟨.vmem, 7, rfl⟩
abbrev cc2_stg5_0 : Ref sig .tc := ⟨.vmem, 8, rfl⟩
abbrev cc2_stg6_0 : Ref sig .tc := ⟨.vmem, 9, rfl⟩
abbrev cc2_stg7_0 : Ref sig .tc := ⟨.vmem, 10, rfl⟩
abbrev cc2_stg8_0 : Ref sig .tc := ⟨.vmem, 11, rfl⟩
abbrev cc2_stg9_0 : Ref sig .tc := ⟨.vmem, 12, rfl⟩
abbrev cc2_stg10_0 : Ref sig .tc := ⟨.vmem, 13, rfl⟩
abbrev cc2_stg11_0 : Ref sig .tc := ⟨.vmem, 14, rfl⟩
abbrev cc2_stg12_0 : Ref sig .tc := ⟨.vmem, 15, rfl⟩
abbrev cc2_stg15_0 : Ref sig .tc := ⟨.vmem, 16, rfl⟩
abbrev cc2_stg13_0 : Ref sig .tc := ⟨.smem, 0, rfl⟩
abbrev cc2_stg14_0 : Ref sig .tc := ⟨.smem, 1, rfl⟩
abbrev cc1_scratch0 : Ref sig .scVector := ⟨.vmem, 0, rfl⟩
abbrev cc1_scratch1 : Ref sig .scVector := ⟨.vmem, 1, rfl⟩
abbrev cc1_scratch2 : Ref sig .scVector := ⟨.vmem, 2, rfl⟩
abbrev cc1_scratch3 : Ref sig .scVector := ⟨.vmem, 3, rfl⟩
abbrev cc1_scratch4 : Ref sig .scVector := ⟨.vmem, 4, rfl⟩
abbrev cc1_scratch5 : Ref sig .scVector := ⟨.vmem, 5, rfl⟩
abbrev cc1_scratch6 : Ref sig .scVector := ⟨.vmem, 6, rfl⟩
abbrev cc1_scratch7 : Ref sig .scVector := ⟨.vmem, 7, rfl⟩
abbrev cc1_scratch8 : Ref sig .scVector := ⟨.vmem, 8, rfl⟩
abbrev cc1_scratch9 : Ref sig .scVector := ⟨.vmem, 9, rfl⟩
abbrev cc1_scratch10 : Ref sig .scVector := ⟨.vmem, 10, rfl⟩
abbrev cc0_sem0_0 : DmaSem sig := 0
abbrev cc0_sem0_1 : DmaSem sig := 1
abbrev cc0_sem1_0 : DmaSem sig := 2
abbrev cc2_sem0_0 : DmaSem sig := 10
abbrev cc2_sem1_0 : DmaSem sig := 11
abbrev cc2_sem2_0 : DmaSem sig := 12
abbrev cc2_sem3_0 : DmaSem sig := 13
abbrev cc2_sem4_0 : DmaSem sig := 14
abbrev cc2_sem5_0 : DmaSem sig := 15
abbrev cc2_sem6_0 : DmaSem sig := 16
abbrev cc2_sem7_0 : DmaSem sig := 17
abbrev cc2_sem8_0 : DmaSem sig := 18
abbrev cc2_sem9_0 : DmaSem sig := 19
abbrev cc2_sem10_0 : DmaSem sig := 20
abbrev cc2_sem11_0 : DmaSem sig := 21
abbrev cc2_sem12_0 : DmaSem sig := 22
abbrev cc2_sem13_0 : DmaSem sig := 23
abbrev cc2_sem14_0 : DmaSem sig := 24
abbrev cc2_sem15_0 : DmaSem sig := 25
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨1, ![32], ![false]⟩

def k0_cond1 (i : grid0.Coords) : BitVec 1 :=
  let arg0 : BitVec 32 := BitVec.ofNat 32 (i 0).val
  let c0_i32 : BitVec 32 := 0#32
  let v5 : BitVec 1 := Scalar.cmpi .eq arg0 c0_i32
  let v6 : BitVec 32 := Scalar.extui v5
  let c0_i32_1 : BitVec 32 := 0#32
  let v7 : BitVec 1 := Scalar.cmpi .ne v6 c0_i32_1
  v7

def k0_cond2 (i : grid0.Coords) : BitVec 1 :=
  let arg0 : BitVec 32 := BitVec.ofNat 32 (i 0).val
  let c0_i32_2 : BitVec 32 := 0#32
  let v8 : BitVec 1 := Scalar.cmpi .sgt arg0 c0_i32_2
  let v9 : BitVec 32 := Scalar.extui v8
  let c0_i32_3 : BitVec 32 := 0#32
  let v10 : BitVec 1 := Scalar.cmpi .ne v9 c0_i32_3
  v10

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x8192 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x8192 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev grid1 : Pipeline.Grid := ⟨2, ![2, 16], ![false, false]⟩

def k1_off1 (i : grid1.Coords) : Fin 2 → Nat :=
  let c0_i32_0 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32 : BitVec 32 := 4#32
  let v2 : BitVec 32 := Scalar.muli v1 c4_i32
  let c1568_i32 : BitVec 32 := 1568#32
  let v3 : BitVec 32 := Scalar.muli v2 c1568_i32
  ![0, v3.toNat]
@[reducible] def k1_t1_loop : Scf.Loop 32 :=
  let c0_i32_1 : BitVec 32 := 0#32
  let c3136_i32 : BitVec 32 := 3136#32
  let v5 : BitVec 32 := Scalar.addi c0_i32_1 c3136_i32
  let c1_i32 : BitVec 32 := 1#32
  ⟨c0_i32_1, v5, c1_i32⟩
def k1_off2 (k1_t1 : Fin k1_t1_loop.trips) : Fin 1 → Nat :=
  let c0_i32_32 : BitVec 32 := 0#32
  let c0_i32_1 : BitVec 32 := 0#32
  let c1_i32 : BitVec 32 := 1#32
  let arg23 : BitVec 32 := Scf.iv c0_i32_1 c1_i32 k1_t1
  let c16_i32 : BitVec 32 := 16#32
  let v91 : BitVec 32 := Scalar.muli arg23 c16_i32
  let v92 : BitVec 32 := Scalar.addi c0_i32_32 v91
  let v93 : Index := Scalar.indexCast v92
  ![v93.toNat]

def k1_chk1 (v9 : IVec S16 32) : Prop :=
  (∀ a x, ((![v9] : Fin 1 → IVec S16 32) a x).toNat < S16.size a)
instance k1_chk1.dec : ∀ (v9 : IVec S16 32), Decidable (k1_chk1 v9) := fun v9 => decidable_of_iff' _ (Iff.of_eq (k1_chk1.eq_1 v9))
theorem k1_idx1_inb : ∀ (v9 : IVec S16 32) (k1_hw1 : k1_chk1 v9), ∀ a x, ((![v9] : Fin 1 → IVec S16 32) a x).toNat < S16.size a := fun v9 k1_hw1 => k1_hw1

def k1_chk2 (v11 : IVec S16 32) : Prop :=
  (∀ a x, ((![v11] : Fin 1 → IVec S16 32) a x).toNat < S16.size a)
instance k1_chk2.dec : ∀ (v11 : IVec S16 32), Decidable (k1_chk2 v11) := fun v11 => decidable_of_iff' _ (Iff.of_eq (k1_chk2.eq_1 v11))
theorem k1_idx2_inb : ∀ (v11 : IVec S16 32) (k1_hw2 : k1_chk2 v11), ∀ a x, ((![v11] : Fin 1 → IVec S16 32) a x).toNat < S16.size a := fun v11 k1_hw2 => k1_hw2

def k1_chk3 (v13 : IVec S16 32) : Prop :=
  (∀ a x, ((![v13] : Fin 1 → IVec S16 32) a x).toNat < S16.size a)
instance k1_chk3.dec : ∀ (v13 : IVec S16 32), Decidable (k1_chk3 v13) := fun v13 => decidable_of_iff' _ (Iff.of_eq (k1_chk3.eq_1 v13))
theorem k1_idx3_inb : ∀ (v13 : IVec S16 32) (k1_hw3 : k1_chk3 v13), ∀ a x, ((![v13] : Fin 1 → IVec S16 32) a x).toNat < S16.size a := fun v13 k1_hw3 => k1_hw3

def k1_chk4 (v15 : IVec S16 32) : Prop :=
  (∀ a x, ((![v15] : Fin 1 → IVec S16 32) a x).toNat < S16.size a)
instance k1_chk4.dec : ∀ (v15 : IVec S16 32), Decidable (k1_chk4 v15) := fun v15 => decidable_of_iff' _ (Iff.of_eq (k1_chk4.eq_1 v15))
theorem k1_idx4_inb : ∀ (v15 : IVec S16 32) (k1_hw4 : k1_chk4 v15), ∀ a x, ((![v15] : Fin 1 → IVec S16 32) a x).toNat < S16.size a := fun v15 k1_hw4 => k1_hw4
@[reducible] def k1_t2_loop : Scf.Loop 32 :=
  let c0_i32_8 : BitVec 32 := 0#32
  let c98_i32 : BitVec 32 := 98#32
  let v18 : BitVec 32 := Scalar.addi c0_i32_8 c98_i32
  let c1_i32_9 : BitVec 32 := 1#32
  ⟨c0_i32_8, v18, c1_i32_9⟩

def k1_chk5 (v96 : IVec S16 32) : Prop :=
  (∀ a x, ((![v96] : Fin 1 → IVec S16 32) a x).toNat < S6272.size a)
instance k1_chk5.dec : ∀ (v96 : IVec S16 32), Decidable (k1_chk5 v96) := fun v96 => decidable_of_iff' _ (Iff.of_eq (k1_chk5.eq_1 v96))
theorem k1_idx5_inb : ∀ (v96 : IVec S16 32) (k1_hw5 : k1_chk5 v96), ∀ a x, ((![v96] : Fin 1 → IVec S16 32) a x).toNat < S6272.size a := fun v96 k1_hw5 => k1_hw5

def k1_chk6 (v101 : IVec S16 32) : Prop :=
  (∀ a x, ((![v101] : Fin 1 → IVec S16 32) a x).toNat < S6272.size a)
instance k1_chk6.dec : ∀ (v101 : IVec S16 32), Decidable (k1_chk6 v101) := fun v101 => decidable_of_iff' _ (Iff.of_eq (k1_chk6.eq_1 v101))
theorem k1_idx6_inb : ∀ (v101 : IVec S16 32) (k1_hw6 : k1_chk6 v101), ∀ a x, ((![v101] : Fin 1 → IVec S16 32) a x).toNat < S6272.size a := fun v101 k1_hw6 => k1_hw6

def k1_chk7 (v107 : IVec S16 32) : Prop :=
  (∀ a x, ((![v107] : Fin 1 → IVec S16 32) a x).toNat < S6272.size a)
instance k1_chk7.dec : ∀ (v107 : IVec S16 32), Decidable (k1_chk7 v107) := fun v107 => decidable_of_iff' _ (Iff.of_eq (k1_chk7.eq_1 v107))
theorem k1_idx7_inb : ∀ (v107 : IVec S16 32) (k1_hw7 : k1_chk7 v107), ∀ a x, ((![v107] : Fin 1 → IVec S16 32) a x).toNat < S6272.size a := fun v107 k1_hw7 => k1_hw7

def k1_chk8 (v113 : IVec S16 32) : Prop :=
  (∀ a x, ((![v113] : Fin 1 → IVec S16 32) a x).toNat < S6272.size a)
instance k1_chk8.dec : ∀ (v113 : IVec S16 32), Decidable (k1_chk8 v113) := fun v113 => decidable_of_iff' _ (Iff.of_eq (k1_chk8.eq_1 v113))
theorem k1_idx8_inb : ∀ (v113 : IVec S16 32) (k1_hw8 : k1_chk8 v113), ∀ a x, ((![v113] : Fin 1 → IVec S16 32) a x).toNat < S6272.size a := fun v113 k1_hw8 => k1_hw8
def k1_off3 (i : grid1.Coords) (k1_t2 : Fin k1_t2_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1568_i32_7 : BitVec 32 := 1568#32
  let v17 : BitVec 32 := Scalar.muli v1 c1568_i32_7
  let c0_i32_32 : BitVec 32 := 0#32
  let c0_i32_8 : BitVec 32 := 0#32
  let c1_i32_9 : BitVec 32 := 1#32
  let arg23 : BitVec 32 := Scf.iv c0_i32_8 c1_i32_9 k1_t2
  let c16_i32 : BitVec 32 := 16#32
  let v91 : BitVec 32 := Scalar.muli arg23 c16_i32
  let v92 : BitVec 32 := Scalar.addi c0_i32_32 v91
  let v117 : BitVec 32 := Scalar.addi v17 v92
  let c0_i32_38 : BitVec 32 := 0#32
  let v118 : BitVec 32 := Scalar.addi v117 c0_i32_38
  let v119 : Index := Scalar.indexCast v118
  ![v119.toNat]
def k1_off4 (i : grid1.Coords) (c0_i32_12 : BitVec 32) : Fin 1 → Nat :=
  let c0_i32_11 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c50000_i32 : BitVec 32 := 50000#32
  let v19 : BitVec 32 := Scalar.muli v1 c50000_i32
  let v20 : BitVec 32 := Scalar.addi c0_i32_11 v19
  let v21 : BitVec 32 := Scalar.addi v20 c0_i32_12
  ![v21.toNat]
@[reducible] def k1_t3_loop : Scf.Loop 32 :=
  let c0_i32_13 : BitVec 32 := 0#32
  let c125_i32 : BitVec 32 := 125#32
  let v41 : BitVec 32 := Scalar.addi c0_i32_13 c125_i32
  let c1_i32_14 : BitVec 32 := 1#32
  ⟨c0_i32_13, v41, c1_i32_14⟩
def k1_off5 (k1_t3 : Fin k1_t3_loop.trips) : Fin 1 → Nat :=
  let c0_i32_32 : BitVec 32 := 0#32
  let c0_i32_13 : BitVec 32 := 0#32
  let c1_i32_14 : BitVec 32 := 1#32
  let arg23 : BitVec 32 := Scf.iv c0_i32_13 c1_i32_14 k1_t3
  let c80_i32 : BitVec 32 := 80#32
  let v91 : BitVec 32 := Scalar.muli arg23 c80_i32
  let v92 : BitVec 32 := Scalar.addi c0_i32_32 v91
  let c0_i32_33 : BitVec 32 := 0#32
  let v93 : BitVec 32 := Scalar.addi v92 c0_i32_33
  let v94 : Index := Scalar.indexCast v93
  ![v94.toNat]

def k1_chk9 (v99 : IVec S16 32) : Prop :=
  (∀ a x, ((![v99] : Fin 1 → IVec S16 32) a x).toNat < S8192.size a)
instance k1_chk9.dec : ∀ (v99 : IVec S16 32), Decidable (k1_chk9 v99) := fun v99 => decidable_of_iff' _ (Iff.of_eq (k1_chk9.eq_1 v99))
theorem k1_idx9_inb : ∀ (v99 : IVec S16 32) (k1_hw9 : k1_chk9 v99), ∀ a x, ((![v99] : Fin 1 → IVec S16 32) a x).toNat < S8192.size a := fun v99 k1_hw9 => k1_hw9

def k1_chk10 (v109 : IVec S16 32) : Prop :=
  (∀ a x, ((![v109] : Fin 1 → IVec S16 32) a x).toNat < S16.size a)
instance k1_chk10.dec : ∀ (v109 : IVec S16 32), Decidable (k1_chk10 v109) := fun v109 => decidable_of_iff' _ (Iff.of_eq (k1_chk10.eq_1 v109))
theorem k1_idx10_inb : ∀ (v109 : IVec S16 32) (k1_hw10 : k1_chk10 v109), ∀ a x, ((![v109] : Fin 1 → IVec S16 32) a x).toNat < S16.size a := fun v109 k1_hw10 => k1_hw10
def k1_off6 (k1_t3 : Fin k1_t3_loop.trips) : Fin 1 → Nat :=
  let c0_i32_32 : BitVec 32 := 0#32
  let c0_i32_13 : BitVec 32 := 0#32
  let c1_i32_14 : BitVec 32 := 1#32
  let arg23 : BitVec 32 := Scf.iv c0_i32_13 c1_i32_14 k1_t3
  let c80_i32 : BitVec 32 := 80#32
  let v91 : BitVec 32 := Scalar.muli arg23 c80_i32
  let v92 : BitVec 32 := Scalar.addi c0_i32_32 v91
  let c0_i32_33 : BitVec 32 := 0#32
  let v93 : BitVec 32 := Scalar.addi v92 c0_i32_33
  let v111 : Index := Scalar.indexCast v93
  ![v111.toNat]

def k1_chk11 (v115 : IVec S16 32) : Prop :=
  (∀ a x, ((![v115] : Fin 1 → IVec S16 32) a x).toNat < S50176.size a)
instance k1_chk11.dec : ∀ (v115 : IVec S16 32), Decidable (k1_chk11 v115) := fun v115 => decidable_of_iff' _ (Iff.of_eq (k1_chk11.eq_1 v115))
theorem k1_idx11_inb : ∀ (v115 : IVec S16 32) (k1_hw11 : k1_chk11 v115), ∀ a x, ((![v115] : Fin 1 → IVec S16 32) a x).toNat < S50176.size a := fun v115 k1_hw11 => k1_hw11
def k1_off7 (k1_t3 : Fin k1_t3_loop.trips) : Fin 1 → Nat :=
  let c0_i32_32 : BitVec 32 := 0#32
  let c0_i32_13 : BitVec 32 := 0#32
  let c1_i32_14 : BitVec 32 := 1#32
  let arg23 : BitVec 32 := Scf.iv c0_i32_13 c1_i32_14 k1_t3
  let c80_i32 : BitVec 32 := 80#32
  let v91 : BitVec 32 := Scalar.muli arg23 c80_i32
  let v92 : BitVec 32 := Scalar.addi c0_i32_32 v91
  let c16_i32 : BitVec 32 := 16#32
  let v116 : BitVec 32 := Scalar.addi v92 c16_i32
  let v117 : Index := Scalar.indexCast v116
  ![v117.toNat]

def k1_chk12 (v122 : IVec S16 32) : Prop :=
  (∀ a x, ((![v122] : Fin 1 → IVec S16 32) a x).toNat < S8192.size a)
instance k1_chk12.dec : ∀ (v122 : IVec S16 32), Decidable (k1_chk12 v122) := fun v122 => decidable_of_iff' _ (Iff.of_eq (k1_chk12.eq_1 v122))
theorem k1_idx12_inb : ∀ (v122 : IVec S16 32) (k1_hw12 : k1_chk12 v122), ∀ a x, ((![v122] : Fin 1 → IVec S16 32) a x).toNat < S8192.size a := fun v122 k1_hw12 => k1_hw12

def k1_chk13 (v132 : IVec S16 32) : Prop :=
  (∀ a x, ((![v132] : Fin 1 → IVec S16 32) a x).toNat < S16.size a)
instance k1_chk13.dec : ∀ (v132 : IVec S16 32), Decidable (k1_chk13 v132) := fun v132 => decidable_of_iff' _ (Iff.of_eq (k1_chk13.eq_1 v132))
theorem k1_idx13_inb : ∀ (v132 : IVec S16 32) (k1_hw13 : k1_chk13 v132), ∀ a x, ((![v132] : Fin 1 → IVec S16 32) a x).toNat < S16.size a := fun v132 k1_hw13 => k1_hw13
def k1_off8 (k1_t3 : Fin k1_t3_loop.trips) : Fin 1 → Nat :=
  let c0_i32_32 : BitVec 32 := 0#32
  let c0_i32_13 : BitVec 32 := 0#32
  let c1_i32_14 : BitVec 32 := 1#32
  let arg23 : BitVec 32 := Scf.iv c0_i32_13 c1_i32_14 k1_t3
  let c80_i32 : BitVec 32 := 80#32
  let v91 : BitVec 32 := Scalar.muli arg23 c80_i32
  let v92 : BitVec 32 := Scalar.addi c0_i32_32 v91
  let c16_i32 : BitVec 32 := 16#32
  let v116 : BitVec 32 := Scalar.addi v92 c16_i32
  let v134 : Index := Scalar.indexCast v116
  ![v134.toNat]

def k1_chk14 (v138 : IVec S16 32) : Prop :=
  (∀ a x, ((![v138] : Fin 1 → IVec S16 32) a x).toNat < S50176.size a)
instance k1_chk14.dec : ∀ (v138 : IVec S16 32), Decidable (k1_chk14 v138) := fun v138 => decidable_of_iff' _ (Iff.of_eq (k1_chk14.eq_1 v138))
theorem k1_idx14_inb : ∀ (v138 : IVec S16 32) (k1_hw14 : k1_chk14 v138), ∀ a x, ((![v138] : Fin 1 → IVec S16 32) a x).toNat < S50176.size a := fun v138 k1_hw14 => k1_hw14
def k1_off9 (k1_t3 : Fin k1_t3_loop.trips) : Fin 1 → Nat :=
  let c0_i32_32 : BitVec 32 := 0#32
  let c0_i32_13 : BitVec 32 := 0#32
  let c1_i32_14 : BitVec 32 := 1#32
  let arg23 : BitVec 32 := Scf.iv c0_i32_13 c1_i32_14 k1_t3
  let c80_i32 : BitVec 32 := 80#32
  let v91 : BitVec 32 := Scalar.muli arg23 c80_i32
  let v92 : BitVec 32 := Scalar.addi c0_i32_32 v91
  let c32_i32 : BitVec 32 := 32#32
  let v139 : BitVec 32 := Scalar.addi v92 c32_i32
  let v140 : Index := Scalar.indexCast v139
  ![v140.toNat]

def k1_chk15 (v145 : IVec S16 32) : Prop :=
  (∀ a x, ((![v145] : Fin 1 → IVec S16 32) a x).toNat < S8192.size a)
instance k1_chk15.dec : ∀ (v145 : IVec S16 32), Decidable (k1_chk15 v145) := fun v145 => decidable_of_iff' _ (Iff.of_eq (k1_chk15.eq_1 v145))
theorem k1_idx15_inb : ∀ (v145 : IVec S16 32) (k1_hw15 : k1_chk15 v145), ∀ a x, ((![v145] : Fin 1 → IVec S16 32) a x).toNat < S8192.size a := fun v145 k1_hw15 => k1_hw15

def k1_chk16 (v155 : IVec S16 32) : Prop :=
  (∀ a x, ((![v155] : Fin 1 → IVec S16 32) a x).toNat < S16.size a)
instance k1_chk16.dec : ∀ (v155 : IVec S16 32), Decidable (k1_chk16 v155) := fun v155 => decidable_of_iff' _ (Iff.of_eq (k1_chk16.eq_1 v155))
theorem k1_idx16_inb : ∀ (v155 : IVec S16 32) (k1_hw16 : k1_chk16 v155), ∀ a x, ((![v155] : Fin 1 → IVec S16 32) a x).toNat < S16.size a := fun v155 k1_hw16 => k1_hw16
def k1_off10 (k1_t3 : Fin k1_t3_loop.trips) : Fin 1 → Nat :=
  let c0_i32_32 : BitVec 32 := 0#32
  let c0_i32_13 : BitVec 32 := 0#32
  let c1_i32_14 : BitVec 32 := 1#32
  let arg23 : BitVec 32 := Scf.iv c0_i32_13 c1_i32_14 k1_t3
  let c80_i32 : BitVec 32 := 80#32
  let v91 : BitVec 32 := Scalar.muli arg23 c80_i32
  let v92 : BitVec 32 := Scalar.addi c0_i32_32 v91
  let c32_i32 : BitVec 32 := 32#32
  let v139 : BitVec 32 := Scalar.addi v92 c32_i32
  let v157 : Index := Scalar.indexCast v139
  ![v157.toNat]

def k1_chk17 (v161 : IVec S16 32) : Prop :=
  (∀ a x, ((![v161] : Fin 1 → IVec S16 32) a x).toNat < S50176.size a)
instance k1_chk17.dec : ∀ (v161 : IVec S16 32), Decidable (k1_chk17 v161) := fun v161 => decidable_of_iff' _ (Iff.of_eq (k1_chk17.eq_1 v161))
theorem k1_idx17_inb : ∀ (v161 : IVec S16 32) (k1_hw17 : k1_chk17 v161), ∀ a x, ((![v161] : Fin 1 → IVec S16 32) a x).toNat < S50176.size a := fun v161 k1_hw17 => k1_hw17
def k1_off11 (k1_t3 : Fin k1_t3_loop.trips) : Fin 1 → Nat :=
  let c0_i32_32 : BitVec 32 := 0#32
  let c0_i32_13 : BitVec 32 := 0#32
  let c1_i32_14 : BitVec 32 := 1#32
  let arg23 : BitVec 32 := Scf.iv c0_i32_13 c1_i32_14 k1_t3
  let c80_i32 : BitVec 32 := 80#32
  let v91 : BitVec 32 := Scalar.muli arg23 c80_i32
  let v92 : BitVec 32 := Scalar.addi c0_i32_32 v91
  let c48_i32 : BitVec 32 := 48#32
  let v162 : BitVec 32 := Scalar.addi v92 c48_i32
  let v163 : Index := Scalar.indexCast v162
  ![v163.toNat]

def k1_chk18 (v168 : IVec S16 32) : Prop :=
  (∀ a x, ((![v168] : Fin 1 → IVec S16 32) a x).toNat < S8192.size a)
instance k1_chk18.dec : ∀ (v168 : IVec S16 32), Decidable (k1_chk18 v168) := fun v168 => decidable_of_iff' _ (Iff.of_eq (k1_chk18.eq_1 v168))
theorem k1_idx18_inb : ∀ (v168 : IVec S16 32) (k1_hw18 : k1_chk18 v168), ∀ a x, ((![v168] : Fin 1 → IVec S16 32) a x).toNat < S8192.size a := fun v168 k1_hw18 => k1_hw18

def k1_chk19 (v178 : IVec S16 32) : Prop :=
  (∀ a x, ((![v178] : Fin 1 → IVec S16 32) a x).toNat < S16.size a)
instance k1_chk19.dec : ∀ (v178 : IVec S16 32), Decidable (k1_chk19 v178) := fun v178 => decidable_of_iff' _ (Iff.of_eq (k1_chk19.eq_1 v178))
theorem k1_idx19_inb : ∀ (v178 : IVec S16 32) (k1_hw19 : k1_chk19 v178), ∀ a x, ((![v178] : Fin 1 → IVec S16 32) a x).toNat < S16.size a := fun v178 k1_hw19 => k1_hw19
def k1_off12 (k1_t3 : Fin k1_t3_loop.trips) : Fin 1 → Nat :=
  let c0_i32_32 : BitVec 32 := 0#32
  let c0_i32_13 : BitVec 32 := 0#32
  let c1_i32_14 : BitVec 32 := 1#32
  let arg23 : BitVec 32 := Scf.iv c0_i32_13 c1_i32_14 k1_t3
  let c80_i32 : BitVec 32 := 80#32
  let v91 : BitVec 32 := Scalar.muli arg23 c80_i32
  let v92 : BitVec 32 := Scalar.addi c0_i32_32 v91
  let c48_i32 : BitVec 32 := 48#32
  let v162 : BitVec 32 := Scalar.addi v92 c48_i32
  let v180 : Index := Scalar.indexCast v162
  ![v180.toNat]

def k1_chk20 (v184 : IVec S16 32) : Prop :=
  (∀ a x, ((![v184] : Fin 1 → IVec S16 32) a x).toNat < S50176.size a)
instance k1_chk20.dec : ∀ (v184 : IVec S16 32), Decidable (k1_chk20 v184) := fun v184 => decidable_of_iff' _ (Iff.of_eq (k1_chk20.eq_1 v184))
theorem k1_idx20_inb : ∀ (v184 : IVec S16 32) (k1_hw20 : k1_chk20 v184), ∀ a x, ((![v184] : Fin 1 → IVec S16 32) a x).toNat < S50176.size a := fun v184 k1_hw20 => k1_hw20
def k1_off13 (k1_t3 : Fin k1_t3_loop.trips) : Fin 1 → Nat :=
  let c0_i32_32 : BitVec 32 := 0#32
  let c0_i32_13 : BitVec 32 := 0#32
  let c1_i32_14 : BitVec 32 := 1#32
  let arg23 : BitVec 32 := Scf.iv c0_i32_13 c1_i32_14 k1_t3
  let c80_i32 : BitVec 32 := 80#32
  let v91 : BitVec 32 := Scalar.muli arg23 c80_i32
  let v92 : BitVec 32 := Scalar.addi c0_i32_32 v91
  let c64_i32 : BitVec 32 := 64#32
  let v185 : BitVec 32 := Scalar.addi v92 c64_i32
  let v186 : Index := Scalar.indexCast v185
  ![v186.toNat]

def k1_chk21 (v191 : IVec S16 32) : Prop :=
  (∀ a x, ((![v191] : Fin 1 → IVec S16 32) a x).toNat < S8192.size a)
instance k1_chk21.dec : ∀ (v191 : IVec S16 32), Decidable (k1_chk21 v191) := fun v191 => decidable_of_iff' _ (Iff.of_eq (k1_chk21.eq_1 v191))
theorem k1_idx21_inb : ∀ (v191 : IVec S16 32) (k1_hw21 : k1_chk21 v191), ∀ a x, ((![v191] : Fin 1 → IVec S16 32) a x).toNat < S8192.size a := fun v191 k1_hw21 => k1_hw21

def k1_chk22 (v201 : IVec S16 32) : Prop :=
  (∀ a x, ((![v201] : Fin 1 → IVec S16 32) a x).toNat < S16.size a)
instance k1_chk22.dec : ∀ (v201 : IVec S16 32), Decidable (k1_chk22 v201) := fun v201 => decidable_of_iff' _ (Iff.of_eq (k1_chk22.eq_1 v201))
theorem k1_idx22_inb : ∀ (v201 : IVec S16 32) (k1_hw22 : k1_chk22 v201), ∀ a x, ((![v201] : Fin 1 → IVec S16 32) a x).toNat < S16.size a := fun v201 k1_hw22 => k1_hw22
def k1_off14 (k1_t3 : Fin k1_t3_loop.trips) : Fin 1 → Nat :=
  let c0_i32_32 : BitVec 32 := 0#32
  let c0_i32_13 : BitVec 32 := 0#32
  let c1_i32_14 : BitVec 32 := 1#32
  let arg23 : BitVec 32 := Scf.iv c0_i32_13 c1_i32_14 k1_t3
  let c80_i32 : BitVec 32 := 80#32
  let v91 : BitVec 32 := Scalar.muli arg23 c80_i32
  let v92 : BitVec 32 := Scalar.addi c0_i32_32 v91
  let c64_i32 : BitVec 32 := 64#32
  let v185 : BitVec 32 := Scalar.addi v92 c64_i32
  let v203 : Index := Scalar.indexCast v185
  ![v203.toNat]

def k1_chk23 (v207 : IVec S16 32) : Prop :=
  (∀ a x, ((![v207] : Fin 1 → IVec S16 32) a x).toNat < S50176.size a)
instance k1_chk23.dec : ∀ (v207 : IVec S16 32), Decidable (k1_chk23 v207) := fun v207 => decidable_of_iff' _ (Iff.of_eq (k1_chk23.eq_1 v207))
theorem k1_idx23_inb : ∀ (v207 : IVec S16 32) (k1_hw23 : k1_chk23 v207), ∀ a x, ((![v207] : Fin 1 → IVec S16 32) a x).toNat < S50176.size a := fun v207 k1_hw23 => k1_hw23
@[reducible] def k1_t4_loop : Scf.Loop 32 :=
  let c0_i32_16 : BitVec 32 := 0#32
  let c125_i32_17 : BitVec 32 := 125#32
  let v55 : BitVec 32 := Scalar.addi c0_i32_16 c125_i32_17
  let c1_i32_18 : BitVec 32 := 1#32
  ⟨c0_i32_16, v55, c1_i32_18⟩
def k1_off15 (k1_t4 : Fin k1_t4_loop.trips) : Fin 1 → Nat :=
  let c0_i32_32 : BitVec 32 := 0#32
  let c0_i32_16 : BitVec 32 := 0#32
  let c1_i32_18 : BitVec 32 := 1#32
  let arg23 : BitVec 32 := Scf.iv c0_i32_16 c1_i32_18 k1_t4
  let c80_i32 : BitVec 32 := 80#32
  let v91 : BitVec 32 := Scalar.muli arg23 c80_i32
  let v92 : BitVec 32 := Scalar.addi c0_i32_32 v91
  let c0_i32_33 : BitVec 32 := 0#32
  let v93 : BitVec 32 := Scalar.addi v92 c0_i32_33
  let v94 : Index := Scalar.indexCast v93
  ![v94.toNat]

def k1_chk24 (v99 : IVec S16 32) : Prop :=
  (∀ a x, ((![v99] : Fin 1 → IVec S16 32) a x).toNat < S8192.size a)
instance k1_chk24.dec : ∀ (v99 : IVec S16 32), Decidable (k1_chk24 v99) := fun v99 => decidable_of_iff' _ (Iff.of_eq (k1_chk24.eq_1 v99))
theorem k1_idx24_inb : ∀ (v99 : IVec S16 32) (k1_hw24 : k1_chk24 v99), ∀ a x, ((![v99] : Fin 1 → IVec S16 32) a x).toNat < S8192.size a := fun v99 k1_hw24 => k1_hw24

def k1_chk25 (v109 : IVec S16 32) : Prop :=
  (∀ a x, ((![v109] : Fin 1 → IVec S16 32) a x).toNat < S16.size a)
instance k1_chk25.dec : ∀ (v109 : IVec S16 32), Decidable (k1_chk25 v109) := fun v109 => decidable_of_iff' _ (Iff.of_eq (k1_chk25.eq_1 v109))
theorem k1_idx25_inb : ∀ (v109 : IVec S16 32) (k1_hw25 : k1_chk25 v109), ∀ a x, ((![v109] : Fin 1 → IVec S16 32) a x).toNat < S16.size a := fun v109 k1_hw25 => k1_hw25
def k1_off16 (k1_t4 : Fin k1_t4_loop.trips) : Fin 1 → Nat :=
  let c0_i32_32 : BitVec 32 := 0#32
  let c0_i32_16 : BitVec 32 := 0#32
  let c1_i32_18 : BitVec 32 := 1#32
  let arg23 : BitVec 32 := Scf.iv c0_i32_16 c1_i32_18 k1_t4
  let c80_i32 : BitVec 32 := 80#32
  let v91 : BitVec 32 := Scalar.muli arg23 c80_i32
  let v92 : BitVec 32 := Scalar.addi c0_i32_32 v91
  let c0_i32_33 : BitVec 32 := 0#32
  let v93 : BitVec 32 := Scalar.addi v92 c0_i32_33
  let v111 : Index := Scalar.indexCast v93
  ![v111.toNat]

def k1_chk26 (v115 : IVec S16 32) : Prop :=
  (∀ a x, ((![v115] : Fin 1 → IVec S16 32) a x).toNat < S50176.size a)
instance k1_chk26.dec : ∀ (v115 : IVec S16 32), Decidable (k1_chk26 v115) := fun v115 => decidable_of_iff' _ (Iff.of_eq (k1_chk26.eq_1 v115))
theorem k1_idx26_inb : ∀ (v115 : IVec S16 32) (k1_hw26 : k1_chk26 v115), ∀ a x, ((![v115] : Fin 1 → IVec S16 32) a x).toNat < S50176.size a := fun v115 k1_hw26 => k1_hw26
def k1_off17 (k1_t4 : Fin k1_t4_loop.trips) : Fin 1 → Nat :=
  let c0_i32_32 : BitVec 32 := 0#32
  let c0_i32_16 : BitVec 32 := 0#32
  let c1_i32_18 : BitVec 32 := 1#32
  let arg23 : BitVec 32 := Scf.iv c0_i32_16 c1_i32_18 k1_t4
  let c80_i32 : BitVec 32 := 80#32
  let v91 : BitVec 32 := Scalar.muli arg23 c80_i32
  let v92 : BitVec 32 := Scalar.addi c0_i32_32 v91
  let c16_i32 : BitVec 32 := 16#32
  let v116 : BitVec 32 := Scalar.addi v92 c16_i32
  let v117 : Index := Scalar.indexCast v116
  ![v117.toNat]

def k1_chk27 (v122 : IVec S16 32) : Prop :=
  (∀ a x, ((![v122] : Fin 1 → IVec S16 32) a x).toNat < S8192.size a)
instance k1_chk27.dec : ∀ (v122 : IVec S16 32), Decidable (k1_chk27 v122) := fun v122 => decidable_of_iff' _ (Iff.of_eq (k1_chk27.eq_1 v122))
theorem k1_idx27_inb : ∀ (v122 : IVec S16 32) (k1_hw27 : k1_chk27 v122), ∀ a x, ((![v122] : Fin 1 → IVec S16 32) a x).toNat < S8192.size a := fun v122 k1_hw27 => k1_hw27

def k1_chk28 (v132 : IVec S16 32) : Prop :=
  (∀ a x, ((![v132] : Fin 1 → IVec S16 32) a x).toNat < S16.size a)
instance k1_chk28.dec : ∀ (v132 : IVec S16 32), Decidable (k1_chk28 v132) := fun v132 => decidable_of_iff' _ (Iff.of_eq (k1_chk28.eq_1 v132))
theorem k1_idx28_inb : ∀ (v132 : IVec S16 32) (k1_hw28 : k1_chk28 v132), ∀ a x, ((![v132] : Fin 1 → IVec S16 32) a x).toNat < S16.size a := fun v132 k1_hw28 => k1_hw28
def k1_off18 (k1_t4 : Fin k1_t4_loop.trips) : Fin 1 → Nat :=
  let c0_i32_32 : BitVec 32 := 0#32
  let c0_i32_16 : BitVec 32 := 0#32
  let c1_i32_18 : BitVec 32 := 1#32
  let arg23 : BitVec 32 := Scf.iv c0_i32_16 c1_i32_18 k1_t4
  let c80_i32 : BitVec 32 := 80#32
  let v91 : BitVec 32 := Scalar.muli arg23 c80_i32
  let v92 : BitVec 32 := Scalar.addi c0_i32_32 v91
  let c16_i32 : BitVec 32 := 16#32
  let v116 : BitVec 32 := Scalar.addi v92 c16_i32
  let v134 : Index := Scalar.indexCast v116
  ![v134.toNat]

def k1_chk29 (v138 : IVec S16 32) : Prop :=
  (∀ a x, ((![v138] : Fin 1 → IVec S16 32) a x).toNat < S50176.size a)
instance k1_chk29.dec : ∀ (v138 : IVec S16 32), Decidable (k1_chk29 v138) := fun v138 => decidable_of_iff' _ (Iff.of_eq (k1_chk29.eq_1 v138))
theorem k1_idx29_inb : ∀ (v138 : IVec S16 32) (k1_hw29 : k1_chk29 v138), ∀ a x, ((![v138] : Fin 1 → IVec S16 32) a x).toNat < S50176.size a := fun v138 k1_hw29 => k1_hw29
def k1_off19 (k1_t4 : Fin k1_t4_loop.trips) : Fin 1 → Nat :=
  let c0_i32_32 : BitVec 32 := 0#32
  let c0_i32_16 : BitVec 32 := 0#32
  let c1_i32_18 : BitVec 32 := 1#32
  let arg23 : BitVec 32 := Scf.iv c0_i32_16 c1_i32_18 k1_t4
  let c80_i32 : BitVec 32 := 80#32
  let v91 : BitVec 32 := Scalar.muli arg23 c80_i32
  let v92 : BitVec 32 := Scalar.addi c0_i32_32 v91
  let c32_i32 : BitVec 32 := 32#32
  let v139 : BitVec 32 := Scalar.addi v92 c32_i32
  let v140 : Index := Scalar.indexCast v139
  ![v140.toNat]

def k1_chk30 (v145 : IVec S16 32) : Prop :=
  (∀ a x, ((![v145] : Fin 1 → IVec S16 32) a x).toNat < S8192.size a)
instance k1_chk30.dec : ∀ (v145 : IVec S16 32), Decidable (k1_chk30 v145) := fun v145 => decidable_of_iff' _ (Iff.of_eq (k1_chk30.eq_1 v145))
theorem k1_idx30_inb : ∀ (v145 : IVec S16 32) (k1_hw30 : k1_chk30 v145), ∀ a x, ((![v145] : Fin 1 → IVec S16 32) a x).toNat < S8192.size a := fun v145 k1_hw30 => k1_hw30

def k1_chk31 (v155 : IVec S16 32) : Prop :=
  (∀ a x, ((![v155] : Fin 1 → IVec S16 32) a x).toNat < S16.size a)
instance k1_chk31.dec : ∀ (v155 : IVec S16 32), Decidable (k1_chk31 v155) := fun v155 => decidable_of_iff' _ (Iff.of_eq (k1_chk31.eq_1 v155))
theorem k1_idx31_inb : ∀ (v155 : IVec S16 32) (k1_hw31 : k1_chk31 v155), ∀ a x, ((![v155] : Fin 1 → IVec S16 32) a x).toNat < S16.size a := fun v155 k1_hw31 => k1_hw31
def k1_off20 (k1_t4 : Fin k1_t4_loop.trips) : Fin 1 → Nat :=
  let c0_i32_32 : BitVec 32 := 0#32
  let c0_i32_16 : BitVec 32 := 0#32
  let c1_i32_18 : BitVec 32 := 1#32
  let arg23 : BitVec 32 := Scf.iv c0_i32_16 c1_i32_18 k1_t4
  let c80_i32 : BitVec 32 := 80#32
  let v91 : BitVec 32 := Scalar.muli arg23 c80_i32
  let v92 : BitVec 32 := Scalar.addi c0_i32_32 v91
  let c32_i32 : BitVec 32 := 32#32
  let v139 : BitVec 32 := Scalar.addi v92 c32_i32
  let v157 : Index := Scalar.indexCast v139
  ![v157.toNat]

def k1_chk32 (v161 : IVec S16 32) : Prop :=
  (∀ a x, ((![v161] : Fin 1 → IVec S16 32) a x).toNat < S50176.size a)
instance k1_chk32.dec : ∀ (v161 : IVec S16 32), Decidable (k1_chk32 v161) := fun v161 => decidable_of_iff' _ (Iff.of_eq (k1_chk32.eq_1 v161))
theorem k1_idx32_inb : ∀ (v161 : IVec S16 32) (k1_hw32 : k1_chk32 v161), ∀ a x, ((![v161] : Fin 1 → IVec S16 32) a x).toNat < S50176.size a := fun v161 k1_hw32 => k1_hw32
def k1_off21 (k1_t4 : Fin k1_t4_loop.trips) : Fin 1 → Nat :=
  let c0_i32_32 : BitVec 32 := 0#32
  let c0_i32_16 : BitVec 32 := 0#32
  let c1_i32_18 : BitVec 32 := 1#32
  let arg23 : BitVec 32 := Scf.iv c0_i32_16 c1_i32_18 k1_t4
  let c80_i32 : BitVec 32 := 80#32
  let v91 : BitVec 32 := Scalar.muli arg23 c80_i32
  let v92 : BitVec 32 := Scalar.addi c0_i32_32 v91
  let c48_i32 : BitVec 32 := 48#32
  let v162 : BitVec 32 := Scalar.addi v92 c48_i32
  let v163 : Index := Scalar.indexCast v162
  ![v163.toNat]

def k1_chk33 (v168 : IVec S16 32) : Prop :=
  (∀ a x, ((![v168] : Fin 1 → IVec S16 32) a x).toNat < S8192.size a)
instance k1_chk33.dec : ∀ (v168 : IVec S16 32), Decidable (k1_chk33 v168) := fun v168 => decidable_of_iff' _ (Iff.of_eq (k1_chk33.eq_1 v168))
theorem k1_idx33_inb : ∀ (v168 : IVec S16 32) (k1_hw33 : k1_chk33 v168), ∀ a x, ((![v168] : Fin 1 → IVec S16 32) a x).toNat < S8192.size a := fun v168 k1_hw33 => k1_hw33

def k1_chk34 (v178 : IVec S16 32) : Prop :=
  (∀ a x, ((![v178] : Fin 1 → IVec S16 32) a x).toNat < S16.size a)
instance k1_chk34.dec : ∀ (v178 : IVec S16 32), Decidable (k1_chk34 v178) := fun v178 => decidable_of_iff' _ (Iff.of_eq (k1_chk34.eq_1 v178))
theorem k1_idx34_inb : ∀ (v178 : IVec S16 32) (k1_hw34 : k1_chk34 v178), ∀ a x, ((![v178] : Fin 1 → IVec S16 32) a x).toNat < S16.size a := fun v178 k1_hw34 => k1_hw34
def k1_off22 (k1_t4 : Fin k1_t4_loop.trips) : Fin 1 → Nat :=
  let c0_i32_32 : BitVec 32 := 0#32
  let c0_i32_16 : BitVec 32 := 0#32
  let c1_i32_18 : BitVec 32 := 1#32
  let arg23 : BitVec 32 := Scf.iv c0_i32_16 c1_i32_18 k1_t4
  let c80_i32 : BitVec 32 := 80#32
  let v91 : BitVec 32 := Scalar.muli arg23 c80_i32
  let v92 : BitVec 32 := Scalar.addi c0_i32_32 v91
  let c48_i32 : BitVec 32 := 48#32
  let v162 : BitVec 32 := Scalar.addi v92 c48_i32
  let v180 : Index := Scalar.indexCast v162
  ![v180.toNat]

def k1_chk35 (v184 : IVec S16 32) : Prop :=
  (∀ a x, ((![v184] : Fin 1 → IVec S16 32) a x).toNat < S50176.size a)
instance k1_chk35.dec : ∀ (v184 : IVec S16 32), Decidable (k1_chk35 v184) := fun v184 => decidable_of_iff' _ (Iff.of_eq (k1_chk35.eq_1 v184))
theorem k1_idx35_inb : ∀ (v184 : IVec S16 32) (k1_hw35 : k1_chk35 v184), ∀ a x, ((![v184] : Fin 1 → IVec S16 32) a x).toNat < S50176.size a := fun v184 k1_hw35 => k1_hw35
def k1_off23 (k1_t4 : Fin k1_t4_loop.trips) : Fin 1 → Nat :=
  let c0_i32_32 : BitVec 32 := 0#32
  let c0_i32_16 : BitVec 32 := 0#32
  let c1_i32_18 : BitVec 32 := 1#32
  let arg23 : BitVec 32 := Scf.iv c0_i32_16 c1_i32_18 k1_t4
  let c80_i32 : BitVec 32 := 80#32
  let v91 : BitVec 32 := Scalar.muli arg23 c80_i32
  let v92 : BitVec 32 := Scalar.addi c0_i32_32 v91
  let c64_i32 : BitVec 32 := 64#32
  let v185 : BitVec 32 := Scalar.addi v92 c64_i32
  let v186 : Index := Scalar.indexCast v185
  ![v186.toNat]

def k1_chk36 (v191 : IVec S16 32) : Prop :=
  (∀ a x, ((![v191] : Fin 1 → IVec S16 32) a x).toNat < S8192.size a)
instance k1_chk36.dec : ∀ (v191 : IVec S16 32), Decidable (k1_chk36 v191) := fun v191 => decidable_of_iff' _ (Iff.of_eq (k1_chk36.eq_1 v191))
theorem k1_idx36_inb : ∀ (v191 : IVec S16 32) (k1_hw36 : k1_chk36 v191), ∀ a x, ((![v191] : Fin 1 → IVec S16 32) a x).toNat < S8192.size a := fun v191 k1_hw36 => k1_hw36

def k1_chk37 (v201 : IVec S16 32) : Prop :=
  (∀ a x, ((![v201] : Fin 1 → IVec S16 32) a x).toNat < S16.size a)
instance k1_chk37.dec : ∀ (v201 : IVec S16 32), Decidable (k1_chk37 v201) := fun v201 => decidable_of_iff' _ (Iff.of_eq (k1_chk37.eq_1 v201))
theorem k1_idx37_inb : ∀ (v201 : IVec S16 32) (k1_hw37 : k1_chk37 v201), ∀ a x, ((![v201] : Fin 1 → IVec S16 32) a x).toNat < S16.size a := fun v201 k1_hw37 => k1_hw37
def k1_off24 (k1_t4 : Fin k1_t4_loop.trips) : Fin 1 → Nat :=
  let c0_i32_32 : BitVec 32 := 0#32
  let c0_i32_16 : BitVec 32 := 0#32
  let c1_i32_18 : BitVec 32 := 1#32
  let arg23 : BitVec 32 := Scf.iv c0_i32_16 c1_i32_18 k1_t4
  let c80_i32 : BitVec 32 := 80#32
  let v91 : BitVec 32 := Scalar.muli arg23 c80_i32
  let v92 : BitVec 32 := Scalar.addi c0_i32_32 v91
  let c64_i32 : BitVec 32 := 64#32
  let v185 : BitVec 32 := Scalar.addi v92 c64_i32
  let v203 : Index := Scalar.indexCast v185
  ![v203.toNat]

def k1_chk38 (v207 : IVec S16 32) : Prop :=
  (∀ a x, ((![v207] : Fin 1 → IVec S16 32) a x).toNat < S50176.size a)
instance k1_chk38.dec : ∀ (v207 : IVec S16 32), Decidable (k1_chk38 v207) := fun v207 => decidable_of_iff' _ (Iff.of_eq (k1_chk38.eq_1 v207))
theorem k1_idx38_inb : ∀ (v207 : IVec S16 32) (k1_hw38 : k1_chk38 v207), ∀ a x, ((![v207] : Fin 1 → IVec S16 32) a x).toNat < S50176.size a := fun v207 k1_hw38 => k1_hw38
@[reducible] def k1_t5_loop : Scf.Loop 32 :=
  let c0_i32_20 : BitVec 32 := 0#32
  let c125_i32_21 : BitVec 32 := 125#32
  let v69 : BitVec 32 := Scalar.addi c0_i32_20 c125_i32_21
  let c1_i32_22 : BitVec 32 := 1#32
  ⟨c0_i32_20, v69, c1_i32_22⟩
def k1_off25 (k1_t5 : Fin k1_t5_loop.trips) : Fin 1 → Nat :=
  let c0_i32_32 : BitVec 32 := 0#32
  let c0_i32_20 : BitVec 32 := 0#32
  let c1_i32_22 : BitVec 32 := 1#32
  let arg23 : BitVec 32 := Scf.iv c0_i32_20 c1_i32_22 k1_t5
  let c80_i32 : BitVec 32 := 80#32
  let v91 : BitVec 32 := Scalar.muli arg23 c80_i32
  let v92 : BitVec 32 := Scalar.addi c0_i32_32 v91
  let c0_i32_33 : BitVec 32 := 0#32
  let v93 : BitVec 32 := Scalar.addi v92 c0_i32_33
  let v94 : Index := Scalar.indexCast v93
  ![v94.toNat]

def k1_chk39 (v99 : IVec S16 32) : Prop :=
  (∀ a x, ((![v99] : Fin 1 → IVec S16 32) a x).toNat < S8192.size a)
instance k1_chk39.dec : ∀ (v99 : IVec S16 32), Decidable (k1_chk39 v99) := fun v99 => decidable_of_iff' _ (Iff.of_eq (k1_chk39.eq_1 v99))
theorem k1_idx39_inb : ∀ (v99 : IVec S16 32) (k1_hw39 : k1_chk39 v99), ∀ a x, ((![v99] : Fin 1 → IVec S16 32) a x).toNat < S8192.size a := fun v99 k1_hw39 => k1_hw39

def k1_chk40 (v109 : IVec S16 32) : Prop :=
  (∀ a x, ((![v109] : Fin 1 → IVec S16 32) a x).toNat < S16.size a)
instance k1_chk40.dec : ∀ (v109 : IVec S16 32), Decidable (k1_chk40 v109) := fun v109 => decidable_of_iff' _ (Iff.of_eq (k1_chk40.eq_1 v109))
theorem k1_idx40_inb : ∀ (v109 : IVec S16 32) (k1_hw40 : k1_chk40 v109), ∀ a x, ((![v109] : Fin 1 → IVec S16 32) a x).toNat < S16.size a := fun v109 k1_hw40 => k1_hw40
def k1_off26 (k1_t5 : Fin k1_t5_loop.trips) : Fin 1 → Nat :=
  let c0_i32_32 : BitVec 32 := 0#32
  let c0_i32_20 : BitVec 32 := 0#32
  let c1_i32_22 : BitVec 32 := 1#32
  let arg23 : BitVec 32 := Scf.iv c0_i32_20 c1_i32_22 k1_t5
  let c80_i32 : BitVec 32 := 80#32
  let v91 : BitVec 32 := Scalar.muli arg23 c80_i32
  let v92 : BitVec 32 := Scalar.addi c0_i32_32 v91
  let c0_i32_33 : BitVec 32 := 0#32
  let v93 : BitVec 32 := Scalar.addi v92 c0_i32_33
  let v111 : Index := Scalar.indexCast v93
  ![v111.toNat]

def k1_chk41 (v115 : IVec S16 32) : Prop :=
  (∀ a x, ((![v115] : Fin 1 → IVec S16 32) a x).toNat < S50176.size a)
instance k1_chk41.dec : ∀ (v115 : IVec S16 32), Decidable (k1_chk41 v115) := fun v115 => decidable_of_iff' _ (Iff.of_eq (k1_chk41.eq_1 v115))
theorem k1_idx41_inb : ∀ (v115 : IVec S16 32) (k1_hw41 : k1_chk41 v115), ∀ a x, ((![v115] : Fin 1 → IVec S16 32) a x).toNat < S50176.size a := fun v115 k1_hw41 => k1_hw41
def k1_off27 (k1_t5 : Fin k1_t5_loop.trips) : Fin 1 → Nat :=
  let c0_i32_32 : BitVec 32 := 0#32
  let c0_i32_20 : BitVec 32 := 0#32
  let c1_i32_22 : BitVec 32 := 1#32
  let arg23 : BitVec 32 := Scf.iv c0_i32_20 c1_i32_22 k1_t5
  let c80_i32 : BitVec 32 := 80#32
  let v91 : BitVec 32 := Scalar.muli arg23 c80_i32
  let v92 : BitVec 32 := Scalar.addi c0_i32_32 v91
  let c16_i32 : BitVec 32 := 16#32
  let v116 : BitVec 32 := Scalar.addi v92 c16_i32
  let v117 : Index := Scalar.indexCast v116
  ![v117.toNat]

def k1_chk42 (v122 : IVec S16 32) : Prop :=
  (∀ a x, ((![v122] : Fin 1 → IVec S16 32) a x).toNat < S8192.size a)
instance k1_chk42.dec : ∀ (v122 : IVec S16 32), Decidable (k1_chk42 v122) := fun v122 => decidable_of_iff' _ (Iff.of_eq (k1_chk42.eq_1 v122))
theorem k1_idx42_inb : ∀ (v122 : IVec S16 32) (k1_hw42 : k1_chk42 v122), ∀ a x, ((![v122] : Fin 1 → IVec S16 32) a x).toNat < S8192.size a := fun v122 k1_hw42 => k1_hw42

def k1_chk43 (v132 : IVec S16 32) : Prop :=
  (∀ a x, ((![v132] : Fin 1 → IVec S16 32) a x).toNat < S16.size a)
instance k1_chk43.dec : ∀ (v132 : IVec S16 32), Decidable (k1_chk43 v132) := fun v132 => decidable_of_iff' _ (Iff.of_eq (k1_chk43.eq_1 v132))
theorem k1_idx43_inb : ∀ (v132 : IVec S16 32) (k1_hw43 : k1_chk43 v132), ∀ a x, ((![v132] : Fin 1 → IVec S16 32) a x).toNat < S16.size a := fun v132 k1_hw43 => k1_hw43
def k1_off28 (k1_t5 : Fin k1_t5_loop.trips) : Fin 1 → Nat :=
  let c0_i32_32 : BitVec 32 := 0#32
  let c0_i32_20 : BitVec 32 := 0#32
  let c1_i32_22 : BitVec 32 := 1#32
  let arg23 : BitVec 32 := Scf.iv c0_i32_20 c1_i32_22 k1_t5
  let c80_i32 : BitVec 32 := 80#32
  let v91 : BitVec 32 := Scalar.muli arg23 c80_i32
  let v92 : BitVec 32 := Scalar.addi c0_i32_32 v91
  let c16_i32 : BitVec 32 := 16#32
  let v116 : BitVec 32 := Scalar.addi v92 c16_i32
  let v134 : Index := Scalar.indexCast v116
  ![v134.toNat]

def k1_chk44 (v138 : IVec S16 32) : Prop :=
  (∀ a x, ((![v138] : Fin 1 → IVec S16 32) a x).toNat < S50176.size a)
instance k1_chk44.dec : ∀ (v138 : IVec S16 32), Decidable (k1_chk44 v138) := fun v138 => decidable_of_iff' _ (Iff.of_eq (k1_chk44.eq_1 v138))
theorem k1_idx44_inb : ∀ (v138 : IVec S16 32) (k1_hw44 : k1_chk44 v138), ∀ a x, ((![v138] : Fin 1 → IVec S16 32) a x).toNat < S50176.size a := fun v138 k1_hw44 => k1_hw44
def k1_off29 (k1_t5 : Fin k1_t5_loop.trips) : Fin 1 → Nat :=
  let c0_i32_32 : BitVec 32 := 0#32
  let c0_i32_20 : BitVec 32 := 0#32
  let c1_i32_22 : BitVec 32 := 1#32
  let arg23 : BitVec 32 := Scf.iv c0_i32_20 c1_i32_22 k1_t5
  let c80_i32 : BitVec 32 := 80#32
  let v91 : BitVec 32 := Scalar.muli arg23 c80_i32
  let v92 : BitVec 32 := Scalar.addi c0_i32_32 v91
  let c32_i32 : BitVec 32 := 32#32
  let v139 : BitVec 32 := Scalar.addi v92 c32_i32
  let v140 : Index := Scalar.indexCast v139
  ![v140.toNat]

def k1_chk45 (v145 : IVec S16 32) : Prop :=
  (∀ a x, ((![v145] : Fin 1 → IVec S16 32) a x).toNat < S8192.size a)
instance k1_chk45.dec : ∀ (v145 : IVec S16 32), Decidable (k1_chk45 v145) := fun v145 => decidable_of_iff' _ (Iff.of_eq (k1_chk45.eq_1 v145))
theorem k1_idx45_inb : ∀ (v145 : IVec S16 32) (k1_hw45 : k1_chk45 v145), ∀ a x, ((![v145] : Fin 1 → IVec S16 32) a x).toNat < S8192.size a := fun v145 k1_hw45 => k1_hw45

def k1_chk46 (v155 : IVec S16 32) : Prop :=
  (∀ a x, ((![v155] : Fin 1 → IVec S16 32) a x).toNat < S16.size a)
instance k1_chk46.dec : ∀ (v155 : IVec S16 32), Decidable (k1_chk46 v155) := fun v155 => decidable_of_iff' _ (Iff.of_eq (k1_chk46.eq_1 v155))
theorem k1_idx46_inb : ∀ (v155 : IVec S16 32) (k1_hw46 : k1_chk46 v155), ∀ a x, ((![v155] : Fin 1 → IVec S16 32) a x).toNat < S16.size a := fun v155 k1_hw46 => k1_hw46
def k1_off30 (k1_t5 : Fin k1_t5_loop.trips) : Fin 1 → Nat :=
  let c0_i32_32 : BitVec 32 := 0#32
  let c0_i32_20 : BitVec 32 := 0#32
  let c1_i32_22 : BitVec 32 := 1#32
  let arg23 : BitVec 32 := Scf.iv c0_i32_20 c1_i32_22 k1_t5
  let c80_i32 : BitVec 32 := 80#32
  let v91 : BitVec 32 := Scalar.muli arg23 c80_i32
  let v92 : BitVec 32 := Scalar.addi c0_i32_32 v91
  let c32_i32 : BitVec 32 := 32#32
  let v139 : BitVec 32 := Scalar.addi v92 c32_i32
  let v157 : Index := Scalar.indexCast v139
  ![v157.toNat]

def k1_chk47 (v161 : IVec S16 32) : Prop :=
  (∀ a x, ((![v161] : Fin 1 → IVec S16 32) a x).toNat < S50176.size a)
instance k1_chk47.dec : ∀ (v161 : IVec S16 32), Decidable (k1_chk47 v161) := fun v161 => decidable_of_iff' _ (Iff.of_eq (k1_chk47.eq_1 v161))
theorem k1_idx47_inb : ∀ (v161 : IVec S16 32) (k1_hw47 : k1_chk47 v161), ∀ a x, ((![v161] : Fin 1 → IVec S16 32) a x).toNat < S50176.size a := fun v161 k1_hw47 => k1_hw47
def k1_off31 (k1_t5 : Fin k1_t5_loop.trips) : Fin 1 → Nat :=
  let c0_i32_32 : BitVec 32 := 0#32
  let c0_i32_20 : BitVec 32 := 0#32
  let c1_i32_22 : BitVec 32 := 1#32
  let arg23 : BitVec 32 := Scf.iv c0_i32_20 c1_i32_22 k1_t5
  let c80_i32 : BitVec 32 := 80#32
  let v91 : BitVec 32 := Scalar.muli arg23 c80_i32
  let v92 : BitVec 32 := Scalar.addi c0_i32_32 v91
  let c48_i32 : BitVec 32 := 48#32
  let v162 : BitVec 32 := Scalar.addi v92 c48_i32
  let v163 : Index := Scalar.indexCast v162
  ![v163.toNat]

def k1_chk48 (v168 : IVec S16 32) : Prop :=
  (∀ a x, ((![v168] : Fin 1 → IVec S16 32) a x).toNat < S8192.size a)
instance k1_chk48.dec : ∀ (v168 : IVec S16 32), Decidable (k1_chk48 v168) := fun v168 => decidable_of_iff' _ (Iff.of_eq (k1_chk48.eq_1 v168))
theorem k1_idx48_inb : ∀ (v168 : IVec S16 32) (k1_hw48 : k1_chk48 v168), ∀ a x, ((![v168] : Fin 1 → IVec S16 32) a x).toNat < S8192.size a := fun v168 k1_hw48 => k1_hw48

def k1_chk49 (v178 : IVec S16 32) : Prop :=
  (∀ a x, ((![v178] : Fin 1 → IVec S16 32) a x).toNat < S16.size a)
instance k1_chk49.dec : ∀ (v178 : IVec S16 32), Decidable (k1_chk49 v178) := fun v178 => decidable_of_iff' _ (Iff.of_eq (k1_chk49.eq_1 v178))
theorem k1_idx49_inb : ∀ (v178 : IVec S16 32) (k1_hw49 : k1_chk49 v178), ∀ a x, ((![v178] : Fin 1 → IVec S16 32) a x).toNat < S16.size a := fun v178 k1_hw49 => k1_hw49
def k1_off32 (k1_t5 : Fin k1_t5_loop.trips) : Fin 1 → Nat :=
  let c0_i32_32 : BitVec 32 := 0#32
  let c0_i32_20 : BitVec 32 := 0#32
  let c1_i32_22 : BitVec 32 := 1#32
  let arg23 : BitVec 32 := Scf.iv c0_i32_20 c1_i32_22 k1_t5
  let c80_i32 : BitVec 32 := 80#32
  let v91 : BitVec 32 := Scalar.muli arg23 c80_i32
  let v92 : BitVec 32 := Scalar.addi c0_i32_32 v91
  let c48_i32 : BitVec 32 := 48#32
  let v162 : BitVec 32 := Scalar.addi v92 c48_i32
  let v180 : Index := Scalar.indexCast v162
  ![v180.toNat]

def k1_chk50 (v184 : IVec S16 32) : Prop :=
  (∀ a x, ((![v184] : Fin 1 → IVec S16 32) a x).toNat < S50176.size a)
instance k1_chk50.dec : ∀ (v184 : IVec S16 32), Decidable (k1_chk50 v184) := fun v184 => decidable_of_iff' _ (Iff.of_eq (k1_chk50.eq_1 v184))
theorem k1_idx50_inb : ∀ (v184 : IVec S16 32) (k1_hw50 : k1_chk50 v184), ∀ a x, ((![v184] : Fin 1 → IVec S16 32) a x).toNat < S50176.size a := fun v184 k1_hw50 => k1_hw50
def k1_off33 (k1_t5 : Fin k1_t5_loop.trips) : Fin 1 → Nat :=
  let c0_i32_32 : BitVec 32 := 0#32
  let c0_i32_20 : BitVec 32 := 0#32
  let c1_i32_22 : BitVec 32 := 1#32
  let arg23 : BitVec 32 := Scf.iv c0_i32_20 c1_i32_22 k1_t5
  let c80_i32 : BitVec 32 := 80#32
  let v91 : BitVec 32 := Scalar.muli arg23 c80_i32
  let v92 : BitVec 32 := Scalar.addi c0_i32_32 v91
  let c64_i32 : BitVec 32 := 64#32
  let v185 : BitVec 32 := Scalar.addi v92 c64_i32
  let v186 : Index := Scalar.indexCast v185
  ![v186.toNat]

def k1_chk51 (v191 : IVec S16 32) : Prop :=
  (∀ a x, ((![v191] : Fin 1 → IVec S16 32) a x).toNat < S8192.size a)
instance k1_chk51.dec : ∀ (v191 : IVec S16 32), Decidable (k1_chk51 v191) := fun v191 => decidable_of_iff' _ (Iff.of_eq (k1_chk51.eq_1 v191))
theorem k1_idx51_inb : ∀ (v191 : IVec S16 32) (k1_hw51 : k1_chk51 v191), ∀ a x, ((![v191] : Fin 1 → IVec S16 32) a x).toNat < S8192.size a := fun v191 k1_hw51 => k1_hw51

def k1_chk52 (v201 : IVec S16 32) : Prop :=
  (∀ a x, ((![v201] : Fin 1 → IVec S16 32) a x).toNat < S16.size a)
instance k1_chk52.dec : ∀ (v201 : IVec S16 32), Decidable (k1_chk52 v201) := fun v201 => decidable_of_iff' _ (Iff.of_eq (k1_chk52.eq_1 v201))
theorem k1_idx52_inb : ∀ (v201 : IVec S16 32) (k1_hw52 : k1_chk52 v201), ∀ a x, ((![v201] : Fin 1 → IVec S16 32) a x).toNat < S16.size a := fun v201 k1_hw52 => k1_hw52
def k1_off34 (k1_t5 : Fin k1_t5_loop.trips) : Fin 1 → Nat :=
  let c0_i32_32 : BitVec 32 := 0#32
  let c0_i32_20 : BitVec 32 := 0#32
  let c1_i32_22 : BitVec 32 := 1#32
  let arg23 : BitVec 32 := Scf.iv c0_i32_20 c1_i32_22 k1_t5
  let c80_i32 : BitVec 32 := 80#32
  let v91 : BitVec 32 := Scalar.muli arg23 c80_i32
  let v92 : BitVec 32 := Scalar.addi c0_i32_32 v91
  let c64_i32 : BitVec 32 := 64#32
  let v185 : BitVec 32 := Scalar.addi v92 c64_i32
  let v203 : Index := Scalar.indexCast v185
  ![v203.toNat]

def k1_chk53 (v207 : IVec S16 32) : Prop :=
  (∀ a x, ((![v207] : Fin 1 → IVec S16 32) a x).toNat < S50176.size a)
instance k1_chk53.dec : ∀ (v207 : IVec S16 32), Decidable (k1_chk53 v207) := fun v207 => decidable_of_iff' _ (Iff.of_eq (k1_chk53.eq_1 v207))
theorem k1_idx53_inb : ∀ (v207 : IVec S16 32) (k1_hw53 : k1_chk53 v207), ∀ a x, ((![v207] : Fin 1 → IVec S16 32) a x).toNat < S50176.size a := fun v207 k1_hw53 => k1_hw53
@[reducible] def k1_t6_loop : Scf.Loop 32 :=
  let c0_i32_24 : BitVec 32 := 0#32
  let c125_i32_25 : BitVec 32 := 125#32
  let v83 : BitVec 32 := Scalar.addi c0_i32_24 c125_i32_25
  let c1_i32_26 : BitVec 32 := 1#32
  ⟨c0_i32_24, v83, c1_i32_26⟩
def k1_off35 (k1_t6 : Fin k1_t6_loop.trips) : Fin 1 → Nat :=
  let c0_i32_32 : BitVec 32 := 0#32
  let c0_i32_24 : BitVec 32 := 0#32
  let c1_i32_26 : BitVec 32 := 1#32
  let arg23 : BitVec 32 := Scf.iv c0_i32_24 c1_i32_26 k1_t6
  let c80_i32 : BitVec 32 := 80#32
  let v91 : BitVec 32 := Scalar.muli arg23 c80_i32
  let v92 : BitVec 32 := Scalar.addi c0_i32_32 v91
  let c0_i32_33 : BitVec 32 := 0#32
  let v93 : BitVec 32 := Scalar.addi v92 c0_i32_33
  let v94 : Index := Scalar.indexCast v93
  ![v94.toNat]

def k1_chk54 (v99 : IVec S16 32) : Prop :=
  (∀ a x, ((![v99] : Fin 1 → IVec S16 32) a x).toNat < S8192.size a)
instance k1_chk54.dec : ∀ (v99 : IVec S16 32), Decidable (k1_chk54 v99) := fun v99 => decidable_of_iff' _ (Iff.of_eq (k1_chk54.eq_1 v99))
theorem k1_idx54_inb : ∀ (v99 : IVec S16 32) (k1_hw54 : k1_chk54 v99), ∀ a x, ((![v99] : Fin 1 → IVec S16 32) a x).toNat < S8192.size a := fun v99 k1_hw54 => k1_hw54

def k1_chk55 (v109 : IVec S16 32) : Prop :=
  (∀ a x, ((![v109] : Fin 1 → IVec S16 32) a x).toNat < S16.size a)
instance k1_chk55.dec : ∀ (v109 : IVec S16 32), Decidable (k1_chk55 v109) := fun v109 => decidable_of_iff' _ (Iff.of_eq (k1_chk55.eq_1 v109))
theorem k1_idx55_inb : ∀ (v109 : IVec S16 32) (k1_hw55 : k1_chk55 v109), ∀ a x, ((![v109] : Fin 1 → IVec S16 32) a x).toNat < S16.size a := fun v109 k1_hw55 => k1_hw55
def k1_off36 (k1_t6 : Fin k1_t6_loop.trips) : Fin 1 → Nat :=
  let c0_i32_32 : BitVec 32 := 0#32
  let c0_i32_24 : BitVec 32 := 0#32
  let c1_i32_26 : BitVec 32 := 1#32
  let arg23 : BitVec 32 := Scf.iv c0_i32_24 c1_i32_26 k1_t6
  let c80_i32 : BitVec 32 := 80#32
  let v91 : BitVec 32 := Scalar.muli arg23 c80_i32
  let v92 : BitVec 32 := Scalar.addi c0_i32_32 v91
  let c0_i32_33 : BitVec 32 := 0#32
  let v93 : BitVec 32 := Scalar.addi v92 c0_i32_33
  let v111 : Index := Scalar.indexCast v93
  ![v111.toNat]

def k1_chk56 (v115 : IVec S16 32) : Prop :=
  (∀ a x, ((![v115] : Fin 1 → IVec S16 32) a x).toNat < S50176.size a)
instance k1_chk56.dec : ∀ (v115 : IVec S16 32), Decidable (k1_chk56 v115) := fun v115 => decidable_of_iff' _ (Iff.of_eq (k1_chk56.eq_1 v115))
theorem k1_idx56_inb : ∀ (v115 : IVec S16 32) (k1_hw56 : k1_chk56 v115), ∀ a x, ((![v115] : Fin 1 → IVec S16 32) a x).toNat < S50176.size a := fun v115 k1_hw56 => k1_hw56
def k1_off37 (k1_t6 : Fin k1_t6_loop.trips) : Fin 1 → Nat :=
  let c0_i32_32 : BitVec 32 := 0#32
  let c0_i32_24 : BitVec 32 := 0#32
  let c1_i32_26 : BitVec 32 := 1#32
  let arg23 : BitVec 32 := Scf.iv c0_i32_24 c1_i32_26 k1_t6
  let c80_i32 : BitVec 32 := 80#32
  let v91 : BitVec 32 := Scalar.muli arg23 c80_i32
  let v92 : BitVec 32 := Scalar.addi c0_i32_32 v91
  let c16_i32 : BitVec 32 := 16#32
  let v116 : BitVec 32 := Scalar.addi v92 c16_i32
  let v117 : Index := Scalar.indexCast v116
  ![v117.toNat]

def k1_chk57 (v122 : IVec S16 32) : Prop :=
  (∀ a x, ((![v122] : Fin 1 → IVec S16 32) a x).toNat < S8192.size a)
instance k1_chk57.dec : ∀ (v122 : IVec S16 32), Decidable (k1_chk57 v122) := fun v122 => decidable_of_iff' _ (Iff.of_eq (k1_chk57.eq_1 v122))
theorem k1_idx57_inb : ∀ (v122 : IVec S16 32) (k1_hw57 : k1_chk57 v122), ∀ a x, ((![v122] : Fin 1 → IVec S16 32) a x).toNat < S8192.size a := fun v122 k1_hw57 => k1_hw57

def k1_chk58 (v132 : IVec S16 32) : Prop :=
  (∀ a x, ((![v132] : Fin 1 → IVec S16 32) a x).toNat < S16.size a)
instance k1_chk58.dec : ∀ (v132 : IVec S16 32), Decidable (k1_chk58 v132) := fun v132 => decidable_of_iff' _ (Iff.of_eq (k1_chk58.eq_1 v132))
theorem k1_idx58_inb : ∀ (v132 : IVec S16 32) (k1_hw58 : k1_chk58 v132), ∀ a x, ((![v132] : Fin 1 → IVec S16 32) a x).toNat < S16.size a := fun v132 k1_hw58 => k1_hw58
def k1_off38 (k1_t6 : Fin k1_t6_loop.trips) : Fin 1 → Nat :=
  let c0_i32_32 : BitVec 32 := 0#32
  let c0_i32_24 : BitVec 32 := 0#32
  let c1_i32_26 : BitVec 32 := 1#32
  let arg23 : BitVec 32 := Scf.iv c0_i32_24 c1_i32_26 k1_t6
  let c80_i32 : BitVec 32 := 80#32
  let v91 : BitVec 32 := Scalar.muli arg23 c80_i32
  let v92 : BitVec 32 := Scalar.addi c0_i32_32 v91
  let c16_i32 : BitVec 32 := 16#32
  let v116 : BitVec 32 := Scalar.addi v92 c16_i32
  let v134 : Index := Scalar.indexCast v116
  ![v134.toNat]

def k1_chk59 (v138 : IVec S16 32) : Prop :=
  (∀ a x, ((![v138] : Fin 1 → IVec S16 32) a x).toNat < S50176.size a)
instance k1_chk59.dec : ∀ (v138 : IVec S16 32), Decidable (k1_chk59 v138) := fun v138 => decidable_of_iff' _ (Iff.of_eq (k1_chk59.eq_1 v138))
theorem k1_idx59_inb : ∀ (v138 : IVec S16 32) (k1_hw59 : k1_chk59 v138), ∀ a x, ((![v138] : Fin 1 → IVec S16 32) a x).toNat < S50176.size a := fun v138 k1_hw59 => k1_hw59
def k1_off39 (k1_t6 : Fin k1_t6_loop.trips) : Fin 1 → Nat :=
  let c0_i32_32 : BitVec 32 := 0#32
  let c0_i32_24 : BitVec 32 := 0#32
  let c1_i32_26 : BitVec 32 := 1#32
  let arg23 : BitVec 32 := Scf.iv c0_i32_24 c1_i32_26 k1_t6
  let c80_i32 : BitVec 32 := 80#32
  let v91 : BitVec 32 := Scalar.muli arg23 c80_i32
  let v92 : BitVec 32 := Scalar.addi c0_i32_32 v91
  let c32_i32 : BitVec 32 := 32#32
  let v139 : BitVec 32 := Scalar.addi v92 c32_i32
  let v140 : Index := Scalar.indexCast v139
  ![v140.toNat]

def k1_chk60 (v145 : IVec S16 32) : Prop :=
  (∀ a x, ((![v145] : Fin 1 → IVec S16 32) a x).toNat < S8192.size a)
instance k1_chk60.dec : ∀ (v145 : IVec S16 32), Decidable (k1_chk60 v145) := fun v145 => decidable_of_iff' _ (Iff.of_eq (k1_chk60.eq_1 v145))
theorem k1_idx60_inb : ∀ (v145 : IVec S16 32) (k1_hw60 : k1_chk60 v145), ∀ a x, ((![v145] : Fin 1 → IVec S16 32) a x).toNat < S8192.size a := fun v145 k1_hw60 => k1_hw60

def k1_chk61 (v155 : IVec S16 32) : Prop :=
  (∀ a x, ((![v155] : Fin 1 → IVec S16 32) a x).toNat < S16.size a)
instance k1_chk61.dec : ∀ (v155 : IVec S16 32), Decidable (k1_chk61 v155) := fun v155 => decidable_of_iff' _ (Iff.of_eq (k1_chk61.eq_1 v155))
theorem k1_idx61_inb : ∀ (v155 : IVec S16 32) (k1_hw61 : k1_chk61 v155), ∀ a x, ((![v155] : Fin 1 → IVec S16 32) a x).toNat < S16.size a := fun v155 k1_hw61 => k1_hw61
def k1_off40 (k1_t6 : Fin k1_t6_loop.trips) : Fin 1 → Nat :=
  let c0_i32_32 : BitVec 32 := 0#32
  let c0_i32_24 : BitVec 32 := 0#32
  let c1_i32_26 : BitVec 32 := 1#32
  let arg23 : BitVec 32 := Scf.iv c0_i32_24 c1_i32_26 k1_t6
  let c80_i32 : BitVec 32 := 80#32
  let v91 : BitVec 32 := Scalar.muli arg23 c80_i32
  let v92 : BitVec 32 := Scalar.addi c0_i32_32 v91
  let c32_i32 : BitVec 32 := 32#32
  let v139 : BitVec 32 := Scalar.addi v92 c32_i32
  let v157 : Index := Scalar.indexCast v139
  ![v157.toNat]

def k1_chk62 (v161 : IVec S16 32) : Prop :=
  (∀ a x, ((![v161] : Fin 1 → IVec S16 32) a x).toNat < S50176.size a)
instance k1_chk62.dec : ∀ (v161 : IVec S16 32), Decidable (k1_chk62 v161) := fun v161 => decidable_of_iff' _ (Iff.of_eq (k1_chk62.eq_1 v161))
theorem k1_idx62_inb : ∀ (v161 : IVec S16 32) (k1_hw62 : k1_chk62 v161), ∀ a x, ((![v161] : Fin 1 → IVec S16 32) a x).toNat < S50176.size a := fun v161 k1_hw62 => k1_hw62
def k1_off41 (k1_t6 : Fin k1_t6_loop.trips) : Fin 1 → Nat :=
  let c0_i32_32 : BitVec 32 := 0#32
  let c0_i32_24 : BitVec 32 := 0#32
  let c1_i32_26 : BitVec 32 := 1#32
  let arg23 : BitVec 32 := Scf.iv c0_i32_24 c1_i32_26 k1_t6
  let c80_i32 : BitVec 32 := 80#32
  let v91 : BitVec 32 := Scalar.muli arg23 c80_i32
  let v92 : BitVec 32 := Scalar.addi c0_i32_32 v91
  let c48_i32 : BitVec 32 := 48#32
  let v162 : BitVec 32 := Scalar.addi v92 c48_i32
  let v163 : Index := Scalar.indexCast v162
  ![v163.toNat]

def k1_chk63 (v168 : IVec S16 32) : Prop :=
  (∀ a x, ((![v168] : Fin 1 → IVec S16 32) a x).toNat < S8192.size a)
instance k1_chk63.dec : ∀ (v168 : IVec S16 32), Decidable (k1_chk63 v168) := fun v168 => decidable_of_iff' _ (Iff.of_eq (k1_chk63.eq_1 v168))
theorem k1_idx63_inb : ∀ (v168 : IVec S16 32) (k1_hw63 : k1_chk63 v168), ∀ a x, ((![v168] : Fin 1 → IVec S16 32) a x).toNat < S8192.size a := fun v168 k1_hw63 => k1_hw63

def k1_chk64 (v178 : IVec S16 32) : Prop :=
  (∀ a x, ((![v178] : Fin 1 → IVec S16 32) a x).toNat < S16.size a)
instance k1_chk64.dec : ∀ (v178 : IVec S16 32), Decidable (k1_chk64 v178) := fun v178 => decidable_of_iff' _ (Iff.of_eq (k1_chk64.eq_1 v178))
theorem k1_idx64_inb : ∀ (v178 : IVec S16 32) (k1_hw64 : k1_chk64 v178), ∀ a x, ((![v178] : Fin 1 → IVec S16 32) a x).toNat < S16.size a := fun v178 k1_hw64 => k1_hw64
def k1_off42 (k1_t6 : Fin k1_t6_loop.trips) : Fin 1 → Nat :=
  let c0_i32_32 : BitVec 32 := 0#32
  let c0_i32_24 : BitVec 32 := 0#32
  let c1_i32_26 : BitVec 32 := 1#32
  let arg23 : BitVec 32 := Scf.iv c0_i32_24 c1_i32_26 k1_t6
  let c80_i32 : BitVec 32 := 80#32
  let v91 : BitVec 32 := Scalar.muli arg23 c80_i32
  let v92 : BitVec 32 := Scalar.addi c0_i32_32 v91
  let c48_i32 : BitVec 32 := 48#32
  let v162 : BitVec 32 := Scalar.addi v92 c48_i32
  let v180 : Index := Scalar.indexCast v162
  ![v180.toNat]

def k1_chk65 (v184 : IVec S16 32) : Prop :=
  (∀ a x, ((![v184] : Fin 1 → IVec S16 32) a x).toNat < S50176.size a)
instance k1_chk65.dec : ∀ (v184 : IVec S16 32), Decidable (k1_chk65 v184) := fun v184 => decidable_of_iff' _ (Iff.of_eq (k1_chk65.eq_1 v184))
theorem k1_idx65_inb : ∀ (v184 : IVec S16 32) (k1_hw65 : k1_chk65 v184), ∀ a x, ((![v184] : Fin 1 → IVec S16 32) a x).toNat < S50176.size a := fun v184 k1_hw65 => k1_hw65
def k1_off43 (k1_t6 : Fin k1_t6_loop.trips) : Fin 1 → Nat :=
  let c0_i32_32 : BitVec 32 := 0#32
  let c0_i32_24 : BitVec 32 := 0#32
  let c1_i32_26 : BitVec 32 := 1#32
  let arg23 : BitVec 32 := Scf.iv c0_i32_24 c1_i32_26 k1_t6
  let c80_i32 : BitVec 32 := 80#32
  let v91 : BitVec 32 := Scalar.muli arg23 c80_i32
  let v92 : BitVec 32 := Scalar.addi c0_i32_32 v91
  let c64_i32 : BitVec 32 := 64#32
  let v185 : BitVec 32 := Scalar.addi v92 c64_i32
  let v186 : Index := Scalar.indexCast v185
  ![v186.toNat]

def k1_chk66 (v191 : IVec S16 32) : Prop :=
  (∀ a x, ((![v191] : Fin 1 → IVec S16 32) a x).toNat < S8192.size a)
instance k1_chk66.dec : ∀ (v191 : IVec S16 32), Decidable (k1_chk66 v191) := fun v191 => decidable_of_iff' _ (Iff.of_eq (k1_chk66.eq_1 v191))
theorem k1_idx66_inb : ∀ (v191 : IVec S16 32) (k1_hw66 : k1_chk66 v191), ∀ a x, ((![v191] : Fin 1 → IVec S16 32) a x).toNat < S8192.size a := fun v191 k1_hw66 => k1_hw66

def k1_chk67 (v201 : IVec S16 32) : Prop :=
  (∀ a x, ((![v201] : Fin 1 → IVec S16 32) a x).toNat < S16.size a)
instance k1_chk67.dec : ∀ (v201 : IVec S16 32), Decidable (k1_chk67 v201) := fun v201 => decidable_of_iff' _ (Iff.of_eq (k1_chk67.eq_1 v201))
theorem k1_idx67_inb : ∀ (v201 : IVec S16 32) (k1_hw67 : k1_chk67 v201), ∀ a x, ((![v201] : Fin 1 → IVec S16 32) a x).toNat < S16.size a := fun v201 k1_hw67 => k1_hw67
def k1_off44 (k1_t6 : Fin k1_t6_loop.trips) : Fin 1 → Nat :=
  let c0_i32_32 : BitVec 32 := 0#32
  let c0_i32_24 : BitVec 32 := 0#32
  let c1_i32_26 : BitVec 32 := 1#32
  let arg23 : BitVec 32 := Scf.iv c0_i32_24 c1_i32_26 k1_t6
  let c80_i32 : BitVec 32 := 80#32
  let v91 : BitVec 32 := Scalar.muli arg23 c80_i32
  let v92 : BitVec 32 := Scalar.addi c0_i32_32 v91
  let c64_i32 : BitVec 32 := 64#32
  let v185 : BitVec 32 := Scalar.addi v92 c64_i32
  let v203 : Index := Scalar.indexCast v185
  ![v203.toNat]

def k1_chk68 (v207 : IVec S16 32) : Prop :=
  (∀ a x, ((![v207] : Fin 1 → IVec S16 32) a x).toNat < S50176.size a)
instance k1_chk68.dec : ∀ (v207 : IVec S16 32), Decidable (k1_chk68 v207) := fun v207 => decidable_of_iff' _ (Iff.of_eq (k1_chk68.eq_1 v207))
theorem k1_idx68_inb : ∀ (v207 : IVec S16 32) (k1_hw68 : k1_chk68 v207), ∀ a x, ((![v207] : Fin 1 → IVec S16 32) a x).toNat < S50176.size a := fun v207 k1_hw68 => k1_hw68
@[reducible] def k1_t7_loop : Scf.Loop 32 :=
  let c0_i32_28 : BitVec 32 := 0#32
  let c125_i32_29 : BitVec 32 := 125#32
  let v90 : BitVec 32 := Scalar.addi c0_i32_28 c125_i32_29
  let c1_i32_30 : BitVec 32 := 1#32
  ⟨c0_i32_28, v90, c1_i32_30⟩
def k1_off45 (k1_t7 : Fin k1_t7_loop.trips) : Fin 1 → Nat :=
  let c0_i32_32 : BitVec 32 := 0#32
  let c0_i32_28 : BitVec 32 := 0#32
  let c1_i32_30 : BitVec 32 := 1#32
  let arg23 : BitVec 32 := Scf.iv c0_i32_28 c1_i32_30 k1_t7
  let c80_i32 : BitVec 32 := 80#32
  let v91 : BitVec 32 := Scalar.muli arg23 c80_i32
  let v92 : BitVec 32 := Scalar.addi c0_i32_32 v91
  let c0_i32_33 : BitVec 32 := 0#32
  let v93 : BitVec 32 := Scalar.addi v92 c0_i32_33
  let v94 : Index := Scalar.indexCast v93
  ![v94.toNat]

def k1_chk69 (v99 : IVec S16 32) : Prop :=
  (∀ a x, ((![v99] : Fin 1 → IVec S16 32) a x).toNat < S8192.size a)
instance k1_chk69.dec : ∀ (v99 : IVec S16 32), Decidable (k1_chk69 v99) := fun v99 => decidable_of_iff' _ (Iff.of_eq (k1_chk69.eq_1 v99))
theorem k1_idx69_inb : ∀ (v99 : IVec S16 32) (k1_hw69 : k1_chk69 v99), ∀ a x, ((![v99] : Fin 1 → IVec S16 32) a x).toNat < S8192.size a := fun v99 k1_hw69 => k1_hw69

def k1_chk70 (v109 : IVec S16 32) : Prop :=
  (∀ a x, ((![v109] : Fin 1 → IVec S16 32) a x).toNat < S16.size a)
instance k1_chk70.dec : ∀ (v109 : IVec S16 32), Decidable (k1_chk70 v109) := fun v109 => decidable_of_iff' _ (Iff.of_eq (k1_chk70.eq_1 v109))
theorem k1_idx70_inb : ∀ (v109 : IVec S16 32) (k1_hw70 : k1_chk70 v109), ∀ a x, ((![v109] : Fin 1 → IVec S16 32) a x).toNat < S16.size a := fun v109 k1_hw70 => k1_hw70
def k1_off46 (k1_t7 : Fin k1_t7_loop.trips) : Fin 1 → Nat :=
  let c0_i32_32 : BitVec 32 := 0#32
  let c0_i32_28 : BitVec 32 := 0#32
  let c1_i32_30 : BitVec 32 := 1#32
  let arg23 : BitVec 32 := Scf.iv c0_i32_28 c1_i32_30 k1_t7
  let c80_i32 : BitVec 32 := 80#32
  let v91 : BitVec 32 := Scalar.muli arg23 c80_i32
  let v92 : BitVec 32 := Scalar.addi c0_i32_32 v91
  let c0_i32_33 : BitVec 32 := 0#32
  let v93 : BitVec 32 := Scalar.addi v92 c0_i32_33
  let v111 : Index := Scalar.indexCast v93
  ![v111.toNat]

def k1_chk71 (v115 : IVec S16 32) : Prop :=
  (∀ a x, ((![v115] : Fin 1 → IVec S16 32) a x).toNat < S50176.size a)
instance k1_chk71.dec : ∀ (v115 : IVec S16 32), Decidable (k1_chk71 v115) := fun v115 => decidable_of_iff' _ (Iff.of_eq (k1_chk71.eq_1 v115))
theorem k1_idx71_inb : ∀ (v115 : IVec S16 32) (k1_hw71 : k1_chk71 v115), ∀ a x, ((![v115] : Fin 1 → IVec S16 32) a x).toNat < S50176.size a := fun v115 k1_hw71 => k1_hw71
def k1_off47 (k1_t7 : Fin k1_t7_loop.trips) : Fin 1 → Nat :=
  let c0_i32_32 : BitVec 32 := 0#32
  let c0_i32_28 : BitVec 32 := 0#32
  let c1_i32_30 : BitVec 32 := 1#32
  let arg23 : BitVec 32 := Scf.iv c0_i32_28 c1_i32_30 k1_t7
  let c80_i32 : BitVec 32 := 80#32
  let v91 : BitVec 32 := Scalar.muli arg23 c80_i32
  let v92 : BitVec 32 := Scalar.addi c0_i32_32 v91
  let c16_i32 : BitVec 32 := 16#32
  let v116 : BitVec 32 := Scalar.addi v92 c16_i32
  let v117 : Index := Scalar.indexCast v116
  ![v117.toNat]

def k1_chk72 (v122 : IVec S16 32) : Prop :=
  (∀ a x, ((![v122] : Fin 1 → IVec S16 32) a x).toNat < S8192.size a)
instance k1_chk72.dec : ∀ (v122 : IVec S16 32), Decidable (k1_chk72 v122) := fun v122 => decidable_of_iff' _ (Iff.of_eq (k1_chk72.eq_1 v122))
theorem k1_idx72_inb : ∀ (v122 : IVec S16 32) (k1_hw72 : k1_chk72 v122), ∀ a x, ((![v122] : Fin 1 → IVec S16 32) a x).toNat < S8192.size a := fun v122 k1_hw72 => k1_hw72

def k1_chk73 (v132 : IVec S16 32) : Prop :=
  (∀ a x, ((![v132] : Fin 1 → IVec S16 32) a x).toNat < S16.size a)
instance k1_chk73.dec : ∀ (v132 : IVec S16 32), Decidable (k1_chk73 v132) := fun v132 => decidable_of_iff' _ (Iff.of_eq (k1_chk73.eq_1 v132))
theorem k1_idx73_inb : ∀ (v132 : IVec S16 32) (k1_hw73 : k1_chk73 v132), ∀ a x, ((![v132] : Fin 1 → IVec S16 32) a x).toNat < S16.size a := fun v132 k1_hw73 => k1_hw73
def k1_off48 (k1_t7 : Fin k1_t7_loop.trips) : Fin 1 → Nat :=
  let c0_i32_32 : BitVec 32 := 0#32
  let c0_i32_28 : BitVec 32 := 0#32
  let c1_i32_30 : BitVec 32 := 1#32
  let arg23 : BitVec 32 := Scf.iv c0_i32_28 c1_i32_30 k1_t7
  let c80_i32 : BitVec 32 := 80#32
  let v91 : BitVec 32 := Scalar.muli arg23 c80_i32
  let v92 : BitVec 32 := Scalar.addi c0_i32_32 v91
  let c16_i32 : BitVec 32 := 16#32
  let v116 : BitVec 32 := Scalar.addi v92 c16_i32
  let v134 : Index := Scalar.indexCast v116
  ![v134.toNat]

def k1_chk74 (v138 : IVec S16 32) : Prop :=
  (∀ a x, ((![v138] : Fin 1 → IVec S16 32) a x).toNat < S50176.size a)
instance k1_chk74.dec : ∀ (v138 : IVec S16 32), Decidable (k1_chk74 v138) := fun v138 => decidable_of_iff' _ (Iff.of_eq (k1_chk74.eq_1 v138))
theorem k1_idx74_inb : ∀ (v138 : IVec S16 32) (k1_hw74 : k1_chk74 v138), ∀ a x, ((![v138] : Fin 1 → IVec S16 32) a x).toNat < S50176.size a := fun v138 k1_hw74 => k1_hw74
def k1_off49 (k1_t7 : Fin k1_t7_loop.trips) : Fin 1 → Nat :=
  let c0_i32_32 : BitVec 32 := 0#32
  let c0_i32_28 : BitVec 32 := 0#32
  let c1_i32_30 : BitVec 32 := 1#32
  let arg23 : BitVec 32 := Scf.iv c0_i32_28 c1_i32_30 k1_t7
  let c80_i32 : BitVec 32 := 80#32
  let v91 : BitVec 32 := Scalar.muli arg23 c80_i32
  let v92 : BitVec 32 := Scalar.addi c0_i32_32 v91
  let c32_i32 : BitVec 32 := 32#32
  let v139 : BitVec 32 := Scalar.addi v92 c32_i32
  let v140 : Index := Scalar.indexCast v139
  ![v140.toNat]

def k1_chk75 (v145 : IVec S16 32) : Prop :=
  (∀ a x, ((![v145] : Fin 1 → IVec S16 32) a x).toNat < S8192.size a)
instance k1_chk75.dec : ∀ (v145 : IVec S16 32), Decidable (k1_chk75 v145) := fun v145 => decidable_of_iff' _ (Iff.of_eq (k1_chk75.eq_1 v145))
theorem k1_idx75_inb : ∀ (v145 : IVec S16 32) (k1_hw75 : k1_chk75 v145), ∀ a x, ((![v145] : Fin 1 → IVec S16 32) a x).toNat < S8192.size a := fun v145 k1_hw75 => k1_hw75

def k1_chk76 (v155 : IVec S16 32) : Prop :=
  (∀ a x, ((![v155] : Fin 1 → IVec S16 32) a x).toNat < S16.size a)
instance k1_chk76.dec : ∀ (v155 : IVec S16 32), Decidable (k1_chk76 v155) := fun v155 => decidable_of_iff' _ (Iff.of_eq (k1_chk76.eq_1 v155))
theorem k1_idx76_inb : ∀ (v155 : IVec S16 32) (k1_hw76 : k1_chk76 v155), ∀ a x, ((![v155] : Fin 1 → IVec S16 32) a x).toNat < S16.size a := fun v155 k1_hw76 => k1_hw76
def k1_off50 (k1_t7 : Fin k1_t7_loop.trips) : Fin 1 → Nat :=
  let c0_i32_32 : BitVec 32 := 0#32
  let c0_i32_28 : BitVec 32 := 0#32
  let c1_i32_30 : BitVec 32 := 1#32
  let arg23 : BitVec 32 := Scf.iv c0_i32_28 c1_i32_30 k1_t7
  let c80_i32 : BitVec 32 := 80#32
  let v91 : BitVec 32 := Scalar.muli arg23 c80_i32
  let v92 : BitVec 32 := Scalar.addi c0_i32_32 v91
  let c32_i32 : BitVec 32 := 32#32
  let v139 : BitVec 32 := Scalar.addi v92 c32_i32
  let v157 : Index := Scalar.indexCast v139
  ![v157.toNat]

def k1_chk77 (v161 : IVec S16 32) : Prop :=
  (∀ a x, ((![v161] : Fin 1 → IVec S16 32) a x).toNat < S50176.size a)
instance k1_chk77.dec : ∀ (v161 : IVec S16 32), Decidable (k1_chk77 v161) := fun v161 => decidable_of_iff' _ (Iff.of_eq (k1_chk77.eq_1 v161))
theorem k1_idx77_inb : ∀ (v161 : IVec S16 32) (k1_hw77 : k1_chk77 v161), ∀ a x, ((![v161] : Fin 1 → IVec S16 32) a x).toNat < S50176.size a := fun v161 k1_hw77 => k1_hw77
def k1_off51 (k1_t7 : Fin k1_t7_loop.trips) : Fin 1 → Nat :=
  let c0_i32_32 : BitVec 32 := 0#32
  let c0_i32_28 : BitVec 32 := 0#32
  let c1_i32_30 : BitVec 32 := 1#32
  let arg23 : BitVec 32 := Scf.iv c0_i32_28 c1_i32_30 k1_t7
  let c80_i32 : BitVec 32 := 80#32
  let v91 : BitVec 32 := Scalar.muli arg23 c80_i32
  let v92 : BitVec 32 := Scalar.addi c0_i32_32 v91
  let c48_i32 : BitVec 32 := 48#32
  let v162 : BitVec 32 := Scalar.addi v92 c48_i32
  let v163 : Index := Scalar.indexCast v162
  ![v163.toNat]

def k1_chk78 (v168 : IVec S16 32) : Prop :=
  (∀ a x, ((![v168] : Fin 1 → IVec S16 32) a x).toNat < S8192.size a)
instance k1_chk78.dec : ∀ (v168 : IVec S16 32), Decidable (k1_chk78 v168) := fun v168 => decidable_of_iff' _ (Iff.of_eq (k1_chk78.eq_1 v168))
theorem k1_idx78_inb : ∀ (v168 : IVec S16 32) (k1_hw78 : k1_chk78 v168), ∀ a x, ((![v168] : Fin 1 → IVec S16 32) a x).toNat < S8192.size a := fun v168 k1_hw78 => k1_hw78

def k1_chk79 (v178 : IVec S16 32) : Prop :=
  (∀ a x, ((![v178] : Fin 1 → IVec S16 32) a x).toNat < S16.size a)
instance k1_chk79.dec : ∀ (v178 : IVec S16 32), Decidable (k1_chk79 v178) := fun v178 => decidable_of_iff' _ (Iff.of_eq (k1_chk79.eq_1 v178))
theorem k1_idx79_inb : ∀ (v178 : IVec S16 32) (k1_hw79 : k1_chk79 v178), ∀ a x, ((![v178] : Fin 1 → IVec S16 32) a x).toNat < S16.size a := fun v178 k1_hw79 => k1_hw79
def k1_off52 (k1_t7 : Fin k1_t7_loop.trips) : Fin 1 → Nat :=
  let c0_i32_32 : BitVec 32 := 0#32
  let c0_i32_28 : BitVec 32 := 0#32
  let c1_i32_30 : BitVec 32 := 1#32
  let arg23 : BitVec 32 := Scf.iv c0_i32_28 c1_i32_30 k1_t7
  let c80_i32 : BitVec 32 := 80#32
  let v91 : BitVec 32 := Scalar.muli arg23 c80_i32
  let v92 : BitVec 32 := Scalar.addi c0_i32_32 v91
  let c48_i32 : BitVec 32 := 48#32
  let v162 : BitVec 32 := Scalar.addi v92 c48_i32
  let v180 : Index := Scalar.indexCast v162
  ![v180.toNat]

def k1_chk80 (v184 : IVec S16 32) : Prop :=
  (∀ a x, ((![v184] : Fin 1 → IVec S16 32) a x).toNat < S50176.size a)
instance k1_chk80.dec : ∀ (v184 : IVec S16 32), Decidable (k1_chk80 v184) := fun v184 => decidable_of_iff' _ (Iff.of_eq (k1_chk80.eq_1 v184))
theorem k1_idx80_inb : ∀ (v184 : IVec S16 32) (k1_hw80 : k1_chk80 v184), ∀ a x, ((![v184] : Fin 1 → IVec S16 32) a x).toNat < S50176.size a := fun v184 k1_hw80 => k1_hw80
def k1_off53 (k1_t7 : Fin k1_t7_loop.trips) : Fin 1 → Nat :=
  let c0_i32_32 : BitVec 32 := 0#32
  let c0_i32_28 : BitVec 32 := 0#32
  let c1_i32_30 : BitVec 32 := 1#32
  let arg23 : BitVec 32 := Scf.iv c0_i32_28 c1_i32_30 k1_t7
  let c80_i32 : BitVec 32 := 80#32
  let v91 : BitVec 32 := Scalar.muli arg23 c80_i32
  let v92 : BitVec 32 := Scalar.addi c0_i32_32 v91
  let c64_i32 : BitVec 32 := 64#32
  let v185 : BitVec 32 := Scalar.addi v92 c64_i32
  let v186 : Index := Scalar.indexCast v185
  ![v186.toNat]

def k1_chk81 (v191 : IVec S16 32) : Prop :=
  (∀ a x, ((![v191] : Fin 1 → IVec S16 32) a x).toNat < S8192.size a)
instance k1_chk81.dec : ∀ (v191 : IVec S16 32), Decidable (k1_chk81 v191) := fun v191 => decidable_of_iff' _ (Iff.of_eq (k1_chk81.eq_1 v191))
theorem k1_idx81_inb : ∀ (v191 : IVec S16 32) (k1_hw81 : k1_chk81 v191), ∀ a x, ((![v191] : Fin 1 → IVec S16 32) a x).toNat < S8192.size a := fun v191 k1_hw81 => k1_hw81

def k1_chk82 (v201 : IVec S16 32) : Prop :=
  (∀ a x, ((![v201] : Fin 1 → IVec S16 32) a x).toNat < S16.size a)
instance k1_chk82.dec : ∀ (v201 : IVec S16 32), Decidable (k1_chk82 v201) := fun v201 => decidable_of_iff' _ (Iff.of_eq (k1_chk82.eq_1 v201))
theorem k1_idx82_inb : ∀ (v201 : IVec S16 32) (k1_hw82 : k1_chk82 v201), ∀ a x, ((![v201] : Fin 1 → IVec S16 32) a x).toNat < S16.size a := fun v201 k1_hw82 => k1_hw82
def k1_off54 (k1_t7 : Fin k1_t7_loop.trips) : Fin 1 → Nat :=
  let c0_i32_32 : BitVec 32 := 0#32
  let c0_i32_28 : BitVec 32 := 0#32
  let c1_i32_30 : BitVec 32 := 1#32
  let arg23 : BitVec 32 := Scf.iv c0_i32_28 c1_i32_30 k1_t7
  let c80_i32 : BitVec 32 := 80#32
  let v91 : BitVec 32 := Scalar.muli arg23 c80_i32
  let v92 : BitVec 32 := Scalar.addi c0_i32_32 v91
  let c64_i32 : BitVec 32 := 64#32
  let v185 : BitVec 32 := Scalar.addi v92 c64_i32
  let v203 : Index := Scalar.indexCast v185
  ![v203.toNat]

def k1_chk83 (v207 : IVec S16 32) : Prop :=
  (∀ a x, ((![v207] : Fin 1 → IVec S16 32) a x).toNat < S50176.size a)
instance k1_chk83.dec : ∀ (v207 : IVec S16 32), Decidable (k1_chk83 v207) := fun v207 => decidable_of_iff' _ (Iff.of_eq (k1_chk83.eq_1 v207))
theorem k1_idx83_inb : ∀ (v207 : IVec S16 32) (k1_hw83 : k1_chk83 v207), ∀ a x, ((![v207] : Fin 1 → IVec S16 32) a x).toNat < S50176.size a := fun v207 k1_hw83 => k1_hw83
def k1_off55 (i : grid1.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_32_r4 : BitVec 32 := 0#32
  ![v1.toNat, 0]
abbrev grid2 : Pipeline.Grid := .none

abbrev stage2_0 : Fin 1 → Memref sig .tc .vmem S32x50176 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))

abbrev stage2_1 : Fin 1 → Memref sig .tc .vmem S1x50000 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))

abbrev stage2_2 : Fin 1 → Memref sig .tc .vmem S1x50000 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))

abbrev stage2_3 : Fin 1 → Memref sig .tc .vmem S1x50000 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))

abbrev stage2_4 : Fin 1 → Memref sig .tc .vmem S1x50000 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))

abbrev stage2_5 : Fin 1 → Memref sig .tc .vmem S1x50000 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))

abbrev stage2_6 : Fin 1 → Memref sig .tc .vmem S1x50000 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))

abbrev stage2_7 : Fin 1 → Memref sig .tc .vmem S1x50000 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))

abbrev stage2_8 : Fin 1 → Memref sig .tc .vmem S1x50000 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))

abbrev stage2_9 : Fin 1 → Memref sig .tc .vmem S1x50000 .f32 := fun | 0 => Memref.whole cc2_stg9_0 | ⟨_ + 1, h⟩ => absurd h (Nat.not_lt.2 (Nat.le_add_left _ _))
abbrev sem2_9 : Fin 1 → DmaSem sig := fun | 0 => cc2_sem9_0 | ⟨_ + 1, h⟩ => absurd h (Nat.not_lt.2 (Nat.le_add_left _ _))

abbrev stage2_10 : Fin 1 → Memref sig .tc .vmem S1x50000 .f32 := fun | 0 => Memref.whole cc2_stg10_0 | ⟨_ + 1, h⟩ => absurd h (Nat.not_lt.2 (Nat.le_add_left _ _))
abbrev sem2_10 : Fin 1 → DmaSem sig := fun | 0 => cc2_sem10_0 | ⟨_ + 1, h⟩ => absurd h (Nat.not_lt.2 (Nat.le_add_left _ _))

abbrev stage2_11 : Fin 1 → Memref sig .tc .vmem S1x50000 .f32 := fun | 0 => Memref.whole cc2_stg11_0 | ⟨_ + 1, h⟩ => absurd h (Nat.not_lt.2 (Nat.le_add_left _ _))
abbrev sem2_11 : Fin 1 → DmaSem sig := fun | 0 => cc2_sem11_0 | ⟨_ + 1, h⟩ => absurd h (Nat.not_lt.2 (Nat.le_add_left _ _))

abbrev stage2_12 : Fin 1 → Memref sig .tc .vmem S1x50000 .f32 := fun | 0 => Memref.whole cc2_stg12_0 | ⟨_ + 1, h⟩ => absurd h (Nat.not_lt.2 (Nat.le_add_left _ _))
abbrev sem2_12 : Fin 1 → DmaSem sig := fun | 0 => cc2_sem12_0 | ⟨_ + 1, h⟩ => absurd h (Nat.not_lt.2 (Nat.le_add_left _ _))

abbrev stage2_13 : Fin 1 → Memref sig .tc .smem S2 .f32 := fun | 0 => Memref.whole cc2_stg13_0 | ⟨_ + 1, h⟩ => absurd h (Nat.not_lt.2 (Nat.le_add_left _ _))
abbrev sem2_13 : Fin 1 → DmaSem sig := fun | 0 => cc2_sem13_0 | ⟨_ + 1, h⟩ => absurd h (Nat.not_lt.2 (Nat.le_add_left _ _))

abbrev stage2_14 : Fin 1 → Memref sig .tc .smem S2 .f32 := fun | 0 => Memref.whole cc2_stg14_0 | ⟨_ + 1, h⟩ => absurd h (Nat.not_lt.2 (Nat.le_add_left _ _))
abbrev sem2_14 : Fin 1 → DmaSem sig := fun | 0 => cc2_sem14_0 | ⟨_ + 1, h⟩ => absurd h (Nat.not_lt.2 (Nat.le_add_left _ _))

abbrev stage2_15 : Fin 1 → Memref sig .tc .vmem S1x50000 .f32 := fun | 0 => Memref.whole cc2_stg15_0 | ⟨_ + 1, h⟩ => absurd h (Nat.not_lt.2 (Nat.le_add_left _ _))
abbrev sem2_15 : Fin 1 → DmaSem sig := fun | 0 => cc2_sem15_0 | ⟨_ + 1, h⟩ => absurd h (Nat.not_lt.2 (Nat.le_add_left _ _))

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))

class Facts₀ : Prop where
  slices_S1600000x2_S1600000x1_0_0 : S1600000x2.Slices ![0, 0] S1600000x1
  shapeCasts_S1600000x1_S1600000 : S1600000x1.ShapeCasts S1600000
  slices_S1600000x2_S1600000x1_0_1 : S1600000x2.Slices ![0, 1] S1600000x1
  pads_S4_S16_0120 : S4.Pads (![0] : Fin 1 → Nat) ![12] ![0] S16
  h_S_ : 0 < S_.numel
  pads_S4_S16_1110 : S4.Pads (![1] : Fin 1 → Nat) ![11] ![0] S16
  pads_S1x200000_S1x200704_000_07040 : S1x200000.Pads (![0, 0] : Fin 2 → Nat) ![0, 704] ![0, 0] S1x200704
  pads_S1x250000_S1x262144_000_0121440 : S1x250000.Pads (![0, 0] : Fin 2 → Nat) ![0, 12144] ![0, 0] S1x262144
  inb_S1x8192_S1x8192_0_0 : ∀ a, (![0, 0] : Fin 2 → Nat) a + S1x8192.size a ≤ S1x8192.size a
  h_S1x8192 : 0 < S1x8192.numel
  shapeCasts_S1x8192_S1x8192 : S1x8192.ShapeCasts S1x8192
  squeezes_S1x8192_S8192 : S1x8192.Squeezes S8192
  squeezes_S1x6272_S6272 : S1x6272.Squeezes S6272
  h_S16 : 0 < S16.numel
  iota_S16_d0_w32_scVector : S16.Iotas .scVector 32 [0]
  h_S6272 : 0 < S6272.numel
  h_S8192 : 0 < S8192.numel
  h_S50176 : 0 < S50176.numel
  squeezes_S1x50176_S50176 : S1x50176.Squeezes S50176
  slices_S1x250000_S1x50000_0_0 : S1x250000.Slices ![0, 0] S1x50000
  shapeCasts_S50000_S1x50000 : S50000.ShapeCasts S1x50000
  inb_S32x50176_S32x50176_0_0 : ∀ a, (![0, 0] : Fin 2 → Nat) a + S32x50176.size a ≤ S32x50176.size a
  h_S32x50176 : 0 < S32x50176.numel
  shapeCasts_S32x50176_S32x50176 : S32x50176.ShapeCasts S32x50176
  reduces_S32x50176_S50176 : S32x50176.Reduces [0] S50176
  shapeCasts_S50176_S1x50176 : S50176.ShapeCasts S1x50176
  slices_S1x50176_o0_0_S1x50000 : S1x50176.Slices ![0, 0] S1x50000
  inb_S1x50000_S1x50000_0_0 : ∀ a, (![0, 0] : Fin 2 → Nat) a + S1x50000.size a ≤ S1x50000.size a
  h_S1x50000 : 0 < S1x50000.numel
  shapeCasts_S1x50000_S1x50000 : S1x50000.ShapeCasts S1x50000
  inb_S2_S1_0 : ∀ a, (![0] : Fin 1 → Nat) a + S1.size a ≤ S2.size a
  numel1_S1 : S1.numel = 1
  inb_S2_S1_1 : ∀ a, (![1] : Fin 1 → Nat) a + S1.size a ≤ S2.size a
  natLt_1_32 : 1 < 32
  hcc1_scratch11 : 3 + S_.numel ≤ 26
  hcc1_scratch12 : 4 + S_.numel ≤ 26
  hcc1_scoped0 : 5 + S_.numel ≤ 26
  hcc1_scoped1 : 6 + S_.numel ≤ 26
  hcc1_scoped2 : 7 + S_.numel ≤ 26
  hcc1_scoped3 : 8 + S_.numel ≤ 26
  hcc1_scoped4 : 9 + S_.numel ≤ 26
  hscKind : ∀ q, scKind q ≠ .tc
  hscCore : ∀ q, scNCore q ≤ τ.nSC
  hscSub : ∀ q, scNSub q ≤ τ.nSub
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x8192.size a ≤ S1x262144.size a
  hwx0_0 : ∀ i : grid0.Coords, EltTy.bits .f32 = 32 ∨ (Rect.block (s := S1x262144) S1x8192.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x8192.size a ≤ S1x8192.size a
  hwx0_1 : ∀ i : grid0.Coords, EltTy.bits .i32 = 32 ∨ (Rect.block (s := S1x8192) S1x8192.size (cc0_transform_1 i) (hinb0_1 i)).WholeWords (EltTy.packing .i32)
  hcore1 : grid1.bound 0 ≤ τ.nSC
  hsub1 : grid1.bound 1 ≤ τ.nSub
  k1_off1_inb : ∀ i : grid1.Coords, ∀ a, (k1_off1 i) a + S1x6272.size a ≤ S1x200704.size a
  k1_t1_ok : k1_t1_loop.OK
  k1_off2_inb : ∀ k1_t1 : Fin k1_t1_loop.trips, ∀ a, (k1_off2 k1_t1) a + S16.size a ≤ S50176.size a
  k1_t2_ok : k1_t2_loop.OK
  k1_off3_inb : ∀ (i : grid1.Coords) (k1_t2 : Fin k1_t2_loop.trips), ∀ a, (k1_off3 i k1_t2) a + S16.size a ≤ S50176.size a
  k1_off4_inb : ∀ i : grid1.Coords, ∀ (r : Fin 5), ∀ a, (k1_off4 i (BitVec.ofNat 32 (10000 * r.val))) a + S10000.size a ≤ S1600000.size a
  k1_t3_ok : k1_t3_loop.OK
  k1_off5_inb : ∀ k1_t3 : Fin k1_t3_loop.trips, ∀ a, (k1_off5 k1_t3) a + S16.size a ≤ S10000.size a
  k1_off6_inb : ∀ k1_t3 : Fin k1_t3_loop.trips, ∀ a, (k1_off6 k1_t3) a + S16.size a ≤ S10000.size a
  k1_off7_inb : ∀ k1_t3 : Fin k1_t3_loop.trips, ∀ a, (k1_off7 k1_t3) a + S16.size a ≤ S10000.size a
  k1_off8_inb : ∀ k1_t3 : Fin k1_t3_loop.trips, ∀ a, (k1_off8 k1_t3) a + S16.size a ≤ S10000.size a
  k1_off9_inb : ∀ k1_t3 : Fin k1_t3_loop.trips, ∀ a, (k1_off9 k1_t3) a + S16.size a ≤ S10000.size a
  k1_off10_inb : ∀ k1_t3 : Fin k1_t3_loop.trips, ∀ a, (k1_off10 k1_t3) a + S16.size a ≤ S10000.size a
  k1_off11_inb : ∀ k1_t3 : Fin k1_t3_loop.trips, ∀ a, (k1_off11 k1_t3) a + S16.size a ≤ S10000.size a
  k1_off12_inb : ∀ k1_t3 : Fin k1_t3_loop.trips, ∀ a, (k1_off12 k1_t3) a + S16.size a ≤ S10000.size a
  k1_off13_inb : ∀ k1_t3 : Fin k1_t3_loop.trips, ∀ a, (k1_off13 k1_t3) a + S16.size a ≤ S10000.size a
  k1_off14_inb : ∀ k1_t3 : Fin k1_t3_loop.trips, ∀ a, (k1_off14 k1_t3) a + S16.size a ≤ S10000.size a
  k1_t4_ok : k1_t4_loop.OK
  k1_off15_inb : ∀ k1_t4 : Fin k1_t4_loop.trips, ∀ a, (k1_off15 k1_t4) a + S16.size a ≤ S10000.size a
  k1_off16_inb : ∀ k1_t4 : Fin k1_t4_loop.trips, ∀ a, (k1_off16 k1_t4) a + S16.size a ≤ S10000.size a
  k1_off17_inb : ∀ k1_t4 : Fin k1_t4_loop.trips, ∀ a, (k1_off17 k1_t4) a + S16.size a ≤ S10000.size a
  k1_off18_inb : ∀ k1_t4 : Fin k1_t4_loop.trips, ∀ a, (k1_off18 k1_t4) a + S16.size a ≤ S10000.size a
  k1_off19_inb : ∀ k1_t4 : Fin k1_t4_loop.trips, ∀ a, (k1_off19 k1_t4) a + S16.size a ≤ S10000.size a
  k1_off20_inb : ∀ k1_t4 : Fin k1_t4_loop.trips, ∀ a, (k1_off20 k1_t4) a + S16.size a ≤ S10000.size a
  k1_off21_inb : ∀ k1_t4 : Fin k1_t4_loop.trips, ∀ a, (k1_off21 k1_t4) a + S16.size a ≤ S10000.size a
  k1_off22_inb : ∀ k1_t4 : Fin k1_t4_loop.trips, ∀ a, (k1_off22 k1_t4) a + S16.size a ≤ S10000.size a
  k1_off23_inb : ∀ k1_t4 : Fin k1_t4_loop.trips, ∀ a, (k1_off23 k1_t4) a + S16.size a ≤ S10000.size a
  k1_off24_inb : ∀ k1_t4 : Fin k1_t4_loop.trips, ∀ a, (k1_off24 k1_t4) a + S16.size a ≤ S10000.size a
  k1_t5_ok : k1_t5_loop.OK
  k1_off25_inb : ∀ k1_t5 : Fin k1_t5_loop.trips, ∀ a, (k1_off25 k1_t5) a + S16.size a ≤ S10000.size a
  k1_off26_inb : ∀ k1_t5 : Fin k1_t5_loop.trips, ∀ a, (k1_off26 k1_t5) a + S16.size a ≤ S10000.size a
  k1_off27_inb : ∀ k1_t5 : Fin k1_t5_loop.trips, ∀ a, (k1_off27 k1_t5) a + S16.size a ≤ S10000.size a
  k1_off28_inb : ∀ k1_t5 : Fin k1_t5_loop.trips, ∀ a, (k1_off28 k1_t5) a + S16.size a ≤ S10000.size a
  k1_off29_inb : ∀ k1_t5 : Fin k1_t5_loop.trips, ∀ a, (k1_off29 k1_t5) a + S16.size a ≤ S10000.size a
  k1_off30_inb : ∀ k1_t5 : Fin k1_t5_loop.trips, ∀ a, (k1_off30 k1_t5) a + S16.size a ≤ S10000.size a
  k1_off31_inb : ∀ k1_t5 : Fin k1_t5_loop.trips, ∀ a, (k1_off31 k1_t5) a + S16.size a ≤ S10000.size a
  k1_off32_inb : ∀ k1_t5 : Fin k1_t5_loop.trips, ∀ a, (k1_off32 k1_t5) a + S16.size a ≤ S10000.size a
  k1_off33_inb : ∀ k1_t5 : Fin k1_t5_loop.trips, ∀ a, (k1_off33 k1_t5) a + S16.size a ≤ S10000.size a
  k1_off34_inb : ∀ k1_t5 : Fin k1_t5_loop.trips, ∀ a, (k1_off34 k1_t5) a + S16.size a ≤ S10000.size a
  k1_t6_ok : k1_t6_loop.OK
  k1_off35_inb : ∀ k1_t6 : Fin k1_t6_loop.trips, ∀ a, (k1_off35 k1_t6) a + S16.size a ≤ S10000.size a
  k1_off36_inb : ∀ k1_t6 : Fin k1_t6_loop.trips, ∀ a, (k1_off36 k1_t6) a + S16.size a ≤ S10000.size a
  k1_off37_inb : ∀ k1_t6 : Fin k1_t6_loop.trips, ∀ a, (k1_off37 k1_t6) a + S16.size a ≤ S10000.size a
  k1_off38_inb : ∀ k1_t6 : Fin k1_t6_loop.trips, ∀ a, (k1_off38 k1_t6) a + S16.size a ≤ S10000.size a
  k1_off39_inb : ∀ k1_t6 : Fin k1_t6_loop.trips, ∀ a, (k1_off39 k1_t6) a + S16.size a ≤ S10000.size a
  k1_off40_inb : ∀ k1_t6 : Fin k1_t6_loop.trips, ∀ a, (k1_off40 k1_t6) a + S16.size a ≤ S10000.size a
  k1_off41_inb : ∀ k1_t6 : Fin k1_t6_loop.trips, ∀ a, (k1_off41 k1_t6) a + S16.size a ≤ S10000.size a
  k1_off42_inb : ∀ k1_t6 : Fin k1_t6_loop.trips, ∀ a, (k1_off42 k1_t6) a + S16.size a ≤ S10000.size a
  k1_off43_inb : ∀ k1_t6 : Fin k1_t6_loop.trips, ∀ a, (k1_off43 k1_t6) a + S16.size a ≤ S10000.size a
  k1_off44_inb : ∀ k1_t6 : Fin k1_t6_loop.trips, ∀ a, (k1_off44 k1_t6) a + S16.size a ≤ S10000.size a
  k1_t7_ok : k1_t7_loop.OK
  k1_off45_inb : ∀ k1_t7 : Fin k1_t7_loop.trips, ∀ a, (k1_off45 k1_t7) a + S16.size a ≤ S10000.size a
  k1_off46_inb : ∀ k1_t7 : Fin k1_t7_loop.trips, ∀ a, (k1_off46 k1_t7) a + S16.size a ≤ S10000.size a
  k1_off47_inb : ∀ k1_t7 : Fin k1_t7_loop.trips, ∀ a, (k1_off47 k1_t7) a + S16.size a ≤ S10000.size a
  k1_off48_inb : ∀ k1_t7 : Fin k1_t7_loop.trips, ∀ a, (k1_off48 k1_t7) a + S16.size a ≤ S10000.size a
  k1_off49_inb : ∀ k1_t7 : Fin k1_t7_loop.trips, ∀ a, (k1_off49 k1_t7) a + S16.size a ≤ S10000.size a
  k1_off50_inb : ∀ k1_t7 : Fin k1_t7_loop.trips, ∀ a, (k1_off50 k1_t7) a + S16.size a ≤ S10000.size a
  k1_off51_inb : ∀ k1_t7 : Fin k1_t7_loop.trips, ∀ a, (k1_off51 k1_t7) a + S16.size a ≤ S10000.size a
  k1_off52_inb : ∀ k1_t7 : Fin k1_t7_loop.trips, ∀ a, (k1_off52 k1_t7) a + S16.size a ≤ S10000.size a
  k1_off53_inb : ∀ k1_t7 : Fin k1_t7_loop.trips, ∀ a, (k1_off53 k1_t7) a + S16.size a ≤ S10000.size a
  k1_off54_inb : ∀ k1_t7 : Fin k1_t7_loop.trips, ∀ a, (k1_off54 k1_t7) a + S16.size a ≤ S10000.size a
  k1_off55_inb : ∀ i : grid1.Coords, ∀ a, (k1_off55 i) a + S1x50176.size a ≤ S32x50176.size a
  hstage2_0 : ∀ j, (stage2_0 j).IsWhole
  hstage2_1 : ∀ j, (stage2_1 j).IsWhole
  hstage2_2 : ∀ j, (stage2_2 j).IsWhole
  hstage2_3 : ∀ j, (stage2_3 j).IsWhole
  hstage2_4 : ∀ j, (stage2_4 j).IsWhole
  hstage2_5 : ∀ j, (stage2_5 j).IsWhole
  hstage2_6 : ∀ j, (stage2_6 j).IsWhole
  hstage2_7 : ∀ j, (stage2_7 j).IsWhole
  hstage2_8 : ∀ j, (stage2_8 j).IsWhole
  hstage2_9 : ∀ j, (stage2_9 j).IsWhole
  hstage2_10 : ∀ j, (stage2_10 j).IsWhole
  hstage2_11 : ∀ j, (stage2_11 j).IsWhole
  hstage2_12 : ∀ j, (stage2_12 j).IsWhole
  hstage2_13 : ∀ j, (stage2_13 j).IsWhole
  hstage2_14 : ∀ j, (stage2_14 j).IsWhole
  hstage2_15 : ∀ j, (stage2_15 j).IsWhole

variable [Facts₀]

abbrev cc1_scratch11 : DmaSems sig S_ := SemArray.consecutive 3 S_ hcc1_scratch11
abbrev cc1_scratch12 : DmaSems sig S_ := SemArray.consecutive 4 S_ hcc1_scratch12
abbrev cc1_scoped0 : DmaSems sig S_ := SemArray.consecutive 5 S_ hcc1_scoped0
abbrev cc1_scoped1 : DmaSems sig S_ := SemArray.consecutive 6 S_ hcc1_scoped1
abbrev cc1_scoped2 : DmaSems sig S_ := SemArray.consecutive 7 S_ hcc1_scoped2
abbrev cc1_scoped3 : DmaSems sig S_ := SemArray.consecutive 8 S_ hcc1_scoped3
abbrev cc1_scoped4 : DmaSems sig S_ := SemArray.consecutive 9 S_ hcc1_scoped4

abbrev win0_0 : Pipeline.Window sig grid0 :=
  Pipeline.Window.ofSpec (Memref.whole main_v7) S1x8192.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v8) S1x8192.size cc0_transform_1 reads0_1 true true 1 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev idle0 : Fin 2 → grid0.Coords → Bool := fun | 0 => fun _ => false | 1 => fun i => !(k0_cond1 i == 1#1) && !(k0_cond2 i == 1#1) | ⟨_ + 2, h⟩ => absurd h (Nat.not_lt.2 (Nat.le_add_left _ _))

abbrev win2_0 : Pipeline.Window sig grid2 :=
  Pipeline.Window.whole (Memref.whole main_v9) false false (stage2_0 0) (sem2_0 0) (Memref.isWhole_whole _) (hstage2_0 0)

abbrev win2_1 : Pipeline.Window sig grid2 :=
  Pipeline.Window.whole (Memref.whole main_arg1) false false (stage2_1 0) (sem2_1 0) (Memref.isWhole_whole _) (hstage2_1 0)

abbrev win2_2 : Pipeline.Window sig grid2 :=
  Pipeline.Window.whole (Memref.whole main_arg2) false false (stage2_2 0) (sem2_2 0) (Memref.isWhole_whole _) (hstage2_2 0)

abbrev win2_3 : Pipeline.Window sig grid2 :=
  Pipeline.Window.whole (Memref.whole main_arg3) false false (stage2_3 0) (sem2_3 0) (Memref.isWhole_whole _) (hstage2_3 0)

abbrev win2_4 : Pipeline.Window sig grid2 :=
  Pipeline.Window.whole (Memref.whole main_arg4) false false (stage2_4 0) (sem2_4 0) (Memref.isWhole_whole _) (hstage2_4 0)

abbrev win2_5 : Pipeline.Window sig grid2 :=
  Pipeline.Window.whole (Memref.whole main_arg7) false false (stage2_5 0) (sem2_5 0) (Memref.isWhole_whole _) (hstage2_5 0)

abbrev win2_6 : Pipeline.Window sig grid2 :=
  Pipeline.Window.whole (Memref.whole main_v10) false false (stage2_6 0) (sem2_6 0) (Memref.isWhole_whole _) (hstage2_6 0)

abbrev win2_7 : Pipeline.Window sig grid2 :=
  Pipeline.Window.whole (Memref.whole main_v11) false false (stage2_7 0) (sem2_7 0) (Memref.isWhole_whole _) (hstage2_7 0)

abbrev win2_8 : Pipeline.Window sig grid2 :=
  Pipeline.Window.whole (Memref.whole main_v12) false false (stage2_8 0) (sem2_8 0) (Memref.isWhole_whole _) (hstage2_8 0)

abbrev win2_9 : Pipeline.Window sig grid2 :=
  Pipeline.Window.whole (Memref.whole main_v13) false false (stage2_9 0) (sem2_9 0) (Memref.isWhole_whole _) (hstage2_9 0)

abbrev win2_10 : Pipeline.Window sig grid2 :=
  Pipeline.Window.whole (Memref.whole main_v14) false false (stage2_10 0) (sem2_10 0) (Memref.isWhole_whole _) (hstage2_10 0)

abbrev win2_11 : Pipeline.Window sig grid2 :=
  Pipeline.Window.whole (Memref.whole main_v15) false false (stage2_11 0) (sem2_11 0) (Memref.isWhole_whole _) (hstage2_11 0)

abbrev win2_12 : Pipeline.Window sig grid2 :=
  Pipeline.Window.whole (Memref.whole main_v16) false false (stage2_12 0) (sem2_12 0) (Memref.isWhole_whole _) (hstage2_12 0)

abbrev win2_13 : Pipeline.Window sig grid2 :=
  Pipeline.Window.whole (Memref.whole main_arg11) false false (stage2_13 0) (sem2_13 0) (Memref.isWhole_whole _) (hstage2_13 0)

abbrev win2_14 : Pipeline.Window sig grid2 :=
  Pipeline.Window.whole (Memref.whole main_arg10) false false (stage2_14 0) (sem2_14 0) (Memref.isWhole_whole _) (hstage2_14 0)

abbrev win2_15 : Pipeline.Window sig grid2 :=
  Pipeline.Window.whole (Memref.whole main_v17) true false (stage2_15 0) (sem2_15 0) (Memref.isWhole_whole _) (hstage2_15 0)

abbrev win2 : Fin 16 → Pipeline.Window sig grid2 := fun | 0 => win2_0 | 1 => win2_1 | 2 => win2_2 | 3 => win2_3 | 4 => win2_4 | 5 => win2_5 | 6 => win2_6 | 7 => win2_7 | 8 => win2_8 | 9 => win2_9 | 10 => win2_10 | 11 => win2_11 | 12 => win2_12 | 13 => win2_13 | 14 => win2_14 | 15 => win2_15 | ⟨_ + 16, h⟩ => absurd h (Nat.not_lt.2 (Nat.le_add_left _ _))
abbrev spec2 : Fin 16 → Pipeline.WinSpec sig grid2.rank := fun w => (win2 w).toWinSpec

class Facts : Prop extends Facts₀ where

variable [Facts]
-- ==== ReferenceIdeal.lean ====
abbrev S1x250000 : Shape := ⟨2, ![1, 250000]⟩
abbrev S1x50000 : Shape := ⟨2, ![1, 50000]⟩
abbrev S1x200000 : Shape := ⟨2, ![1, 200000]⟩
abbrev S1600000 : Shape := ⟨1, ![1600000]⟩
abbrev S4 : Shape := ⟨1, ![4]⟩
abbrev S2 : Shape := ⟨1, ![2]⟩
abbrev S50000 : Shape := ⟨1, ![50000]⟩
abbrev S1600000x2 : Shape := ⟨2, ![1600000, 2]⟩
abbrev S1600000x1 : Shape := ⟨2, ![1600000, 1]⟩
abbrev S_ : Shape := ⟨0, ![]⟩
abbrev S1 : Shape := ⟨1, ![1]⟩
abbrev S1x1 : Shape := ⟨2, ![1, 1]⟩
abbrev S1x1600000 : Shape := ⟨2, ![1, 1600000]⟩
abbrev S200000x1 : Shape := ⟨2, ![200000, 1]⟩
abbrev S1x50000x4 : Shape := ⟨3, ![1, 50000, 4]⟩
abbrev S1x1x4 : Shape := ⟨3, ![1, 1, 4]⟩

abbrev nBuf : Space → Nat
  | .hbm => 128
  | .vmem => 0
  | .smem => 0
  | _ => 0

abbrev bufTy : (tb : Table) → Fin (tcTables nBuf tb) → BufTy
  | .hbm, ⟨0, _⟩ => ⟨S1x250000, .f32⟩
  | .hbm, ⟨1, _⟩ => ⟨S1x50000, .f32⟩
  | .hbm, ⟨2, _⟩ => ⟨S1x50000, .f32⟩
  | .hbm, ⟨3, _⟩ => ⟨S1x50000, .f32⟩
  | .hbm, ⟨4, _⟩ => ⟨S1x50000, .f32⟩
  | .hbm, ⟨5, _⟩ => ⟨S1x200000, .f32⟩
  | .hbm, ⟨6, _⟩ => ⟨S1600000, .f32⟩
  | .hbm, ⟨7, _⟩ => ⟨S1x50000, .f32⟩
  | .hbm, ⟨8, _⟩ => ⟨S4, .f32⟩
  | .hbm, ⟨9, _⟩ => ⟨S4, .f32⟩
  | .hbm, ⟨10, _⟩ => ⟨S2, .f32⟩
  | .hbm, ⟨11, _⟩ => ⟨S2, .f32⟩
  | .hbm, ⟨12, _⟩ => ⟨S50000, .f32⟩
  | .hbm, ⟨13, _⟩ => ⟨S50000, .f32⟩
  | .hbm, ⟨14, _⟩ => ⟨S50000, .f32⟩
  | .hbm, ⟨15, _⟩ => ⟨S50000, .f32⟩
  | .hbm, ⟨16, _⟩ => ⟨S50000, .f32⟩
  | .hbm, ⟨17, _⟩ => ⟨S50000, .f32⟩
  | .hbm, ⟨18, _⟩ => ⟨S1600000x2, .i32⟩
  | .hbm, ⟨19, _⟩ => ⟨S1600000x1, .i32⟩
  | .hbm, ⟨20, _⟩ => ⟨S1600000, .i32⟩
  | .hbm, ⟨21, _⟩ => ⟨S1600000x1, .i32⟩
  | .hbm, ⟨22, _⟩ => ⟨S1600000, .i32⟩
  | .hbm, ⟨23, _⟩ => ⟨S_, .i32⟩
  | .hbm, ⟨24, _⟩ => ⟨S1600000, .i32⟩
  | .hbm, ⟨25, _⟩ => ⟨S1600000, .i1⟩
  | .hbm, ⟨26, _⟩ => ⟨S_, .i32⟩
  | .hbm, ⟨27, _⟩ => ⟨S1600000, .i32⟩
  | .hbm, ⟨28, _⟩ => ⟨S1600000, .i32⟩
  | .hbm, ⟨29, _⟩ => ⟨S1600000, .i32⟩
  | .hbm, ⟨30, _⟩ => ⟨S1600000x1, .i32⟩
  | .hbm, ⟨31, _⟩ => ⟨S1, .i32⟩
  | .hbm, ⟨32, _⟩ => ⟨S_, .i32⟩
  | .hbm, ⟨33, _⟩ => ⟨S1600000x1, .i32⟩
  | .hbm, ⟨34, _⟩ => ⟨S1600000x1, .i1⟩
  | .hbm, ⟨35, _⟩ => ⟨S1x1, .i32⟩
  | .hbm, ⟨36, _⟩ => ⟨S1600000x1, .i32⟩
  | .hbm, ⟨37, _⟩ => ⟨S1600000x1, .i1⟩
  | .hbm, ⟨38, _⟩ => ⟨S1600000x1, .i1⟩
  | .hbm, ⟨39, _⟩ => ⟨S_, .i1⟩
  | .hbm, ⟨40, _⟩ => ⟨S1600000, .i1⟩
  | .hbm, ⟨41, _⟩ => ⟨S1x1600000, .f32⟩
  | .hbm, ⟨42, _⟩ => ⟨S1x1600000, .i1⟩
  | .hbm, ⟨43, _⟩ => ⟨S_, .f32⟩
  | .hbm, ⟨44, _⟩ => ⟨S1x1600000, .f32⟩
  | .hbm, ⟨45, _⟩ => ⟨S1x1600000, .f32⟩
  | .hbm, ⟨46, _⟩ => ⟨S1x1600000, .f32⟩
  | .hbm, ⟨47, _⟩ => ⟨S1x1600000, .f32⟩
  | .hbm, ⟨48, _⟩ => ⟨S1600000x1, .f32⟩
  | .hbm, ⟨49, _⟩ => ⟨S_, .f32⟩
  | .hbm, ⟨50, _⟩ => ⟨S200000x1, .f32⟩
  | .hbm, ⟨51, _⟩ => ⟨S1600000x1, .i32⟩
  | .hbm, ⟨52, _⟩ => ⟨S200000x1, .f32⟩
  | .hbm, ⟨53, _⟩ => ⟨S1x200000, .f32⟩
  | .hbm, ⟨54, _⟩ => ⟨S1x50000x4, .f32⟩
  | .hbm, ⟨55, _⟩ => ⟨S1x50000x4, .f32⟩
  | .hbm, ⟨56, _⟩ => ⟨S1x1x4, .f32⟩
  | .hbm, ⟨57, _⟩ => ⟨S1x50000x4, .f32⟩
  | .hbm, ⟨58, _⟩ => ⟨S1x50000x4, .f32⟩
  | .hbm, ⟨59, _⟩ => ⟨S1x1x4, .f32⟩
  | .hbm, ⟨60, _⟩ => ⟨S1x50000x4, .f32⟩
  | .hbm, ⟨61, _⟩ => ⟨S1x50000x4, .f32⟩
  | .hbm, ⟨62, _⟩ => ⟨S1x50000x4, .f32⟩
  | .hbm, ⟨63, _⟩ => ⟨S1x50000, .f32⟩
  | .hbm, ⟨64, _⟩ => ⟨S1, .f32⟩
  | .hbm, ⟨65, _⟩ => ⟨S_, .f32⟩
  | .hbm, ⟨66, _⟩ => ⟨S1x50000, .f32⟩
  | .hbm, ⟨67, _⟩ => ⟨S1x50000, .f32⟩
  | .hbm, ⟨68, _⟩ => ⟨S1, .f32⟩
  | .hbm, ⟨69, _⟩ => ⟨S_, .f32⟩
  | .hbm, ⟨70, _⟩ => ⟨S1x50000, .f32⟩
  | .hbm, ⟨71, _⟩ => ⟨S1x50000, .f32⟩
  | .hbm, ⟨72, _⟩ => ⟨S1x50000, .f32⟩
  | .hbm, ⟨73, _⟩ => ⟨S1, .f32⟩
  | .hbm, ⟨74, _⟩ => ⟨S_, .f32⟩
  | .hbm, ⟨75, _⟩ => ⟨S1x50000, .f32⟩
  | .hbm, ⟨76, _⟩ => ⟨S1x50000, .f32⟩
  | .hbm, ⟨77, _⟩ => ⟨S1, .f32⟩
  | .hbm, ⟨78, _⟩ => ⟨S_, .f32⟩
  | .hbm, ⟨79, _⟩ => ⟨S1x50000, .f32⟩
  | .hbm, ⟨80, _⟩ => ⟨S1x50000, .f32⟩
  | .hbm, ⟨81, _⟩ => ⟨S1x50000, .f32⟩
  | .hbm, ⟨82, _⟩ => ⟨S_, .f32⟩
  | .hbm, ⟨83, _⟩ => ⟨S1x50000, .f32⟩
  | .hbm, ⟨84, _⟩ => ⟨S1x50000, .f32⟩
  | .hbm, ⟨85, _⟩ => ⟨S1x50000, .f32⟩
  | .hbm, ⟨86, _⟩ => ⟨S1x50000, .f32⟩
  | .hbm, ⟨87, _⟩ => ⟨S1x50000, .f32⟩
  | .hbm, ⟨88, _⟩ => ⟨S1x50000, .f32⟩
  | .hbm, ⟨89, _⟩ => ⟨S1x50000, .f32⟩
  | .hbm, ⟨90, _⟩ => ⟨S1x50000, .f32⟩
  | .hbm, ⟨91, _⟩ => ⟨S1x50000, .f32⟩
  | .hbm, ⟨92, _⟩ => ⟨S_, .f32⟩
  | .hbm, ⟨93, _⟩ => ⟨S1x50000, .f32⟩
  | .hbm, ⟨94, _⟩ => ⟨S1x50000, .i1⟩
  | .hbm, ⟨95, _⟩ => ⟨S1x50000, .f32⟩
  | .hbm, ⟨96, _⟩ => ⟨S1x50000, .f32⟩
  | .hbm, ⟨97, _⟩ => ⟨S1x50000, .f32⟩
  | .hbm, ⟨98, _⟩ => ⟨S1x50000, .f32⟩
  | .hbm, ⟨99, _⟩ => ⟨S1x50000, .f32⟩
  | .hbm, ⟨100, _⟩ => ⟨S_, .f32⟩
  | .hbm, ⟨101, _⟩ => ⟨S1x50000, .f32⟩
  | .hbm, ⟨102, _⟩ => ⟨S1x50000, .f32⟩
  | .hbm, ⟨103, _⟩ => ⟨S_, .f32⟩
  | .hbm, ⟨104, _⟩ => ⟨S1x50000, .f32⟩
  | .hbm, ⟨105, _⟩ => ⟨S1x50000, .f32⟩
  | .hbm, ⟨106, _⟩ => ⟨S1x50000, .f32⟩
  | .hbm, ⟨107, _⟩ => ⟨S1x50000, .f32⟩
  | .hbm, ⟨108, _⟩ => ⟨S1x50000, .f32⟩
  | .hbm, ⟨109, _⟩ => ⟨S1x50000, .f32⟩
  | .hbm, ⟨110, _⟩ => ⟨S1x50000, .f32⟩
  | .hbm, ⟨111, _⟩ => ⟨S_, .f32⟩
  | .hbm, ⟨112, _⟩ => ⟨S1x50000, .f32⟩
  | .hbm, ⟨113, _⟩ => ⟨S1x50000, .f32⟩
  | .hbm, ⟨114, _⟩ => ⟨S1x50000, .f32⟩
  | .hbm, ⟨115, _⟩ => ⟨S_, .f32⟩
  | .hbm, ⟨116, _⟩ => ⟨S_, .f32⟩
  | .hbm, ⟨117, _⟩ => ⟨S_, .f32⟩
  | .hbm, ⟨118, _⟩ => ⟨S1x50000, .f32⟩
  | .hbm, ⟨119, _⟩ => ⟨S1x50000, .i1⟩
  | .hbm, ⟨120, _⟩ => ⟨S1x50000, .f32⟩
  | .hbm, ⟨121, _⟩ => ⟨S_, .f32⟩
  | .hbm, ⟨122, _⟩ => ⟨S1x50000, .f32⟩
  | .hbm, ⟨123, _⟩ => ⟨S1x50000, .i1⟩
  | .hbm, ⟨124, _⟩ => ⟨S_, .f32⟩
  | .hbm, ⟨125, _⟩ => ⟨S_, .f32⟩
  | .hbm, ⟨126, _⟩ => ⟨S1x50000, .f32⟩
  | .hbm, ⟨127, _⟩ => ⟨S1x50000, .f32⟩
  | _, _ => ⟨S1x250000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_call0_c : Ref sig .tc := ⟨.hbm, 23, rfl⟩
abbrev main_call0_v0 : Ref sig .tc := ⟨.hbm, 24, rfl⟩
abbrev main_call0_v1 : Ref sig .tc := ⟨.hbm, 25, rfl⟩
abbrev main_call0_c_0 : Ref sig .tc := ⟨.hbm, 26, rfl⟩
abbrev main_call0_v2 : Ref sig .tc := ⟨.hbm, 27, rfl⟩
abbrev main_call0_v3 : Ref sig .tc := ⟨.hbm, 28, rfl⟩
abbrev main_call0_v4 : Ref sig .tc := ⟨.hbm, 29, rfl⟩
abbrev main_call0_v5 : Ref sig .tc := ⟨.hbm, 30, rfl⟩
abbrev main_call0_c_1 : Ref sig .tc := ⟨.hbm, 31, rfl⟩
abbrev main_call0_c_2 : Ref sig .tc := ⟨.hbm, 32, rfl⟩
abbrev main_call0_v6 : Ref sig .tc := ⟨.hbm, 33, rfl⟩
abbrev main_call0_v7 : Ref sig .tc := ⟨.hbm, 34, rfl⟩
abbrev main_call0_v8 : Ref sig .tc := ⟨.hbm, 35, rfl⟩
abbrev main_call0_v9 : Ref sig .tc := ⟨.hbm, 36, rfl⟩
abbrev main_call0_v10 : Ref sig .tc := ⟨.hbm, 37, rfl⟩
abbrev main_call0_v11 : Ref sig .tc := ⟨.hbm, 38, rfl⟩
abbrev main_call0_c_3 : Ref sig .tc := ⟨.hbm, 39, rfl⟩
abbrev main_call0_v12 : Ref sig .tc := ⟨.hbm, 40, rfl⟩
abbrev main_call0_v13 : Ref sig .tc := ⟨.hbm, 41, rfl⟩
abbrev main_call0_v14 : Ref sig .tc := ⟨.hbm, 42, rfl⟩
abbrev main_call0_cst : Ref sig .tc := ⟨.hbm, 43, rfl⟩
abbrev main_call0_v15 : Ref sig .tc := ⟨.hbm, 44, rfl⟩
abbrev main_v4 : Ref sig .tc := ⟨.hbm, 45, rfl⟩
abbrev main_v5 : Ref sig .tc := ⟨.hbm, 46, rfl⟩
abbrev main_v6 : Ref sig .tc := ⟨.hbm, 47, rfl⟩
abbrev main_v7 : Ref sig .tc := ⟨.hbm, 48, rfl⟩
abbrev main_cst : Ref sig .tc := ⟨.hbm, 49, rfl⟩
abbrev main_v8 : Ref sig .tc := ⟨.hbm, 50, rfl⟩
abbrev main_v9 : Ref sig .tc := ⟨.hbm, 51, rfl⟩
abbrev main_v10 : Ref sig .tc := ⟨.hbm, 52, rfl⟩
abbrev main_v11 : Ref sig .tc := ⟨.hbm, 53, rfl⟩
abbrev main_v12 : Ref sig .tc := ⟨.hbm, 54, rfl⟩
abbrev main_v13 : Ref sig .tc := ⟨.hbm, 55, rfl⟩
abbrev main_v14 : Ref sig .tc := ⟨.hbm, 56, rfl⟩
abbrev main_v15 : Ref sig .tc := ⟨.hbm, 57, rfl⟩
abbrev main_v16 : Ref sig .tc := ⟨.hbm, 58, rfl⟩
abbrev main_v17 : Ref sig .tc := ⟨.hbm, 59, rfl⟩
abbrev main_v18 : Ref sig .tc := ⟨.hbm, 60, rfl⟩
abbrev main_v19 : Ref sig .tc := ⟨.hbm, 61, rfl⟩
abbrev main_v20 : Ref sig .tc := ⟨.hbm, 62, rfl⟩
abbrev main_v21 : Ref sig .tc := ⟨.hbm, 63, rfl⟩
abbrev main_v22 : Ref sig .tc := ⟨.hbm, 64, rfl⟩
abbrev main_v23 : Ref sig .tc := ⟨.hbm, 65, rfl⟩
abbrev main_v24 : Ref sig .tc := ⟨.hbm, 66, rfl⟩
abbrev main_v25 : Ref sig .tc := ⟨.hbm, 67, rfl⟩
abbrev main_v26 : Ref sig .tc := ⟨.hbm, 68, rfl⟩
abbrev main_v27 : Ref sig .tc := ⟨.hbm, 69, rfl⟩
abbrev main_v28 : Ref sig .tc := ⟨.hbm, 70, rfl⟩
abbrev main_v29 : Ref sig .tc := ⟨.hbm, 71, rfl⟩
abbrev main_v30 : Ref sig .tc := ⟨.hbm, 72, rfl⟩
abbrev main_v31 : Ref sig .tc := ⟨.hbm, 73, rfl⟩
abbrev main_v32 : Ref sig .tc := ⟨.hbm, 74, rfl⟩
abbrev main_v33 : Ref sig .tc := ⟨.hbm, 75, rfl⟩
abbrev main_v34 : Ref sig .tc := ⟨.hbm, 76, rfl⟩
abbrev main_v35 : Ref sig .tc := ⟨.hbm, 77, rfl⟩
abbrev main_v36 : Ref sig .tc := ⟨.hbm, 78, rfl⟩
abbrev main_v37 : Ref sig .tc := ⟨.hbm, 79, rfl⟩
abbrev main_v38 : Ref sig .tc := ⟨.hbm, 80, rfl⟩
abbrev main_v39 : Ref sig .tc := ⟨.hbm, 81, rfl⟩
abbrev main_cst_0 : Ref sig .tc := ⟨.hbm, 82, rfl⟩
abbrev main_v40 : Ref sig .tc := ⟨.hbm, 83, rfl⟩
abbrev main_v41 : Ref sig .tc := ⟨.hbm, 84, rfl⟩
abbrev main_v42 : Ref sig .tc := ⟨.hbm, 85, rfl⟩
abbrev main_v43 : Ref sig .tc := ⟨.hbm, 86, rfl⟩
abbrev main_v44 : Ref sig .tc := ⟨.hbm, 87, rfl⟩
abbrev main_v45 : Ref sig .tc := ⟨.hbm, 88, rfl⟩
abbrev main_v46 : Ref sig .tc := ⟨.hbm, 89, rfl⟩
abbrev main_v47 : Ref sig .tc := ⟨.hbm, 90, rfl⟩
abbrev main_v48 : Ref sig .tc := ⟨.hbm, 91, rfl⟩
abbrev main_cst_1 : Ref sig .tc := ⟨.hbm, 92, rfl⟩
abbrev main_v49 : Ref sig .tc := ⟨.hbm, 93, rfl⟩
abbrev main_v50 : Ref sig .tc := ⟨.hbm, 94, rfl⟩
abbrev main_v51 : Ref sig .tc := ⟨.hbm, 95, rfl⟩
abbrev main_v52 : Ref sig .tc := ⟨.hbm, 96, rfl⟩
abbrev main_v53 : Ref sig .tc := ⟨.hbm, 97, rfl⟩
abbrev main_v54 : Ref sig .tc := ⟨.hbm, 98, rfl⟩
abbrev main_v55 : Ref sig .tc := ⟨.hbm, 99, rfl⟩
abbrev main_cst_2 : Ref sig .tc := ⟨.hbm, 100, rfl⟩
abbrev main_v56 : Ref sig .tc := ⟨.hbm, 101, rfl⟩
abbrev main_v57 : Ref sig .tc := ⟨.hbm, 102, rfl⟩
abbrev main_cst_3 : Ref sig .tc := ⟨.hbm, 103, rfl⟩
abbrev main_v58 : Ref sig .tc := ⟨.hbm, 104, rfl⟩
abbrev main_v59 : Ref sig .tc := ⟨.hbm, 105, rfl⟩
abbrev main_v60 : Ref sig .tc := ⟨.hbm, 106, rfl⟩
abbrev main_v61 : Ref sig .tc := ⟨.hbm, 107, rfl⟩
abbrev main_v62 : Ref sig .tc := ⟨.hbm, 108, rfl⟩
abbrev main_v63 : Ref sig .tc := ⟨.hbm, 109, rfl⟩
abbrev main_v64 : Ref sig .tc := ⟨.hbm, 110, rfl⟩
abbrev main_cst_4 : Ref sig .tc := ⟨.hbm, 111, rfl⟩
abbrev main_v65 : Ref sig .tc := ⟨.hbm, 112, rfl⟩
abbrev main_v66 : Ref sig .tc := ⟨.hbm, 113, rfl⟩
abbrev main_v67 : Ref sig .tc := ⟨.hbm, 114, rfl⟩
abbrev main_cst_5 : Ref sig .tc := ⟨.hbm, 115, rfl⟩
abbrev main_cst_6 : Ref sig .tc := ⟨.hbm, 116, rfl⟩
abbrev main_cst_7 : Ref sig .tc := ⟨.hbm, 117, rfl⟩
abbrev main_v68 : Ref sig .tc := ⟨.hbm, 118, rfl⟩
abbrev main_v69 : Ref sig .tc := ⟨.hbm, 119, rfl⟩
abbrev main_v70 : Ref sig .tc := ⟨.hbm, 120, rfl⟩
abbrev main_cst_8 : Ref sig .tc := ⟨.hbm, 121, rfl⟩
abbrev main_v71 : Ref sig .tc := ⟨.hbm, 122, rfl⟩
abbrev main_v72 : Ref sig .tc := ⟨.hbm, 123, rfl⟩
abbrev main_cst_9 : Ref sig .tc := ⟨.hbm, 124, rfl⟩
abbrev main_call2_v0 : Ref sig .tc := ⟨.hbm, 125, rfl⟩
abbrev main_call2_v1 : Ref sig .tc := ⟨.hbm, 126, rfl⟩
abbrev main_v73 : Ref sig .tc := ⟨.hbm, 127, rfl⟩

abbrev nD : Nat := 1
abbrev τ : Topo := Topo.v7x

variable {F : FTy → Type} [FloatOps F]

class Facts₀ : Prop where
  slices_S1600000x2_S1600000x1_0_0 : S1600000x2.Slices ![0, 0] S1600000x1
  shapeCasts_S1600000x1_S1600000 : S1600000x1.ShapeCasts S1600000
  slices_S1600000x2_S1600000x1_0_1 : S1600000x2.Slices ![0, 1] S1600000x1
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S1600000x1 : S_.BroadcastsInDim S1600000x1 (![] : Fin 0 → Fin S1600000x1.rank)
  bcast_S1_S1x1_1 : S1.BroadcastsInDim S1x1 (![1] : Fin 1 → Fin S1x1.rank)
  bcast_S1x1_S1600000x1_0_1 : S1x1.BroadcastsInDim S1600000x1 (![0, 1] : Fin 2 → Fin S1600000x1.rank)
  reducesTo_S1600000x1_S1600000_d1 : S1600000x1.ReducesTo [1] S1600000
  h_S_ : 0 < S_.numel
  bcast_S1600000_S1x1600000_1 : S1600000.BroadcastsInDim S1x1600000 (![1] : Fin 1 → Fin S1x1600000.rank)
  bcast_S_S1x1600000 : S_.BroadcastsInDim S1x1600000 (![] : Fin 0 → Fin S1x1600000.rank)
  transposes_S1x1600000_S1600000x1_1_0 : S1x1600000.Transposes [1, 0] S1600000x1
  bcast_S_S200000x1 : S_.BroadcastsInDim S200000x1 (![] : Fin 0 → Fin S200000x1.rank)
  transposes_S200000x1_S1x200000_1_0 : S200000x1.Transposes [1, 0] S1x200000
  shapeCasts_S1x200000_S1x50000x4 : S1x200000.ShapeCasts S1x50000x4
  bcast_S4_S1x1x4_2 : S4.BroadcastsInDim S1x1x4 (![2] : Fin 1 → Fin S1x1x4.rank)
  bcast_S1x1x4_S1x50000x4_0_1_2 : S1x1x4.BroadcastsInDim S1x50000x4 (![0, 1, 2] : Fin 3 → Fin S1x50000x4.rank)
  slices_S1x250000_S1x50000_0_0 : S1x250000.Slices ![0, 0] S1x50000
  slices_S2_S1_0 : S2.Slices ![0] S1
  shapeCasts_S1_S_ : S1.ShapeCasts S_
  bcast_S_S1x50000 : S_.BroadcastsInDim S1x50000 (![] : Fin 0 → Fin S1x50000.rank)
  slices_S2_S1_1 : S2.Slices ![1] S1
  reducesTo_S1x50000x4_S1x50000_d2 : S1x50000x4.ReducesTo [2] S1x50000
  bcast_S50000_S1x50000_1 : S50000.BroadcastsInDim S1x50000 (![1] : Fin 1 → Fin S1x50000.rank)
  gather_S1x250000_S1600000x1_S1x1600000_0_1_n_n_1_1_11_wf : GatherDims.WF S1x250000 S1600000x1 S1x1600000 [0] [1] [] [1] [] 1 ![1, 1]
  scatter_S200000x1_S1600000x1_S1600000x1_1_0_0_1_wf : ScatterDims.WF S200000x1 S1600000x1 S1600000x1 [1] [0] [0] 1

variable [Facts₀]

def gather_S1x250000_S1600000x1_S1x1600000_0_1_n_n_1_1_11 : GatherDims S1x250000 S1600000x1 S1x1600000 where
  offsetDims := [0]
  collapsedSliceDims := [1]
  operandBatchingDims := []
  startIndicesBatchingDims := []
  startIndexMap := [1]
  indexVectorDim := 1
  sliceSizes := ![1, 1]
  wf := gather_S1x250000_S1600000x1_S1x1600000_0_1_n_n_1_1_11_wf
def scatter_S200000x1_S1600000x1_S1600000x1_1_0_0_1 : ScatterDims S200000x1 S1600000x1 S1600000x1 where
  updateWindowDims := [1]
  insertedWindowDims := [0]
  scatterDimsToOperandDims := [0]
  indexVectorDim := 1
  wf := scatter_S200000x1_S1600000x1_S1600000x1_1_0_0_1_wf

class Facts : Prop extends Facts₀ where

variable [Facts]
-- ==== Proof.Base.lean ====
import proofs.«215744_g19043884990565_cont_8to1_1279_72_alg».proof.Defs
import proofs.«215744_g19043884990565_cont_8to1_1279_72_alg».proof.Proof.Gen.KernelIdeal
import Idealize.ShloMosaic.Lib.SparseCore.Launch

noncomputable section

namespace Cert.Proof.Launch

open Cert.KernelIdeal Cert.KernelIdeal.Gen
open Idealize.ShloMosaic
open Idealize.SL Idealize.SL.Sem

variable {F : FTy → Type}

abbrev ΛP : Labels := Pipeline.Sig Λ₀ (Fin 2) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem nCore_zero : (K (F := F)).nCore 0 = 2 := rfl
theorem nSub_zero : (K (F := F)).nSub 0 = 16 := rfl

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

end Cert.Proof.Launch

end
-- ==== Proof.Ghost.lean ====
import proofs.«215744_g19043884990565_cont_8to1_1279_72_alg».proof.Proof.Base
import proofs.«215744_g19043884990565_cont_8to1_1279_72_alg».proof.Proof.Gen.KernelIdeal.Launch
import Idealize.ShloMosaic.Lib.Pipeline.Kit
import Idealize.ShloMosaic.Lib.Pipeline.Regions
import Idealize.ShloMosaic.Lib.Transfers
import Idealize.ShloMosaic.Lib.Pipeline.Frame
import Idealize.ShloMosaic.Lib.StableHlo.Run

noncomputable section

namespace Cert.Proof.Launch

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held)

variable {F : FTy → Type}

-- The resource algebra: the rounds algebra twice, and the counters.
abbrev UH : Type := URounds (GSem nD τ sig) ℕ
abbrev UP : Type := URounds (GSem nD τ sig) Unit
abbrev UU : Type := UH × (UP × Counters)

local notation "𝕄" => MT nD τ sig (HIx 1) (Elt F) ℕ UU ℕ

abbrev EH : Emb UH (MT nD τ sig (HIx 1) (Elt F) ℕ UU ℕ) := embL
def EP : Emb UP (MT nD τ sig (HIx 1) (Elt F) ℕ UU ℕ) := (Emb.inl : Emb UP (UP × Counters)).trans embR

instance EP_landsIn : (EP (F := F)).LandsIn (upEmb : UEmb _ 𝕄) := by unfold EP; infer_instance

abbrev adm : (p : Fin 2) → (pcfgs (F := F) p).Adm := fun p => (cfgs p).toPCfg_adm

-- The two regions' configurations, and the type of one's proof data.
abbrev pn (F : FTy → Type) := Pipeline.pin (pcfgs (F := F)) adm
abbrev PDat (F : FTy → Type) (p : Fin 2) (c : Dev nD) := Pipeline.Dat τ (Elt F) (HIx 1) ℕ UU ℕ (pn F p) c

-- The types of the three value functions: the packing call's, a tile's, the update call's.
abbrev PackF (F : FTy → Type) := Vec F S1x262144 .f32 → Vec F S1x8192 .i32
abbrev TileF (F : FTy → Type) := Vec F S1x8192 .i32 → Vec F S1600000 .i32 → Vec F S1600000 .i32 → Vec F S1600000 .f32 → Vec F S16 .f32 → Vec F S16 .f32
  → Vec F S1x200704 .f32 → Fin 32 → Vec F S50176 .f32
abbrev UpdF (F : FTy → Type) := Vec F S32x50176 .f32 → Vec F S1x50000 .f32 → Vec F S1x50000 .f32 → Vec F S1x50000 .f32 → Vec F S1x50000 .f32 → Vec F S1x50000 .f32
  → Vec F S1x50000 .f32 → Vec F S1x50000 .f32 → Vec F S1x50000 .f32 → Vec F S1x50000 .f32 → Vec F S1x50000 .f32 → Vec F S1x50000 .f32
  → Vec F S1x50000 .f32 → Vec F S2 .f32 → Vec F S2 .f32 → Vec F S1x50000 .f32

theorem phinj : Function.Injective (Pipeline.cellOf (nD := nD) (τ := τ) (pn F)) :=
  cellOf_inj

-- The launch element: the initial rounds of the handshakes' cells and of the regions' cells, with their tokens.
def u₀ : UU :=
  (initOf (K (F := F)).hsCells (K (F := F)).hsToks, (initOf (Pipeline.cells (pn F) phinj) (Pipeline.launchToks (pn F) phinj), 1))

abbrev G (d : Dev nD) : sProp 𝕄 := Pipeline.ghostOn (pcfgs (F := F)) adm EP Finset.univ d

-- Region `p`'s part of it.
abbrev Gp (p : Fin 2) (d : Dev nD) : sProp 𝕄 :=
  iprop(Pipeline.cellsGhost (pn F) EP p d ∗ Pipeline.toksInit (pn F) EP p d)

-- The rule of call `n`, region `p`: given the ghost state `Gp`, the held arrays go from `Vin` to `Vout`.
abbrev CallRule [FloatOps F] (P : (K (F := F)).Pay (nD := nD) (Val := Elt F) (Name := ℕ) (U := UU)) (p : Fin 2) (n : ℕ)
    (Gp : Dev nD → sProp 𝕄) (Vin Vout : Valuation τ sig (Elt F)) : Prop :=
  ∀ (κ : GSem nD τ sig → ℕ) (d : Dev nD) {β : Type} (k : PUnit → Prog (TpuEff nD τ sig (Elt F) (SparseCore.Sig (ΛP (F := F)) 1) .tc) β)
    (Φ : β → sProp 𝕄),
    iprop((K (F := F)).ctx EH P κ ∗ (K (F := F)).tcSt EH d n ∗ boundary (T d) ∗ held (T d) (Pipeline.ucRefs τ sig) Vin ∗ Gp d)
      ⊢ iprop((iprop((K (F := F)).tcSt EH d n ∗ boundary (T d) ∗ held (T d) (Pipeline.ucRefs τ sig) Vout)
            -∗ wp frame (wpE ((K (F := F)).defs (D (F := F))) 𝒱 (T d) none) Set.univ (k ⟨⟩) Φ)
          -∗ wp frame (wpE ((K (F := F)).defs (D (F := F))) 𝒱 (T d) none) Set.univ
              (Prog.lift (.customCall (SparseCore.inner (Pipeline.entry p)) ()) >>= k) Φ)

-- The launch element splits into the handshakes' rounds and every core's `G`.
theorem fund_u₀ : (ownU (u₀ (F := F)) : sProp 𝕄)
    ⊢ |={Set.univ}=> iprop(BI.own (EH (initOf (K (F := F)).hsCells (K (F := F)).hsToks)) ∗ bigSep Finset.univ fun d : Dev nD => G (F := F) d) := by
  unfold u₀
  iintro Hu
  ihave ⟨HH, HR⟩ := (ownU_pair _ _) $$ Hu
  ihave ⟨HP, -⟩ := (own_pair_emb (embR (A := UH) (B := UP × Counters)) _ _) $$ HR
  ihave HP' := (show (BI.own (((Emb.inl : Emb UP (UP × Counters)).trans (embR (A := UH) (B := UP × Counters))) _) : sProp 𝕄)
      ⊢ BI.own ((EP (F := F)) (initOf (Pipeline.cells (pn F) phinj) (Pipeline.launchToks (pn F) phinj))) from Entails.refl _) $$ HP
  imod (Pipeline.fund_ghost (pn F) (EP (F := F)) phinj) $$ HP' with ⟨Hg, Ht⟩
  imodintro
  rw [show (bigSep Finset.univ fun d : Dev nD => G (F := F) d)
      = iprop((bigSep Finset.univ fun c : Dev nD => bigSep Finset.univ fun p : Fin 2 => Pipeline.cellsGhost (pn F) (EP (F := F)) p c)
          ∗ (bigSep Finset.univ fun c : Dev nD => bigSep Finset.univ fun p : Fin 2 => (Pipeline.toksInit (pn F) (EP (F := F)) p c : sProp 𝕄))) from by
    rw [← bigSep_sep']
    exact bigSep_congr fun d _ => by rw [← bigSep_sep']; rfl]
  iframe

end Cert.Proof.Launch

end
-- ==== Proof.Pay.lean ====
import proofs.«215744_g19043884990565_cont_8to1_1279_72_alg».proof.Proof.Base
import Idealize.ShloMosaic.Lib.Transfers

noncomputable section

namespace Cert.Proof.Launch

open Cert.KernelIdeal Cert.KernelIdeal.Gen
open Idealize.ShloMosaic
open Idealize.ShloMosaic.SparseCore (S V T)
open Idealize.ShloMosaic.SparseCore.Cfg (HIx Pay)
open Idealize.ShloMosaic.Transfers (shareDrop shareTok pointsTo_toks pointsTo_toks_split pointsTo_toks_join)
open Idealize.SL Idealize.SL.RA Idealize.SL.BI
open scoped Idealize.SL.BI
open Idealize.SL.BI.BIBase Idealize.SL.BI.Laws Idealize.SL.ProofMode Idealize.SL.Sem

variable {F : FTy → Type} {U : Type} [URA U]

local notation "𝕄" => MT nD τ sig (HIx 1) (Elt F) ℕ U ℕ

-- The seven arrays the middle call reads and the one it writes.
abbrev pkLoc (d : Dev nD) : Loc nD τ sig := (SparseCore.T d).loc main_v8
abbrev rowsLoc (d : Dev nD) : Loc nD τ sig := (SparseCore.T d).loc main_v1
abbrev colsLoc (d : Dev nD) : Loc nD τ sig := (SparseCore.T d).loc main_v3
abbrev wLoc (d : Dev nD) : Loc nD τ sig := (SparseCore.T d).loc main_arg6
abbrev piLoc (d : Dev nD) : Loc nD τ sig := (SparseCore.T d).loc main_v4
abbrev pscLoc (d : Dev nD) : Loc nD τ sig := (SparseCore.T d).loc main_v6
abbrev sdLoc (d : Dev nD) : Loc nD τ sig := (SparseCore.T d).loc main_v5
abbrev outLoc (d : Dev nD) : Loc nD τ sig := (SparseCore.T d).loc main_v9

structure CallVals (d : Dev nD) where
  pk : Buf (Elt F) (pkLoc d)
  rows : Buf (Elt F) (rowsLoc d)
  cols : Buf (Elt F) (colsLoc d)
  w : Buf (Elt F) (wLoc d)
  pi : Buf (Elt F) (piLoc d)
  psc : Buf (Elt F) (pscLoc d)
  sd : Buf (Elt F) (sdLoc d)

def reads (d : Dev nD) (cv : CallVals (F := F) d) (q : PosShare TreeShare) : sProp 𝕄 :=
  iprop((pkLoc d ↦{q} cv.pk) ∗ (rowsLoc d ↦{q} cv.rows) ∗ (colsLoc d ↦{q} cv.cols) ∗ (wLoc d ↦{q} cv.w)
    ∗ (piLoc d ↦{q} cv.pi) ∗ (pscLoc d ↦{q} cv.psc) ∗ (sdLoc d ↦{q} cv.sd))

instance reads_storable (d : Dev nD) (cv : CallVals (F := F) d) (q : PosShare TreeShare) :
    BI.Storable (upEmb : UEmb _ 𝕄) (reads (U := U) d cv q) := by unfold reads; infer_instance

theorem hdiv32 : 32 ∣ S32x50176.size 0 := ⟨1, rfl⟩
abbrev outRow (t : Fin 32) : Rect S32x50176 := Rect.part (s := S32x50176) (a₀ := 0) hdiv32 t
abbrev outV : Memref sig .scVector .hbm S32x50176 .f32 := Memref.whole main_v9_scv
abbrev rowSet (t : Fin 32) : Finset S32x50176.Idx := ((outV : Memref sig .scVector .hbm S32x50176 .f32).view.slice (outRow t)).set

-- Task `s` of core `c` writes row `2 s + c` of the result, and no two tasks the same row.
def wid (c : Fin 2) (s : Fin 16) : Fin 32 := ⟨2 * s.val + c.val, by omega⟩

theorem wid_injective : Function.Injective fun cs : Fin 2 × Fin 16 => wid cs.1 cs.2 := by
  rintro ⟨c, s⟩ ⟨c', s'⟩ h
  have h' : 2 * s.val + c.val = 2 * s'.val + c'.val := congrArg Fin.val h
  exact Prod.ext (Fin.ext (show c.val = c'.val by omega)) (Fin.ext (show s.val = s'.val by omega))

abbrev outRowPts (d : Dev nD) (t : Fin 32) (f : Buf (Elt F) (outLoc d)) : sProp 𝕄 := outLoc d ↦[rowSet t]{fullShare} f

-- Shares: a whole array is cut in 2, each part in 16.
abbrev coreShare (c : Fin 2) : PosShare TreeShare := shareTok fullShare 2 c
abbrev tileShare (c : Fin 2) (s : Fin 16) : PosShare TreeShare := shareTok (coreShare c) 16 s

variable (m : (ℓ : Loc nD τ sig) → Buf (Elt F) ℓ)
variable (cv : (d : Dev nD) → CallVals (F := F) d) (po : (d : Dev nD) → Buf (Elt F) (outLoc d))

-- The payloads: out with the rows at `m`, back with the rows at `po`.
def P : (K (F := F)).Pay (nD := nD) (Val := Elt F) (Name := ℕ) (U := U) where
  st := fun q d c => match q with
    | 0 => iprop(reads d (cv d) (coreShare (Fin.cast nCore_zero c))
        ∗ bigSep Finset.univ fun s : Fin 16 => outRowPts d (wid (Fin.cast nCore_zero c) s) (m (outLoc d)))
  dn := fun q d c => match q with
    | 0 => iprop(reads d (cv d) (coreShare (Fin.cast nCore_zero c))
        ∗ bigSep Finset.univ fun s : Fin 16 => outRowPts d (wid (Fin.cast nCore_zero c) s) (po d))
  go := fun q d c i => match q with
    | 0 => iprop(reads d (cv d) (tileShare (Fin.cast nCore_zero c) (Fin.cast nSub_zero i))
        ∗ outRowPts d (wid (Fin.cast nCore_zero c) (Fin.cast nSub_zero i)) (m (outLoc d)))
  td := fun q d c i => match q with
    | 0 => iprop(reads d (cv d) (tileShare (Fin.cast nCore_zero c) (Fin.cast nSub_zero i))
        ∗ outRowPts d (wid (Fin.cast nCore_zero c) (Fin.cast nSub_zero i)) (po d))
  x := fun _ _ => iprop(emp)

instance P_storable : (P (F := F) (U := U) m cv po).IsStorable := by
  constructor <;> intro q <;> (match q with | 0 => intros; dsimp only [P]; infer_instance)

end Cert.Proof.Launch

end
-- ==== Proof.Split.lean ====
import proofs.«215744_g19043884990565_cont_8to1_1279_72_alg».proof.Proof.Pay

noncomputable section

namespace Cert.Proof.Launch

open Cert.KernelIdeal Cert.KernelIdeal.Gen
open Idealize.ShloMosaic
open Idealize.ShloMosaic.SparseCore (S V T)
open Idealize.ShloMosaic.SparseCore.Cfg (HIx Pay)
open Idealize.ShloMosaic.Transfers (shareDrop shareTok pointsTo_toks pointsTo_toks_split pointsTo_toks_join)
open Idealize.SL Idealize.SL.RA Idealize.SL.BI
open scoped Idealize.SL.BI
open Idealize.SL.BI.BIBase Idealize.SL.BI.Laws Idealize.SL.ProofMode Idealize.SL.Sem

variable {F : FTy → Type} {U : Type} [URA U]

local notation "𝕄" => MT nD τ sig (HIx 1) (Elt F) ℕ U ℕ

-- Two resources that each are a remainder and `n` tokens are, together, the two remainders and `n` pairs of tokens.
theorem toks_sep {n : ℕ} {A B A' B' : sProp 𝕄} {Ta Tb : Fin n → sProp 𝕄} (ha : A ⊣⊢ iprop(A' ∗ bigSep Finset.univ Ta))
    (hb : B ⊣⊢ iprop(B' ∗ bigSep Finset.univ Tb)) : iprop(A ∗ B) ⊣⊢ iprop((A' ∗ B') ∗ bigSep Finset.univ fun i => iprop(Ta i ∗ Tb i)) := by
  rw [bigSep_sep']
  exact (sep_congr ha hb).trans sep_sep_sep_comm

-- `toks_sep` six times over the seven points-to facts of `reads`.
theorem reads_toks (d : Dev nD) (cv : CallVals (F := F) d) (q : PosShare TreeShare) (n : ℕ) :
    (reads (U := U) d cv q : sProp 𝕄) ⊣⊢ iprop(reads d cv (shareDrop q n) ∗ bigSep Finset.univ fun i : Fin n => reads d cv (shareTok q n i)) := by
  unfold reads
  exact toks_sep (pointsTo_toks q n) (toks_sep (pointsTo_toks q n) (toks_sep (pointsTo_toks q n) (toks_sep (pointsTo_toks q n)
    (toks_sep (pointsTo_toks q n) (toks_sep (pointsTo_toks q n) (pointsTo_toks q n))))))

theorem reads_split (d : Dev nD) (cv : CallVals (F := F) d) (q : PosShare TreeShare) (n : ℕ) :
    (reads (U := U) d cv q : sProp 𝕄) ⊢ iprop(reads d cv (shareDrop q n) ∗ bigSep Finset.univ fun i : Fin n => reads d cv (shareTok q n i)) :=
  (reads_toks d cv q n).1

theorem reads_join (d : Dev nD) (cv : CallVals (F := F) d) (q : PosShare TreeShare) (n : ℕ) :
    iprop(reads d cv (shareDrop q n) ∗ bigSep Finset.univ fun i : Fin n => reads d cv (shareTok q n i)) ⊢ (reads (U := U) d cv q : sProp 𝕄) :=
  (reads_toks d cv q n).2

variable (m : (ℓ : Loc nD τ sig) → Buf (Elt F) ℓ)
variable (cv : (d : Dev nD) → CallVals (F := F) d) (po : (d : Dev nD) → Buf (Elt F) (outLoc d))

-- One core's share goes to its sixteen tasks and comes back: the tokens split and rejoin, each row is one task's own.
theorem split_core (d : Dev nD) (c : Fin 2) :
    iprop(reads d (cv d) (coreShare c) ∗ bigSep Finset.univ fun s : Fin 16 => outRowPts d (wid c s) (m (outLoc d)))
      ⊢ |={Set.univ}=> iprop((bigSep Finset.univ fun i : Fin 16 => iprop(reads d (cv d) (tileShare c i) ∗ outRowPts d (wid c i) (m (outLoc d))))
        ∗ ((bigSep Finset.univ fun i : Fin 16 => iprop(reads d (cv d) (tileShare c i) ∗ outRowPts d (wid c i) (po d)))
          -∗ iprop(reads (U := U) d (cv d) (coreShare c) ∗ bigSep Finset.univ fun s : Fin 16 => outRowPts d (wid c s) (po d)))) := by
  rw [bigSep_sep', bigSep_sep']
  iintro ⟨Hr, Ho⟩
  ihave ⟨Hrem, Htoks⟩ := (reads_split (U := U) d (cv d) (coreShare c) 16) $$ Hr
  imodintro
  iframe Htoks Ho
  iintro ⟨Htoks, Ho⟩
  iframe Ho
  iapply (reads_join (U := U) d (cv d) (coreShare c) 16)
  iframe

theorem vecSplit : (K (F := F)).VecSplit' (P (U := U) m cv po) 0 :=
  fun d c => split_core m cv po d (Fin.cast nCore_zero c)

end Cert.Proof.Launch

end
-- ==== Proof.CallRes.lean ====
import proofs.«215744_g19043884990565_cont_8to1_1279_72_alg».proof.Proof.Split
import Idealize.ShloMosaic.Lib.StableHlo.Run

noncomputable section

namespace Cert.Proof.Launch

open Cert.KernelIdeal Cert.KernelIdeal.Gen
open Idealize.ShloMosaic
open Idealize.ShloMosaic.SparseCore (S V T)
open Idealize.ShloMosaic.SparseCore.Cfg (HIx Pay)
open Idealize.ShloMosaic.Transfers (shareDrop shareTok pointsTo_toks pointsTo_toks_split pointsTo_toks_join)
open Idealize.ShloMosaic.StableHlo (held)
open Idealize.SL Idealize.SL.RA Idealize.SL.BI
open scoped Idealize.SL.BI
open Idealize.SL.BI.BIBase Idealize.SL.BI.Laws Idealize.SL.ProofMode Idealize.SL.Sem

variable {F : FTy → Type} {U : Type} [URA U]

local notation "𝕄" => MT nD τ sig (HIx 1) (Elt F) ℕ U ℕ

abbrev rf (b : Ref sig .tc) : DevRef τ sig := Proc.devRef .tc b

abbrev S8 : Finset (DevRef τ sig) := {rf main_v8, rf main_v1, rf main_v3, rf main_arg6, rf main_v4, rf main_v6, rf main_v5, rf main_v9}

def cvOf (d : Dev nD) (W : Valuation τ sig (Elt F)) : CallVals (F := F) d :=
  ⟨W (rf main_v8), W (rf main_v1), W (rf main_v3), W (rf main_arg6), W (rf main_v4), W (rf main_v6), W (rf main_v5)⟩

theorem held_S8 (d : Dev nD) (W : Valuation τ sig (Elt F)) :
    (held (T d) S8 W : sProp 𝕄)
      = iprop((pkLoc d ↦{fullShare} W (rf main_v8)) ∗ (rowsLoc d ↦{fullShare} W (rf main_v1)) ∗ (colsLoc d ↦{fullShare} W (rf main_v3))
          ∗ (wLoc d ↦{fullShare} W (rf main_arg6)) ∗ (piLoc d ↦{fullShare} W (rf main_v4)) ∗ (pscLoc d ↦{fullShare} W (rf main_v6))
          ∗ (sdLoc d ↦{fullShare} W (rf main_v5)) ∗ (outLoc d ↦{fullShare} W (rf main_v9))) := by
  unfold held S8
  repeat rw [SparseCore.bigSep_insert' (by decide)]
  rw [bigSep_singleton]

theorem rowSet_eq (t : Fin 32) : rowSet t = (outRow t).set := by
  show ((View.whole (main_v9_scv : Ref sig .scVector)).slice (outRow t)).set = _
  rw [View.set_slice]; exact Finset.map_refl

-- The 32 rows partition the result array, so the array whole is its rows.
theorem out_rows (d : Dev nD) (f : Buf (Elt F) (outLoc d)) :
    (outLoc d ↦{fullShare} f : sProp 𝕄) = bigSep Finset.univ fun t : Fin 32 => outLoc d ↦[rowSet t]{fullShare} f := by
  rw [← pointsTo_biUnion Finset.univ (ℓ := outLoc d) rowSet fun i _ j _ h => by
      rw [rowSet_eq, rowSet_eq]; exact Rect.part_disjoint hdiv32 h,
    (Finset.biUnion_congr rfl fun i _ => rowSet_eq i).trans (Rect.biUnion_part hdiv32)]; try rfl

-- Row `2 s + c` for `c < 2`, `s < 16` runs over all 32 rows once.
theorem bigSep_wid (Φ : Fin 32 → sProp 𝕄) :
    bigSep Finset.univ Φ = bigSep Finset.univ fun c : Fin 2 => bigSep Finset.univ fun s : Fin 16 => Φ (wid c s) := by
  rw [← Finset.eq_univ_of_card ((Finset.univ : Finset (Fin 2 × Fin 16)).image fun cs => wid cs.1 cs.2)
      (by rw [Finset.card_image_of_injective _ wid_injective]; rfl),
    Idealize.ShloMosaic.SparseCore.bigSep_image_of_injOn (wid_injective.injOn) Φ, ← Finset.univ_product_univ,
    Idealize.ShloMosaic.SparseCore.bigSep_product]

-- Over the two cores, each core's share of the read arrays with its sixteen rows is the cores' shares with the result array whole.
theorem cores_rows (d : Dev nD) (cv : CallVals (F := F) d) (f : Buf (Elt F) (outLoc d)) :
    (bigSep Finset.univ fun c : Fin ((K (F := F)).nCore 0) => iprop(reads d cv (coreShare (Fin.cast nCore_zero c))
        ∗ bigSep Finset.univ fun s : Fin 16 => outRowPts d (wid (Fin.cast nCore_zero c) s) f) : sProp 𝕄)
      = iprop((bigSep Finset.univ fun c : Fin 2 => reads d cv (coreShare c)) ∗ (outLoc d ↦{fullShare} f)) := by
  rw [out_rows, bigSep_wid (F := F) (U := U) (fun t => outLoc d ↦[rowSet t]{fullShare} f), ← bigSep_sep']
  exact bigSep_congr fun _ _ => rfl

variable (m : (ℓ : Loc nD τ sig) → Buf (Elt F) ℓ) (Vs : Dev nD → Valuation τ sig (Elt F))
variable (po : (d : Dev nD) → Buf (Elt F) (outLoc d))

abbrev PP : (K (F := F)).Pay (nD := nD) (Val := Elt F) (Name := ℕ) (U := U) := P (U := U) m (fun d => cvOf d (Vs d)) po

-- The eight arrays held whole split into a remainder of each read array and, core by core, a share of them with that core's rows of the result.
theorem call_split (d : Dev nD) (hV9 : Vs d (rf main_v9) = m (outLoc d)) :
    (held (T d) S8 (Vs d) : sProp 𝕄)
      ⊢ iprop(reads d (cvOf d (Vs d)) (shareDrop fullShare 2)
          ∗ bigSep Finset.univ fun c : Fin ((K (F := F)).nCore 0) => (PP (U := U) m Vs po).st 0 d c) := by
  rw [held_S8, hV9]
  refine .trans ?_ (Entails.of_eq (congrArg (fun X => iprop(_ ∗ X)) (cores_rows (U := U) d _ _).symm))
  iintro ⟨H1, H2, H3, H4, H5, H6, H7, Ho⟩
  ihave ⟨Hrem, Htoks⟩ := (reads_split (U := U) d (cvOf d (Vs d)) fullShare 2) $$ [H1 H2 H3 H4 H5 H6 H7]
  · unfold reads cvOf; iframe
  iframe

-- Conversely the remainders with every core's share and rows are the eight arrays held whole, the result at its new contents.
theorem call_join (d : Dev nD) :
    iprop(reads d (cvOf d (Vs d)) (shareDrop fullShare 2)
        ∗ bigSep Finset.univ fun c : Fin ((K (F := F)).nCore 0) => (PP (U := U) m Vs po).dn 0 d c)
      ⊢ (held (T d) S8 (Function.update (Vs d) (rf main_v9) (po d)) : sProp 𝕄) := by
  rw [held_S8, Function.update_self]; repeat rw [Function.update_of_ne (by decide)]
  refine (Entails.of_eq (congrArg (fun X => iprop(_ ∗ X)) (cores_rows (U := U) d _ _))).trans ?_
  iintro ⟨Hrem, Htoks, Ho⟩
  ihave Hr := (reads_join (U := U) d (cvOf d (Vs d)) fullShare 2) $$ [Hrem Htoks]
  · iframe
  unfold reads cvOf
  icases Hr with ⟨H1, H2, H3, H4, H5, H6, H7⟩
  iframe

end Cert.Proof.Launch

end
-- ==== Proof.MainOpsList.lean ====
import proofs.«215744_g19043884990565_cont_8to1_1279_72_alg».proof.Proof.Base
import Idealize.ShloMosaic.Lib.StableHlo.Run

noncomputable section

namespace Cert.Proof.Launch

open Cert.KernelIdeal Cert.KernelIdeal.Gen
open Idealize.ShloMosaic
open Idealize.SL Idealize.SL.Sem

variable {F : FTy → Type} [FloatOps F]

abbrev opsA : List (HloOp τ sig (Elt F)) :=
  [
    StableHlo.unary main_arg18 main_v0 ((extractStridedSlice S1600000x1 ![0, 0] · slices_S1600000x2_S1600000x1_0_0) : (⟨S1600000x2, .i32⟩ : BufTy).Contents (Elt F) → (⟨S1600000x1, .i32⟩ : BufTy).Contents (Elt F)),
    StableHlo.reshape main_v0 main_v1 rfl shapeCasts_S1600000x1_S1600000,
    StableHlo.unary main_arg18 main_v2 ((extractStridedSlice S1600000x1 ![0, 1] · slices_S1600000x2_S1600000x1_0_1) : (⟨S1600000x2, .i32⟩ : BufTy).Contents (Elt F) → (⟨S1600000x1, .i32⟩ : BufTy).Contents (Elt F)),
    StableHlo.reshape main_v2 main_v3 rfl shapeCasts_S1600000x1_S1600000,
    StableHlo.nullary main_c (constantI S_ 32 0#32),
    StableHlo.TRef.unary (.of main_c : StableHlo.TRef sig ⟨S_, .i32⟩) main_call0.v0 (sitofp .f32),
    StableHlo.TRef.binary (.of main_arg9 : StableHlo.TRef sig ⟨S4, .f32⟩) main_call0.v0 main_call0.v1 (fun x v => pad S16 ![0] ![12] ![0] x v pads_S4_S16_0120 h_S_),
    StableHlo.nullary main_c_0 (constantI S_ 32 0#32),
    StableHlo.TRef.unary (.of main_c_0 : StableHlo.TRef sig ⟨S_, .i32⟩) main_call1.v0 (sitofp .f32),
    StableHlo.TRef.binary (.of main_arg8 : StableHlo.TRef sig ⟨S4, .f32⟩) main_call1.v0 main_call1.v1 (fun x v => pad S16 ![1] ![11] ![0] x v pads_S4_S16_1110 h_S_),
    StableHlo.nullary main_c_1 (constantI S_ 32 0#32),
    StableHlo.TRef.unary (.of main_c_1 : StableHlo.TRef sig ⟨S_, .i32⟩) main_call2.v0 (sitofp .f32),
    StableHlo.TRef.binary (.of main_arg5 : StableHlo.TRef sig ⟨S1x200000, .f32⟩) main_call2.v0 main_call2.v1 (fun x v => pad S1x200704 ![0, 0] ![0, 704] ![0, 0] x v pads_S1x200000_S1x200704_000_07040 h_S_),
    StableHlo.nullary main_c_2 (constantI S_ 32 0#32),
    StableHlo.TRef.unary (.of main_c_2 : StableHlo.TRef sig ⟨S_, .i32⟩) main_call3.v0 (sitofp .f32),
    StableHlo.TRef.binary (.of main_arg0 : StableHlo.TRef sig ⟨S1x250000, .f32⟩) main_call3.v0 main_call3.v1 (fun x v => pad S1x262144 ![0, 0] ![0, 12144] ![0, 0] x v pads_S1x250000_S1x262144_000_0121440 h_S_)]

abbrev opsB : List (HloOp τ sig (Elt F)) :=
  [
    StableHlo.unary main_arg0 main_v10 ((extractStridedSlice S1x50000 ![0, 0] · slices_S1x250000_S1x50000_0_0) : (⟨S1x250000, .f32⟩ : BufTy).Contents (Elt F) → (⟨S1x50000, .f32⟩ : BufTy).Contents (Elt F)),
    StableHlo.reshape main_arg12 main_v11 rfl shapeCasts_S50000_S1x50000,
    StableHlo.reshape main_arg13 main_v12 rfl shapeCasts_S50000_S1x50000,
    StableHlo.reshape main_arg14 main_v13 rfl shapeCasts_S50000_S1x50000,
    StableHlo.reshape main_arg15 main_v14 rfl shapeCasts_S50000_S1x50000,
    StableHlo.reshape main_arg16 main_v15 rfl shapeCasts_S50000_S1x50000,
    StableHlo.reshape main_arg17 main_v16 rfl shapeCasts_S50000_S1x50000]

end Cert.Proof.Launch

end
-- ==== Proof.MainOps.lean ====
import proofs.«215744_g19043884990565_cont_8to1_1279_72_alg».proof.Proof.MainOpsList

noncomputable section

namespace Cert.Proof.Launch

open Cert.KernelIdeal Cert.KernelIdeal.Gen
open Idealize.ShloMosaic
open Idealize.SL Idealize.SL.Sem

variable {F : FTy → Type} [FloatOps F]

set_option maxRecDepth 4096 in
theorem main_eq (d : Dev nD) :
    main (F := F) d
      = (StableHlo.seq (opsA (F := F)) >>= fun _ =>
          Prog.lift (.customCall (SparseCore.inner (Pipeline.entry 0)) ()) >>= fun _ =>
          (sc (F := F)).run d 0 >>= fun _ =>
          StableHlo.seq (opsB (F := F)) >>= fun _ =>
          Prog.lift (.customCall (SparseCore.inner (Pipeline.entry 1)) ()) >>= fun _ => pure ⟨⟩) := by
  simp only [main, fn_pad.body, fn_pad_0.body, fn_pad_1.body, fn_pad_2.body, StableHlo.seq, bind_assoc, pure_bind]

end Cert.Proof.Launch

end
-- ==== Proof.Main.lean ====
import proofs.«215744_g19043884990565_cont_8to1_1279_72_alg».proof.Proof.Ghost
import proofs.«215744_g19043884990565_cont_8to1_1279_72_alg».proof.Proof.CallRes
import proofs.«215744_g19043884990565_cont_8to1_1279_72_alg».proof.Proof.MainOps
import Idealize.ShloMosaic.Lib.Pipeline.Frame
import Idealize.ShloMosaic.Lib.ValueIdx

noncomputable section

namespace Cert.Proof.Launch

open Cert.KernelIdeal Cert.KernelIdeal.Gen
open Idealize.ShloMosaic Idealize.ShloMosaic.ValueIdx
open Idealize.ShloMosaic.SparseCore (S V T)
open Idealize.ShloMosaic.SparseCore.Cfg (HIx Pay)
open Idealize.ShloMosaic.StableHlo (held held_sub_split held_congr wp_seq)
open Idealize.ShloMosaic.Pipeline (ucRefs unscopedBufs_held)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

variable (m : (ℓ : Loc nD τ sig) → Buf (Elt F) ℓ) (ρ : Dev nD → PrngReg)
variable (packF : Vec F S1x262144 .f32 → Vec F S1x8192 .i32)
variable (tileF : Vec F S1x8192 .i32 → Vec F S1600000 .i32 → Vec F S1600000 .i32 → Vec F S1600000 .f32 → Vec F S16 .f32 → Vec F S16 .f32
  → Vec F S1x200704 .f32 → Fin 32 → Vec F S50176 .f32)
variable (updF : Vec F S32x50176 .f32 → Vec F S1x50000 .f32 → Vec F S1x50000 .f32 → Vec F S1x50000 .f32 → Vec F S1x50000 .f32 → Vec F S1x50000 .f32
  → Vec F S1x50000 .f32 → Vec F S1x50000 .f32 → Vec F S1x50000 .f32 → Vec F S1x50000 .f32 → Vec F S1x50000 .f32 → Vec F S1x50000 .f32
  → Vec F S1x50000 .f32 → Vec F S2 .f32 → Vec F S2 .f32 → Vec F S1x50000 .f32)

abbrev V0 (d : Dev nD) : Valuation τ sig (Elt F) := fun b => m (d, b)
abbrev VA (d : Dev nD) : Valuation τ sig (Elt F) := StableHlo.after (opsA (F := F)) (V0 m d)
abbrev V1 (d : Dev nD) : Valuation τ sig (Elt F) := Function.update (VA m d) (rf main_v8) (packF (VA m d (rf main_v7)))
def poOf (d : Dev nD) : Buf (Elt F) (outLoc d) := fun j =>
  tileF (V1 m packF d (rf main_v8)) (V1 m packF d (rf main_v1)) (V1 m packF d (rf main_v3)) (V1 m packF d (rf main_arg6))
    (V1 m packF d (rf main_v4)) (V1 m packF d (rf main_v5)) (V1 m packF d (rf main_v6))
    (⟨(j 0).val, (j 0).isLt⟩ : Fin 32) (ix1 (⟨(j 1).val, (j 1).isLt⟩ : Fin 50176))
abbrev V2 (d : Dev nD) : Valuation τ sig (Elt F) := Function.update (V1 m packF d) (rf main_v9) (poOf m packF tileF d)
abbrev VB (d : Dev nD) : Valuation τ sig (Elt F) := StableHlo.after (opsB (F := F)) (V2 m packF tileF d)
abbrev V3 (d : Dev nD) : Valuation τ sig (Elt F) :=
  Function.update (VB m packF tileF d) (rf main_v17)
    (updF (VB m packF tileF d (rf main_v9)) (VB m packF tileF d (rf main_arg1)) (VB m packF tileF d (rf main_arg2))
      (VB m packF tileF d (rf main_arg3)) (VB m packF tileF d (rf main_arg4)) (VB m packF tileF d (rf main_arg7))
      (VB m packF tileF d (rf main_v10)) (VB m packF tileF d (rf main_v11)) (VB m packF tileF d (rf main_v12))
      (VB m packF tileF d (rf main_v13)) (VB m packF tileF d (rf main_v14)) (VB m packF tileF d (rf main_v15))
      (VB m packF tileF d (rf main_v16)) (VB m packF tileF d (rf main_arg11)) (VB m packF tileF d (rf main_arg10)))
abbrev PM : (K (F := F)).Pay (nD := nD) (Val := Elt F) (Name := ℕ) (U := UU) :=
  PP (U := UU) m (V1 m packF) (poOf m packF tileF)

open Idealize.ShloMosaic.StableHlo (tcRefs nullary_bufs_sub unary_bufs_sub binary_bufs_sub reshape_bufs_sub) in
-- Each operation of the two lines names only buffers of the unscoped set.
theorem opsA_sub : ∀ op ∈ (opsA (F := F)), op.bufs ⊆ ucRefs τ sig := fun op hop =>
  Pipeline.sub_ucRefs op (List.forall_iff_forall_mem.mp (show (opsA (F := F)).Forall fun op => op.bufs ⊆ tcRefs τ sig from
    ⟨unary_bufs_sub .., reshape_bufs_sub .., unary_bufs_sub .., reshape_bufs_sub ..,
      nullary_bufs_sub .., unary_bufs_sub .., binary_bufs_sub .., nullary_bufs_sub .., unary_bufs_sub .., binary_bufs_sub ..,
      nullary_bufs_sub .., unary_bufs_sub .., binary_bufs_sub .., nullary_bufs_sub .., unary_bufs_sub .., binary_bufs_sub ..⟩) op hop)
open Idealize.ShloMosaic.StableHlo (tcRefs unary_bufs_sub reshape_bufs_sub) in
theorem opsB_sub : ∀ op ∈ (opsB (F := F)), op.bufs ⊆ ucRefs τ sig := fun op hop =>
  Pipeline.sub_ucRefs op (List.forall_iff_forall_mem.mp (show (opsB (F := F)).Forall fun op => op.bufs ⊆ tcRefs τ sig from
    ⟨unary_bufs_sub .., reshape_bufs_sub .., reshape_bufs_sub .., reshape_bufs_sub .., reshape_bufs_sub .., reshape_bufs_sub .., reshape_bufs_sub ..⟩) op hop)
-- No operation of either line frees a buffer.
theorem opsA_fresh : ∀ op ∈ (opsA (F := F)), op.fresh = ∅ :=
  List.forall_iff_forall_mem.mp (show (opsA (F := F)).Forall (fun op => op.fresh = ∅) from
    ⟨rfl, rfl, rfl, rfl, rfl, rfl, rfl, rfl, rfl, rfl, rfl, rfl, rfl, rfl, rfl, rfl⟩)
theorem opsB_fresh : ∀ op ∈ (opsB (F := F)), op.fresh = ∅ :=
  List.forall_iff_forall_mem.mp (show (opsB (F := F)).Forall (fun op => op.fresh = ∅) from ⟨rfl, rfl, rfl, rfl, rfl, rfl, rfl⟩)

theorem S8_sub : (S8 : Finset (DevRef τ sig)) ⊆ ucRefs τ sig := by decide

abbrev FIN (d : Dev nD) : sProp 𝕄 := held (T d) (ucRefs τ sig) (V3 m packF tileF updF d)

variable (G0 G1 : Dev nD → sProp (MT nD τ sig (HIx 1) (Elt F) ℕ UU ℕ))

-- Along @main the held set moves from V0 to V3, one line or one call at a time.
theorem hmain (hA : ∀ d, VA m d (rf main_v9) = V0 m d (rf main_v9))
    (hG : ∀ d, (G (F := F) d : sProp 𝕄) ⊢ iprop(G0 d ∗ G1 d))
    (hreg0 : ∀ (κ : GSem nD τ sig → ℕ) (d : Dev nD) (W : Valuation τ sig (Elt F)) {β : Type}
        (k : PUnit → Prog (TpuEff nD τ sig (Elt F) (SparseCore.Sig (ΛP (F := F)) 1) .tc) β) (Φ : β → sProp 𝕄),
      iprop((K (F := F)).ctx EH (PM m packF tileF) κ ∗ (K (F := F)).tcSt EH d 0 ∗ boundary (T d) ∗ held (T d) (ucRefs τ sig) W ∗ G0 d)
        ⊢ iprop(((K (F := F)).tcSt EH d 0 ∗ boundary (T d) ∗ held (T d) (ucRefs τ sig) (Function.update W (rf main_v8) (packF (W (rf main_v7))))
              -∗ wp frame (wpE ((K (F := F)).defs (D (F := F))) 𝒱 (T d) none) Set.univ (k ⟨⟩) Φ)
          -∗ wp frame (wpE ((K (F := F)).defs (D (F := F))) 𝒱 (T d) none) Set.univ
              (Prog.lift (.customCall (SparseCore.inner (Pipeline.entry 0)) ()) >>= k) Φ))
    (hreg1 : ∀ (κ : GSem nD τ sig → ℕ) (d : Dev nD) (W : Valuation τ sig (Elt F)) {β : Type}
        (k : PUnit → Prog (TpuEff nD τ sig (Elt F) (SparseCore.Sig (ΛP (F := F)) 1) .tc) β) (Φ : β → sProp 𝕄),
      iprop((K (F := F)).ctx EH (PM m packF tileF) κ ∗ (K (F := F)).tcSt EH d 1 ∗ boundary (T d) ∗ held (T d) (ucRefs τ sig) W ∗ G1 d)
        ⊢ iprop(((K (F := F)).tcSt EH d 1 ∗ boundary (T d) ∗ held (T d) (ucRefs τ sig) (Function.update W (rf main_v17)
                (updF (W (rf main_v9)) (W (rf main_arg1)) (W (rf main_arg2)) (W (rf main_arg3)) (W (rf main_arg4)) (W (rf main_arg7))
                  (W (rf main_v10)) (W (rf main_v11)) (W (rf main_v12)) (W (rf main_v13)) (W (rf main_v14)) (W (rf main_v15))
                  (W (rf main_v16)) (W (rf main_arg11)) (W (rf main_arg10))))
              -∗ wp frame (wpE ((K (F := F)).defs (D (F := F))) 𝒱 (T d) none) Set.univ (k ⟨⟩) Φ)
          -∗ wp frame (wpE ((K (F := F)).defs (D (F := F))) 𝒱 (T d) none) Set.univ
              (Prog.lift (.customCall (SparseCore.inner (Pipeline.entry 1)) ()) >>= k) Φ))
    (κ : GSem nD τ sig → ℕ) (d : Dev nD) :
    iprop((K (F := F)).ctx EH (PM m packF tileF) κ ∗ (K (F := F)).tcSt EH d 0 ∗ (K (F := F)).tcRes m ρ d ∗ G (F := F) d)
      ⊢ wp frame (wpE ((K (F := F)).defs (D (F := F))) 𝒱 (T d) none) Set.univ (main d)
          fun _ => iprop((K (F := F)).tcSt EH d 1 ∗ FIN m packF tileF updF d) := by
  rw [main_eq]
  unfold SparseCore.Cfg.tcRes
  rw [show (unscopedBufs d (fun b => m ((SparseCore.T d).loc b)) : sProp 𝕄) = held (SparseCore.T d) (ucRefs τ sig) (V0 m d) from
    unscopedBufs_held (Ix := HIx 1) (Name := ℕ) (U := UU) (Lvl := ℕ) d (V0 m d)]
  iintro ⟨#Hctx, Hst, ⟨Hb, Hheld, -, -⟩, HG⟩
  ihave ⟨HG0, HG1⟩ := (hG d) $$ HG
  iapply (wp_seq (defs := (K (F := F)).defs (D (F := F))) 𝒱 none Set.univ d (ucRefs τ sig) _ (opsA (F := F)) opsA_sub opsA_fresh (V0 m d)) $$ [Hb Hheld]
  · iframe
  iintro ⟨Hb, Hheld⟩
  iapply (hreg0 κ d (VA m d) _ _) $$ [Hst Hb Hheld HG0]
  · iframe; iexact Hctx
  iintro ⟨Hst, Hb, Hheld⟩
  ihave ⟨H8, Hrest⟩ := (Entails.of_eq (held_sub_split (T d) S8_sub (V1 m packF d))) $$ Hheld
  ihave ⟨Hrem, Hst8⟩ := (call_split (U := UU) m (V1 m packF) (poOf m packF tileF) d
    ((Function.update_of_ne (by decide) _ _).trans (hA d))) $$ H8
  rw [wp_bind]
  iapply ((K (F := F)).wp_run (D (F := F)) 𝒱 (EH := EH) (P := PM m packF tileF) κ d 0) $$ [Hst Hst8 Hb Hrest Hrem HG1]
  isplitr; · iexact Hctx
  isplitl [Hst]; · iexact Hst
  isplitl [Hst8]; · iexact Hst8
  iintro ⟨Hst, Hdn⟩
  ihave H8 := (call_join (U := UU) m (V1 m packF) (poOf m packF tileF) d) $$ [Hrem Hdn]
  · iframe
  ihave Hheld := (Entails.of_eq (held_sub_split (T d) S8_sub (V2 m packF tileF d)).symm) $$ [H8 Hrest]
  · iframe H8
    rw [held_congr (T d) (S := ucRefs τ sig \ S8) (V := V2 m packF tileF d) (V' := V1 m packF d) fun b hb =>
      Function.update_of_ne (fun (e : b = rf main_v9) =>
        (Finset.mem_sdiff.mp hb).2 (e.symm ▸ (by decide : rf main_v9 ∈ (S8 : Finset (DevRef τ sig))))) _ _]
    iexact Hrest
  iapply (wp_seq (defs := (K (F := F)).defs (D (F := F))) 𝒱 none Set.univ d (ucRefs τ sig) _ (opsB (F := F)) opsB_sub opsB_fresh (V2 m packF tileF d)) $$ [Hb Hheld]
  · iframe
  iintro ⟨Hb, Hheld⟩
  iapply (hreg1 κ d (VB m packF tileF d) _ _) $$ [Hst Hb Hheld HG1]
  · isplitr; · iexact Hctx
    isplitl [Hst]; · iexact Hst
    iframe
  iintro ⟨Hst, -, Hheld⟩
  rw [wp_pure]; imodintro
  iframe

end Cert.Proof.Launch

end
-- ==== Proof.Run.lean ====
import proofs.«215744_g19043884990565_cont_8to1_1279_72_alg».proof.Proof.Main

noncomputable section

namespace Cert.Proof.Launch

open Cert.KernelIdeal Cert.KernelIdeal.Gen
open Idealize.ShloMosaic Idealize.ShloMosaic.ValueIdx
open Idealize.ShloMosaic.SparseCore (S V T)
open Idealize.ShloMosaic.SparseCore.Cfg (HIx Pay)
open Idealize.ShloMosaic.StableHlo (held)
open Idealize.ShloMosaic.Pipeline (ucRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

-- By induction on the set: each points-to agrees with the state's memory.
theorem held_agree (d : Dev nD) (W : Valuation τ sig (Elt F)) (s' : Phys nD τ sig (Elt F)) (Sx : Finset (DevRef τ sig)) :
    iprop((held (T d) Sx W : sProp 𝕄) ∗ SI s') ⊢ (⌜∀ b ∈ Sx, s'.mem.mem (d, b) = W b⌝ : sProp 𝕄) := by
  classical
  induction Sx using Finset.induction_on with
  | empty =>
    iintro -
    ipureintro; exact fun b hb => absurd hb (Finset.notMem_empty b)
  | insert b Sx hb ih =>
    unfold held at ih ⊢
    rw [bigSep_insert hb]
    refine (show iprop((_ ∗ _) ∗ _) ⊢ _ from ?_)
    iintro ⟨⟨Hb, HS⟩, HSI⟩
    ihave H := (persistent_entails_right (SI_pointsTo_agree (st := s') (ℓ := (d, b)) (I := Finset.univ) (q := fullShare) (f := W b))) $$ [HSI Hb]
    · iframe
    icases H with ⟨%h1, HSI, -⟩
    ihave H2 := ih $$ [HS HSI]
    · iframe
    icases H2 with %h2
    ipureintro
    intro b' hb'
    rcases Finset.mem_insert.mp hb' with rfl | hb'
    · exact funext fun i => h1 i (Finset.mem_univ i)
    · exact h2 b' hb'

variable (m : (ℓ : Loc nD τ sig) → Buf (Elt F) ℓ) (ρ : Dev nD → PrngReg) (packF : PackF F) (tileF : TileF F) (updF : UpdF F)

def QC : PUnit × MemSt nD τ sig (Elt F) → Prop := fun r => ∀ d : Dev nD, ∀ b ∈ ucRefs τ sig, r.2.mem (d, b) = V3 m packF tileF updF d b

theorem bigSep_emp' {I : Type} (s : Finset I) : (bigSep s fun _ => iprop(emp)) = (iprop(emp) : sProp 𝕄) := bigSep_emp_const s

theorem hu₀ :
    iprop(ownU (u₀ (F := F)) ∗ (PM m packF tileF).oxCred ∗ (K (F := F)).freeSems0)
      ⊢ |={Set.univ}=> iprop(BI.own (EH (F := F) (initOf (K (F := F)).hsCells (K (F := F)).hsToks)) ∗ (bigSep Finset.univ fun d : Dev nD => G (F := F) d)
        ∗ bigSep Finset.univ fun thr : Thread nD τ => bigSep Finset.univ fun q : Fin 1 => (PM m packF tileF).x q thr) := by
  iintro ⟨Hu, -, -⟩
  imod (fund_u₀ (F := F)) $$ Hu with ⟨HH, HG⟩
  imodintro
  iframe HH HG
  show (_ : sProp 𝕄) ⊢ bigSep Finset.univ fun _ : Thread nD τ => bigSep Finset.univ fun _ : Fin 1 => (iprop(emp) : sProp 𝕄)
  rw [bigSep_congr fun _ _ => bigSep_emp' (F := F) _, bigSep_emp']

variable (G0 G1 : Dev nD → sProp (MT nD τ sig (HIx 1) (Elt F) ℕ UU ℕ))

-- The library's launch theorem at this program's data.
theorem run_main [∀ e, Nonempty (Elt F e)]
    (hA : ∀ d, VA m d (rf main_v9) = V0 m d (rf main_v9))
    (htile : (K (F := F)).TileObl (D (F := F)) 𝒱 (PM m packF tileF) v₀ 0)
    (hG : ∀ d, (G (F := F) d : sProp 𝕄) ⊢ iprop(G0 d ∗ G1 d))
    (hreg0 : ∀ W, CallRule (PM m packF tileF) 0 0 G0 W (Function.update W (rf main_v8) (packF (W (rf main_v7)))))
    (hreg1 : ∀ W, CallRule (PM m packF tileF) 1 1 G1 W (Function.update W (rf main_v17)
      (updF (W (rf main_v9)) (W (rf main_arg1)) (W (rf main_arg2)) (W (rf main_arg3)) (W (rf main_arg4)) (W (rf main_arg7))
        (W (rf main_v10)) (W (rf main_v11)) (W (rf main_v12)) (W (rf main_v13)) (W (rf main_v14)) (W (rf main_v15))
        (W (rf main_v16)) (W (rf main_arg11)) (W (rf main_arg10))))) :
    θ_run (Cert.KernelIdeal.defs (F := F)) (Cert.KernelIdeal.threads (F := F)) ⟨m, fun _ => 0, ρ⟩ (QC m packF tileF updF) :=
  SparseCore.Cfg.θ_run_sc (K := K (F := F)) (D := D (F := F)) (𝒱 := 𝒱) (EH := EH) (P := PM m packF tileF) facts v₀
    (fun q hq => match q with | 0 => nomatch hq)
    (fun q _ => match q with | 0 => htile)
    (fun q _ => match q with | 0 => SparseCore.Cfg.VecSplit.of_plain (vecSplit (U := UU) m (fun d => cvOf d (V1 m packF d)) (poOf m packF tileF)))
    m ρ main (fun d => G (F := F) d) (FIN m packF tileF updF) (u₀ (F := F)) (hu₀ m packF tileF)
    (hmain m ρ packF tileF updF G0 G1 hA hG (fun κ d W => hreg0 W κ d) (fun κ d W => hreg1 W κ d))
    (fun d s' => ∀ b ∈ ucRefs τ sig, s'.mem.mem (d, b) = V3 m packF tileF updF d b)
    (fun d s' => held_agree d (V3 m packF tileF updF d) s' (ucRefs τ sig))
    (QC m packF tileF updF) (fun _ h => h)

end Cert.Proof.Launch

end
-- ==== Proof.TileObl.lean ====
import proofs.«215744_g19043884990565_cont_8to1_1279_72_alg».proof.Proof.Main

noncomputable section

namespace Cert.Proof.Launch

open Cert.KernelIdeal Cert.KernelIdeal.Gen
open Idealize.ShloMosaic Idealize.ShloMosaic.ValueIdx
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

def coordsV (c : Fin (grid1.bound 0)) (s : Fin (grid1.bound 1)) : grid1.Coords :=
  fun | 0 => c | 1 => s | ⟨_ + 2, h⟩ => absurd h (Nat.not_lt.2 (Nat.le_add_left _ _))

-- Casts of `L`'s two coordinates to `Fin 2` and `Fin 16`; the thread at `L`.
abbrev cL (L : grid1.Coords) : Fin 2 := Fin.cast rfl (L 0)
abbrev sL (L : grid1.Coords) : Fin 16 := Fin.cast rfl (L 1)
abbrev thrL (d : Dev nD) (L : grid1.Coords) : Thread nD τ := V d ((L 0).castLE hcore1) ((L 1).castLE hsub1)

-- The kernel at grid point `L`, on the whole arrays.
abbrev kern (L : grid1.Coords) :=
  cc1__sc_edge_kernel (F := F) L (Memref.whole main_v8_scv) (Memref.isWhole_whole _) (Memref.whole main_v1_scv) (Memref.isWhole_whole _) (Memref.whole main_v3_scv) (Memref.isWhole_whole _) (Memref.whole main_arg6_scv) (Memref.isWhole_whole _) (Memref.whole main_v4_scv) (Memref.isWhole_whole _) (Memref.whole main_v6_scv) (Memref.isWhole_whole _) (Memref.whole main_v5_scv) (Memref.isWhole_whole _) (Memref.whole main_v9_scv) (Memref.isWhole_whole _) (Memref.whole cc1_scratch0) (Memref.isWhole_whole _) (Memref.whole cc1_scratch1) (Memref.isWhole_whole _) (Memref.whole cc1_scratch2) (Memref.isWhole_whole _) (Memref.whole cc1_scratch3) (Memref.isWhole_whole _) (Memref.whole cc1_scratch4) (Memref.isWhole_whole _) (Memref.whole cc1_scratch5) (Memref.isWhole_whole _) (Memref.whole cc1_scratch6) (Memref.isWhole_whole _) (Memref.whole cc1_scratch7) (Memref.isWhole_whole _) (Memref.whole cc1_scratch8) (Memref.isWhole_whole _) (Memref.whole cc1_scratch9) (Memref.isWhole_whole _) (Memref.whole cc1_scratch10) (Memref.isWhole_whole _) cc1_scratch11 cc1_scratch12 cc1_scoped0 cc1_scoped1 cc1_scoped2 cc1_scoped3 cc1_scoped4

theorem defs₀_vector (c : Fin τ.nSC) (s : Fin τ.nSub) :
    defs₀ (F := F) (.scVector c s) 1 () = SparseCore.onTile hcore1 hsub1 (fun c s => kern (coordsV c s)) ⟨⟩ c s := rfl

-- The recorded pairs allowed after a task: a weaker bound than the kernel's own.
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  iframe HA HB HC
  iexists W'; isplitr
  · ipureintro; exact fun p hp => (hW' p hp).imp_right Or.inl
  · iexact HO

variable (m : (ℓ : Loc nD τ sig) → Buf (Elt F) ℓ) (packF : PackF F) (tileF : TileF F)

-- The payloads `go` and `td` of `PM` at grid point `L`.
abbrev goAt (d : Dev nD) (L : grid1.Coords) : sProp 𝕄 :=
  iprop(reads d (cvOf d (V1 m packF d)) (tileShare (cL L) (sL L)) ∗ outRowPts d (wid (cL L) (sL L)) (m (outLoc d)))
abbrev tdAt (d : Dev nD) (L : grid1.Coords) : sProp 𝕄 :=
  iprop(reads d (cvOf d (V1 m packF d)) (tileShare (cL L) (sL L)) ∗ outRowPts d (wid (cL L) (sL L)) (poOf m packF tileF d))

-- `defs₀` at a vector thread unfolds to `kern` at that thread's grid point.
theorem tileObl
    (hbody : ∀ (d : Dev nD) (L : grid1.Coords) (O : CellTallies nD τ sig (HIx 1)) (W : Waits sig (HIx 1)), (∀ g, O g none = 0) →
      iprop(levAts (K (F := F)).L (K (F := F)).lev ∗ emp ∗ goAt m packF d L
          ∗ scopedBufs (thrL d L) ∗ scopedSems0 (thrL d L) ∗ owes (thrL d L) O W)
        ⊢ wp frame (wpE (defs₀ (F := F)) 𝒱₀ (thrL d L) none) Set.univ (kern L)
            fun _ => iprop(tdAt m packF tileF d L ∗ scopedBufs (thrL d L) ∗ scopedSems0 (thrL d L)
              ∗ ∃ W', ⌜∀ p ∈ W', p ∈ W ∨ p.2 = none⌝ ∗ owes (thrL d L) O W')) :
    (K (F := F)).TileObl (D (F := F)) 𝒱 (PM m packF tileF) v₀ 0 := by
  intro d c i O W hO _ _
  simp only [show (PM m packF tileF).ox = fun _ _ => 0 from rfl, add_zero]
  change _ ⊢ wp _ _ _ (Pipeline.liftProg (defs₀ (F := F) (.scVector ((K (F := F)).core 0 c) ((K (F := F)).sub 0 i)) 1 ())) _
  refine BI.Entails.trans ?_ (Pipeline.wp_liftProg (D (F := F)) (Pipeline.defs_kernel pcfgs defs₀) 𝒱₀ _ Set.univ none _ _)
  have hc : ((K (F := F)).core 0 c).val < grid1.bound 0 ∧ ((K (F := F)).sub 0 i).val < grid1.bound 1 := ⟨c.isLt, i.isLt⟩
  rw [defs₀_vector]; simp only [SparseCore.onTile, hc, and_self, ↓reduceDIte]
  exact (hbody d (coordsV ⟨_, hc.1⟩ ⟨_, hc.2⟩) O W hO).trans (wp_mono frame _ _ fun _ => obl_post)

end Cert.Proof.Launch

end
-- ==== Proof.PreFacts.lean ====
import proofs.«215744_g19043884990565_cont_8to1_1279_72_alg».proof.Pre_input_domain
import Idealize.ShloMosaic.Lib.ReduceAll
import Idealize.ShloMosaic.Lib.StableHlo.Predicate
import Idealize.ShloMosaic.Lib.ValueIdx
import Idealize.ShloMosaic.PureOps.IdealRules
import Idealize.ShloMosaic.PureOps.Ideal.Laws

noncomputable section

namespace Cert.Proof.PreFacts

open Idealize.ShloMosaic Idealize.ShloMosaic.ValueIdx Cert.Pre_input_domain

variable [Cert.Pre_input_domain.Facts]

local instance : Subsingleton S_.Idx := ⟨fun a b => funext fun d => d.elim0⟩

theorem andi_ix0 (x y : IVec S_ 1) : andi x y ix0 = IntOp.andi (x ix0) (y ix0) := rfl

theorem word_nonneg {k : BitVec 32} (h : IntOp.cmpi .sge k 0#32 = 1#1) : k.toNat < 2 ^ 31 := by
  rw [IntOp.cmpi_sge, show (0#32 : BitVec 32).toInt = 0 from by decide, BitVec.toInt_pos_iff] at h
  omega

theorem word_le {k : BitVec 32} (n : Nat) (hn : n < 2 ^ 31) (hk : k.toNat < 2 ^ 31)
    (h : IntOp.cmpi .sle k (BitVec.ofNat 32 n) = 1#1) : k.toNat ≤ n := by
  have hb : (BitVec.ofNat 32 n).toNat = n := by rw [BitVec.toNat_ofNat]; omega
  have := (StableHlo.Predicate.sle_iff_toNat hk (by rw [hb]; exact hn)).1 h
  omega

theorem col0_read (idx : IVec S1600000x2 32) (h1 : S1600000x2.Slices ![0, 0] S1600000x1) (h2 : S1600000x1.ShapeCasts S1600000)
    (e : Fin 1600000) :
    shapeCast S1600000 (extractStridedSlice S1600000x1 ![0, 0] idx h1) h2 (ix1 e) = idx (ix2 e (0 : Fin 2)) := by
  unfold shapeCast
  have hre : Shape.reshapeEquiv h2 (ix1 e) = (ix2 e (0 : Fin 1) : S1600000x1.Idx) :=
    Shape.reshapeEquiv_eq_of_rowMajor h2 (by rw [Shape.rowMajor_val_two, Shape.rowMajor_val_one]; simp)
  rw [hre]
  unfold extractStridedSlice
  refine congrArg idx (funext fun a => ?_)
  match a with
  | ⟨0, _⟩ => exact Fin.ext (by simp)
  | ⟨1, _⟩ => exact Fin.ext (by simp)

section Generic
variable {F : FTy → Type} [FloatOps F]

def FinAt (x : F .f32) : Prop :=
  FloatOps.cmpf .olt (FloatOps.hostAbsf x) (FloatOps.ofBits (F := F) .f32 0x7F800000#32) = 1#1

def ZeroOneAt (x : F .f32) : Prop :=
  IntOp.ori (FloatOps.cmpf .oeq x (FloatOps.ofBits (F := F) .f32 0x00000000#32))
    (FloatOps.cmpf .oeq x (FloatOps.ofBits (F := F) .f32 0x3F800000#32)) = 1#1

variable (z : FVec F S1x250000 .f32) (v r a1 a2 : FVec F S1x50000 .f32) (psc : FVec F S1x200000 .f32)
  (w : FVec F S1600000 .f32) (ext : FVec F S1x50000 .f32) (sd pi : FVec F S4 .f32) (aa kd : FVec F S2 .f32)
  (decay cf vth vrst el tref : FVec F S50000 .f32) (idx : IVec S1600000x2 32)

-- The conjuncts of the precondition that the proof uses, each read at every element.
structure Decoded : Prop where
  fin_z : ∀ i, FinAt (z i)
  fin_psc : ∀ i, FinAt (psc i)
  fin_w : ∀ i, FinAt (w i)
  fin_sd : ∀ i, FinAt (sd i)
  fin_pi : ∀ i, FinAt (pi i)
  rng : ∀ i, IntOp.andi (IntOp.cmpi .sge (idx i) 0#32) (IntOp.cmpi .sle (idx i) 249999#32) = 1#1
  row : ∀ e : Fin 1600000, IntOp.cmpi .sle (idx (ix2 e (0 : Fin 2))) 199999#32 = 1#1
  z01 : ∀ i, ZeroOneAt (z i)

variable {z v r a1 a2 psc w ext sd pi aa kd decay cf vth vrst el tref idx}
  (hpre : Cert.Pre_input_domain.fn (F := F) z v r a1 a2 psc w ext sd pi aa kd decay cf vth vrst el tref idx = fun _ => 1#1)
include hpre

-- A reduction by `and` equals 1 only if every element under it is 1.
theorem decode : Decoded z psc w sd pi idx := by
  have h := congrFun hpre ix0
  dsimp only [fn, fn_part1, fn_part2, fn_part3, fn_part4, fn_part5, fn_part6] at h
  simp only [andi_ix0, IntOp.andi_eq_one] at h
  obtain ⟨⟨⟨⟨⟨⟨⟨⟨⟨⟨⟨⟨⟨⟨⟨⟨⟨⟨⟨⟨h_z, -⟩, -⟩, -⟩, -⟩, h_psc⟩, h_w⟩, -⟩, h_sd⟩, h_pi⟩, -⟩, -⟩, -⟩, -⟩,
    -⟩, -⟩, -⟩, -⟩, h_rng⟩, h_row⟩, h_z01⟩ := h
  refine ⟨fun i => Host.reduce_andi_all _ _ _ _ ix0 h_z i, fun i => Host.reduce_andi_all _ _ _ _ ix0 h_psc i,
    fun i => Host.reduce_andi_all _ _ _ _ ix0 h_w i, fun i => Host.reduce_andi_all _ _ _ _ ix0 h_sd i,
    fun i => Host.reduce_andi_all _ _ _ _ ix0 h_pi i, fun i => Host.reduce_andi_all _ _ _ _ ix0 h_rng i, fun e => ?_,
    fun i => Host.reduce_andi_all _ _ _ _ ix0 h_z01 i⟩
  rw [← col0_read idx Facts.slices_S1600000x2_S1600000x1_0_0 Facts.shapeCasts_S1600000x1_S1600000 e]
  exact Host.reduce_andi_all _ _ _ _ ix0 h_row (ix1 e)

variable (z v r a1 a2 psc w ext sd pi aa kd decay cf vth vrst el tref idx)

theorem idx_toInt : ∀ i : S1600000x2.Idx, (idx i).toInt = ((idx i).toNat : Int) :=
  fun i => StableHlo.Predicate.toInt_eq_toNat_of_lt (word_nonneg (IntOp.andi_eq_one.1 ((decode hpre).rng i)).1)

theorem idx_row_le : ∀ e : Fin 1600000, (idx (ix2 e (0 : Fin 2))).toNat ≤ 199999 := fun e =>
  word_le 199999 (by decide) (word_nonneg (IntOp.andi_eq_one.1 ((decode hpre).rng _)).1) ((decode hpre).row e)

theorem idx_col_le : ∀ e : Fin 1600000, (idx (ix2 e (1 : Fin 2))).toNat ≤ 249999 := fun e =>
  have h := IntOp.andi_eq_one.1 ((decode hpre).rng (ix2 e (1 : Fin 2)))
  word_le 249999 (by decide) (word_nonneg h.1) h.2

end Generic

theorem ofBits_inf : Ideal.ofBits .f32 0x7F800000#32 = (⊤ : EReal) := by simp [Ideal.ofBits, Ideal.ieee]
theorem ofBits_one : Ideal.ofBits .f32 0x3F800000#32 = (1 : EReal) := IdealRules.sign_bit.ideal_onePat .f32

theorem real_of_finAt (x : EReal) (h : FinAt (F := Ideal) x) : ∃ y : ℝ, x = (y : EReal) := by
  have h' : Ideal.cmp .olt (max x (-x)) (Ideal.ofBits .f32 0x7F800000#32) = 1#1 := h
  rw [ofBits_inf] at h'
  simp only [Ideal.cmp, StableHlo.Predicate.ofBool_eq_one_iff, decide_eq_true_eq] at h'
  induction x using EReal.rec with
  | bot => simp at h'
  | top => simp at h'
  | coe y => exact ⟨y, rfl⟩

theorem zeroOne_of_at (x : EReal) (h : ZeroOneAt (F := Ideal) x) : x = (0 : EReal) ∨ x = (1 : EReal) := by
  have h' : IntOp.ori (Ideal.cmp .oeq x (Ideal.ofBits .f32 0x00000000#32)) (Ideal.cmp .oeq x (Ideal.ofBits .f32 0x3F800000#32)) = 1#1 := h
  rw [Ideal.ofBits_zero_f32, ofBits_one, IntOp.ori_eq_one] at h'
  simpa only [Ideal.cmp, StableHlo.Predicate.ofBool_eq_one_iff, decide_eq_true_eq] using h'

section AtIdeal
variable (z : FVec Ideal S1x250000 .f32) (v r a1 a2 : FVec Ideal S1x50000 .f32) (psc : FVec Ideal S1x200000 .f32)
  (w : FVec Ideal S1600000 .f32) (ext : FVec Ideal S1x50000 .f32) (sd pi : FVec Ideal S4 .f32) (aa kd : FVec Ideal S2 .f32)
  (decay cf vth vrst el tref : FVec Ideal S50000 .f32) (idx : IVec S1600000x2 32)
  (hpre : Cert.Pre_input_domain.fn (F := Ideal) z v r a1 a2 psc w ext sd pi aa kd decay cf vth vrst el tref idx = fun _ => 1#1)
include hpre

theorem z_real : ∀ i, ∃ x : ℝ, z i = (x : EReal) := fun i => real_of_finAt _ ((decode hpre).fin_z i)
theorem psc_real : ∀ i, ∃ x : ℝ, psc i = (x : EReal) := fun i => real_of_finAt _ ((decode hpre).fin_psc i)
theorem w_real : ∀ i, ∃ x : ℝ, w i = (x : EReal) := fun i => real_of_finAt _ ((decode hpre).fin_w i)
theorem sd_real : ∀ i, ∃ x : ℝ, sd i = (x : EReal) := fun i => real_of_finAt _ ((decode hpre).fin_sd i)
theorem pi_real : ∀ i, ∃ x : ℝ, pi i = (x : EReal) := fun i => real_of_finAt _ ((decode hpre).fin_pi i)
theorem z_01 : ∀ i, z i = (0 : EReal) ∨ z i = (1 : EReal) := fun i => zeroOne_of_at _ ((decode hpre).z01 i)

end AtIdeal

end Cert.Proof.PreFacts

end
-- ==== Proof.KernelHostPure.lean ====
import proofs.«215744_g19043884990565_cont_8to1_1279_72_alg».proof.KernelIdeal
import Idealize.ShloMosaic.Lib.KernelVsHost

namespace Cert.Proof.KHost

open Cert.KernelIdeal
open Idealize.ShloMosaic Idealize.ShloMosaic.ValueIdx

section Pad
variable {α : Type} {u : Shape} (v : u.Idx → α) (hu : 0 < u.numel) {n N lo hi : Nat} (j : Fin N)

section
variable (x : (⟨1, ![n]⟩ : Shape).Idx → α) (h : (⟨1, ![n]⟩ : Shape).Pads ![lo] ![hi] ![0] ⟨1, ![N]⟩)

-- Inside the operand's extent a vector padded in front and behind reads the operand, shifted by the front padding.
theorem pad1_in (h1 : lo ≤ j.val) (h2 : j.val - lo < n) :
    pad ⟨1, ![N]⟩ ![lo] ![hi] ![0] x v h hu (ix1 j) = x (ix1 ⟨j.val - lo, h2⟩) :=
  pad_apply_of_inside _ _ _ x v h hu _ _ fun a => by
    obtain rfl : a = 0 := Subsingleton.elim _ _
    show j.val = lo + (j.val - lo) * (0 + 1)
    omega

-- Outside that extent it reads the padding value.
theorem pad1_out (hj : ¬(lo ≤ j.val ∧ j.val - lo < n)) :
    pad ⟨1, ![N]⟩ ![lo] ![hi] ![0] x v h hu (ix1 j) = v (Shape.Idx.first hu) :=
  pad_apply_of_not_inside _ _ _ x v h hu _ 0 fun hc => hj (by
    have hc' : lo ≤ j.val ∧ (j.val - lo) % (0 + 1) = 0 ∧ (j.val - lo) / (0 + 1) < n := hc
    omega)
end

variable (x : (⟨2, ![1, n]⟩ : Shape).Idx → α) (h : (⟨2, ![1, n]⟩ : Shape).Pads ![0, 0] ![0, hi] ![0, 0] ⟨2, ![1, N]⟩)

-- A one-row array padded behind reads the array at the array's own columns.
theorem row_in (hj : j.val < n) :
    pad ⟨2, ![1, N]⟩ ![0, 0] ![0, hi] ![0, 0] x v h hu (ix2 (0 : Fin 1) j) = x (ix2 (0 : Fin 1) ⟨j.val, hj⟩) :=
  pad_apply_of_inside _ _ _ x v h hu _ _ (Fin.forall_fin_two.2 ⟨rfl, by show j.val = 0 + j.val * (0 + 1); omega⟩)

-- Behind those columns it reads the padding value.
theorem row_out (hj : ¬j.val < n) :
    pad ⟨2, ![1, N]⟩ ![0, 0] ![0, hi] ![0, 0] x v h hu (ix2 (0 : Fin 1) j) = v (Shape.Idx.first hu) :=
  pad_apply_of_not_inside _ _ _ x v h hu _ ⟨1, Nat.one_lt_two⟩ fun hc => hj (by
    have hc' : 0 ≤ j.val ∧ (j.val - 0) % (0 + 1) = 0 ∧ (j.val - 0) / (0 + 1) < n := hc
    omega)

end Pad

-- Column `c` of the two-column table, cut out and flattened, reads the table at `(e, c)`: the flattening keeps the row-major position.
theorem col_read (c : Fin 2) (idx : IVec S1600000x2 32) (h1 : S1600000x2.Slices ![0, c.val] S1600000x1)
    (h2 : S1600000x1.ShapeCasts S1600000) (e : Fin 1600000) :
    shapeCast S1600000 (extractStridedSlice S1600000x1 ![0, c.val] idx h1) h2 (ix1 e) = idx (ix2 e c) :=
  (shapeCast_apply _ h2 (ix1 e) (ix2 e (0 : Fin 1)) (by rw [Shape.rowMajor_val_two, Shape.rowMajor_val_one]; simp)).trans
    (extractStridedSlice_apply _ idx h1 _ _ (Fin.forall_fin_two.2 ⟨(Nat.zero_add _).symm, rfl⟩))

end Cert.Proof.KHost
-- ==== Proof.KernelHost.lean ====
import proofs.«215744_g19043884990565_cont_8to1_1279_72_alg».proof.Proof.Base
import proofs.«215744_g19043884990565_cont_8to1_1279_72_alg».proof.Proof.MainOpsList
import proofs.«215744_g19043884990565_cont_8to1_1279_72_alg».proof.Proof.PreFacts
import proofs.«215744_g19043884990565_cont_8to1_1279_72_alg».proof.Proof.KernelHostPure
import Idealize.ShloMosaic.Lib.StableHlo.Run
import Idealize.ShloMosaic.Lib.ValueLayout

noncomputable section

namespace Cert.Proof.KHost

open Cert.KernelIdeal Cert.KernelIdeal.Gen
open Idealize.ShloMosaic Idealize.ShloMosaic.ValueIdx
open Idealize.SL Idealize.SL.Sem
open Cert.Proof.Launch

variable {F : FTy → Type} [FloatOps F]

-- The value the four padded arrays are padded with: the integer zero as a float.
def padVal : F .f32 := FloatOps.sitofp .f32 (0#32 : BitVec 32)

theorem padVal_ideal : padVal (F := Ideal) = (0 : EReal) := by
  show (((0#32 : BitVec 32).toInt : ℝ) : EReal) = 0
  rw [show (0#32 : BitVec 32).toInt = 0 from by decide]
  simp

abbrev VA (V : Valuation τ sig (Elt F)) : Valuation τ sig (Elt F) := StableHlo.after (opsA (F := F)) V
abbrev VB (V : Valuation τ sig (Elt F)) : Valuation τ sig (Elt F) := StableHlo.after (opsB (F := F)) V

abbrev writtenA : List (Ref sig .tc) :=
  [main_v0, main_v1, main_v2, main_v3, main_c, main_call0_v0, main_v4, main_c_0, main_call1_v0, main_v5,
   main_c_1, main_call2_v0, main_v6, main_c_2, main_call3_v0, main_v7]
abbrev writtenB : List (Ref sig .tc) := [main_v10, main_v11, main_v12, main_v13, main_v14, main_v15, main_v16]

theorem writes_sub_of_mem {W : List (Ref sig .tc)} {op : HloOp τ sig (Elt F)} {y : Ref sig .tc}
    (hw : op.writes = {Proc.devRef .tc y}) (hy : y ∈ W) : op.writes ⊆ (W.map (Proc.devRef (τ := τ) .tc)).toFinset := by
  rw [hw, Finset.singleton_subset_iff, List.mem_toFinset]
  exact List.mem_map_of_mem hy

-- A buffer a line of host operations does not write keeps its contents: every argument does.
theorem VA_keep (V : Valuation τ sig (Elt F)) (r : Ref sig .tc) (hr : r ∉ writtenA) :
    VA V (Proc.devRef .tc r) = V (Proc.devRef .tc r) :=
  StableHlo.after_of_writes_sub (W := writtenA) (opsA (F := F)) V (by
    simp only [opsA, List.Forall]; and_intros <;> exact writes_sub_of_mem rfl (by decide)) hr

theorem VB_keep (V : Valuation τ sig (Elt F)) (r : Ref sig .tc) (hr : r ∉ writtenB) :
    VB V (Proc.devRef .tc r) = V (Proc.devRef .tc r) :=
  StableHlo.after_of_writes_sub (W := writtenB) (opsB (F := F)) V (by
    simp only [opsB, List.Forall]; and_intros <;> exact writes_sub_of_mem rfl (by decide)) hr

theorem VA_v1 (V : Valuation τ sig (Elt F)) (e : Fin 1600000) :
    (VA V (Proc.devRef .tc main_v1) : IVec S1600000 32) (ix1 e) = (V (Proc.devRef .tc main_arg18) : IVec S1600000x2 32) (ix2 e (0 : Fin 2)) := by
  dsimp only [VA, opsA]; after_results; exact col_read 0 _ _ _ e

theorem VA_v3 (V : Valuation τ sig (Elt F)) (e : Fin 1600000) :
    (VA V (Proc.devRef .tc main_v3) : IVec S1600000 32) (ix1 e) = (V (Proc.devRef .tc main_arg18) : IVec S1600000x2 32) (ix2 e (1 : Fin 2)) := by
  dsimp only [VA, opsA]; after_results; exact col_read 1 _ _ _ e

theorem VA_v4 (V : Valuation τ sig (Elt F)) (j : Fin 16) :
    (VA V (Proc.devRef .tc main_v4) : FVec F S16 .f32) (ix1 j)
      = if h : j.val < 4 then (V (Proc.devRef .tc main_arg9) : FVec F S4 .f32) (ix1 ⟨j.val, h⟩) else padVal := by
  dsimp only [VA, opsA]; after_results; split
  · exact pad1_in _ _ j _ pads_S4_S16_0120 (by omega) (by omega)
  · exact pad1_out _ _ j _ pads_S4_S16_0120 (by omega)

theorem VA_v5 (V : Valuation τ sig (Elt F)) (j : Fin 16) :
    (VA V (Proc.devRef .tc main_v5) : FVec F S16 .f32) (ix1 j)
      = if h : 1 ≤ j.val ∧ j.val ≤ 4 then (V (Proc.devRef .tc main_arg8) : FVec F S4 .f32) (ix1 ⟨j.val - 1, by omega⟩) else padVal := by
  dsimp only [VA, opsA]; after_results; split
  · exact pad1_in _ _ j _ pads_S4_S16_1110 (by omega) (by omega)
  · exact pad1_out _ _ j _ pads_S4_S16_1110 (by omega)

theorem VA_v6 (V : Valuation τ sig (Elt F)) (k : Fin 200704) :
    (VA V (Proc.devRef .tc main_v6) : FVec F S1x200704 .f32) (ix2 (0 : Fin 1) k)
      = if h : k.val < 200000 then (V (Proc.devRef .tc main_arg5) : FVec F S1x200000 .f32) (ix2 (0 : Fin 1) ⟨k.val, h⟩) else padVal := by
  dsimp only [VA, opsA]; after_results; split
  · exact row_in _ _ k _ pads_S1x200000_S1x200704_000_07040 _
  · exact row_out _ _ k _ pads_S1x200000_S1x200704_000_07040 (by assumption)

theorem VA_v7 (V : Valuation τ sig (Elt F)) (k : Fin 262144) :
    (VA V (Proc.devRef .tc main_v7) : FVec F S1x262144 .f32) (ix2 (0 : Fin 1) k)
      = if h : k.val < 250000 then (V (Proc.devRef .tc main_arg0) : FVec F S1x250000 .f32) (ix2 (0 : Fin 1) ⟨k.val, h⟩) else padVal := by
  dsimp only [VA, opsA]; after_results; split
  · exact row_in _ _ k _ pads_S1x250000_S1x262144_000_0121440 _
  · exact row_out _ _ k _ pads_S1x250000_S1x262144_000_0121440 (by assumption)

theorem VB_v10 (V : Valuation τ sig (Elt F)) (n : Fin 50000) :
    (VB V (Proc.devRef .tc main_v10) : FVec F S1x50000 .f32) (ix2 (0 : Fin 1) n)
      = (V (Proc.devRef .tc main_arg0) : FVec F S1x250000 .f32) (ix2 (0 : Fin 1) ⟨n.val, by omega⟩) := by
  dsimp only [VB, opsB]; after_results
  exact extractStridedSlice_apply _ _ _ _ _ (Fin.forall_fin_two.2 ⟨rfl, (Nat.zero_add _).symm⟩)

theorem VB_v11 (V : Valuation τ sig (Elt F)) (n : Fin 50000) :
    (VB V (Proc.devRef .tc main_v11) : FVec F S1x50000 .f32) (ix2 (0 : Fin 1) n) = (V (Proc.devRef .tc main_arg12) : FVec F S50000 .f32) (ix1 n) := by
  dsimp only [VB, opsB]; after_results; exact shapeCast_a_1a_apply _ _ 0 n

theorem VB_v12 (V : Valuation τ sig (Elt F)) (n : Fin 50000) :
    (VB V (Proc.devRef .tc main_v12) : FVec F S1x50000 .f32) (ix2 (0 : Fin 1) n) = (V (Proc.devRef .tc main_arg13) : FVec F S50000 .f32) (ix1 n) := by
  dsimp only [VB, opsB]; after_results; exact shapeCast_a_1a_apply _ _ 0 n

theorem VB_v13 (V : Valuation τ sig (Elt F)) (n : Fin 50000) :
    (VB V (Proc.devRef .tc main_v13) : FVec F S1x50000 .f32) (ix2 (0 : Fin 1) n) = (V (Proc.devRef .tc main_arg14) : FVec F S50000 .f32) (ix1 n) := by
  dsimp only [VB, opsB]; after_results; exact shapeCast_a_1a_apply _ _ 0 n

theorem VB_v14 (V : Valuation τ sig (Elt F)) (n : Fin 50000) :
    (VB V (Proc.devRef .tc main_v14) : FVec F S1x50000 .f32) (ix2 (0 : Fin 1) n) = (V (Proc.devRef .tc main_arg15) : FVec F S50000 .f32) (ix1 n) := by
  dsimp only [VB, opsB]; after_results; exact shapeCast_a_1a_apply _ _ 0 n

theorem VB_v15 (V : Valuation τ sig (Elt F)) (n : Fin 50000) :
    (VB V (Proc.devRef .tc main_v15) : FVec F S1x50000 .f32) (ix2 (0 : Fin 1) n) = (V (Proc.devRef .tc main_arg16) : FVec F S50000 .f32) (ix1 n) := by
  dsimp only [VB, opsB]; after_results; exact shapeCast_a_1a_apply _ _ 0 n

theorem VB_v16 (V : Valuation τ sig (Elt F)) (n : Fin 50000) :
    (VB V (Proc.devRef .tc main_v16) : FVec F S1x50000 .f32) (ix2 (0 : Fin 1) n) = (V (Proc.devRef .tc main_arg17) : FVec F S50000 .f32) (ix1 n) := by
  dsimp only [VB, opsB]; after_results; exact shapeCast_a_1a_apply _ _ 0 n

abbrev PreAt [Cert.Pre_input_domain.Facts] (V : Valuation τ sig (Elt F)) : Prop :=
  Cert.Pre_input_domain.fn (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg14)) (V (Proc.devRef .tc main_arg15)) (V (Proc.devRef .tc main_arg16)) (V (Proc.devRef .tc main_arg17)) (V (Proc.devRef .tc main_arg18)) = fun _ => 1#1

section FromPre
variable [Cert.Pre_input_domain.Facts]

theorem rows_le (V : Valuation τ sig (Elt F)) (hpre : PreAt V) :
    ∀ e : Fin 1600000, ((VA V (Proc.devRef .tc main_v1) : IVec S1600000 32) (ix1 e)).toNat ≤ 199999 := fun e => by
  rw [VA_v1]; exact Cert.Proof.PreFacts.idx_row_le _ _ _ _ _ _ _ _ _ _ _ _ _ _ _ _ _ _ _ hpre e

theorem cols_le (V : Valuation τ sig (Elt F)) (hpre : PreAt V) :
    ∀ e : Fin 1600000, ((VA V (Proc.devRef .tc main_v3) : IVec S1600000 32) (ix1 e)).toNat ≤ 249999 := fun e => by
  rw [VA_v3]; exact Cert.Proof.PreFacts.idx_col_le _ _ _ _ _ _ _ _ _ _ _ _ _ _ _ _ _ _ _ hpre e

-- The padded spike buffer is 0 or 1 everywhere: a spike inside the buffer, the padding value 0 behind it.
theorem zpad_01 (V : Valuation τ sig (Elt Ideal)) (hpre : PreAt V) :
    ∀ k : Fin 262144, (VA V (Proc.devRef .tc main_v7) : FVec Ideal S1x262144 .f32) (ix2 (0 : Fin 1) k) = (0 : EReal)
      ∨ (VA V (Proc.devRef .tc main_v7) : FVec Ideal S1x262144 .f32) (ix2 (0 : Fin 1) k) = (1 : EReal) := fun k => by
  rw [VA_v7]; split
  · exact Cert.Proof.PreFacts.z_01 _ _ _ _ _ _ _ _ _ _ _ _ _ _ _ _ _ _ _ hpre _
  · exact Or.inl padVal_ideal

end FromPre

end Cert.Proof.KHost

end
-- ==== Proof.RegionsInMain.lean ====
import proofs.«215744_g19043884990565_cont_8to1_1279_72_alg».proof.Proof.Ghost
import Idealize.ShloMosaic.Lib.SparseCore.Launch
import Idealize.ShloMosaic.Lib.Pipeline.Regions
import Idealize.ShloMosaic.Lib.Pipeline.Frame
import Idealize.ShloMosaic.Lib.StableHlo.Run

noncomputable section

namespace Cert.Proof.Launch

open Cert.KernelIdeal Cert.KernelIdeal.Gen
open Idealize.ShloMosaic Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held)

variable {F : FTy → Type} [FloatOps F] [∀ e, Nonempty (Elt F e)]

local notation "𝕄" => MT nD τ sig (HIx 1) (Elt F) ℕ UU ℕ

-- Levels up to `8 n` belong to the calls before the `n`-th.
def Bn (c : Dev nD) (n : ℕ) : Set (SemLoc sig × HIx 1) := {p | (K (F := F)).lev (T c, p.1) p.2 ≤ 8 * n}

abbrev owesTc (c : Dev nD) (n : ℕ) : sProp 𝕄 :=
  iprop(∃ W, ⌜(K (F := F)).WBelow (T c) W (8 * n)⌝ ∗ owes (T c) ((K (F := F)).Otc c n) W)

omit [FloatOps F] [∀ e, Nonempty (Elt F e)] in
-- A positive tally has a positive level; index `none` has level 0.
theorem Otc_none (c : Dev nD) (n : ℕ) (g : GSem nD τ sig) : (K (F := F)).Otc c n g none = 0 := by
  by_contra h
  have := SparseCore.Cfg.lev_of_Otc_pos (K := K (F := F)) (Nat.pos_of_ne_zero h)
  rw [SparseCore.Cfg.lev_none] at this; omega

abbrev valAt (c : Dev nD) (W : Valuation τ sig (Elt F)) : (b : Ref sig .tc) → Buf (Elt F) ((c.tc : Thread nD τ).loc b) := fun b => W b

abbrev aref (F : FTy → Type) (p : Fin 2) (w : Fin (pn F p).W) := Pipeline.arrRef (pn F p).spec w

omit [FloatOps F] [∀ e, Nonempty (Elt F e)] in
-- By cases on whether `w` is written back.
theorem share_full {p : Fin 2} {c : Dev nD} (dat : PDat F p c) (hq : ∀ w, dat.q w = fullShare) (w : Fin (pn F p).W) :
    dat.share w = fullShare := by
  unfold Pipeline.Dat.share; split
  · rfl
  · exact hq w

section Region

variable (p : Fin 2) (n : ℕ) (pdats : (p : Fin 2) → (c : Dev nD) → PDat F p c)
variable (kit : Pipeline.LaunchFacts (nD := nD) (τ := τ) cfgs p)
variable (hbody : ∀ c, Pipeline.BodyObligationLoose (pdats p c) (defs₀ (F := F)) 𝒱₀ (none : HIx 1) Set.univ)
variable (Vin Vout : Valuation τ sig (Elt F))
variable (hΦ : ∀ c t, (pdats p c).Φ t = Pipeline.scopedRest (pn F p).spec c)
variable (hq : ∀ c w, (pdats p c).q w = fullShare)
variable (howed : ∀ c t, (pdats p c).owed t = (K (F := F)).Otc c n)
variable (hrec : ∀ c t, (pdats p c).recorded t = Bn (F := F) c n)
variable (hA : ∀ c w, (pdats p c).A w = valAt c Vin (aref F p w))
variable (hN : ∀ c w, (pdats p c).arrAt w (pn F p).N = valAt c Vout (aref F p w))
variable (hrest : ∀ (c : Dev nD) (b : Ref sig .tc), b ∉ Finset.univ.image (aref F p) → valAt c Vout b = valAt c Vin b)

-- The region from the held arrays at `Vin` to those at `Vout`, what the core owes unchanged.
def regionSeg :
    Pipeline.RegionSeg (pcfgs (F := F)) adm pdats (none : HIx 1) (defs₀ (F := F)) 𝒱₀ (K (F := F)).L (K (F := F)).lev p where
  win := kit.win.to₀
  block_pos := kit.block_pos
  stage_whole := kit.stage_whole
  K := PEmpty
  osem := fun k => k.elim
  ho := Pipeline.OwnSemFacts.none _
  hbody := hbody
  hwaits := fun c => by
    refine Pipeline.cellsWaits_intro (pn F) pdats none p c fun w s t => ?_
    rw [howed c t]
    exact (K (F := F)).mayWait_none _ (fun g => Otc_none (F := F) c n g)
  pre := fun c => iprop(owesTc (F := F) c n ∗ held (T c) (Pipeline.ucRefs τ sig) Vin)
  post := fun c => iprop(owesTc (F := F) c n ∗ held (T c) (Pipeline.ucRefs τ sig) Vout)
  X := fun _ => iprop(emp)
  Y := fun _ => iprop(emp)
  Z := fun c => Pipeline.unscopedRest (pn F p).spec c (fun b => Vin b)
  hentry := fun c => by
    iintro ⟨⟨⟨%W, %hW, Ho⟩, Hh⟩, -, -⟩
    imodintro
    ihave Hu := (Entails.of_eq (Pipeline.unscopedBufs_held (Ix := HIx 1) (Name := ℕ) (U := UU) (Lvl := ℕ) c Vin).symm) $$ Hh
    ihave ⟨Ha, Hr⟩ := (Pipeline.arrays_of_unscopedBufs (pcfgs (F := F)) adm pdats kit.win kit.arr_whole c (share_full _ (hq c)) (valAt c Vin) (hA c)) $$ Hu
    iframe Ha Hr
    isplitr
    · unfold Pipeline.prefHeld
      haveI : IsEmpty (Fin (pcfgs (F := F) p).pre.K) := (inferInstance : IsEmpty (Fin 0))
      rw [Finset.univ_eq_empty, bigSep_empty]; iempintro
    iexists W
    rw [howed c 0]
    iframe Ho
    ipureintro
    exact fun x hx => Or.inl (by rw [hrec c 0]; exact hW x (Finset.mem_coe.mp hx))
  hin := fun c => by
    rw [hΦ c]
    iintro ⟨-, -, H⟩; iexact H
  hout := fun c => by
    rw [hΦ c]
    iintro H
    iframe H
    unfold Pipeline.ownSems0
    rw [Finset.univ_eq_empty, bigSep_empty]; iempintro
  hexit := fun c => by
    iintro ⟨Ha, ⟨%W, %hW, Ho⟩, -, Hr⟩
    imodintro
    isplitl [Ho]
    · iexists W
      isplitr
      · ipureintro
        intro x hx
        rcases hW (Finset.mem_coe.mpr hx) with h | ⟨w, s, rfl⟩
        · rw [hrec c _] at h; exact h
        · show (K (F := F)).lev _ none ≤ _
          rw [SparseCore.Cfg.lev_none]; exact Nat.zero_le _
      rw [← howed c (Fin.last _)]
      iexact Ho
    rw [← Pipeline.unscopedBufs_held (Ix := HIx 1) (Name := ℕ) (U := UU) (Lvl := ℕ) c Vout,
      Pipeline.unscopedBufs_split (pn F) p kit.win.arr_unscoped kit.win.arr_inj c (valAt c Vout),
      ← show (bigSep Finset.univ fun w => (((c.tc : Thread nD τ).loc (aref F p w)) ↦{fullShare} (pdats p c).arrAt w (pn F p).N : sProp 𝕄))
        = bigSep Finset.univ fun w => (((c.tc : Thread nD τ).loc (aref F p w)) ↦{fullShare} valAt c Vout (aref F p w) : sProp 𝕄)
        from bigSep_congr fun w _ => by rw [hN c w],
      ← show (Pipeline.unscopedRest (pn F p).spec c (valAt c Vin) : sProp 𝕄) = Pipeline.unscopedRest (pn F p).spec c (valAt c Vout) from by
        unfold Pipeline.unscopedRest
        exact bigSep_congr fun b hb => by rw [hrest c b (Finset.mem_sdiff.mp hb).2]]
    ihave Ha' := (Entails.of_eq (Pipeline.arrays_eq (pn F) pdats p c kit.arr_whole (share_full _ (hq c)) _)) $$ Ha
    iframe

variable (P : (K (F := F)).Pay (nD := nD) (Val := Elt F) (Name := ℕ) (U := UU))

include kit hbody howed hΦ hq hrec hA hN hrest in
-- The library's region rule at `regionSeg`; the rest of the core's state is framed.
theorem region_tcSt : CallRule P p n (Gp p) Vin Vout := by
  intro κ d β k Φ
  unfold SparseCore.Cfg.tcSt
  rw [wp_bind, show (Prog.lift (.customCall (SparseCore.inner (Pipeline.entry p)) ()) : Prog (TpuEff nD τ sig (Elt F) (SparseCore.Sig (ΛP (F := F)) 1) .tc) PUnit)
      = SparseCore.liftProg (.op (.customCall (Pipeline.entry p) ()) fun x => .ret x) from rfl]
  iintro ⟨#Hctx, ⟨Ho, Hrest⟩, Hb, Hh, Hg, Ht⟩ Hk
  iapply ((K (F := F)).wp_liftProg (D (F := F)) 𝒱 (T d) Set.univ none _ _)
  iapply (Pipeline.RegionSeg.wp (pcfgs (F := F)) adm pdats (none : HIx 1) phinj (EP (F := F)) (defs₀ (F := F)) 𝒱₀ (K (F := F)).L (K (F := F)).lev
    (regionSeg (F := F) p n pdats kit hbody Vin Vout hΦ hq howed hrec hA hN hrest) d none (fun u hu => nomatch hu) (fun x => .ret x) _)
  dsimp only [regionSeg]
  isplitl [Hk Hrest]
  · iintro ⟨Hb, Ho, Hh⟩
    rw [wp_ret]
    imodintro
    iapply Hk
    iframe
  iframe Hb Ho Hh Hg Ht
  iapply (SparseCore.Cfg.ctx_levAts (K := K (F := F)) (EH := EH) (P := P) κ); iexact Hctx

end Region

omit [FloatOps F] [∀ e, Nonempty (Elt F e)] in
theorem G_split (d : Dev nD) : G (F := F) d ⊢ iprop(Gp 0 d ∗ Gp 1 d) := by
  show Pipeline.PerCore.ghostOn _ _ _ _ _ ⊢ _
  unfold Pipeline.PerCore.ghostOn
  rw [bigSep_W0]

end Cert.Proof.Launch

end
-- ==== Proof.Spec.lean ====
import Idealize.ShloMosaic.PureOps.Ideal
import Mathlib.Data.EReal.Basic
import Mathlib.Algebra.BigOperators.Group.Finset.Basic
import Mathlib.Algebra.BigOperators.Ring.Finset

namespace Cert.Proof.Spec

open Idealize.ShloMosaic

def packAcc (d : ℕ → BitVec 32) : ℕ → BitVec 32
  | 0 => IntOp.shli .vector (d 0) (BitVec.ofNat 32 0)
  | n + 1 => IntOp.addi (packAcc d n) (IntOp.shli .vector (d (n + 1)) (BitVec.ofNat 32 (n + 1)))

theorem shli_ofNat (x : BitVec 32) (b : ℕ) (hb : b < 32) :
    IntOp.shli .vector x (BitVec.ofNat 32 b) = x <<< b := by
  have h : (BitVec.ofNat 32 b).toNat = b := by
    rw [BitVec.toNat_ofNat]; exact Nat.mod_eq_of_lt (by omega)
  unfold IntOp.shli
  rw [if_pos (by rw [h]; exact hb), BitVec.shiftLeft_eq', h]

theorem shifted_getLsbD (x : BitVec 32) (hx : x = 0#32 ∨ x = 1#32) (b : ℕ) (hb : b < 32) (k : ℕ) :
    (x <<< b).getLsbD k = (decide (k = b) && decide (x = 1#32)) := by
  rcases hx with rfl | rfl
  · simp
  · show (BitVec.twoPow 32 b).getLsbD k = _
    simp [BitVec.getLsbD_twoPow, hb, eq_comm]

theorem packAcc_getLsbD (d : ℕ → BitVec 32) (n : ℕ) (hn : n < 32)
    (hd : ∀ b ≤ n, d b = 0#32 ∨ d b = 1#32) (k : ℕ) :
    (packAcc d n).getLsbD k = (decide (k ≤ n) && decide (d k = 1#32)) := by
  induction n generalizing k with
  | zero =>
    rw [packAcc, shli_ofNat _ 0 (by omega), shifted_getLsbD _ (hd 0 (le_refl 0)) 0 (by omega)]
    by_cases hk : k = 0 <;> simp [hk]
  | succ n ih =>
    have ih' := ih (by omega) (fun b hb => hd b (by omega))
    have hs := shifted_getLsbD (d (n + 1)) (hd (n + 1) (le_refl _)) (n + 1) hn
    have hdisj : packAcc d n &&& (d (n + 1) <<< (n + 1)) = 0#32 := by
      apply BitVec.eq_of_getLsbD_eq
      intro i _
      rw [BitVec.getLsbD_and, ih' i, hs i, BitVec.getLsbD_zero]
      by_cases h : i = n + 1
      · subst h; simp
      · simp [h]
    rw [packAcc, shli_ofNat _ (n + 1) hn]
    unfold IntOp.addi
    rw [BitVec.add_eq_or_of_and_eq_zero _ _ hdisj, BitVec.getLsbD_or, ih' k, hs k]
    by_cases h2 : k = n + 1
    · subst h2; simp
    · simp [h2, show k ≤ n + 1 ↔ k ≤ n by omega]

def bitTest (word c : BitVec 32) : BitVec 1 :=
  IntOp.cmpi .eq (IntOp.andi (IntOp.shrui .vector word (IntOp.shrui .vector c 13#32)) 1#32) 1#32

theorem andi_8191_toNat (c : BitVec 32) : (IntOp.andi c 8191#32).toNat = c.toNat % 8192 := by
  unfold IntOp.andi
  rw [BitVec.toNat_and]
  exact Nat.and_two_pow_sub_one_eq_mod c.toNat 13

theorem shrui_13_toNat (c : BitVec 32) : (IntOp.shrui .vector c 13#32).toNat = c.toNat / 8192 := by
  unfold IntOp.shrui
  rw [if_pos (by decide), BitVec.ushiftRight_eq', BitVec.toNat_ushiftRight, Nat.shiftRight_eq_div_pow]
  rfl

theorem and_one_eq_one_iff (x : BitVec 32) : x &&& 1#32 = 1#32 ↔ x.getLsbD 0 = true := by
  rw [BitVec.and_one_eq_setWidth_ofBool_getLsbD]
  cases x.getLsbD 0 <;> decide

theorem bitTest_eq (word c : BitVec 32) (hc : c.toNat < 262144) :
    bitTest word c = BitVec.ofBool (word.getLsbD (c.toNat / 8192)) := by
  have hs : (IntOp.shrui .vector c 13#32).toNat = c.toNat / 8192 := shrui_13_toNat c
  have hlt : (IntOp.shrui .vector c 13#32).toNat < 32 := by rw [hs]; omega
  unfold bitTest
  generalize IntOp.shrui .vector c 13#32 = s at hs hlt
  unfold IntOp.cmpi IntOp.andi
  rw [IntOp.shrui, if_pos hlt, BitVec.ushiftRight_eq', hs]
  congr 1
  rw [Bool.eq_iff_iff, beq_iff_eq, and_one_eq_one_iff, BitVec.getLsbD_ushiftRight, Nat.add_zero]

def packed (zi : ℕ → BitVec 32) (w : ℕ) : BitVec 32 := packAcc (fun b => zi (b * 8192 + w)) 31

theorem packed_getLsbD (zi : ℕ → BitVec 32) (hz : ∀ j < 262144, zi j = 0#32 ∨ zi j = 1#32)
    (w : ℕ) (hw : w < 8192) (b : ℕ) (hb : b < 32) :
    (packed zi w).getLsbD b = decide (zi (b * 8192 + w) = 1#32) := by
  unfold packed
  rw [packAcc_getLsbD _ 31 (by omega) (fun b' hb' => hz _ (by omega)) b]
  have : b ≤ 31 := by omega
  simp [this]

theorem fptosi_zero : Ideal.fptosi 32 (0 : EReal) = 0#32 := by
  rw [← EReal.coe_zero, Ideal.fptosi, Ideal.toIntClamped_coe]
  norm_num

theorem fptosi_one : Ideal.fptosi 32 (1 : EReal) = 1#32 := by
  rw [← EReal.coe_one, Ideal.fptosi, Ideal.toIntClamped_coe]
  norm_num

-- Bit c / 8192 of packed word c % 8192 is the converted spike at position c, and a spike is 0 or 1.
theorem bitTest_packed_ideal (z : ℕ → EReal) (hz : ∀ j < 262144, z j = 0 ∨ z j = 1)
    (c : BitVec 32) (hc : c.toNat < 262144) :
    bitTest (packed (fun j => Ideal.fptosi 32 (z j)) (IntOp.andi c 8191#32).toNat) c = 1#1
      ↔ z c.toNat = 1 := by
  have hzi : ∀ j < 262144, Ideal.fptosi 32 (z j) = 0#32 ∨ Ideal.fptosi 32 (z j) = 1#32 := fun j hj =>
    (hz j hj).imp (fun h => by rw [h, fptosi_zero]) (fun h => by rw [h, fptosi_one])
  rw [bitTest_eq _ c hc, andi_8191_toNat, packed_getLsbD _ hzi _ (Nat.mod_lt _ (by omega)) _ (by omega),
    Nat.div_add_mod']
  rcases hz c.toNat hc with h | h <;> simp [h, fptosi_zero, fptosi_one]

section Regroup

variable {T E R : Type*} [Fintype T] [Fintype E] [Fintype R] [DecidableEq T] [DecidableEq R]

theorem regroup_real (tile : E → T) (rcp : E → R) (inN live : E → Prop)
    [DecidablePred inN] [DecidablePred live]
    (t₀ : T) (a pi : R → ℝ) (w zv : E → ℝ)
    (hz : ∀ e, zv e = 0 ∨ zv e = 1) (hlive : ∀ e, live e ↔ zv e = 1) :
    ∑ t, ((if t = t₀ then ∑ r, a r else 0)
        + ∑ e ∈ Finset.univ.filter (fun e => tile e = t ∧ inN e ∧ live e), w e * pi (rcp e))
      = ∑ r, (a r + (∑ e ∈ Finset.univ.filter (fun e => inN e ∧ rcp e = r), zv e * w e) * pi r) := by

  have hL : ∀ e, (∑ t, if tile e = t ∧ inN e ∧ live e then w e * pi (rcp e) else 0)
      = if inN e then zv e * w e * pi (rcp e) else 0 := by
    intro e
    by_cases h1 : inN e
    · rcases hz e with h0 | h0
      · have h2 : ¬ live e := by rw [hlive, h0]; norm_num
        simp [h1, h2, h0]
      · have h2 : live e := (hlive e).2 h0
        simp [h1, h2, h0]
    · simp [h1]

  have hR : ∀ e, (∑ r, (if inN e ∧ rcp e = r then zv e * w e else 0) * pi r)
      = if inN e then zv e * w e * pi (rcp e) else 0 := by
    intro e
    by_cases h1 : inN e
    · simp [h1, ite_mul]
    · simp [h1]
  rw [Finset.sum_add_distrib, Finset.sum_add_distrib, Finset.sum_ite_eq' Finset.univ t₀ (fun _ => ∑ r, a r),
    if_pos (Finset.mem_univ _)]
  congr 1
  simp only [Finset.sum_filter, Finset.sum_mul]
  rw [Finset.sum_comm, Finset.sum_comm (s := (Finset.univ : Finset R))]
  exact Finset.sum_congr rfl (fun e _ => (hL e).trans (hR e).symm)

theorem coe_sum {ι : Type*} (s : Finset ι) (f : ι → ℝ) :
    ((∑ i ∈ s, f i : ℝ) : EReal) = ∑ i ∈ s, (f i : EReal) := by
  classical
  induction s using Finset.induction_on with
  | empty => simp
  | insert i s hi ih => rw [Finset.sum_insert hi, Finset.sum_insert hi, EReal.coe_add, ih]

theorem exists_real_mul {x y : EReal} (hx : ∃ r : ℝ, x = r) (hy : ∃ r : ℝ, y = r) :
    ∃ r : ℝ, x * y = r := by
  obtain ⟨r, rfl⟩ := hx
  obtain ⟨s, rfl⟩ := hy
  exact ⟨r * s, (EReal.coe_mul r s).symm⟩

-- Every datum is a real, so the law over the reals transports along the coercion; a row is 4 · neuron + receptor.
theorem regroup_ereal_rows (tile : E → T) (rows : E → ℕ) (live : E → Prop) [DecidablePred live]
    (t₀ : T) (n : ℕ) (a pi : Fin 4 → EReal) (w zv : E → EReal)
    (ha : ∀ r, ∃ x : ℝ, a r = x) (hpi : ∀ r, ∃ x : ℝ, pi r = x) (hw : ∀ e, ∃ x : ℝ, w e = x)
    (hz : ∀ e, zv e = 0 ∨ zv e = 1) (hlive : ∀ e, live e ↔ zv e = 1) :
    ∑ t, ((if t = t₀ then ∑ r, a r else 0)
        + ∑ e ∈ Finset.univ.filter (fun e => tile e = t ∧ rows e / 4 = n ∧ live e),
            w e * pi ⟨rows e % 4, Nat.mod_lt _ (by omega)⟩)
      = ∑ r : Fin 4, (a r
          + (∑ e ∈ Finset.univ.filter (fun e => rows e = 4 * n + r.val), zv e * w e) * pi r) := by
  have hzv : ∀ e, ∃ x : ℝ, zv e = x := fun e =>
    (hz e).elim (fun h => ⟨0, by rw [h, EReal.coe_zero]⟩) (fun h => ⟨1, by rw [h, EReal.coe_one]⟩)
  choose a' ha' using ha
  choose pi' hpi' using hpi
  choose w' hw' using hw
  choose zv' hzv' using hzv
  obtain rfl : a = fun r => (a' r : EReal) := funext ha'
  obtain rfl : pi = fun r => (pi' r : EReal) := funext hpi'
  obtain rfl : w = fun e => (w' e : EReal) := funext hw'
  obtain rfl : zv = fun e => (zv' e : EReal) := funext hzv'
  have key := congrArg (fun x : ℝ => (x : EReal))
    (regroup_real tile (fun e => (⟨rows e % 4, Nat.mod_lt _ (by omega)⟩ : Fin 4)) (fun e => rows e / 4 = n) live t₀
      a' pi' w' zv' (fun e => (hz e).imp EReal.coe_eq_zero.1 EReal.coe_eq_one.1)
      (fun e => (hlive e).trans EReal.coe_eq_one))
  simp only [coe_sum, EReal.coe_add, EReal.coe_mul, apply_ite Real.toEReal, EReal.coe_zero] at key
  refine key.trans (Finset.sum_congr rfl fun r _ => ?_)
  have hf : Finset.univ.filter (fun e => rows e / 4 = n ∧ (⟨rows e % 4, Nat.mod_lt _ (by omega)⟩ : Fin 4) = r)
      = Finset.univ.filter (fun e => rows e = 4 * n + r.val) := by
    apply Finset.filter_congr
    intro e _
    rw [Fin.ext_iff]
    have := r.isLt
    constructor
    · rintro ⟨h1, h2⟩; simp only at h2; omega
    · intro h; refine ⟨by omega, ?_⟩; simp only; omega
  rw [hf]

end Regroup

end Cert.Proof.Spec
-- ==== Proof.PackBody.lean ====
import proofs.«215744_g19043884990565_cont_8to1_1279_72_alg».proof.Proof.Gen.KernelIdeal.Skeleton
import proofs.«215744_g19043884990565_cont_8to1_1279_72_alg».proof.Proof.Gen.KernelIdeal.Points
import proofs.«215744_g19043884990565_cont_8to1_1279_72_alg».proof.Proof.Gen.KernelIdeal.Launch
import Idealize.ShloMosaic.Lib.Pipeline.FrameBody
import Idealize.ShloMosaic.Lib.Pipeline.Frame
import Idealize.ShloMosaic.Lib.Pipeline.Value
import Idealize.ShloMosaic.Lib.Tactic
import Idealize.ShloMosaic.Lib.ValueIdx
import proofs.«215744_g19043884990565_cont_8to1_1279_72_alg».proof.Proof.Spec

set_option maxRecDepth 16384

noncomputable section

namespace Cert.Proof.Pack

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Pipeline (Dat Cfg Window BodyObligation cellOf)

variable {F : FTy → Type} [FloatOps F]
variable {Ix : Type} [DecidableEq Ix] {Name : Type} [DecidableEq Name] {U : Type} [URA U] {Lvl : Type} [Preorder Lvl]

local notation "𝕄" => MT nD τ sig Ix (Elt F) Name U Lvl

theorem hz : (![0, 0] : Fin 2 → Nat) = fun _ => 0 := funext fun a => by fin_cases a <;> rfl

/-- At the first point the body stores the spike block's shifted integer parts over whatever the result block held. -/
theorem run_first (𝒱₀ : Variants) (c : Dev nD) (i : grid0.Coords)
    (arg1 : Memref sig .tc .vmem S1x8192 .f32) (harg1 : arg1.IsWhole) (arg2 : Memref sig .tc .vmem S1x8192 .i32) (harg2 : arg2.IsWhole)
    (h1 : k0_cond1 i = 1#1) (h2 : ¬ k0_cond2 i = 1#1) (x0 : Vec F S1x8192 .f32) (xo : Vec F S1x8192 .i32)
    (E : Set Name) (K : PUnit → sProp 𝕄) :
    iprop(owns (c : Thread nD τ) arg1 fullShare x0 ∗ owns (c : Thread nD τ) arg2 fullShare xo
        ∗ (iprop(owns (c : Thread nD τ) arg1 fullShare x0 ∗ owns (c : Thread nD τ) arg2 fullShare (k0_pay1 i x0)) -∗ K ⟨⟩))
      ⊢ wp frame (wpE (defs₀ (F := F)) 𝒱₀ c none) E (cc0__pack_body i arg1 harg1 arg2 harg2) K := by
  simp only [cc0__pack_body_eq_skeleton]; unfold cc0__pack_body_skel owns
  iintro ⟨⟨%f0, %hf0, H0⟩, ⟨%f1, %hf1, H1⟩, Hk⟩
  obtain rfl := harg1.eq_unread hf0; obtain rfl := harg2.eq_unread hf1
  sl_exec (disch := first | exact h1 | exact h2)
  sl_step
  iapply Hk
  isplitl [H0]
  · iexists _; isplitr; · ipureintro; exact harg1.read_unread _
    iexact H0
  iexists _; isplitr
  swap; · iexact H1
  ipureintro
  rw [View.read_writes_eq_canon _ _ _ (fun y => ⟨_, List.mem_singleton_self _, View.mem_set_unit_zero hz inb_S1x8192_S1x8192_0_0 y⟩),
    View.canon_unit_zero hz]
  simp only [View.readAt_eq_ld, harg1.read_unread, View.ld_unit_zero (S := S1x8192) hz]

/-- At a later point the body adds the spike block's shifted integer parts to the running row. -/
theorem run_later (𝒱₀ : Variants) (c : Dev nD) (i : grid0.Coords)
    (arg1 : Memref sig .tc .vmem S1x8192 .f32) (harg1 : arg1.IsWhole) (arg2 : Memref sig .tc .vmem S1x8192 .i32) (harg2 : arg2.IsWhole)
    (h1 : ¬ k0_cond1 i = 1#1) (h2 : k0_cond2 i = 1#1) (x0 : Vec F S1x8192 .f32) (xo : Vec F S1x8192 .i32)
    (E : Set Name) (K : PUnit → sProp 𝕄) :
    iprop(owns (c : Thread nD τ) arg1 fullShare x0 ∗ owns (c : Thread nD τ) arg2 fullShare xo
        ∗ (iprop(owns (c : Thread nD τ) arg1 fullShare x0 ∗ owns (c : Thread nD τ) arg2 fullShare (k0_pay2 i x0 xo)) -∗ K ⟨⟩))
      ⊢ wp frame (wpE (defs₀ (F := F)) 𝒱₀ c none) E (cc0__pack_body i arg1 harg1 arg2 harg2) K := by
  simp only [cc0__pack_body_eq_skeleton]; unfold cc0__pack_body_skel owns
  iintro ⟨⟨%f0, %hf0, H0⟩, ⟨%f1, %hf1, H1⟩, Hk⟩
  obtain rfl := harg1.eq_unread hf0; obtain rfl := harg2.eq_unread hf1
  sl_exec (disch := first | exact h1 | exact h2)
  sl_step
  iapply Hk
  isplitl [H0]
  · iexists _; isplitr; · ipureintro; exact harg1.read_unread _
    iexact H0
  iexists _; isplitr
  swap; · iexact H1
  ipureintro
  rw [View.read_writes_eq_canon _ _ _ (fun y => ⟨_, List.mem_singleton_self _, View.mem_set_unit_zero hz inb_S1x8192_S1x8192_0_0 y⟩),
    View.canon_unit_zero hz]
  simp only [View.readAt_eq_ld, harg1.read_unread, harg2.read_unread, View.ld_unit_zero (S := S1x8192) hz]

theorem N_0' : cfg0.N = 32 := N_0

theorem hcond1 : ∀ t : Fin cfg0.N, k0_cond1 (grid0.coords t) = 1#1 ↔ t.val = 0 := by
  show ∀ t : Fin grid0.N, _; decide +kernel
theorem hcond2 : ∀ t : Fin cfg0.N, k0_cond2 (grid0.coords t) = 1#1 ↔ t.val ≠ 0 := by
  show ∀ t : Fin grid0.N, _; decide +kernel

theorem hlive1 (i : grid0.Coords) : cfg0.idle 1 i = false := by
  have h : ∀ v : Fin 32,
      Scalar.cmpi .ne (Scalar.extui (Scalar.cmpi .eq (BitVec.ofNat 32 v.val) 0#32)) 0#32 = 1#1
        ∨ Scalar.cmpi .ne (Scalar.extui (Scalar.cmpi .sgt (BitVec.ofNat 32 v.val) 0#32)) 0#32 = 1#1 := by decide +kernel
  show (!(k0_cond1 i == 1#1) && !(k0_cond2 i == 1#1)) = false
  rcases h ⟨(i 0).val, (i 0).isLt⟩ with h | h
  · simp [show k0_cond1 i = 1#1 from h]
  · simp [show k0_cond2 i = 1#1 from h]

def zblk (zp : Vec F S1x262144 .f32) (t : Fin cfg0.N) : Vec F S1x8192 .f32 :=
  ((cfg0.win 0).blk t).view.read (Elt F) zp

/-- The running word row after point `n`: point 0 stores block 0's shifted integer parts, point `n + 1` adds block `n + 1`'s. -/
def accAt (zp : Vec F S1x262144 .f32) : (n : ℕ) → n < cfg0.N → Vec F S1x8192 .i32
  | 0, h => k0_pay1 (grid0.coords ⟨0, h⟩) (zblk zp ⟨0, h⟩)
  | n + 1, h => k0_pay2 (grid0.coords ⟨n + 1, h⟩) (zblk zp ⟨n + 1, h⟩) (accAt zp n (Nat.lt_of_succ_lt h))

theorem accAt_first (zp : Vec F S1x262144 .f32) (t : Fin cfg0.N) (h0 : t.val = 0) :
    accAt zp t.val t.isLt = k0_pay1 (grid0.coords t) (zblk zp t) := by
  obtain ⟨_ | n, hn⟩ := t
  exacts [rfl, absurd h0 (Nat.succ_ne_zero n)]

theorem accAt_later (zp : Vec F S1x262144 .f32) (t : Fin cfg0.N) (h0 : t.val ≠ 0) :
    accAt zp t.val t.isLt = k0_pay2 (grid0.coords t) (zblk zp t) (accAt zp (t.val - 1) (Nat.lt_of_le_of_lt (Nat.sub_le _ _) t.isLt)) := by
  obtain ⟨_ | n, hn⟩ := t
  exacts [absurd rfl h0, rfl]

def packed (zp : Vec F S1x262144 .f32) : Vec F S1x8192 .i32 :=
  accAt zp 31 (by rw [N_0']; decide)

def dat0 (c : Dev nD) (V : (b : Ref sig .tc) → Buf (Elt F) ((c : Thread nD τ).loc b)) (Φ₀ : sProp 𝕄)
    (O : CellTallies nD τ sig Ix) (B : Set (SemLoc sig × Ix)) : Dat τ (Elt F) Ix Name U Lvl cfg0 c where
  A w := V (Pipeline.arrRef spec0 w)
  after w t := match w with
    | ⟨0, _⟩ => zblk (V main_v7) t
    | ⟨1, _⟩ => accAt (V main_v7) t.val t.isLt
  Φ _ := Φ₀
  q _ := fullShare
  owed _ := O
  recorded _ := B

variable (c : Dev nD) (V : (b : Ref sig .tc) → Buf (Elt F) ((c : Thread nD τ).loc b)) (Φ₀ : sProp (MT nD τ sig Ix (Elt F) Name U Lvl))
  (O : CellTallies nD τ sig Ix) (B : Set (SemLoc sig × Ix))

theorem A_eq (w : Fin cfg0.W) : (dat0 c V Φ₀ O B).A w = V (Pipeline.arrRef spec0 w) := rfl
theorem after0_0 (t : Fin cfg0.N) : (dat0 c V Φ₀ O B).after 0 t = zblk (V main_v7) t := rfl
theorem after0_1 (t : Fin cfg0.N) : (dat0 c V Φ₀ O B).after 1 t = accAt (V main_v7) t.val t.isLt := rfl

theorem before0_0 (t : Fin cfg0.N) (d) : (dat0 c V Φ₀ O B).before 0 t d = zblk (V main_v7) t :=
  ((dat0 c V Φ₀ O B).before_in_eq_fetched 0 rfl (fun _ => rfl) (fun _ _ _ => rfl)
      (fun _ => rfl) t d).trans rfl

theorem before0_1_later (t : Fin cfg0.N) (h0 : t.val ≠ 0) (d) :
    (dat0 c V Φ₀ O B).before 1 t d = accAt (V main_v7) (t.val - 1) (Nat.lt_of_le_of_lt (Nat.sub_le _ _) t.isLt) := by
  have hN : t.val < 32 := lt_of_lt_of_eq t.isLt N_0'
  rw [Dat.before_out_kept _ 1 rfl t h0 (Bool.eq_false_iff.mpr fun h => by have := (flush0_1 _).mp h; dsimp only at this; omega)
    hlive1 (fun _ _ => rfl)]
  dsimp only [dat0]

theorem leaves0 (w : Fin cfg0.W) (t : Fin cfg0.N) (h : cfg0.idle w (cfg0.grid.coords t) = false) :
    (dat0 c V Φ₀ O B).leavesExact w t
      = owns (c : Thread nD τ) ((cfg0.win w).stage (cfg0.slots t w)) fullShare ((dat0 c V Φ₀ O B).after w t) := by
  unfold Dat.leavesExact; rw [h]

set_option maxHeartbeats 800000 in
theorem sound_body (𝒱₀ : Variants) (ι : Ix) (t : Fin cfg0.N) :
    iprop((dat0 c V Φ₀ O B).Φ t.castSucc ∗ (dat0 c V Φ₀ O B).owesAt ι t.castSucc
        ∗ (∃ d, owns (c : Thread nD τ) ((cfg0.win 0).stage (cfg0.slots t 0)) fullShare ((dat0 c V Φ₀ O B).before 0 t d))
        ∗ (∃ d, owns (c : Thread nD τ) ((cfg0.win 1).stage (cfg0.slots t 1)) fullShare ((dat0 c V Φ₀ O B).before 1 t d)))
      ⊢ wp frame (wpE (defs₀ (F := F)) 𝒱₀ c none) Set.univ (bodyAt0 t) fun _ =>
          iprop((dat0 c V Φ₀ O B).Φ t.succ ∗ (dat0 c V Φ₀ O B).owesAt ι t.succ
            ∗ (dat0 c V Φ₀ O B).leavesExact 0 t ∗ (dat0 c V Φ₀ O B).leavesExact 1 t) := by
  rw [leaves0 c V Φ₀ O B 0 t rfl, leaves0 c V Φ₀ O B 1 t (hlive1 _)]
  rw [show (dat0 c V Φ₀ O B).Φ t.succ = (dat0 c V Φ₀ O B).Φ t.castSucc from rfl,
    show (dat0 c V Φ₀ O B).owesAt ι t.succ = (dat0 c V Φ₀ O B).owesAt ι t.castSucc from rfl, after0_0, after0_1]
  simp only [before0_0]
  unfold bodyAt0
  by_cases h0 : t.val = 0
  · rw [accAt_first _ t h0]
    iintro ⟨HΦ, Ho, ⟨%d0, H0⟩, ⟨%d1, H1⟩⟩
    iapply (run_first 𝒱₀ c (grid0.coords t) _ _ _ _ ((hcond1 t).mpr h0) (fun h => (hcond2 t).mp h h0) (zblk (V main_v7) t) _ Set.univ _)
    iframe
    iintro G
    iframe
  · simp only [before0_1_later c V Φ₀ O B t h0]
    rw [accAt_later _ t h0]
    iintro ⟨HΦ, Ho, ⟨%d0, H0⟩, ⟨%d1, H1⟩⟩
    iapply (run_later 𝒱₀ c (grid0.coords t) _ _ _ _ (fun h => h0 ((hcond1 t).mp h)) ((hcond2 t).mpr h0) (zblk (V main_v7) t) _ Set.univ _)
    iframe
    iintro G
    iframe

theorem body_obligation (𝒱₀ : Variants) (ι : Ix) :
    BodyObligation (dat0 c V Φ₀ O B) (defs₀ (F := F)) 𝒱₀ ι Set.univ := fun t => by
  rw [bigSep_W0, bigSep_W0]
  exact sound_body c V Φ₀ O B 𝒱₀ ι t

def t31 : Fin cfg0.N := ⟨31, by rw [N_0']; decide⟩

/-- The result's one block sits at zero offsets of its array. -/
theorem hz31 : (fun a => win0_1.index t31 a * main_v8.ty.shape.size a) = fun _ => 0 :=
  funext fun a => by fin_cases a <;> decide +kernel

theorem flushed_eq (t : Fin cfg0.N) (hf : (cfg0.win 1).flush t = true) :
    (dat0 c V Φ₀ O B).flushed 1 t = ((cfg0.win 1).blk t).view.read (Elt F) (packed (V main_v7)) := by
  have hN : cfg0.N = 32 := N_0'
  obtain rfl : t = t31 := Fin.ext (show t.val = 31 by have := (flush0_1 t).mp hf; have := t.isLt; omega)
  show (cfg0.win 1).cut (grid0.coords t31) ((dat0 c V Φ₀ O B).after 1 t31) = _
  rw [after0_1]
  exact (Memref.read_access_unit_zero (Elt F) main_v8 hz31 (fun a => by rw [congrFun hz31 a]; simp) (packed (V main_v7))).symm

theorem arrAt_out : (dat0 c V Φ₀ O B).arrAt 1 cfg0.N = packed (V main_v7) :=
  (dat0 c V Φ₀ O B).arrAt_eq_of_cover 1 (packed (V main_v7)) (flushed_eq c V Φ₀ O B) fun i =>
    ⟨t31, (flush0_1 t31).mpr rfl, by
      show i ∈ ((View.whole main_v8).slice (win0_1.rect t31)).set
      rw [View.set_slice_whole]
      exact View.mem_set_unit_zero hz31 _ i⟩

def zrow (zp : Vec F S1x262144 .f32) (j : ℕ) : F .f32 :=
  if h : j < 262144 then zp (ix2 (0 : Fin 1) ⟨j, h⟩) else zp (ix2 (0 : Fin 1) ⟨0, by decide⟩)

theorem hindex : ∀ t : Fin cfg0.N, win0_0.index t 0 = 0 ∧ win0_0.index t 1 = t.val := by
  show ∀ t : Fin grid0.N, _; decide +kernel
theorem coords0 : ∀ t : Fin cfg0.N, ((grid0.coords t) 0).val = t.val := by
  show ∀ t : Fin grid0.N, _; decide +kernel

theorem zblk_apply (zp : Vec F S1x262144 .f32) (t : Fin cfg0.N) (w : Fin 8192) :
    zblk zp t (ix2 (0 : Fin 1) w) = zrow zp (t.val * 8192 + w.val) := by
  have hN : t.val < 32 := lt_of_lt_of_eq t.isLt N_0'
  have hi := hindex t
  unfold zrow; rw [dif_pos (by omega)]
  unfold zblk
  rw [View.read_apply]
  show zp _ = zp _
  congr 1
  funext a
  apply Fin.ext
  match a with
  | ⟨0, _⟩ => show win0_0.index t 0 * 1 + 1 * 0 = 0; rw [hi.1]
  | ⟨1, _⟩ => show win0_0.index t 1 * 8192 + 1 * w.val = t.val * 8192 + w.val; rw [hi.2]; omega

theorem pay1_apply (i : grid0.Coords) (v0 : Vec F S1x8192 .f32) (j : S1x8192.Idx) :
    k0_pay1 i v0 j = IntOp.shli .vector (FloatOps.fptosi 32 (v0 j)) (BitVec.ofNat 32 (i 0).val) := by
  unfold k0_pay1; simp only [shapeCast_self]; rfl
theorem pay2_apply (i : grid0.Coords) (v0 : Vec F S1x8192 .f32) (v11 : Vec F S1x8192 .i32) (j : S1x8192.Idx) :
    k0_pay2 i v0 v11 j = IntOp.addi (v11 j) (k0_pay1 i v0 j) := by
  unfold k0_pay2; simp only [shapeCast_self]; rfl

/-- Word `w` of the running row is the left-to-right sum of the first `n + 1` shifted integer parts of the entries `8192·b + w`. -/
theorem accAt_apply (zp : Vec F S1x262144 .f32) (w : Fin 8192) : ∀ (n : ℕ) (h : n < cfg0.N),
    accAt zp n h (ix2 (0 : Fin 1) w) = Spec.packAcc (fun b => FloatOps.fptosi 32 (zrow zp (b * 8192 + w.val))) n
  | 0, h => by
    show k0_pay1 (grid0.coords ⟨0, h⟩) (zblk zp ⟨0, h⟩) (ix2 (0 : Fin 1) w) = _
    rw [pay1_apply, zblk_apply, coords0]; rfl
  | n + 1, h => by
    show k0_pay2 (grid0.coords ⟨n + 1, h⟩) (zblk zp ⟨n + 1, h⟩) (accAt zp n (Nat.lt_of_succ_lt h)) (ix2 (0 : Fin 1) w) = _
    rw [pay2_apply, pay1_apply, zblk_apply, coords0, accAt_apply zp w n]; rfl

theorem packed_apply (zp : Vec F S1x262144 .f32) (w : Fin 8192) :
    packed zp (ix2 (0 : Fin 1) w) = Spec.packed (fun j => FloatOps.fptosi 32 (zrow zp j)) w.val :=
  accAt_apply zp w 31 _

end Cert.Proof.Pack

end
-- ==== Proof.UpdAt.lean ====
import Idealize.ShloMosaic.PureOps.Ideal

noncomputable section

namespace Cert.Proof.Update

open Idealize.ShloMosaic

def updAt (irec prev_z v r a1 a2 ext decay cf vth vrst el tref kd0 kd1 aa0 aa1 : EReal) : EReal :=
  let cur : EReal := irec + ext + (kd0 * a1 + prev_z * aa0) + (kd1 * a2 + prev_z * aa1)
  let nv0 : EReal := decay * v + cf * cur
  let nv : EReal := Scalar.select (Ideal.cmp .ogt prev_z (Ideal.ofBits .f32 0x3F000000#32)) vrst nv0
  let nr : EReal := max (r + prev_z * tref - Ideal.ofBits .f32 0x3F800000#32) (Ideal.ofBits .f32 0x00000000#32)
  let vsc : EReal := Ideal.div (nv - vth) (vth - el + Ideal.ofBits .f32 0x322BCC77#32)
  let zi : BitVec 32 := (Ideal.cmp .ogt vsc (Ideal.ofBits .f32 0x00000000#32)).setWidth 32
  Scalar.select (Ideal.cmp .ogt nr (Ideal.ofBits .f32 0x00000000#32)) (Ideal.ofBits .f32 0x00000000#32) ((zi.toInt : ℝ) : EReal)

end Cert.Proof.Update

end
-- ==== Proof.UpdateBodyPure.lean ====
import proofs.«215744_g19043884990565_cont_8to1_1279_72_alg».proof.KernelIdeal
import Idealize.ShloMosaic.Lib.Pipeline.Value
import Idealize.ShloMosaic.Lib.ValueIdx
import Idealize.ShloMosaic.Lib.ValueLayout
import Idealize.ShloMosaic.PureOps.Ideal.Laws

noncomputable section

namespace Cert.Proof.Update

open Cert.KernelIdeal
open Idealize.ShloMosaic
open Idealize.ShloMosaic.TcCoe
open Idealize.ShloMosaic.ValueIdx

theorem zero2 : (![0, 0] : Fin 2 → ℕ) = fun _ => 0 := funext fun a => by fin_cases a <;> rfl

/-- Through a unit-stride slice at zero offsets of a whole buffer an index keeps its coordinates. -/
theorem emb_val {sig : RefSig} {κ : Kind} (b : Ref sig κ) (off size : Fin b.ty.shape.rank → ℕ)
    (inb : ∀ a, off a + size a ≤ b.ty.shape.size a) (h0 : ∀ a, off a = 0) (x : (Rect.unit off size inb).shape.Idx) (a : Fin b.ty.shape.rank) :
    (((View.whole b).slice (Rect.unit off size inb)).emb x a).val = (x a).val := by
  rw [View.emb_slice, Function.Embedding.trans_apply, View.emb_whole, Function.Embedding.refl_apply, Rect.emb_apply]
  show off a + 1 * (x a).val = (x a).val
  rw [h0 a]; omega

/-- The recurrent input of neuron `n` is the column sum of the thirty-two partial rows. -/
theorem irec_apply (parts : FVec Ideal S32x50176 .f32) (n : Fin 50000) (h1 : S32x50176.ShapeCasts S32x50176)
    (h2 : S32x50176.Reduces [0] S50176) (h3 : S50176.ShapeCasts S1x50176) (h4 : S1x50176.Slices ![0, 0] S1x50000) :
    extractStridedSlice S1x50000 ![0, 0]
        (shapeCast S1x50176
          (multiReduction (F := Ideal) .add [0] S50176 (shapeCast S32x50176 parts h1) 0x00000000#32
            h2 (.inl rfl) rfl)
          h3)
        h4 (ix2 (0 : Fin 1) n)
      = ∑ t : Fin 32, parts (ix2 t (⟨n.val, by omega⟩ : Fin 50176)) := by
  unfold extractStridedSlice
  refine Eq.trans (congrArg (shapeCast S1x50176 _ h3)
    (?_ : _ = ix2 (0 : Fin 1) (⟨n.val, by omega⟩ : Fin 50176))) ?_
  · funext a; fin_cases a <;> exact Fin.ext (Nat.zero_add _)
  · rw [shapeCast_a_1a_apply]
    refine (Ideal.multiReduction_add_single _ _ _ _ _ _).trans ?_
    refine Finset.sum_congr rfl fun k _ => ?_
    simp only [shapeCast, Shape.reshapeEquiv_self]
    congr 1; funext a; fin_cases a <;> rfl

end Cert.Proof.Update

end
-- ==== Proof.UpdateBody.lean ====
import proofs.«215744_g19043884990565_cont_8to1_1279_72_alg».proof.Proof.Gen.KernelIdeal
import proofs.«215744_g19043884990565_cont_8to1_1279_72_alg».proof.Proof.Gen.KernelIdeal.Skeleton
import proofs.«215744_g19043884990565_cont_8to1_1279_72_alg».proof.Proof.Gen.KernelIdeal.Points
import proofs.«215744_g19043884990565_cont_8to1_1279_72_alg».proof.Proof.Gen.KernelIdeal.Launch
import Idealize.ShloMosaic.Lib.Tactic
import Idealize.ShloMosaic.Lib.Pipeline.Value
import Idealize.ShloMosaic.Lib.ValueIdx
import Idealize.ShloMosaic.Lib.ValueLayout
import proofs.«215744_g19043884990565_cont_8to1_1279_72_alg».proof.Proof.UpdAt
import proofs.«215744_g19043884990565_cont_8to1_1279_72_alg».proof.Proof.UpdateBodyPure
import Idealize.ShloMosaic.PureOps.Ideal.Laws

set_option maxRecDepth 8192

noncomputable section

namespace Cert.Proof.Update

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation)
open Idealize.ShloMosaic.ValueIdx

variable {F : FTy → Type} [FloatOps F]
variable {Ix : Type} [DecidableEq Ix] {Name : Type} [DecidableEq Name] {U : Type} [URA U] {Lvl : Type} [Preorder Lvl]

def out (parts : Vec F S32x50176 .f32) (v r a1 a2 ext pz decay cf vth vrst el tref : Vec F S1x50000 .f32)
    (kd aa : Vec F S2 .f32) : Vec F S1x50000 .f32 :=
  k2_pay1 (k2_pay2 pz)
    (k2_pay3 parts pz (kd (ix1 (0 : Fin 2))) a1 (aa (ix1 (0 : Fin 2))) (kd (ix1 (1 : Fin 2))) a2 (aa (ix1 (1 : Fin 2))) ext decay v cf)
    (k2_pay4 pz) vrst r tref vth vth el

abbrev i0 : S1.Idx := Shape.Idx.first (s := S1) (numel1_S1.symm ▸ Nat.one_pos)

/-- A one-word load at offset 0 or 1 of a pair reads that entry of the pair. -/
theorem wd {Val : EltTy → Type} {e : EltTy} (X : S2.Idx → Val e) :
    View.ld X (Rect.unit (s := S2) ![0] S1.size inb_S2_S1_0) i0 = X (ix1 (0 : Fin 2))
      ∧ View.ld X (Rect.unit (s := S2) ![1] S1.size inb_S2_S1_1) i0 = X (ix1 (1 : Fin 2)) :=
  ⟨congrArg X (funext fun d => by fin_cases d; rfl), congrArg X (funext fun d => by fin_cases d; rfl)⟩

/-- The call's sixteen buffers, each read as the given block. -/
def bufs (c : Dev nD) (X0 : Vec F S32x50176 .f32) (X1 X2 X3 X4 X5 X6 X7 X8 X9 X10 X11 X12 : Vec F S1x50000 .f32)
    (X13 X14 : Vec F S2 .f32) (X15 : Vec F S1x50000 .f32) : sProp (MT nD τ sig Ix (Elt F) Name U Lvl) :=
  iprop(owns (c : Thread nD τ) (Memref.whole cc2_stg0_0) fullShare X0
      ∗ owns (c : Thread nD τ) (Memref.whole cc2_stg1_0) fullShare X1
      ∗ owns (c : Thread nD τ) (Memref.whole cc2_stg2_0) fullShare X2
      ∗ owns (c : Thread nD τ) (Memref.whole cc2_stg3_0) fullShare X3
      ∗ owns (c : Thread nD τ) (Memref.whole cc2_stg4_0) fullShare X4
      ∗ owns (c : Thread nD τ) (Memref.whole cc2_stg5_0) fullShare X5
      ∗ owns (c : Thread nD τ) (Memref.whole cc2_stg6_0) fullShare X6
      ∗ owns (c : Thread nD τ) (Memref.whole cc2_stg7_0) fullShare X7
      ∗ owns (c : Thread nD τ) (Memref.whole cc2_stg8_0) fullShare X8
      ∗ owns (c : Thread nD τ) (Memref.whole cc2_stg9_0) fullShare X9
      ∗ owns (c : Thread nD τ) (Memref.whole cc2_stg10_0) fullShare X10
      ∗ owns (c : Thread nD τ) (Memref.whole cc2_stg11_0) fullShare X11
      ∗ owns (c : Thread nD τ) (Memref.whole cc2_stg12_0) fullShare X12
      ∗ owns (c : Thread nD τ) (Memref.whole cc2_stg13_0) fullShare X13
      ∗ owns (c : Thread nD τ) (Memref.whole cc2_stg14_0) fullShare X14
      ∗ owns (c : Thread nD τ) (Memref.whole cc2_stg15_0) fullShare X15)

set_option maxHeartbeats 1000000 in
/-- The body leaves the fifteen operand buffers as they were and the result's buffer at `out` of the operand blocks. -/
theorem sound_body (𝒱₀ : Variants) (c : Dev nD) (X0 : Vec F S32x50176 .f32) (X1 X2 X3 X4 X5 X6 X7 X8 X9 X10 X11 X12 : Vec F S1x50000 .f32)
    (X13 X14 : Vec F S2 .f32) (X15 : Vec F S1x50000 .f32) (K : PUnit → sProp (MT nD τ sig Ix (Elt F) Name U Lvl)) :
    iprop(bufs c X0 X1 X2 X3 X4 X5 X6 X7 X8 X9 X10 X11 X12 X13 X14 X15 ∗ (bufs c X0 X1 X2 X3 X4 X5 X6 X7 X8 X9 X10 X11 X12 X13 X14 (out X0 X1 X2 X3 X4 X5 X6 X7 X8 X9 X10 X11 X12 X13 X14) -∗ K ⟨⟩))
      ⊢ wp frame (wpE (defs₀ (F := F)) 𝒱₀ c none) Set.univ (cc2__update_body (F := F) (Memref.whole cc2_stg0_0) (Memref.isWhole_whole _) (Memref.whole cc2_stg1_0) (Memref.isWhole_whole _) (Memref.whole cc2_stg2_0) (Memref.isWhole_whole _) (Memref.whole cc2_stg3_0) (Memref.isWhole_whole _) (Memref.whole cc2_stg4_0) (Memref.isWhole_whole _) (Memref.whole cc2_stg5_0) (Memref.isWhole_whole _) (Memref.whole cc2_stg6_0) (Memref.isWhole_whole _) (Memref.whole cc2_stg7_0) (Memref.isWhole_whole _) (Memref.whole cc2_stg8_0) (Memref.isWhole_whole _) (Memref.whole cc2_stg9_0) (Memref.isWhole_whole _) (Memref.whole cc2_stg10_0) (Memref.isWhole_whole _) (Memref.whole cc2_stg11_0) (Memref.isWhole_whole _) (Memref.whole cc2_stg12_0) (Memref.isWhole_whole _) (Memref.whole cc2_stg13_0) (Memref.isWhole_whole _) (Memref.whole cc2_stg14_0) (Memref.isWhole_whole _) (Memref.whole cc2_stg15_0) (Memref.isWhole_whole _)) K := by
  unfold bufs owns
  iintro ⟨⟨⟨%f0, %h0, H0⟩, ⟨%f1, %h1, H1⟩, ⟨%f2, %h2, H2⟩, ⟨%f3, %h3, H3⟩, ⟨%f4, %h4, H4⟩, ⟨%f5, %h5, H5⟩, ⟨%f6, %h6, H6⟩, ⟨%f7, %h7, H7⟩, ⟨%f8, %h8, H8⟩, ⟨%f9, %h9, H9⟩, ⟨%f10, %h10, H10⟩, ⟨%f11, %h11, H11⟩, ⟨%f12, %h12, H12⟩, ⟨%f13, %h13, H13⟩, ⟨%f14, %h14, H14⟩, ⟨%f15, %h15, H15⟩⟩, Hk⟩
  subst h0 h1 h2 h3 h4 h5 h6 h7 h8 h9 h10 h11 h12 h13 h14 h15
  sl_unfold [cc2__update_body]
  sl_exec!
  sl_step
  iapply Hk
  isplitl [H0]
  · iexists f0; isplitr
    · ipureintro; rfl
    · iexact H0
  isplitl [H1]
  · iexists f1; isplitr
    · ipureintro; rfl
    · iexact H1
  isplitl [H2]
  · iexists f2; isplitr
    · ipureintro; rfl
    · iexact H2
  isplitl [H3]
  · iexists f3; isplitr
    · ipureintro; rfl
    · iexact H3
  isplitl [H4]
  · iexists f4; isplitr
    · ipureintro; rfl
    · iexact H4
  isplitl [H5]
  · iexists f5; isplitr
    · ipureintro; rfl
    · iexact H5
  isplitl [H6]
  · iexists f6; isplitr
    · ipureintro; rfl
    · iexact H6
  isplitl [H7]
  · iexists f7; isplitr
    · ipureintro; rfl
    · iexact H7
  isplitl [H8]
  · iexists f8; isplitr
    · ipureintro; rfl
    · iexact H8
  isplitl [H9]
  · iexists f9; isplitr
    · ipureintro; rfl
    · iexact H9
  isplitl [H10]
  · iexists f10; isplitr
    · ipureintro; rfl
    · iexact H10
  isplitl [H11]
  · iexists f11; isplitr
    · ipureintro; rfl
    · iexact H11
  isplitl [H12]
  · iexists f12; isplitr
    · ipureintro; rfl
    · iexact H12
  isplitl [H13]
  · iexists f13; isplitr
    · ipureintro; rfl
    · iexact H13
  isplitl [H14]
  · iexists f14; isplitr
    · ipureintro; rfl
    · iexact H14
  iexists _; isplitr
  rotate_left
  · iexact H15
  · ipureintro
    show View.read _ _ (View.writes _ _ _ [_]) = _
    rw [View.read_writes_eq_canon _ _ _ (fun y => ⟨_, List.mem_singleton_self _, View.mem_set_unit_zero zero2 inb_S1x50000_S1x50000_0_0 y⟩),
      View.canon_unit_zero (S := S1x50000) zero2]
    show k2_pay1 (k2_pay2 _) (k2_pay3 _ _ _ _ _ _ _ _ _ _ _ _) (k2_pay4 _) _ _ _ _ _ _ = _
    unfold out
    simp only [View.readAt_eq_ld, View.ld_unit_zero (S := S1x50000) zero2, View.ld_unit_zero (S := S32x50176) zero2]
    congr 2 <;> first | exact (wd _).1 | exact (wd _).2

def dat2 (c : Dev nD) (V : (b : Ref sig .tc) → Buf (Elt F) ((c : Thread nD τ).loc b)) (Φ₀ : sProp (MT nD τ sig Ix (Elt F) Name U Lvl))
    (O : CellTallies nD τ sig Ix) (B : Set (SemLoc sig × Ix)) : Dat τ (Elt F) Ix Name U Lvl cfg2 c where
  A w := V (Pipeline.arrRef spec2 w)
  after := fun w _ => match w with
    | 0 => V main_v9
    | 1 => V main_arg1
    | 2 => V main_arg2
    | 3 => V main_arg3
    | 4 => V main_arg4
    | 5 => V main_arg7
    | 6 => V main_v10
    | 7 => V main_v11
    | 8 => V main_v12
    | 9 => V main_v13
    | 10 => V main_v14
    | 11 => V main_v15
    | 12 => V main_v16
    | 13 => V main_arg11
    | 14 => V main_arg10
    | 15 => (out (V main_v9) (V main_arg1) (V main_arg2) (V main_arg3) (V main_arg4) (V main_arg7) (V main_v10) (V main_v11) (V main_v12) (V main_v13) (V main_v14) (V main_v15) (V main_v16) (V main_arg11) (V main_arg10))
    | ⟨_ + 16, h⟩ => absurd h (Nat.not_lt.2 (Nat.le_add_left _ _))
  Φ _ := Φ₀
  q _ := fullShare
  owed _ := O
  recorded _ := B

variable (c : Dev nD) (V : (b : Ref sig .tc) → Buf (Elt F) ((c : Thread nD τ).loc b)) (Φ₀ : sProp (MT nD τ sig Ix (Elt F) Name U Lvl))
  (O : CellTallies nD τ sig Ix) (B : Set (SemLoc sig × Ix))

theorem A_eq (w : Fin 16) : (dat2 (F := F) (Ix := Ix) (Name := Name) (U := U) (Lvl := Lvl) c V Φ₀ O B).A w = V (Pipeline.arrRef spec2 w) := rfl

/-- At the one grid point each operand's block is the whole of its array, so what the body finds is what it leaves: windows 0 to 4, -/
theorem before_a (w : Fin 16) (h2 : w.val < 5) (d : (cfg2.win w).block.Idx → Elt F (cfg2.win w).elt) :
    (dat2 c V Φ₀ O B).before w t2_0 d = (dat2 c V Φ₀ O B).after w t2_0 := by
  obtain ⟨k, hk⟩ := w
  have h2 : k < 5 := h2
  interval_cases k
  all_goals
    refine (if_pos rfl).trans (funext fun j => ?_)
    unfold Dat.fetched Dat.blockOf Pipeline.Window.fill
    rw [dif_pos ((Pipeline.Window.moved_iff _ _ _).mpr fun a => (j a).isLt)]
    exact congrArg (V _) (funext fun a => Fin.ext (emb_val (Pipeline.arrRef spec2 ⟨_, hk⟩) _ _ _ (fun _ => by exact Nat.zero_mul _) _ a))

/-- windows 5 to 9, -/
theorem before_b (w : Fin 16) (h1 : 5 ≤ w.val) (h2 : w.val < 10) (d : (cfg2.win w).block.Idx → Elt F (cfg2.win w).elt) :
    (dat2 c V Φ₀ O B).before w t2_0 d = (dat2 c V Φ₀ O B).after w t2_0 := by
  obtain ⟨k, hk⟩ := w
  have h1 : 5 ≤ k := h1
  have h2 : k < 10 := h2
  interval_cases k
  all_goals
    refine (if_pos rfl).trans (funext fun j => ?_)
    unfold Dat.fetched Dat.blockOf Pipeline.Window.fill
    rw [dif_pos ((Pipeline.Window.moved_iff _ _ _).mpr fun a => (j a).isLt)]
    exact congrArg (V _) (funext fun a => Fin.ext (emb_val (Pipeline.arrRef spec2 ⟨_, hk⟩) _ _ _ (fun _ => by exact Nat.zero_mul _) _ a))

/-- and windows 10 to 14. -/
theorem before_c (w : Fin 16) (h1 : 10 ≤ w.val) (h2 : w.val < 15) (d : (cfg2.win w).block.Idx → Elt F (cfg2.win w).elt) :
    (dat2 c V Φ₀ O B).before w t2_0 d = (dat2 c V Φ₀ O B).after w t2_0 := by
  obtain ⟨k, hk⟩ := w
  have h1 : 10 ≤ k := h1
  have h2 : k < 15 := h2
  interval_cases k
  all_goals
    refine (if_pos rfl).trans (funext fun j => ?_)
    unfold Dat.fetched Dat.blockOf Pipeline.Window.fill
    rw [dif_pos ((Pipeline.Window.moved_iff _ _ _).mpr fun a => (j a).isLt)]
    exact congrArg (V _) (funext fun a => Fin.ext (emb_val (Pipeline.arrRef spec2 ⟨_, hk⟩) _ _ _ (fun _ => by exact Nat.zero_mul _) _ a))

set_option maxHeartbeats 1000000 in
theorem body_obligation (𝒱₀ : Variants) (ι : Ix) :
    BodyObligation (dat2 (F := F) (Ix := Ix) (Name := Name) (U := U) (Lvl := Lvl) c V Φ₀ O B) (defs₀ (F := F)) 𝒱₀ ι Set.univ := fun t => by
  rw [fin_N2 t, bigSep_W2, bigSep_W2]
  simp (disch := decide) only [before_a c V Φ₀ O B, before_b c V Φ₀ O B, before_c c V Φ₀ O B]
  dsimp only [dat2]
  iintro ⟨HΦ, HO, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩⟩
  iapply (sound_body 𝒱₀ c (V main_v9) (V main_arg1) (V main_arg2) (V main_arg3) (V main_arg4) (V main_arg7) (V main_v10) (V main_v11) (V main_v12) (V main_v13) (V main_v14) (V main_v15) (V main_v16) (V main_arg11) (V main_arg10) _ _)
  unfold bufs
  iframe
  iintro G
  iframe
  iexact HO

theorem arrAt_out : (dat2 (F := F) (Ix := Ix) (Name := Name) (U := U) (Lvl := Lvl) c V Φ₀ O B).arrAt 15 cfg2.N = (out (V main_v9) (V main_arg1) (V main_arg2) (V main_arg3) (V main_arg4) (V main_arg7) (V main_v10) (V main_v11) (V main_v12) (V main_v13) (V main_v14) (V main_v15) (V main_v16) (V main_arg11) (V main_arg10)) :=
  Dat.arrAt_eq_of_cover (dat2 c V Φ₀ O B) 15 _
    (fun t _ => by
      rw [fin_N2 t]
      exact funext fun y => congrArg (out (V main_v9) (V main_arg1) (V main_arg2) (V main_arg3) (V main_arg4) (V main_arg7) (V main_v10) (V main_v11) (V main_v12) (V main_v13) (V main_v14) (V main_v15) (V main_v16) (V main_arg11) (V main_arg10)) (funext fun a => Fin.ext (emb_val main_v17 _ _ _ (fun _ => Nat.zero_mul _) y a).symm))
    (fun i => ⟨t2_0, flush2_15 t2_0, by
      have e : ((cfg2.win 15).blk t2_0).view.emb (fun a => ⟨(i a).val, (i a).isLt⟩) = i :=
        funext fun a => Fin.ext (emb_val main_v17 _ _ _ (fun _ => Nat.zero_mul _) _ a)
      exact e ▸ View.emb_mem_set _ _⟩)

theorem out_apply (parts : Vec Ideal S32x50176 .f32) (v r a1 a2 ext pz decay cf vth vrst el tref : Vec Ideal S1x50000 .f32)
    (kd aa : Vec Ideal S2 .f32) (n : Fin 50000) :
    out parts v r a1 a2 ext pz decay cf vth vrst el tref kd aa (ix2 (0 : Fin 1) n)
      = updAt (∑ t : Fin 32, parts (ix2 t (⟨n.val, by omega⟩ : Fin 50176)))
          (pz (ix2 0 n)) (v (ix2 0 n)) (r (ix2 0 n)) (a1 (ix2 0 n)) (a2 (ix2 0 n)) (ext (ix2 0 n)) (decay (ix2 0 n)) (cf (ix2 0 n))
          (vth (ix2 0 n)) (vrst (ix2 0 n)) (el (ix2 0 n)) (tref (ix2 0 n))
          (kd (ix1 (0 : Fin 2))) (kd (ix1 (1 : Fin 2))) (aa (ix1 (0 : Fin 2))) (aa (ix1 (1 : Fin 2))) := by
  unfold out k2_pay1 k2_pay2 k2_pay3 k2_pay4 updAt
  simp only [select, cmpf, maximumf, subf, addf, mulf, divf, sitofp, extui, broadcast]
  rw [irec_apply]
  simp only [k2_pay2, shapeCast, Shape.reshapeEquiv_self]
  rfl

end Cert.Proof.Update

end
-- ==== Proof.RegionCalls.lean ====
import proofs.«215744_g19043884990565_cont_8to1_1279_72_alg».proof.Proof.RegionsInMain
import proofs.«215744_g19043884990565_cont_8to1_1279_72_alg».proof.Proof.PackBody
import proofs.«215744_g19043884990565_cont_8to1_1279_72_alg».proof.Proof.UpdateBody

noncomputable section

namespace Cert.Proof.Launch

open Cert.KernelIdeal Cert.KernelIdeal.Gen
open Idealize.ShloMosaic Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held)

variable {F : FTy → Type} [FloatOps F] [∀ e, Nonempty (Elt F e)]

-- Placeholder data for the other region.
def noDat (p : Fin 2) (c : Dev nD) : PDat F p c where
  A := fun _ _ => Classical.arbitrary _
  after := fun _ _ _ => Classical.arbitrary _
  Φ := fun _ => iprop(emp)
  q := fun _ => fullShare
  owed := fun _ => 0

section Out

variable (p : Fin 2) (n : ℕ) (dat : (c : Dev nD) → PDat F p c)

-- `dat` placed at index `p` of a family.
def famOf : (q : Fin 2) → (c : Dev nD) → PDat F q c :=
  fun q c => if h : q = p then h ▸ dat c else noDat q c

variable (kit : Pipeline.LaunchFacts (nD := nD) (τ := τ) cfgs p)
variable (hbody : ∀ c, Pipeline.BodyObligationLoose (dat c) (defs₀ (F := F)) 𝒱₀ (none : HIx 1) Set.univ)
variable (W : Valuation τ sig (Elt F)) (wout : Fin (pn F p).W) (x : (Proc.devRef (τ := τ) .tc (aref F p wout)).ty.Contents (Elt F))
variable (hΦ : ∀ c t, (dat c).Φ t = Pipeline.scopedRest (pn F p).spec c)
variable (hq : ∀ c w, (dat c).q w = fullShare)
variable (howed : ∀ c t, (dat c).owed t = (K (F := F)).Otc c n)
variable (hrec : ∀ c t, (dat c).recorded t = Bn (F := F) c n)
variable (hA : ∀ c w, (dat c).A w = valAt c W (aref F p w))
variable (hin : ∀ w, w ≠ wout → ((pn F p).win w).isOut = false)
variable (hout : ∀ c, (dat c).arrAt wout (pn F p).N = x)

include kit hbody hΦ hq howed hrec hA hin hout in
-- If only window `wout` is an output, the call changes the valuation at that window's array alone.
theorem region_out (P : (K (F := F)).Pay (nD := nD) (Val := Elt F) (Name := ℕ) (U := UU)) :
    CallRule P p n (Gp p) W (Function.update W (Proc.devRef .tc (aref F p wout)) x) := by
  have e : famOf p dat p = dat := funext fun c => by unfold famOf; rw [dif_pos rfl]
  have h := region_tcSt p n (famOf p dat) kit
  rw [e] at h
  refine h hbody W _ hΦ hq howed hrec hA (fun c w => ?_)
    (fun c b hb => Function.update_of_ne (fun h => hb (Finset.mem_image.mpr ⟨wout, Finset.mem_univ _, (Proc.devRef_injective _ h).symm⟩)) _ _) P
  by_cases hw : w = wout
  · subst hw
    rw [hout c]
    exact Eq.symm (Function.update_self _ _ _)
  · rw [Pipeline.Dat.arrAt_in (dat c) w (hin w hw), hA c w]
    exact (Function.update_of_ne (fun h => hw (kit.win.arr_inj (Proc.devRef_injective _ h))) _ _).symm

end Out

variable (P : (K (F := F)).Pay (nD := nD) (Val := Elt F) (Name := ℕ) (U := UU)) (W : Valuation τ sig (Elt F))

omit [FloatOps F] [∀ e, Nonempty (Elt F e)] in
theorem hin0 : ∀ w : Fin (pn F 0).W, w ≠ (1 : Fin 2) → ((pn F 0).win w).isOut = false :=
  show ∀ w : Fin 2, w ≠ 1 → (cfg0.win w).isOut = false from by decide

-- Call 0: window 1 is the only output.
theorem region_0 : CallRule P 0 0 (Gp 0) W (Function.update W (Proc.devRef .tc main_v8) (Pack.packed (W (Proc.devRef .tc main_v7)))) :=
  region_out 0 0 (fun c => Pack.dat0 c (valAt c W) (Pipeline.scopedRest spec0 c) ((K (F := F)).Otc c 0) (Bn (F := F) c 0)) launch0
    (fun c => (Pack.body_obligation c (valAt c W) (Pipeline.scopedRest spec0 c) ((K (F := F)).Otc c 0) (Bn (F := F) c 0) 𝒱₀ (none : HIx 1)).loose)
    W (1 : Fin 2) (Pack.packed (W (Proc.devRef .tc main_v7)))
    (fun _ _ => rfl) (fun _ _ => rfl) (fun _ _ => rfl) (fun _ _ => rfl) (fun c w => Pack.A_eq c (valAt c W) _ _ _ w) hin0
    (fun c => Pack.arrAt_out c (valAt c W) _ _ _) P

omit [FloatOps F] [∀ e, Nonempty (Elt F e)] in
theorem hin2 : ∀ w : Fin (pn F 1).W, w ≠ (15 : Fin 16) → ((pn F 1).win w).isOut = false :=
  show ∀ w : Fin 16, w ≠ 15 → (cfg2.win w).isOut = false from by decide

abbrev out2 : (Proc.devRef (τ := τ) .tc main_v17).ty.Contents (Elt F) :=
  Update.out (W (Proc.devRef .tc main_v9)) (W (Proc.devRef .tc main_arg1)) (W (Proc.devRef .tc main_arg2)) (W (Proc.devRef .tc main_arg3)) (W (Proc.devRef .tc main_arg4)) (W (Proc.devRef .tc main_arg7)) (W (Proc.devRef .tc main_v10)) (W (Proc.devRef .tc main_v11)) (W (Proc.devRef .tc main_v12)) (W (Proc.devRef .tc main_v13)) (W (Proc.devRef .tc main_v14)) (W (Proc.devRef .tc main_v15)) (W (Proc.devRef .tc main_v16)) (W (Proc.devRef .tc main_arg11)) (W (Proc.devRef .tc main_arg10))

-- Call 1: window 15 is the only output.
theorem region_1 : CallRule P 1 1 (Gp 1) W (Function.update W (Proc.devRef .tc main_v17) (out2 W)) :=
  region_out 1 1 (fun c => Update.dat2 c (valAt c W) (Pipeline.scopedRest (pn F 1).spec c) ((K (F := F)).Otc c 1) (Bn (F := F) c 1)) launch2
    (fun c => (Update.body_obligation c (valAt c W) (Pipeline.scopedRest (pn F 1).spec c) ((K (F := F)).Otc c 1) (Bn (F := F) c 1) 𝒱₀ (none : HIx 1)).loose)
    W (15 : Fin 16) (out2 W)
    (fun _ _ => by dsimp only [Update.dat2]) (fun _ _ => rfl) (fun _ _ => rfl) (fun _ _ => rfl) (fun c w => Update.A_eq c (valAt c W) _ _ _ w) hin2
    (fun c => Update.arrAt_out c (valAt c W) _ _ _) P

end Cert.Proof.Launch

end
-- ==== Proof.TileDefs.lean ====
import proofs.«215744_g19043884990565_cont_8to1_1279_72_alg».proof.KernelIdeal

noncomputable section

namespace Cert.Proof.Tile

open Cert.KernelIdeal
open Idealize.ShloMosaic

variable {F : FTy → Type} [FloatOps F]

theorem and8191_inb (cc : IVec S16 32) :
    ∀ a x, ((![andi cc (broadcast S16 8191#32)] : Fin 1 → IVec S16 32) a x).toNat < S8192.size a := by
  intro a x
  obtain rfl := Fin.eq_zero a
  show (cc x &&& 8191#32).toNat < 8192
  rw [BitVec.toNat_and]
  exact Nat.lt_of_le_of_lt Nat.and_le_right (by decide)

theorem and3_inb (rr : IVec S16 32) :
    ∀ a x, ((![andi rr (broadcast S16 3#32)] : Fin 1 → IVec S16 32) a x).toNat < S16.size a := by
  intro a x
  obtain rfl := Fin.eq_zero a
  show (rr x &&& 3#32).toNat < 16
  rw [BitVec.toNat_and]
  exact Nat.lt_of_le_of_lt Nat.and_le_right (by decide)

def RowsOK (rr : IVec S16 32) : Prop :=
  ∀ a x, ((![shrui rr (broadcast S16 2#32)] : Fin 1 → IVec S16 32) a x).toNat < S50176.size a

theorem rowsOK_of_le (rr : IVec S16 32) (h : ∀ x, (rr x).toNat ≤ 199999) : RowsOK rr := by
  intro a x
  obtain rfl := Fin.eq_zero a
  have hx := h x
  show (IntOp.shrui .vector (rr x) 2#32).toNat < 50176
  rw [IntOp.shrui, if_pos (by decide), BitVec.ushiftRight_eq', BitVec.toNat_ushiftRight, Nat.shiftRight_eq_div_pow]
  show (rr x).toNat / 4 < 50176
  omega

open Classical in

def step16 (packed : Vec F S8192 .i32) (pi : Vec F S16 .f32) (rr cc : Vec F S16 .i32) (ww : Vec F S16 .f32)
    (acc : Vec F S50176 .f32) : Vec F S50176 .f32 :=
  if h : RowsOK rr then
    storeIdx acc ![shrui rr (broadcast S16 2#32)]
      (mulf ww (loadIdx pi ![andi rr (broadcast S16 3#32)] (and3_inb rr)))
      (cmpi .eq
        (andi (shrui (loadIdx packed ![andi cc (broadcast S16 8191#32)] (and8191_inb cc)) (shrui cc (broadcast S16 13#32)))
          (broadcast S16 1#32))
        (broadcast S16 1#32))
      true h
  else acc

def lanes16 {e : EltTy} (X : Vec F S10000 e) (o : Nat) (h : o + 16 ≤ 10000) : Vec F S16 e :=
  fun x => X ((Rect.unit (s := S10000) ![o] S16.size (Rect.inb₁ h)).toLoadRect.idx x)

theorem lanes16_apply {e : EltTy} (X : Vec F S10000 e) (o : Nat) (h : o + 16 ≤ 10000) (x : S16.Idx) (a : Fin 1) :
    (((Rect.unit (s := S10000) ![o] S16.size (Rect.inb₁ h)).toLoadRect.idx x) a : Nat) = o + (x a : Nat) := by
  obtain rfl := Fin.eq_zero a
  show o + 1 * (x 0 : Nat) = o + (x 0 : Nat)
  rw [Nat.one_mul]

def stepFold (packed : Vec F S8192 .i32) (pi : Vec F S16 .f32) (rows cols : Vec F S10000 .i32) (w : Vec F S10000 .f32) :
    Nat → Vec F S50176 .f32 → Vec F S50176 .f32
  | 0, acc => acc
  | j + 1, acc =>
    if h : 16 * j + 16 ≤ 10000 then
      step16 packed pi (lanes16 rows (16 * j) h) (lanes16 cols (16 * j) h) (lanes16 w (16 * j) h)
        (stepFold packed pi rows cols w j acc)
    else stepFold packed pi rows cols w j acc

def chunkFold (k : Nat) (packed : Vec F S8192 .i32) (pi : Vec F S16 .f32) (rows cols : Vec F S10000 .i32)
    (w : Vec F S10000 .f32) (acc : Vec F S50176 .f32) : Vec F S50176 .f32 :=
  stepFold packed pi rows cols w (5 * k) acc

end Cert.Proof.Tile
-- ==== Proof.TileInit.lean ====
import proofs.«215744_g19043884990565_cont_8to1_1279_72_alg».proof.KernelIdeal
import Idealize.ShloMosaic.Lib.ValueIdx
import Idealize.ShloMosaic.Lib.Decide

noncomputable section

namespace Cert.Proof.Tile

open Cert.KernelIdeal

open Idealize.ShloMosaic
open Idealize.ShloMosaic.ValueIdx

variable {F : FTy → Type}

def widOf (i : grid1.Coords) : Fin 32 :=
  ⟨2 * (i 1).val + (i 0).val, by
    have h0 : (i 0).val < 2 := (i 0).isLt
    have h1 : (i 1).val < 16 := (i 1).isLt
    omega⟩

def widWord (i : grid1.Coords) : BitVec 32 :=
  Scalar.addi (Scalar.muli (BitVec.ofNat 32 (i 1).val) 2#32) (BitVec.ofNat 32 (i 0).val)

def pkRow (Pk : Vec F S1x8192 .i32) : Vec F S8192 .i32 :=
  fun j => Pk (ix2 (0 : Fin 1) (j 0 : Fin 8192))

def pscSlice (pscpad : Vec F S1x200704 .f32) (wid : Fin 32) : Vec F S6272 .f32 :=
  fun j => pscpad (ix2 (0 : Fin 1) (⟨wid.val * 6272 + (j 0 : Fin 6272).val, by
    have h : (j 0 : Fin 6272).val < 6272 := (j 0).isLt
    have hw := wid.isLt
    omega⟩ : Fin 200704))

def sdSplat (sd16 : Vec F S16 .f32) (r : Fin 16) : Vec F S16 .f32 := fun _ => sd16 (ix1 r)

variable [FloatOps F]

def accZero : Vec F S50176 .f32 := fun _ => Scalar.ofBits .f32 0x00000000#32

def decayed (sd16 : Vec F S16 .f32) (p : Vec F S6272 .f32) (m : Nat) (hm : m < 1568) : F .f32 :=
  FloatOps.addf
    (FloatOps.addf
      (FloatOps.addf
        (FloatOps.mulf (p (ix1 (⟨4 * m, by omega⟩ : Fin 6272))) (sd16 (ix1 (1 : Fin 16))))
        (FloatOps.mulf (p (ix1 (⟨4 * m + 1, by omega⟩ : Fin 6272))) (sd16 (ix1 (2 : Fin 16)))))
      (FloatOps.mulf (p (ix1 (⟨4 * m + 2, by omega⟩ : Fin 6272))) (sd16 (ix1 (3 : Fin 16)))))
    (FloatOps.mulf (p (ix1 (⟨4 * m + 3, by omega⟩ : Fin 6272))) (sd16 (ix1 (4 : Fin 16))))

def accInit (sd16 : Vec F S16 .f32) (pscpad : Vec F S1x200704 .f32) (wid : Fin 32) : Vec F S50176 .f32 :=
  fun n =>
    if h : wid.val * 1568 ≤ (n 0 : Fin 50176).val ∧ (n 0 : Fin 50176).val < wid.val * 1568 + 1568 then
      decayed sd16 (pscSlice pscpad wid) ((n 0 : Fin 50176).val - wid.val * 1568) (by omega)
    else Scalar.ofBits .f32 0x00000000#32

theorem widOf_val (i : grid1.Coords) : (widOf i).val = 2 * (i 1).val + (i 0).val := rfl

theorem accInit_own (sd16 : Vec F S16 .f32) (pscpad : Vec F S1x200704 .f32) (wid : Fin 32) (n : S50176.Idx)
    (h : wid.val * 1568 ≤ (n 0 : Fin 50176).val ∧ (n 0 : Fin 50176).val < wid.val * 1568 + 1568) :
    accInit sd16 pscpad wid n
      = decayed sd16 (pscSlice pscpad wid) ((n 0 : Fin 50176).val - wid.val * 1568) (by omega) := dif_pos h

theorem accInit_other (sd16 : Vec F S16 .f32) (pscpad : Vec F S1x200704 .f32) (wid : Fin 32) (n : S50176.Idx)
    (h : ¬ (wid.val * 1568 ≤ (n 0 : Fin 50176).val ∧ (n 0 : Fin 50176).val < wid.val * 1568 + 1568)) :
    accInit sd16 pscpad wid n = Scalar.ofBits .f32 0x00000000#32 := dif_neg h

end Cert.Proof.Tile

end
-- ==== Proof.TileSum.lean ====
import Idealize.ShloMosaic.PureOps.ShapeOps
import Idealize.ShloMosaic.PureOps.Ideal
import Mathlib.Algebra.BigOperators.Fin
import Mathlib.Algebra.BigOperators.Intervals
import proofs.«215744_g19043884990565_cont_8to1_1279_72_alg».proof.Proof.Spec

open Idealize.ShloMosaic
open Cert.Proof.Spec (bitTest andi_8191_toNat)

namespace Cert.Proof.Tile

abbrev ix {N : Nat} (i : Fin N) : (⟨1, ![N]⟩ : Shape).Idx := Shape.ofLane (d := ![N]) i

theorem storeIdx_add_apply {s : Shape} {d : Fin 1 → Nat}
    (f : Vec Ideal s .f32) (idxs : Fin s.rank → IVec ⟨1, d⟩ 32) (v : Vec Ideal ⟨1, d⟩ .f32)
    (mask : IVec ⟨1, d⟩ 1) (h : ∀ a x, (idxs a x).toNat < s.size a) (j : s.Idx) :
    (storeIdx f idxs v mask true h j : EReal)
      = f j + ∑ k : Fin (d 0),
          if mask (Shape.ofLane k) = 1 ∧ (∀ a, (j a).val = (idxs a (Shape.ofLane k)).toNat)
          then (v (Shape.ofLane k) : EReal) else 0 := by
  classical

  set t : Fin (d 0) → EReal := fun k =>
    if mask (Shape.ofLane k) = 1 ∧ (∀ a, (j a).val = (idxs a (Shape.ofLane k)).toNat)
    then (v (Shape.ofLane k) : EReal) else 0 with ht
  have key : ∀ (l : List (Fin (d 0))) (g : Vec Ideal s .f32),
      ((l.foldl (fun g k =>
        let x := Shape.ofLane k
        if mask x = 1 then
          let i := idxAt idxs h x
          let y := if true then Elt.idxAdd .f32 (g i) (v x) else v x
          fun j => if (∀ a, (j a).val = (i a).val) then y else g j
        else g) g) j : EReal) = g j + (l.map t).sum := by
    intro l
    induction l with
    | nil => intro g; simp
    | cons k l ih =>
      intro g
      rw [List.foldl_cons, ih, List.map_cons, List.sum_cons, ← add_assoc]
      congr 1
      by_cases hm : mask (Shape.ofLane k) = 1
      · by_cases hj : ∀ a, (j a).val = (idxs a (Shape.ofLane k)).toNat
        · have hji : j = idxAt idxs h (Shape.ofLane k) := by
            funext a; exact Fin.ext (hj a)
          have hj' : ∀ a, (j a).val = ((idxAt idxs h (Shape.ofLane k)) a).val := hj
          simp only [hm, if_true, hj', ht, implies_true]
          rw [← hji, if_pos (And.intro trivial hj)]; rfl
        · have hj' : ¬ ∀ a, (j a).val = ((idxAt idxs h (Shape.ofLane k)) a).val := hj
          simp only [hm, if_true, hj', if_false, ht, hj, and_false, add_zero]
      · simp only [hm, if_false, ht, false_and, add_zero]
  have := key (List.finRange (d 0)) f
  rw [Fin.sum_univ_def]
  exact this

theorem sum_blocks (B : Nat) (g : Nat → EReal) (m : Nat) :
    ∑ k ∈ Finset.range m, ∑ l : Fin B, g (B * k + l.val) = ∑ e ∈ Finset.range (B * m), g e := by
  induction m with
  | zero => simp
  | succ m ih =>
    rw [Finset.sum_range_succ, ih, Nat.mul_succ, Finset.sum_range_add]
    congr 1
    rw [Finset.sum_range]

theorem andi_8191_lt (c : BitVec 32) : (IntOp.andi c 8191#32).toNat < 8192 := by
  rw [andi_8191_toNat]
  omega

theorem andi_3_toNat (r : BitVec 32) : (IntOp.andi r 3#32).toNat = r.toNat % 4 := by
  unfold IntOp.andi
  rw [BitVec.toNat_and]
  exact Nat.and_two_pow_sub_one_eq_mod r.toNat 2

theorem shrui_2_toNat (r : BitVec 32) : (IntOp.shrui .vector r 2#32).toNat = r.toNat / 4 := by
  unfold IntOp.shrui
  rw [if_pos (by decide), BitVec.ushiftRight_eq', BitVec.toNat_ushiftRight, Nat.shiftRight_eq_div_pow]
  rfl

noncomputable def contrib (packed : Fin 8192 → BitVec 32) (pi16 : Fin 16 → EReal)
    (r c : BitVec 32) (x : EReal) (n : Nat) : EReal :=
  if r.toNat / 4 = n ∧ bitTest (packed ⟨(IntOp.andi c 8191#32).toNat, andi_8191_lt c⟩) c = 1#1
  then x * pi16 ⟨r.toNat % 4, by omega⟩ else 0

theorem idxAt_one {N : Nat} {t : Shape} (iv : IVec t 32)
    (h : ∀ (a : Fin 1) (x : t.Idx), ((![iv] : Fin 1 → IVec t 32) a x).toNat < (⟨1, ![N]⟩ : Shape).size a)
    (x : t.Idx) :
    idxAt (s := ⟨1, ![N]⟩) ![iv] h x = ix ⟨(iv x).toNat, h 0 x⟩ := by
  funext a
  obtain rfl : a = 0 := Subsingleton.elim _ _
  rfl

theorem step_apply (packed : IVec ⟨1, ![8192]⟩ 32) (pi16 : FVec Ideal ⟨1, ![16]⟩ .f32)
    (acc : FVec Ideal ⟨1, ![50176]⟩ .f32)
    (rr cc : IVec ⟨1, ![16]⟩ 32) (ww : FVec Ideal ⟨1, ![16]⟩ .f32)
    (h9 : ∀ (a : Fin 1) x, ((![andi cc (broadcast _ 8191#32)] : Fin 1 → IVec ⟨1, ![16]⟩ 32) a x).toNat
            < (⟨1, ![8192]⟩ : Shape).size a)
    (h10 : ∀ (a : Fin 1) x, ((![andi rr (broadcast _ 3#32)] : Fin 1 → IVec ⟨1, ![16]⟩ 32) a x).toNat
            < (⟨1, ![16]⟩ : Shape).size a)
    (h11 : ∀ (a : Fin 1) x, ((![shrui rr (broadcast _ 2#32)] : Fin 1 → IVec ⟨1, ![16]⟩ 32) a x).toNat
            < (⟨1, ![50176]⟩ : Shape).size a)
    (n : Fin 50176) :
    (storeIdx (F := Ideal) (s := ⟨1, ![50176]⟩) (e := .f32) acc ![shrui rr (broadcast _ 2#32)]
        (mulf ww (loadIdx (F := Ideal) (s := ⟨1, ![16]⟩) (e := .f32) pi16 ![andi rr (broadcast _ 3#32)] h10))
        (cmpi .eq (andi (shrui (loadIdx (F := Ideal) (s := ⟨1, ![8192]⟩) (e := .i32) packed ![andi cc (broadcast _ 8191#32)] h9)
                          (shrui cc (broadcast _ 13#32))) (broadcast _ 1#32)) (broadcast _ 1#32))
        true h11 (ix n) : EReal)
      = acc (ix n) + ∑ l : Fin 16,
          contrib (fun i => packed (ix i)) (fun i => pi16 (ix i)) (rr (ix l)) (cc (ix l)) (ww (ix l)) n.val := by
  rw [storeIdx_add_apply]
  congr 1
  refine Finset.sum_congr rfl (fun l _ => ?_)
  unfold contrib
  refine if_congr (and_comm.trans (and_congr ?_ ?_)) ?_ rfl
  · constructor
    · intro h
      have h0 : n.val = (IntOp.shrui .vector (rr (ix l)) 2#32).toNat := h 0
      rw [shrui_2_toNat] at h0
      exact h0.symm
    · intro h a
      obtain rfl : a = 0 := Subsingleton.elim _ _
      show n.val = (IntOp.shrui .vector (rr (ix l)) 2#32).toNat
      rw [shrui_2_toNat]
      exact h.symm
  · show bitTest (packed (idxAt (s := ⟨1, ![8192]⟩) ![andi cc (broadcast _ 8191#32)] h9 (ix l))) (cc (ix l)) = 1#1 ↔ _
    rw [idxAt_one]
    exact Iff.rfl
  · show ww (ix l) * pi16 (idxAt (s := ⟨1, ![16]⟩) ![andi rr (broadcast _ 3#32)] h10 (ix l)) = _
    rw [idxAt_one]
    congr 3
    exact Fin.ext (andi_3_toNat _)

theorem sum_blocks_range (B : Nat) (g : Nat → EReal) (m : Nat) :
    ∑ k ∈ Finset.range m, ∑ e ∈ Finset.range B, g (B * k + e) = ∑ e ∈ Finset.range (B * m), g e := by
  rw [← sum_blocks B g m]
  refine Finset.sum_congr rfl (fun k _ => ?_)
  rw [Finset.sum_range]

theorem rec_read {A : Type} (read : A → EReal) (Fo : Nat → A → A) (c : Nat → EReal) (M : Nat)
    (h0 : ∀ a, Fo 0 a = a)
    (hs : ∀ k, k < M → ∀ a, read (Fo (k + 1) a) = read (Fo k a) + c k)
    (m : Nat) (hm : m ≤ M) (a : A) :
    read (Fo m a) = read a + ∑ k ∈ Finset.range m, c k := by
  induction m with
  | zero => rw [h0]; simp
  | succ m ih => rw [hs m (by omega), ih (by omega), Finset.sum_range_succ, add_assoc]

theorem steps_rec_apply {A : Type} (read : A → EReal) (Fo : Nat → A → A)
    (packed : Fin 8192 → BitVec 32) (pi16 : Fin 16 → EReal)
    (R C : Nat → BitVec 32) (W : Nat → EReal) (b n M : Nat)
    (h0 : ∀ a, Fo 0 a = a)
    (hs : ∀ k, k < M → ∀ a, read (Fo (k + 1) a)
        = read (Fo k a) + ∑ l : Fin 16, contrib packed pi16 (R (b + (16 * k + l.val))) (C (b + (16 * k + l.val)))
            (W (b + (16 * k + l.val))) n)
    (m : Nat) (hm : m ≤ M) (a : A) :
    read (Fo m a)
      = read a + ∑ e ∈ Finset.range (16 * m), contrib packed pi16 (R (b + e)) (C (b + e)) (W (b + e)) n := by
  rw [rec_read read Fo _ M h0 hs m hm]
  congr 1
  exact sum_blocks 16 (fun e => contrib packed pi16 (R (b + e)) (C (b + e)) (W (b + e)) n) m

def nth {α : Type} (v : Fin 1600000 → α) (e : Nat) : α := v ⟨e % 1600000, Nat.mod_lt _ (by decide)⟩

theorem nth_val {α : Type} (v : Fin 1600000 → α) (e : Fin 1600000) : nth v e.val = v e := by
  unfold nth
  congr 1
  exact Fin.ext (Nat.mod_eq_of_lt e.isLt)

def tileOf (e : Fin 1600000) : Fin 32 := ⟨e.val / 50000, by have := e.isLt; omega⟩

theorem tile_sum (packed : Fin 8192 → BitVec 32) (pi16 : Fin 16 → EReal)
    (rows cols : Fin 1600000 → BitVec 32) (w : Fin 1600000 → EReal) (t : Fin 32) (n : Nat) :
    ∑ e ∈ Finset.range 50000, contrib packed pi16 (nth rows (50000 * t.val + e)) (nth cols (50000 * t.val + e))
        (nth w (50000 * t.val + e)) n
      = ∑ e ∈ Finset.univ.filter (fun e : Fin 1600000 => tileOf e = t ∧ (rows e).toNat / 4 = n
            ∧ bitTest (packed ⟨(IntOp.andi (cols e) 8191#32).toNat, andi_8191_lt _⟩) (cols e) = 1#1),
          w e * (fun r : Fin 4 => pi16 ⟨r.val, by omega⟩) ⟨(rows e).toNat % 4, Nat.mod_lt _ (by omega)⟩ := by
  have hI : (Finset.range 1600000).filter (fun i => i / 50000 = t.val)
      = Finset.Ico (50000 * t.val) (50000 * t.val + 50000) := by
    ext i
    simp only [Finset.mem_filter, Finset.mem_range, Finset.mem_Ico]
    have := t.isLt
    omega
  symm
  trans ∑ i ∈ Finset.range 1600000,
    if i / 50000 = t.val then contrib packed pi16 (nth rows i) (nth cols i) (nth w i) n else 0
  · rw [Finset.sum_filter, Finset.sum_range]
    refine Finset.sum_congr rfl fun e _ => ?_
    rw [nth_val, nth_val, nth_val]
    exact (ite_and _ _ _ _).trans (if_congr (by rw [Fin.ext_iff]; rfl) rfl rfl)
  · rw [← Finset.sum_filter, hI, Finset.sum_Ico_eq_sum_range, Nat.add_sub_cancel_left]

end Cert.Proof.Tile
-- ==== Proof.TileValue.lean ====
import proofs.«215744_g19043884990565_cont_8to1_1279_72_alg».proof.Proof.TileDefs
import proofs.«215744_g19043884990565_cont_8to1_1279_72_alg».proof.Proof.TileSum

noncomputable section

namespace Cert.Proof.Tile

open Cert.KernelIdeal
open Idealize.ShloMosaic
open Cert.Proof.Spec (bitTest)

theorem lanes16_ix {e : EltTy} (X : Vec Ideal S10000 e) (o : Nat) (h : o + 16 ≤ 10000) (l : Fin 16) :
    lanes16 X o h (ix l) = X (ix ⟨o + l.val, by omega⟩) := by
  unfold lanes16
  congr 1
  funext a
  apply Fin.ext
  rw [lanes16_apply (F := Ideal) X o h (ix l) a]
  obtain rfl := Fin.eq_zero a
  rfl

def bat {α : Type} (X : S10000.Idx → α) (e : Nat) : α := X (ix ⟨e % 10000, Nat.mod_lt _ (by decide)⟩)

theorem bat_lt {α : Type} (X : S10000.Idx → α) (e : Nat) (h : e < 10000) : bat X e = X (ix ⟨e, h⟩) := by
  unfold bat
  congr 2
  exact Fin.ext (Nat.mod_eq_of_lt h)

theorem stepFold_apply (packed : Vec Ideal S8192 .i32) (pi : Vec Ideal S16 .f32)
    (rows cols : Vec Ideal S10000 .i32) (w : Vec Ideal S10000 .f32)
    (hrows : ∀ x, (rows x).toNat ≤ 199999) (m : Nat) (hm : m ≤ 625)
    (acc : Vec Ideal S50176 .f32) (n : Fin 50176) :
    (stepFold packed pi rows cols w m acc (ix n) : EReal)
      = acc (ix n) + ∑ e ∈ Finset.range (16 * m),
          contrib (fun i => packed (ix i)) (fun i => pi (ix i)) (bat rows e) (bat cols e) (bat w e) n.val := by
  have key := steps_rec_apply (A := Vec Ideal S50176 .f32) (fun a => (a (ix n) : EReal))
    (stepFold packed pi rows cols w) (fun i => packed (ix i)) (fun i => pi (ix i))
    (bat rows) (bat cols) (bat w) 0 n.val 625 (fun a => rfl) ?_ m hm acc
  · simpa only [Nat.zero_add] using key
  · intro k hk a
    have h16 : 16 * k + 16 ≤ 10000 := by omega
    have hfold : stepFold packed pi rows cols w (k + 1) a
        = step16 packed pi (lanes16 rows (16 * k) h16) (lanes16 cols (16 * k) h16) (lanes16 w (16 * k) h16)
            (stepFold packed pi rows cols w k a) := by
      rw [stepFold, dif_pos h16]
    show (stepFold packed pi rows cols w (k + 1) a (ix n) : EReal) = _
    have hok : RowsOK (lanes16 rows (16 * k) h16) := rowsOK_of_le _ (fun x => hrows _)
    rw [hfold, step16, dif_pos hok]
    refine (step_apply packed pi _ _ _ _ (and8191_inb _) (and3_inb _) hok n).trans ?_
    congr 1
    refine Finset.sum_congr rfl (fun l _ => ?_)
    have hl : 16 * k + l.val < 10000 := by have := l.isLt; omega
    rw [lanes16_ix, lanes16_ix, lanes16_ix, Nat.zero_add, bat_lt rows _ hl, bat_lt cols _ hl, bat_lt w _ hl]

theorem nth_of_lt {α : Type} (v : Fin 1600000 → α) (e : Nat) (h : e < 1600000) : nth v e = v ⟨e, h⟩ := by
  unfold nth
  congr 1
  exact Fin.ext (Nat.mod_eq_of_lt h)

def chunksFold {F : FTy → Type} [FloatOps F] (packed : Vec F S8192 .i32) (pi : Vec F S16 .f32)
    (bR bC : Nat → Vec F S10000 .i32) (bW : Nat → Vec F S10000 .f32) :
    Nat → Vec F S50176 .f32 → Vec F S50176 .f32
  | 0, acc => acc
  | j + 1, acc => chunkFold 125 packed pi (bR j) (bC j) (bW j) (chunksFold packed pi bR bC bW j acc)

theorem tile_apply (packed : Vec Ideal S8192 .i32) (pi : Vec Ideal S16 .f32)
    (rows cols : Vec Ideal S1600000 .i32) (w : Vec Ideal S1600000 .f32)
    (hrows : ∀ x, (rows x).toNat ≤ 199999) (t : Fin 32)
    (bR bC : Nat → Vec Ideal S10000 .i32) (bW : Nat → Vec Ideal S10000 .f32)
    (hR : ∀ j, j < 5 → ∀ i : Fin 10000,
      bR j (ix i) = nth (fun e => rows (ix e)) (50000 * t.val + 10000 * j + i.val))
    (hC : ∀ j, j < 5 → ∀ i : Fin 10000,
      bC j (ix i) = nth (fun e => cols (ix e)) (50000 * t.val + 10000 * j + i.val))
    (hW : ∀ j, j < 5 → ∀ i : Fin 10000,
      bW j (ix i) = nth (fun e => w (ix e)) (50000 * t.val + 10000 * j + i.val))
    (acc : Vec Ideal S50176 .f32) (n : Fin 50176) :
    (chunksFold packed pi bR bC bW 5 acc (ix n) : EReal)
      = acc (ix n) + ∑ e ∈ Finset.univ.filter (fun e : Fin 1600000 => tileOf e = t
            ∧ (rows (ix e)).toNat / 4 = n.val
            ∧ bitTest (packed (ix ⟨(IntOp.andi (cols (ix e)) 8191#32).toNat, andi_8191_lt _⟩)) (cols (ix e)) = 1#1),
          w (ix e) * (fun r : Fin 4 => pi (ix ⟨r.val, by omega⟩))
            ⟨(rows (ix e)).toNat % 4, Nat.mod_lt _ (by omega)⟩ := by
  rw [← tile_sum (fun i => packed (ix i)) (fun i => pi (ix i)) (fun e => rows (ix e)) (fun e => cols (ix e))
    (fun e => w (ix e)) t n.val]
  rw [← sum_blocks_range 10000 (fun e => contrib (fun i => packed (ix i)) (fun i => pi (ix i))
    (nth (fun e => rows (ix e)) (50000 * t.val + e)) (nth (fun e => cols (ix e)) (50000 * t.val + e))
    (nth (fun e => w (ix e)) (50000 * t.val + e)) n.val) 5]
  refine rec_read (A := Vec Ideal S50176 .f32) (fun a => (a (ix n) : EReal)) (chunksFold packed pi bR bC bW) _ 5
    (fun a => rfl) ?_ 5 (Nat.le_refl _) acc
  intro j hj a
  have hrowsj : ∀ x, (bR j x).toNat ≤ 199999 := by
    intro x
    have hx : x = ix (N := 10000) (x 0) := by
      funext a
      obtain rfl := Fin.eq_zero a
      rfl
    rw [hx, hR j hj (x 0)]
    exact hrows _
  show (chunkFold 125 packed pi (bR j) (bC j) (bW j) (chunksFold packed pi bR bC bW j a) (ix n) : EReal) = _
  refine (stepFold_apply packed pi (bR j) (bC j) (bW j) hrowsj 625 (Nat.le_refl _) _ n).trans ?_
  congr 1
  refine Finset.sum_congr rfl (fun e he => ?_)
  have he' : e < 10000 := Finset.mem_range.mp he
  rw [bat_lt _ _ he', bat_lt _ _ he', bat_lt _ _ he', hR j hj ⟨e, he'⟩, hC j hj ⟨e, he'⟩, hW j hj ⟨e, he'⟩,
    Nat.add_assoc]

end Cert.Proof.Tile
end
-- ==== Proof.TileOut.lean ====
import proofs.«215744_g19043884990565_cont_8to1_1279_72_alg».proof.Proof.TileDefs
import proofs.«215744_g19043884990565_cont_8to1_1279_72_alg».proof.Proof.TileInit
import proofs.«215744_g19043884990565_cont_8to1_1279_72_alg».proof.Proof.TileValue

noncomputable section

namespace Cert.Proof.Tile

open Cert.KernelIdeal
open Idealize.ShloMosaic

variable {F : FTy → Type} [FloatOps F]

theorem chunk_le (wid : Fin 32) (j : Fin 5) : 50000 * wid.val + 10000 * j.val + 10000 ≤ 1600000 := by
  have := wid.isLt; have := j.isLt; omega

def chunkOf {e : EltTy} (X : Vec F S1600000 e) (wid : Fin 32) (j : Fin 5) : Vec F S10000 e :=
  fun x => X ((Rect.unit (s := S1600000) ![50000 * wid.val + 10000 * j.val] S10000.size (Rect.inb₁ (chunk_le wid j))).toLoadRect.idx x)

theorem chunkOf_idx (wid : Fin 32) (j : Fin 5) (x : S10000.Idx) (a : Fin 1) :
    (((Rect.unit (s := S1600000) ![50000 * wid.val + 10000 * j.val] S10000.size (Rect.inb₁ (chunk_le wid j))).toLoadRect.idx x) a : Nat)
      = 50000 * wid.val + 10000 * j.val + (x a : Nat) := by
  obtain rfl := Fin.eq_zero a
  show 50000 * wid.val + 10000 * j.val + 1 * (x 0 : Nat) = 50000 * wid.val + 10000 * j.val + (x 0 : Nat)
  rw [Nat.one_mul]

def chunkAt {e : EltTy} (X : Vec F S1600000 e) (wid : Fin 32) (j : Nat) : Vec F S10000 e :=
  if h : j < 5 then chunkOf X wid ⟨j, h⟩ else chunkOf X wid ⟨0, by decide⟩

theorem chunkAt_lt {e : EltTy} (X : Vec F S1600000 e) (wid : Fin 32) (j : Nat) (h : j < 5) :
    chunkAt X wid j = chunkOf X wid ⟨j, h⟩ := dif_pos h

def tileOut (packed : Vec F S1x8192 .i32) (rows cols : Vec F S1600000 .i32) (w : Vec F S1600000 .f32)
    (pi16 sd16 : Vec F S16 .f32) (pscpad : Vec F S1x200704 .f32) (wid : Fin 32) : Vec F S50176 .f32 :=
  chunksFold (pkRow packed) pi16 (chunkAt rows wid) (chunkAt cols wid) (chunkAt w wid) 5 (accInit sd16 pscpad wid)

end Cert.Proof.Tile

end
-- ==== Proof.TileBatch.lean ====
import proofs.«215744_g19043884990565_cont_8to1_1279_72_alg».proof.Proof.Pay
import Idealize.ShloMosaic.Lib.Batch
import Idealize.ShloMosaic.Lib.Tactic
import Idealize.ShloMosaic.Lib.Pipeline.Kit
import Idealize.ShloMosaic.Lib.WholeRead

noncomputable section

namespace Cert.Proof.Tile.Copies

open Cert.KernelIdeal Cert.KernelIdeal.Gen Cert.Proof.Launch
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F] {U : Type} [URA U] [CountersIn U]

local notation "𝕄" => MT nD τ sig (HIx 1) (Elt F) ℕ U ℕ

abbrev tthr (d : Dev nD) (i : grid1.Coords) : Thread nD τ := V d ((i 0).castLE hcore1) ((i 1).castLE hsub1)

abbrev PT (d : Dev nD) (i : grid1.Coords) (α : Type) : Type 1 := Prog (TpuEff nD τ sig (Elt F) Λ₀ (tthr d i).2) α

abbrev wpT (d : Dev nD) (i : grid1.Coords) {α : Type} (k : PT (F := F) d i α) (Q : α → sProp 𝕄) : sProp 𝕄 :=
  wp frame (wpE (defs₀ (F := F)) 𝒱₀ (tthr d i) none) Set.univ k Q

abbrev rowsV : Memref sig .scVector .hbm S1600000 .i32 := Memref.whole main_v1_scv
abbrev colsV : Memref sig .scVector .hbm S1600000 .i32 := Memref.whole main_v3_scv
abbrev wV : Memref sig .scVector .hbm S1600000 .f32 := Memref.whole main_arg6_scv

abbrev chunkRect (i : grid1.Coords) (r : Fin 5) : Rect S1600000 :=
  Rect.unit (s := S1600000) (k1_off4 i (BitVec.ofNat 32 (10000 * r.val))) S10000.size (k1_off4_inb i r)

abbrev rowsSl (i : grid1.Coords) (r : Fin 5) : Memref sig .scVector .hbm S10000 .i32 := (rowsV).slice (chunkRect i r) (fun _ => rfl)
abbrev colsSl (i : grid1.Coords) (r : Fin 5) : Memref sig .scVector .hbm S10000 .i32 := (colsV).slice (chunkRect i r) (fun _ => rfl)
abbrev wSl (i : grid1.Coords) (r : Fin 5) : Memref sig .scVector .hbm S10000 .f32 := (wV).slice (chunkRect i r) (fun _ => rfl)

theorem ret_bind' {E : Type → Type} {α β : Type} (a : α) (k : α → Prog E β) : (Prog.ret a).bind k = k a := rfl

abbrev NB : ℕ := (Memref.whole cc1_scratch4 : Memref sig .scVector .vmem S10000 .i32).view.dmaCredit
theorem NB_pos : 0 < NB := View.dmaCredit_pos _ (by decide)

structure BufSet where
  R : Memref sig .scVector .vmem S10000 .i32
  C : Memref sig .scVector .vmem S10000 .i32
  W : Memref sig .scVector .vmem S10000 .f32
  sem : DmaSems sig S_
  hR : R.IsWhole
  hC : C.IsWhole
  hW : W.IsWhole
  nR : R.view.dmaCredit = NB
  nC : C.view.dmaCredit = NB
  nW : W.view.dmaCredit = NB

abbrev set0 : BufSet := ⟨Memref.whole cc1_scratch4, Memref.whole cc1_scratch2, Memref.whole cc1_scratch6, cc1_scratch11,
  Memref.isWhole_whole _, Memref.isWhole_whole _, Memref.isWhole_whole _, rfl, rfl, rfl⟩
abbrev set1 : BufSet := ⟨Memref.whole cc1_scratch5, Memref.whole cc1_scratch3, Memref.whole cc1_scratch7, cc1_scratch12,
  Memref.isWhole_whole _, Memref.isWhole_whole _, Memref.isWhole_whole _, rfl, rfl, rfl⟩

section OneSet

variable (d : Dev nD) (i : grid1.Coords) (q : PosShare TreeShare) (cv : CallVals (F := F) d) (B : BufSet)

abbrev rowsChunk (r : Fin 5) : S10000.Idx → Elt F .i32 := (rowsSl i r).view.read (Elt F) (cv.rows : Buf (Elt F) ((rowsSl i r).view.loc (tthr d i)))
abbrev colsChunk (r : Fin 5) : S10000.Idx → Elt F .i32 := (colsSl i r).view.read (Elt F) (cv.cols : Buf (Elt F) ((colsSl i r).view.loc (tthr d i)))
abbrev wChunk (r : Fin 5) : S10000.Idx → Elt F .f32 := (wSl i r).view.read (Elt F) (cv.w : Buf (Elt F) ((wSl i r).view.loc (tthr d i)))

variable (fR : Buf (Elt F) (B.R.view.loc (tthr d i))) (fC : Buf (Elt F) (B.C.view.loc (tthr d i))) (fW : Buf (Elt F) (B.W.view.loc (tthr d i)))

-- What one copy delivers: the buffer rewritten with what the slice reads, and the slice's share back.
abbrev delivOf {e : EltTy} (b : Memref sig .scVector .vmem S10000 e) (f : Buf (Elt F) (b.view.loc (tthr d i)))
    (s : Memref sig .scVector .hbm S10000 e) (X : Buf (Elt F) (s.view.loc (tthr d i))) : sProp 𝕄 :=
  iprop((b.view.loc (tthr d i) ↦{fullShare} b.view.write (Elt F) f (s.view.read (Elt F) X) Finset.univ) ∗ (s.view.loc (tthr d i) ↦[s.view.set]{q} X))

def deliv (r : Fin 5) : Fin 3 → sProp 𝕄 :=
  ![delivOf d i q B.R fR (rowsSl i r) cv.rows, delivOf d i q B.C fC (colsSl i r) cv.cols, delivOf d i q B.W fW (wSl i r) cv.w]

instance deliv_storable (r : Fin 5) (t : Fin 3) : Storable (upEmb : UEmb _ 𝕄) (deliv d i q cv B fR fC fW r t) := by
  fin_cases t
  · exact inferInstanceAs (Storable (upEmb : UEmb _ 𝕄) (delivOf d i q B.R fR (rowsSl i r) cv.rows))
  · exact inferInstanceAs (Storable (upEmb : UEmb _ 𝕄) (delivOf d i q B.C fC (colsSl i r) cv.cols))
  · exact inferInstanceAs (Storable (upEmb : UEmb _ 𝕄) (delivOf d i q B.W fW (wSl i r) cv.w))

theorem deliv_split (r : Fin 5) :
    (bigSep Finset.univ (deliv d i q cv B fR fC fW r) : sProp 𝕄)
      ⊢ iprop(delivOf d i q B.R fR (rowsSl i r) cv.rows ∗ delivOf d i q B.C fC (colsSl i r) cv.cols ∗ delivOf d i q B.W fW (wSl i r) cv.w) := by
  rw [Idealize.SL.BI.bigSep_univ_eq_bigSepL [0, 1, 2] (by decide) (by decide) _]
  exact .rfl

abbrev batch (r : Fin 5) (k u : ℕ) : sProp 𝕄 :=
  Transfers.Batch (countersEmb (U := U)) (tthr d i) (.dma B.sem.sem) (none : HIx 1) NB (deliv d i q cv B fR fC fW r) k u

abbrev restOf (r : Fin 5) : sProp 𝕄 :=
  iprop((rowsLoc d ↦[Finset.univ \ (rowsSl i r).view.set]{q} cv.rows) ∗ (colsLoc d ↦[Finset.univ \ (colsSl i r).view.set]{q} cv.cols)
    ∗ (wLoc d ↦[Finset.univ \ (wSl i r).view.set]{q} cv.w))

abbrev inflight (r : Fin 5) : sProp 𝕄 := iprop(batch d i q cv B fR fC fW r 3 0 ∗ restOf d i q cv r)

abbrev landed (r : Fin 5) : sProp 𝕄 :=
  iprop((rowsLoc d ↦{q} cv.rows) ∗ (colsLoc d ↦{q} cv.cols) ∗ (wLoc d ↦{q} cv.w)
    ∗ (B.R.view.loc (tthr d i) ↦{fullShare} B.R.view.write (Elt F) fR (rowsChunk d i cv r) Finset.univ)
    ∗ (B.C.view.loc (tthr d i) ↦{fullShare} B.C.view.write (Elt F) fC (colsChunk d i cv r) Finset.univ)
    ∗ (B.W.view.loc (tthr d i) ↦{fullShare} B.W.view.write (Elt F) fW (wChunk d i cv r) Finset.univ)
    ∗ semVal (tthr d i, SemLoc.dma B.sem.sem) 0)

theorem wp_fire (r : Fin 5) {α : Type} (k : PT (F := F) d i α) (Q : α → sProp 𝕄) :
    iprop((rowsLoc d ↦{q} cv.rows) ∗ (colsLoc d ↦{q} cv.cols) ∗ (wLoc d ↦{q} cv.w)
        ∗ (B.R.view.loc (tthr d i) ↦{fullShare} fR) ∗ (B.C.view.loc (tthr d i) ↦{fullShare} fC) ∗ (B.W.view.loc (tthr d i) ↦{fullShare} fW)
        ∗ semVal (tthr d i, SemLoc.dma B.sem.sem) 0
        ∗ (inflight d i q cv B fR fC fW r -∗ wpT d i k Q))
      ⊢ wpT d i (do
          Prog.lift (.enqueueDma (rowsSl i r) (.here B.R) (.dma B.sem.sem) (View.wordExact_bits rfl) B.hR.wordExact ⟨Or.inl rfl, trivial⟩)
          Prog.lift (.enqueueDma (colsSl i r) (.here B.C) (.dma B.sem.sem) (View.wordExact_bits rfl) B.hC.wordExact ⟨Or.inl rfl, trivial⟩)
          Prog.lift (.enqueueDma (wSl i r) (.here B.W) (.dma B.sem.sem) (View.wordExact_bits rfl) B.hW.wordExact ⟨Or.inl rfl, trivial⟩)
          k) Q := by
  iintro ⟨Hr, Hc, Hw, HbR, HbC, HbW, Hsem, Hk⟩
  ihave ⟨HrS, HrX⟩ := ((pointsTo_split_subset (I := (rowsSl i r).view.set) (Finset.subset_univ _)).1) $$ Hr
  ihave ⟨HcS, HcX⟩ := ((pointsTo_split_subset (I := (colsSl i r).view.set) (Finset.subset_univ _)).1) $$ Hc
  ihave ⟨HwS, HwX⟩ := ((pointsTo_split_subset (I := (wSl i r).view.set) (Finset.subset_univ _)).1) $$ Hw
  imod (Transfers.batch_alloc' (Lvl := ℕ) (countersEmb (U := U)) (tthr d i) (none : HIx 1) NB (deliv d i q cv B fR fC fW r)
    (sm := .dma B.sem.sem) (E := Set.univ)) $$ Hsem with HB
  iapply (Transfers.wp_dmaBatch (countersEmb (U := U)) 𝒱₀ (tthr d i) none (src := rowsSl i r) (dst := B.R) (sm := SemLoc.dma B.sem.sem) (none : HIx 1) NB B.nR (Finset.subset_univ _)
    (D := deliv d i q cv B fR fC fW r) (j := 0) (u := 0) (by decide) (Nat.zero_le _) (by unfold deliv; exact .rfl)) $$ [$HrS $HbR $HB]
  iintro HB
  simp only [ret_bind']
  iapply (Transfers.wp_dmaBatch (countersEmb (U := U)) 𝒱₀ (tthr d i) none (src := colsSl i r) (dst := B.C) (sm := SemLoc.dma B.sem.sem) (none : HIx 1) NB B.nC (Finset.subset_univ _)
    (D := deliv d i q cv B fR fC fW r) (j := 1) (u := 0) (by decide) (Nat.zero_le _) (by unfold deliv; exact .rfl)) $$ [$HcS $HbC $HB]
  iintro HB
  simp only [ret_bind']
  iapply (Transfers.wp_dmaBatch (countersEmb (U := U)) 𝒱₀ (tthr d i) none (src := wSl i r) (dst := B.W) (sm := SemLoc.dma B.sem.sem) (none : HIx 1) NB B.nW (Finset.subset_univ _)
    (D := deliv d i q cv B fR fC fW r) (j := 2) (u := 0) (by decide) (Nat.zero_le _) (by unfold deliv; exact .rfl)) $$ [$HwS $HbW $HB]
  iintro HB
  simp only [ret_bind']
  iapply Hk
  unfold inflight restOf
  iframe HrX HcX HwX
  iexact HB

variable (O : CellTallies nD τ sig (HIx 1)) (W : Waits sig (HIx 1))

abbrev owesN : sProp 𝕄 := iprop(∃ W', ⌜∀ p ∈ W', p ∈ W ∨ p.2 = none⌝ ∗ owes (tthr d i) O W')

theorem owesN_ins (sm : SemLoc sig) {W' : Waits sig (HIx 1)} (hW' : ∀ p ∈ W', p ∈ W ∨ p.2 = none) :
    (owes (tthr d i) O (insert (sm, (none : HIx 1)) W') : sProp 𝕄) ⊢ owesN d i O W := by
  iintro HO
  iexists (insert (sm, (none : HIx 1)) W')
  isplitr
  · ipureintro
    intro p hp
    rcases Finset.mem_insert.1 hp with rfl | hp
    exacts [Or.inr rfl, hW' p hp]
  · iexact HO

theorem wp_waitMid {e : EltTy} (src : Memref sig .scVector .hbm S10000 e) (dst : Memref sig .scVector .vmem S10000 e) (hN : dst.view.dmaCredit = NB)
    (hs : src.view.WordExact) (hd : dst.view.WordExact) (r : Fin 5) (u : ℕ) (hu : u + NB < NB * 3) {α : Type} (k : PT (F := F) d i α) (Q : α → sProp 𝕄) :
    iprop(batch d i q cv B fR fC fW r 3 u ∗ owesN d i O W ∗ Transfers.MayWaits (tthr d i) (none : HIx 1) O
        ∗ ((batch d i q cv B fR fC fW r 3 (u + NB) ∗ owesN d i O W) -∗ wpT d i k Q))
      ⊢ wpT d i (do
          Prog.lift (.waitDma2 B.sem.sem src dst hs hd)
          k) Q := by
  iintro ⟨HB, ⟨%W', %hW', HO⟩, #Hmw, Hk⟩
  ihave Hm := (Transfers.MayWaits.elim (SemLoc.dma B.sem.sem)) $$ Hmw
  iapply (Transfers.wp_waitBatchO (countersEmb (U := U)) 𝒱₀ (tthr d i) none (none : HIx 1) hN
    (D := deliv d i q cv B fR fC fW r) (u := u) hu (O := O) (W := W')) $$ [$HB $HO $Hm]
  iintro ⟨HB, HO⟩
  simp only [ret_bind']
  iapply Hk
  iframe HB
  iapply (owesN_ins d i O W _ hW') $$ HO

-- The batch's last wait: every copy has landed, and the three arrays are whole again.
theorem wp_wait3 (r : Fin 5) {α : Type} (k : PT (F := F) d i α) (Q : α → sProp 𝕄) :
    iprop(batch d i q cv B fR fC fW r 3 (0 + NB + NB) ∗ restOf d i q cv r ∗ owesN d i O W ∗ Transfers.MayWaits (tthr d i) (none : HIx 1) O
        ∗ ((landed d i q cv B fR fC fW r ∗ owesN d i O W) -∗ wpT d i k Q))
      ⊢ wpT d i (do
          Prog.lift (.waitDma2 B.sem.sem (wSl i r) B.W (View.wordExact_bits rfl) B.hW.wordExact)
          k) Q := by
  iintro ⟨HB, ⟨HrX, HcX, HwX⟩, ⟨%W', %hW', HO⟩, #Hmw, Hk⟩
  ihave Hm := (Transfers.MayWaits.elim (SemLoc.dma B.sem.sem)) $$ Hmw
  iapply (Transfers.wp_waitBatchLastO (countersEmb (U := U)) 𝒱₀ (tthr d i) none (none : HIx 1) B.nW NB_pos
    (D := deliv d i q cv B fR fC fW r) (u := 0 + NB + NB) (by omega) (O := O) (W := W')) $$ [$HB $HO $Hm]
  iintro ⟨HD, Hv, HO⟩
  simp only [ret_bind']
  ihave ⟨⟨HbR, HrS⟩, ⟨HbC, HcS⟩, HbW, HwS⟩ := (deliv_split d i q cv B fR fC fW r) $$ HD
  iapply Hk
  isplitr [HO]
  · isplitl [HrS HrX]
    · iapply ((pointsTo_split_subset (I := (rowsSl i r).view.set) (Finset.subset_univ _)).2); isplitl [HrS] <;> iassumption
    isplitl [HcS HcX]
    · iapply ((pointsTo_split_subset (I := (colsSl i r).view.set) (Finset.subset_univ _)).2); isplitl [HcS] <;> iassumption
    isplitl [HwS HwX]
    · iapply ((pointsTo_split_subset (I := (wSl i r).view.set) (Finset.subset_univ _)).2); isplitl [HwS] <;> iassumption
    iframe HbR HbC HbW
    iexact Hv
  · iapply (owesN_ins d i O W _ hW') $$ HO

theorem wp_wait23 (r : Fin 5) {α : Type} (k : PT (F := F) d i α) (Q : α → sProp 𝕄) :
    iprop(batch d i q cv B fR fC fW r 3 (0 + NB) ∗ restOf d i q cv r ∗ owesN d i O W ∗ Transfers.MayWaits (tthr d i) (none : HIx 1) O
        ∗ ((landed d i q cv B fR fC fW r ∗ owesN d i O W) -∗ wpT d i k Q))
      ⊢ wpT d i (do
          Prog.lift (.waitDma2 B.sem.sem (colsSl i r) B.C (View.wordExact_bits rfl) B.hC.wordExact)
          Prog.lift (.waitDma2 B.sem.sem (wSl i r) B.W (View.wordExact_bits rfl) B.hW.wordExact)
          k) Q := by
  iintro ⟨HB, HX, HO, #Hmw, Hk⟩
  iapply (wp_waitMid d i q cv B fR fC fW O W (colsSl i r) B.C B.nC _ _ r (0 + NB) (by have := NB_pos; omega) _ Q)
  iframe HB HO Hmw
  iintro ⟨HB, HO⟩
  iapply (wp_wait3 d i q cv B fR fC fW O W r _ Q)
  iframe HB HX HO Hmw
  iexact Hk

theorem wp_waitAll (r : Fin 5) {α : Type} (k : PT (F := F) d i α) (Q : α → sProp 𝕄) :
    iprop(inflight d i q cv B fR fC fW r ∗ owesN d i O W ∗ Transfers.MayWaits (tthr d i) (none : HIx 1) O
        ∗ ((landed d i q cv B fR fC fW r ∗ owesN d i O W) -∗ wpT d i k Q))
      ⊢ wpT d i (do
          Prog.lift (.waitDma2 B.sem.sem (rowsSl i r) B.R (View.wordExact_bits rfl) B.hR.wordExact)
          Prog.lift (.waitDma2 B.sem.sem (colsSl i r) B.C (View.wordExact_bits rfl) B.hC.wordExact)
          Prog.lift (.waitDma2 B.sem.sem (wSl i r) B.W (View.wordExact_bits rfl) B.hW.wordExact)
          k) Q := by
  iintro ⟨⟨HB, HX⟩, HO, #Hmw, Hk⟩
  iapply (wp_waitMid d i q cv B fR fC fW O W (rowsSl i r) B.R B.nR _ _ r 0 (by have := NB_pos; omega) _ Q)
  iframe HB HO Hmw
  iintro ⟨HB, HO⟩
  iapply (wp_wait23 d i q cv B fR fC fW O W r _ Q)
  iframe HB HX HO Hmw
  iexact Hk

end OneSet

end Cert.Proof.Tile.Copies

end
-- ==== Proof.TileProloguePure.lean ====
import proofs.«215744_g19043884990565_cont_8to1_1279_72_alg».proof.Proof.TileInit
import Idealize.ShloMosaic.Lib.SparseCore.Ops
import Idealize.ShloMosaic.Lib.Writes
import Idealize.ShloMosaic.Lib.ValueIdx

noncomputable section

namespace Cert.Proof.Tile

open Cert.KernelIdeal
open Idealize.ShloMosaic
open Idealize.ShloMosaic.ValueIdx

variable {F : FTy → Type} [FloatOps F]

set_option quotPrecheck false
local notation "aPk" => (Memref.whole main_v8_scv : Memref sig Kind.scVector .hbm S1x8192 EltTy.i32)
local notation "aPsc" => (Memref.whole main_v6_scv : Memref sig Kind.scVector .hbm S1x200704 EltTy.f32)
local notation "sAcc" => (Memref.whole cc1_scratch1 : Memref sig Kind.scVector .vmem S50176 EltTy.f32)
local notation "sPsc" => (Memref.whole cc1_scratch9 : Memref sig Kind.scVector .vmem S6272 EltTy.f32)
local notation "sSd" => (Memref.whole cc1_scratch10 : Memref sig Kind.scVector .vmem S16 EltTy.f32)

theorem reshape_row {n : Nat} (h : (⟨1, ![n]⟩ : Shape).numel = (⟨2, ![1, n]⟩ : Shape).numel) (j : (⟨1, ![n]⟩ : Shape).Idx) :
    Shape.reshapeEquiv h j = ix2 (0 : Fin 1) (Fin.mk (n := n) (j 0).val (j 0).isLt) :=
  Shape.reshapeEquiv_eq_of_rowMajor h
    ((Shape.rowMajor_val_two (d := ![1, n]) _).trans
      ((show 0 * n + (j 0).val = (j 0).val by omega).trans (Shape.rowMajor_val_one (d := ![n]) j).symm))

theorem read_pk (inb : ∀ a, (![0, 0] : Fin 2 → Nat) a + S1x8192.size a ≤ S1x8192.size a) (sq : S1x8192.Squeezes S8192)
    (hsl : ∀ a, (Rect.unit (s := S1x8192) ![0, 0] S1x8192.size inb).stride a = 1) (Pk : Vec F S1x8192 .i32) :
    View.read (Elt F) (((aPk).slice (Rect.unit (s := S1x8192) ![0, 0] S1x8192.size inb) hsl).squeeze S8192 sq).view Pk = pkRow Pk := by
  funext j
  show Pk (((aPk).view.slice (Rect.unit (s := S1x8192) ![0, 0] S1x8192.size inb)).emb
      (Shape.reshapeEquiv (s := ⟨2, ![1, 8192]⟩) (s' := ⟨1, ![8192]⟩) sq.numel_eq j)) = _
  rw [reshape_row]
  unfold pkRow
  congr 1
  funext a
  match a with
  | ⟨0, _⟩ => apply Fin.ext; rfl
  | ⟨1, _⟩ => apply Fin.ext; show 0 + 1 * (j 0 : Fin 8192).val = (j 0 : Fin 8192).val; omega

/-- A window of 6272 columns of the one row, from column `wid · 6272`, reads that tile's slice. -/
theorem read_psc (off : Fin 2 → Nat) (inb : ∀ a, off a + S1x6272.size a ≤ S1x200704.size a) (sq : S1x6272.Squeezes S6272)
    (hsl : ∀ a, (Rect.unit (s := S1x200704) off S1x6272.size inb).stride a = 1) (pscpad : Vec F S1x200704 .f32)
    (wid : Fin 32) (h0 : off 0 = 0) (h1 : off 1 = wid.val * 6272) :
    View.read (Elt F) (((aPsc).slice (Rect.unit (s := S1x200704) off S1x6272.size inb) hsl).squeeze S6272 sq).view pscpad
      = pscSlice pscpad wid := by
  funext j
  show pscpad (((aPsc).view.slice (Rect.unit (s := S1x200704) off S1x6272.size inb)).emb
      (Shape.reshapeEquiv (s := ⟨2, ![1, 6272]⟩) (s' := ⟨1, ![6272]⟩) sq.numel_eq j)) = _
  rw [reshape_row]
  unfold pscSlice
  congr 1
  funext a
  match a with
  | ⟨0, _⟩ => apply Fin.ext; show off 0 + 1 * 0 = 0; omega
  | ⟨1, _⟩ => apply Fin.ext; show off 1 + 1 * (j 0 : Fin 6272).val = wid.val * 6272 + (j 0 : Fin 6272).val; omega

theorem write16_apply (off : Fin 1 → Nat) (hinb : ∀ a, off a + S16.size a ≤ S50176.size a) (o : Nat) (ho : off 0 = o)
    (f : Vec F S50176 .f32) (w : Vec F S16 .f32) (n : S50176.Idx) :
    (sAcc).view.writes (Elt F) f [⟨Rect.unit (s := S50176) off S16.size hinb, w⟩] n
      = if h : o ≤ (n 0 : Fin 50176).val ∧ (n 0 : Fin 50176).val < o + 16 then
          w (ix1 (⟨(n 0 : Fin 50176).val - o, by omega⟩ : Fin 16))
        else f n := by
  subst ho
  rw [View.writes_singleton]
  by_cases h : off 0 ≤ (n 0 : Fin 50176).val ∧ (n 0 : Fin 50176).val < off 0 + 16
  · rw [dif_pos h]
    have hn : ((sAcc).view.slice (Rect.unit (s := S50176) off S16.size hinb)).emb
        (ix1 (⟨(n 0 : Fin 50176).val - off 0, by omega⟩ : Fin 16)) = n := by
      funext a
      have ha : a = (0 : Fin 1) := Subsingleton.elim (α := Fin 1) a 0
      subst ha
      apply Fin.ext
      show off 0 + 1 * ((n 0 : Fin 50176).val - off 0) = (n 0 : Fin 50176).val
      omega
    conv_lhs => rw [← hn]
    rw [View.write_emb_of_mem _ _ (Finset.mem_univ _)]
    rfl
  · rw [dif_neg h]
    apply View.write_of_not_mem
    rw [View.setOn_univ]
    show n ∉ ((View.whole cc1_scratch1).slice (Rect.unit (s := S50176) off S16.size hinb)).set
    rw [View.set_slice_whole, Rect.mem_set_unit]
    intro hh
    exact h ⟨(hh 0).1, (hh 0).2⟩

def zeroTo (k : Nat) (f : Vec F S50176 .f32) : Vec F S50176 .f32 :=
  fun n => if (n 0 : Fin 50176).val < 16 * k then Scalar.ofBits .f32 0x00000000#32 else f n

theorem zeroTo_zero (f : Vec F S50176 .f32) : zeroTo 0 f = f := by
  funext n; simp [zeroTo]

theorem zeroTo_all (f : Vec F S50176 .f32) : zeroTo 3136 f = accZero := by
  funext n
  have h : (n 0 : Fin 50176).val < 50176 := (n 0).isLt
  simp only [zeroTo, accZero]
  rw [if_pos (by omega)]

theorem loadIdx_psc (g : Vec F S6272 .f32) (v : IVec S16 32)
    (h : ∀ a x, ((![v] : Fin 1 → IVec S16 32) a x).toNat < S6272.size a) (x : S16.Idx) (m : Nat) (hm : m < 6272)
    (hv : (v x).toNat = m) :
    loadIdx (((sPsc).access (.whole S6272)).read (Elt F) g) ![v] h x = g (ix1 (⟨m, hm⟩ : Fin 6272)) := by
  show g ((Rect.whole S6272).emb (idxAt ![v] h x)) = g (ix1 (⟨m, hm⟩ : Fin 6272))
  congr 1
  funext a
  have ha : a = (0 : Fin 1) := Subsingleton.elim (α := Fin 1) a 0
  subst ha
  apply Fin.ext
  show 0 + 1 * (v x).toNat = m
  omega

def accPart (sd16 : Vec F S16 .f32) (pscpad : Vec F S1x200704 .f32) (wid : Fin 32) (k : Nat) : Vec F S50176 .f32 :=
  fun n =>
    if h : wid.val * 1568 ≤ (n 0 : Fin 50176).val ∧ (n 0 : Fin 50176).val < wid.val * 1568 + 1568
        ∧ (n 0 : Fin 50176).val < wid.val * 1568 + 16 * k then
      decayed sd16 (pscSlice pscpad wid) ((n 0 : Fin 50176).val - wid.val * 1568) (by omega)
    else Scalar.ofBits .f32 0x00000000#32

theorem accPart_zero (sd16 : Vec F S16 .f32) (pscpad : Vec F S1x200704 .f32) (wid : Fin 32) :
    accPart sd16 pscpad wid 0 = accZero := by
  funext n
  unfold accPart accZero
  rw [dif_neg (by omega)]

theorem accPart_all (sd16 : Vec F S16 .f32) (pscpad : Vec F S1x200704 .f32) (wid : Fin 32) :
    accPart sd16 pscpad wid 98 = accInit sd16 pscpad wid := by
  funext n
  unfold accPart accInit
  by_cases h : wid.val * 1568 ≤ (n 0 : Fin 50176).val ∧ (n 0 : Fin 50176).val < wid.val * 1568 + 1568
  · rw [dif_pos h, dif_pos ⟨h.1, h.2, by omega⟩]
  · rw [dif_neg h, dif_neg (fun hh => h ⟨hh.1, hh.2.1⟩)]

theorem decayed_of (sd16 : Vec F S16 .f32) (p : Vec F S6272 .f32) (m : Nat) (hm : m < 1568) (a b c e : F .f32)
    (ha : a = p (ix1 (⟨4 * m, by omega⟩ : Fin 6272))) (hb : b = p (ix1 (⟨4 * m + 1, by omega⟩ : Fin 6272)))
    (hc : c = p (ix1 (⟨4 * m + 2, by omega⟩ : Fin 6272))) (he : e = p (ix1 (⟨4 * m + 3, by omega⟩ : Fin 6272))) :
    FloatOps.addf (FloatOps.addf (FloatOps.addf (FloatOps.mulf a (sd16 (ix1 (1 : Fin 16)))) (FloatOps.mulf b (sd16 (ix1 (2 : Fin 16)))))
        (FloatOps.mulf c (sd16 (ix1 (3 : Fin 16))))) (FloatOps.mulf e (sd16 (ix1 (4 : Fin 16))))
      = decayed sd16 p m hm := by
  subst ha hb hc he; rfl

theorem write_whole_view {κ : Kind} (b : Ref sig κ) (f w : b.ty.Contents (Elt F)) :
    (Memref.whole b).view.write (Elt F) f w Finset.univ = w := View.write_whole_univ b f w

theorem loadIdx_sd' (f : Vec F S16 .f32) (v : IVec S16 32) (r : Fin 16) (hv : ∀ x, (v x).toNat = r.val)
    (h : ∀ a x, ((![v] : Fin 1 → IVec S16 32) a x).toNat < S16.size a) :
    loadIdx (((sSd).access (.whole S16)).read (Elt F) f) ![v] h = sdSplat f r := by
  funext x
  show f ((Rect.whole S16).emb (idxAt ![v] h x)) = f (ix1 r)
  congr 1
  funext a
  have ha : a = (0 : Fin 1) := Subsingleton.elim (α := Fin 1) a 0
  subst ha
  apply Fin.ext
  show 0 + 1 * (v x).toNat = r.val
  rw [hv]; omega

end Cert.Proof.Tile
-- ==== Proof.TilePrologue.lean ====
import proofs.«215744_g19043884990565_cont_8to1_1279_72_alg».proof.Proof.TileInit
import proofs.«215744_g19043884990565_cont_8to1_1279_72_alg».proof.Proof.TileProloguePure
import proofs.«215744_g19043884990565_cont_8to1_1279_72_alg».proof.Proof.Gen.KernelIdeal
import proofs.«215744_g19043884990565_cont_8to1_1279_72_alg».proof.Proof.Gen.KernelIdeal.Skeleton
import Idealize.ShloMosaic.Lib.SparseCore.Ops
import Idealize.ShloMosaic.Lib.SparseCore.Cells
import Idealize.ShloMosaic.Lib.Transfers
import Idealize.ShloMosaic.Lib.Tactic
import Idealize.ShloMosaic.Lib.ValueIdx

noncomputable section

namespace Cert.Proof.Tile

open Cert.KernelIdeal Cert.KernelIdeal.Gen

open Idealize.ShloMosaic
open Idealize.ShloMosaic.SparseCore (V)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic
open Idealize.ShloMosaic.ValueIdx

variable {F : FTy → Type}

section Pure
variable [FloatOps F]

set_option quotPrecheck false
local notation "sAcc" => (Memref.whole cc1_scratch1 : Memref sig Kind.scVector .vmem S50176 EltTy.f32)
local notation "sPsc" => (Memref.whole cc1_scratch9 : Memref sig Kind.scVector .vmem S6272 EltTy.f32)

theorem k1_t1_trips : k1_t1_loop.trips = 3136 := by decide
theorem k1_t2_trips : k1_t2_loop.trips = 98 := by decide

theorem zeroTo_step (k : Fin k1_t1_loop.trips) (f : Vec F S50176 .f32) :
    (sAcc).view.writes (Elt F) (zeroTo k.val f) [⟨Rect.unit (s := S50176) (k1_off2 k) S16.size (k1_off2_inb k), k1_pay104⟩]
      = zeroTo (k.val + 1) f := by
  funext n
  rw [write16_apply (k1_off2 k) (k1_off2_inb k) (16 * k.val) (by rw [k1_off2_eq]; rfl)]
  have hn : (n 0 : Fin 50176).val < 50176 := (n 0).isLt
  by_cases h : 16 * k.val ≤ (n 0 : Fin 50176).val ∧ (n 0 : Fin 50176).val < 16 * k.val + 16
  · rw [dif_pos h]
    simp only [zeroTo]
    rw [if_pos (by omega)]
    rfl
  · rw [dif_neg h]
    simp only [zeroTo]
    by_cases h2 : (n 0 : Fin 50176).val < 16 * k.val
    · rw [if_pos h2, if_pos (by omega)]
    · rw [if_neg h2, if_neg (by omega)]

theorem pay_toNat (k : Fin k1_t2_loop.trips) (x : S16.Idx) :
    (k1_pay106 k1_pay105 k x).toNat = 64 * k.val + 4 * (x 0 : Fin 16).val
      ∧ (k1_pay107 k1_pay105 k x).toNat = 64 * k.val + 4 * (x 0 : Fin 16).val + 1
      ∧ (k1_pay108 k1_pay105 k x).toNat = 64 * k.val + 4 * (x 0 : Fin 16).val + 2
      ∧ (k1_pay109 k1_pay105 k x).toNat = 64 * k.val + 4 * (x 0 : Fin 16).val + 3 := by
  have hk : k.val < 98 := lt_of_lt_of_eq k.isLt k1_t2_trips
  have hx : (x 0 : Fin 16).val < 16 := (x 0).isLt
  simp [k1_pay106, k1_pay107, k1_pay108, k1_pay109, k1_pay105, addi, muli, broadcast, iota, IntOp.addi, IntOp.muli, Scalar.addi,
    Scalar.muli, Scf.iv, BitVec.toNat_add, BitVec.toNat_mul, BitVec.toNat_ofNat]
  omega

/-- The four index vectors of a trip stay inside the tile's 6272 current words. -/
theorem chk_ok (k : Fin k1_t2_loop.trips) : k1_chk5 (k1_pay106 k1_pay105 k) ∧ k1_chk6 (k1_pay107 k1_pay105 k)
    ∧ k1_chk7 (k1_pay108 k1_pay105 k) ∧ k1_chk8 (k1_pay109 k1_pay105 k) := by
  have hk : k.val < 98 := lt_of_lt_of_eq k.isLt k1_t2_trips
  refine ⟨?_, ?_, ?_, ?_⟩ <;> intro a x <;> obtain rfl := Fin.eq_zero a <;>
    have hx : (x 0 : Fin 16).val < 16 := (x 0).isLt <;> have e := pay_toNat k x
  · show (k1_pay106 k1_pay105 k x).toNat < 6272; omega
  · show (k1_pay107 k1_pay105 k x).toNat < 6272; omega
  · show (k1_pay108 k1_pay105 k x).toNat < 6272; omega
  · show (k1_pay109 k1_pay105 k x).toNat < 6272; omega

theorem accPart_step (i : grid1.Coords) (k : Fin k1_t2_loop.trips) (sd16 : Vec F S16 .f32) (pscpad : Vec F S1x200704 .f32)
    (h5 : ∀ a x, ((![k1_pay106 k1_pay105 k] : Fin 1 → IVec S16 32) a x).toNat < S6272.size a)
    (h6 : ∀ a x, ((![k1_pay107 k1_pay105 k] : Fin 1 → IVec S16 32) a x).toNat < S6272.size a)
    (h7 : ∀ a x, ((![k1_pay108 k1_pay105 k] : Fin 1 → IVec S16 32) a x).toNat < S6272.size a)
    (h8 : ∀ a x, ((![k1_pay109 k1_pay105 k] : Fin 1 → IVec S16 32) a x).toNat < S6272.size a) :
    (sAcc).view.writes (Elt F) (accPart sd16 pscpad (widOf i) k.val)
        [⟨Rect.unit (s := S50176) (k1_off3 i k) S16.size (k1_off3_inb i k),
          k1_pay110 (sdSplat sd16 1) (sdSplat sd16 2) (sdSplat sd16 3) (sdSplat sd16 4)
            (loadIdx (((sPsc).access (.whole S6272)).read (Elt F) (pscSlice pscpad (widOf i))) ![k1_pay106 k1_pay105 k] h5)
            (loadIdx (((sPsc).access (.whole S6272)).read (Elt F) (pscSlice pscpad (widOf i))) ![k1_pay107 k1_pay105 k] h6)
            (loadIdx (((sPsc).access (.whole S6272)).read (Elt F) (pscSlice pscpad (widOf i))) ![k1_pay108 k1_pay105 k] h7)
            (loadIdx (((sPsc).access (.whole S6272)).read (Elt F) (pscSlice pscpad (widOf i))) ![k1_pay109 k1_pay105 k] h8)⟩]
      = accPart sd16 pscpad (widOf i) (k.val + 1) := by
  have hk : k.val < 98 := lt_of_lt_of_eq k.isLt k1_t2_trips
  have hw : (widOf i).val < 32 := (widOf i).isLt
  funext n
  have hn : (n 0 : Fin 50176).val < 50176 := (n 0).isLt
  rw [write16_apply (k1_off3 i k) (k1_off3_inb i k) ((widOf i).val * 1568 + 16 * k.val)
    (by rw [k1_off3_eq, widOf_val]; show 3136 * (i 1).val + 1568 * (i 0).val + 16 * k.val = _; omega)]
  by_cases h : (widOf i).val * 1568 + 16 * k.val ≤ (n 0 : Fin 50176).val
      ∧ (n 0 : Fin 50176).val < (widOf i).val * 1568 + 16 * k.val + 16
  · rw [dif_pos h]
    unfold accPart
    rw [dif_pos ⟨by omega, by omega, by omega⟩]
    refine decayed_of sd16 (pscSlice pscpad (widOf i)) _ _ _ _ _ _ ?_ ?_ ?_ ?_
    · exact loadIdx_psc _ _ h5 _ _ _ (by rw [(pay_toNat k _).1]; show 64 * k.val + 4 * ((n 0 : Fin 50176).val - ((widOf i).val * 1568 + 16 * k.val)) = _; omega)
    · exact loadIdx_psc _ _ h6 _ _ _ (by rw [(pay_toNat k _).2.1]; show 64 * k.val + 4 * ((n 0 : Fin 50176).val - ((widOf i).val * 1568 + 16 * k.val)) + 1 = _; omega)
    · exact loadIdx_psc _ _ h7 _ _ _ (by rw [(pay_toNat k _).2.2.1]; show 64 * k.val + 4 * ((n 0 : Fin 50176).val - ((widOf i).val * 1568 + 16 * k.val)) + 2 = _; omega)
    · exact loadIdx_psc _ _ h8 _ _ _ (by rw [(pay_toNat k _).2.2.2]; show 64 * k.val + 4 * ((n 0 : Fin 50176).val - ((widOf i).val * 1568 + 16 * k.val)) + 3 = _; omega)
  · rw [dif_neg h]
    unfold accPart
    by_cases h2 : (widOf i).val * 1568 ≤ (n 0 : Fin 50176).val ∧ (n 0 : Fin 50176).val < (widOf i).val * 1568 + 1568
        ∧ (n 0 : Fin 50176).val < (widOf i).val * 1568 + 16 * k.val
    · rw [dif_pos h2, dif_pos ⟨h2.1, h2.2.1, by omega⟩]
    · rw [dif_neg h2, dif_neg (fun hh => h2 ⟨hh.1, hh.2.1, by omega⟩)]

end Pure

section Tile

variable [FloatOps F]
variable {U : Type} [URA U] [CountersIn U]
variable (d : Dev nD) (i : grid1.Coords)

local notation "𝕄" => MT nD τ sig (HIx 1) (Elt F) ℕ U ℕ

set_option quotPrecheck false
local notation "aPk" => (Memref.whole main_v8_scv : Memref sig Kind.scVector .hbm S1x8192 EltTy.i32)
local notation "aPi" => (Memref.whole main_v4_scv : Memref sig Kind.scVector .hbm S16 EltTy.f32)
local notation "aPsc" => (Memref.whole main_v6_scv : Memref sig Kind.scVector .hbm S1x200704 EltTy.f32)
local notation "aSd" => (Memref.whole main_v5_scv : Memref sig Kind.scVector .hbm S16 EltTy.f32)
local notation "sPk" => (Memref.whole cc1_scratch0 : Memref sig Kind.scVector .vmem S8192 EltTy.i32)
local notation "sAcc" => (Memref.whole cc1_scratch1 : Memref sig Kind.scVector .vmem S50176 EltTy.f32)
local notation "sPi" => (Memref.whole cc1_scratch8 : Memref sig Kind.scVector .vmem S16 EltTy.f32)
local notation "sPsc" => (Memref.whole cc1_scratch9 : Memref sig Kind.scVector .vmem S6272 EltTy.f32)
local notation "sSd" => (Memref.whole cc1_scratch10 : Memref sig Kind.scVector .vmem S16 EltTy.f32)

abbrev tthr : Thread nD τ := V d ((i 0).castLE hcore1) ((i 1).castLE hsub1)

def hbmIn (q2 q6 q7 q8 : PosShare TreeShare) (Pk : Vec F S1x8192 .i32) (pi16 sd16 : Vec F S16 .f32)
    (pscpad : Vec F S1x200704 .f32) : sProp (MT nD τ sig (HIx 1) (Elt F) ℕ U ℕ) :=
  iprop(((aPk).view.loc (tthr d i) ↦{q2} Pk) ∗ ((aPi).view.loc (tthr d i) ↦{q6} pi16)
    ∗ ((aPsc).view.loc (tthr d i) ↦{q7} pscpad) ∗ ((aSd).view.loc (tthr d i) ↦{q8} sd16))

def sems0 : sProp (MT nD τ sig (HIx 1) (Elt F) ℕ U ℕ) :=
  iprop(semVal (tthr d i, SemLoc.dma cc1_scoped0.sem) 0 ∗ semVal (tthr d i, SemLoc.dma cc1_scoped1.sem) 0
    ∗ semVal (tthr d i, SemLoc.dma cc1_scoped2.sem) 0 ∗ semVal (tthr d i, SemLoc.dma cc1_scoped3.sem) 0)

def scratch (f10 : Vec F S8192 .i32) (f11 : Vec F S50176 .f32) (f18 : Vec F S16 .f32) (f19 : Vec F S6272 .f32)
    (f20 : Vec F S16 .f32) : sProp (MT nD τ sig (HIx 1) (Elt F) ℕ U ℕ) :=
  iprop(((sPk).view.loc (tthr d i) ↦{fullShare} f10) ∗ ((sAcc).view.loc (tthr d i) ↦{fullShare} f11)
    ∗ ((sPi).view.loc (tthr d i) ↦{fullShare} f18) ∗ ((sPsc).view.loc (tthr d i) ↦{fullShare} f19)
    ∗ ((sSd).view.loc (tthr d i) ↦{fullShare} f20))

def inv1 (f11 : Vec F S50176 .f32) (k : Nat) (_ : Unit) : sProp (MT nD τ sig (HIx 1) (Elt F) ℕ U ℕ) :=
  iprop((sAcc).view.loc (tthr d i) ↦{fullShare} zeroTo k f11)

def inv2 (sd16 : Vec F S16 .f32) (pscpad : Vec F S1x200704 .f32) (k : Nat) (_ : Unit) : sProp (MT nD τ sig (HIx 1) (Elt F) ℕ U ℕ) :=
  iprop(((sAcc).view.loc (tthr d i) ↦{fullShare} accPart sd16 pscpad (widOf i) k)
    ∗ (((sPsc).access (.whole S6272)).loc (tthr d i) ↦{fullShare} pscSlice pscpad (widOf i))
    ∗ (((sSd).access (.whole S16)).loc (tthr d i) ↦{fullShare} sd16))

theorem wp_loadSd {α : Type} (v : IVec S16 32) (r : Fin 16) (hv : ∀ x, (v x).toNat = r.val) (sd16 : Vec F S16 .f32)
    {h : ∀ a x, ((![v] : Fin 1 → IVec S16 32) a x).toNat < S16.size a} {hl : (sSd).view.Loads}
    {k : Vec F S16 .f32 → Prog (TpuEff nD τ sig (Elt F) Λ₀ (.scVector ((i 0).castLE hcore1) ((i 1).castLE hsub1))) α}
    {Q : α → sProp (MT nD τ sig (HIx 1) (Elt F) ℕ U ℕ)} :
    (((sSd).access (.whole S16)).loc (tthr d i) ↦{fullShare} sd16)
      ⊢ iprop(((((sSd).access (.whole S16)).loc (tthr d i) ↦{fullShare} sd16)
          -∗ wp frame (wpE (defs₀ (F := F)) Variants.none (tthr d i) none) Set.univ (k (sdSplat sd16 r)) Q)
        -∗ wp frame (wpE (defs₀ (F := F)) Variants.none (tthr d i) none) Set.univ (SparseCore.vectorLoadIdx sSd ![v] h hl >>= k) Q) := by
  rw [← loadIdx_sd' sd16 v r hv h]
  exact SparseCore.wp_vectorLoadIdx Variants.none (tthr d i) none Set.univ (base := sSd) (S := Finset.univ) (q := fullShare)
    (Finset.subset_univ _)

theorem wp_part11 (O : CellTallies nD τ sig (HIx 1)) (W : Waits sig (HIx 1)) (q2 q6 q7 q8 : PosShare TreeShare)
    (Pk : Vec F S1x8192 .i32) (pi16 sd16 : Vec F S16 .f32) (pscpad : Vec F S1x200704 .f32)
    (f10 : Vec F S8192 .i32) (f11 : Vec F S50176 .f32) (f18 : Vec F S16 .f32) (f19 : Vec F S6272 .f32) (f20 : Vec F S16 .f32) :
    iprop(Transfers.MayWaits (tthr d i) (none : HIx 1) O ∗ hbmIn d i q2 q6 q7 q8 Pk pi16 sd16 pscpad
        ∗ scratch d i f10 f11 f18 f19 f20 ∗ sems0 d i ∗ owes (tthr d i) O W)
      ⊢ wp frame (wpE (defs₀ (F := F)) Variants.none (tthr d i) none) Set.univ
          (k1_part11 i (Memref.whole main_v8_scv) (Memref.isWhole_whole _) (Memref.whole main_v1_scv) (Memref.isWhole_whole _) (Memref.whole main_v3_scv) (Memref.isWhole_whole _) (Memref.whole main_arg6_scv) (Memref.isWhole_whole _) (Memref.whole main_v4_scv) (Memref.isWhole_whole _) (Memref.whole main_v6_scv) (Memref.isWhole_whole _) (Memref.whole main_v5_scv) (Memref.isWhole_whole _) (Memref.whole main_v9_scv) (Memref.isWhole_whole _) (Memref.whole cc1_scratch0) (Memref.isWhole_whole _) (Memref.whole cc1_scratch1) (Memref.isWhole_whole _) (Memref.whole cc1_scratch2) (Memref.isWhole_whole _) (Memref.whole cc1_scratch3) (Memref.isWhole_whole _) (Memref.whole cc1_scratch4) (Memref.isWhole_whole _) (Memref.whole cc1_scratch5) (Memref.isWhole_whole _) (Memref.whole cc1_scratch6) (Memref.isWhole_whole _) (Memref.whole cc1_scratch7) (Memref.isWhole_whole _) (Memref.whole cc1_scratch8) (Memref.isWhole_whole _) (Memref.whole cc1_scratch9) (Memref.isWhole_whole _) (Memref.whole cc1_scratch10) (Memref.isWhole_whole _) cc1_scratch11 cc1_scratch12 cc1_scoped0 cc1_scoped1 cc1_scoped2 cc1_scoped3 cc1_scoped4)
          fun r => (iprop(⌜r = ⟨widWord i, k1_pay105, sdSplat sd16 1, sdSplat sd16 2, 3#32⟩⌝
            ∗ hbmIn d i q2 q6 q7 q8 Pk pi16 sd16 pscpad
            ∗ scratch d i (pkRow Pk) accZero pi16 (pscSlice pscpad (widOf i)) sd16 ∗ sems0 d i
            ∗ ∃ W', ⌜∀ p ∈ W', p ∈ W ∨ p.2 = none⌝ ∗ owes (tthr d i) O W') : sProp 𝕄) := by
  rw [k1_part11_eq_skeleton]; unfold k1_part11_skel
  unfold hbmIn scratch sems0
  iintro ⟨#Hmw, ⟨HPk, HPi, HPsc, HSd⟩, ⟨H10, H11, H18, H19, H20⟩, ⟨Hs0, Hs1, Hs2, Hs3⟩, HO⟩
  sl_exec
  sl_for (inv1 d i f11) $$ [H11]
  case region =>
    intro k _
    unfold inv1
    iintro H11
    sl_exec
    rw [zeroTo_step, wp_ret]; imodintro
    iexact H11
  · unfold inv1
    rw [zeroTo_zero]
    iexact H11
  iintro %_ HI
  unfold inv1
  rw [show Scf.trips k1_t1_loop.lb k1_t1_loop.ub k1_t1_loop.st = 3136 from k1_t1_trips, zeroTo_all]
  sl_exec
  have e10 : wp_part11.sl.dma0 Pk = pkRow Pk := read_pk _ _ _ Pk
  have e18 : wp_part11.sl.dma0_1 pi16 = pi16 := rfl
  have e20 : wp_part11.sl.dma0_2 sd16 = sd16 := rfl
  have e19 : wp_part11.sl.dma0_3 i pscpad = pscSlice pscpad (widOf i) := read_psc (k1_off1 i) _ _ _ pscpad (widOf i) (by rw [k1_off1_eq]; rfl)
    (by rw [k1_off1_eq, widOf_val]; show 12544 * (i 1).val + 6272 * (i 0).val = _; omega)
  have e1 : wp_part11.sl.v1 i = widWord i := rfl
  rw [write_whole_view, write_whole_view, write_whole_view, write_whole_view, e10, e18, e20, e19, e1]
  ihave H20' := (Entails.of_eq (show (((sSd).view.loc (tthr d i) ↦{fullShare} sd16 : sProp 𝕄))
      = (((sSd).access (.whole S16)).loc (tthr d i) ↦{fullShare} sd16) from rfl)) $$ H20
  iapply (wp_loadSd d i _ 1 ?hv1 sd16) $$ H20'
  case hv1 => intro x; rfl
  iintro H20'
  sl_exec
  iapply (wp_loadSd d i _ 2 ?hv2 sd16) $$ H20'
  case hv2 => intro x; rfl
  iintro H20'
  sl_exec
  rw [wp_ret]; imodintro
  ihave H20 := (Entails.of_eq (show ((((sSd).access (.whole S16)).loc (tthr d i) ↦{fullShare} sd16 : sProp 𝕄))
      = ((sSd).view.loc (tthr d i) ↦{fullShare} sd16) from rfl)) $$ H20'
  isplitr
  · ipureintro; rfl
  iframe HPk HPi HPsc HSd H10 HI H18 H19 H20
  isplitl [Hs0 Hs1 Hs2 Hs3]
  · isplitl [Hs0]; · iexact Hs0
    isplitl [Hs1]; · iexact Hs1
    isplitl [Hs2]; · iexact Hs2
    iexact Hs3
  iexists (insert (SemLoc.dma cc1_scoped3.sem, (none : HIx 1)) (insert (SemLoc.dma cc1_scoped2.sem, (none : HIx 1))
    (insert (SemLoc.dma cc1_scoped1.sem, (none : HIx 1)) (insert (SemLoc.dma cc1_scoped0.sem, (none : HIx 1)) W))))
  isplitr
  · ipureintro
    intro p hp
    simp only [Finset.mem_insert] at hp
    rcases hp with rfl | rfl | rfl | rfl | hp
    exacts [.inr rfl, .inr rfl, .inr rfl, .inr rfl, .inl hp]
  · iexact HO

abbrev part12Head {α : Type} (v1 : BitVec 32) (v8 : IVec S16 32) (v10 v12 : Vec F S16 .f32) (c3_i32 : BitVec 32)
    (k : Unit → Prog (TpuEff nD τ sig (Elt F) Λ₀ (.scVector ((i 0).castLE hcore1) ((i 1).castLE hsub1))) α) :
    Prog (TpuEff nD τ sig (Elt F) Λ₀ (.scVector ((i 0).castLE hcore1) ((i 1).castLE hsub1))) α := do
  have v13 : IVec S16 32 := broadcast S16 c3_i32
  have k1_hw3 : k1_chk3 v13 := (← Prog.lift (TpuEff.assume (k1_chk3 v13) (k1_chk3.dec v13))).down
  let v14 : Vec F S16 .f32 ← SparseCore.vectorLoadIdx sSd ![v13] (k1_idx3_inb v13 k1_hw3) (View.loads_vmem h_S16)
  have v15 : IVec S16 32 := broadcast S16 4#32
  have k1_hw4 : k1_chk4 v15 := (← Prog.lift (TpuEff.assume (k1_chk4 v15) (k1_chk4.dec v15))).down
  let v16 : Vec F S16 .f32 ← SparseCore.vectorLoadIdx sSd ![v15] (k1_idx4_inb v15 k1_hw4) (View.loads_vmem h_S16)
  let u ← Scf.Loop.for k1_t2_loop k1_t2_ok ⟨⟩ (k1_t2_body i (Memref.whole main_v8_scv) (Memref.isWhole_whole _) (Memref.whole main_v1_scv) (Memref.isWhole_whole _) (Memref.whole main_v3_scv) (Memref.isWhole_whole _) (Memref.whole main_arg6_scv) (Memref.isWhole_whole _) (Memref.whole main_v4_scv) (Memref.isWhole_whole _) (Memref.whole main_v6_scv) (Memref.isWhole_whole _) (Memref.whole main_v5_scv) (Memref.isWhole_whole _) (Memref.whole main_v9_scv) (Memref.isWhole_whole _) (Memref.whole cc1_scratch0) (Memref.isWhole_whole _) (Memref.whole cc1_scratch1) (Memref.isWhole_whole _) (Memref.whole cc1_scratch2) (Memref.isWhole_whole _) (Memref.whole cc1_scratch3) (Memref.isWhole_whole _) (Memref.whole cc1_scratch4) (Memref.isWhole_whole _) (Memref.whole cc1_scratch5) (Memref.isWhole_whole _) (Memref.whole cc1_scratch6) (Memref.isWhole_whole _) (Memref.whole cc1_scratch7) (Memref.isWhole_whole _) (Memref.whole cc1_scratch8) (Memref.isWhole_whole _) (Memref.whole cc1_scratch9) (Memref.isWhole_whole _) (Memref.whole cc1_scratch10) (Memref.isWhole_whole _) cc1_scratch11 cc1_scratch12 cc1_scoped0 cc1_scoped1 cc1_scoped2 cc1_scoped3 cc1_scoped4 v1 v8 v10 v12 c3_i32 v14 v16)
  k u

theorem wp_part12Head {α : Type} (k : Unit → Prog (TpuEff nD τ sig (Elt F) Λ₀ (.scVector ((i 0).castLE hcore1) ((i 1).castLE hsub1))) α)
    (Q : α → sProp (MT nD τ sig (HIx 1) (Elt F) ℕ U ℕ)) (sd16 : Vec F S16 .f32) (pscpad : Vec F S1x200704 .f32) :
    iprop(((sAcc).view.loc (tthr d i) ↦{fullShare} (accZero : Vec F S50176 .f32))
        ∗ ((sPsc).view.loc (tthr d i) ↦{fullShare} pscSlice pscpad (widOf i)) ∗ ((sSd).view.loc (tthr d i) ↦{fullShare} sd16))
      ⊢ iprop((((sAcc).view.loc (tthr d i) ↦{fullShare} accInit sd16 pscpad (widOf i))
            ∗ ((sPsc).view.loc (tthr d i) ↦{fullShare} pscSlice pscpad (widOf i)) ∗ ((sSd).view.loc (tthr d i) ↦{fullShare} sd16)
          -∗ wp frame (wpE (defs₀ (F := F)) Variants.none (tthr d i) none) Set.univ (k ⟨⟩) Q)
        -∗ wp frame (wpE (defs₀ (F := F)) Variants.none (tthr d i) none) Set.univ
            (part12Head i (widWord i) k1_pay105 (sdSplat sd16 1) (sdSplat sd16 2) 3#32 k) Q) := by
  iintro ⟨H11, H19, H20⟩ Hk
  ihave H20' := (Entails.of_eq (show (((sSd).view.loc (tthr d i) ↦{fullShare} sd16 : sProp 𝕄))
      = (((sSd).access (.whole S16)).loc (tthr d i) ↦{fullShare} sd16) from rfl)) $$ H20
  ihave H19' := (Entails.of_eq (show (((sPsc).view.loc (tthr d i) ↦{fullShare} pscSlice pscpad (widOf i) : sProp 𝕄))
      = (((sPsc).access (.whole S6272)).loc (tthr d i) ↦{fullShare} pscSlice pscpad (widOf i)) from rfl)) $$ H19
  sl_exec
  iapply (wp_loadSd d i _ 3 ?hv3 sd16) $$ H20'
  case hv3 => intro x; rfl
  iintro H20'
  sl_exec
  iapply (wp_loadSd d i _ 4 ?hv4 sd16) $$ H20'
  case hv4 => intro x; rfl
  iintro H20'
  sl_for (inv2 d i sd16 pscpad) $$ [H11 H19' H20']
  case region =>
    intro k _
    unfold inv2
    iintro ⟨H11, H19, H20⟩
    obtain ⟨c5, c6, c7, c8⟩ := chk_ok k
    sl_exec
    iterate 4
      iapply (SparseCore.wp_vectorLoadIdx Variants.none (tthr d i) none Set.univ (base := sPsc) (S := Finset.univ) (q := fullShare) (Finset.subset_univ _)) $$ H19; iintro H19
      sl_exec
    ihave H11' := (Entails.of_eq (congrArg (fun (f : Vec F S50176 .f32) => (((sAcc).view.loc (tthr d i) ↦{fullShare} f : sProp 𝕄)))
      (accPart_step i k sd16 pscpad c5 c6 c7 c8))) $$ H11
    rw [wp_ret]; imodintro
    isplitl [H11']; · iexact H11'
    isplitl [H19]; · iexact H19
    iexact H20
  · unfold inv2
    rw [accPart_zero]
    isplitl [H11]; · iexact H11
    isplitl [H19']; · iexact H19'
    iexact H20'
  iintro %_ HI
  unfold inv2
  icases HI with ⟨H11, H19, H20⟩
  rw [show Scf.trips k1_t2_loop.lb k1_t2_loop.ub k1_t2_loop.st = 98 from k1_t2_trips, accPart_all]
  iapply Hk
  isplitl [H11]; · iexact H11
  isplitl [H19]; · iexact H19
  iexact H20

end Tile

end Cert.Proof.Tile

end
-- ==== Proof.TileChunkPure.lean ====
import proofs.«215744_g19043884990565_cont_8to1_1279_72_alg».proof.Proof.TileDefs
import Idealize.ShloMosaic.Lib.WholeRead
import Idealize.ShloMosaic.Lib.Pipeline.FrameBody

noncomputable section

namespace Cert.Proof.Tile

open Cert.KernelIdeal
open Idealize.ShloMosaic

variable {F : FTy → Type} [FloatOps F]

/-- The sixteen-lane step over the chunk's entries `o … o + 15`. -/
def stepAt (packed : Vec F S8192 .i32) (pi : Vec F S16 .f32) (rows cols : Vec F S10000 .i32) (w : Vec F S10000 .f32)
    (o : Nat) (acc : Vec F S50176 .f32) : Vec F S50176 .f32 :=
  if h : o + 16 ≤ 10000 then step16 packed pi (lanes16 rows o h) (lanes16 cols o h) (lanes16 w o h) acc else acc

section Reads

variable {κ : Kind}

omit [FloatOps F] in
theorem readAt_lanes {e : EltTy} {m : Memref sig κ .vmem S10000 e} (hm : m.IsWhole) (X : Vec F S10000 e)
    (off : Fin 1 → Nat) (inb : ∀ a, off a + S16.size a ≤ S10000.size a) (o : Nat) (ho : off = ![o]) (h : o + 16 ≤ 10000) :
    View.readAt (Elt F) m.view (Rect.unit (s := S10000) off S16.size inb).toLoadRect (hm.unread X) = lanes16 X o h := by
  subst ho
  funext x
  exact hm.readAt_unread X _ x

omit [FloatOps F] in
theorem readAt_whole_unread {s : Shape} {e : EltTy} {m : Memref sig κ .vmem s e} (hm : m.IsWhole) (X : Vec F s e) :
    View.readAt (Elt F) m.view (LoadRect.whole s) (hm.unread X) = X := by
  funext x
  rw [hm.readAt_unread X (LoadRect.whole s) x, LoadRect.idx_whole]

omit [FloatOps F] in
theorem read_writes_whole_cons {sp : Space} {s : Shape} {e : EltTy} (v : View sig κ sp s e) (f : v.ty.Contents (Elt F))
    (x : s.Idx → Elt F e) (L : List (View.Piece (Elt F) s e)) :
    v.read (Elt F) (v.writes (Elt F) f (⟨Rect.whole s, x⟩ :: L)) = x := by
  funext y
  have h := View.read_writes_cons_emb v f (Rect.whole s) x L y
  rwa [Rect.emb_whole_apply] at h

/-- A whole read straight after a whole store reads what was stored. -/
theorem readCov_whole {sp : Space} {v : View sig κ sp S50176 .f32} {x X : Vec F S50176 .f32}
    {L : List (View.Piece (Elt F) S50176 .f32)} (hx : x = X) :
    v.readCov (⟨Rect.whole S50176, x⟩ :: L) (Rect.whole S50176).toLoadRect = X :=
  (View.readCov_cons_toLoadRect v (Rect.whole S50176) x L).trans hx

omit [FloatOps F] in
theorem rowsOK_readAt {m : Memref sig κ .vmem S10000 .i32} (hm : m.IsWhole) (rows : Vec F S10000 .i32)
    (hrows : ∀ x, (rows x).toNat ≤ 199999) (off : Fin 1 → Nat) (inb : ∀ a, off a + S16.size a ≤ S10000.size a) :
    RowsOK (View.readAt (Elt F) m.view (Rect.unit (s := S10000) off S16.size inb).toLoadRect (hm.unread rows)) :=
  rowsOK_of_le _ fun x => by rw [hm.readAt_unread]; exact hrows _

/-- The scatter-add written over the loads themselves, onto an accumulator that is `X`, is the step at `o` of `X`. -/
theorem step_spelled {mP : Memref sig κ .vmem S8192 .i32} {hP : mP.IsWhole} {mC : Memref sig κ .vmem S10000 .i32} {hC : mC.IsWhole}
    {mR : Memref sig κ .vmem S10000 .i32} {hR : mR.IsWhole} {mW : Memref sig κ .vmem S10000 .f32} {hW : mW.IsWhole}
    {mPi : Memref sig κ .vmem S16 .f32} {hPi : mPi.IsWhole}
    {packed : Vec F S8192 .i32} {pi : Vec F S16 .f32} {rows cols : Vec F S10000 .i32} {w : Vec F S10000 .f32}
    (hrows : ∀ x, (rows x).toNat ≤ 199999)
    {offR offW : Fin 1 → Nat} {inbR : ∀ a, offR a + S16.size a ≤ S10000.size a} {inbW : ∀ a, offW a + S16.size a ≤ S10000.size a}
    {o : Nat} (hoR : offR = ![o]) (hoW : offW = ![o]) (h : o + 16 ≤ 10000) {prev X : Vec F S50176 .f32} (hprev : prev = X)
    {h1 : ∀ a x, ((![andi (View.readAt (Elt F) mC.view (Rect.unit (s := S10000) offR S16.size inbR).toLoadRect (hC.unread cols)) (broadcast S16 8191#32)] : Fin 1 → IVec S16 32) a x).toNat < S8192.size a}
    {h2 : ∀ a x, ((![andi (View.readAt (Elt F) mR.view (Rect.unit (s := S10000) offR S16.size inbR).toLoadRect (hR.unread rows)) (broadcast S16 3#32)] : Fin 1 → IVec S16 32) a x).toNat < S16.size a}
    {h3 : ∀ a x, ((![shrui (View.readAt (Elt F) mR.view (Rect.unit (s := S10000) offR S16.size inbR).toLoadRect (hR.unread rows)) (broadcast S16 2#32)] : Fin 1 → IVec S16 32) a x).toNat < S50176.size a} :
    storeIdx prev ![shrui (View.readAt (Elt F) mR.view (Rect.unit (s := S10000) offR S16.size inbR).toLoadRect (hR.unread rows)) (broadcast S16 2#32)]
        (mulf (View.readAt (Elt F) mW.view (Rect.unit (s := S10000) offW S16.size inbW).toLoadRect (hW.unread w))
          (loadIdx (View.readAt (Elt F) mPi.view (LoadRect.whole S16) (hPi.unread pi)) ![andi (View.readAt (Elt F) mR.view (Rect.unit (s := S10000) offR S16.size inbR).toLoadRect (hR.unread rows)) (broadcast S16 3#32)] h2))
        (cmpi .eq
          (andi (shrui (loadIdx (View.readAt (Elt F) mP.view (LoadRect.whole S8192) (hP.unread packed)) ![andi (View.readAt (Elt F) mC.view (Rect.unit (s := S10000) offR S16.size inbR).toLoadRect (hC.unread cols)) (broadcast S16 8191#32)] h1)
            (shrui (View.readAt (Elt F) mC.view (Rect.unit (s := S10000) offR S16.size inbR).toLoadRect (hC.unread cols)) (broadcast S16 13#32)))
            (broadcast S16 1#32))
          (broadcast S16 1#32))
        true h3
      = stepAt packed pi rows cols w o X := by
  subst hprev
  have eR := readAt_lanes hR rows offR inbR o hoR h
  have eC := readAt_lanes hC cols offR inbR o hoR h
  have eW := readAt_lanes hW w offW inbW o hoW h
  have eP := readAt_whole_unread hP packed
  have ePi := readAt_whole_unread hPi pi
  revert h1 h2 h3
  rw [eR, eC, eW, eP, ePi]
  intro h1 h2 h3
  unfold stepAt
  rw [dif_pos h]
  unfold step16
  rw [dif_pos (show RowsOK (lanes16 rows o h) from h3)]

end Reads

theorem stepFold_succ (packed : Vec F S8192 .i32) (pi : Vec F S16 .f32) (rows cols : Vec F S10000 .i32) (w : Vec F S10000 .f32)
    (j : Nat) (acc : Vec F S50176 .f32) :
    stepFold packed pi rows cols w (j + 1) acc = stepAt packed pi rows cols w (16 * j) (stepFold packed pi rows cols w j acc) := by
  unfold stepAt
  rw [stepFold]

/-- One trip is five steps, over entries `80 k … 80 k + 79`. -/
theorem chunkFold_trip (k : Nat) (packed : Vec F S8192 .i32) (pi : Vec F S16 .f32) (rows cols : Vec F S10000 .i32) (w : Vec F S10000 .f32)
    (acc : Vec F S50176 .f32) :
    chunkFold (k + 1) packed pi rows cols w acc
      = stepAt packed pi rows cols w (80 * k + 64) (stepAt packed pi rows cols w (80 * k + 48) (stepAt packed pi rows cols w (80 * k + 32)
          (stepAt packed pi rows cols w (80 * k + 16) (stepAt packed pi rows cols w (80 * k) (chunkFold k packed pi rows cols w acc))))) := by
  unfold chunkFold
  rw [show 5 * (k + 1) = 5 * k + 4 + 1 from by omega, show 80 * k + 64 = 16 * (5 * k + 4) from by omega,
    show 80 * k + 48 = 16 * (5 * k + 3) from by omega, show 80 * k + 32 = 16 * (5 * k + 2) from by omega,
    show 80 * k + 16 = 16 * (5 * k + 1) from by omega, show 80 * k = 16 * (5 * k) from by omega,
    stepFold_succ _ _ _ _ _ (5 * k + 4), stepFold_succ _ _ _ _ _ (5 * k + 3), stepFold_succ _ _ _ _ _ (5 * k + 2),
    stepFold_succ _ _ _ _ _ (5 * k + 1), stepFold_succ _ _ _ _ _ (5 * k)]

end Cert.Proof.Tile
-- ==== Proof.TileChunk.lean ====
import proofs.«215744_g19043884990565_cont_8to1_1279_72_alg».proof.Proof.TileDefs
import proofs.«215744_g19043884990565_cont_8to1_1279_72_alg».proof.Proof.TileChunkPure
import proofs.«215744_g19043884990565_cont_8to1_1279_72_alg».proof.Proof.Gen.KernelIdeal
import proofs.«215744_g19043884990565_cont_8to1_1279_72_alg».proof.Proof.Gen.KernelIdeal.Skeleton
import Idealize.ShloMosaic.Lib.SparseCore.Ops
import Idealize.ShloMosaic.Lib.WholeRead
import Idealize.ShloMosaic.Lib.Tactic

noncomputable section

namespace Cert.Proof.Tile

open Cert.KernelIdeal Cert.KernelIdeal.Gen
open Idealize.ShloMosaic
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

section Loop

variable {Ix : Type} [DecidableEq Ix] {Name : Type} [DecidableEq Name] {U : Type} [URA U] {Lvl : Type} [Preorder Lvl]
variable {defs : Defs nD τ sig (Elt F) Λ₀} (𝒱 : Variants) (d : Dev nD) (bd : Option 𝒱.V) (E : Set Name)

abbrev thr (d : Dev nD) (i : grid1.Coords) : Thread nD τ :=
  (d, .scVector ((i 0).castLE Facts₀.hcore1) ((i 1).castLE Facts₀.hsub1))

omit [FloatOps F] in
theorem pointsTo_unread_of_read (c : Thread nD τ) {s : Shape} {e : EltTy} {m : Memref sig c.2.kind .vmem s e} (hm : m.IsWhole)
    (f : m.view.ty.Contents (Elt F)) (X : Vec F s e) (h : m.view.read (Elt F) f = X) :
    (m.view.loc c ↦[m.view.set]{fullShare} f : sProp (MT nD τ sig Ix (Elt F) Name U Lvl)) ⊢ (m.view.loc c ↦[m.view.set]{fullShare} hm.unread X) := by
  rw [hm.eq_unread h]

abbrev Held (d : Dev nD) (i : grid1.Coords)
    (mP : Memref sig .scVector .vmem S8192 .i32) (hP : mP.IsWhole) (mA : Memref sig .scVector .vmem S50176 .f32) (hA : mA.IsWhole)
    (mC : Memref sig .scVector .vmem S10000 .i32) (hC : mC.IsWhole) (mR : Memref sig .scVector .vmem S10000 .i32) (hR : mR.IsWhole)
    (mW : Memref sig .scVector .vmem S10000 .f32) (hW : mW.IsWhole) (mPi : Memref sig .scVector .vmem S16 .f32) (hPi : mPi.IsWhole)
    (packed : Vec F S8192 .i32) (pi : Vec F S16 .f32) (rows cols : Vec F S10000 .i32) (w : Vec F S10000 .f32)
    (acc : Vec F S50176 .f32) : sProp (MT nD τ sig Ix (Elt F) Name U Lvl) :=
  iprop((mP.view.loc (thr d i) ↦[mP.view.set]{fullShare} hP.unread packed)
    ∗ (mA.view.loc (thr d i) ↦[mA.view.set]{fullShare} hA.unread acc)
    ∗ (mC.view.loc (thr d i) ↦[mC.view.set]{fullShare} hC.unread cols)
    ∗ (mR.view.loc (thr d i) ↦[mR.view.set]{fullShare} hR.unread rows)
    ∗ (mW.view.loc (thr d i) ↦[mW.view.set]{fullShare} hW.unread w)
    ∗ (mPi.view.loc (thr d i) ↦[mPi.view.set]{fullShare} hPi.unread pi))

/-- A counted loop whose every trip takes the accumulator one trip of the chunk further takes it through all its trips. -/
theorem loop_chunk (i : grid1.Coords)
    {mP : Memref sig .scVector .vmem S8192 .i32} (hP : mP.IsWhole) {mA : Memref sig .scVector .vmem S50176 .f32} (hA : mA.IsWhole)
    {mC : Memref sig .scVector .vmem S10000 .i32} (hC : mC.IsWhole) {mR : Memref sig .scVector .vmem S10000 .i32} (hR : mR.IsWhole)
    {mW : Memref sig .scVector .vmem S10000 .f32} (hW : mW.IsWhole) {mPi : Memref sig .scVector .vmem S16 .f32} (hPi : mPi.IsWhole)
    (packed : Vec F S8192 .i32) (pi : Vec F S16 .f32) (rows cols : Vec F S10000 .i32) (w : Vec F S10000 .f32)
    (acc : Vec F S50176 .f32) {n : Nat} (L : Scf.Loop n) (ok : L.OK)
    (body : Fin L.trips → Unit → Prog (TpuEff nD τ sig (Elt F) Λ₀ (thr d i).2) Unit)
    (trip : ∀ k : Fin L.trips, Held (Ix := Ix) (Name := Name) (U := U) (Lvl := Lvl) d i mP hP mA hA mC hC mR hR mW hW mPi hPi packed pi rows cols w (chunkFold k.val packed pi rows cols w acc)
      ⊢ wp frame (wpE defs 𝒱 (thr d i) bd) E (body k ⟨⟩) fun _ => Held (Ix := Ix) (Name := Name) (U := U) (Lvl := Lvl) d i mP hP mA hA mC hC mR hR mW hW mPi hPi packed pi rows cols w (chunkFold (k.val + 1) packed pi rows cols w acc))
    {α : Type} {kk : Unit → Prog (TpuEff nD τ sig (Elt F) Λ₀ (thr d i).2) α} {Q : α → sProp (MT nD τ sig Ix (Elt F) Name U Lvl)} :
    Held (Ix := Ix) (Name := Name) (U := U) (Lvl := Lvl) d i mP hP mA hA mC hC mR hR mW hW mPi hPi packed pi rows cols w acc
      ⊢ iprop((Held (Ix := Ix) (Name := Name) (U := U) (Lvl := Lvl) d i mP hP mA hA mC hC mR hR mW hW mPi hPi packed pi rows cols w (chunkFold L.trips packed pi rows cols w acc) -∗ wp frame (wpE defs 𝒱 (thr d i) bd) E (kk ⟨⟩) Q)
          -∗ wp frame (wpE defs 𝒱 (thr d i) bd) E (Scf.Loop.for L ok ⟨⟩ body >>= kk) Q) := by
  iintro H Hk
  sl_for (fun n (_ : Unit) => Held (Ix := Ix) (Name := Name) (U := U) (Lvl := Lvl) d i mP hP mA hA mC hC mR hR mW hW mPi hPi packed pi rows cols w (chunkFold n packed pi rows cols w acc)) $$ [H]
  case region => intro k _; exact trip k
  · iexact H
  iintro %_ HI
  iapply Hk
  iexact HI

/-- The first chunk's edge loop takes the accumulator from `acc` to `chunkFold 125 … acc`. -/
theorem loop_t3 (i : grid1.Coords) (arg2 : Memref sig .scVector .hbm S1x8192 .i32) (harg2 : arg2.IsWhole) (arg3 : Memref sig .scVector .hbm S1600000 .i32) (harg3 : arg3.IsWhole) (arg4 : Memref sig .scVector .hbm S1600000 .i32) (harg4 : arg4.IsWhole) (arg5 : Memref sig .scVector .hbm S1600000 .f32) (harg5 : arg5.IsWhole) (arg6 : Memref sig .scVector .hbm S16 .f32) (harg6 : arg6.IsWhole) (arg7 : Memref sig .scVector .hbm S1x200704 .f32) (harg7 : arg7.IsWhole) (arg8 : Memref sig .scVector .hbm S16 .f32) (harg8 : arg8.IsWhole) (arg9 : Memref sig .scVector .hbm S32x50176 .f32) (harg9 : arg9.IsWhole) (arg10 : Memref sig .scVector .vmem S8192 .i32) (harg10 : arg10.IsWhole) (arg11 : Memref sig .scVector .vmem S50176 .f32) (harg11 : arg11.IsWhole) (arg12 : Memref sig .scVector .vmem S10000 .i32) (harg12 : arg12.IsWhole) (arg13 : Memref sig .scVector .vmem S10000 .i32) (harg13 : arg13.IsWhole) (arg14 : Memref sig .scVector .vmem S10000 .i32) (harg14 : arg14.IsWhole) (arg15 : Memref sig .scVector .vmem S10000 .i32) (harg15 : arg15.IsWhole) (arg16 : Memref sig .scVector .vmem S10000 .f32) (harg16 : arg16.IsWhole) (arg17 : Memref sig .scVector .vmem S10000 .f32) (harg17 : arg17.IsWhole) (arg18 : Memref sig .scVector .vmem S16 .f32) (harg18 : arg18.IsWhole) (arg19 : Memref sig .scVector .vmem S6272 .f32) (harg19 : arg19.IsWhole) (arg20 : Memref sig .scVector .vmem S16 .f32) (harg20 : arg20.IsWhole) (arg21 : DmaSems sig S_) (arg22 : DmaSems sig S_) (v91_r0 : DmaSems sig S_) (v91_r1 : DmaSems sig S_) (v91_r2 : DmaSems sig S_) (v91_r3 : DmaSems sig S_) (v91_r4 : DmaSems sig S_) (v1 : BitVec 32) (v8 : IVec S16 32) (v10 : Vec F S16 .f32) (v12 : Vec F S16 .f32) (c3_i32 : BitVec 32)
    (packed : Vec F S8192 .i32) (pi : Vec F S16 .f32) (rows cols : Vec F S10000 .i32) (w : Vec F S10000 .f32)
    (acc : Vec F S50176 .f32) (hrows : ∀ x, (rows x).toNat ≤ 199999)
    {α : Type} {kk : Unit → Prog (TpuEff nD τ sig (Elt F) Λ₀ (thr d i).2) α} {Q : α → sProp (MT nD τ sig Ix (Elt F) Name U Lvl)} :
    (Held (Ix := Ix) (Name := Name) (U := U) (Lvl := Lvl) d i arg10 harg10 arg11 harg11 arg12 harg12 arg14 harg14 arg16 harg16 arg18 harg18 packed pi rows cols w acc)
      ⊢ iprop((Held (Ix := Ix) (Name := Name) (U := U) (Lvl := Lvl) d i arg10 harg10 arg11 harg11 arg12 harg12 arg14 harg14 arg16 harg16 arg18 harg18 packed pi rows cols w (chunkFold 125 packed pi rows cols w acc)
            -∗ wp frame (wpE defs 𝒱 (thr d i) bd) E (kk ⟨⟩) Q)
          -∗ wp frame (wpE defs 𝒱 (thr d i) bd) E
              (Scf.Loop.for k1_t3_loop k1_t3_ok ⟨⟩ (k1_t3_body i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 arg22 v91_r0 v91_r1 v91_r2 v91_r3 v91_r4 v1 v8 v10 v12 c3_i32) >>= kk) Q) := by
  refine loop_chunk 𝒱 d bd E i harg10 harg11 harg12 harg14 harg16 harg18 packed pi rows cols w acc k1_t3_loop k1_t3_ok _ fun k => ?_
  have hk : k.val < 125 := lt_of_lt_of_le k.isLt k1_t3_abs.2.1
  unfold k1_t3_body
  iintro ⟨HP, HA, HC, HR, HW, HPi⟩
  repeat (
    sl_exec (disch := first
    | (show ∀ a x, _ < S8192.size a; exact and8191_inb _)
    | (show ∀ a x, _ < S16.size a; exact and3_inb _)
    | (show ∀ a x, _ < S50176.size a; exact rowsOK_readAt _ rows hrows _ _))
    first | rw [SparseCore.vectorLoadIdx_bind (c := thr d i)] | rw [SparseCore.vectorStoreIdx_bind (c := thr d i)])
  sl_exec
  sl_step
  isplitl [HP]; · iexact HP
  isplitl [HA]
  · iapply (pointsTo_unread_of_read (thr d i) harg11 _ _ ?_) $$ HA
    rw [read_writes_whole_cons, chunkFold_trip]
    sl_unfold_run_names
    refine step_spelled hrows (k1_off13_eq k) (k1_off14_eq k) (by omega) (readCov_whole ?_)
    refine step_spelled hrows (k1_off11_eq k) (k1_off12_eq k) (by omega) (readCov_whole ?_)
    refine step_spelled hrows (k1_off9_eq k) (k1_off10_eq k) (by omega) (readCov_whole ?_)
    refine step_spelled hrows (k1_off7_eq k) (k1_off8_eq k) (by omega) (readCov_whole ?_)
    exact step_spelled hrows (k1_off5_eq k) (k1_off6_eq k) (by omega) (readAt_whole_unread _ _)
  isplitl [HC]; · iexact HC
  isplitl [HR]; · iexact HR
  isplitl [HW]; · iexact HW
  iexact HPi

end Loop

end Cert.Proof.Tile
-- ==== Proof.TileChunkT4.lean ====
import proofs.«215744_g19043884990565_cont_8to1_1279_72_alg».proof.Proof.TileChunk

noncomputable section

namespace Cert.Proof.Tile

open Cert.KernelIdeal Cert.KernelIdeal.Gen
open Idealize.ShloMosaic
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]
variable {Ix : Type} [DecidableEq Ix] {Name : Type} [DecidableEq Name] {U : Type} [URA U] {Lvl : Type} [Preorder Lvl]
variable {defs : Defs nD τ sig (Elt F) Λ₀} (𝒱 : Variants) (d : Dev nD) (bd : Option 𝒱.V) (E : Set Name)

/-- The second chunk's edge loop takes the accumulator from `acc` to `chunkFold 125 … acc`. -/
theorem loop_t4 (i : grid1.Coords) (arg2 : Memref sig .scVector .hbm S1x8192 .i32) (harg2 : arg2.IsWhole) (arg3 : Memref sig .scVector .hbm S1600000 .i32) (harg3 : arg3.IsWhole) (arg4 : Memref sig .scVector .hbm S1600000 .i32) (harg4 : arg4.IsWhole) (arg5 : Memref sig .scVector .hbm S1600000 .f32) (harg5 : arg5.IsWhole) (arg6 : Memref sig .scVector .hbm S16 .f32) (harg6 : arg6.IsWhole) (arg7 : Memref sig .scVector .hbm S1x200704 .f32) (harg7 : arg7.IsWhole) (arg8 : Memref sig .scVector .hbm S16 .f32) (harg8 : arg8.IsWhole) (arg9 : Memref sig .scVector .hbm S32x50176 .f32) (harg9 : arg9.IsWhole) (arg10 : Memref sig .scVector .vmem S8192 .i32) (harg10 : arg10.IsWhole) (arg11 : Memref sig .scVector .vmem S50176 .f32) (harg11 : arg11.IsWhole) (arg12 : Memref sig .scVector .vmem S10000 .i32) (harg12 : arg12.IsWhole) (arg13 : Memref sig .scVector .vmem S10000 .i32) (harg13 : arg13.IsWhole) (arg14 : Memref sig .scVector .vmem S10000 .i32) (harg14 : arg14.IsWhole) (arg15 : Memref sig .scVector .vmem S10000 .i32) (harg15 : arg15.IsWhole) (arg16 : Memref sig .scVector .vmem S10000 .f32) (harg16 : arg16.IsWhole) (arg17 : Memref sig .scVector .vmem S10000 .f32) (harg17 : arg17.IsWhole) (arg18 : Memref sig .scVector .vmem S16 .f32) (harg18 : arg18.IsWhole) (arg19 : Memref sig .scVector .vmem S6272 .f32) (harg19 : arg19.IsWhole) (arg20 : Memref sig .scVector .vmem S16 .f32) (harg20 : arg20.IsWhole) (arg21 : DmaSems sig S_) (arg22 : DmaSems sig S_) (v91_r0 : DmaSems sig S_) (v91_r1 : DmaSems sig S_) (v91_r2 : DmaSems sig S_) (v91_r3 : DmaSems sig S_) (v91_r4 : DmaSems sig S_) (v20 : BitVec 32)
    (packed : Vec F S8192 .i32) (pi : Vec F S16 .f32) (rows cols : Vec F S10000 .i32) (w : Vec F S10000 .f32)
    (acc : Vec F S50176 .f32) (hrows : ∀ x, (rows x).toNat ≤ 199999)
    {α : Type} {kk : Unit → Prog (TpuEff nD τ sig (Elt F) Λ₀ (thr d i).2) α} {Q : α → sProp (MT nD τ sig Ix (Elt F) Name U Lvl)} :
    (Held (Ix := Ix) (Name := Name) (U := U) (Lvl := Lvl) d i arg10 harg10 arg11 harg11 arg13 harg13 arg15 harg15 arg17 harg17 arg18 harg18 packed pi rows cols w acc)
      ⊢ iprop((Held (Ix := Ix) (Name := Name) (U := U) (Lvl := Lvl) d i arg10 harg10 arg11 harg11 arg13 harg13 arg15 harg15 arg17 harg17 arg18 harg18 packed pi rows cols w (chunkFold 125 packed pi rows cols w acc)
            -∗ wp frame (wpE defs 𝒱 (thr d i) bd) E (kk ⟨⟩) Q)
          -∗ wp frame (wpE defs 𝒱 (thr d i) bd) E
              (Scf.Loop.for k1_t4_loop k1_t4_ok ⟨⟩ (k1_t4_body i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 arg22 v91_r0 v91_r1 v91_r2 v91_r3 v91_r4 v20) >>= kk) Q) := by
  refine loop_chunk 𝒱 d bd E i harg10 harg11 harg13 harg15 harg17 harg18 packed pi rows cols w acc k1_t4_loop k1_t4_ok _ fun k => ?_
  have hk : k.val < 125 := lt_of_lt_of_le k.isLt k1_t4_abs.2.1
  unfold k1_t4_body
  iintro ⟨HP, HA, HC, HR, HW, HPi⟩
  repeat (
    sl_exec (disch := first
    | (show ∀ a x, _ < S8192.size a; exact and8191_inb _)
    | (show ∀ a x, _ < S16.size a; exact and3_inb _)
    | (show ∀ a x, _ < S50176.size a; exact rowsOK_readAt _ rows hrows _ _))
    first | rw [SparseCore.vectorLoadIdx_bind (c := thr d i)] | rw [SparseCore.vectorStoreIdx_bind (c := thr d i)])
  sl_exec
  sl_step
  isplitl [HP]; · iexact HP
  isplitl [HA]
  · iapply (pointsTo_unread_of_read (thr d i) harg11 _ _ ?_) $$ HA
    rw [read_writes_whole_cons, chunkFold_trip]
    sl_unfold_run_names
    refine step_spelled hrows (k1_off23_eq k) (k1_off24_eq k) (by omega) (readCov_whole ?_)
    refine step_spelled hrows (k1_off21_eq k) (k1_off22_eq k) (by omega) (readCov_whole ?_)
    refine step_spelled hrows (k1_off19_eq k) (k1_off20_eq k) (by omega) (readCov_whole ?_)
    refine step_spelled hrows (k1_off17_eq k) (k1_off18_eq k) (by omega) (readCov_whole ?_)
    exact step_spelled hrows (k1_off15_eq k) (k1_off16_eq k) (by omega) (readAt_whole_unread _ _)
  isplitl [HC]; · iexact HC
  isplitl [HR]; · iexact HR
  isplitl [HW]; · iexact HW
  iexact HPi

end Cert.Proof.Tile
-- ==== Proof.TileChunkT5.lean ====
import proofs.«215744_g19043884990565_cont_8to1_1279_72_alg».proof.Proof.TileChunk

noncomputable section

namespace Cert.Proof.Tile

open Cert.KernelIdeal Cert.KernelIdeal.Gen
open Idealize.ShloMosaic
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]
variable {Ix : Type} [DecidableEq Ix] {Name : Type} [DecidableEq Name] {U : Type} [URA U] {Lvl : Type} [Preorder Lvl]
variable {defs : Defs nD τ sig (Elt F) Λ₀} (𝒱 : Variants) (d : Dev nD) (bd : Option 𝒱.V) (E : Set Name)

/-- The third chunk's edge loop takes the accumulator from `acc` to `chunkFold 125 … acc`. -/
theorem loop_t5 (i : grid1.Coords) (arg2 : Memref sig .scVector .hbm S1x8192 .i32) (harg2 : arg2.IsWhole) (arg3 : Memref sig .scVector .hbm S1600000 .i32) (harg3 : arg3.IsWhole) (arg4 : Memref sig .scVector .hbm S1600000 .i32) (harg4 : arg4.IsWhole) (arg5 : Memref sig .scVector .hbm S1600000 .f32) (harg5 : arg5.IsWhole) (arg6 : Memref sig .scVector .hbm S16 .f32) (harg6 : arg6.IsWhole) (arg7 : Memref sig .scVector .hbm S1x200704 .f32) (harg7 : arg7.IsWhole) (arg8 : Memref sig .scVector .hbm S16 .f32) (harg8 : arg8.IsWhole) (arg9 : Memref sig .scVector .hbm S32x50176 .f32) (harg9 : arg9.IsWhole) (arg10 : Memref sig .scVector .vmem S8192 .i32) (harg10 : arg10.IsWhole) (arg11 : Memref sig .scVector .vmem S50176 .f32) (harg11 : arg11.IsWhole) (arg12 : Memref sig .scVector .vmem S10000 .i32) (harg12 : arg12.IsWhole) (arg13 : Memref sig .scVector .vmem S10000 .i32) (harg13 : arg13.IsWhole) (arg14 : Memref sig .scVector .vmem S10000 .i32) (harg14 : arg14.IsWhole) (arg15 : Memref sig .scVector .vmem S10000 .i32) (harg15 : arg15.IsWhole) (arg16 : Memref sig .scVector .vmem S10000 .f32) (harg16 : arg16.IsWhole) (arg17 : Memref sig .scVector .vmem S10000 .f32) (harg17 : arg17.IsWhole) (arg18 : Memref sig .scVector .vmem S16 .f32) (harg18 : arg18.IsWhole) (arg19 : Memref sig .scVector .vmem S6272 .f32) (harg19 : arg19.IsWhole) (arg20 : Memref sig .scVector .vmem S16 .f32) (harg20 : arg20.IsWhole) (arg21 : DmaSems sig S_) (arg22 : DmaSems sig S_) (v91_r0 : DmaSems sig S_) (v91_r1 : DmaSems sig S_) (v91_r2 : DmaSems sig S_) (v91_r3 : DmaSems sig S_) (v91_r4 : DmaSems sig S_) (v20 : BitVec 32)
    (packed : Vec F S8192 .i32) (pi : Vec F S16 .f32) (rows cols : Vec F S10000 .i32) (w : Vec F S10000 .f32)
    (acc : Vec F S50176 .f32) (hrows : ∀ x, (rows x).toNat ≤ 199999)
    {α : Type} {kk : Unit → Prog (TpuEff nD τ sig (Elt F) Λ₀ (thr d i).2) α} {Q : α → sProp (MT nD τ sig Ix (Elt F) Name U Lvl)} :
    (Held (Ix := Ix) (Name := Name) (U := U) (Lvl := Lvl) d i arg10 harg10 arg11 harg11 arg12 harg12 arg14 harg14 arg16 harg16 arg18 harg18 packed pi rows cols w acc)
      ⊢ iprop((Held (Ix := Ix) (Name := Name) (U := U) (Lvl := Lvl) d i arg10 harg10 arg11 harg11 arg12 harg12 arg14 harg14 arg16 harg16 arg18 harg18 packed pi rows cols w (chunkFold 125 packed pi rows cols w acc)
            -∗ wp frame (wpE defs 𝒱 (thr d i) bd) E (kk ⟨⟩) Q)
          -∗ wp frame (wpE defs 𝒱 (thr d i) bd) E
              (Scf.Loop.for k1_t5_loop k1_t5_ok ⟨⟩ (k1_t5_body i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 arg22 v91_r0 v91_r1 v91_r2 v91_r3 v91_r4 v20) >>= kk) Q) := by
  refine loop_chunk 𝒱 d bd E i harg10 harg11 harg12 harg14 harg16 harg18 packed pi rows cols w acc k1_t5_loop k1_t5_ok _ fun k => ?_
  have hk : k.val < 125 := lt_of_lt_of_le k.isLt k1_t5_abs.2.1
  unfold k1_t5_body
  iintro ⟨HP, HA, HC, HR, HW, HPi⟩
  repeat (
    sl_exec (disch := first
    | (show ∀ a x, _ < S8192.size a; exact and8191_inb _)
    | (show ∀ a x, _ < S16.size a; exact and3_inb _)
    | (show ∀ a x, _ < S50176.size a; exact rowsOK_readAt _ rows hrows _ _))
    first | rw [SparseCore.vectorLoadIdx_bind (c := thr d i)] | rw [SparseCore.vectorStoreIdx_bind (c := thr d i)])
  sl_exec
  sl_step
  isplitl [HP]; · iexact HP
  isplitl [HA]
  · iapply (pointsTo_unread_of_read (thr d i) harg11 _ _ ?_) $$ HA
    rw [read_writes_whole_cons, chunkFold_trip]
    sl_unfold_run_names
    refine step_spelled hrows (k1_off33_eq k) (k1_off34_eq k) (by omega) (readCov_whole ?_)
    refine step_spelled hrows (k1_off31_eq k) (k1_off32_eq k) (by omega) (readCov_whole ?_)
    refine step_spelled hrows (k1_off29_eq k) (k1_off30_eq k) (by omega) (readCov_whole ?_)
    refine step_spelled hrows (k1_off27_eq k) (k1_off28_eq k) (by omega) (readCov_whole ?_)
    exact step_spelled hrows (k1_off25_eq k) (k1_off26_eq k) (by omega) (readAt_whole_unread _ _)
  isplitl [HC]; · iexact HC
  isplitl [HR]; · iexact HR
  isplitl [HW]; · iexact HW
  iexact HPi

end Cert.Proof.Tile
-- ==== Proof.TileChunkT6.lean ====
import proofs.«215744_g19043884990565_cont_8to1_1279_72_alg».proof.Proof.TileChunk

noncomputable section

namespace Cert.Proof.Tile

open Cert.KernelIdeal Cert.KernelIdeal.Gen
open Idealize.ShloMosaic
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]
variable {Ix : Type} [DecidableEq Ix] {Name : Type} [DecidableEq Name] {U : Type} [URA U] {Lvl : Type} [Preorder Lvl]
variable {defs : Defs nD τ sig (Elt F) Λ₀} (𝒱 : Variants) (d : Dev nD) (bd : Option 𝒱.V) (E : Set Name)

/-- The fourth chunk's edge loop takes the accumulator from `acc` to `chunkFold 125 … acc`. -/
theorem loop_t6 (i : grid1.Coords) (arg2 : Memref sig .scVector .hbm S1x8192 .i32) (harg2 : arg2.IsWhole) (arg3 : Memref sig .scVector .hbm S1600000 .i32) (harg3 : arg3.IsWhole) (arg4 : Memref sig .scVector .hbm S1600000 .i32) (harg4 : arg4.IsWhole) (arg5 : Memref sig .scVector .hbm S1600000 .f32) (harg5 : arg5.IsWhole) (arg6 : Memref sig .scVector .hbm S16 .f32) (harg6 : arg6.IsWhole) (arg7 : Memref sig .scVector .hbm S1x200704 .f32) (harg7 : arg7.IsWhole) (arg8 : Memref sig .scVector .hbm S16 .f32) (harg8 : arg8.IsWhole) (arg9 : Memref sig .scVector .hbm S32x50176 .f32) (harg9 : arg9.IsWhole) (arg10 : Memref sig .scVector .vmem S8192 .i32) (harg10 : arg10.IsWhole) (arg11 : Memref sig .scVector .vmem S50176 .f32) (harg11 : arg11.IsWhole) (arg12 : Memref sig .scVector .vmem S10000 .i32) (harg12 : arg12.IsWhole) (arg13 : Memref sig .scVector .vmem S10000 .i32) (harg13 : arg13.IsWhole) (arg14 : Memref sig .scVector .vmem S10000 .i32) (harg14 : arg14.IsWhole) (arg15 : Memref sig .scVector .vmem S10000 .i32) (harg15 : arg15.IsWhole) (arg16 : Memref sig .scVector .vmem S10000 .f32) (harg16 : arg16.IsWhole) (arg17 : Memref sig .scVector .vmem S10000 .f32) (harg17 : arg17.IsWhole) (arg18 : Memref sig .scVector .vmem S16 .f32) (harg18 : arg18.IsWhole) (arg19 : Memref sig .scVector .vmem S6272 .f32) (harg19 : arg19.IsWhole) (arg20 : Memref sig .scVector .vmem S16 .f32) (harg20 : arg20.IsWhole) (arg21 : DmaSems sig S_) (arg22 : DmaSems sig S_) (v91_r0 : DmaSems sig S_) (v91_r1 : DmaSems sig S_) (v91_r2 : DmaSems sig S_) (v91_r3 : DmaSems sig S_) (v91_r4 : DmaSems sig S_)
    (packed : Vec F S8192 .i32) (pi : Vec F S16 .f32) (rows cols : Vec F S10000 .i32) (w : Vec F S10000 .f32)
    (acc : Vec F S50176 .f32) (hrows : ∀ x, (rows x).toNat ≤ 199999)
    {α : Type} {kk : Unit → Prog (TpuEff nD τ sig (Elt F) Λ₀ (thr d i).2) α} {Q : α → sProp (MT nD τ sig Ix (Elt F) Name U Lvl)} :
    (Held (Ix := Ix) (Name := Name) (U := U) (Lvl := Lvl) d i arg10 harg10 arg11 harg11 arg13 harg13 arg15 harg15 arg17 harg17 arg18 harg18 packed pi rows cols w acc)
      ⊢ iprop((Held (Ix := Ix) (Name := Name) (U := U) (Lvl := Lvl) d i arg10 harg10 arg11 harg11 arg13 harg13 arg15 harg15 arg17 harg17 arg18 harg18 packed pi rows cols w (chunkFold 125 packed pi rows cols w acc)
            -∗ wp frame (wpE defs 𝒱 (thr d i) bd) E (kk ⟨⟩) Q)
          -∗ wp frame (wpE defs 𝒱 (thr d i) bd) E
              (Scf.Loop.for k1_t6_loop k1_t6_ok ⟨⟩ (k1_t6_body i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 arg22 v91_r0 v91_r1 v91_r2 v91_r3 v91_r4) >>= kk) Q) := by
  refine loop_chunk 𝒱 d bd E i harg10 harg11 harg13 harg15 harg17 harg18 packed pi rows cols w acc k1_t6_loop k1_t6_ok _ fun k => ?_
  have hk : k.val < 125 := lt_of_lt_of_le k.isLt k1_t6_abs.2.1
  unfold k1_t6_body
  iintro ⟨HP, HA, HC, HR, HW, HPi⟩
  repeat (
    sl_exec (disch := first
    | (show ∀ a x, _ < S8192.size a; exact and8191_inb _)
    | (show ∀ a x, _ < S16.size a; exact and3_inb _)
    | (show ∀ a x, _ < S50176.size a; exact rowsOK_readAt _ rows hrows _ _))
    first | rw [SparseCore.vectorLoadIdx_bind (c := thr d i)] | rw [SparseCore.vectorStoreIdx_bind (c := thr d i)])
  sl_exec
  sl_step
  isplitl [HP]; · iexact HP
  isplitl [HA]
  · iapply (pointsTo_unread_of_read (thr d i) harg11 _ _ ?_) $$ HA
    rw [read_writes_whole_cons, chunkFold_trip]
    sl_unfold_run_names
    refine step_spelled hrows (k1_off43_eq k) (k1_off44_eq k) (by omega) (readCov_whole ?_)
    refine step_spelled hrows (k1_off41_eq k) (k1_off42_eq k) (by omega) (readCov_whole ?_)
    refine step_spelled hrows (k1_off39_eq k) (k1_off40_eq k) (by omega) (readCov_whole ?_)
    refine step_spelled hrows (k1_off37_eq k) (k1_off38_eq k) (by omega) (readCov_whole ?_)
    exact step_spelled hrows (k1_off35_eq k) (k1_off36_eq k) (by omega) (readAt_whole_unread _ _)
  isplitl [HC]; · iexact HC
  isplitl [HR]; · iexact HR
  isplitl [HW]; · iexact HW
  iexact HPi

end Cert.Proof.Tile
-- ==== Proof.TileChunkT7.lean ====
import proofs.«215744_g19043884990565_cont_8to1_1279_72_alg».proof.Proof.TileChunk

noncomputable section

namespace Cert.Proof.Tile

open Cert.KernelIdeal Cert.KernelIdeal.Gen
open Idealize.ShloMosaic
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]
variable {Ix : Type} [DecidableEq Ix] {Name : Type} [DecidableEq Name] {U : Type} [URA U] {Lvl : Type} [Preorder Lvl]
variable {defs : Defs nD τ sig (Elt F) Λ₀} (𝒱 : Variants) (d : Dev nD) (bd : Option 𝒱.V) (E : Set Name)

/-- The fifth chunk's edge loop takes the accumulator from `acc` to `chunkFold 125 … acc`. -/
theorem loop_t7 (i : grid1.Coords) (arg2 : Memref sig .scVector .hbm S1x8192 .i32) (harg2 : arg2.IsWhole) (arg3 : Memref sig .scVector .hbm S1600000 .i32) (harg3 : arg3.IsWhole) (arg4 : Memref sig .scVector .hbm S1600000 .i32) (harg4 : arg4.IsWhole) (arg5 : Memref sig .scVector .hbm S1600000 .f32) (harg5 : arg5.IsWhole) (arg6 : Memref sig .scVector .hbm S16 .f32) (harg6 : arg6.IsWhole) (arg7 : Memref sig .scVector .hbm S1x200704 .f32) (harg7 : arg7.IsWhole) (arg8 : Memref sig .scVector .hbm S16 .f32) (harg8 : arg8.IsWhole) (arg9 : Memref sig .scVector .hbm S32x50176 .f32) (harg9 : arg9.IsWhole) (arg10 : Memref sig .scVector .vmem S8192 .i32) (harg10 : arg10.IsWhole) (arg11 : Memref sig .scVector .vmem S50176 .f32) (harg11 : arg11.IsWhole) (arg12 : Memref sig .scVector .vmem S10000 .i32) (harg12 : arg12.IsWhole) (arg13 : Memref sig .scVector .vmem S10000 .i32) (harg13 : arg13.IsWhole) (arg14 : Memref sig .scVector .vmem S10000 .i32) (harg14 : arg14.IsWhole) (arg15 : Memref sig .scVector .vmem S10000 .i32) (harg15 : arg15.IsWhole) (arg16 : Memref sig .scVector .vmem S10000 .f32) (harg16 : arg16.IsWhole) (arg17 : Memref sig .scVector .vmem S10000 .f32) (harg17 : arg17.IsWhole) (arg18 : Memref sig .scVector .vmem S16 .f32) (harg18 : arg18.IsWhole) (arg19 : Memref sig .scVector .vmem S6272 .f32) (harg19 : arg19.IsWhole) (arg20 : Memref sig .scVector .vmem S16 .f32) (harg20 : arg20.IsWhole) (arg21 : DmaSems sig S_) (arg22 : DmaSems sig S_) (v91_r0 : DmaSems sig S_) (v91_r1 : DmaSems sig S_) (v91_r2 : DmaSems sig S_) (v91_r3 : DmaSems sig S_) (v91_r4 : DmaSems sig S_)
    (packed : Vec F S8192 .i32) (pi : Vec F S16 .f32) (rows cols : Vec F S10000 .i32) (w : Vec F S10000 .f32)
    (acc : Vec F S50176 .f32) (hrows : ∀ x, (rows x).toNat ≤ 199999)
    {α : Type} {kk : Unit → Prog (TpuEff nD τ sig (Elt F) Λ₀ (thr d i).2) α} {Q : α → sProp (MT nD τ sig Ix (Elt F) Name U Lvl)} :
    (Held (Ix := Ix) (Name := Name) (U := U) (Lvl := Lvl) d i arg10 harg10 arg11 harg11 arg12 harg12 arg14 harg14 arg16 harg16 arg18 harg18 packed pi rows cols w acc)
      ⊢ iprop((Held (Ix := Ix) (Name := Name) (U := U) (Lvl := Lvl) d i arg10 harg10 arg11 harg11 arg12 harg12 arg14 harg14 arg16 harg16 arg18 harg18 packed pi rows cols w (chunkFold 125 packed pi rows cols w acc)
            -∗ wp frame (wpE defs 𝒱 (thr d i) bd) E (kk ⟨⟩) Q)
          -∗ wp frame (wpE defs 𝒱 (thr d i) bd) E
              (Scf.Loop.for k1_t7_loop k1_t7_ok ⟨⟩ (k1_t7_body i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 arg22 v91_r0 v91_r1 v91_r2 v91_r3 v91_r4) >>= kk) Q) := by
  refine loop_chunk 𝒱 d bd E i harg10 harg11 harg12 harg14 harg16 harg18 packed pi rows cols w acc k1_t7_loop k1_t7_ok _ fun k => ?_
  have hk : k.val < 125 := lt_of_lt_of_le k.isLt k1_t7_abs.2.1
  unfold k1_t7_body
  iintro ⟨HP, HA, HC, HR, HW, HPi⟩
  repeat (
    sl_exec (disch := first
    | (show ∀ a x, _ < S8192.size a; exact and8191_inb _)
    | (show ∀ a x, _ < S16.size a; exact and3_inb _)
    | (show ∀ a x, _ < S50176.size a; exact rowsOK_readAt _ rows hrows _ _))
    first | rw [SparseCore.vectorLoadIdx_bind (c := thr d i)] | rw [SparseCore.vectorStoreIdx_bind (c := thr d i)])
  sl_exec
  sl_step
  isplitl [HP]; · iexact HP
  isplitl [HA]
  · iapply (pointsTo_unread_of_read (thr d i) harg11 _ _ ?_) $$ HA
    rw [read_writes_whole_cons, chunkFold_trip]
    sl_unfold_run_names
    refine step_spelled hrows (k1_off53_eq k) (k1_off54_eq k) (by omega) (readCov_whole ?_)
    refine step_spelled hrows (k1_off51_eq k) (k1_off52_eq k) (by omega) (readCov_whole ?_)
    refine step_spelled hrows (k1_off49_eq k) (k1_off50_eq k) (by omega) (readCov_whole ?_)
    refine step_spelled hrows (k1_off47_eq k) (k1_off48_eq k) (by omega) (readCov_whole ?_)
    exact step_spelled hrows (k1_off45_eq k) (k1_off46_eq k) (by omega) (readAt_whole_unread _ _)
  isplitl [HC]; · iexact HC
  isplitl [HR]; · iexact HR
  isplitl [HW]; · iexact HW
  iexact HPi

end Cert.Proof.Tile
-- ==== Proof.TileBody.lean ====
import proofs.«215744_g19043884990565_cont_8to1_1279_72_alg».proof.Proof.TileBatch
import proofs.«215744_g19043884990565_cont_8to1_1279_72_alg».proof.Proof.TileOut
import proofs.«215744_g19043884990565_cont_8to1_1279_72_alg».proof.Proof.TilePrologue
import proofs.«215744_g19043884990565_cont_8to1_1279_72_alg».proof.Proof.TileChunk
import proofs.«215744_g19043884990565_cont_8to1_1279_72_alg».proof.Proof.TileChunkT4
import proofs.«215744_g19043884990565_cont_8to1_1279_72_alg».proof.Proof.TileChunkT5
import proofs.«215744_g19043884990565_cont_8to1_1279_72_alg».proof.Proof.TileChunkT6
import proofs.«215744_g19043884990565_cont_8to1_1279_72_alg».proof.Proof.TileChunkT7

noncomputable section

namespace Cert.Proof.Tile

open Cert.KernelIdeal Cert.KernelIdeal.Gen Cert.Proof.Launch
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F] {U : Type} [URA U] [CountersIn U]

local notation "𝕄" => MT nD τ sig (HIx 1) (Elt F) ℕ U ℕ

theorem chunk_eq {e : EltTy} (X : Vec F S1600000 e) (i : grid1.Coords) (r : Fin 5) (x : S10000.Idx) (j : S1600000.Idx)
    (hj : (j 0 : ℕ) = k1_off4 i (BitVec.ofNat 32 (10000 * r.val)) 0 + 1 * (x 0 : ℕ)) : X j = chunkOf X (widOf i) r x := by
  unfold chunkOf
  congr 1
  funext a
  apply Fin.ext
  obtain rfl := Fin.eq_zero a
  rw [chunkOf_idx]
  refine hj.trans ?_
  rw [k1_off4_eq i r, widOf_val]
  simp only [Matrix.cons_val_zero]
  omega

theorem rowsChunk_eq (d : Dev nD) (i : grid1.Coords) (cv : CallVals (F := F) d) (r : Fin 5) :
    Copies.rowsChunk d i cv r = chunkOf (F := F) (cv.rows : Vec F S1600000 .i32) (widOf i) r := by
  funext x; exact chunk_eq (cv.rows : Vec F S1600000 .i32) i r x _ (by rfl)
theorem colsChunk_eq (d : Dev nD) (i : grid1.Coords) (cv : CallVals (F := F) d) (r : Fin 5) :
    Copies.colsChunk d i cv r = chunkOf (F := F) (cv.cols : Vec F S1600000 .i32) (widOf i) r := by
  funext x; exact chunk_eq (cv.cols : Vec F S1600000 .i32) i r x _ (by rfl)
theorem wChunk_eq (d : Dev nD) (i : grid1.Coords) (cv : CallVals (F := F) d) (r : Fin 5) :
    Copies.wChunk d i cv r = chunkOf (F := F) (cv.w : Vec F S1600000 .f32) (widOf i) r := by
  funext x; exact chunk_eq (cv.w : Vec F S1600000 .f32) i r x _ (by rfl)

theorem held_in (c : Thread nD τ) {s : Shape} {e : EltTy} {m : Memref sig c.2.kind .vmem s e} (hm : m.IsWhole)
    (f : m.view.ty.Contents (Elt F)) (X : Vec F s e) (h : m.view.read (Elt F) f = X) :
    (m.view.loc c ↦{fullShare} f : sProp 𝕄) ⊢ (m.view.loc c ↦[m.view.set]{fullShare} hm.unread X) := by
  rw [hm.set_eq_univ, ← hm.eq_unread h]

theorem held_ex (c : Thread nD τ) {s : Shape} {e : EltTy} {m : Memref sig c.2.kind .vmem s e} (hm : m.IsWhole) (X : Vec F s e) :
    (m.view.loc c ↦[m.view.set]{fullShare} hm.unread X : sProp 𝕄) ⊢ iprop(∃ f, m.view.loc c ↦{fullShare} f) := by
  rw [hm.set_eq_univ]
  iintro H
  iexists _
  iexact H

-- A whole buffer rewritten with a chunk the copies brought holds the tile's chunk of the array.
theorem held_chunk (d : Dev nD) (i : grid1.Coords) {e : EltTy} {b : Memref sig .scVector .vmem S10000 e} (hb : b.IsWhole)
    (f : Buf (Elt F) (b.view.loc (tthr d i))) {Y : Vec F S10000 e} {X : Vec F S1600000 e} {r : Fin 5} (h : Y = chunkOf X (widOf i) r) :
    (b.view.loc (tthr d i) ↦{fullShare} b.view.write (Elt F) f Y Finset.univ : sProp 𝕄)
      ⊢ (b.view.loc (tthr d i) ↦[b.view.set]{fullShare} hb.unread (chunkAt X (widOf i) r.val)) :=
  held_in (tthr d i) hb _ _ ((View.read_write_univ _ _).trans (h.trans (chunkAt_lt _ _ r.val r.isLt).symm))

abbrev accN (d : Dev nD) (i : grid1.Coords) (cv : CallVals (F := F) d) (j : Nat) : Vec F S50176 .f32 :=
  chunksFold (pkRow (cv.pk : Vec F S1x8192 .i32)) (cv.pi : Vec F S16 .f32) (chunkAt (cv.rows : Vec F S1600000 .i32) (widOf i)) (chunkAt (cv.cols : Vec F S1600000 .i32) (widOf i)) (chunkAt (cv.w : Vec F S1600000 .f32) (widOf i)) j
    (accInit (cv.sd : Vec F S16 .f32) (cv.psc : Vec F S1x200704 .f32) (widOf i))

theorem chunkAt_le (X : Vec F S1600000 .i32) (hX : ∀ x, (X x).toNat ≤ 199999) (wid : Fin 32) (j : Nat) :
    ∀ x, ((chunkAt X wid j) x).toNat ≤ 199999 := by
  intro x
  unfold chunkAt
  split <;> exact hX _

abbrev outSl (i : grid1.Coords) : Memref sig .scVector .hbm S50176 .f32 :=
  ((Memref.whole main_v9_scv : Memref sig .scVector .hbm S32x50176 .f32).slice
    (Rect.unit (s := S32x50176) (k1_off55 i) S1x50176.size (k1_off55_inb i)) (fun _ => rfl)).squeeze S50176 squeezes_S1x50176_S50176

theorem outRect_eq (i : grid1.Coords) :
    Rect.unit (s := S32x50176) (k1_off55 i) S1x50176.size (k1_off55_inb i) = outRow (widOf i) := by
  unfold outRow Rect.part Rect.block
  congr 1 <;> funext a
  · rw [k1_off55_eq]
    match a with
    | 0 => simp [Shape.partIx, Shape.partSize, widOf_val]
    | 1 => simp [Shape.partIx, Shape.partSize]
  · match a with
    | 0 => simp [Shape.partSize]
    | 1 => simp [Shape.partSize]

theorem set_outSl (i : grid1.Coords) : (outSl i).view.set = rowSet (widOf i) := by
  show (((outV : Memref sig .scVector .hbm S32x50176 .f32).view.slice (Rect.unit (s := S32x50176) (k1_off55 i) S1x50176.size (k1_off55_inb i))).reshape S50176 squeezes_S1x50176_S50176.numel_eq).set
    = ((outV : Memref sig .scVector .hbm S32x50176 .f32).view.slice (outRow (widOf i))).set
  rw [View.set_reshape]
  exact outRect_eq i ▸ rfl

theorem pts_out (d : Dev nD) (i : grid1.Coords) (f : Buf (Elt F) (outLoc d)) :
    ((outSl i).view.loc (tthr d i) ↦[(outSl i).view.set]{fullShare} f : sProp 𝕄) = outLoc d ↦[rowSet (widOf i)]{fullShare} f := by
  rw [set_outSl]

theorem row_agree (d : Dev nD) (i : grid1.Coords) (g po : Buf (Elt F) (outLoc d)) (T : Vec F S50176 .f32)
    (hg : (outSl i).view.read (Elt F) (g : Buf (Elt F) ((outSl i).view.loc (tthr d i))) = T)
    (hpo : (outSl i).view.read (Elt F) (po : Buf (Elt F) ((outSl i).view.loc (tthr d i))) = T) :
    ∀ j ∈ rowSet (widOf i), g j = po j := by
  intro j hj
  rw [← set_outSl] at hj
  obtain ⟨x, -, rfl⟩ := Finset.mem_map.1 hj
  have h := congrFun (hg.trans hpo.symm) x
  unfold View.read at h
  exact (cast_inj _).1 h

section CopyOut

variable (d : Dev nD) (i : grid1.Coords)
variable (O : CellTallies nD τ sig (HIx 1)) (W : Waits sig (HIx 1))

local notation "sAcc" => (Memref.whole cc1_scratch1 : Memref sig Kind.scVector Space.vmem S50176 EltTy.f32)

abbrev NO (i : grid1.Coords) : ℕ := (outSl i).view.dmaCredit
theorem NO_pos (i : grid1.Coords) : 0 < NO i := View.dmaCredit_pos _ (by decide)

def delivOut (acc : Buf (Elt F) ((sAcc).view.loc (tthr d i))) (f0 : Buf (Elt F) ((outSl i).view.loc (tthr d i))) : Fin 1 → sProp 𝕄 := fun _ =>
  iprop(((outSl i).view.loc (tthr d i) ↦[(outSl i).view.set]{fullShare} (outSl i).view.write (Elt F) f0 ((sAcc).view.read (Elt F) acc) Finset.univ)
    ∗ ((sAcc).view.loc (tthr d i) ↦[(sAcc).view.set]{fullShare} acc))

instance delivOut_storable (acc : Buf (Elt F) ((sAcc).view.loc (tthr d i))) (f0 : Buf (Elt F) ((outSl i).view.loc (tthr d i))) (t : Fin 1) :
    Storable (upEmb : UEmb _ 𝕄) (delivOut d i acc f0 t) := by
  unfold delivOut; infer_instance

theorem delivOut_split (acc : Buf (Elt F) ((sAcc).view.loc (tthr d i))) (f0 : Buf (Elt F) ((outSl i).view.loc (tthr d i))) :
    (bigSep Finset.univ (delivOut d i acc f0) : sProp 𝕄) ⊢ delivOut d i acc f0 0 := by
  rw [Idealize.SL.BI.bigSep_univ_eq_bigSepL [0] (by decide) (by decide) _]
  exact .rfl

theorem wp_copyOut (acc : Buf (Elt F) ((sAcc).view.loc (tthr d i))) (f0 : Buf (Elt F) ((outSl i).view.loc (tthr d i)))
    {α : Type} (k : Copies.PT (F := F) d i α) (Q : α → sProp 𝕄) :
    iprop(((sAcc).view.loc (tthr d i) ↦[(sAcc).view.set]{fullShare} acc)
        ∗ ((outSl i).view.loc (tthr d i) ↦[(outSl i).view.set]{fullShare} f0)
        ∗ semVal (tthr d i, SemLoc.dma cc1_scoped4.sem) 0
        ∗ Copies.owesN d i O W ∗ Transfers.MayWaits (tthr d i) (none : HIx 1) O
        ∗ ((((sAcc).view.loc (tthr d i) ↦[(sAcc).view.set]{fullShare} acc)
            ∗ ((outSl i).view.loc (tthr d i) ↦[(outSl i).view.set]{fullShare} (outSl i).view.write (Elt F) f0 ((sAcc).view.read (Elt F) acc) Finset.univ)
            ∗ semVal (tthr d i, SemLoc.dma cc1_scoped4.sem) 0 ∗ Copies.owesN d i O W)
          -∗ Copies.wpT d i k Q))
      ⊢ Copies.wpT d i (do
          Prog.lift (.enqueueDma sAcc (.here (outSl i)) (.dma cc1_scoped4.sem) (Memref.isWhole_whole _).wordExact ((View.wordExact_bits rfl).reshape _ _) ⟨Or.inl rfl, trivial⟩)
          Prog.lift (.waitDma2 cc1_scoped4.sem sAcc (outSl i) (Memref.isWhole_whole _).wordExact ((View.wordExact_bits rfl).reshape _ _))
          k) Q := by
  iintro ⟨Hacc, Hout, Hsem, ⟨%W', %hW', HO⟩, #Hmw, Hk⟩
  imod (Transfers.batch_alloc' (Lvl := ℕ) (countersEmb (U := U)) (tthr d i) (none : HIx 1) (NO i) (delivOut d i acc f0)
    (sm := .dma cc1_scoped4.sem) (E := Set.univ)) $$ Hsem with HB
  iapply (Transfers.wp_dmaBatch (countersEmb (U := U)) 𝒱₀ (tthr d i) none (src := sAcc) (dst := outSl i) (sm := SemLoc.dma cc1_scoped4.sem) (none : HIx 1) (NO i) rfl subset_rfl
    (D := delivOut d i acc f0) (j := 0) (u := 0) (by decide) (Nat.zero_le _) (by unfold delivOut; exact .rfl)) $$ [$Hacc $Hout $HB]
  iintro HB
  simp only [Copies.ret_bind']
  ihave Hm := (Transfers.MayWaits.elim (SemLoc.dma cc1_scoped4.sem)) $$ Hmw
  iapply (Transfers.wp_waitBatchLastO (countersEmb (U := U)) 𝒱₀ (tthr d i) none (none : HIx 1) rfl (NO_pos i)
    (D := delivOut d i acc f0) (u := 0) (by omega) (O := O) (W := W')) $$ [$HB $HO $Hm]
  iintro ⟨HD, Hv, HO⟩
  simp only [Copies.ret_bind']
  ihave HD' := (delivOut_split d i acc f0) $$ HD
  unfold delivOut
  icases HD' with ⟨Hout, Hacc⟩
  iapply Hk
  iframe Hacc Hout Hv
  iapply (Copies.owesN_ins d i O W _ hW') $$ HO

end CopyOut

section Wrapper

open Idealize.ShloMosaic.SparseCore.Cfg (ownBufs ownSems0 ownCells ownRefs mem_ownCells mem_ownRefs)

variable (d : Dev nD) (c : Fin τ.nSC) (s : Fin τ.nSub)

def myRefs : List (DevRef τ sig) :=
  ([cc1_scratch0, cc1_scratch1, cc1_scratch2, cc1_scratch3, cc1_scratch4, cc1_scratch5, cc1_scratch6, cc1_scratch7, cc1_scratch8, cc1_scratch9, cc1_scratch10] : List (Ref sig .scVector)).map (Proc.scVector c s).devRef

theorem myRefs_nodup : (myRefs c s).Nodup :=
  List.Nodup.map (Proc.devRef_injective _) (by decide +revert)

theorem myRefs_sub : (myRefs c s).toFinset ⊆ ownRefs (τ := τ) (sig := sig) (.scVector c s) := by
  intro b hb
  rw [List.mem_toFinset] at hb
  simp only [myRefs, List.map_cons, List.map_nil, List.mem_cons, List.not_mem_nil, or_false] at hb
  rcases hb with rfl | rfl | rfl | rfl | rfl | rfl | rfl | rfl | rfl | rfl | rfl
  all_goals exact SparseCore.Cfg.mem_ownRefs_of_owner rfl

abbrev bufsMine : sProp 𝕄 :=
  iprop((∃ f, (V d c s).loc cc1_scratch0 ↦{fullShare} f)
    ∗ (∃ f, (V d c s).loc cc1_scratch1 ↦{fullShare} f)
    ∗ (∃ f, (V d c s).loc cc1_scratch2 ↦{fullShare} f)
    ∗ (∃ f, (V d c s).loc cc1_scratch3 ↦{fullShare} f)
    ∗ (∃ f, (V d c s).loc cc1_scratch4 ↦{fullShare} f)
    ∗ (∃ f, (V d c s).loc cc1_scratch5 ↦{fullShare} f)
    ∗ (∃ f, (V d c s).loc cc1_scratch6 ↦{fullShare} f)
    ∗ (∃ f, (V d c s).loc cc1_scratch7 ↦{fullShare} f)
    ∗ (∃ f, (V d c s).loc cc1_scratch8 ↦{fullShare} f)
    ∗ (∃ f, (V d c s).loc cc1_scratch9 ↦{fullShare} f)
    ∗ (∃ f, (V d c s).loc cc1_scratch10 ↦{fullShare} f))

theorem ownBufs_mine :
    (ownBufs (V d c s) : sProp 𝕄)
      = iprop(bufsMine d c s ∗ bigSep (ownRefs (τ := τ) (sig := sig) (.scVector c s) \ (myRefs c s).toFinset)
              fun b => iprop(∃ f, ((d, b) : Loc nD τ sig) ↦{fullShare} f)) := by
  unfold SparseCore.Cfg.ownBufs
  show bigSep (ownRefs (τ := τ) (sig := sig) (.scVector c s)) _ = _
  rw [SparseCore.bigSep_sdiff_split' (myRefs_sub c s), Idealize.SL.BI.bigSep_eq_bigSepL _ (myRefs_nodup c s)]
  rfl

def myCells : List (GSem nD τ sig) :=
  ([SemLoc.dma cc1_scratch11.sem, SemLoc.dma cc1_scratch12.sem, SemLoc.dma cc1_scoped0.sem, SemLoc.dma cc1_scoped1.sem, SemLoc.dma cc1_scoped2.sem, SemLoc.dma cc1_scoped3.sem, SemLoc.dma cc1_scoped4.sem] : List (SemLoc sig)).map fun sm => (V d c s, sm)

theorem myCells_nodup : (myCells d c s).Nodup :=
  List.Nodup.map (fun _ _ e => (Prod.mk.inj e).2) (by decide +revert)

theorem myCells_sub : (myCells d c s).toFinset ⊆ ownCells (V d c s) := by
  intro g hg
  rw [List.mem_toFinset] at hg
  simp only [myCells, List.map_cons, List.map_nil, List.mem_cons, List.not_mem_nil, or_false] at hg
  rcases hg with rfl | rfl | rfl | rfl | rfl | rfl | rfl
  all_goals exact mem_ownCells.mpr ⟨rfl, show SemLoc.isScoped .scVector (SemLoc.dma _) = true by decide⟩

abbrev semsMine : sProp 𝕄 :=
  iprop(semVal (V d c s, SemLoc.dma cc1_scratch11.sem) 0
    ∗ semVal (V d c s, SemLoc.dma cc1_scratch12.sem) 0
    ∗ semVal (V d c s, SemLoc.dma cc1_scoped0.sem) 0
    ∗ semVal (V d c s, SemLoc.dma cc1_scoped1.sem) 0
    ∗ semVal (V d c s, SemLoc.dma cc1_scoped2.sem) 0
    ∗ semVal (V d c s, SemLoc.dma cc1_scoped3.sem) 0
    ∗ semVal (V d c s, SemLoc.dma cc1_scoped4.sem) 0)

theorem ownSems0_mine :
    (ownSems0 (V d c s) : sProp 𝕄)
      = iprop(semsMine d c s ∗ bigSep (ownCells (V d c s) \ (myCells d c s).toFinset) fun g => semVal g 0) := by
  unfold SparseCore.Cfg.ownSems0
  rw [SparseCore.bigSep_sdiff_split' (myCells_sub d c s), Idealize.SL.BI.bigSep_eq_bigSepL _ (myCells_nodup d c s)]
  rfl

end Wrapper

section Core

variable (d : Dev nD) (i : grid1.Coords) (q : PosShare TreeShare) (cv : CallVals (F := F) d)
variable (O : CellTallies nD τ sig (HIx 1)) (W : Waits sig (HIx 1))

set_option maxHeartbeats 8000000 in
theorem tile_core (f0 po : Buf (Elt F) (outLoc d)) (hrows : ∀ x, ((cv.rows : Vec F S1600000 .i32) x).toNat ≤ 199999)
    (hpo : (outSl i).view.read (Elt F) (po : Buf (Elt F) ((outSl i).view.loc (tthr d i))) = accN d i cv 5) :
    (iprop(Transfers.MayWaits (tthr d i) (none : HIx 1) O ∗ (reads d cv q ∗ outRowPts d (widOf i) f0)
        ∗ bufsMine d ((i 0).castLE hcore1) ((i 1).castLE hsub1) ∗ semsMine d ((i 0).castLE hcore1) ((i 1).castLE hsub1) ∗ owes (tthr d i) O W) : sProp 𝕄)
      ⊢ Copies.wpT d i (cc1__sc_edge_kernel i (Memref.whole main_v8_scv) (Memref.isWhole_whole _) (Memref.whole main_v1_scv) (Memref.isWhole_whole _) (Memref.whole main_v3_scv) (Memref.isWhole_whole _) (Memref.whole main_arg6_scv) (Memref.isWhole_whole _) (Memref.whole main_v4_scv) (Memref.isWhole_whole _) (Memref.whole main_v6_scv) (Memref.isWhole_whole _) (Memref.whole main_v5_scv) (Memref.isWhole_whole _) (Memref.whole main_v9_scv) (Memref.isWhole_whole _) (Memref.whole cc1_scratch0) (Memref.isWhole_whole _) (Memref.whole cc1_scratch1) (Memref.isWhole_whole _) (Memref.whole cc1_scratch2) (Memref.isWhole_whole _) (Memref.whole cc1_scratch3) (Memref.isWhole_whole _) (Memref.whole cc1_scratch4) (Memref.isWhole_whole _) (Memref.whole cc1_scratch5) (Memref.isWhole_whole _) (Memref.whole cc1_scratch6) (Memref.isWhole_whole _) (Memref.whole cc1_scratch7) (Memref.isWhole_whole _) (Memref.whole cc1_scratch8) (Memref.isWhole_whole _) (Memref.whole cc1_scratch9) (Memref.isWhole_whole _) (Memref.whole cc1_scratch10) (Memref.isWhole_whole _) cc1_scratch11 cc1_scratch12 cc1_scoped0 cc1_scoped1 cc1_scoped2 cc1_scoped3 cc1_scoped4) fun _ => iprop((reads d cv q ∗ outRowPts d (widOf i) po)
          ∗ bufsMine d ((i 0).castLE hcore1) ((i 1).castLE hsub1) ∗ semsMine d ((i 0).castLE hcore1) ((i 1).castLE hsub1) ∗ Copies.owesN d i O W) := by
  unfold Copies.wpT reads bufsMine semsMine
  rw [cc1__sc_edge_kernel_eq_skeleton]; unfold cc1__sc_edge_kernel_skel
  iintro ⟨#Hmw, ⟨⟨Hpk, Hrows, Hcols, Hw, Hpi, Hpsc, Hsd⟩, Hout⟩,
    ⟨⟨%f10, H10⟩, ⟨%f11, H11⟩, ⟨%fC0, HC0⟩, ⟨%fC1, HC1⟩, ⟨%fR0, HR0⟩, ⟨%fR1, HR1⟩, ⟨%fW0, HW0⟩, ⟨%fW1, HW1⟩, ⟨%f18, H18⟩, ⟨%f19, H19⟩, ⟨%f20, H20⟩⟩,
    ⟨Hs21, Hs22, Hs0, Hs1, Hs2, Hs3, Hs4⟩, HO⟩
  ihave Hout := (Entails.of_eq (pts_out d i f0).symm) $$ Hout
  rw [wp_bind]
  ihave H11 := (wp_part11 d i O W q q q q (cv.pk : Vec F S1x8192 .i32) (cv.pi : Vec F S16 .f32) (cv.sd : Vec F S16 .f32) (cv.psc : Vec F S1x200704 .f32) f10 f11 f18 f19 f20) $$ [Hpk Hpi Hpsc Hsd H10 H11 H18 H19 H20 Hs0 Hs1 Hs2 Hs3 HO]
  · unfold hbmIn scratch sems0
    iframe Hmw Hpk Hpi Hpsc Hsd H10 H11 H18 H19 H20 Hs0 Hs1 Hs2 Hs3
    iexact HO
  iapply (wp_wand_r frame _ _)
  isplitl [H11]; · iexact H11
  iintro %r ⟨%hr, Hhbm, Hscr, Hsems, HO⟩
  subst hr
  dsimp only
  rw [wp_bind, k1_part12_eq_skeleton]; unfold k1_part12_skel
  unfold scratch
  icases Hscr with ⟨H10, H11, H18, H19, H20⟩
  iapply (wp_part12Head d i _ _ (cv.sd : Vec F S16 .f32) (cv.psc : Vec F S1x200704 .f32)) $$ [$H11 $H19 $H20]
  iintro ⟨H11, H19, H20⟩
  iapply (Copies.wp_fire d i q cv Copies.set0 fR0 fC0 fW0 0 _ _)
  iframe Hrows Hcols Hw HR0 HC0 HW0 Hs21
  iintro HF0
  iapply (Copies.wp_waitAll d i q cv Copies.set0 fR0 fC0 fW0 O W 0 _ _)
  iframe HF0 HO Hmw
  iintro ⟨⟨Hrows, Hcols, Hw, HR0, HC0, HW0, Hs21⟩, HO⟩
  iapply (Copies.wp_fire d i q cv Copies.set1 fR1 fC1 fW1 1 _ _)
  iframe Hrows Hcols Hw HR1 HC1 HW1 Hs22
  iintro ⟨HB1, HX1⟩
  ihave H10 := (held_in (tthr d i) (Memref.isWhole_whole cc1_scratch0) (pkRow (cv.pk : Vec F S1x8192 .i32)) (pkRow (cv.pk : Vec F S1x8192 .i32)) rfl) $$ H10
  ihave H11 := (held_in (tthr d i) (Memref.isWhole_whole cc1_scratch1) (accInit (cv.sd : Vec F S16 .f32) (cv.psc : Vec F S1x200704 .f32) (widOf i)) (accN d i cv 0) rfl) $$ H11
  ihave H18 := (held_in (tthr d i) (Memref.isWhole_whole cc1_scratch8) (cv.pi : Vec F S16 .f32) (cv.pi : Vec F S16 .f32) rfl) $$ H18
  iapply (loop_t3 𝒱₀ d none Set.univ i (packed := pkRow cv.pk) (pi := cv.pi) (rows := chunkAt cv.rows (widOf i) 0) (cols := chunkAt cv.cols (widOf i) 0)
    (w := chunkAt cv.w (widOf i) 0) (acc := accN d i cv 0) (hrows := chunkAt_le _ hrows _ _)) $$ [H10 H11 HC0 HR0 HW0 H18]
  · isplitl [H10]; · iexact H10
    isplitl [H11]; · iexact H11
    isplitl [HC0]; · iapply (held_chunk d i Copies.set0.hC fC0 (colsChunk_eq d i cv 0)); iexact HC0
    isplitl [HR0]; · iapply (held_chunk d i Copies.set0.hR fR0 (rowsChunk_eq d i cv 0)); iexact HR0
    isplitl [HW0]; · iapply (held_chunk d i Copies.set0.hW fW0 (wChunk_eq d i cv 0)); iexact HW0
    iexact H18
  iintro ⟨H10, H11, HC0, HR0, HW0, H18⟩
  iapply (Copies.wp_waitMid d i q cv Copies.set1 fR1 fC1 fW1 O W (Copies.rowsSl i 1) Copies.set1.R Copies.set1.nR _ _ 1 0 (by have := Copies.NB_pos; omega) _ _)
  iframe HB1 HO Hmw
  iintro ⟨HB1, HO⟩
  unfold Copies.wpT
  sl_step
  try dsimp only
  rw [wp_bind, k1_part13_eq_skeleton]; unfold k1_part13_skel
  iapply (Copies.wp_wait23 d i q cv Copies.set1 fR1 fC1 fW1 O W 1 _ _)
  iframe HB1 HX1 HO Hmw
  iintro ⟨⟨Hrows, Hcols, Hw, HR1, HC1, HW1, Hs22⟩, HO⟩
  ihave ⟨%gR, HR0⟩ := (held_ex (tthr d i) Copies.set0.hR _) $$ HR0
  ihave ⟨%gC, HC0⟩ := (held_ex (tthr d i) Copies.set0.hC _) $$ HC0
  ihave ⟨%gW, HW0⟩ := (held_ex (tthr d i) Copies.set0.hW _) $$ HW0
  iapply (Copies.wp_fire d i q cv Copies.set0 gR gC gW 2 _ _)
  iframe Hrows Hcols Hw HR0 HC0 HW0 Hs21
  iintro HF2
  iapply (loop_t4 𝒱₀ d none Set.univ i (packed := pkRow cv.pk) (pi := cv.pi) (rows := chunkAt cv.rows (widOf i) 1) (cols := chunkAt cv.cols (widOf i) 1)
    (w := chunkAt cv.w (widOf i) 1) (acc := accN d i cv 1) (hrows := chunkAt_le _ hrows _ _)) $$ [H10 H11 HC1 HR1 HW1 H18]
  · isplitl [H10]; · iexact H10
    isplitl [H11]; · iexact H11
    isplitl [HC1]; · iapply (held_chunk d i Copies.set1.hC fC1 (colsChunk_eq d i cv 1)); iexact HC1
    isplitl [HR1]; · iapply (held_chunk d i Copies.set1.hR fR1 (rowsChunk_eq d i cv 1)); iexact HR1
    isplitl [HW1]; · iapply (held_chunk d i Copies.set1.hW fW1 (wChunk_eq d i cv 1)); iexact HW1
    iexact H18
  iintro ⟨H10, H11, HC1, HR1, HW1, H18⟩
  iapply (Copies.wp_waitAll d i q cv Copies.set0 gR gC gW O W 2 _ _)
  iframe HF2 HO Hmw
  iintro ⟨⟨Hrows, Hcols, Hw, HR0, HC0, HW0, Hs21⟩, HO⟩
  ihave ⟨%hR, HR1⟩ := (held_ex (tthr d i) Copies.set1.hR _) $$ HR1
  ihave ⟨%hC, HC1⟩ := (held_ex (tthr d i) Copies.set1.hC _) $$ HC1
  ihave ⟨%hW, HW1⟩ := (held_ex (tthr d i) Copies.set1.hW _) $$ HW1
  iapply (Copies.wp_fire d i q cv Copies.set1 hR hC hW 3 _ _)
  iframe Hrows Hcols Hw HR1 HC1 HW1 Hs22
  iintro HF3
  iapply (loop_t5 𝒱₀ d none Set.univ i (packed := pkRow cv.pk) (pi := cv.pi) (rows := chunkAt cv.rows (widOf i) 2) (cols := chunkAt cv.cols (widOf i) 2)
    (w := chunkAt cv.w (widOf i) 2) (acc := accN d i cv 2) (hrows := chunkAt_le _ hrows _ _)) $$ [H10 H11 HC0 HR0 HW0 H18]
  · isplitl [H10]; · iexact H10
    isplitl [H11]; · iexact H11
    isplitl [HC0]; · iapply (held_chunk d i Copies.set0.hC gC (colsChunk_eq d i cv 2)); iexact HC0
    isplitl [HR0]; · iapply (held_chunk d i Copies.set0.hR gR (rowsChunk_eq d i cv 2)); iexact HR0
    isplitl [HW0]; · iapply (held_chunk d i Copies.set0.hW gW (wChunk_eq d i cv 2)); iexact HW0
    iexact H18
  iintro ⟨H10, H11, HC0, HR0, HW0, H18⟩
  iapply (Copies.wp_waitAll d i q cv Copies.set1 hR hC hW O W 3 _ _)
  iframe HF3 HO Hmw
  iintro ⟨⟨Hrows, Hcols, Hw, HR1, HC1, HW1, Hs22⟩, HO⟩
  unfold Copies.wpT
  sl_step
  try dsimp only
  ihave ⟨%kR, HR0⟩ := (held_ex (tthr d i) Copies.set0.hR _) $$ HR0
  ihave ⟨%kC, HC0⟩ := (held_ex (tthr d i) Copies.set0.hC _) $$ HC0
  ihave ⟨%kW, HW0⟩ := (held_ex (tthr d i) Copies.set0.hW _) $$ HW0
  iapply (Copies.wp_fire d i q cv Copies.set0 kR kC kW 4 _ _)
  iframe Hrows Hcols Hw HR0 HC0 HW0 Hs21
  iintro HF4
  iapply (loop_t6 𝒱₀ d none Set.univ i (packed := pkRow cv.pk) (pi := cv.pi) (rows := chunkAt cv.rows (widOf i) 3) (cols := chunkAt cv.cols (widOf i) 3)
    (w := chunkAt cv.w (widOf i) 3) (acc := accN d i cv 3) (hrows := chunkAt_le _ hrows _ _)) $$ [H10 H11 HC1 HR1 HW1 H18]
  · isplitl [H10]; · iexact H10
    isplitl [H11]; · iexact H11
    isplitl [HC1]; · iapply (held_chunk d i Copies.set1.hC hC (colsChunk_eq d i cv 3)); iexact HC1
    isplitl [HR1]; · iapply (held_chunk d i Copies.set1.hR hR (rowsChunk_eq d i cv 3)); iexact HR1
    isplitl [HW1]; · iapply (held_chunk d i Copies.set1.hW hW (wChunk_eq d i cv 3)); iexact HW1
    iexact H18
  iintro ⟨H10, H11, HC1, HR1, HW1, H18⟩
  iapply (Copies.wp_waitAll d i q cv Copies.set0 kR kC kW O W 4 _ _)
  iframe HF4 HO Hmw
  iintro ⟨⟨Hrows, Hcols, Hw, HR0, HC0, HW0, Hs21⟩, HO⟩
  iapply (loop_t7 𝒱₀ d none Set.univ i (packed := pkRow cv.pk) (pi := cv.pi) (rows := chunkAt cv.rows (widOf i) 4) (cols := chunkAt cv.cols (widOf i) 4)
    (w := chunkAt cv.w (widOf i) 4) (acc := accN d i cv 4) (hrows := chunkAt_le _ hrows _ _)) $$ [H10 H11 HC0 HR0 HW0 H18]
  · isplitl [H10]; · iexact H10
    isplitl [H11]; · iexact H11
    isplitl [HC0]; · iapply (held_chunk d i Copies.set0.hC kC (colsChunk_eq d i cv 4)); iexact HC0
    isplitl [HR0]; · iapply (held_chunk d i Copies.set0.hR kR (rowsChunk_eq d i cv 4)); iexact HR0
    isplitl [HW0]; · iapply (held_chunk d i Copies.set0.hW kW (wChunk_eq d i cv 4)); iexact HW0
    iexact H18
  iintro ⟨H10, H11, HC0, HR0, HW0, H18⟩
  iapply (wp_copyOut d i O W ((Memref.isWhole_whole cc1_scratch1).unread (accN d i cv 5)) f0 _ _)
  iframe Hout Hs4 HO Hmw
  isplitl [H11]; · iexact H11
  iintro ⟨H11, Hout, Hs4, HO⟩
  unfold Copies.wpT
  sl_step
  unfold hbmIn sems0
  icases Hhbm with ⟨Hpk, Hpi, Hpsc, Hsd⟩
  icases Hsems with ⟨Hs0, Hs1, Hs2, Hs3⟩
  ihave Hout := (Entails.of_eq ((pts_out d i _).trans (pointsTo_congr (row_agree d i _ po _ ((View.read_write_univ _ _).trans (Memref.IsWhole.read_unread _ _)) hpo)))) $$ Hout
  isplitl [Hpk Hrows Hcols Hw Hpi Hpsc Hsd Hout]
  · iframe Hpk Hrows Hcols Hw Hpi Hpsc Hsd
    iexact Hout
  isplitl [H10 H11 HC0 HC1 HR0 HR1 HW0 HW1 H18 H19 H20]
  · isplitl [H10]; · iapply (held_ex (tthr d i) (Memref.isWhole_whole cc1_scratch0) _); iexact H10
    isplitl [H11]; · iapply (held_ex (tthr d i) (Memref.isWhole_whole cc1_scratch1) _); iexact H11
    isplitl [HC0]; · iapply (held_ex (tthr d i) Copies.set0.hC _); iexact HC0
    isplitl [HC1]; · iapply (held_ex (tthr d i) Copies.set1.hC _); iexact HC1
    isplitl [HR0]; · iapply (held_ex (tthr d i) Copies.set0.hR _); iexact HR0
    isplitl [HR1]; · iapply (held_ex (tthr d i) Copies.set1.hR _); iexact HR1
    isplitl [HW0]; · iapply (held_ex (tthr d i) Copies.set0.hW _); iexact HW0
    isplitl [HW1]; · iapply (held_ex (tthr d i) Copies.set1.hW _); iexact HW1
    isplitl [H18]; · iapply (held_ex (tthr d i) (Memref.isWhole_whole cc1_scratch8) _); iexact H18
    isplitl [H19]; · iexists _; iexact H19
    iexists _; iexact H20
  isplitl [Hs21 Hs22 Hs0 Hs1 Hs2 Hs3 Hs4]
  · iframe Hs21 Hs22 Hs0 Hs1 Hs2 Hs3
    iexact Hs4
  iexact HO

end Core

section Body

variable (d : Dev nD) (L : grid1.Coords) (q : PosShare TreeShare) (cv : CallVals (F := F) d)

set_option maxHeartbeats 2000000 in
theorem tile_body (hF : (K (F := F)).Facts) (f0 po : Buf (Elt F) (outLoc d))
    (hrows : ∀ x, ((cv.rows : Vec F S1600000 .i32) x).toNat ≤ 199999)
    (hpo : (outSl L).view.read (Elt F) (po : Buf (Elt F) ((outSl L).view.loc (tthr d L))) = tileOut (cv.pk : Vec F S1x8192 .i32) (cv.rows : Vec F S1600000 .i32) (cv.cols : Vec F S1600000 .i32) (cv.w : Vec F S1600000 .f32) (cv.pi : Vec F S16 .f32) (cv.sd : Vec F S16 .f32) (cv.psc : Vec F S1x200704 .f32) (widOf L))
    (O : CellTallies nD τ sig (HIx 1)) (W : Waits sig (HIx 1)) (hO : ∀ g, O g none = 0) :
    iprop(levAts (K (F := F)).L (K (F := F)).lev ∗ emp ∗ (reads d cv q ∗ outRowPts d (widOf L) f0)
        ∗ scopedBufs (tthr d L) ∗ scopedSems0 (tthr d L) ∗ owes (tthr d L) O W)
      ⊢ wp frame (wpE (defs₀ (F := F)) 𝒱₀ (tthr d L) none) Set.univ (cc1__sc_edge_kernel L (Memref.whole main_v8_scv) (Memref.isWhole_whole _) (Memref.whole main_v1_scv) (Memref.isWhole_whole _) (Memref.whole main_v3_scv) (Memref.isWhole_whole _) (Memref.whole main_arg6_scv) (Memref.isWhole_whole _) (Memref.whole main_v4_scv) (Memref.isWhole_whole _) (Memref.whole main_v6_scv) (Memref.isWhole_whole _) (Memref.whole main_v5_scv) (Memref.isWhole_whole _) (Memref.whole main_v9_scv) (Memref.isWhole_whole _) (Memref.whole cc1_scratch0) (Memref.isWhole_whole _) (Memref.whole cc1_scratch1) (Memref.isWhole_whole _) (Memref.whole cc1_scratch2) (Memref.isWhole_whole _) (Memref.whole cc1_scratch3) (Memref.isWhole_whole _) (Memref.whole cc1_scratch4) (Memref.isWhole_whole _) (Memref.whole cc1_scratch5) (Memref.isWhole_whole _) (Memref.whole cc1_scratch6) (Memref.isWhole_whole _) (Memref.whole cc1_scratch7) (Memref.isWhole_whole _) (Memref.whole cc1_scratch8) (Memref.isWhole_whole _) (Memref.whole cc1_scratch9) (Memref.isWhole_whole _) (Memref.whole cc1_scratch10) (Memref.isWhole_whole _) cc1_scratch11 cc1_scratch12 cc1_scoped0 cc1_scoped1 cc1_scoped2 cc1_scoped3 cc1_scoped4)
          fun _ => (iprop((reads d cv q ∗ outRowPts d (widOf L) po) ∗ scopedBufs (tthr d L) ∗ scopedSems0 (tthr d L)
            ∗ ∃ W', ⌜∀ p ∈ W', p ∈ W ∨ p.2 = none⌝ ∗ owes (tthr d L) O W') : sProp 𝕄) := by
  rw [(K (F := F)).scopedBufs_V hF d _ _, SparseCore.Cfg.scopedSems0_V (Val := Elt F) d _ _, ownBufs_mine, ownSems0_mine]
  iintro ⟨#Hlv, -, Hr, ⟨Hb, Hbrest⟩, ⟨Hs, Hsrest⟩, HO⟩
  ihave Hmw := ((K (F := F)).mayWaits_none (thr := tthr d L) hO) $$ Hlv
  iapply (wp_wand_r frame _ _)
  isplitl [Hr Hb Hs HO]
  · iapply (tile_core d L q cv O W f0 po hrows hpo)
    iframe Hmw Hr Hb Hs
    iexact HO
  iintro %u ⟨Hr, Hb, Hs, HO⟩
  iframe Hr Hb Hbrest Hs Hsrest
  iexact HO

end Body

end Cert.Proof.Tile

end
-- ==== Proof.TileRow.lean ====
import proofs.«215744_g19043884990565_cont_8to1_1279_72_alg».proof.Proof.TileInit
import proofs.«215744_g19043884990565_cont_8to1_1279_72_alg».proof.Proof.Gen.KernelIdeal
import Idealize.ShloMosaic.Lib.ValueIdx

noncomputable section

namespace Cert.Proof.Tile

open Cert.KernelIdeal Cert.KernelIdeal.Gen

open Idealize.ShloMosaic
open Idealize.ShloMosaic.ValueIdx

variable {F : FTy → Type}

abbrev rowSl (i : grid1.Coords) : Memref sig .scVector .hbm S50176 .f32 :=
  ((Memref.whole main_v9_scv : Memref sig Kind.scVector .hbm S32x50176 EltTy.f32).slice
      (Rect.unit (s := S32x50176) (k1_off55 i) S1x50176.size (k1_off55_inb i)) (fun _ => rfl)).squeeze S50176
    squeezes_S1x50176_S50176

-- The row-major position of `(0, j)` in a `1 × n` shape is `j`.
theorem squeeze_row_idx {n : Nat} (h : (⟨1, ![n]⟩ : Shape).numel = (⟨2, ![1, n]⟩ : Shape).numel) (j : (⟨1, ![n]⟩ : Shape).Idx) :
    Shape.reshapeEquiv h j = ix2 (0 : Fin 1) (Fin.mk (n := n) (j 0).val (j 0).isLt) :=
  Shape.reshapeEquiv_eq_of_rowMajor h
    ((Shape.rowMajor_val_two (d := ![1, n]) _).trans
      ((show 0 * n + (j 0).val = (j 0).val by omega).trans (Shape.rowMajor_val_one (d := ![n]) j).symm))

-- The slice's offset is `(2 (i 1) + i 0, 0)`, so index `x` lands on `(widOf i, x)`.
theorem read_rowSl (g : Fin 32 → Vec F S50176 .f32) (i : grid1.Coords) :
    (rowSl i).view.read (Elt F)
        (fun j : S32x50176.Idx => g (⟨(j 0).val, (j 0).isLt⟩ : Fin 32) (ix1 (⟨(j 1).val, (j 1).isLt⟩ : Fin 50176)))
      = g (widOf i) := by
  funext x
  have h0 : (k1_off55 i) 0 = 2 * (i 1).val + (i 0).val := by rw [k1_off55_eq]; rfl
  have h1 : (k1_off55 i) 1 = 0 := by rw [k1_off55_eq]; rfl
  show (fun j : S32x50176.Idx => g (⟨(j 0).val, (j 0).isLt⟩ : Fin 32) (ix1 (⟨(j 1).val, (j 1).isLt⟩ : Fin 50176)))
      (((Memref.whole main_v9_scv : Memref sig Kind.scVector .hbm S32x50176 EltTy.f32).view.slice
          (Rect.unit (s := S32x50176) (k1_off55 i) S1x50176.size (k1_off55_inb i))).emb
        (Shape.reshapeEquiv (s := ⟨2, ![1, 50176]⟩) (s' := ⟨1, ![50176]⟩) squeezes_S1x50176_S50176.numel_eq x))
    = g (widOf i) x
  rw [squeeze_row_idx]
  beta_reduce
  refine congr (congrArg g (Fin.ext ?_)) (funext fun a => ?_)
  · show (k1_off55 i) 0 + 1 * 0 = (widOf i).val
    rw [h0, widOf_val]; omega
  · have ha : a = (0 : Fin 1) := Subsingleton.elim (α := Fin 1) a 0
    subst ha
    apply Fin.ext
    show (k1_off55 i) 1 + 1 * (x 0).val = (x 0).val
    rw [h1]; omega

end Cert.Proof.Tile

end
-- ==== Proof.Final.lean ====
import proofs.«215744_g19043884990565_cont_8to1_1279_72_alg».proof.Proof.Run
import proofs.«215744_g19043884990565_cont_8to1_1279_72_alg».proof.Proof.TileObl
import proofs.«215744_g19043884990565_cont_8to1_1279_72_alg».proof.Proof.KernelHost
import proofs.«215744_g19043884990565_cont_8to1_1279_72_alg».proof.Proof.RegionCalls
import proofs.«215744_g19043884990565_cont_8to1_1279_72_alg».proof.Proof.TileOut
import proofs.«215744_g19043884990565_cont_8to1_1279_72_alg».proof.Proof.TileBody
import proofs.«215744_g19043884990565_cont_8to1_1279_72_alg».proof.Proof.TileRow
import proofs.«215744_g19043884990565_cont_8to1_1279_72_alg».proof.Proof.UpdateBody

noncomputable section

namespace Cert.Proof.Launch

open Cert.KernelIdeal Cert.KernelIdeal.Gen
open Idealize.ShloMosaic Idealize.ShloMosaic.ValueIdx
open Idealize.ShloMosaic.SparseCore (S V T)
open Idealize.ShloMosaic.SparseCore.Cfg (HIx Pay)
open Idealize.ShloMosaic.StableHlo (held)
open Idealize.ShloMosaic.Pipeline (ucRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Proof

variable {F : FTy → Type} [FloatOps F]

variable (m : (ℓ : Loc nD τ sig) → Buf (Elt F) ℓ) (ρ : Dev nD → PrngReg)

-- Array `main_v1` is untouched by the first call, so the precondition's bound applies.
theorem rows_ok [Cert.Pre_input_domain.Facts] (d : Dev nD) (hpre : KHost.PreAt (V0 m d)) (x : S1600000.Idx) :
    ((cvOf d (V1 m Pack.packed d)).rows x).toNat ≤ 199999 := by
  show ((Function.update (VA m d) (rf main_v8) (Pack.packed (VA m d (rf main_v7))) (rf main_v1) : IVec S1600000 32) x).toNat ≤ 199999
  rw [Function.update_of_ne (show rf main_v1 ≠ rf main_v8 by decide), eq_ix1 x]
  exact KHost.rows_le (V0 m d) hpre (x 0)

-- `run_main` with its five hypotheses supplied.
theorem run_all [∀ e, Nonempty (Elt F e)] [Cert.Pre_input_domain.Facts] (hpre : ∀ d, KHost.PreAt (V0 m d)) :
    θ_run (Cert.KernelIdeal.defs (F := F)) (Cert.KernelIdeal.threads (F := F)) ⟨m, fun _ => 0, ρ⟩
      (QC m Pack.packed Tile.tileOut Update.out) :=
  run_main m ρ Pack.packed Tile.tileOut Update.out (Gp (F := F) 0) (Gp (F := F) 1)
    (fun d => KHost.VA_keep (V0 m d) main_v9 (by decide))
    (tileObl m Pack.packed Tile.tileOut fun d L O W hO => by
      have hw : wid (cL L) (sL L) = Tile.widOf L := Fin.ext rfl
      unfold goAt tdAt
      rw [hw]
      exact Tile.tile_body (U := UU) d L (tileShare (cL L) (sL L)) (cvOf d (V1 m Pack.packed d)) facts (m (outLoc d))
        (poOf m Pack.packed Tile.tileOut d) (rows_ok m d (hpre d)) (Tile.read_rowSl _ L) O W hO)
    G_split (region_0 (PM m Pack.packed Tile.tileOut)) (region_1 (PM m Pack.packed Tile.tileOut))

end Cert.Proof.Launch

end
-- ==== Proof.ArgsKept.lean ====
import proofs.«215744_g19043884990565_cont_8to1_1279_72_alg».proof.Proof.Main
import proofs.«215744_g19043884990565_cont_8to1_1279_72_alg».proof.Proof.KernelHost

noncomputable section

namespace Cert.Proof.Launch

open Cert.KernelIdeal Cert.KernelIdeal.Gen
open Idealize.ShloMosaic Idealize.ShloMosaic.ValueIdx
open Idealize.SL Idealize.SL.Sem

variable {F : FTy → Type} [FloatOps F]
variable (m : (ℓ : Loc nD τ sig) → Buf (Elt F) ℓ)

variable (packF : Vec F S1x262144 .f32 → Vec F S1x8192 .i32)
variable (tileF : Vec F S1x8192 .i32 → Vec F S1600000 .i32 → Vec F S1600000 .i32 → Vec F S1600000 .f32 → Vec F S16 .f32 → Vec F S16 .f32
  → Vec F S1x200704 .f32 → Fin 32 → Vec F S50176 .f32)
variable (updF : Vec F S32x50176 .f32 → Vec F S1x50000 .f32 → Vec F S1x50000 .f32 → Vec F S1x50000 .f32 → Vec F S1x50000 .f32 → Vec F S1x50000 .f32
  → Vec F S1x50000 .f32 → Vec F S1x50000 .f32 → Vec F S1x50000 .f32 → Vec F S1x50000 .f32 → Vec F S1x50000 .f32 → Vec F S1x50000 .f32
  → Vec F S1x50000 .f32 → Vec F S2 .f32 → Vec F S2 .f32 → Vec F S1x50000 .f32)

abbrev argRefs : List (Ref sig .tc) :=
  [main_arg0, main_arg1, main_arg2, main_arg3, main_arg4, main_arg5, main_arg6, main_arg7, main_arg8, main_arg9,
   main_arg10, main_arg11, main_arg12, main_arg13, main_arg14, main_arg15, main_arg16, main_arg17, main_arg18]

-- No host operation writes an argument, and no call's result is one.
theorem argRefs_clear : ∀ r ∈ argRefs, r ∉ KHost.writtenA ∧ r ∉ KHost.writtenB
    ∧ rf r ≠ rf main_v8 ∧ rf r ≠ rf main_v9 ∧ rf r ≠ rf main_v17 := by decide

-- So an argument holds its launch contents after the second call, after the second line, and at the end.
theorem V2_arg (d : Dev nD) (r : Ref sig .tc) (hr : r ∈ argRefs) : V2 m packF tileF d (rf r) = m (d, rf r) :=
  have h := argRefs_clear r hr
  (Function.update_of_ne h.2.2.2.1 _ _).trans ((Function.update_of_ne h.2.2.1 _ _).trans (KHost.VA_keep _ r h.1))

theorem VB_arg (d : Dev nD) (r : Ref sig .tc) (hr : r ∈ argRefs) : VB m packF tileF d (rf r) = m (d, rf r) :=
  (KHost.VB_keep _ r (argRefs_clear r hr).2.1).trans (V2_arg m packF tileF d r hr)

theorem args_kept (d : Dev nD) (r : Ref sig .tc) (hr : r ∈ argRefs) :
    V3 m packF tileF updF d (rf r) = m ((d.tc : Thread nD τ).loc r) :=
  (Function.update_of_ne (argRefs_clear r hr).2.2.2.2 _ _).trans (VB_arg m packF tileF d r hr)

theorem V3_result (d : Dev nD) :
    V3 m packF tileF updF d (rf main_v17)
      = updF (VB m packF tileF d (rf main_v9)) (VB m packF tileF d (rf main_arg1)) (VB m packF tileF d (rf main_arg2))
          (VB m packF tileF d (rf main_arg3)) (VB m packF tileF d (rf main_arg4)) (VB m packF tileF d (rf main_arg7))
          (VB m packF tileF d (rf main_v10)) (VB m packF tileF d (rf main_v11)) (VB m packF tileF d (rf main_v12))
          (VB m packF tileF d (rf main_v13)) (VB m packF tileF d (rf main_v14)) (VB m packF tileF d (rf main_v15))
          (VB m packF tileF d (rf main_v16)) (VB m packF tileF d (rf main_arg11)) (VB m packF tileF d (rf main_arg10)) :=
  Function.update_self _ _ _

theorem VB_v9 (d : Dev nD) : VB m packF tileF d (rf main_v9) = poOf m packF tileF d :=
  (KHost.VB_keep _ main_v9 (by decide)).trans (Function.update_self _ _ _)

-- Row `t` of the partial sums is what tile `t` leaves, of the packed padded spikes, the first line's six arrays and the weights.
theorem poOf_apply (d : Dev nD) (t : Fin 32) (n : Fin 50176) :
    poOf m packF tileF d (ix2 t n)
      = tileF (packF (VA m d (rf main_v7))) (VA m d (rf main_v1)) (VA m d (rf main_v3)) (m (d, rf main_arg6))
          (VA m d (rf main_v4)) (VA m d (rf main_v5)) (VA m d (rf main_v6)) t (ix1 n) := by
  unfold poOf V1
  rw [Function.update_self]; repeat rw [Function.update_of_ne (by decide)]
  rw [show VA m d (rf main_arg6) = m (d, rf main_arg6) from KHost.VA_keep _ main_arg6 (by decide)] <;> rfl

end Cert.Proof.Launch

end
-- ==== Proof.Frames.lean ====
import proofs.«215744_g19043884990565_cont_8to1_1279_72_alg».proof.Proof.Run
import proofs.«215744_g19043884990565_cont_8to1_1279_72_alg».proof.Proof.ArgsKept

noncomputable section

namespace Cert.Proof.Launch

open Cert.KernelIdeal Cert.KernelIdeal.Gen
open Idealize.ShloMosaic Idealize.ShloMosaic.ValueIdx
open Idealize.ShloMosaic.Pipeline (ucRefs)
open Idealize.SL Idealize.SL.Sem

variable {F : FTy → Type} [FloatOps F]

variable (m : (ℓ : Loc nD τ sig) → Buf (Elt F) ℓ)
variable (packF : Vec F S1x262144 .f32 → Vec F S1x8192 .i32)
variable (tileF : Vec F S1x8192 .i32 → Vec F S1600000 .i32 → Vec F S1600000 .i32 → Vec F S1600000 .f32 → Vec F S16 .f32 → Vec F S16 .f32
  → Vec F S1x200704 .f32 → Fin 32 → Vec F S50176 .f32)
variable (updF : Vec F S32x50176 .f32 → Vec F S1x50000 .f32 → Vec F S1x50000 .f32 → Vec F S1x50000 .f32 → Vec F S1x50000 .f32 → Vec F S1x50000 .f32
  → Vec F S1x50000 .f32 → Vec F S1x50000 .f32 → Vec F S1x50000 .f32 → Vec F S1x50000 .f32 → Vec F S1x50000 .f32 → Vec F S1x50000 .f32
  → Vec F S1x50000 .f32 → Vec F S2 .f32 → Vec F S2 .f32 → Vec F S1x50000 .f32)

-- Each argument array ends at the last valuation's value, which is its launch contents.
theorem post_args (r : PUnit × MemSt nD τ sig (Elt F)) (h : QC m packF tileF updF r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18) := by
  have e : ∀ a ∈ argRefs, r.2.mem ((c.tc : Thread nD τ).loc a) = m ((c.tc : Thread nD τ).loc a) := fun a ha =>
    (h c (rf a) ((by decide : ∀ a ∈ argRefs, rf a ∈ ucRefs τ sig) a ha)).trans (args_kept m packF tileF updF c a ha)
  and_intros <;> exact e _ (by decide)

theorem post_result (r : PUnit × MemSt nD τ sig (Elt F)) (h : QC m packF tileF updF r) (c : Dev nD) :
    r.2.mem ((c.tc : Thread nD τ).loc main_v17) = V3 m packF tileF updF c (rf main_v17) :=
  h c (rf main_v17) (by decide)

end Cert.Proof.Launch

end
-- ==== Proof.Bits.Base.lean ====
import proofs.«215744_g19043884990565_cont_8to1_1279_72_alg».proof.Defs
import proofs.«215744_g19043884990565_cont_8to1_1279_72_alg».proof.Proof.Gen.Kernel
import Idealize.ShloMosaic.Lib.SparseCore.Launch

noncomputable section

namespace Cert.ProofB.Launch

open Cert.Kernel Cert.Kernel.Gen
open Idealize.ShloMosaic
open Idealize.SL Idealize.SL.Sem

variable {F : FTy → Type}

abbrev ΛP : Labels := Pipeline.Sig Λ₀ (Fin 2) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem nCore_zero : (K (F := F)).nCore 0 = 2 := rfl
theorem nSub_zero : (K (F := F)).nSub 0 = 16 := rfl

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

end Cert.ProofB.Launch

end
-- ==== Proof.Bits.Ghost.lean ====
import proofs.«215744_g19043884990565_cont_8to1_1279_72_alg».proof.Proof.Bits.Base
import proofs.«215744_g19043884990565_cont_8to1_1279_72_alg».proof.Proof.Gen.Kernel.Launch
import Idealize.ShloMosaic.Lib.Pipeline.Kit
import Idealize.ShloMosaic.Lib.Pipeline.Regions
import Idealize.ShloMosaic.Lib.Transfers
import Idealize.ShloMosaic.Lib.Pipeline.Frame
import Idealize.ShloMosaic.Lib.StableHlo.Run

noncomputable section

namespace Cert.ProofB.Launch

open Cert.Kernel Cert.Kernel.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held)

variable {F : FTy → Type}

-- The resource algebra: the rounds algebra twice, and the counters.
abbrev UH : Type := URounds (GSem nD τ sig) ℕ
abbrev UP : Type := URounds (GSem nD τ sig) Unit
abbrev UU : Type := UH × (UP × Counters)

local notation "𝕄" => MT nD τ sig (HIx 1) (Elt F) ℕ UU ℕ

abbrev EH : Emb UH (MT nD τ sig (HIx 1) (Elt F) ℕ UU ℕ) := embL
def EP : Emb UP (MT nD τ sig (HIx 1) (Elt F) ℕ UU ℕ) := (Emb.inl : Emb UP (UP × Counters)).trans embR

instance EP_landsIn : (EP (F := F)).LandsIn (upEmb : UEmb _ 𝕄) := by unfold EP; infer_instance

abbrev adm : (p : Fin 2) → (pcfgs (F := F) p).Adm := fun p => (cfgs p).toPCfg_adm

-- The two regions' configurations, and the type of one's proof data.
abbrev pn (F : FTy → Type) := Pipeline.pin (pcfgs (F := F)) adm
abbrev PDat (F : FTy → Type) (p : Fin 2) (c : Dev nD) := Pipeline.Dat τ (Elt F) (HIx 1) ℕ UU ℕ (pn F p) c

-- The types of the three value functions: the packing call's, a tile's, the update call's.
abbrev PackF (F : FTy → Type) := Vec F S1x262144 .f32 → Vec F S1x8192 .i32
abbrev TileF (F : FTy → Type) := Vec F S1x8192 .i32 → Vec F S1600000 .i32 → Vec F S1600000 .i32 → Vec F S1600000 .f32 → Vec F S16 .f32 → Vec F S16 .f32
  → Vec F S1x200704 .f32 → Fin 32 → Vec F S50176 .f32
abbrev UpdF (F : FTy → Type) := Vec F S32x50176 .f32 → Vec F S1x50000 .f32 → Vec F S1x50000 .f32 → Vec F S1x50000 .f32 → Vec F S1x50000 .f32 → Vec F S1x50000 .f32
  → Vec F S1x50000 .f32 → Vec F S1x50000 .f32 → Vec F S1x50000 .f32 → Vec F S1x50000 .f32 → Vec F S1x50000 .f32 → Vec F S1x50000 .f32
  → Vec F S1x50000 .f32 → Vec F S2 .f32 → Vec F S2 .f32 → Vec F S1x50000 .f32

theorem phinj : Function.Injective (Pipeline.cellOf (nD := nD) (τ := τ) (pn F)) :=
  cellOf_inj

-- The launch element: the initial rounds of the handshakes' cells and of the regions' cells, with their tokens.
def u₀ : UU :=
  (initOf (K (F := F)).hsCells (K (F := F)).hsToks, (initOf (Pipeline.cells (pn F) phinj) (Pipeline.launchToks (pn F) phinj), 1))

abbrev G (d : Dev nD) : sProp 𝕄 := Pipeline.ghostOn (pcfgs (F := F)) adm EP Finset.univ d

-- Region `p`'s part of it.
abbrev Gp (p : Fin 2) (d : Dev nD) : sProp 𝕄 :=
  iprop(Pipeline.cellsGhost (pn F) EP p d ∗ Pipeline.toksInit (pn F) EP p d)

-- The rule of call `n`, region `p`: given the ghost state `Gp`, the held arrays go from `Vin` to `Vout`.
abbrev CallRule [FloatOps F] (P : (K (F := F)).Pay (nD := nD) (Val := Elt F) (Name := ℕ) (U := UU)) (p : Fin 2) (n : ℕ)
    (Gp : Dev nD → sProp 𝕄) (Vin Vout : Valuation τ sig (Elt F)) : Prop :=
  ∀ (κ : GSem nD τ sig → ℕ) (d : Dev nD) {β : Type} (k : PUnit → Prog (TpuEff nD τ sig (Elt F) (SparseCore.Sig (ΛP (F := F)) 1) .tc) β)
    (Φ : β → sProp 𝕄),
    iprop((K (F := F)).ctx EH P κ ∗ (K (F := F)).tcSt EH d n ∗ boundary (T d) ∗ held (T d) (Pipeline.ucRefs τ sig) Vin ∗ Gp d)
      ⊢ iprop((iprop((K (F := F)).tcSt EH d n ∗ boundary (T d) ∗ held (T d) (Pipeline.ucRefs τ sig) Vout)
            -∗ wp frame (wpE ((K (F := F)).defs (D (F := F))) 𝒱 (T d) none) Set.univ (k ⟨⟩) Φ)
          -∗ wp frame (wpE ((K (F := F)).defs (D (F := F))) 𝒱 (T d) none) Set.univ
              (Prog.lift (.customCall (SparseCore.inner (Pipeline.entry p)) ()) >>= k) Φ)

-- The launch element splits into the handshakes' rounds and every core's `G`.
theorem fund_u₀ : (ownU (u₀ (F := F)) : sProp 𝕄)
    ⊢ |={Set.univ}=> iprop(BI.own (EH (initOf (K (F := F)).hsCells (K (F := F)).hsToks)) ∗ bigSep Finset.univ fun d : Dev nD => G (F := F) d) := by
  unfold u₀
  iintro Hu
  ihave ⟨HH, HR⟩ := (ownU_pair _ _) $$ Hu
  ihave ⟨HP, -⟩ := (own_pair_emb (embR (A := UH) (B := UP × Counters)) _ _) $$ HR
  ihave HP' := (show (BI.own (((Emb.inl : Emb UP (UP × Counters)).trans (embR (A := UH) (B := UP × Counters))) _) : sProp 𝕄)
      ⊢ BI.own ((EP (F := F)) (initOf (Pipeline.cells (pn F) phinj) (Pipeline.launchToks (pn F) phinj))) from Entails.refl _) $$ HP
  imod (Pipeline.fund_ghost (pn F) (EP (F := F)) phinj) $$ HP' with ⟨Hg, Ht⟩
  imodintro
  rw [show (bigSep Finset.univ fun d : Dev nD => G (F := F) d)
      = iprop((bigSep Finset.univ fun c : Dev nD => bigSep Finset.univ fun p : Fin 2 => Pipeline.cellsGhost (pn F) (EP (F := F)) p c)
          ∗ (bigSep Finset.univ fun c : Dev nD => bigSep Finset.univ fun p : Fin 2 => (Pipeline.toksInit (pn F) (EP (F := F)) p c : sProp 𝕄))) from by
    rw [← bigSep_sep']
    exact bigSep_congr fun d _ => by rw [← bigSep_sep']; rfl]
  iframe

end Cert.ProofB.Launch

end
-- ==== Proof.Bits.Pay.lean ====
import proofs.«215744_g19043884990565_cont_8to1_1279_72_alg».proof.Proof.Bits.Base
import Idealize.ShloMosaic.Lib.Transfers

noncomputable section

namespace Cert.ProofB.Launch

open Cert.Kernel Cert.Kernel.Gen
open Idealize.ShloMosaic
open Idealize.ShloMosaic.SparseCore (S V T)
open Idealize.ShloMosaic.SparseCore.Cfg (HIx Pay)
open Idealize.ShloMosaic.Transfers (shareDrop shareTok pointsTo_toks pointsTo_toks_split pointsTo_toks_join)
open Idealize.SL Idealize.SL.RA Idealize.SL.BI
open scoped Idealize.SL.BI
open Idealize.SL.BI.BIBase Idealize.SL.BI.Laws Idealize.SL.ProofMode Idealize.SL.Sem

variable {F : FTy → Type} {U : Type} [URA U]

local notation "𝕄" => MT nD τ sig (HIx 1) (Elt F) ℕ U ℕ

-- The seven arrays the middle call reads and the one it writes.
abbrev pkLoc (d : Dev nD) : Loc nD τ sig := (SparseCore.T d).loc main_v8
abbrev rowsLoc (d : Dev nD) : Loc nD τ sig := (SparseCore.T d).loc main_v1
abbrev colsLoc (d : Dev nD) : Loc nD τ sig := (SparseCore.T d).loc main_v3
abbrev wLoc (d : Dev nD) : Loc nD τ sig := (SparseCore.T d).loc main_arg6
abbrev piLoc (d : Dev nD) : Loc nD τ sig := (SparseCore.T d).loc main_v4
abbrev pscLoc (d : Dev nD) : Loc nD τ sig := (SparseCore.T d).loc main_v6
abbrev sdLoc (d : Dev nD) : Loc nD τ sig := (SparseCore.T d).loc main_v5
abbrev outLoc (d : Dev nD) : Loc nD τ sig := (SparseCore.T d).loc main_v9

structure CallVals (d : Dev nD) where
  pk : Buf (Elt F) (pkLoc d)
  rows : Buf (Elt F) (rowsLoc d)
  cols : Buf (Elt F) (colsLoc d)
  w : Buf (Elt F) (wLoc d)
  pi : Buf (Elt F) (piLoc d)
  psc : Buf (Elt F) (pscLoc d)
  sd : Buf (Elt F) (sdLoc d)

def reads (d : Dev nD) (cv : CallVals (F := F) d) (q : PosShare TreeShare) : sProp 𝕄 :=
  iprop((pkLoc d ↦{q} cv.pk) ∗ (rowsLoc d ↦{q} cv.rows) ∗ (colsLoc d ↦{q} cv.cols) ∗ (wLoc d ↦{q} cv.w)
    ∗ (piLoc d ↦{q} cv.pi) ∗ (pscLoc d ↦{q} cv.psc) ∗ (sdLoc d ↦{q} cv.sd))

instance reads_storable (d : Dev nD) (cv : CallVals (F := F) d) (q : PosShare TreeShare) :
    BI.Storable (upEmb : UEmb _ 𝕄) (reads (U := U) d cv q) := by unfold reads; infer_instance

theorem hdiv32 : 32 ∣ S32x50176.size 0 := ⟨1, rfl⟩
abbrev outRow (t : Fin 32) : Rect S32x50176 := Rect.part (s := S32x50176) (a₀ := 0) hdiv32 t
abbrev outV : Memref sig .scVector .hbm S32x50176 .f32 := Memref.whole main_v9_scv
abbrev rowSet (t : Fin 32) : Finset S32x50176.Idx := ((outV : Memref sig .scVector .hbm S32x50176 .f32).view.slice (outRow t)).set

-- Task `s` of core `c` writes row `2 s + c` of the result, and no two tasks the same row.
def wid (c : Fin 2) (s : Fin 16) : Fin 32 := ⟨2 * s.val + c.val, by omega⟩

theorem wid_injective : Function.Injective fun cs : Fin 2 × Fin 16 => wid cs.1 cs.2 := by
  rintro ⟨c, s⟩ ⟨c', s'⟩ h
  have h' : 2 * s.val + c.val = 2 * s'.val + c'.val := congrArg Fin.val h
  exact Prod.ext (Fin.ext (show c.val = c'.val by omega)) (Fin.ext (show s.val = s'.val by omega))

abbrev outRowPts (d : Dev nD) (t : Fin 32) (f : Buf (Elt F) (outLoc d)) : sProp 𝕄 := outLoc d ↦[rowSet t]{fullShare} f

-- Shares: a whole array is cut in 2, each part in 16.
abbrev coreShare (c : Fin 2) : PosShare TreeShare := shareTok fullShare 2 c
abbrev tileShare (c : Fin 2) (s : Fin 16) : PosShare TreeShare := shareTok (coreShare c) 16 s

variable (m : (ℓ : Loc nD τ sig) → Buf (Elt F) ℓ)
variable (cv : (d : Dev nD) → CallVals (F := F) d) (po : (d : Dev nD) → Buf (Elt F) (outLoc d))

-- The payloads: out with the rows at `m`, back with the rows at `po`.
def P : (K (F := F)).Pay (nD := nD) (Val := Elt F) (Name := ℕ) (U := U) where
  st := fun q d c => match q with
    | 0 => iprop(reads d (cv d) (coreShare (Fin.cast nCore_zero c))
        ∗ bigSep Finset.univ fun s : Fin 16 => outRowPts d (wid (Fin.cast nCore_zero c) s) (m (outLoc d)))
  dn := fun q d c => match q with
    | 0 => iprop(reads d (cv d) (coreShare (Fin.cast nCore_zero c))
        ∗ bigSep Finset.univ fun s : Fin 16 => outRowPts d (wid (Fin.cast nCore_zero c) s) (po d))
  go := fun q d c i => match q with
    | 0 => iprop(reads d (cv d) (tileShare (Fin.cast nCore_zero c) (Fin.cast nSub_zero i))
        ∗ outRowPts d (wid (Fin.cast nCore_zero c) (Fin.cast nSub_zero i)) (m (outLoc d)))
  td := fun q d c i => match q with
    | 0 => iprop(reads d (cv d) (tileShare (Fin.cast nCore_zero c) (Fin.cast nSub_zero i))
        ∗ outRowPts d (wid (Fin.cast nCore_zero c) (Fin.cast nSub_zero i)) (po d))
  x := fun _ _ => iprop(emp)

instance P_storable : (P (F := F) (U := U) m cv po).IsStorable := by
  constructor <;> intro q <;> (match q with | 0 => intros; dsimp only [P]; infer_instance)

end Cert.ProofB.Launch

end
-- ==== Proof.Bits.Split.lean ====
import proofs.«215744_g19043884990565_cont_8to1_1279_72_alg».proof.Proof.Bits.Pay

noncomputable section

namespace Cert.ProofB.Launch

open Cert.Kernel Cert.Kernel.Gen
open Idealize.ShloMosaic
open Idealize.ShloMosaic.SparseCore (S V T)
open Idealize.ShloMosaic.SparseCore.Cfg (HIx Pay)
open Idealize.ShloMosaic.Transfers (shareDrop shareTok pointsTo_toks pointsTo_toks_split pointsTo_toks_join)
open Idealize.SL Idealize.SL.RA Idealize.SL.BI
open scoped Idealize.SL.BI
open Idealize.SL.BI.BIBase Idealize.SL.BI.Laws Idealize.SL.ProofMode Idealize.SL.Sem

variable {F : FTy → Type} {U : Type} [URA U]

local notation "𝕄" => MT nD τ sig (HIx 1) (Elt F) ℕ U ℕ

-- Two resources that each are a remainder and `n` tokens are, together, the two remainders and `n` pairs of tokens.
theorem toks_sep {n : ℕ} {A B A' B' : sProp 𝕄} {Ta Tb : Fin n → sProp 𝕄} (ha : A ⊣⊢ iprop(A' ∗ bigSep Finset.univ Ta))
    (hb : B ⊣⊢ iprop(B' ∗ bigSep Finset.univ Tb)) : iprop(A ∗ B) ⊣⊢ iprop((A' ∗ B') ∗ bigSep Finset.univ fun i => iprop(Ta i ∗ Tb i)) := by
  rw [bigSep_sep']
  exact (sep_congr ha hb).trans sep_sep_sep_comm

-- `toks_sep` six times over the seven points-to facts of `reads`.
theorem reads_toks (d : Dev nD) (cv : CallVals (F := F) d) (q : PosShare TreeShare) (n : ℕ) :
    (reads (U := U) d cv q : sProp 𝕄) ⊣⊢ iprop(reads d cv (shareDrop q n) ∗ bigSep Finset.univ fun i : Fin n => reads d cv (shareTok q n i)) := by
  unfold reads
  exact toks_sep (pointsTo_toks q n) (toks_sep (pointsTo_toks q n) (toks_sep (pointsTo_toks q n) (toks_sep (pointsTo_toks q n)
    (toks_sep (pointsTo_toks q n) (toks_sep (pointsTo_toks q n) (pointsTo_toks q n))))))

theorem reads_split (d : Dev nD) (cv : CallVals (F := F) d) (q : PosShare TreeShare) (n : ℕ) :
    (reads (U := U) d cv q : sProp 𝕄) ⊢ iprop(reads d cv (shareDrop q n) ∗ bigSep Finset.univ fun i : Fin n => reads d cv (shareTok q n i)) :=
  (reads_toks d cv q n).1

theorem reads_join (d : Dev nD) (cv : CallVals (F := F) d) (q : PosShare TreeShare) (n : ℕ) :
    iprop(reads d cv (shareDrop q n) ∗ bigSep Finset.univ fun i : Fin n => reads d cv (shareTok q n i)) ⊢ (reads (U := U) d cv q : sProp 𝕄) :=
  (reads_toks d cv q n).2

variable (m : (ℓ : Loc nD τ sig) → Buf (Elt F) ℓ)
variable (cv : (d : Dev nD) → CallVals (F := F) d) (po : (d : Dev nD) → Buf (Elt F) (outLoc d))

-- One core's share goes to its sixteen tasks and comes back: the tokens split and rejoin, each row is one task's own.
theorem split_core (d : Dev nD) (c : Fin 2) :
    iprop(reads d (cv d) (coreShare c) ∗ bigSep Finset.univ fun s : Fin 16 => outRowPts d (wid c s) (m (outLoc d)))
      ⊢ |={Set.univ}=> iprop((bigSep Finset.univ fun i : Fin 16 => iprop(reads d (cv d) (tileShare c i) ∗ outRowPts d (wid c i) (m (outLoc d))))
        ∗ ((bigSep Finset.univ fun i : Fin 16 => iprop(reads d (cv d) (tileShare c i) ∗ outRowPts d (wid c i) (po d)))
          -∗ iprop(reads (U := U) d (cv d) (coreShare c) ∗ bigSep Finset.univ fun s : Fin 16 => outRowPts d (wid c s) (po d)))) := by
  rw [bigSep_sep', bigSep_sep']
  iintro ⟨Hr, Ho⟩
  ihave ⟨Hrem, Htoks⟩ := (reads_split (U := U) d (cv d) (coreShare c) 16) $$ Hr
  imodintro
  iframe Htoks Ho
  iintro ⟨Htoks, Ho⟩
  iframe Ho
  iapply (reads_join (U := U) d (cv d) (coreShare c) 16)
  iframe

theorem vecSplit : (K (F := F)).VecSplit' (P (U := U) m cv po) 0 :=
  fun d c => split_core m cv po d (Fin.cast nCore_zero c)

end Cert.ProofB.Launch

end
-- ==== Proof.Bits.CallRes.lean ====
import proofs.«215744_g19043884990565_cont_8to1_1279_72_alg».proof.Proof.Bits.Split
import Idealize.ShloMosaic.Lib.StableHlo.Run

noncomputable section

namespace Cert.ProofB.Launch

open Cert.Kernel Cert.Kernel.Gen
open Idealize.ShloMosaic
open Idealize.ShloMosaic.SparseCore (S V T)
open Idealize.ShloMosaic.SparseCore.Cfg (HIx Pay)
open Idealize.ShloMosaic.Transfers (shareDrop shareTok pointsTo_toks pointsTo_toks_split pointsTo_toks_join)
open Idealize.ShloMosaic.StableHlo (held)
open Idealize.SL Idealize.SL.RA Idealize.SL.BI
open scoped Idealize.SL.BI
open Idealize.SL.BI.BIBase Idealize.SL.BI.Laws Idealize.SL.ProofMode Idealize.SL.Sem

variable {F : FTy → Type} {U : Type} [URA U]

local notation "𝕄" => MT nD τ sig (HIx 1) (Elt F) ℕ U ℕ

abbrev rf (b : Ref sig .tc) : DevRef τ sig := Proc.devRef .tc b

abbrev S8 : Finset (DevRef τ sig) := {rf main_v8, rf main_v1, rf main_v3, rf main_arg6, rf main_v4, rf main_v6, rf main_v5, rf main_v9}

def cvOf (d : Dev nD) (W : Valuation τ sig (Elt F)) : CallVals (F := F) d :=
  ⟨W (rf main_v8), W (rf main_v1), W (rf main_v3), W (rf main_arg6), W (rf main_v4), W (rf main_v6), W (rf main_v5)⟩

theorem held_S8 (d : Dev nD) (W : Valuation τ sig (Elt F)) :
    (held (T d) S8 W : sProp 𝕄)
      = iprop((pkLoc d ↦{fullShare} W (rf main_v8)) ∗ (rowsLoc d ↦{fullShare} W (rf main_v1)) ∗ (colsLoc d ↦{fullShare} W (rf main_v3))
          ∗ (wLoc d ↦{fullShare} W (rf main_arg6)) ∗ (piLoc d ↦{fullShare} W (rf main_v4)) ∗ (pscLoc d ↦{fullShare} W (rf main_v6))
          ∗ (sdLoc d ↦{fullShare} W (rf main_v5)) ∗ (outLoc d ↦{fullShare} W (rf main_v9))) := by
  unfold held S8
  repeat rw [SparseCore.bigSep_insert' (by decide)]
  rw [bigSep_singleton]

theorem rowSet_eq (t : Fin 32) : rowSet t = (outRow t).set := by
  show ((View.whole (main_v9_scv : Ref sig .scVector)).slice (outRow t)).set = _
  rw [View.set_slice]; exact Finset.map_refl

-- The 32 rows partition the result array, so the array whole is its rows.
theorem out_rows (d : Dev nD) (f : Buf (Elt F) (outLoc d)) :
    (outLoc d ↦{fullShare} f : sProp 𝕄) = bigSep Finset.univ fun t : Fin 32 => outLoc d ↦[rowSet t]{fullShare} f := by
  rw [← pointsTo_biUnion Finset.univ (ℓ := outLoc d) rowSet fun i _ j _ h => by
      rw [rowSet_eq, rowSet_eq]; exact Rect.part_disjoint hdiv32 h,
    (Finset.biUnion_congr rfl fun i _ => rowSet_eq i).trans (Rect.biUnion_part hdiv32)]; try rfl

-- Row `2 s + c` for `c < 2`, `s < 16` runs over all 32 rows once.
theorem bigSep_wid (Φ : Fin 32 → sProp 𝕄) :
    bigSep Finset.univ Φ = bigSep Finset.univ fun c : Fin 2 => bigSep Finset.univ fun s : Fin 16 => Φ (wid c s) := by
  rw [← Finset.eq_univ_of_card ((Finset.univ : Finset (Fin 2 × Fin 16)).image fun cs => wid cs.1 cs.2)
      (by rw [Finset.card_image_of_injective _ wid_injective]; rfl),
    Idealize.ShloMosaic.SparseCore.bigSep_image_of_injOn (wid_injective.injOn) Φ, ← Finset.univ_product_univ,
    Idealize.ShloMosaic.SparseCore.bigSep_product]

-- Over the two cores, each core's share of the read arrays with its sixteen rows is the cores' shares with the result array whole.
theorem cores_rows (d : Dev nD) (cv : CallVals (F := F) d) (f : Buf (Elt F) (outLoc d)) :
    (bigSep Finset.univ fun c : Fin ((K (F := F)).nCore 0) => iprop(reads d cv (coreShare (Fin.cast nCore_zero c))
        ∗ bigSep Finset.univ fun s : Fin 16 => outRowPts d (wid (Fin.cast nCore_zero c) s) f) : sProp 𝕄)
      = iprop((bigSep Finset.univ fun c : Fin 2 => reads d cv (coreShare c)) ∗ (outLoc d ↦{fullShare} f)) := by
  rw [out_rows, bigSep_wid (F := F) (U := U) (fun t => outLoc d ↦[rowSet t]{fullShare} f), ← bigSep_sep']
  exact bigSep_congr fun _ _ => rfl

variable (m : (ℓ : Loc nD τ sig) → Buf (Elt F) ℓ) (Vs : Dev nD → Valuation τ sig (Elt F))
variable (po : (d : Dev nD) → Buf (Elt F) (outLoc d))

abbrev PP : (K (F := F)).Pay (nD := nD) (Val := Elt F) (Name := ℕ) (U := U) := P (U := U) m (fun d => cvOf d (Vs d)) po

-- The eight arrays held whole split into a remainder of each read array and, core by core, a share of them with that core's rows of the result.
theorem call_split (d : Dev nD) (hV9 : Vs d (rf main_v9) = m (outLoc d)) :
    (held (T d) S8 (Vs d) : sProp 𝕄)
      ⊢ iprop(reads d (cvOf d (Vs d)) (shareDrop fullShare 2)
          ∗ bigSep Finset.univ fun c : Fin ((K (F := F)).nCore 0) => (PP (U := U) m Vs po).st 0 d c) := by
  rw [held_S8, hV9]
  refine .trans ?_ (Entails.of_eq (congrArg (fun X => iprop(_ ∗ X)) (cores_rows (U := U) d _ _).symm))
  iintro ⟨H1, H2, H3, H4, H5, H6, H7, Ho⟩
  ihave ⟨Hrem, Htoks⟩ := (reads_split (U := U) d (cvOf d (Vs d)) fullShare 2) $$ [H1 H2 H3 H4 H5 H6 H7]
  · unfold reads cvOf; iframe
  iframe

-- Conversely the remainders with every core's share and rows are the eight arrays held whole, the result at its new contents.
theorem call_join (d : Dev nD) :
    iprop(reads d (cvOf d (Vs d)) (shareDrop fullShare 2)
        ∗ bigSep Finset.univ fun c : Fin ((K (F := F)).nCore 0) => (PP (U := U) m Vs po).dn 0 d c)
      ⊢ (held (T d) S8 (Function.update (Vs d) (rf main_v9) (po d)) : sProp 𝕄) := by
  rw [held_S8, Function.update_self]; repeat rw [Function.update_of_ne (by decide)]
  refine (Entails.of_eq (congrArg (fun X => iprop(_ ∗ X)) (cores_rows (U := U) d _ _))).trans ?_
  iintro ⟨Hrem, Htoks, Ho⟩
  ihave Hr := (reads_join (U := U) d (cvOf d (Vs d)) fullShare 2) $$ [Hrem Htoks]
  · iframe
  unfold reads cvOf
  icases Hr with ⟨H1, H2, H3, H4, H5, H6, H7⟩
  iframe

end Cert.ProofB.Launch

end
-- ==== Proof.Bits.MainOpsList.lean ====
import proofs.«215744_g19043884990565_cont_8to1_1279_72_alg».proof.Proof.Bits.Base
import Idealize.ShloMosaic.Lib.StableHlo.Run

noncomputable section

namespace Cert.ProofB.Launch

open Cert.Kernel Cert.Kernel.Gen
open Idealize.ShloMosaic
open Idealize.SL Idealize.SL.Sem

variable {F : FTy → Type} [FloatOps F]

abbrev opsA : List (HloOp τ sig (Elt F)) :=
  [
    StableHlo.unary main_arg18 main_v0 ((extractStridedSlice S1600000x1 ![0, 0] · slices_S1600000x2_S1600000x1_0_0) : (⟨S1600000x2, .i32⟩ : BufTy).Contents (Elt F) → (⟨S1600000x1, .i32⟩ : BufTy).Contents (Elt F)),
    StableHlo.reshape main_v0 main_v1 rfl shapeCasts_S1600000x1_S1600000,
    StableHlo.unary main_arg18 main_v2 ((extractStridedSlice S1600000x1 ![0, 1] · slices_S1600000x2_S1600000x1_0_1) : (⟨S1600000x2, .i32⟩ : BufTy).Contents (Elt F) → (⟨S1600000x1, .i32⟩ : BufTy).Contents (Elt F)),
    StableHlo.reshape main_v2 main_v3 rfl shapeCasts_S1600000x1_S1600000,
    StableHlo.nullary main_c (constantI S_ 32 0#32),
    StableHlo.TRef.unary (.of main_c : StableHlo.TRef sig ⟨S_, .i32⟩) main_call0.v0 (sitofp .f32),
    StableHlo.TRef.binary (.of main_arg9 : StableHlo.TRef sig ⟨S4, .f32⟩) main_call0.v0 main_call0.v1 (fun x v => pad S16 ![0] ![12] ![0] x v pads_S4_S16_0120 h_S_),
    StableHlo.nullary main_c_0 (constantI S_ 32 0#32),
    StableHlo.TRef.unary (.of main_c_0 : StableHlo.TRef sig ⟨S_, .i32⟩) main_call1.v0 (sitofp .f32),
    StableHlo.TRef.binary (.of main_arg8 : StableHlo.TRef sig ⟨S4, .f32⟩) main_call1.v0 main_call1.v1 (fun x v => pad S16 ![1] ![11] ![0] x v pads_S4_S16_1110 h_S_),
    StableHlo.nullary main_c_1 (constantI S_ 32 0#32),
    StableHlo.TRef.unary (.of main_c_1 : StableHlo.TRef sig ⟨S_, .i32⟩) main_call2.v0 (sitofp .f32),
    StableHlo.TRef.binary (.of main_arg5 : StableHlo.TRef sig ⟨S1x200000, .f32⟩) main_call2.v0 main_call2.v1 (fun x v => pad S1x200704 ![0, 0] ![0, 704] ![0, 0] x v pads_S1x200000_S1x200704_000_07040 h_S_),
    StableHlo.nullary main_c_2 (constantI S_ 32 0#32),
    StableHlo.TRef.unary (.of main_c_2 : StableHlo.TRef sig ⟨S_, .i32⟩) main_call3.v0 (sitofp .f32),
    StableHlo.TRef.binary (.of main_arg0 : StableHlo.TRef sig ⟨S1x250000, .f32⟩) main_call3.v0 main_call3.v1 (fun x v => pad S1x262144 ![0, 0] ![0, 12144] ![0, 0] x v pads_S1x250000_S1x262144_000_0121440 h_S_)]

abbrev opsB : List (HloOp τ sig (Elt F)) :=
  [
    StableHlo.unary main_arg0 main_v10 ((extractStridedSlice S1x50000 ![0, 0] · slices_S1x250000_S1x50000_0_0) : (⟨S1x250000, .f32⟩ : BufTy).Contents (Elt F) → (⟨S1x50000, .f32⟩ : BufTy).Contents (Elt F)),
    StableHlo.reshape main_arg12 main_v11 rfl shapeCasts_S50000_S1x50000,
    StableHlo.reshape main_arg13 main_v12 rfl shapeCasts_S50000_S1x50000,
    StableHlo.reshape main_arg14 main_v13 rfl shapeCasts_S50000_S1x50000,
    StableHlo.reshape main_arg15 main_v14 rfl shapeCasts_S50000_S1x50000,
    StableHlo.reshape main_arg16 main_v15 rfl shapeCasts_S50000_S1x50000,
    StableHlo.reshape main_arg17 main_v16 rfl shapeCasts_S50000_S1x50000]

end Cert.ProofB.Launch

end
-- ==== Proof.Bits.MainOps.lean ====
import proofs.«215744_g19043884990565_cont_8to1_1279_72_alg».proof.Proof.Bits.MainOpsList

noncomputable section

namespace Cert.ProofB.Launch

open Cert.Kernel Cert.Kernel.Gen
open Idealize.ShloMosaic
open Idealize.SL Idealize.SL.Sem

variable {F : FTy → Type} [FloatOps F]

set_option maxRecDepth 4096 in
theorem main_eq (d : Dev nD) :
    main (F := F) d
      = (StableHlo.seq (opsA (F := F)) >>= fun _ =>
          Prog.lift (.customCall (SparseCore.inner (Pipeline.entry 0)) ()) >>= fun _ =>
          (sc (F := F)).run d 0 >>= fun _ =>
          StableHlo.seq (opsB (F := F)) >>= fun _ =>
          Prog.lift (.customCall (SparseCore.inner (Pipeline.entry 1)) ()) >>= fun _ => pure ⟨⟩) := by
  simp only [main, fn_pad.body, fn_pad_0.body, fn_pad_1.body, fn_pad_2.body, StableHlo.seq, bind_assoc, pure_bind]

end Cert.ProofB.Launch

end
-- ==== Proof.Bits.Main.lean ====
import proofs.«215744_g19043884990565_cont_8to1_1279_72_alg».proof.Proof.Bits.Ghost
import proofs.«215744_g19043884990565_cont_8to1_1279_72_alg».proof.Proof.Bits.CallRes
import proofs.«215744_g19043884990565_cont_8to1_1279_72_alg».proof.Proof.Bits.MainOps
import Idealize.ShloMosaic.Lib.Pipeline.Frame
import Idealize.ShloMosaic.Lib.ValueIdx

noncomputable section

namespace Cert.ProofB.Launch

open Cert.Kernel Cert.Kernel.Gen
open Idealize.ShloMosaic Idealize.ShloMosaic.ValueIdx
open Idealize.ShloMosaic.SparseCore (S V T)
open Idealize.ShloMosaic.SparseCore.Cfg (HIx Pay)
open Idealize.ShloMosaic.StableHlo (held held_sub_split held_congr wp_seq)
open Idealize.ShloMosaic.Pipeline (ucRefs unscopedBufs_held)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

variable (m : (ℓ : Loc nD τ sig) → Buf (Elt F) ℓ) (ρ : Dev nD → PrngReg)
variable (packF : Vec F S1x262144 .f32 → Vec F S1x8192 .i32)
variable (tileF : Vec F S1x8192 .i32 → Vec F S1600000 .i32 → Vec F S1600000 .i32 → Vec F S1600000 .f32 → Vec F S16 .f32 → Vec F S16 .f32
  → Vec F S1x200704 .f32 → Fin 32 → Vec F S50176 .f32)
variable (updF : Vec F S32x50176 .f32 → Vec F S1x50000 .f32 → Vec F S1x50000 .f32 → Vec F S1x50000 .f32 → Vec F S1x50000 .f32 → Vec F S1x50000 .f32
  → Vec F S1x50000 .f32 → Vec F S1x50000 .f32 → Vec F S1x50000 .f32 → Vec F S1x50000 .f32 → Vec F S1x50000 .f32 → Vec F S1x50000 .f32
  → Vec F S1x50000 .f32 → Vec F S2 .f32 → Vec F S2 .f32 → Vec F S1x50000 .f32)

abbrev V0 (d : Dev nD) : Valuation τ sig (Elt F) := fun b => m (d, b)
abbrev VA (d : Dev nD) : Valuation τ sig (Elt F) := StableHlo.after (opsA (F := F)) (V0 m d)
abbrev V1 (d : Dev nD) : Valuation τ sig (Elt F) := Function.update (VA m d) (rf main_v8) (packF (VA m d (rf main_v7)))
def poOf (d : Dev nD) : Buf (Elt F) (outLoc d) := fun j =>
  tileF (V1 m packF d (rf main_v8)) (V1 m packF d (rf main_v1)) (V1 m packF d (rf main_v3)) (V1 m packF d (rf main_arg6))
    (V1 m packF d (rf main_v4)) (V1 m packF d (rf main_v5)) (V1 m packF d (rf main_v6))
    (⟨(j 0).val, (j 0).isLt⟩ : Fin 32) (ix1 (⟨(j 1).val, (j 1).isLt⟩ : Fin 50176))
abbrev V2 (d : Dev nD) : Valuation τ sig (Elt F) := Function.update (V1 m packF d) (rf main_v9) (poOf m packF tileF d)
abbrev VB (d : Dev nD) : Valuation τ sig (Elt F) := StableHlo.after (opsB (F := F)) (V2 m packF tileF d)
abbrev V3 (d : Dev nD) : Valuation τ sig (Elt F) :=
  Function.update (VB m packF tileF d) (rf main_v17)
    (updF (VB m packF tileF d (rf main_v9)) (VB m packF tileF d (rf main_arg1)) (VB m packF tileF d (rf main_arg2))
      (VB m packF tileF d (rf main_arg3)) (VB m packF tileF d (rf main_arg4)) (VB m packF tileF d (rf main_arg7))
      (VB m packF tileF d (rf main_v10)) (VB m packF tileF d (rf main_v11)) (VB m packF tileF d (rf main_v12))
      (VB m packF tileF d (rf main_v13)) (VB m packF tileF d (rf main_v14)) (VB m packF tileF d (rf main_v15))
      (VB m packF tileF d (rf main_v16)) (VB m packF tileF d (rf main_arg11)) (VB m packF tileF d (rf main_arg10)))
abbrev PM : (K (F := F)).Pay (nD := nD) (Val := Elt F) (Name := ℕ) (U := UU) :=
  PP (U := UU) m (V1 m packF) (poOf m packF tileF)

open Idealize.ShloMosaic.StableHlo (tcRefs nullary_bufs_sub unary_bufs_sub binary_bufs_sub reshape_bufs_sub) in
-- Each operation of the two lines names only buffers of the unscoped set.
theorem opsA_sub : ∀ op ∈ (opsA (F := F)), op.bufs ⊆ ucRefs τ sig := fun op hop =>
  Pipeline.sub_ucRefs op (List.forall_iff_forall_mem.mp (show (opsA (F := F)).Forall fun op => op.bufs ⊆ tcRefs τ sig from
    ⟨unary_bufs_sub .., reshape_bufs_sub .., unary_bufs_sub .., reshape_bufs_sub ..,
      nullary_bufs_sub .., unary_bufs_sub .., binary_bufs_sub .., nullary_bufs_sub .., unary_bufs_sub .., binary_bufs_sub ..,
      nullary_bufs_sub .., unary_bufs_sub .., binary_bufs_sub .., nullary_bufs_sub .., unary_bufs_sub .., binary_bufs_sub ..⟩) op hop)
open Idealize.ShloMosaic.StableHlo (tcRefs unary_bufs_sub reshape_bufs_sub) in
theorem opsB_sub : ∀ op ∈ (opsB (F := F)), op.bufs ⊆ ucRefs τ sig := fun op hop =>
  Pipeline.sub_ucRefs op (List.forall_iff_forall_mem.mp (show (opsB (F := F)).Forall fun op => op.bufs ⊆ tcRefs τ sig from
    ⟨unary_bufs_sub .., reshape_bufs_sub .., reshape_bufs_sub .., reshape_bufs_sub .., reshape_bufs_sub .., reshape_bufs_sub .., reshape_bufs_sub ..⟩) op hop)
-- No operation of either line frees a buffer.
theorem opsA_fresh : ∀ op ∈ (opsA (F := F)), op.fresh = ∅ :=
  List.forall_iff_forall_mem.mp (show (opsA (F := F)).Forall (fun op => op.fresh = ∅) from
    ⟨rfl, rfl, rfl, rfl, rfl, rfl, rfl, rfl, rfl, rfl, rfl, rfl, rfl, rfl, rfl, rfl⟩)
theorem opsB_fresh : ∀ op ∈ (opsB (F := F)), op.fresh = ∅ :=
  List.forall_iff_forall_mem.mp (show (opsB (F := F)).Forall (fun op => op.fresh = ∅) from ⟨rfl, rfl, rfl, rfl, rfl, rfl, rfl⟩)

theorem S8_sub : (S8 : Finset (DevRef τ sig)) ⊆ ucRefs τ sig := by decide

abbrev FIN (d : Dev nD) : sProp 𝕄 := held (T d) (ucRefs τ sig) (V3 m packF tileF updF d)

variable (G0 G1 : Dev nD → sProp (MT nD τ sig (HIx 1) (Elt F) ℕ UU ℕ))

-- Along @main the held set moves from V0 to V3, one line or one call at a time.
theorem hmain (hA : ∀ d, VA m d (rf main_v9) = V0 m d (rf main_v9))
    (hG : ∀ d, (G (F := F) d : sProp 𝕄) ⊢ iprop(G0 d ∗ G1 d))
    (hreg0 : ∀ (κ : GSem nD τ sig → ℕ) (d : Dev nD) (W : Valuation τ sig (Elt F)) {β : Type}
        (k : PUnit → Prog (TpuEff nD τ sig (Elt F) (SparseCore.Sig (ΛP (F := F)) 1) .tc) β) (Φ : β → sProp 𝕄),
      iprop((K (F := F)).ctx EH (PM m packF tileF) κ ∗ (K (F := F)).tcSt EH d 0 ∗ boundary (T d) ∗ held (T d) (ucRefs τ sig) W ∗ G0 d)
        ⊢ iprop(((K (F := F)).tcSt EH d 0 ∗ boundary (T d) ∗ held (T d) (ucRefs τ sig) (Function.update W (rf main_v8) (packF (W (rf main_v7))))
              -∗ wp frame (wpE ((K (F := F)).defs (D (F := F))) 𝒱 (T d) none) Set.univ (k ⟨⟩) Φ)
          -∗ wp frame (wpE ((K (F := F)).defs (D (F := F))) 𝒱 (T d) none) Set.univ
              (Prog.lift (.customCall (SparseCore.inner (Pipeline.entry 0)) ()) >>= k) Φ))
    (hreg1 : ∀ (κ : GSem nD τ sig → ℕ) (d : Dev nD) (W : Valuation τ sig (Elt F)) {β : Type}
        (k : PUnit → Prog (TpuEff nD τ sig (Elt F) (SparseCore.Sig (ΛP (F := F)) 1) .tc) β) (Φ : β → sProp 𝕄),
      iprop((K (F := F)).ctx EH (PM m packF tileF) κ ∗ (K (F := F)).tcSt EH d 1 ∗ boundary (T d) ∗ held (T d) (ucRefs τ sig) W ∗ G1 d)
        ⊢ iprop(((K (F := F)).tcSt EH d 1 ∗ boundary (T d) ∗ held (T d) (ucRefs τ sig) (Function.update W (rf main_v17)
                (updF (W (rf main_v9)) (W (rf main_arg1)) (W (rf main_arg2)) (W (rf main_arg3)) (W (rf main_arg4)) (W (rf main_arg7))
                  (W (rf main_v10)) (W (rf main_v11)) (W (rf main_v12)) (W (rf main_v13)) (W (rf main_v14)) (W (rf main_v15))
                  (W (rf main_v16)) (W (rf main_arg11)) (W (rf main_arg10))))
              -∗ wp frame (wpE ((K (F := F)).defs (D (F := F))) 𝒱 (T d) none) Set.univ (k ⟨⟩) Φ)
          -∗ wp frame (wpE ((K (F := F)).defs (D (F := F))) 𝒱 (T d) none) Set.univ
              (Prog.lift (.customCall (SparseCore.inner (Pipeline.entry 1)) ()) >>= k) Φ))
    (κ : GSem nD τ sig → ℕ) (d : Dev nD) :
    iprop((K (F := F)).ctx EH (PM m packF tileF) κ ∗ (K (F := F)).tcSt EH d 0 ∗ (K (F := F)).tcRes m ρ d ∗ G (F := F) d)
      ⊢ wp frame (wpE ((K (F := F)).defs (D (F := F))) 𝒱 (T d) none) Set.univ (main d)
          fun _ => iprop((K (F := F)).tcSt EH d 1 ∗ FIN m packF tileF updF d) := by
  rw [main_eq]
  unfold SparseCore.Cfg.tcRes
  rw [show (unscopedBufs d (fun b => m ((SparseCore.T d).loc b)) : sProp 𝕄) = held (SparseCore.T d) (ucRefs τ sig) (V0 m d) from
    unscopedBufs_held (Ix := HIx 1) (Name := ℕ) (U := UU) (Lvl := ℕ) d (V0 m d)]
  iintro ⟨#Hctx, Hst, ⟨Hb, Hheld, -, -⟩, HG⟩
  ihave ⟨HG0, HG1⟩ := (hG d) $$ HG
  iapply (wp_seq (defs := (K (F := F)).defs (D (F := F))) 𝒱 none Set.univ d (ucRefs τ sig) _ (opsA (F := F)) opsA_sub opsA_fresh (V0 m d)) $$ [Hb Hheld]
  · iframe
  iintro ⟨Hb, Hheld⟩
  iapply (hreg0 κ d (VA m d) _ _) $$ [Hst Hb Hheld HG0]
  · iframe; iexact Hctx
  iintro ⟨Hst, Hb, Hheld⟩
  ihave ⟨H8, Hrest⟩ := (Entails.of_eq (held_sub_split (T d) S8_sub (V1 m packF d))) $$ Hheld
  ihave ⟨Hrem, Hst8⟩ := (call_split (U := UU) m (V1 m packF) (poOf m packF tileF) d
    ((Function.update_of_ne (by decide) _ _).trans (hA d))) $$ H8
  rw [wp_bind]
  iapply ((K (F := F)).wp_run (D (F := F)) 𝒱 (EH := EH) (P := PM m packF tileF) κ d 0) $$ [Hst Hst8 Hb Hrest Hrem HG1]
  isplitr; · iexact Hctx
  isplitl [Hst]; · iexact Hst
  isplitl [Hst8]; · iexact Hst8
  iintro ⟨Hst, Hdn⟩
  ihave H8 := (call_join (U := UU) m (V1 m packF) (poOf m packF tileF) d) $$ [Hrem Hdn]
  · iframe
  ihave Hheld := (Entails.of_eq (held_sub_split (T d) S8_sub (V2 m packF tileF d)).symm) $$ [H8 Hrest]
  · iframe H8
    rw [held_congr (T d) (S := ucRefs τ sig \ S8) (V := V2 m packF tileF d) (V' := V1 m packF d) fun b hb =>
      Function.update_of_ne (fun (e : b = rf main_v9) =>
        (Finset.mem_sdiff.mp hb).2 (e.symm ▸ (by decide : rf main_v9 ∈ (S8 : Finset (DevRef τ sig))))) _ _]
    iexact Hrest
  iapply (wp_seq (defs := (K (F := F)).defs (D (F := F))) 𝒱 none Set.univ d (ucRefs τ sig) _ (opsB (F := F)) opsB_sub opsB_fresh (V2 m packF tileF d)) $$ [Hb Hheld]
  · iframe
  iintro ⟨Hb, Hheld⟩
  iapply (hreg1 κ d (VB m packF tileF d) _ _) $$ [Hst Hb Hheld HG1]
  · isplitr; · iexact Hctx
    isplitl [Hst]; · iexact Hst
    iframe
  iintro ⟨Hst, -, Hheld⟩
  rw [wp_pure]; imodintro
  iframe

end Cert.ProofB.Launch

end
-- ==== Proof.Bits.Run.lean ====
import proofs.«215744_g19043884990565_cont_8to1_1279_72_alg».proof.Proof.Bits.Main

noncomputable section

namespace Cert.ProofB.Launch

open Cert.Kernel Cert.Kernel.Gen
open Idealize.ShloMosaic Idealize.ShloMosaic.ValueIdx
open Idealize.ShloMosaic.SparseCore (S V T)
open Idealize.ShloMosaic.SparseCore.Cfg (HIx Pay)
open Idealize.ShloMosaic.StableHlo (held)
open Idealize.ShloMosaic.Pipeline (ucRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

-- By induction on the set: each points-to agrees with the state's memory.
theorem held_agree (d : Dev nD) (W : Valuation τ sig (Elt F)) (s' : Phys nD τ sig (Elt F)) (Sx : Finset (DevRef τ sig)) :
    iprop((held (T d) Sx W : sProp 𝕄) ∗ SI s') ⊢ (⌜∀ b ∈ Sx, s'.mem.mem (d, b) = W b⌝ : sProp 𝕄) := by
  classical
  induction Sx using Finset.induction_on with
  | empty =>
    iintro -
    ipureintro; exact fun b hb => absurd hb (Finset.notMem_empty b)
  | insert b Sx hb ih =>
    unfold held at ih ⊢
    rw [bigSep_insert hb]
    refine (show iprop((_ ∗ _) ∗ _) ⊢ _ from ?_)
    iintro ⟨⟨Hb, HS⟩, HSI⟩
    ihave H := (persistent_entails_right (SI_pointsTo_agree (st := s') (ℓ := (d, b)) (I := Finset.univ) (q := fullShare) (f := W b))) $$ [HSI Hb]
    · iframe
    icases H with ⟨%h1, HSI, -⟩
    ihave H2 := ih $$ [HS HSI]
    · iframe
    icases H2 with %h2
    ipureintro
    intro b' hb'
    rcases Finset.mem_insert.mp hb' with rfl | hb'
    · exact funext fun i => h1 i (Finset.mem_univ i)
    · exact h2 b' hb'

variable (m : (ℓ : Loc nD τ sig) → Buf (Elt F) ℓ) (ρ : Dev nD → PrngReg) (packF : PackF F) (tileF : TileF F) (updF : UpdF F)

def QC : PUnit × MemSt nD τ sig (Elt F) → Prop := fun r => ∀ d : Dev nD, ∀ b ∈ ucRefs τ sig, r.2.mem (d, b) = V3 m packF tileF updF d b

theorem bigSep_emp' {I : Type} (s : Finset I) : (bigSep s fun _ => iprop(emp)) = (iprop(emp) : sProp 𝕄) := bigSep_emp_const s

theorem hu₀ :
    iprop(ownU (u₀ (F := F)) ∗ (PM m packF tileF).oxCred ∗ (K (F := F)).freeSems0)
      ⊢ |={Set.univ}=> iprop(BI.own (EH (F := F) (initOf (K (F := F)).hsCells (K (F := F)).hsToks)) ∗ (bigSep Finset.univ fun d : Dev nD => G (F := F) d)
        ∗ bigSep Finset.univ fun thr : Thread nD τ => bigSep Finset.univ fun q : Fin 1 => (PM m packF tileF).x q thr) := by
  iintro ⟨Hu, -, -⟩
  imod (fund_u₀ (F := F)) $$ Hu with ⟨HH, HG⟩
  imodintro
  iframe HH HG
  show (_ : sProp 𝕄) ⊢ bigSep Finset.univ fun _ : Thread nD τ => bigSep Finset.univ fun _ : Fin 1 => (iprop(emp) : sProp 𝕄)
  rw [bigSep_congr fun _ _ => bigSep_emp' (F := F) _, bigSep_emp']

variable (G0 G1 : Dev nD → sProp (MT nD τ sig (HIx 1) (Elt F) ℕ UU ℕ))

-- The library's launch theorem at this program's data.
theorem run_main [∀ e, Nonempty (Elt F e)]
    (hA : ∀ d, VA m d (rf main_v9) = V0 m d (rf main_v9))
    (htile : (K (F := F)).TileObl (D (F := F)) 𝒱 (PM m packF tileF) v₀ 0)
    (hG : ∀ d, (G (F := F) d : sProp 𝕄) ⊢ iprop(G0 d ∗ G1 d))
    (hreg0 : ∀ W, CallRule (PM m packF tileF) 0 0 G0 W (Function.update W (rf main_v8) (packF (W (rf main_v7)))))
    (hreg1 : ∀ W, CallRule (PM m packF tileF) 1 1 G1 W (Function.update W (rf main_v17)
      (updF (W (rf main_v9)) (W (rf main_arg1)) (W (rf main_arg2)) (W (rf main_arg3)) (W (rf main_arg4)) (W (rf main_arg7))
        (W (rf main_v10)) (W (rf main_v11)) (W (rf main_v12)) (W (rf main_v13)) (W (rf main_v14)) (W (rf main_v15))
        (W (rf main_v16)) (W (rf main_arg11)) (W (rf main_arg10))))) :
    θ_run (Cert.Kernel.defs (F := F)) (Cert.Kernel.threads (F := F)) ⟨m, fun _ => 0, ρ⟩ (QC m packF tileF updF) :=
  SparseCore.Cfg.θ_run_sc (K := K (F := F)) (D := D (F := F)) (𝒱 := 𝒱) (EH := EH) (P := PM m packF tileF) facts v₀
    (fun q hq => match q with | 0 => nomatch hq)
    (fun q _ => match q with | 0 => htile)
    (fun q _ => match q with | 0 => SparseCore.Cfg.VecSplit.of_plain (vecSplit (U := UU) m (fun d => cvOf d (V1 m packF d)) (poOf m packF tileF)))
    m ρ main (fun d => G (F := F) d) (FIN m packF tileF updF) (u₀ (F := F)) (hu₀ m packF tileF)
    (hmain m ρ packF tileF updF G0 G1 hA hG (fun κ d W => hreg0 W κ d) (fun κ d W => hreg1 W κ d))
    (fun d s' => ∀ b ∈ ucRefs τ sig, s'.mem.mem (d, b) = V3 m packF tileF updF d b)
    (fun d s' => held_agree d (V3 m packF tileF updF d) s' (ucRefs τ sig))
    (QC m packF tileF updF) (fun _ h => h)

end Cert.ProofB.Launch

end
-- ==== Proof.Bits.TileObl.lean ====
import proofs.«215744_g19043884990565_cont_8to1_1279_72_alg».proof.Proof.Bits.Main

noncomputable section

namespace Cert.ProofB.Launch

open Cert.Kernel Cert.Kernel.Gen
open Idealize.ShloMosaic Idealize.ShloMosaic.ValueIdx
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

def coordsV (c : Fin (grid1.bound 0)) (s : Fin (grid1.bound 1)) : grid1.Coords :=
  fun | 0 => c | 1 => s | ⟨_ + 2, h⟩ => absurd h (Nat.not_lt.2 (Nat.le_add_left _ _))

-- Casts of `L`'s two coordinates to `Fin 2` and `Fin 16`; the thread at `L`.
abbrev cL (L : grid1.Coords) : Fin 2 := Fin.cast rfl (L 0)
abbrev sL (L : grid1.Coords) : Fin 16 := Fin.cast rfl (L 1)
abbrev thrL (d : Dev nD) (L : grid1.Coords) : Thread nD τ := V d ((L 0).castLE hcore1) ((L 1).castLE hsub1)

-- The kernel at grid point `L`, on the whole arrays.
abbrev kern (L : grid1.Coords) :=
  cc1__sc_edge_kernel (F := F) L (Memref.whole main_v8_scv) (Memref.isWhole_whole _) (Memref.whole main_v1_scv) (Memref.isWhole_whole _) (Memref.whole main_v3_scv) (Memref.isWhole_whole _) (Memref.whole main_arg6_scv) (Memref.isWhole_whole _) (Memref.whole main_v4_scv) (Memref.isWhole_whole _) (Memref.whole main_v6_scv) (Memref.isWhole_whole _) (Memref.whole main_v5_scv) (Memref.isWhole_whole _) (Memref.whole main_v9_scv) (Memref.isWhole_whole _) (Memref.whole cc1_scratch0) (Memref.isWhole_whole _) (Memref.whole cc1_scratch1) (Memref.isWhole_whole _) (Memref.whole cc1_scratch2) (Memref.isWhole_whole _) (Memref.whole cc1_scratch3) (Memref.isWhole_whole _) (Memref.whole cc1_scratch4) (Memref.isWhole_whole _) (Memref.whole cc1_scratch5) (Memref.isWhole_whole _) (Memref.whole cc1_scratch6) (Memref.isWhole_whole _) (Memref.whole cc1_scratch7) (Memref.isWhole_whole _) (Memref.whole cc1_scratch8) (Memref.isWhole_whole _) (Memref.whole cc1_scratch9) (Memref.isWhole_whole _) (Memref.whole cc1_scratch10) (Memref.isWhole_whole _) cc1_scratch11 cc1_scratch12 cc1_scoped0 cc1_scoped1 cc1_scoped2 cc1_scoped3 cc1_scoped4

theorem defs₀_vector (c : Fin τ.nSC) (s : Fin τ.nSub) :
    defs₀ (F := F) (.scVector c s) 1 () = SparseCore.onTile hcore1 hsub1 (fun c s => kern (coordsV c s)) ⟨⟩ c s := rfl

-- The recorded pairs allowed after a task: a weaker bound than the kernel's own.
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  iframe HA HB HC
  iexists W'; isplitr
  · ipureintro; exact fun p hp => (hW' p hp).imp_right Or.inl
  · iexact HO

variable (m : (ℓ : Loc nD τ sig) → Buf (Elt F) ℓ) (packF : PackF F) (tileF : TileF F)

-- The payloads `go` and `td` of `PM` at grid point `L`.
abbrev goAt (d : Dev nD) (L : grid1.Coords) : sProp 𝕄 :=
  iprop(reads d (cvOf d (V1 m packF d)) (tileShare (cL L) (sL L)) ∗ outRowPts d (wid (cL L) (sL L)) (m (outLoc d)))
abbrev tdAt (d : Dev nD) (L : grid1.Coords) : sProp 𝕄 :=
  iprop(reads d (cvOf d (V1 m packF d)) (tileShare (cL L) (sL L)) ∗ outRowPts d (wid (cL L) (sL L)) (poOf m packF tileF d))

-- `defs₀` at a vector thread unfolds to `kern` at that thread's grid point.
theorem tileObl
    (hbody : ∀ (d : Dev nD) (L : grid1.Coords) (O : CellTallies nD τ sig (HIx 1)) (W : Waits sig (HIx 1)), (∀ g, O g none = 0) →
      iprop(levAts (K (F := F)).L (K (F := F)).lev ∗ emp ∗ goAt m packF d L
          ∗ scopedBufs (thrL d L) ∗ scopedSems0 (thrL d L) ∗ owes (thrL d L) O W)
        ⊢ wp frame (wpE (defs₀ (F := F)) 𝒱₀ (thrL d L) none) Set.univ (kern L)
            fun _ => iprop(tdAt m packF tileF d L ∗ scopedBufs (thrL d L) ∗ scopedSems0 (thrL d L)
              ∗ ∃ W', ⌜∀ p ∈ W', p ∈ W ∨ p.2 = none⌝ ∗ owes (thrL d L) O W')) :
    (K (F := F)).TileObl (D (F := F)) 𝒱 (PM m packF tileF) v₀ 0 := by
  intro d c i O W hO _ _
  simp only [show (PM m packF tileF).ox = fun _ _ => 0 from rfl, add_zero]
  change _ ⊢ wp _ _ _ (Pipeline.liftProg (defs₀ (F := F) (.scVector ((K (F := F)).core 0 c) ((K (F := F)).sub 0 i)) 1 ())) _
  refine BI.Entails.trans ?_ (Pipeline.wp_liftProg (D (F := F)) (Pipeline.defs_kernel pcfgs defs₀) 𝒱₀ _ Set.univ none _ _)
  have hc : ((K (F := F)).core 0 c).val < grid1.bound 0 ∧ ((K (F := F)).sub 0 i).val < grid1.bound 1 := ⟨c.isLt, i.isLt⟩
  rw [defs₀_vector]; simp only [SparseCore.onTile, hc, and_self, ↓reduceDIte]
  exact (hbody d (coordsV ⟨_, hc.1⟩ ⟨_, hc.2⟩) O W hO).trans (wp_mono frame _ _ fun _ => obl_post)

end Cert.ProofB.Launch

end
-- ==== Proof.Bits.KernelHost.lean ====
import proofs.«215744_g19043884990565_cont_8to1_1279_72_alg».proof.Proof.Bits.Base
import proofs.«215744_g19043884990565_cont_8to1_1279_72_alg».proof.Proof.Bits.MainOpsList
import proofs.«215744_g19043884990565_cont_8to1_1279_72_alg».proof.Proof.PreFacts
import proofs.«215744_g19043884990565_cont_8to1_1279_72_alg».proof.Proof.KernelHostPure
import Idealize.ShloMosaic.Lib.StableHlo.Run
import Idealize.ShloMosaic.Lib.ValueLayout

noncomputable section

namespace Cert.ProofB.KHost
open Cert.Proof
open Cert.Proof.KHost

open Cert.Kernel Cert.Kernel.Gen
open Idealize.ShloMosaic Idealize.ShloMosaic.ValueIdx
open Idealize.SL Idealize.SL.Sem
open Cert.ProofB.Launch

variable {F : FTy → Type} [FloatOps F]

-- The value the four padded arrays are padded with: the integer zero as a float.
def padVal : F .f32 := FloatOps.sitofp .f32 (0#32 : BitVec 32)

theorem padVal_ideal : padVal (F := Ideal) = (0 : EReal) := by
  show (((0#32 : BitVec 32).toInt : ℝ) : EReal) = 0
  rw [show (0#32 : BitVec 32).toInt = 0 from by decide]
  simp

abbrev VA (V : Valuation τ sig (Elt F)) : Valuation τ sig (Elt F) := StableHlo.after (opsA (F := F)) V
abbrev VB (V : Valuation τ sig (Elt F)) : Valuation τ sig (Elt F) := StableHlo.after (opsB (F := F)) V

abbrev writtenA : List (Ref sig .tc) :=
  [main_v0, main_v1, main_v2, main_v3, main_c, main_call0_v0, main_v4, main_c_0, main_call1_v0, main_v5,
   main_c_1, main_call2_v0, main_v6, main_c_2, main_call3_v0, main_v7]
abbrev writtenB : List (Ref sig .tc) := [main_v10, main_v11, main_v12, main_v13, main_v14, main_v15, main_v16]

theorem writes_sub_of_mem {W : List (Ref sig .tc)} {op : HloOp τ sig (Elt F)} {y : Ref sig .tc}
    (hw : op.writes = {Proc.devRef .tc y}) (hy : y ∈ W) : op.writes ⊆ (W.map (Proc.devRef (τ := τ) .tc)).toFinset := by
  rw [hw, Finset.singleton_subset_iff, List.mem_toFinset]
  exact List.mem_map_of_mem hy

-- A buffer a line of host operations does not write keeps its contents: every argument does.
theorem VA_keep (V : Valuation τ sig (Elt F)) (r : Ref sig .tc) (hr : r ∉ writtenA) :
    VA V (Proc.devRef .tc r) = V (Proc.devRef .tc r) :=
  StableHlo.after_of_writes_sub (W := writtenA) (opsA (F := F)) V (by
    simp only [opsA, List.Forall]; and_intros <;> exact writes_sub_of_mem rfl (by decide)) hr

theorem VB_keep (V : Valuation τ sig (Elt F)) (r : Ref sig .tc) (hr : r ∉ writtenB) :
    VB V (Proc.devRef .tc r) = V (Proc.devRef .tc r) :=
  StableHlo.after_of_writes_sub (W := writtenB) (opsB (F := F)) V (by
    simp only [opsB, List.Forall]; and_intros <;> exact writes_sub_of_mem rfl (by decide)) hr

theorem VA_v1 (V : Valuation τ sig (Elt F)) (e : Fin 1600000) :
    (VA V (Proc.devRef .tc main_v1) : IVec S1600000 32) (ix1 e) = (V (Proc.devRef .tc main_arg18) : IVec S1600000x2 32) (ix2 e (0 : Fin 2)) := by
  dsimp only [VA, opsA]; after_results; exact col_read 0 _ _ _ e

theorem VA_v3 (V : Valuation τ sig (Elt F)) (e : Fin 1600000) :
    (VA V (Proc.devRef .tc main_v3) : IVec S1600000 32) (ix1 e) = (V (Proc.devRef .tc main_arg18) : IVec S1600000x2 32) (ix2 e (1 : Fin 2)) := by
  dsimp only [VA, opsA]; after_results; exact col_read 1 _ _ _ e

theorem VA_v4 (V : Valuation τ sig (Elt F)) (j : Fin 16) :
    (VA V (Proc.devRef .tc main_v4) : FVec F S16 .f32) (ix1 j)
      = if h : j.val < 4 then (V (Proc.devRef .tc main_arg9) : FVec F S4 .f32) (ix1 ⟨j.val, h⟩) else padVal := by
  dsimp only [VA, opsA]; after_results; split
  · exact pad1_in _ _ j _ pads_S4_S16_0120 (by omega) (by omega)
  · exact pad1_out _ _ j _ pads_S4_S16_0120 (by omega)

theorem VA_v5 (V : Valuation τ sig (Elt F)) (j : Fin 16) :
    (VA V (Proc.devRef .tc main_v5) : FVec F S16 .f32) (ix1 j)
      = if h : 1 ≤ j.val ∧ j.val ≤ 4 then (V (Proc.devRef .tc main_arg8) : FVec F S4 .f32) (ix1 ⟨j.val - 1, by omega⟩) else padVal := by
  dsimp only [VA, opsA]; after_results; split
  · exact pad1_in _ _ j _ pads_S4_S16_1110 (by omega) (by omega)
  · exact pad1_out _ _ j _ pads_S4_S16_1110 (by omega)

theorem VA_v6 (V : Valuation τ sig (Elt F)) (k : Fin 200704) :
    (VA V (Proc.devRef .tc main_v6) : FVec F S1x200704 .f32) (ix2 (0 : Fin 1) k)
      = if h : k.val < 200000 then (V (Proc.devRef .tc main_arg5) : FVec F S1x200000 .f32) (ix2 (0 : Fin 1) ⟨k.val, h⟩) else padVal := by
  dsimp only [VA, opsA]; after_results; split
  · exact row_in _ _ k _ pads_S1x200000_S1x200704_000_07040 _
  · exact row_out _ _ k _ pads_S1x200000_S1x200704_000_07040 (by assumption)

theorem VA_v7 (V : Valuation τ sig (Elt F)) (k : Fin 262144) :
    (VA V (Proc.devRef .tc main_v7) : FVec F S1x262144 .f32) (ix2 (0 : Fin 1) k)
      = if h : k.val < 250000 then (V (Proc.devRef .tc main_arg0) : FVec F S1x250000 .f32) (ix2 (0 : Fin 1) ⟨k.val, h⟩) else padVal := by
  dsimp only [VA, opsA]; after_results; split
  · exact row_in _ _ k _ pads_S1x250000_S1x262144_000_0121440 _
  · exact row_out _ _ k _ pads_S1x250000_S1x262144_000_0121440 (by assumption)

theorem VB_v10 (V : Valuation τ sig (Elt F)) (n : Fin 50000) :
    (VB V (Proc.devRef .tc main_v10) : FVec F S1x50000 .f32) (ix2 (0 : Fin 1) n)
      = (V (Proc.devRef .tc main_arg0) : FVec F S1x250000 .f32) (ix2 (0 : Fin 1) ⟨n.val, by omega⟩) := by
  dsimp only [VB, opsB]; after_results
  exact extractStridedSlice_apply _ _ _ _ _ (Fin.forall_fin_two.2 ⟨rfl, (Nat.zero_add _).symm⟩)

theorem VB_v11 (V : Valuation τ sig (Elt F)) (n : Fin 50000) :
    (VB V (Proc.devRef .tc main_v11) : FVec F S1x50000 .f32) (ix2 (0 : Fin 1) n) = (V (Proc.devRef .tc main_arg12) : FVec F S50000 .f32) (ix1 n) := by
  dsimp only [VB, opsB]; after_results; exact shapeCast_a_1a_apply _ _ 0 n

theorem VB_v12 (V : Valuation τ sig (Elt F)) (n : Fin 50000) :
    (VB V (Proc.devRef .tc main_v12) : FVec F S1x50000 .f32) (ix2 (0 : Fin 1) n) = (V (Proc.devRef .tc main_arg13) : FVec F S50000 .f32) (ix1 n) := by
  dsimp only [VB, opsB]; after_results; exact shapeCast_a_1a_apply _ _ 0 n

theorem VB_v13 (V : Valuation τ sig (Elt F)) (n : Fin 50000) :
    (VB V (Proc.devRef .tc main_v13) : FVec F S1x50000 .f32) (ix2 (0 : Fin 1) n) = (V (Proc.devRef .tc main_arg14) : FVec F S50000 .f32) (ix1 n) := by
  dsimp only [VB, opsB]; after_results; exact shapeCast_a_1a_apply _ _ 0 n

theorem VB_v14 (V : Valuation τ sig (Elt F)) (n : Fin 50000) :
    (VB V (Proc.devRef .tc main_v14) : FVec F S1x50000 .f32) (ix2 (0 : Fin 1) n) = (V (Proc.devRef .tc main_arg15) : FVec F S50000 .f32) (ix1 n) := by
  dsimp only [VB, opsB]; after_results; exact shapeCast_a_1a_apply _ _ 0 n

theorem VB_v15 (V : Valuation τ sig (Elt F)) (n : Fin 50000) :
    (VB V (Proc.devRef .tc main_v15) : FVec F S1x50000 .f32) (ix2 (0 : Fin 1) n) = (V (Proc.devRef .tc main_arg16) : FVec F S50000 .f32) (ix1 n) := by
  dsimp only [VB, opsB]; after_results; exact shapeCast_a_1a_apply _ _ 0 n

theorem VB_v16 (V : Valuation τ sig (Elt F)) (n : Fin 50000) :
    (VB V (Proc.devRef .tc main_v16) : FVec F S1x50000 .f32) (ix2 (0 : Fin 1) n) = (V (Proc.devRef .tc main_arg17) : FVec F S50000 .f32) (ix1 n) := by
  dsimp only [VB, opsB]; after_results; exact shapeCast_a_1a_apply _ _ 0 n

abbrev PreAt [Cert.Pre_input_domain.Facts] (V : Valuation τ sig (Elt F)) : Prop :=
  Cert.Pre_input_domain.fn (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg14)) (V (Proc.devRef .tc main_arg15)) (V (Proc.devRef .tc main_arg16)) (V (Proc.devRef .tc main_arg17)) (V (Proc.devRef .tc main_arg18)) = fun _ => 1#1

section FromPre
variable [Cert.Pre_input_domain.Facts]

theorem rows_le (V : Valuation τ sig (Elt F)) (hpre : PreAt V) :
    ∀ e : Fin 1600000, ((VA V (Proc.devRef .tc main_v1) : IVec S1600000 32) (ix1 e)).toNat ≤ 199999 := fun e => by
  rw [VA_v1]; exact Cert.Proof.PreFacts.idx_row_le _ _ _ _ _ _ _ _ _ _ _ _ _ _ _ _ _ _ _ hpre e

theorem cols_le (V : Valuation τ sig (Elt F)) (hpre : PreAt V) :
    ∀ e : Fin 1600000, ((VA V (Proc.devRef .tc main_v3) : IVec S1600000 32) (ix1 e)).toNat ≤ 249999 := fun e => by
  rw [VA_v3]; exact Cert.Proof.PreFacts.idx_col_le _ _ _ _ _ _ _ _ _ _ _ _ _ _ _ _ _ _ _ hpre e

-- The padded spike buffer is 0 or 1 everywhere: a spike inside the buffer, the padding value 0 behind it.
theorem zpad_01 (V : Valuation τ sig (Elt Ideal)) (hpre : PreAt V) :
    ∀ k : Fin 262144, (VA V (Proc.devRef .tc main_v7) : FVec Ideal S1x262144 .f32) (ix2 (0 : Fin 1) k) = (0 : EReal)
      ∨ (VA V (Proc.devRef .tc main_v7) : FVec Ideal S1x262144 .f32) (ix2 (0 : Fin 1) k) = (1 : EReal) := fun k => by
  rw [VA_v7]; split
  · exact Cert.Proof.PreFacts.z_01 _ _ _ _ _ _ _ _ _ _ _ _ _ _ _ _ _ _ _ hpre _
  · exact Or.inl padVal_ideal

end FromPre

end Cert.ProofB.KHost

end
-- ==== Proof.Bits.RegionsInMain.lean ====
import proofs.«215744_g19043884990565_cont_8to1_1279_72_alg».proof.Proof.Bits.Ghost
import Idealize.ShloMosaic.Lib.SparseCore.Launch
import Idealize.ShloMosaic.Lib.Pipeline.Regions
import Idealize.ShloMosaic.Lib.Pipeline.Frame
import Idealize.ShloMosaic.Lib.StableHlo.Run

noncomputable section

namespace Cert.ProofB.Launch

open Cert.Kernel Cert.Kernel.Gen
open Idealize.ShloMosaic Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held)

variable {F : FTy → Type} [FloatOps F] [∀ e, Nonempty (Elt F e)]

local notation "𝕄" => MT nD τ sig (HIx 1) (Elt F) ℕ UU ℕ

-- Levels up to `8 n` belong to the calls before the `n`-th.
def Bn (c : Dev nD) (n : ℕ) : Set (SemLoc sig × HIx 1) := {p | (K (F := F)).lev (T c, p.1) p.2 ≤ 8 * n}

abbrev owesTc (c : Dev nD) (n : ℕ) : sProp 𝕄 :=
  iprop(∃ W, ⌜(K (F := F)).WBelow (T c) W (8 * n)⌝ ∗ owes (T c) ((K (F := F)).Otc c n) W)

omit [FloatOps F] [∀ e, Nonempty (Elt F e)] in
-- A positive tally has a positive level; index `none` has level 0.
theorem Otc_none (c : Dev nD) (n : ℕ) (g : GSem nD τ sig) : (K (F := F)).Otc c n g none = 0 := by
  by_contra h
  have := SparseCore.Cfg.lev_of_Otc_pos (K := K (F := F)) (Nat.pos_of_ne_zero h)
  rw [SparseCore.Cfg.lev_none] at this; omega

abbrev valAt (c : Dev nD) (W : Valuation τ sig (Elt F)) : (b : Ref sig .tc) → Buf (Elt F) ((c.tc : Thread nD τ).loc b) := fun b => W b

abbrev aref (F : FTy → Type) (p : Fin 2) (w : Fin (pn F p).W) := Pipeline.arrRef (pn F p).spec w

omit [FloatOps F] [∀ e, Nonempty (Elt F e)] in
-- By cases on whether `w` is written back.
theorem share_full {p : Fin 2} {c : Dev nD} (dat : PDat F p c) (hq : ∀ w, dat.q w = fullShare) (w : Fin (pn F p).W) :
    dat.share w = fullShare := by
  unfold Pipeline.Dat.share; split
  · rfl
  · exact hq w

section Region

variable (p : Fin 2) (n : ℕ) (pdats : (p : Fin 2) → (c : Dev nD) → PDat F p c)
variable (kit : Pipeline.LaunchFacts (nD := nD) (τ := τ) cfgs p)
variable (hbody : ∀ c, Pipeline.BodyObligationLoose (pdats p c) (defs₀ (F := F)) 𝒱₀ (none : HIx 1) Set.univ)
variable (Vin Vout : Valuation τ sig (Elt F))
variable (hΦ : ∀ c t, (pdats p c).Φ t = Pipeline.scopedRest (pn F p).spec c)
variable (hq : ∀ c w, (pdats p c).q w = fullShare)
variable (howed : ∀ c t, (pdats p c).owed t = (K (F := F)).Otc c n)
variable (hrec : ∀ c t, (pdats p c).recorded t = Bn (F := F) c n)
variable (hA : ∀ c w, (pdats p c).A w = valAt c Vin (aref F p w))
variable (hN : ∀ c w, (pdats p c).arrAt w (pn F p).N = valAt c Vout (aref F p w))
variable (hrest : ∀ (c : Dev nD) (b : Ref sig .tc), b ∉ Finset.univ.image (aref F p) → valAt c Vout b = valAt c Vin b)

-- The region from the held arrays at `Vin` to those at `Vout`, what the core owes unchanged.
def regionSeg :
    Pipeline.RegionSeg (pcfgs (F := F)) adm pdats (none : HIx 1) (defs₀ (F := F)) 𝒱₀ (K (F := F)).L (K (F := F)).lev p where
  win := kit.win.to₀
  block_pos := kit.block_pos
  stage_whole := kit.stage_whole
  K := PEmpty
  osem := fun k => k.elim
  ho := Pipeline.OwnSemFacts.none _
  hbody := hbody
  hwaits := fun c => by
    refine Pipeline.cellsWaits_intro (pn F) pdats none p c fun w s t => ?_
    rw [howed c t]
    exact (K (F := F)).mayWait_none _ (fun g => Otc_none (F := F) c n g)
  pre := fun c => iprop(owesTc (F := F) c n ∗ held (T c) (Pipeline.ucRefs τ sig) Vin)
  post := fun c => iprop(owesTc (F := F) c n ∗ held (T c) (Pipeline.ucRefs τ sig) Vout)
  X := fun _ => iprop(emp)
  Y := fun _ => iprop(emp)
  Z := fun c => Pipeline.unscopedRest (pn F p).spec c (fun b => Vin b)
  hentry := fun c => by
    iintro ⟨⟨⟨%W, %hW, Ho⟩, Hh⟩, -, -⟩
    imodintro
    ihave Hu := (Entails.of_eq (Pipeline.unscopedBufs_held (Ix := HIx 1) (Name := ℕ) (U := UU) (Lvl := ℕ) c Vin).symm) $$ Hh
    ihave ⟨Ha, Hr⟩ := (Pipeline.arrays_of_unscopedBufs (pcfgs (F := F)) adm pdats kit.win kit.arr_whole c (share_full _ (hq c)) (valAt c Vin) (hA c)) $$ Hu
    iframe Ha Hr
    isplitr
    · unfold Pipeline.prefHeld
      haveI : IsEmpty (Fin (pcfgs (F := F) p).pre.K) := (inferInstance : IsEmpty (Fin 0))
      rw [Finset.univ_eq_empty, bigSep_empty]; iempintro
    iexists W
    rw [howed c 0]
    iframe Ho
    ipureintro
    exact fun x hx => Or.inl (by rw [hrec c 0]; exact hW x (Finset.mem_coe.mp hx))
  hin := fun c => by
    rw [hΦ c]
    iintro ⟨-, -, H⟩; iexact H
  hout := fun c => by
    rw [hΦ c]
    iintro H
    iframe H
    unfold Pipeline.ownSems0
    rw [Finset.univ_eq_empty, bigSep_empty]; iempintro
  hexit := fun c => by
    iintro ⟨Ha, ⟨%W, %hW, Ho⟩, -, Hr⟩
    imodintro
    isplitl [Ho]
    · iexists W
      isplitr
      · ipureintro
        intro x hx
        rcases hW (Finset.mem_coe.mpr hx) with h | ⟨w, s, rfl⟩
        · rw [hrec c _] at h; exact h
        · show (K (F := F)).lev _ none ≤ _
          rw [SparseCore.Cfg.lev_none]; exact Nat.zero_le _
      rw [← howed c (Fin.last _)]
      iexact Ho
    rw [← Pipeline.unscopedBufs_held (Ix := HIx 1) (Name := ℕ) (U := UU) (Lvl := ℕ) c Vout,
      Pipeline.unscopedBufs_split (pn F) p kit.win.arr_unscoped kit.win.arr_inj c (valAt c Vout),
      ← show (bigSep Finset.univ fun w => (((c.tc : Thread nD τ).loc (aref F p w)) ↦{fullShare} (pdats p c).arrAt w (pn F p).N : sProp 𝕄))
        = bigSep Finset.univ fun w => (((c.tc : Thread nD τ).loc (aref F p w)) ↦{fullShare} valAt c Vout (aref F p w) : sProp 𝕄)
        from bigSep_congr fun w _ => by rw [hN c w],
      ← show (Pipeline.unscopedRest (pn F p).spec c (valAt c Vin) : sProp 𝕄) = Pipeline.unscopedRest (pn F p).spec c (valAt c Vout) from by
        unfold Pipeline.unscopedRest
        exact bigSep_congr fun b hb => by rw [hrest c b (Finset.mem_sdiff.mp hb).2]]
    ihave Ha' := (Entails.of_eq (Pipeline.arrays_eq (pn F) pdats p c kit.arr_whole (share_full _ (hq c)) _)) $$ Ha
    iframe

variable (P : (K (F := F)).Pay (nD := nD) (Val := Elt F) (Name := ℕ) (U := UU))

include kit hbody howed hΦ hq hrec hA hN hrest in
-- The library's region rule at `regionSeg`; the rest of the core's state is framed.
theorem region_tcSt : CallRule P p n (Gp p) Vin Vout := by
  intro κ d β k Φ
  unfold SparseCore.Cfg.tcSt
  rw [wp_bind, show (Prog.lift (.customCall (SparseCore.inner (Pipeline.entry p)) ()) : Prog (TpuEff nD τ sig (Elt F) (SparseCore.Sig (ΛP (F := F)) 1) .tc) PUnit)
      = SparseCore.liftProg (.op (.customCall (Pipeline.entry p) ()) fun x => .ret x) from rfl]
  iintro ⟨#Hctx, ⟨Ho, Hrest⟩, Hb, Hh, Hg, Ht⟩ Hk
  iapply ((K (F := F)).wp_liftProg (D (F := F)) 𝒱 (T d) Set.univ none _ _)
  iapply (Pipeline.RegionSeg.wp (pcfgs (F := F)) adm pdats (none : HIx 1) phinj (EP (F := F)) (defs₀ (F := F)) 𝒱₀ (K (F := F)).L (K (F := F)).lev
    (regionSeg (F := F) p n pdats kit hbody Vin Vout hΦ hq howed hrec hA hN hrest) d none (fun u hu => nomatch hu) (fun x => .ret x) _)
  dsimp only [regionSeg]
  isplitl [Hk Hrest]
  · iintro ⟨Hb, Ho, Hh⟩
    rw [wp_ret]
    imodintro
    iapply Hk
    iframe
  iframe Hb Ho Hh Hg Ht
  iapply (SparseCore.Cfg.ctx_levAts (K := K (F := F)) (EH := EH) (P := P) κ); iexact Hctx

end Region

omit [FloatOps F] [∀ e, Nonempty (Elt F e)] in
theorem G_split (d : Dev nD) : G (F := F) d ⊢ iprop(Gp 0 d ∗ Gp 1 d) := by
  show Pipeline.PerCore.ghostOn _ _ _ _ _ ⊢ _
  unfold Pipeline.PerCore.ghostOn
  rw [bigSep_W0]

end Cert.ProofB.Launch

end
-- ==== Proof.Bits.PackBody.lean ====
import proofs.«215744_g19043884990565_cont_8to1_1279_72_alg».proof.Proof.Gen.Kernel.Skeleton
import proofs.«215744_g19043884990565_cont_8to1_1279_72_alg».proof.Proof.Gen.Kernel.Points
import proofs.«215744_g19043884990565_cont_8to1_1279_72_alg».proof.Proof.Gen.Kernel.Launch
import Idealize.ShloMosaic.Lib.Pipeline.FrameBody
import Idealize.ShloMosaic.Lib.Pipeline.Frame
import Idealize.ShloMosaic.Lib.Pipeline.Value
import Idealize.ShloMosaic.Lib.Tactic
import Idealize.ShloMosaic.Lib.ValueIdx
import proofs.«215744_g19043884990565_cont_8to1_1279_72_alg».proof.Proof.Spec

set_option maxRecDepth 16384

noncomputable section

namespace Cert.ProofB.Pack
open Cert.Proof

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Pipeline (Dat Cfg Window BodyObligation cellOf)

variable {F : FTy → Type} [FloatOps F]
variable {Ix : Type} [DecidableEq Ix] {Name : Type} [DecidableEq Name] {U : Type} [URA U] {Lvl : Type} [Preorder Lvl]

local notation "𝕄" => MT nD τ sig Ix (Elt F) Name U Lvl

theorem hz : (![0, 0] : Fin 2 → Nat) = fun _ => 0 := funext fun a => by fin_cases a <;> rfl

/-- At the first point the body stores the spike block's shifted integer parts over whatever the result block held. -/
theorem run_first (𝒱₀ : Variants) (c : Dev nD) (i : grid0.Coords)
    (arg1 : Memref sig .tc .vmem S1x8192 .f32) (harg1 : arg1.IsWhole) (arg2 : Memref sig .tc .vmem S1x8192 .i32) (harg2 : arg2.IsWhole)
    (h1 : k0_cond1 i = 1#1) (h2 : ¬ k0_cond2 i = 1#1) (x0 : Vec F S1x8192 .f32) (xo : Vec F S1x8192 .i32)
    (E : Set Name) (K : PUnit → sProp 𝕄) :
    iprop(owns (c : Thread nD τ) arg1 fullShare x0 ∗ owns (c : Thread nD τ) arg2 fullShare xo
        ∗ (iprop(owns (c : Thread nD τ) arg1 fullShare x0 ∗ owns (c : Thread nD τ) arg2 fullShare (k0_pay1 i x0)) -∗ K ⟨⟩))
      ⊢ wp frame (wpE (defs₀ (F := F)) 𝒱₀ c none) E (cc0__pack_body i arg1 harg1 arg2 harg2) K := by
  simp only [cc0__pack_body_eq_skeleton]; unfold cc0__pack_body_skel owns
  iintro ⟨⟨%f0, %hf0, H0⟩, ⟨%f1, %hf1, H1⟩, Hk⟩
  obtain rfl := harg1.eq_unread hf0; obtain rfl := harg2.eq_unread hf1
  sl_exec (disch := first | exact h1 | exact h2)
  sl_step
  iapply Hk
  isplitl [H0]
  · iexists _; isplitr; · ipureintro; exact harg1.read_unread _
    iexact H0
  iexists _; isplitr
  swap; · iexact H1
  ipureintro
  rw [View.read_writes_eq_canon _ _ _ (fun y => ⟨_, List.mem_singleton_self _, View.mem_set_unit_zero hz inb_S1x8192_S1x8192_0_0 y⟩),
    View.canon_unit_zero hz]
  simp only [View.readAt_eq_ld, harg1.read_unread, View.ld_unit_zero (S := S1x8192) hz]

/-- At a later point the body adds the spike block's shifted integer parts to the running row. -/
theorem run_later (𝒱₀ : Variants) (c : Dev nD) (i : grid0.Coords)
    (arg1 : Memref sig .tc .vmem S1x8192 .f32) (harg1 : arg1.IsWhole) (arg2 : Memref sig .tc .vmem S1x8192 .i32) (harg2 : arg2.IsWhole)
    (h1 : ¬ k0_cond1 i = 1#1) (h2 : k0_cond2 i = 1#1) (x0 : Vec F S1x8192 .f32) (xo : Vec F S1x8192 .i32)
    (E : Set Name) (K : PUnit → sProp 𝕄) :
    iprop(owns (c : Thread nD τ) arg1 fullShare x0 ∗ owns (c : Thread nD τ) arg2 fullShare xo
        ∗ (iprop(owns (c : Thread nD τ) arg1 fullShare x0 ∗ owns (c : Thread nD τ) arg2 fullShare (k0_pay2 i x0 xo)) -∗ K ⟨⟩))
      ⊢ wp frame (wpE (defs₀ (F := F)) 𝒱₀ c none) E (cc0__pack_body i arg1 harg1 arg2 harg2) K := by
  simp only [cc0__pack_body_eq_skeleton]; unfold cc0__pack_body_skel owns
  iintro ⟨⟨%f0, %hf0, H0⟩, ⟨%f1, %hf1, H1⟩, Hk⟩
  obtain rfl := harg1.eq_unread hf0; obtain rfl := harg2.eq_unread hf1
  sl_exec (disch := first | exact h1 | exact h2)
  sl_step
  iapply Hk
  isplitl [H0]
  · iexists _; isplitr; · ipureintro; exact harg1.read_unread _
    iexact H0
  iexists _; isplitr
  swap; · iexact H1
  ipureintro
  rw [View.read_writes_eq_canon _ _ _ (fun y => ⟨_, List.mem_singleton_self _, View.mem_set_unit_zero hz inb_S1x8192_S1x8192_0_0 y⟩),
    View.canon_unit_zero hz]
  simp only [View.readAt_eq_ld, harg1.read_unread, harg2.read_unread, View.ld_unit_zero (S := S1x8192) hz]

theorem N_0' : cfg0.N = 32 := N_0

theorem hcond1 : ∀ t : Fin cfg0.N, k0_cond1 (grid0.coords t) = 1#1 ↔ t.val = 0 := by
  show ∀ t : Fin grid0.N, _; decide +kernel
theorem hcond2 : ∀ t : Fin cfg0.N, k0_cond2 (grid0.coords t) = 1#1 ↔ t.val ≠ 0 := by
  show ∀ t : Fin grid0.N, _; decide +kernel

theorem hlive1 (i : grid0.Coords) : cfg0.idle 1 i = false := by
  have h : ∀ v : Fin 32,
      Scalar.cmpi .ne (Scalar.extui (Scalar.cmpi .eq (BitVec.ofNat 32 v.val) 0#32)) 0#32 = 1#1
        ∨ Scalar.cmpi .ne (Scalar.extui (Scalar.cmpi .sgt (BitVec.ofNat 32 v.val) 0#32)) 0#32 = 1#1 := by decide +kernel
  show (!(k0_cond1 i == 1#1) && !(k0_cond2 i == 1#1)) = false
  rcases h ⟨(i 0).val, (i 0).isLt⟩ with h | h
  · simp [show k0_cond1 i = 1#1 from h]
  · simp [show k0_cond2 i = 1#1 from h]

def zblk (zp : Vec F S1x262144 .f32) (t : Fin cfg0.N) : Vec F S1x8192 .f32 :=
  ((cfg0.win 0).blk t).view.read (Elt F) zp

/-- The running word row after point `n`: point 0 stores block 0's shifted integer parts, point `n + 1` adds block `n + 1`'s. -/
def accAt (zp : Vec F S1x262144 .f32) : (n : ℕ) → n < cfg0.N → Vec F S1x8192 .i32
  | 0, h => k0_pay1 (grid0.coords ⟨0, h⟩) (zblk zp ⟨0, h⟩)
  | n + 1, h => k0_pay2 (grid0.coords ⟨n + 1, h⟩) (zblk zp ⟨n + 1, h⟩) (accAt zp n (Nat.lt_of_succ_lt h))

theorem accAt_first (zp : Vec F S1x262144 .f32) (t : Fin cfg0.N) (h0 : t.val = 0) :
    accAt zp t.val t.isLt = k0_pay1 (grid0.coords t) (zblk zp t) := by
  obtain ⟨_ | n, hn⟩ := t
  exacts [rfl, absurd h0 (Nat.succ_ne_zero n)]

theorem accAt_later (zp : Vec F S1x262144 .f32) (t : Fin cfg0.N) (h0 : t.val ≠ 0) :
    accAt zp t.val t.isLt = k0_pay2 (grid0.coords t) (zblk zp t) (accAt zp (t.val - 1) (Nat.lt_of_le_of_lt (Nat.sub_le _ _) t.isLt)) := by
  obtain ⟨_ | n, hn⟩ := t
  exacts [absurd rfl h0, rfl]

def packed (zp : Vec F S1x262144 .f32) : Vec F S1x8192 .i32 :=
  accAt zp 31 (by rw [N_0']; decide)

def dat0 (c : Dev nD) (V : (b : Ref sig .tc) → Buf (Elt F) ((c : Thread nD τ).loc b)) (Φ₀ : sProp 𝕄)
    (O : CellTallies nD τ sig Ix) (B : Set (SemLoc sig × Ix)) : Dat τ (Elt F) Ix Name U Lvl cfg0 c where
  A w := V (Pipeline.arrRef spec0 w)
  after w t := match w with
    | ⟨0, _⟩ => zblk (V main_v7) t
    | ⟨1, _⟩ => accAt (V main_v7) t.val t.isLt
  Φ _ := Φ₀
  q _ := fullShare
  owed _ := O
  recorded _ := B

variable (c : Dev nD) (V : (b : Ref sig .tc) → Buf (Elt F) ((c : Thread nD τ).loc b)) (Φ₀ : sProp (MT nD τ sig Ix (Elt F) Name U Lvl))
  (O : CellTallies nD τ sig Ix) (B : Set (SemLoc sig × Ix))

theorem A_eq (w : Fin cfg0.W) : (dat0 c V Φ₀ O B).A w = V (Pipeline.arrRef spec0 w) := rfl
theorem after0_0 (t : Fin cfg0.N) : (dat0 c V Φ₀ O B).after 0 t = zblk (V main_v7) t := rfl
theorem after0_1 (t : Fin cfg0.N) : (dat0 c V Φ₀ O B).after 1 t = accAt (V main_v7) t.val t.isLt := rfl

theorem before0_0 (t : Fin cfg0.N) (d) : (dat0 c V Φ₀ O B).before 0 t d = zblk (V main_v7) t :=
  ((dat0 c V Φ₀ O B).before_in_eq_fetched 0 rfl (fun _ => rfl) (fun _ _ _ => rfl)
      (fun _ => rfl) t d).trans rfl

theorem before0_1_later (t : Fin cfg0.N) (h0 : t.val ≠ 0) (d) :
    (dat0 c V Φ₀ O B).before 1 t d = accAt (V main_v7) (t.val - 1) (Nat.lt_of_le_of_lt (Nat.sub_le _ _) t.isLt) := by
  have hN : t.val < 32 := lt_of_lt_of_eq t.isLt N_0'
  rw [Dat.before_out_kept _ 1 rfl t h0 (Bool.eq_false_iff.mpr fun h => by have := (flush0_1 _).mp h; dsimp only at this; omega)
    hlive1 (fun _ _ => rfl)]
  dsimp only [dat0]

theorem leaves0 (w : Fin cfg0.W) (t : Fin cfg0.N) (h : cfg0.idle w (cfg0.grid.coords t) = false) :
    (dat0 c V Φ₀ O B).leavesExact w t
      = owns (c : Thread nD τ) ((cfg0.win w).stage (cfg0.slots t w)) fullShare ((dat0 c V Φ₀ O B).after w t) := by
  unfold Dat.leavesExact; rw [h]

set_option maxHeartbeats 800000 in
theorem sound_body (𝒱₀ : Variants) (ι : Ix) (t : Fin cfg0.N) :
    iprop((dat0 c V Φ₀ O B).Φ t.castSucc ∗ (dat0 c V Φ₀ O B).owesAt ι t.castSucc
        ∗ (∃ d, owns (c : Thread nD τ) ((cfg0.win 0).stage (cfg0.slots t 0)) fullShare ((dat0 c V Φ₀ O B).before 0 t d))
        ∗ (∃ d, owns (c : Thread nD τ) ((cfg0.win 1).stage (cfg0.slots t 1)) fullShare ((dat0 c V Φ₀ O B).before 1 t d)))
      ⊢ wp frame (wpE (defs₀ (F := F)) 𝒱₀ c none) Set.univ (bodyAt0 t) fun _ =>
          iprop((dat0 c V Φ₀ O B).Φ t.succ ∗ (dat0 c V Φ₀ O B).owesAt ι t.succ
            ∗ (dat0 c V Φ₀ O B).leavesExact 0 t ∗ (dat0 c V Φ₀ O B).leavesExact 1 t) := by
  rw [leaves0 c V Φ₀ O B 0 t rfl, leaves0 c V Φ₀ O B 1 t (hlive1 _)]
  rw [show (dat0 c V Φ₀ O B).Φ t.succ = (dat0 c V Φ₀ O B).Φ t.castSucc from rfl,
    show (dat0 c V Φ₀ O B).owesAt ι t.succ = (dat0 c V Φ₀ O B).owesAt ι t.castSucc from rfl, after0_0, after0_1]
  simp only [before0_0]
  unfold bodyAt0
  by_cases h0 : t.val = 0
  · rw [accAt_first _ t h0]
    iintro ⟨HΦ, Ho, ⟨%d0, H0⟩, ⟨%d1, H1⟩⟩
    iapply (run_first 𝒱₀ c (grid0.coords t) _ _ _ _ ((hcond1 t).mpr h0) (fun h => (hcond2 t).mp h h0) (zblk (V main_v7) t) _ Set.univ _)
    iframe
    iintro G
    iframe
  · simp only [before0_1_later c V Φ₀ O B t h0]
    rw [accAt_later _ t h0]
    iintro ⟨HΦ, Ho, ⟨%d0, H0⟩, ⟨%d1, H1⟩⟩
    iapply (run_later 𝒱₀ c (grid0.coords t) _ _ _ _ (fun h => h0 ((hcond1 t).mp h)) ((hcond2 t).mpr h0) (zblk (V main_v7) t) _ Set.univ _)
    iframe
    iintro G
    iframe

theorem body_obligation (𝒱₀ : Variants) (ι : Ix) :
    BodyObligation (dat0 c V Φ₀ O B) (defs₀ (F := F)) 𝒱₀ ι Set.univ := fun t => by
  rw [bigSep_W0, bigSep_W0]
  exact sound_body c V Φ₀ O B 𝒱₀ ι t

def t31 : Fin cfg0.N := ⟨31, by rw [N_0']; decide⟩

/-- The result's one block sits at zero offsets of its array. -/
theorem hz31 : (fun a => win0_1.index t31 a * main_v8.ty.shape.size a) = fun _ => 0 :=
  funext fun a => by fin_cases a <;> decide +kernel

theorem flushed_eq (t : Fin cfg0.N) (hf : (cfg0.win 1).flush t = true) :
    (dat0 c V Φ₀ O B).flushed 1 t = ((cfg0.win 1).blk t).view.read (Elt F) (packed (V main_v7)) := by
  have hN : cfg0.N = 32 := N_0'
  obtain rfl : t = t31 := Fin.ext (show t.val = 31 by have := (flush0_1 t).mp hf; have := t.isLt; omega)
  show (cfg0.win 1).cut (grid0.coords t31) ((dat0 c V Φ₀ O B).after 1 t31) = _
  rw [after0_1]
  exact (Memref.read_access_unit_zero (Elt F) main_v8 hz31 (fun a => by rw [congrFun hz31 a]; simp) (packed (V main_v7))).symm

theorem arrAt_out : (dat0 c V Φ₀ O B).arrAt 1 cfg0.N = packed (V main_v7) :=
  (dat0 c V Φ₀ O B).arrAt_eq_of_cover 1 (packed (V main_v7)) (flushed_eq c V Φ₀ O B) fun i =>
    ⟨t31, (flush0_1 t31).mpr rfl, by
      show i ∈ ((View.whole main_v8).slice (win0_1.rect t31)).set
      rw [View.set_slice_whole]
      exact View.mem_set_unit_zero hz31 _ i⟩

def zrow (zp : Vec F S1x262144 .f32) (j : ℕ) : F .f32 :=
  if h : j < 262144 then zp (ix2 (0 : Fin 1) ⟨j, h⟩) else zp (ix2 (0 : Fin 1) ⟨0, by decide⟩)

theorem hindex : ∀ t : Fin cfg0.N, win0_0.index t 0 = 0 ∧ win0_0.index t 1 = t.val := by
  show ∀ t : Fin grid0.N, _; decide +kernel
theorem coords0 : ∀ t : Fin cfg0.N, ((grid0.coords t) 0).val = t.val := by
  show ∀ t : Fin grid0.N, _; decide +kernel

theorem zblk_apply (zp : Vec F S1x262144 .f32) (t : Fin cfg0.N) (w : Fin 8192) :
    zblk zp t (ix2 (0 : Fin 1) w) = zrow zp (t.val * 8192 + w.val) := by
  have hN : t.val < 32 := lt_of_lt_of_eq t.isLt N_0'
  have hi := hindex t
  unfold zrow; rw [dif_pos (by omega)]
  unfold zblk
  rw [View.read_apply]
  show zp _ = zp _
  congr 1
  funext a
  apply Fin.ext
  match a with
  | ⟨0, _⟩ => show win0_0.index t 0 * 1 + 1 * 0 = 0; rw [hi.1]
  | ⟨1, _⟩ => show win0_0.index t 1 * 8192 + 1 * w.val = t.val * 8192 + w.val; rw [hi.2]; omega

theorem pay1_apply (i : grid0.Coords) (v0 : Vec F S1x8192 .f32) (j : S1x8192.Idx) :
    k0_pay1 i v0 j = IntOp.shli .vector (FloatOps.fptosi 32 (v0 j)) (BitVec.ofNat 32 (i 0).val) := by
  unfold k0_pay1; simp only [shapeCast_self]; rfl
theorem pay2_apply (i : grid0.Coords) (v0 : Vec F S1x8192 .f32) (v11 : Vec F S1x8192 .i32) (j : S1x8192.Idx) :
    k0_pay2 i v0 v11 j = IntOp.addi (v11 j) (k0_pay1 i v0 j) := by
  unfold k0_pay2; simp only [shapeCast_self]; rfl

/-- Word `w` of the running row is the left-to-right sum of the first `n + 1` shifted integer parts of the entries `8192·b + w`. -/
theorem accAt_apply (zp : Vec F S1x262144 .f32) (w : Fin 8192) : ∀ (n : ℕ) (h : n < cfg0.N),
    accAt zp n h (ix2 (0 : Fin 1) w) = Spec.packAcc (fun b => FloatOps.fptosi 32 (zrow zp (b * 8192 + w.val))) n
  | 0, h => by
    show k0_pay1 (grid0.coords ⟨0, h⟩) (zblk zp ⟨0, h⟩) (ix2 (0 : Fin 1) w) = _
    rw [pay1_apply, zblk_apply, coords0]; rfl
  | n + 1, h => by
    show k0_pay2 (grid0.coords ⟨n + 1, h⟩) (zblk zp ⟨n + 1, h⟩) (accAt zp n (Nat.lt_of_succ_lt h)) (ix2 (0 : Fin 1) w) = _
    rw [pay2_apply, pay1_apply, zblk_apply, coords0, accAt_apply zp w n]; rfl

theorem packed_apply (zp : Vec F S1x262144 .f32) (w : Fin 8192) :
    packed zp (ix2 (0 : Fin 1) w) = Spec.packed (fun j => FloatOps.fptosi 32 (zrow zp j)) w.val :=
  accAt_apply zp w 31 _

end Cert.ProofB.Pack

end
-- ==== Proof.Bits.UpdateBody.lean ====
import proofs.«215744_g19043884990565_cont_8to1_1279_72_alg».proof.Proof.Gen.Kernel
import proofs.«215744_g19043884990565_cont_8to1_1279_72_alg».proof.Proof.Gen.Kernel.Skeleton
import proofs.«215744_g19043884990565_cont_8to1_1279_72_alg».proof.Proof.Gen.Kernel.Points
import proofs.«215744_g19043884990565_cont_8to1_1279_72_alg».proof.Proof.Gen.Kernel.Launch
import Idealize.ShloMosaic.Lib.Tactic
import Idealize.ShloMosaic.Lib.Pipeline.Value
import Idealize.ShloMosaic.Lib.ValueIdx
import Idealize.ShloMosaic.Lib.ValueLayout
import proofs.«215744_g19043884990565_cont_8to1_1279_72_alg».proof.Proof.UpdAt
import proofs.«215744_g19043884990565_cont_8to1_1279_72_alg».proof.Proof.UpdateBodyPure
import Idealize.ShloMosaic.PureOps.Ideal.Laws

set_option maxRecDepth 8192

noncomputable section

namespace Cert.ProofB.Update
open Cert.Proof
open Cert.Proof.Update

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation)
open Idealize.ShloMosaic.ValueIdx

variable {F : FTy → Type} [FloatOps F]
variable {Ix : Type} [DecidableEq Ix] {Name : Type} [DecidableEq Name] {U : Type} [URA U] {Lvl : Type} [Preorder Lvl]

def out (parts : Vec F S32x50176 .f32) (v r a1 a2 ext pz decay cf vth vrst el tref : Vec F S1x50000 .f32)
    (kd aa : Vec F S2 .f32) : Vec F S1x50000 .f32 :=
  k2_pay1 (k2_pay2 pz)
    (k2_pay3 parts pz (kd (ix1 (0 : Fin 2))) a1 (aa (ix1 (0 : Fin 2))) (kd (ix1 (1 : Fin 2))) a2 (aa (ix1 (1 : Fin 2))) ext decay v cf)
    (k2_pay4 pz) vrst r tref vth vth el

abbrev i0 : S1.Idx := Shape.Idx.first (s := S1) (numel1_S1.symm ▸ Nat.one_pos)

/-- A one-word load at offset 0 or 1 of a pair reads that entry of the pair. -/
theorem wd {Val : EltTy → Type} {e : EltTy} (X : S2.Idx → Val e) :
    View.ld X (Rect.unit (s := S2) ![0] S1.size inb_S2_S1_0) i0 = X (ix1 (0 : Fin 2))
      ∧ View.ld X (Rect.unit (s := S2) ![1] S1.size inb_S2_S1_1) i0 = X (ix1 (1 : Fin 2)) :=
  ⟨congrArg X (funext fun d => by fin_cases d; rfl), congrArg X (funext fun d => by fin_cases d; rfl)⟩

/-- The call's sixteen buffers, each read as the given block. -/
def bufs (c : Dev nD) (X0 : Vec F S32x50176 .f32) (X1 X2 X3 X4 X5 X6 X7 X8 X9 X10 X11 X12 : Vec F S1x50000 .f32)
    (X13 X14 : Vec F S2 .f32) (X15 : Vec F S1x50000 .f32) : sProp (MT nD τ sig Ix (Elt F) Name U Lvl) :=
  iprop(owns (c : Thread nD τ) (Memref.whole cc2_stg0_0) fullShare X0
      ∗ owns (c : Thread nD τ) (Memref.whole cc2_stg1_0) fullShare X1
      ∗ owns (c : Thread nD τ) (Memref.whole cc2_stg2_0) fullShare X2
      ∗ owns (c : Thread nD τ) (Memref.whole cc2_stg3_0) fullShare X3
      ∗ owns (c : Thread nD τ) (Memref.whole cc2_stg4_0) fullShare X4
      ∗ owns (c : Thread nD τ) (Memref.whole cc2_stg5_0) fullShare X5
      ∗ owns (c : Thread nD τ) (Memref.whole cc2_stg6_0) fullShare X6
      ∗ owns (c : Thread nD τ) (Memref.whole cc2_stg7_0) fullShare X7
      ∗ owns (c : Thread nD τ) (Memref.whole cc2_stg8_0) fullShare X8
      ∗ owns (c : Thread nD τ) (Memref.whole cc2_stg9_0) fullShare X9
      ∗ owns (c : Thread nD τ) (Memref.whole cc2_stg10_0) fullShare X10
      ∗ owns (c : Thread nD τ) (Memref.whole cc2_stg11_0) fullShare X11
      ∗ owns (c : Thread nD τ) (Memref.whole cc2_stg12_0) fullShare X12
      ∗ owns (c : Thread nD τ) (Memref.whole cc2_stg13_0) fullShare X13
      ∗ owns (c : Thread nD τ) (Memref.whole cc2_stg14_0) fullShare X14
      ∗ owns (c : Thread nD τ) (Memref.whole cc2_stg15_0) fullShare X15)

set_option maxHeartbeats 1000000 in
/-- The body leaves the fifteen operand buffers as they were and the result's buffer at `out` of the operand blocks. -/
theorem sound_body (𝒱₀ : Variants) (c : Dev nD) (X0 : Vec F S32x50176 .f32) (X1 X2 X3 X4 X5 X6 X7 X8 X9 X10 X11 X12 : Vec F S1x50000 .f32)
    (X13 X14 : Vec F S2 .f32) (X15 : Vec F S1x50000 .f32) (K : PUnit → sProp (MT nD τ sig Ix (Elt F) Name U Lvl)) :
    iprop(bufs c X0 X1 X2 X3 X4 X5 X6 X7 X8 X9 X10 X11 X12 X13 X14 X15 ∗ (bufs c X0 X1 X2 X3 X4 X5 X6 X7 X8 X9 X10 X11 X12 X13 X14 (out X0 X1 X2 X3 X4 X5 X6 X7 X8 X9 X10 X11 X12 X13 X14) -∗ K ⟨⟩))
      ⊢ wp frame (wpE (defs₀ (F := F)) 𝒱₀ c none) Set.univ (cc2__update_body (F := F) (Memref.whole cc2_stg0_0) (Memref.isWhole_whole _) (Memref.whole cc2_stg1_0) (Memref.isWhole_whole _) (Memref.whole cc2_stg2_0) (Memref.isWhole_whole _) (Memref.whole cc2_stg3_0) (Memref.isWhole_whole _) (Memref.whole cc2_stg4_0) (Memref.isWhole_whole _) (Memref.whole cc2_stg5_0) (Memref.isWhole_whole _) (Memref.whole cc2_stg6_0) (Memref.isWhole_whole _) (Memref.whole cc2_stg7_0) (Memref.isWhole_whole _) (Memref.whole cc2_stg8_0) (Memref.isWhole_whole _) (Memref.whole cc2_stg9_0) (Memref.isWhole_whole _) (Memref.whole cc2_stg10_0) (Memref.isWhole_whole _) (Memref.whole cc2_stg11_0) (Memref.isWhole_whole _) (Memref.whole cc2_stg12_0) (Memref.isWhole_whole _) (Memref.whole cc2_stg13_0) (Memref.isWhole_whole _) (Memref.whole cc2_stg14_0) (Memref.isWhole_whole _) (Memref.whole cc2_stg15_0) (Memref.isWhole_whole _)) K := by
  unfold bufs owns
  iintro ⟨⟨⟨%f0, %h0, H0⟩, ⟨%f1, %h1, H1⟩, ⟨%f2, %h2, H2⟩, ⟨%f3, %h3, H3⟩, ⟨%f4, %h4, H4⟩, ⟨%f5, %h5, H5⟩, ⟨%f6, %h6, H6⟩, ⟨%f7, %h7, H7⟩, ⟨%f8, %h8, H8⟩, ⟨%f9, %h9, H9⟩, ⟨%f10, %h10, H10⟩, ⟨%f11, %h11, H11⟩, ⟨%f12, %h12, H12⟩, ⟨%f13, %h13, H13⟩, ⟨%f14, %h14, H14⟩, ⟨%f15, %h15, H15⟩⟩, Hk⟩
  subst h0 h1 h2 h3 h4 h5 h6 h7 h8 h9 h10 h11 h12 h13 h14 h15
  sl_unfold [cc2__update_body]
  sl_exec!
  sl_step
  iapply Hk
  isplitl [H0]
  · iexists f0; isplitr
    · ipureintro; rfl
    · iexact H0
  isplitl [H1]
  · iexists f1; isplitr
    · ipureintro; rfl
    · iexact H1
  isplitl [H2]
  · iexists f2; isplitr
    · ipureintro; rfl
    · iexact H2
  isplitl [H3]
  · iexists f3; isplitr
    · ipureintro; rfl
    · iexact H3
  isplitl [H4]
  · iexists f4; isplitr
    · ipureintro; rfl
    · iexact H4
  isplitl [H5]
  · iexists f5; isplitr
    · ipureintro; rfl
    · iexact H5
  isplitl [H6]
  · iexists f6; isplitr
    · ipureintro; rfl
    · iexact H6
  isplitl [H7]
  · iexists f7; isplitr
    · ipureintro; rfl
    · iexact H7
  isplitl [H8]
  · iexists f8; isplitr
    · ipureintro; rfl
    · iexact H8
  isplitl [H9]
  · iexists f9; isplitr
    · ipureintro; rfl
    · iexact H9
  isplitl [H10]
  · iexists f10; isplitr
    · ipureintro; rfl
    · iexact H10
  isplitl [H11]
  · iexists f11; isplitr
    · ipureintro; rfl
    · iexact H11
  isplitl [H12]
  · iexists f12; isplitr
    · ipureintro; rfl
    · iexact H12
  isplitl [H13]
  · iexists f13; isplitr
    · ipureintro; rfl
    · iexact H13
  isplitl [H14]
  · iexists f14; isplitr
    · ipureintro; rfl
    · iexact H14
  iexists _; isplitr
  rotate_left
  · iexact H15
  · ipureintro
    show View.read _ _ (View.writes _ _ _ [_]) = _
    rw [View.read_writes_eq_canon _ _ _ (fun y => ⟨_, List.mem_singleton_self _, View.mem_set_unit_zero zero2 inb_S1x50000_S1x50000_0_0 y⟩),
      View.canon_unit_zero (S := S1x50000) zero2]
    show k2_pay1 (k2_pay2 _) (k2_pay3 _ _ _ _ _ _ _ _ _ _ _ _) (k2_pay4 _) _ _ _ _ _ _ = _
    unfold out
    simp only [View.readAt_eq_ld, View.ld_unit_zero (S := S1x50000) zero2, View.ld_unit_zero (S := S32x50176) zero2]
    congr 2 <;> first | exact (wd _).1 | exact (wd _).2

def dat2 (c : Dev nD) (V : (b : Ref sig .tc) → Buf (Elt F) ((c : Thread nD τ).loc b)) (Φ₀ : sProp (MT nD τ sig Ix (Elt F) Name U Lvl))
    (O : CellTallies nD τ sig Ix) (B : Set (SemLoc sig × Ix)) : Dat τ (Elt F) Ix Name U Lvl cfg2 c where
  A w := V (Pipeline.arrRef spec2 w)
  after := fun w _ => match w with
    | 0 => V main_v9
    | 1 => V main_arg1
    | 2 => V main_arg2
    | 3 => V main_arg3
    | 4 => V main_arg4
    | 5 => V main_arg7
    | 6 => V main_v10
    | 7 => V main_v11
    | 8 => V main_v12
    | 9 => V main_v13
    | 10 => V main_v14
    | 11 => V main_v15
    | 12 => V main_v16
    | 13 => V main_arg11
    | 14 => V main_arg10
    | 15 => (out (V main_v9) (V main_arg1) (V main_arg2) (V main_arg3) (V main_arg4) (V main_arg7) (V main_v10) (V main_v11) (V main_v12) (V main_v13) (V main_v14) (V main_v15) (V main_v16) (V main_arg11) (V main_arg10))
    | ⟨_ + 16, h⟩ => absurd h (Nat.not_lt.2 (Nat.le_add_left _ _))
  Φ _ := Φ₀
  q _ := fullShare
  owed _ := O
  recorded _ := B

variable (c : Dev nD) (V : (b : Ref sig .tc) → Buf (Elt F) ((c : Thread nD τ).loc b)) (Φ₀ : sProp (MT nD τ sig Ix (Elt F) Name U Lvl))
  (O : CellTallies nD τ sig Ix) (B : Set (SemLoc sig × Ix))

theorem A_eq (w : Fin 16) : (dat2 (F := F) (Ix := Ix) (Name := Name) (U := U) (Lvl := Lvl) c V Φ₀ O B).A w = V (Pipeline.arrRef spec2 w) := rfl

/-- At the one grid point each operand's block is the whole of its array, so what the body finds is what it leaves: windows 0 to 4, -/
theorem before_a (w : Fin 16) (h2 : w.val < 5) (d : (cfg2.win w).block.Idx → Elt F (cfg2.win w).elt) :
    (dat2 c V Φ₀ O B).before w t2_0 d = (dat2 c V Φ₀ O B).after w t2_0 := by
  obtain ⟨k, hk⟩ := w
  have h2 : k < 5 := h2
  interval_cases k
  all_goals
    refine (if_pos rfl).trans (funext fun j => ?_)
    unfold Dat.fetched Dat.blockOf Pipeline.Window.fill
    rw [dif_pos ((Pipeline.Window.moved_iff _ _ _).mpr fun a => (j a).isLt)]
    exact congrArg (V _) (funext fun a => Fin.ext (emb_val (Pipeline.arrRef spec2 ⟨_, hk⟩) _ _ _ (fun _ => by exact Nat.zero_mul _) _ a))

/-- windows 5 to 9, -/
theorem before_b (w : Fin 16) (h1 : 5 ≤ w.val) (h2 : w.val < 10) (d : (cfg2.win w).block.Idx → Elt F (cfg2.win w).elt) :
    (dat2 c V Φ₀ O B).before w t2_0 d = (dat2 c V Φ₀ O B).after w t2_0 := by
  obtain ⟨k, hk⟩ := w
  have h1 : 5 ≤ k := h1
  have h2 : k < 10 := h2
  interval_cases k
  all_goals
    refine (if_pos rfl).trans (funext fun j => ?_)
    unfold Dat.fetched Dat.blockOf Pipeline.Window.fill
    rw [dif_pos ((Pipeline.Window.moved_iff _ _ _).mpr fun a => (j a).isLt)]
    exact congrArg (V _) (funext fun a => Fin.ext (emb_val (Pipeline.arrRef spec2 ⟨_, hk⟩) _ _ _ (fun _ => by exact Nat.zero_mul _) _ a))

/-- and windows 10 to 14. -/
theorem before_c (w : Fin 16) (h1 : 10 ≤ w.val) (h2 : w.val < 15) (d : (cfg2.win w).block.Idx → Elt F (cfg2.win w).elt) :
    (dat2 c V Φ₀ O B).before w t2_0 d = (dat2 c V Φ₀ O B).after w t2_0 := by
  obtain ⟨k, hk⟩ := w
  have h1 : 10 ≤ k := h1
  have h2 : k < 15 := h2
  interval_cases k
  all_goals
    refine (if_pos rfl).trans (funext fun j => ?_)
    unfold Dat.fetched Dat.blockOf Pipeline.Window.fill
    rw [dif_pos ((Pipeline.Window.moved_iff _ _ _).mpr fun a => (j a).isLt)]
    exact congrArg (V _) (funext fun a => Fin.ext (emb_val (Pipeline.arrRef spec2 ⟨_, hk⟩) _ _ _ (fun _ => by exact Nat.zero_mul _) _ a))

set_option maxHeartbeats 1000000 in
theorem body_obligation (𝒱₀ : Variants) (ι : Ix) :
    BodyObligation (dat2 (F := F) (Ix := Ix) (Name := Name) (U := U) (Lvl := Lvl) c V Φ₀ O B) (defs₀ (F := F)) 𝒱₀ ι Set.univ := fun t => by
  rw [fin_N2 t, bigSep_W2, bigSep_W2]
  simp (disch := decide) only [before_a c V Φ₀ O B, before_b c V Φ₀ O B, before_c c V Φ₀ O B]
  dsimp only [dat2]
  iintro ⟨HΦ, HO, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩⟩
  iapply (sound_body 𝒱₀ c (V main_v9) (V main_arg1) (V main_arg2) (V main_arg3) (V main_arg4) (V main_arg7) (V main_v10) (V main_v11) (V main_v12) (V main_v13) (V main_v14) (V main_v15) (V main_v16) (V main_arg11) (V main_arg10) _ _)
  unfold bufs
  iframe
  iintro G
  iframe
  iexact HO

theorem arrAt_out : (dat2 (F := F) (Ix := Ix) (Name := Name) (U := U) (Lvl := Lvl) c V Φ₀ O B).arrAt 15 cfg2.N = (out (V main_v9) (V main_arg1) (V main_arg2) (V main_arg3) (V main_arg4) (V main_arg7) (V main_v10) (V main_v11) (V main_v12) (V main_v13) (V main_v14) (V main_v15) (V main_v16) (V main_arg11) (V main_arg10)) :=
  Dat.arrAt_eq_of_cover (dat2 c V Φ₀ O B) 15 _
    (fun t _ => by
      rw [fin_N2 t]
      exact funext fun y => congrArg (out (V main_v9) (V main_arg1) (V main_arg2) (V main_arg3) (V main_arg4) (V main_arg7) (V main_v10) (V main_v11) (V main_v12) (V main_v13) (V main_v14) (V main_v15) (V main_v16) (V main_arg11) (V main_arg10)) (funext fun a => Fin.ext (emb_val main_v17 _ _ _ (fun _ => Nat.zero_mul _) y a).symm))
    (fun i => ⟨t2_0, flush2_15 t2_0, by
      have e : ((cfg2.win 15).blk t2_0).view.emb (fun a => ⟨(i a).val, (i a).isLt⟩) = i :=
        funext fun a => Fin.ext (emb_val main_v17 _ _ _ (fun _ => Nat.zero_mul _) _ a)
      exact e ▸ View.emb_mem_set _ _⟩)

theorem out_apply (parts : Vec Ideal S32x50176 .f32) (v r a1 a2 ext pz decay cf vth vrst el tref : Vec Ideal S1x50000 .f32)
    (kd aa : Vec Ideal S2 .f32) (n : Fin 50000) :
    out parts v r a1 a2 ext pz decay cf vth vrst el tref kd aa (ix2 (0 : Fin 1) n)
      = updAt (∑ t : Fin 32, parts (ix2 t (⟨n.val, by omega⟩ : Fin 50176)))
          (pz (ix2 0 n)) (v (ix2 0 n)) (r (ix2 0 n)) (a1 (ix2 0 n)) (a2 (ix2 0 n)) (ext (ix2 0 n)) (decay (ix2 0 n)) (cf (ix2 0 n))
          (vth (ix2 0 n)) (vrst (ix2 0 n)) (el (ix2 0 n)) (tref (ix2 0 n))
          (kd (ix1 (0 : Fin 2))) (kd (ix1 (1 : Fin 2))) (aa (ix1 (0 : Fin 2))) (aa (ix1 (1 : Fin 2))) := by
  unfold out k2_pay1 k2_pay2 k2_pay3 k2_pay4 updAt
  simp only [select, cmpf, maximumf, subf, addf, mulf, divf, sitofp, extui, broadcast]
  rw [irec_apply]
  simp only [k2_pay2, shapeCast, Shape.reshapeEquiv_self]
  rfl

end Cert.ProofB.Update

end
-- ==== Proof.Bits.RegionCalls.lean ====
import proofs.«215744_g19043884990565_cont_8to1_1279_72_alg».proof.Proof.Bits.RegionsInMain
import proofs.«215744_g19043884990565_cont_8to1_1279_72_alg».proof.Proof.Bits.PackBody
import proofs.«215744_g19043884990565_cont_8to1_1279_72_alg».proof.Proof.Bits.UpdateBody

noncomputable section

namespace Cert.ProofB.Launch
open Cert.Proof
open Cert.Proof.Update

open Cert.Kernel Cert.Kernel.Gen
open Idealize.ShloMosaic Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held)

variable {F : FTy → Type} [FloatOps F] [∀ e, Nonempty (Elt F e)]

-- Placeholder data for the other region.
def noDat (p : Fin 2) (c : Dev nD) : PDat F p c where
  A := fun _ _ => Classical.arbitrary _
  after := fun _ _ _ => Classical.arbitrary _
  Φ := fun _ => iprop(emp)
  q := fun _ => fullShare
  owed := fun _ => 0

section Out

variable (p : Fin 2) (n : ℕ) (dat : (c : Dev nD) → PDat F p c)

-- `dat` placed at index `p` of a family.
def famOf : (q : Fin 2) → (c : Dev nD) → PDat F q c :=
  fun q c => if h : q = p then h ▸ dat c else noDat q c

variable (kit : Pipeline.LaunchFacts (nD := nD) (τ := τ) cfgs p)
variable (hbody : ∀ c, Pipeline.BodyObligationLoose (dat c) (defs₀ (F := F)) 𝒱₀ (none : HIx 1) Set.univ)
variable (W : Valuation τ sig (Elt F)) (wout : Fin (pn F p).W) (x : (Proc.devRef (τ := τ) .tc (aref F p wout)).ty.Contents (Elt F))
variable (hΦ : ∀ c t, (dat c).Φ t = Pipeline.scopedRest (pn F p).spec c)
variable (hq : ∀ c w, (dat c).q w = fullShare)
variable (howed : ∀ c t, (dat c).owed t = (K (F := F)).Otc c n)
variable (hrec : ∀ c t, (dat c).recorded t = Bn (F := F) c n)
variable (hA : ∀ c w, (dat c).A w = valAt c W (aref F p w))
variable (hin : ∀ w, w ≠ wout → ((pn F p).win w).isOut = false)
variable (hout : ∀ c, (dat c).arrAt wout (pn F p).N = x)

include kit hbody hΦ hq howed hrec hA hin hout in
-- If only window `wout` is an output, the call changes the valuation at that window's array alone.
theorem region_out (P : (K (F := F)).Pay (nD := nD) (Val := Elt F) (Name := ℕ) (U := UU)) :
    CallRule P p n (Gp p) W (Function.update W (Proc.devRef .tc (aref F p wout)) x) := by
  have e : famOf p dat p = dat := funext fun c => by unfold famOf; rw [dif_pos rfl]
  have h := region_tcSt p n (famOf p dat) kit
  rw [e] at h
  refine h hbody W _ hΦ hq howed hrec hA (fun c w => ?_)
    (fun c b hb => Function.update_of_ne (fun h => hb (Finset.mem_image.mpr ⟨wout, Finset.mem_univ _, (Proc.devRef_injective _ h).symm⟩)) _ _) P
  by_cases hw : w = wout
  · subst hw
    rw [hout c]
    exact Eq.symm (Function.update_self _ _ _)
  · rw [Pipeline.Dat.arrAt_in (dat c) w (hin w hw), hA c w]
    exact (Function.update_of_ne (fun h => hw (kit.win.arr_inj (Proc.devRef_injective _ h))) _ _).symm

end Out

variable (P : (K (F := F)).Pay (nD := nD) (Val := Elt F) (Name := ℕ) (U := UU)) (W : Valuation τ sig (Elt F))

omit [FloatOps F] [∀ e, Nonempty (Elt F e)] in
theorem hin0 : ∀ w : Fin (pn F 0).W, w ≠ (1 : Fin 2) → ((pn F 0).win w).isOut = false :=
  show ∀ w : Fin 2, w ≠ 1 → (cfg0.win w).isOut = false from by decide

-- Call 0: window 1 is the only output.
theorem region_0 : CallRule P 0 0 (Gp 0) W (Function.update W (Proc.devRef .tc main_v8) (Pack.packed (W (Proc.devRef .tc main_v7)))) :=
  region_out 0 0 (fun c => Pack.dat0 c (valAt c W) (Pipeline.scopedRest spec0 c) ((K (F := F)).Otc c 0) (Bn (F := F) c 0)) launch0
    (fun c => (Pack.body_obligation c (valAt c W) (Pipeline.scopedRest spec0 c) ((K (F := F)).Otc c 0) (Bn (F := F) c 0) 𝒱₀ (none : HIx 1)).loose)
    W (1 : Fin 2) (Pack.packed (W (Proc.devRef .tc main_v7)))
    (fun _ _ => rfl) (fun _ _ => rfl) (fun _ _ => rfl) (fun _ _ => rfl) (fun c w => Pack.A_eq c (valAt c W) _ _ _ w) hin0
    (fun c => Pack.arrAt_out c (valAt c W) _ _ _) P

omit [FloatOps F] [∀ e, Nonempty (Elt F e)] in
theorem hin2 : ∀ w : Fin (pn F 1).W, w ≠ (15 : Fin 16) → ((pn F 1).win w).isOut = false :=
  show ∀ w : Fin 16, w ≠ 15 → (cfg2.win w).isOut = false from by decide

abbrev out2 : (Proc.devRef (τ := τ) .tc main_v17).ty.Contents (Elt F) :=
  Update.out (W (Proc.devRef .tc main_v9)) (W (Proc.devRef .tc main_arg1)) (W (Proc.devRef .tc main_arg2)) (W (Proc.devRef .tc main_arg3)) (W (Proc.devRef .tc main_arg4)) (W (Proc.devRef .tc main_arg7)) (W (Proc.devRef .tc main_v10)) (W (Proc.devRef .tc main_v11)) (W (Proc.devRef .tc main_v12)) (W (Proc.devRef .tc main_v13)) (W (Proc.devRef .tc main_v14)) (W (Proc.devRef .tc main_v15)) (W (Proc.devRef .tc main_v16)) (W (Proc.devRef .tc main_arg11)) (W (Proc.devRef .tc main_arg10))

-- Call 1: window 15 is the only output.
theorem region_1 : CallRule P 1 1 (Gp 1) W (Function.update W (Proc.devRef .tc main_v17) (out2 W)) :=
  region_out 1 1 (fun c => Update.dat2 c (valAt c W) (Pipeline.scopedRest (pn F 1).spec c) ((K (F := F)).Otc c 1) (Bn (F := F) c 1)) launch2
    (fun c => (Update.body_obligation c (valAt c W) (Pipeline.scopedRest (pn F 1).spec c) ((K (F := F)).Otc c 1) (Bn (F := F) c 1) 𝒱₀ (none : HIx 1)).loose)
    W (15 : Fin 16) (out2 W)
    (fun _ _ => by dsimp only [Update.dat2]) (fun _ _ => rfl) (fun _ _ => rfl) (fun _ _ => rfl) (fun c w => Update.A_eq c (valAt c W) _ _ _ w) hin2
    (fun c => Update.arrAt_out c (valAt c W) _ _ _) P

end Cert.ProofB.Launch

end
-- ==== Proof.Bits.TileBatch.lean ====
import proofs.«215744_g19043884990565_cont_8to1_1279_72_alg».proof.Proof.Bits.Pay
import Idealize.ShloMosaic.Lib.Batch
import Idealize.ShloMosaic.Lib.Tactic
import Idealize.ShloMosaic.Lib.Pipeline.Kit
import Idealize.ShloMosaic.Lib.WholeRead

noncomputable section

namespace Cert.ProofB.Tile.Copies

open Cert.Kernel Cert.Kernel.Gen Cert.ProofB.Launch
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F] {U : Type} [URA U] [CountersIn U]

local notation "𝕄" => MT nD τ sig (HIx 1) (Elt F) ℕ U ℕ

abbrev tthr (d : Dev nD) (i : grid1.Coords) : Thread nD τ := V d ((i 0).castLE hcore1) ((i 1).castLE hsub1)

abbrev PT (d : Dev nD) (i : grid1.Coords) (α : Type) : Type 1 := Prog (TpuEff nD τ sig (Elt F) Λ₀ (tthr d i).2) α

abbrev wpT (d : Dev nD) (i : grid1.Coords) {α : Type} (k : PT (F := F) d i α) (Q : α → sProp 𝕄) : sProp 𝕄 :=
  wp frame (wpE (defs₀ (F := F)) 𝒱₀ (tthr d i) none) Set.univ k Q

abbrev rowsV : Memref sig .scVector .hbm S1600000 .i32 := Memref.whole main_v1_scv
abbrev colsV : Memref sig .scVector .hbm S1600000 .i32 := Memref.whole main_v3_scv
abbrev wV : Memref sig .scVector .hbm S1600000 .f32 := Memref.whole main_arg6_scv

abbrev chunkRect (i : grid1.Coords) (r : Fin 5) : Rect S1600000 :=
  Rect.unit (s := S1600000) (k1_off4 i (BitVec.ofNat 32 (10000 * r.val))) S10000.size (k1_off4_inb i r)

abbrev rowsSl (i : grid1.Coords) (r : Fin 5) : Memref sig .scVector .hbm S10000 .i32 := (rowsV).slice (chunkRect i r) (fun _ => rfl)
abbrev colsSl (i : grid1.Coords) (r : Fin 5) : Memref sig .scVector .hbm S10000 .i32 := (colsV).slice (chunkRect i r) (fun _ => rfl)
abbrev wSl (i : grid1.Coords) (r : Fin 5) : Memref sig .scVector .hbm S10000 .f32 := (wV).slice (chunkRect i r) (fun _ => rfl)

theorem ret_bind' {E : Type → Type} {α β : Type} (a : α) (k : α → Prog E β) : (Prog.ret a).bind k = k a := rfl

abbrev NB : ℕ := (Memref.whole cc1_scratch4 : Memref sig .scVector .vmem S10000 .i32).view.dmaCredit
theorem NB_pos : 0 < NB := View.dmaCredit_pos _ (by decide)

structure BufSet where
  R : Memref sig .scVector .vmem S10000 .i32
  C : Memref sig .scVector .vmem S10000 .i32
  W : Memref sig .scVector .vmem S10000 .f32
  sem : DmaSems sig S_
  hR : R.IsWhole
  hC : C.IsWhole
  hW : W.IsWhole
  nR : R.view.dmaCredit = NB
  nC : C.view.dmaCredit = NB
  nW : W.view.dmaCredit = NB

abbrev set0 : BufSet := ⟨Memref.whole cc1_scratch4, Memref.whole cc1_scratch2, Memref.whole cc1_scratch6, cc1_scratch11,
  Memref.isWhole_whole _, Memref.isWhole_whole _, Memref.isWhole_whole _, rfl, rfl, rfl⟩
abbrev set1 : BufSet := ⟨Memref.whole cc1_scratch5, Memref.whole cc1_scratch3, Memref.whole cc1_scratch7, cc1_scratch12,
  Memref.isWhole_whole _, Memref.isWhole_whole _, Memref.isWhole_whole _, rfl, rfl, rfl⟩

section OneSet

variable (d : Dev nD) (i : grid1.Coords) (q : PosShare TreeShare) (cv : CallVals (F := F) d) (B : BufSet)

abbrev rowsChunk (r : Fin 5) : S10000.Idx → Elt F .i32 := (rowsSl i r).view.read (Elt F) (cv.rows : Buf (Elt F) ((rowsSl i r).view.loc (tthr d i)))
abbrev colsChunk (r : Fin 5) : S10000.Idx → Elt F .i32 := (colsSl i r).view.read (Elt F) (cv.cols : Buf (Elt F) ((colsSl i r).view.loc (tthr d i)))
abbrev wChunk (r : Fin 5) : S10000.Idx → Elt F .f32 := (wSl i r).view.read (Elt F) (cv.w : Buf (Elt F) ((wSl i r).view.loc (tthr d i)))

variable (fR : Buf (Elt F) (B.R.view.loc (tthr d i))) (fC : Buf (Elt F) (B.C.view.loc (tthr d i))) (fW : Buf (Elt F) (B.W.view.loc (tthr d i)))

-- What one copy delivers: the buffer rewritten with what the slice reads, and the slice's share back.
abbrev delivOf {e : EltTy} (b : Memref sig .scVector .vmem S10000 e) (f : Buf (Elt F) (b.view.loc (tthr d i)))
    (s : Memref sig .scVector .hbm S10000 e) (X : Buf (Elt F) (s.view.loc (tthr d i))) : sProp 𝕄 :=
  iprop((b.view.loc (tthr d i) ↦{fullShare} b.view.write (Elt F) f (s.view.read (Elt F) X) Finset.univ) ∗ (s.view.loc (tthr d i) ↦[s.view.set]{q} X))

def deliv (r : Fin 5) : Fin 3 → sProp 𝕄 :=
  ![delivOf d i q B.R fR (rowsSl i r) cv.rows, delivOf d i q B.C fC (colsSl i r) cv.cols, delivOf d i q B.W fW (wSl i r) cv.w]

instance deliv_storable (r : Fin 5) (t : Fin 3) : Storable (upEmb : UEmb _ 𝕄) (deliv d i q cv B fR fC fW r t) := by
  fin_cases t
  · exact inferInstanceAs (Storable (upEmb : UEmb _ 𝕄) (delivOf d i q B.R fR (rowsSl i r) cv.rows))
  · exact inferInstanceAs (Storable (upEmb : UEmb _ 𝕄) (delivOf d i q B.C fC (colsSl i r) cv.cols))
  · exact inferInstanceAs (Storable (upEmb : UEmb _ 𝕄) (delivOf d i q B.W fW (wSl i r) cv.w))

theorem deliv_split (r : Fin 5) :
    (bigSep Finset.univ (deliv d i q cv B fR fC fW r) : sProp 𝕄)
      ⊢ iprop(delivOf d i q B.R fR (rowsSl i r) cv.rows ∗ delivOf d i q B.C fC (colsSl i r) cv.cols ∗ delivOf d i q B.W fW (wSl i r) cv.w) := by
  rw [Idealize.SL.BI.bigSep_univ_eq_bigSepL [0, 1, 2] (by decide) (by decide) _]
  exact .rfl

abbrev batch (r : Fin 5) (k u : ℕ) : sProp 𝕄 :=
  Transfers.Batch (countersEmb (U := U)) (tthr d i) (.dma B.sem.sem) (none : HIx 1) NB (deliv d i q cv B fR fC fW r) k u

abbrev restOf (r : Fin 5) : sProp 𝕄 :=
  iprop((rowsLoc d ↦[Finset.univ \ (rowsSl i r).view.set]{q} cv.rows) ∗ (colsLoc d ↦[Finset.univ \ (colsSl i r).view.set]{q} cv.cols)
    ∗ (wLoc d ↦[Finset.univ \ (wSl i r).view.set]{q} cv.w))

abbrev inflight (r : Fin 5) : sProp 𝕄 := iprop(batch d i q cv B fR fC fW r 3 0 ∗ restOf d i q cv r)

abbrev landed (r : Fin 5) : sProp 𝕄 :=
  iprop((rowsLoc d ↦{q} cv.rows) ∗ (colsLoc d ↦{q} cv.cols) ∗ (wLoc d ↦{q} cv.w)
    ∗ (B.R.view.loc (tthr d i) ↦{fullShare} B.R.view.write (Elt F) fR (rowsChunk d i cv r) Finset.univ)
    ∗ (B.C.view.loc (tthr d i) ↦{fullShare} B.C.view.write (Elt F) fC (colsChunk d i cv r) Finset.univ)
    ∗ (B.W.view.loc (tthr d i) ↦{fullShare} B.W.view.write (Elt F) fW (wChunk d i cv r) Finset.univ)
    ∗ semVal (tthr d i, SemLoc.dma B.sem.sem) 0)

theorem wp_fire (r : Fin 5) {α : Type} (k : PT (F := F) d i α) (Q : α → sProp 𝕄) :
    iprop((rowsLoc d ↦{q} cv.rows) ∗ (colsLoc d ↦{q} cv.cols) ∗ (wLoc d ↦{q} cv.w)
        ∗ (B.R.view.loc (tthr d i) ↦{fullShare} fR) ∗ (B.C.view.loc (tthr d i) ↦{fullShare} fC) ∗ (B.W.view.loc (tthr d i) ↦{fullShare} fW)
        ∗ semVal (tthr d i, SemLoc.dma B.sem.sem) 0
        ∗ (inflight d i q cv B fR fC fW r -∗ wpT d i k Q))
      ⊢ wpT d i (do
          Prog.lift (.enqueueDma (rowsSl i r) (.here B.R) (.dma B.sem.sem) (View.wordExact_bits rfl) B.hR.wordExact ⟨Or.inl rfl, trivial⟩)
          Prog.lift (.enqueueDma (colsSl i r) (.here B.C) (.dma B.sem.sem) (View.wordExact_bits rfl) B.hC.wordExact ⟨Or.inl rfl, trivial⟩)
          Prog.lift (.enqueueDma (wSl i r) (.here B.W) (.dma B.sem.sem) (View.wordExact_bits rfl) B.hW.wordExact ⟨Or.inl rfl, trivial⟩)
          k) Q := by
  iintro ⟨Hr, Hc, Hw, HbR, HbC, HbW, Hsem, Hk⟩
  ihave ⟨HrS, HrX⟩ := ((pointsTo_split_subset (I := (rowsSl i r).view.set) (Finset.subset_univ _)).1) $$ Hr
  ihave ⟨HcS, HcX⟩ := ((pointsTo_split_subset (I := (colsSl i r).view.set) (Finset.subset_univ _)).1) $$ Hc
  ihave ⟨HwS, HwX⟩ := ((pointsTo_split_subset (I := (wSl i r).view.set) (Finset.subset_univ _)).1) $$ Hw
  imod (Transfers.batch_alloc' (Lvl := ℕ) (countersEmb (U := U)) (tthr d i) (none : HIx 1) NB (deliv d i q cv B fR fC fW r)
    (sm := .dma B.sem.sem) (E := Set.univ)) $$ Hsem with HB
  iapply (Transfers.wp_dmaBatch (countersEmb (U := U)) 𝒱₀ (tthr d i) none (src := rowsSl i r) (dst := B.R) (sm := SemLoc.dma B.sem.sem) (none : HIx 1) NB B.nR (Finset.subset_univ _)
    (D := deliv d i q cv B fR fC fW r) (j := 0) (u := 0) (by decide) (Nat.zero_le _) (by unfold deliv; exact .rfl)) $$ [$HrS $HbR $HB]
  iintro HB
  simp only [ret_bind']
  iapply (Transfers.wp_dmaBatch (countersEmb (U := U)) 𝒱₀ (tthr d i) none (src := colsSl i r) (dst := B.C) (sm := SemLoc.dma B.sem.sem) (none : HIx 1) NB B.nC (Finset.subset_univ _)
    (D := deliv d i q cv B fR fC fW r) (j := 1) (u := 0) (by decide) (Nat.zero_le _) (by unfold deliv; exact .rfl)) $$ [$HcS $HbC $HB]
  iintro HB
  simp only [ret_bind']
  iapply (Transfers.wp_dmaBatch (countersEmb (U := U)) 𝒱₀ (tthr d i) none (src := wSl i r) (dst := B.W) (sm := SemLoc.dma B.sem.sem) (none : HIx 1) NB B.nW (Finset.subset_univ _)
    (D := deliv d i q cv B fR fC fW r) (j := 2) (u := 0) (by decide) (Nat.zero_le _) (by unfold deliv; exact .rfl)) $$ [$HwS $HbW $HB]
  iintro HB
  simp only [ret_bind']
  iapply Hk
  unfold inflight restOf
  iframe HrX HcX HwX
  iexact HB

variable (O : CellTallies nD τ sig (HIx 1)) (W : Waits sig (HIx 1))

abbrev owesN : sProp 𝕄 := iprop(∃ W', ⌜∀ p ∈ W', p ∈ W ∨ p.2 = none⌝ ∗ owes (tthr d i) O W')

theorem owesN_ins (sm : SemLoc sig) {W' : Waits sig (HIx 1)} (hW' : ∀ p ∈ W', p ∈ W ∨ p.2 = none) :
    (owes (tthr d i) O (insert (sm, (none : HIx 1)) W') : sProp 𝕄) ⊢ owesN d i O W := by
  iintro HO
  iexists (insert (sm, (none : HIx 1)) W')
  isplitr
  · ipureintro
    intro p hp
    rcases Finset.mem_insert.1 hp with rfl | hp
    exacts [Or.inr rfl, hW' p hp]
  · iexact HO

theorem wp_waitMid {e : EltTy} (src : Memref sig .scVector .hbm S10000 e) (dst : Memref sig .scVector .vmem S10000 e) (hN : dst.view.dmaCredit = NB)
    (hs : src.view.WordExact) (hd : dst.view.WordExact) (r : Fin 5) (u : ℕ) (hu : u + NB < NB * 3) {α : Type} (k : PT (F := F) d i α) (Q : α → sProp 𝕄) :
    iprop(batch d i q cv B fR fC fW r 3 u ∗ owesN d i O W ∗ Transfers.MayWaits (tthr d i) (none : HIx 1) O
        ∗ ((batch d i q cv B fR fC fW r 3 (u + NB) ∗ owesN d i O W) -∗ wpT d i k Q))
      ⊢ wpT d i (do
          Prog.lift (.waitDma2 B.sem.sem src dst hs hd)
          k) Q := by
  iintro ⟨HB, ⟨%W', %hW', HO⟩, #Hmw, Hk⟩
  ihave Hm := (Transfers.MayWaits.elim (SemLoc.dma B.sem.sem)) $$ Hmw
  iapply (Transfers.wp_waitBatchO (countersEmb (U := U)) 𝒱₀ (tthr d i) none (none : HIx 1) hN
    (D := deliv d i q cv B fR fC fW r) (u := u) hu (O := O) (W := W')) $$ [$HB $HO $Hm]
  iintro ⟨HB, HO⟩
  simp only [ret_bind']
  iapply Hk
  iframe HB
  iapply (owesN_ins d i O W _ hW') $$ HO

-- The batch's last wait: every copy has landed, and the three arrays are whole again.
theorem wp_wait3 (r : Fin 5) {α : Type} (k : PT (F := F) d i α) (Q : α → sProp 𝕄) :
    iprop(batch d i q cv B fR fC fW r 3 (0 + NB + NB) ∗ restOf d i q cv r ∗ owesN d i O W ∗ Transfers.MayWaits (tthr d i) (none : HIx 1) O
        ∗ ((landed d i q cv B fR fC fW r ∗ owesN d i O W) -∗ wpT d i k Q))
      ⊢ wpT d i (do
          Prog.lift (.waitDma2 B.sem.sem (wSl i r) B.W (View.wordExact_bits rfl) B.hW.wordExact)
          k) Q := by
  iintro ⟨HB, ⟨HrX, HcX, HwX⟩, ⟨%W', %hW', HO⟩, #Hmw, Hk⟩
  ihave Hm := (Transfers.MayWaits.elim (SemLoc.dma B.sem.sem)) $$ Hmw
  iapply (Transfers.wp_waitBatchLastO (countersEmb (U := U)) 𝒱₀ (tthr d i) none (none : HIx 1) B.nW NB_pos
    (D := deliv d i q cv B fR fC fW r) (u := 0 + NB + NB) (by omega) (O := O) (W := W')) $$ [$HB $HO $Hm]
  iintro ⟨HD, Hv, HO⟩
  simp only [ret_bind']
  ihave ⟨⟨HbR, HrS⟩, ⟨HbC, HcS⟩, HbW, HwS⟩ := (deliv_split d i q cv B fR fC fW r) $$ HD
  iapply Hk
  isplitr [HO]
  · isplitl [HrS HrX]
    · iapply ((pointsTo_split_subset (I := (rowsSl i r).view.set) (Finset.subset_univ _)).2); isplitl [HrS] <;> iassumption
    isplitl [HcS HcX]
    · iapply ((pointsTo_split_subset (I := (colsSl i r).view.set) (Finset.subset_univ _)).2); isplitl [HcS] <;> iassumption
    isplitl [HwS HwX]
    · iapply ((pointsTo_split_subset (I := (wSl i r).view.set) (Finset.subset_univ _)).2); isplitl [HwS] <;> iassumption
    iframe HbR HbC HbW
    iexact Hv
  · iapply (owesN_ins d i O W _ hW') $$ HO

theorem wp_wait23 (r : Fin 5) {α : Type} (k : PT (F := F) d i α) (Q : α → sProp 𝕄) :
    iprop(batch d i q cv B fR fC fW r 3 (0 + NB) ∗ restOf d i q cv r ∗ owesN d i O W ∗ Transfers.MayWaits (tthr d i) (none : HIx 1) O
        ∗ ((landed d i q cv B fR fC fW r ∗ owesN d i O W) -∗ wpT d i k Q))
      ⊢ wpT d i (do
          Prog.lift (.waitDma2 B.sem.sem (colsSl i r) B.C (View.wordExact_bits rfl) B.hC.wordExact)
          Prog.lift (.waitDma2 B.sem.sem (wSl i r) B.W (View.wordExact_bits rfl) B.hW.wordExact)
          k) Q := by
  iintro ⟨HB, HX, HO, #Hmw, Hk⟩
  iapply (wp_waitMid d i q cv B fR fC fW O W (colsSl i r) B.C B.nC _ _ r (0 + NB) (by have := NB_pos; omega) _ Q)
  iframe HB HO Hmw
  iintro ⟨HB, HO⟩
  iapply (wp_wait3 d i q cv B fR fC fW O W r _ Q)
  iframe HB HX HO Hmw
  iexact Hk

theorem wp_waitAll (r : Fin 5) {α : Type} (k : PT (F := F) d i α) (Q : α → sProp 𝕄) :
    iprop(inflight d i q cv B fR fC fW r ∗ owesN d i O W ∗ Transfers.MayWaits (tthr d i) (none : HIx 1) O
        ∗ ((landed d i q cv B fR fC fW r ∗ owesN d i O W) -∗ wpT d i k Q))
      ⊢ wpT d i (do
          Prog.lift (.waitDma2 B.sem.sem (rowsSl i r) B.R (View.wordExact_bits rfl) B.hR.wordExact)
          Prog.lift (.waitDma2 B.sem.sem (colsSl i r) B.C (View.wordExact_bits rfl) B.hC.wordExact)
          Prog.lift (.waitDma2 B.sem.sem (wSl i r) B.W (View.wordExact_bits rfl) B.hW.wordExact)
          k) Q := by
  iintro ⟨⟨HB, HX⟩, HO, #Hmw, Hk⟩
  iapply (wp_waitMid d i q cv B fR fC fW O W (rowsSl i r) B.R B.nR _ _ r 0 (by have := NB_pos; omega) _ Q)
  iframe HB HO Hmw
  iintro ⟨HB, HO⟩
  iapply (wp_wait23 d i q cv B fR fC fW O W r _ Q)
  iframe HB HX HO Hmw
  iexact Hk

end OneSet

end Cert.ProofB.Tile.Copies

end
-- ==== Proof.Bits.TilePrologue.lean ====
import proofs.«215744_g19043884990565_cont_8to1_1279_72_alg».proof.Proof.TileInit
import proofs.«215744_g19043884990565_cont_8to1_1279_72_alg».proof.Proof.TileProloguePure
import proofs.«215744_g19043884990565_cont_8to1_1279_72_alg».proof.Proof.Gen.Kernel
import proofs.«215744_g19043884990565_cont_8to1_1279_72_alg».proof.Proof.Gen.Kernel.Skeleton
import Idealize.ShloMosaic.Lib.SparseCore.Ops
import Idealize.ShloMosaic.Lib.SparseCore.Cells
import Idealize.ShloMosaic.Lib.Transfers
import Idealize.ShloMosaic.Lib.Tactic
import Idealize.ShloMosaic.Lib.ValueIdx

noncomputable section

namespace Cert.ProofB.Tile
open Cert.Proof
open Cert.Proof.Tile

open Cert.Kernel Cert.Kernel.Gen

open Idealize.ShloMosaic
open Idealize.ShloMosaic.SparseCore (V)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic
open Idealize.ShloMosaic.ValueIdx

variable {F : FTy → Type}

section Pure
variable [FloatOps F]

set_option quotPrecheck false
local notation "sAcc" => (Memref.whole cc1_scratch1 : Memref sig Kind.scVector .vmem S50176 EltTy.f32)
local notation "sPsc" => (Memref.whole cc1_scratch9 : Memref sig Kind.scVector .vmem S6272 EltTy.f32)

theorem k1_t1_trips : k1_t1_loop.trips = 3136 := by decide
theorem k1_t2_trips : k1_t2_loop.trips = 98 := by decide

theorem zeroTo_step (k : Fin k1_t1_loop.trips) (f : Vec F S50176 .f32) :
    (sAcc).view.writes (Elt F) (zeroTo k.val f) [⟨Rect.unit (s := S50176) (k1_off2 k) S16.size (k1_off2_inb k), k1_pay104⟩]
      = zeroTo (k.val + 1) f := by
  funext n
  rw [write16_apply (k1_off2 k) (k1_off2_inb k) (16 * k.val) (by rw [k1_off2_eq]; rfl)]
  have hn : (n 0 : Fin 50176).val < 50176 := (n 0).isLt
  by_cases h : 16 * k.val ≤ (n 0 : Fin 50176).val ∧ (n 0 : Fin 50176).val < 16 * k.val + 16
  · rw [dif_pos h]
    simp only [zeroTo]
    rw [if_pos (by omega)]
    rfl
  · rw [dif_neg h]
    simp only [zeroTo]
    by_cases h2 : (n 0 : Fin 50176).val < 16 * k.val
    · rw [if_pos h2, if_pos (by omega)]
    · rw [if_neg h2, if_neg (by omega)]

theorem pay_toNat (k : Fin k1_t2_loop.trips) (x : S16.Idx) :
    (k1_pay106 k1_pay105 k x).toNat = 64 * k.val + 4 * (x 0 : Fin 16).val
      ∧ (k1_pay107 k1_pay105 k x).toNat = 64 * k.val + 4 * (x 0 : Fin 16).val + 1
      ∧ (k1_pay108 k1_pay105 k x).toNat = 64 * k.val + 4 * (x 0 : Fin 16).val + 2
      ∧ (k1_pay109 k1_pay105 k x).toNat = 64 * k.val + 4 * (x 0 : Fin 16).val + 3 := by
  have hk : k.val < 98 := lt_of_lt_of_eq k.isLt k1_t2_trips
  have hx : (x 0 : Fin 16).val < 16 := (x 0).isLt
  simp [k1_pay106, k1_pay107, k1_pay108, k1_pay109, k1_pay105, addi, muli, broadcast, iota, IntOp.addi, IntOp.muli, Scalar.addi,
    Scalar.muli, Scf.iv, BitVec.toNat_add, BitVec.toNat_mul, BitVec.toNat_ofNat]
  omega

/-- The four index vectors of a trip stay inside the tile's 6272 current words. -/
theorem chk_ok (k : Fin k1_t2_loop.trips) : k1_chk5 (k1_pay106 k1_pay105 k) ∧ k1_chk6 (k1_pay107 k1_pay105 k)
    ∧ k1_chk7 (k1_pay108 k1_pay105 k) ∧ k1_chk8 (k1_pay109 k1_pay105 k) := by
  have hk : k.val < 98 := lt_of_lt_of_eq k.isLt k1_t2_trips
  refine ⟨?_, ?_, ?_, ?_⟩ <;> intro a x <;> obtain rfl := Fin.eq_zero a <;>
    have hx : (x 0 : Fin 16).val < 16 := (x 0).isLt <;> have e := pay_toNat k x
  · show (k1_pay106 k1_pay105 k x).toNat < 6272; omega
  · show (k1_pay107 k1_pay105 k x).toNat < 6272; omega
  · show (k1_pay108 k1_pay105 k x).toNat < 6272; omega
  · show (k1_pay109 k1_pay105 k x).toNat < 6272; omega

theorem accPart_step (i : grid1.Coords) (k : Fin k1_t2_loop.trips) (sd16 : Vec F S16 .f32) (pscpad : Vec F S1x200704 .f32)
    (h5 : ∀ a x, ((![k1_pay106 k1_pay105 k] : Fin 1 → IVec S16 32) a x).toNat < S6272.size a)
    (h6 : ∀ a x, ((![k1_pay107 k1_pay105 k] : Fin 1 → IVec S16 32) a x).toNat < S6272.size a)
    (h7 : ∀ a x, ((![k1_pay108 k1_pay105 k] : Fin 1 → IVec S16 32) a x).toNat < S6272.size a)
    (h8 : ∀ a x, ((![k1_pay109 k1_pay105 k] : Fin 1 → IVec S16 32) a x).toNat < S6272.size a) :
    (sAcc).view.writes (Elt F) (accPart sd16 pscpad (widOf i) k.val)
        [⟨Rect.unit (s := S50176) (k1_off3 i k) S16.size (k1_off3_inb i k),
          k1_pay110 (sdSplat sd16 1) (sdSplat sd16 2) (sdSplat sd16 3) (sdSplat sd16 4)
            (loadIdx (((sPsc).access (.whole S6272)).read (Elt F) (pscSlice pscpad (widOf i))) ![k1_pay106 k1_pay105 k] h5)
            (loadIdx (((sPsc).access (.whole S6272)).read (Elt F) (pscSlice pscpad (widOf i))) ![k1_pay107 k1_pay105 k] h6)
            (loadIdx (((sPsc).access (.whole S6272)).read (Elt F) (pscSlice pscpad (widOf i))) ![k1_pay108 k1_pay105 k] h7)
            (loadIdx (((sPsc).access (.whole S6272)).read (Elt F) (pscSlice pscpad (widOf i))) ![k1_pay109 k1_pay105 k] h8)⟩]
      = accPart sd16 pscpad (widOf i) (k.val + 1) := by
  have hk : k.val < 98 := lt_of_lt_of_eq k.isLt k1_t2_trips
  have hw : (widOf i).val < 32 := (widOf i).isLt
  funext n
  have hn : (n 0 : Fin 50176).val < 50176 := (n 0).isLt
  rw [write16_apply (k1_off3 i k) (k1_off3_inb i k) ((widOf i).val * 1568 + 16 * k.val)
    (by rw [k1_off3_eq, widOf_val]; show 3136 * (i 1).val + 1568 * (i 0).val + 16 * k.val = _; omega)]
  by_cases h : (widOf i).val * 1568 + 16 * k.val ≤ (n 0 : Fin 50176).val
      ∧ (n 0 : Fin 50176).val < (widOf i).val * 1568 + 16 * k.val + 16
  · rw [dif_pos h]
    unfold accPart
    rw [dif_pos ⟨by omega, by omega, by omega⟩]
    refine decayed_of sd16 (pscSlice pscpad (widOf i)) _ _ _ _ _ _ ?_ ?_ ?_ ?_
    · exact loadIdx_psc _ _ h5 _ _ _ (by rw [(pay_toNat k _).1]; show 64 * k.val + 4 * ((n 0 : Fin 50176).val - ((widOf i).val * 1568 + 16 * k.val)) = _; omega)
    · exact loadIdx_psc _ _ h6 _ _ _ (by rw [(pay_toNat k _).2.1]; show 64 * k.val + 4 * ((n 0 : Fin 50176).val - ((widOf i).val * 1568 + 16 * k.val)) + 1 = _; omega)
    · exact loadIdx_psc _ _ h7 _ _ _ (by rw [(pay_toNat k _).2.2.1]; show 64 * k.val + 4 * ((n 0 : Fin 50176).val - ((widOf i).val * 1568 + 16 * k.val)) + 2 = _; omega)
    · exact loadIdx_psc _ _ h8 _ _ _ (by rw [(pay_toNat k _).2.2.2]; show 64 * k.val + 4 * ((n 0 : Fin 50176).val - ((widOf i).val * 1568 + 16 * k.val)) + 3 = _; omega)
  · rw [dif_neg h]
    unfold accPart
    by_cases h2 : (widOf i).val * 1568 ≤ (n 0 : Fin 50176).val ∧ (n 0 : Fin 50176).val < (widOf i).val * 1568 + 1568
        ∧ (n 0 : Fin 50176).val < (widOf i).val * 1568 + 16 * k.val
    · rw [dif_pos h2, dif_pos ⟨h2.1, h2.2.1, by omega⟩]
    · rw [dif_neg h2, dif_neg (fun hh => h2 ⟨hh.1, hh.2.1, by omega⟩)]

end Pure

section Tile

variable [FloatOps F]
variable {U : Type} [URA U] [CountersIn U]
variable (d : Dev nD) (i : grid1.Coords)

local notation "𝕄" => MT nD τ sig (HIx 1) (Elt F) ℕ U ℕ

set_option quotPrecheck false
local notation "aPk" => (Memref.whole main_v8_scv : Memref sig Kind.scVector .hbm S1x8192 EltTy.i32)
local notation "aPi" => (Memref.whole main_v4_scv : Memref sig Kind.scVector .hbm S16 EltTy.f32)
local notation "aPsc" => (Memref.whole main_v6_scv : Memref sig Kind.scVector .hbm S1x200704 EltTy.f32)
local notation "aSd" => (Memref.whole main_v5_scv : Memref sig Kind.scVector .hbm S16 EltTy.f32)
local notation "sPk" => (Memref.whole cc1_scratch0 : Memref sig Kind.scVector .vmem S8192 EltTy.i32)
local notation "sAcc" => (Memref.whole cc1_scratch1 : Memref sig Kind.scVector .vmem S50176 EltTy.f32)
local notation "sPi" => (Memref.whole cc1_scratch8 : Memref sig Kind.scVector .vmem S16 EltTy.f32)
local notation "sPsc" => (Memref.whole cc1_scratch9 : Memref sig Kind.scVector .vmem S6272 EltTy.f32)
local notation "sSd" => (Memref.whole cc1_scratch10 : Memref sig Kind.scVector .vmem S16 EltTy.f32)

abbrev tthr : Thread nD τ := V d ((i 0).castLE hcore1) ((i 1).castLE hsub1)

def hbmIn (q2 q6 q7 q8 : PosShare TreeShare) (Pk : Vec F S1x8192 .i32) (pi16 sd16 : Vec F S16 .f32)
    (pscpad : Vec F S1x200704 .f32) : sProp (MT nD τ sig (HIx 1) (Elt F) ℕ U ℕ) :=
  iprop(((aPk).view.loc (tthr d i) ↦{q2} Pk) ∗ ((aPi).view.loc (tthr d i) ↦{q6} pi16)
    ∗ ((aPsc).view.loc (tthr d i) ↦{q7} pscpad) ∗ ((aSd).view.loc (tthr d i) ↦{q8} sd16))

def sems0 : sProp (MT nD τ sig (HIx 1) (Elt F) ℕ U ℕ) :=
  iprop(semVal (tthr d i, SemLoc.dma cc1_scoped0.sem) 0 ∗ semVal (tthr d i, SemLoc.dma cc1_scoped1.sem) 0
    ∗ semVal (tthr d i, SemLoc.dma cc1_scoped2.sem) 0 ∗ semVal (tthr d i, SemLoc.dma cc1_scoped3.sem) 0)

def scratch (f10 : Vec F S8192 .i32) (f11 : Vec F S50176 .f32) (f18 : Vec F S16 .f32) (f19 : Vec F S6272 .f32)
    (f20 : Vec F S16 .f32) : sProp (MT nD τ sig (HIx 1) (Elt F) ℕ U ℕ) :=
  iprop(((sPk).view.loc (tthr d i) ↦{fullShare} f10) ∗ ((sAcc).view.loc (tthr d i) ↦{fullShare} f11)
    ∗ ((sPi).view.loc (tthr d i) ↦{fullShare} f18) ∗ ((sPsc).view.loc (tthr d i) ↦{fullShare} f19)
    ∗ ((sSd).view.loc (tthr d i) ↦{fullShare} f20))

def inv1 (f11 : Vec F S50176 .f32) (k : Nat) (_ : Unit) : sProp (MT nD τ sig (HIx 1) (Elt F) ℕ U ℕ) :=
  iprop((sAcc).view.loc (tthr d i) ↦{fullShare} zeroTo k f11)

def inv2 (sd16 : Vec F S16 .f32) (pscpad : Vec F S1x200704 .f32) (k : Nat) (_ : Unit) : sProp (MT nD τ sig (HIx 1) (Elt F) ℕ U ℕ) :=
  iprop(((sAcc).view.loc (tthr d i) ↦{fullShare} accPart sd16 pscpad (widOf i) k)
    ∗ (((sPsc).access (.whole S6272)).loc (tthr d i) ↦{fullShare} pscSlice pscpad (widOf i))
    ∗ (((sSd).access (.whole S16)).loc (tthr d i) ↦{fullShare} sd16))

theorem wp_loadSd {α : Type} (v : IVec S16 32) (r : Fin 16) (hv : ∀ x, (v x).toNat = r.val) (sd16 : Vec F S16 .f32)
    {h : ∀ a x, ((![v] : Fin 1 → IVec S16 32) a x).toNat < S16.size a} {hl : (sSd).view.Loads}
    {k : Vec F S16 .f32 → Prog (TpuEff nD τ sig (Elt F) Λ₀ (.scVector ((i 0).castLE hcore1) ((i 1).castLE hsub1))) α}
    {Q : α → sProp (MT nD τ sig (HIx 1) (Elt F) ℕ U ℕ)} :
    (((sSd).access (.whole S16)).loc (tthr d i) ↦{fullShare} sd16)
      ⊢ iprop(((((sSd).access (.whole S16)).loc (tthr d i) ↦{fullShare} sd16)
          -∗ wp frame (wpE (defs₀ (F := F)) Variants.none (tthr d i) none) Set.univ (k (sdSplat sd16 r)) Q)
        -∗ wp frame (wpE (defs₀ (F := F)) Variants.none (tthr d i) none) Set.univ (SparseCore.vectorLoadIdx sSd ![v] h hl >>= k) Q) := by
  rw [← loadIdx_sd' sd16 v r hv h]
  exact SparseCore.wp_vectorLoadIdx Variants.none (tthr d i) none Set.univ (base := sSd) (S := Finset.univ) (q := fullShare)
    (Finset.subset_univ _)

theorem wp_part11 (O : CellTallies nD τ sig (HIx 1)) (W : Waits sig (HIx 1)) (q2 q6 q7 q8 : PosShare TreeShare)
    (Pk : Vec F S1x8192 .i32) (pi16 sd16 : Vec F S16 .f32) (pscpad : Vec F S1x200704 .f32)
    (f10 : Vec F S8192 .i32) (f11 : Vec F S50176 .f32) (f18 : Vec F S16 .f32) (f19 : Vec F S6272 .f32) (f20 : Vec F S16 .f32) :
    iprop(Transfers.MayWaits (tthr d i) (none : HIx 1) O ∗ hbmIn d i q2 q6 q7 q8 Pk pi16 sd16 pscpad
        ∗ scratch d i f10 f11 f18 f19 f20 ∗ sems0 d i ∗ owes (tthr d i) O W)
      ⊢ wp frame (wpE (defs₀ (F := F)) Variants.none (tthr d i) none) Set.univ
          (k1_part11 i (Memref.whole main_v8_scv) (Memref.isWhole_whole _) (Memref.whole main_v1_scv) (Memref.isWhole_whole _) (Memref.whole main_v3_scv) (Memref.isWhole_whole _) (Memref.whole main_arg6_scv) (Memref.isWhole_whole _) (Memref.whole main_v4_scv) (Memref.isWhole_whole _) (Memref.whole main_v6_scv) (Memref.isWhole_whole _) (Memref.whole main_v5_scv) (Memref.isWhole_whole _) (Memref.whole main_v9_scv) (Memref.isWhole_whole _) (Memref.whole cc1_scratch0) (Memref.isWhole_whole _) (Memref.whole cc1_scratch1) (Memref.isWhole_whole _) (Memref.whole cc1_scratch2) (Memref.isWhole_whole _) (Memref.whole cc1_scratch3) (Memref.isWhole_whole _) (Memref.whole cc1_scratch4) (Memref.isWhole_whole _) (Memref.whole cc1_scratch5) (Memref.isWhole_whole _) (Memref.whole cc1_scratch6) (Memref.isWhole_whole _) (Memref.whole cc1_scratch7) (Memref.isWhole_whole _) (Memref.whole cc1_scratch8) (Memref.isWhole_whole _) (Memref.whole cc1_scratch9) (Memref.isWhole_whole _) (Memref.whole cc1_scratch10) (Memref.isWhole_whole _) cc1_scratch11 cc1_scratch12 cc1_scoped0 cc1_scoped1 cc1_scoped2 cc1_scoped3 cc1_scoped4)
          fun r => (iprop(⌜r = ⟨widWord i, k1_pay105, sdSplat sd16 1, sdSplat sd16 2, 3#32⟩⌝
            ∗ hbmIn d i q2 q6 q7 q8 Pk pi16 sd16 pscpad
            ∗ scratch d i (pkRow Pk) accZero pi16 (pscSlice pscpad (widOf i)) sd16 ∗ sems0 d i
            ∗ ∃ W', ⌜∀ p ∈ W', p ∈ W ∨ p.2 = none⌝ ∗ owes (tthr d i) O W') : sProp 𝕄) := by
  rw [k1_part11_eq_skeleton]; unfold k1_part11_skel
  unfold hbmIn scratch sems0
  iintro ⟨#Hmw, ⟨HPk, HPi, HPsc, HSd⟩, ⟨H10, H11, H18, H19, H20⟩, ⟨Hs0, Hs1, Hs2, Hs3⟩, HO⟩
  sl_exec
  sl_for (inv1 d i f11) $$ [H11]
  case region =>
    intro k _
    unfold inv1
    iintro H11
    sl_exec
    rw [zeroTo_step, wp_ret]; imodintro
    iexact H11
  · unfold inv1
    rw [zeroTo_zero]
    iexact H11
  iintro %_ HI
  unfold inv1
  rw [show Scf.trips k1_t1_loop.lb k1_t1_loop.ub k1_t1_loop.st = 3136 from k1_t1_trips, zeroTo_all]
  sl_exec
  have e10 : wp_part11.sl.dma0 Pk = pkRow Pk := read_pk _ _ _ Pk
  have e18 : wp_part11.sl.dma0_1 pi16 = pi16 := rfl
  have e20 : wp_part11.sl.dma0_2 sd16 = sd16 := rfl
  have e19 : wp_part11.sl.dma0_3 i pscpad = pscSlice pscpad (widOf i) := read_psc (k1_off1 i) _ _ _ pscpad (widOf i) (by rw [k1_off1_eq]; rfl)
    (by rw [k1_off1_eq, widOf_val]; show 12544 * (i 1).val + 6272 * (i 0).val = _; omega)
  have e1 : wp_part11.sl.v1 i = widWord i := rfl
  rw [write_whole_view, write_whole_view, write_whole_view, write_whole_view, e10, e18, e20, e19, e1]
  ihave H20' := (Entails.of_eq (show (((sSd).view.loc (tthr d i) ↦{fullShare} sd16 : sProp 𝕄))
      = (((sSd).access (.whole S16)).loc (tthr d i) ↦{fullShare} sd16) from rfl)) $$ H20
  iapply (wp_loadSd d i _ 1 ?hv1 sd16) $$ H20'
  case hv1 => intro x; rfl
  iintro H20'
  sl_exec
  iapply (wp_loadSd d i _ 2 ?hv2 sd16) $$ H20'
  case hv2 => intro x; rfl
  iintro H20'
  sl_exec
  rw [wp_ret]; imodintro
  ihave H20 := (Entails.of_eq (show ((((sSd).access (.whole S16)).loc (tthr d i) ↦{fullShare} sd16 : sProp 𝕄))
      = ((sSd).view.loc (tthr d i) ↦{fullShare} sd16) from rfl)) $$ H20'
  isplitr
  · ipureintro; rfl
  iframe HPk HPi HPsc HSd H10 HI H18 H19 H20
  isplitl [Hs0 Hs1 Hs2 Hs3]
  · isplitl [Hs0]; · iexact Hs0
    isplitl [Hs1]; · iexact Hs1
    isplitl [Hs2]; · iexact Hs2
    iexact Hs3
  iexists (insert (SemLoc.dma cc1_scoped3.sem, (none : HIx 1)) (insert (SemLoc.dma cc1_scoped2.sem, (none : HIx 1))
    (insert (SemLoc.dma cc1_scoped1.sem, (none : HIx 1)) (insert (SemLoc.dma cc1_scoped0.sem, (none : HIx 1)) W))))
  isplitr
  · ipureintro
    intro p hp
    simp only [Finset.mem_insert] at hp
    rcases hp with rfl | rfl | rfl | rfl | hp
    exacts [.inr rfl, .inr rfl, .inr rfl, .inr rfl, .inl hp]
  · iexact HO

abbrev part12Head {α : Type} (v1 : BitVec 32) (v8 : IVec S16 32) (v10 v12 : Vec F S16 .f32) (c3_i32 : BitVec 32)
    (k : Unit → Prog (TpuEff nD τ sig (Elt F) Λ₀ (.scVector ((i 0).castLE hcore1) ((i 1).castLE hsub1))) α) :
    Prog (TpuEff nD τ sig (Elt F) Λ₀ (.scVector ((i 0).castLE hcore1) ((i 1).castLE hsub1))) α := do
  have v13 : IVec S16 32 := broadcast S16 c3_i32
  have k1_hw3 : k1_chk3 v13 := (← Prog.lift (TpuEff.assume (k1_chk3 v13) (k1_chk3.dec v13))).down
  let v14 : Vec F S16 .f32 ← SparseCore.vectorLoadIdx sSd ![v13] (k1_idx3_inb v13 k1_hw3) (View.loads_vmem h_S16)
  have v15 : IVec S16 32 := broadcast S16 4#32
  have k1_hw4 : k1_chk4 v15 := (← Prog.lift (TpuEff.assume (k1_chk4 v15) (k1_chk4.dec v15))).down
  let v16 : Vec F S16 .f32 ← SparseCore.vectorLoadIdx sSd ![v15] (k1_idx4_inb v15 k1_hw4) (View.loads_vmem h_S16)
  let u ← Scf.Loop.for k1_t2_loop k1_t2_ok ⟨⟩ (k1_t2_body i (Memref.whole main_v8_scv) (Memref.isWhole_whole _) (Memref.whole main_v1_scv) (Memref.isWhole_whole _) (Memref.whole main_v3_scv) (Memref.isWhole_whole _) (Memref.whole main_arg6_scv) (Memref.isWhole_whole _) (Memref.whole main_v4_scv) (Memref.isWhole_whole _) (Memref.whole main_v6_scv) (Memref.isWhole_whole _) (Memref.whole main_v5_scv) (Memref.isWhole_whole _) (Memref.whole main_v9_scv) (Memref.isWhole_whole _) (Memref.whole cc1_scratch0) (Memref.isWhole_whole _) (Memref.whole cc1_scratch1) (Memref.isWhole_whole _) (Memref.whole cc1_scratch2) (Memref.isWhole_whole _) (Memref.whole cc1_scratch3) (Memref.isWhole_whole _) (Memref.whole cc1_scratch4) (Memref.isWhole_whole _) (Memref.whole cc1_scratch5) (Memref.isWhole_whole _) (Memref.whole cc1_scratch6) (Memref.isWhole_whole _) (Memref.whole cc1_scratch7) (Memref.isWhole_whole _) (Memref.whole cc1_scratch8) (Memref.isWhole_whole _) (Memref.whole cc1_scratch9) (Memref.isWhole_whole _) (Memref.whole cc1_scratch10) (Memref.isWhole_whole _) cc1_scratch11 cc1_scratch12 cc1_scoped0 cc1_scoped1 cc1_scoped2 cc1_scoped3 cc1_scoped4 v1 v8 v10 v12 c3_i32 v14 v16)
  k u

theorem wp_part12Head {α : Type} (k : Unit → Prog (TpuEff nD τ sig (Elt F) Λ₀ (.scVector ((i 0).castLE hcore1) ((i 1).castLE hsub1))) α)
    (Q : α → sProp (MT nD τ sig (HIx 1) (Elt F) ℕ U ℕ)) (sd16 : Vec F S16 .f32) (pscpad : Vec F S1x200704 .f32) :
    iprop(((sAcc).view.loc (tthr d i) ↦{fullShare} (accZero : Vec F S50176 .f32))
        ∗ ((sPsc).view.loc (tthr d i) ↦{fullShare} pscSlice pscpad (widOf i)) ∗ ((sSd).view.loc (tthr d i) ↦{fullShare} sd16))
      ⊢ iprop((((sAcc).view.loc (tthr d i) ↦{fullShare} accInit sd16 pscpad (widOf i))
            ∗ ((sPsc).view.loc (tthr d i) ↦{fullShare} pscSlice pscpad (widOf i)) ∗ ((sSd).view.loc (tthr d i) ↦{fullShare} sd16)
          -∗ wp frame (wpE (defs₀ (F := F)) Variants.none (tthr d i) none) Set.univ (k ⟨⟩) Q)
        -∗ wp frame (wpE (defs₀ (F := F)) Variants.none (tthr d i) none) Set.univ
            (part12Head i (widWord i) k1_pay105 (sdSplat sd16 1) (sdSplat sd16 2) 3#32 k) Q) := by
  iintro ⟨H11, H19, H20⟩ Hk
  ihave H20' := (Entails.of_eq (show (((sSd).view.loc (tthr d i) ↦{fullShare} sd16 : sProp 𝕄))
      = (((sSd).access (.whole S16)).loc (tthr d i) ↦{fullShare} sd16) from rfl)) $$ H20
  ihave H19' := (Entails.of_eq (show (((sPsc).view.loc (tthr d i) ↦{fullShare} pscSlice pscpad (widOf i) : sProp 𝕄))
      = (((sPsc).access (.whole S6272)).loc (tthr d i) ↦{fullShare} pscSlice pscpad (widOf i)) from rfl)) $$ H19
  sl_exec
  iapply (wp_loadSd d i _ 3 ?hv3 sd16) $$ H20'
  case hv3 => intro x; rfl
  iintro H20'
  sl_exec
  iapply (wp_loadSd d i _ 4 ?hv4 sd16) $$ H20'
  case hv4 => intro x; rfl
  iintro H20'
  sl_for (inv2 d i sd16 pscpad) $$ [H11 H19' H20']
  case region =>
    intro k _
    unfold inv2
    iintro ⟨H11, H19, H20⟩
    obtain ⟨c5, c6, c7, c8⟩ := chk_ok k
    sl_exec
    iterate 4
      iapply (SparseCore.wp_vectorLoadIdx Variants.none (tthr d i) none Set.univ (base := sPsc) (S := Finset.univ) (q := fullShare) (Finset.subset_univ _)) $$ H19; iintro H19
      sl_exec
    ihave H11' := (Entails.of_eq (congrArg (fun (f : Vec F S50176 .f32) => (((sAcc).view.loc (tthr d i) ↦{fullShare} f : sProp 𝕄)))
      (accPart_step i k sd16 pscpad c5 c6 c7 c8))) $$ H11
    rw [wp_ret]; imodintro
    isplitl [H11']; · iexact H11'
    isplitl [H19]; · iexact H19
    iexact H20
  · unfold inv2
    rw [accPart_zero]
    isplitl [H11]; · iexact H11
    isplitl [H19']; · iexact H19'
    iexact H20'
  iintro %_ HI
  unfold inv2
  icases HI with ⟨H11, H19, H20⟩
  rw [show Scf.trips k1_t2_loop.lb k1_t2_loop.ub k1_t2_loop.st = 98 from k1_t2_trips, accPart_all]
  iapply Hk
  isplitl [H11]; · iexact H11
  isplitl [H19]; · iexact H19
  iexact H20

end Tile

end Cert.ProofB.Tile

end
-- ==== Proof.Bits.TileChunk.lean ====
import proofs.«215744_g19043884990565_cont_8to1_1279_72_alg».proof.Proof.TileDefs
import proofs.«215744_g19043884990565_cont_8to1_1279_72_alg».proof.Proof.TileChunkPure
import proofs.«215744_g19043884990565_cont_8to1_1279_72_alg».proof.Proof.Gen.Kernel
import proofs.«215744_g19043884990565_cont_8to1_1279_72_alg».proof.Proof.Gen.Kernel.Skeleton
import Idealize.ShloMosaic.Lib.SparseCore.Ops
import Idealize.ShloMosaic.Lib.WholeRead
import Idealize.ShloMosaic.Lib.Tactic

noncomputable section

namespace Cert.ProofB.Tile
open Cert.Proof
open Cert.Proof.Tile

open Cert.Kernel Cert.Kernel.Gen
open Idealize.ShloMosaic
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

section Loop

variable {Ix : Type} [DecidableEq Ix] {Name : Type} [DecidableEq Name] {U : Type} [URA U] {Lvl : Type} [Preorder Lvl]
variable {defs : Defs nD τ sig (Elt F) Λ₀} (𝒱 : Variants) (d : Dev nD) (bd : Option 𝒱.V) (E : Set Name)

abbrev thr (d : Dev nD) (i : grid1.Coords) : Thread nD τ :=
  (d, .scVector ((i 0).castLE Facts₀.hcore1) ((i 1).castLE Facts₀.hsub1))

omit [FloatOps F] in
theorem pointsTo_unread_of_read (c : Thread nD τ) {s : Shape} {e : EltTy} {m : Memref sig c.2.kind .vmem s e} (hm : m.IsWhole)
    (f : m.view.ty.Contents (Elt F)) (X : Vec F s e) (h : m.view.read (Elt F) f = X) :
    (m.view.loc c ↦[m.view.set]{fullShare} f : sProp (MT nD τ sig Ix (Elt F) Name U Lvl)) ⊢ (m.view.loc c ↦[m.view.set]{fullShare} hm.unread X) := by
  rw [hm.eq_unread h]

abbrev Held (d : Dev nD) (i : grid1.Coords)
    (mP : Memref sig .scVector .vmem S8192 .i32) (hP : mP.IsWhole) (mA : Memref sig .scVector .vmem S50176 .f32) (hA : mA.IsWhole)
    (mC : Memref sig .scVector .vmem S10000 .i32) (hC : mC.IsWhole) (mR : Memref sig .scVector .vmem S10000 .i32) (hR : mR.IsWhole)
    (mW : Memref sig .scVector .vmem S10000 .f32) (hW : mW.IsWhole) (mPi : Memref sig .scVector .vmem S16 .f32) (hPi : mPi.IsWhole)
    (packed : Vec F S8192 .i32) (pi : Vec F S16 .f32) (rows cols : Vec F S10000 .i32) (w : Vec F S10000 .f32)
    (acc : Vec F S50176 .f32) : sProp (MT nD τ sig Ix (Elt F) Name U Lvl) :=
  iprop((mP.view.loc (thr d i) ↦[mP.view.set]{fullShare} hP.unread packed)
    ∗ (mA.view.loc (thr d i) ↦[mA.view.set]{fullShare} hA.unread acc)
    ∗ (mC.view.loc (thr d i) ↦[mC.view.set]{fullShare} hC.unread cols)
    ∗ (mR.view.loc (thr d i) ↦[mR.view.set]{fullShare} hR.unread rows)
    ∗ (mW.view.loc (thr d i) ↦[mW.view.set]{fullShare} hW.unread w)
    ∗ (mPi.view.loc (thr d i) ↦[mPi.view.set]{fullShare} hPi.unread pi))

/-- A counted loop whose every trip takes the accumulator one trip of the chunk further takes it through all its trips. -/
theorem loop_chunk (i : grid1.Coords)
    {mP : Memref sig .scVector .vmem S8192 .i32} (hP : mP.IsWhole) {mA : Memref sig .scVector .vmem S50176 .f32} (hA : mA.IsWhole)
    {mC : Memref sig .scVector .vmem S10000 .i32} (hC : mC.IsWhole) {mR : Memref sig .scVector .vmem S10000 .i32} (hR : mR.IsWhole)
    {mW : Memref sig .scVector .vmem S10000 .f32} (hW : mW.IsWhole) {mPi : Memref sig .scVector .vmem S16 .f32} (hPi : mPi.IsWhole)
    (packed : Vec F S8192 .i32) (pi : Vec F S16 .f32) (rows cols : Vec F S10000 .i32) (w : Vec F S10000 .f32)
    (acc : Vec F S50176 .f32) {n : Nat} (L : Scf.Loop n) (ok : L.OK)
    (body : Fin L.trips → Unit → Prog (TpuEff nD τ sig (Elt F) Λ₀ (thr d i).2) Unit)
    (trip : ∀ k : Fin L.trips, Held (Ix := Ix) (Name := Name) (U := U) (Lvl := Lvl) d i mP hP mA hA mC hC mR hR mW hW mPi hPi packed pi rows cols w (chunkFold k.val packed pi rows cols w acc)
      ⊢ wp frame (wpE defs 𝒱 (thr d i) bd) E (body k ⟨⟩) fun _ => Held (Ix := Ix) (Name := Name) (U := U) (Lvl := Lvl) d i mP hP mA hA mC hC mR hR mW hW mPi hPi packed pi rows cols w (chunkFold (k.val + 1) packed pi rows cols w acc))
    {α : Type} {kk : Unit → Prog (TpuEff nD τ sig (Elt F) Λ₀ (thr d i).2) α} {Q : α → sProp (MT nD τ sig Ix (Elt F) Name U Lvl)} :
    Held (Ix := Ix) (Name := Name) (U := U) (Lvl := Lvl) d i mP hP mA hA mC hC mR hR mW hW mPi hPi packed pi rows cols w acc
      ⊢ iprop((Held (Ix := Ix) (Name := Name) (U := U) (Lvl := Lvl) d i mP hP mA hA mC hC mR hR mW hW mPi hPi packed pi rows cols w (chunkFold L.trips packed pi rows cols w acc) -∗ wp frame (wpE defs 𝒱 (thr d i) bd) E (kk ⟨⟩) Q)
          -∗ wp frame (wpE defs 𝒱 (thr d i) bd) E (Scf.Loop.for L ok ⟨⟩ body >>= kk) Q) := by
  iintro H Hk
  sl_for (fun n (_ : Unit) => Held (Ix := Ix) (Name := Name) (U := U) (Lvl := Lvl) d i mP hP mA hA mC hC mR hR mW hW mPi hPi packed pi rows cols w (chunkFold n packed pi rows cols w acc)) $$ [H]
  case region => intro k _; exact trip k
  · iexact H
  iintro %_ HI
  iapply Hk
  iexact HI

/-- The first chunk's edge loop takes the accumulator from `acc` to `chunkFold 125 … acc`. -/
theorem loop_t3 (i : grid1.Coords) (arg2 : Memref sig .scVector .hbm S1x8192 .i32) (harg2 : arg2.IsWhole) (arg3 : Memref sig .scVector .hbm S1600000 .i32) (harg3 : arg3.IsWhole) (arg4 : Memref sig .scVector .hbm S1600000 .i32) (harg4 : arg4.IsWhole) (arg5 : Memref sig .scVector .hbm S1600000 .f32) (harg5 : arg5.IsWhole) (arg6 : Memref sig .scVector .hbm S16 .f32) (harg6 : arg6.IsWhole) (arg7 : Memref sig .scVector .hbm S1x200704 .f32) (harg7 : arg7.IsWhole) (arg8 : Memref sig .scVector .hbm S16 .f32) (harg8 : arg8.IsWhole) (arg9 : Memref sig .scVector .hbm S32x50176 .f32) (harg9 : arg9.IsWhole) (arg10 : Memref sig .scVector .vmem S8192 .i32) (harg10 : arg10.IsWhole) (arg11 : Memref sig .scVector .vmem S50176 .f32) (harg11 : arg11.IsWhole) (arg12 : Memref sig .scVector .vmem S10000 .i32) (harg12 : arg12.IsWhole) (arg13 : Memref sig .scVector .vmem S10000 .i32) (harg13 : arg13.IsWhole) (arg14 : Memref sig .scVector .vmem S10000 .i32) (harg14 : arg14.IsWhole) (arg15 : Memref sig .scVector .vmem S10000 .i32) (harg15 : arg15.IsWhole) (arg16 : Memref sig .scVector .vmem S10000 .f32) (harg16 : arg16.IsWhole) (arg17 : Memref sig .scVector .vmem S10000 .f32) (harg17 : arg17.IsWhole) (arg18 : Memref sig .scVector .vmem S16 .f32) (harg18 : arg18.IsWhole) (arg19 : Memref sig .scVector .vmem S6272 .f32) (harg19 : arg19.IsWhole) (arg20 : Memref sig .scVector .vmem S16 .f32) (harg20 : arg20.IsWhole) (arg21 : DmaSems sig S_) (arg22 : DmaSems sig S_) (v91_r0 : DmaSems sig S_) (v91_r1 : DmaSems sig S_) (v91_r2 : DmaSems sig S_) (v91_r3 : DmaSems sig S_) (v91_r4 : DmaSems sig S_) (v1 : BitVec 32) (v8 : IVec S16 32) (v10 : Vec F S16 .f32) (v12 : Vec F S16 .f32) (c3_i32 : BitVec 32)
    (packed : Vec F S8192 .i32) (pi : Vec F S16 .f32) (rows cols : Vec F S10000 .i32) (w : Vec F S10000 .f32)
    (acc : Vec F S50176 .f32) (hrows : ∀ x, (rows x).toNat ≤ 199999)
    {α : Type} {kk : Unit → Prog (TpuEff nD τ sig (Elt F) Λ₀ (thr d i).2) α} {Q : α → sProp (MT nD τ sig Ix (Elt F) Name U Lvl)} :
    (Held (Ix := Ix) (Name := Name) (U := U) (Lvl := Lvl) d i arg10 harg10 arg11 harg11 arg12 harg12 arg14 harg14 arg16 harg16 arg18 harg18 packed pi rows cols w acc)
      ⊢ iprop((Held (Ix := Ix) (Name := Name) (U := U) (Lvl := Lvl) d i arg10 harg10 arg11 harg11 arg12 harg12 arg14 harg14 arg16 harg16 arg18 harg18 packed pi rows cols w (chunkFold 125 packed pi rows cols w acc)
            -∗ wp frame (wpE defs 𝒱 (thr d i) bd) E (kk ⟨⟩) Q)
          -∗ wp frame (wpE defs 𝒱 (thr d i) bd) E
              (Scf.Loop.for k1_t3_loop k1_t3_ok ⟨⟩ (k1_t3_body i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 arg22 v91_r0 v91_r1 v91_r2 v91_r3 v91_r4 v1 v8 v10 v12 c3_i32) >>= kk) Q) := by
  refine loop_chunk 𝒱 d bd E i harg10 harg11 harg12 harg14 harg16 harg18 packed pi rows cols w acc k1_t3_loop k1_t3_ok _ fun k => ?_
  have hk : k.val < 125 := lt_of_lt_of_le k.isLt k1_t3_abs.2.1
  unfold k1_t3_body
  iintro ⟨HP, HA, HC, HR, HW, HPi⟩
  repeat (
    sl_exec (disch := first
    | (show ∀ a x, _ < S8192.size a; exact and8191_inb _)
    | (show ∀ a x, _ < S16.size a; exact and3_inb _)
    | (show ∀ a x, _ < S50176.size a; exact rowsOK_readAt _ rows hrows _ _))
    first | rw [SparseCore.vectorLoadIdx_bind (c := thr d i)] | rw [SparseCore.vectorStoreIdx_bind (c := thr d i)])
  sl_exec
  sl_step
  isplitl [HP]; · iexact HP
  isplitl [HA]
  · iapply (pointsTo_unread_of_read (thr d i) harg11 _ _ ?_) $$ HA
    rw [read_writes_whole_cons, chunkFold_trip]
    sl_unfold_run_names
    refine step_spelled hrows (k1_off13_eq k) (k1_off14_eq k) (by omega) (readCov_whole ?_)
    refine step_spelled hrows (k1_off11_eq k) (k1_off12_eq k) (by omega) (readCov_whole ?_)
    refine step_spelled hrows (k1_off9_eq k) (k1_off10_eq k) (by omega) (readCov_whole ?_)
    refine step_spelled hrows (k1_off7_eq k) (k1_off8_eq k) (by omega) (readCov_whole ?_)
    exact step_spelled hrows (k1_off5_eq k) (k1_off6_eq k) (by omega) (readAt_whole_unread _ _)
  isplitl [HC]; · iexact HC
  isplitl [HR]; · iexact HR
  isplitl [HW]; · iexact HW
  iexact HPi

end Loop

end Cert.ProofB.Tile
-- ==== Proof.Bits.TileChunkT4.lean ====
import proofs.«215744_g19043884990565_cont_8to1_1279_72_alg».proof.Proof.Bits.TileChunk

noncomputable section

namespace Cert.ProofB.Tile
open Cert.Proof
open Cert.Proof.Tile

open Cert.Kernel Cert.Kernel.Gen
open Idealize.ShloMosaic
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]
variable {Ix : Type} [DecidableEq Ix] {Name : Type} [DecidableEq Name] {U : Type} [URA U] {Lvl : Type} [Preorder Lvl]
variable {defs : Defs nD τ sig (Elt F) Λ₀} (𝒱 : Variants) (d : Dev nD) (bd : Option 𝒱.V) (E : Set Name)

/-- The second chunk's edge loop takes the accumulator from `acc` to `chunkFold 125 … acc`. -/
theorem loop_t4 (i : grid1.Coords) (arg2 : Memref sig .scVector .hbm S1x8192 .i32) (harg2 : arg2.IsWhole) (arg3 : Memref sig .scVector .hbm S1600000 .i32) (harg3 : arg3.IsWhole) (arg4 : Memref sig .scVector .hbm S1600000 .i32) (harg4 : arg4.IsWhole) (arg5 : Memref sig .scVector .hbm S1600000 .f32) (harg5 : arg5.IsWhole) (arg6 : Memref sig .scVector .hbm S16 .f32) (harg6 : arg6.IsWhole) (arg7 : Memref sig .scVector .hbm S1x200704 .f32) (harg7 : arg7.IsWhole) (arg8 : Memref sig .scVector .hbm S16 .f32) (harg8 : arg8.IsWhole) (arg9 : Memref sig .scVector .hbm S32x50176 .f32) (harg9 : arg9.IsWhole) (arg10 : Memref sig .scVector .vmem S8192 .i32) (harg10 : arg10.IsWhole) (arg11 : Memref sig .scVector .vmem S50176 .f32) (harg11 : arg11.IsWhole) (arg12 : Memref sig .scVector .vmem S10000 .i32) (harg12 : arg12.IsWhole) (arg13 : Memref sig .scVector .vmem S10000 .i32) (harg13 : arg13.IsWhole) (arg14 : Memref sig .scVector .vmem S10000 .i32) (harg14 : arg14.IsWhole) (arg15 : Memref sig .scVector .vmem S10000 .i32) (harg15 : arg15.IsWhole) (arg16 : Memref sig .scVector .vmem S10000 .f32) (harg16 : arg16.IsWhole) (arg17 : Memref sig .scVector .vmem S10000 .f32) (harg17 : arg17.IsWhole) (arg18 : Memref sig .scVector .vmem S16 .f32) (harg18 : arg18.IsWhole) (arg19 : Memref sig .scVector .vmem S6272 .f32) (harg19 : arg19.IsWhole) (arg20 : Memref sig .scVector .vmem S16 .f32) (harg20 : arg20.IsWhole) (arg21 : DmaSems sig S_) (arg22 : DmaSems sig S_) (v91_r0 : DmaSems sig S_) (v91_r1 : DmaSems sig S_) (v91_r2 : DmaSems sig S_) (v91_r3 : DmaSems sig S_) (v91_r4 : DmaSems sig S_) (v20 : BitVec 32)
    (packed : Vec F S8192 .i32) (pi : Vec F S16 .f32) (rows cols : Vec F S10000 .i32) (w : Vec F S10000 .f32)
    (acc : Vec F S50176 .f32) (hrows : ∀ x, (rows x).toNat ≤ 199999)
    {α : Type} {kk : Unit → Prog (TpuEff nD τ sig (Elt F) Λ₀ (thr d i).2) α} {Q : α → sProp (MT nD τ sig Ix (Elt F) Name U Lvl)} :
    (Held (Ix := Ix) (Name := Name) (U := U) (Lvl := Lvl) d i arg10 harg10 arg11 harg11 arg13 harg13 arg15 harg15 arg17 harg17 arg18 harg18 packed pi rows cols w acc)
      ⊢ iprop((Held (Ix := Ix) (Name := Name) (U := U) (Lvl := Lvl) d i arg10 harg10 arg11 harg11 arg13 harg13 arg15 harg15 arg17 harg17 arg18 harg18 packed pi rows cols w (chunkFold 125 packed pi rows cols w acc)
            -∗ wp frame (wpE defs 𝒱 (thr d i) bd) E (kk ⟨⟩) Q)
          -∗ wp frame (wpE defs 𝒱 (thr d i) bd) E
              (Scf.Loop.for k1_t4_loop k1_t4_ok ⟨⟩ (k1_t4_body i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 arg22 v91_r0 v91_r1 v91_r2 v91_r3 v91_r4 v20) >>= kk) Q) := by
  refine loop_chunk 𝒱 d bd E i harg10 harg11 harg13 harg15 harg17 harg18 packed pi rows cols w acc k1_t4_loop k1_t4_ok _ fun k => ?_
  have hk : k.val < 125 := lt_of_lt_of_le k.isLt k1_t4_abs.2.1
  unfold k1_t4_body
  iintro ⟨HP, HA, HC, HR, HW, HPi⟩
  repeat (
    sl_exec (disch := first
    | (show ∀ a x, _ < S8192.size a; exact and8191_inb _)
    | (show ∀ a x, _ < S16.size a; exact and3_inb _)
    | (show ∀ a x, _ < S50176.size a; exact rowsOK_readAt _ rows hrows _ _))
    first | rw [SparseCore.vectorLoadIdx_bind (c := thr d i)] | rw [SparseCore.vectorStoreIdx_bind (c := thr d i)])
  sl_exec
  sl_step
  isplitl [HP]; · iexact HP
  isplitl [HA]
  · iapply (pointsTo_unread_of_read (thr d i) harg11 _ _ ?_) $$ HA
    rw [read_writes_whole_cons, chunkFold_trip]
    sl_unfold_run_names
    refine step_spelled hrows (k1_off23_eq k) (k1_off24_eq k) (by omega) (readCov_whole ?_)
    refine step_spelled hrows (k1_off21_eq k) (k1_off22_eq k) (by omega) (readCov_whole ?_)
    refine step_spelled hrows (k1_off19_eq k) (k1_off20_eq k) (by omega) (readCov_whole ?_)
    refine step_spelled hrows (k1_off17_eq k) (k1_off18_eq k) (by omega) (readCov_whole ?_)
    exact step_spelled hrows (k1_off15_eq k) (k1_off16_eq k) (by omega) (readAt_whole_unread _ _)
  isplitl [HC]; · iexact HC
  isplitl [HR]; · iexact HR
  isplitl [HW]; · iexact HW
  iexact HPi

end Cert.ProofB.Tile
-- ==== Proof.Bits.TileChunkT5.lean ====
import proofs.«215744_g19043884990565_cont_8to1_1279_72_alg».proof.Proof.Bits.TileChunk

noncomputable section

namespace Cert.ProofB.Tile
open Cert.Proof
open Cert.Proof.Tile

open Cert.Kernel Cert.Kernel.Gen
open Idealize.ShloMosaic
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]
variable {Ix : Type} [DecidableEq Ix] {Name : Type} [DecidableEq Name] {U : Type} [URA U] {Lvl : Type} [Preorder Lvl]
variable {defs : Defs nD τ sig (Elt F) Λ₀} (𝒱 : Variants) (d : Dev nD) (bd : Option 𝒱.V) (E : Set Name)

/-- The third chunk's edge loop takes the accumulator from `acc` to `chunkFold 125 … acc`. -/
theorem loop_t5 (i : grid1.Coords) (arg2 : Memref sig .scVector .hbm S1x8192 .i32) (harg2 : arg2.IsWhole) (arg3 : Memref sig .scVector .hbm S1600000 .i32) (harg3 : arg3.IsWhole) (arg4 : Memref sig .scVector .hbm S1600000 .i32) (harg4 : arg4.IsWhole) (arg5 : Memref sig .scVector .hbm S1600000 .f32) (harg5 : arg5.IsWhole) (arg6 : Memref sig .scVector .hbm S16 .f32) (harg6 : arg6.IsWhole) (arg7 : Memref sig .scVector .hbm S1x200704 .f32) (harg7 : arg7.IsWhole) (arg8 : Memref sig .scVector .hbm S16 .f32) (harg8 : arg8.IsWhole) (arg9 : Memref sig .scVector .hbm S32x50176 .f32) (harg9 : arg9.IsWhole) (arg10 : Memref sig .scVector .vmem S8192 .i32) (harg10 : arg10.IsWhole) (arg11 : Memref sig .scVector .vmem S50176 .f32) (harg11 : arg11.IsWhole) (arg12 : Memref sig .scVector .vmem S10000 .i32) (harg12 : arg12.IsWhole) (arg13 : Memref sig .scVector .vmem S10000 .i32) (harg13 : arg13.IsWhole) (arg14 : Memref sig .scVector .vmem S10000 .i32) (harg14 : arg14.IsWhole) (arg15 : Memref sig .scVector .vmem S10000 .i32) (harg15 : arg15.IsWhole) (arg16 : Memref sig .scVector .vmem S10000 .f32) (harg16 : arg16.IsWhole) (arg17 : Memref sig .scVector .vmem S10000 .f32) (harg17 : arg17.IsWhole) (arg18 : Memref sig .scVector .vmem S16 .f32) (harg18 : arg18.IsWhole) (arg19 : Memref sig .scVector .vmem S6272 .f32) (harg19 : arg19.IsWhole) (arg20 : Memref sig .scVector .vmem S16 .f32) (harg20 : arg20.IsWhole) (arg21 : DmaSems sig S_) (arg22 : DmaSems sig S_) (v91_r0 : DmaSems sig S_) (v91_r1 : DmaSems sig S_) (v91_r2 : DmaSems sig S_) (v91_r3 : DmaSems sig S_) (v91_r4 : DmaSems sig S_) (v20 : BitVec 32)
    (packed : Vec F S8192 .i32) (pi : Vec F S16 .f32) (rows cols : Vec F S10000 .i32) (w : Vec F S10000 .f32)
    (acc : Vec F S50176 .f32) (hrows : ∀ x, (rows x).toNat ≤ 199999)
    {α : Type} {kk : Unit → Prog (TpuEff nD τ sig (Elt F) Λ₀ (thr d i).2) α} {Q : α → sProp (MT nD τ sig Ix (Elt F) Name U Lvl)} :
    (Held (Ix := Ix) (Name := Name) (U := U) (Lvl := Lvl) d i arg10 harg10 arg11 harg11 arg12 harg12 arg14 harg14 arg16 harg16 arg18 harg18 packed pi rows cols w acc)
      ⊢ iprop((Held (Ix := Ix) (Name := Name) (U := U) (Lvl := Lvl) d i arg10 harg10 arg11 harg11 arg12 harg12 arg14 harg14 arg16 harg16 arg18 harg18 packed pi rows cols w (chunkFold 125 packed pi rows cols w acc)
            -∗ wp frame (wpE defs 𝒱 (thr d i) bd) E (kk ⟨⟩) Q)
          -∗ wp frame (wpE defs 𝒱 (thr d i) bd) E
              (Scf.Loop.for k1_t5_loop k1_t5_ok ⟨⟩ (k1_t5_body i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 arg22 v91_r0 v91_r1 v91_r2 v91_r3 v91_r4 v20) >>= kk) Q) := by
  refine loop_chunk 𝒱 d bd E i harg10 harg11 harg12 harg14 harg16 harg18 packed pi rows cols w acc k1_t5_loop k1_t5_ok _ fun k => ?_
  have hk : k.val < 125 := lt_of_lt_of_le k.isLt k1_t5_abs.2.1
  unfold k1_t5_body
  iintro ⟨HP, HA, HC, HR, HW, HPi⟩
  repeat (
    sl_exec (disch := first
    | (show ∀ a x, _ < S8192.size a; exact and8191_inb _)
    | (show ∀ a x, _ < S16.size a; exact and3_inb _)
    | (show ∀ a x, _ < S50176.size a; exact rowsOK_readAt _ rows hrows _ _))
    first | rw [SparseCore.vectorLoadIdx_bind (c := thr d i)] | rw [SparseCore.vectorStoreIdx_bind (c := thr d i)])
  sl_exec
  sl_step
  isplitl [HP]; · iexact HP
  isplitl [HA]
  · iapply (pointsTo_unread_of_read (thr d i) harg11 _ _ ?_) $$ HA
    rw [read_writes_whole_cons, chunkFold_trip]
    sl_unfold_run_names
    refine step_spelled hrows (k1_off33_eq k) (k1_off34_eq k) (by omega) (readCov_whole ?_)
    refine step_spelled hrows (k1_off31_eq k) (k1_off32_eq k) (by omega) (readCov_whole ?_)
    refine step_spelled hrows (k1_off29_eq k) (k1_off30_eq k) (by omega) (readCov_whole ?_)
    refine step_spelled hrows (k1_off27_eq k) (k1_off28_eq k) (by omega) (readCov_whole ?_)
    exact step_spelled hrows (k1_off25_eq k) (k1_off26_eq k) (by omega) (readAt_whole_unread _ _)
  isplitl [HC]; · iexact HC
  isplitl [HR]; · iexact HR
  isplitl [HW]; · iexact HW
  iexact HPi

end Cert.ProofB.Tile
-- ==== Proof.Bits.TileChunkT6.lean ====
import proofs.«215744_g19043884990565_cont_8to1_1279_72_alg».proof.Proof.Bits.TileChunk

noncomputable section

namespace Cert.ProofB.Tile
open Cert.Proof
open Cert.Proof.Tile

open Cert.Kernel Cert.Kernel.Gen
open Idealize.ShloMosaic
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]
variable {Ix : Type} [DecidableEq Ix] {Name : Type} [DecidableEq Name] {U : Type} [URA U] {Lvl : Type} [Preorder Lvl]
variable {defs : Defs nD τ sig (Elt F) Λ₀} (𝒱 : Variants) (d : Dev nD) (bd : Option 𝒱.V) (E : Set Name)

/-- The fourth chunk's edge loop takes the accumulator from `acc` to `chunkFold 125 … acc`. -/
theorem loop_t6 (i : grid1.Coords) (arg2 : Memref sig .scVector .hbm S1x8192 .i32) (harg2 : arg2.IsWhole) (arg3 : Memref sig .scVector .hbm S1600000 .i32) (harg3 : arg3.IsWhole) (arg4 : Memref sig .scVector .hbm S1600000 .i32) (harg4 : arg4.IsWhole) (arg5 : Memref sig .scVector .hbm S1600000 .f32) (harg5 : arg5.IsWhole) (arg6 : Memref sig .scVector .hbm S16 .f32) (harg6 : arg6.IsWhole) (arg7 : Memref sig .scVector .hbm S1x200704 .f32) (harg7 : arg7.IsWhole) (arg8 : Memref sig .scVector .hbm S16 .f32) (harg8 : arg8.IsWhole) (arg9 : Memref sig .scVector .hbm S32x50176 .f32) (harg9 : arg9.IsWhole) (arg10 : Memref sig .scVector .vmem S8192 .i32) (harg10 : arg10.IsWhole) (arg11 : Memref sig .scVector .vmem S50176 .f32) (harg11 : arg11.IsWhole) (arg12 : Memref sig .scVector .vmem S10000 .i32) (harg12 : arg12.IsWhole) (arg13 : Memref sig .scVector .vmem S10000 .i32) (harg13 : arg13.IsWhole) (arg14 : Memref sig .scVector .vmem S10000 .i32) (harg14 : arg14.IsWhole) (arg15 : Memref sig .scVector .vmem S10000 .i32) (harg15 : arg15.IsWhole) (arg16 : Memref sig .scVector .vmem S10000 .f32) (harg16 : arg16.IsWhole) (arg17 : Memref sig .scVector .vmem S10000 .f32) (harg17 : arg17.IsWhole) (arg18 : Memref sig .scVector .vmem S16 .f32) (harg18 : arg18.IsWhole) (arg19 : Memref sig .scVector .vmem S6272 .f32) (harg19 : arg19.IsWhole) (arg20 : Memref sig .scVector .vmem S16 .f32) (harg20 : arg20.IsWhole) (arg21 : DmaSems sig S_) (arg22 : DmaSems sig S_) (v91_r0 : DmaSems sig S_) (v91_r1 : DmaSems sig S_) (v91_r2 : DmaSems sig S_) (v91_r3 : DmaSems sig S_) (v91_r4 : DmaSems sig S_)
    (packed : Vec F S8192 .i32) (pi : Vec F S16 .f32) (rows cols : Vec F S10000 .i32) (w : Vec F S10000 .f32)
    (acc : Vec F S50176 .f32) (hrows : ∀ x, (rows x).toNat ≤ 199999)
    {α : Type} {kk : Unit → Prog (TpuEff nD τ sig (Elt F) Λ₀ (thr d i).2) α} {Q : α → sProp (MT nD τ sig Ix (Elt F) Name U Lvl)} :
    (Held (Ix := Ix) (Name := Name) (U := U) (Lvl := Lvl) d i arg10 harg10 arg11 harg11 arg13 harg13 arg15 harg15 arg17 harg17 arg18 harg18 packed pi rows cols w acc)
      ⊢ iprop((Held (Ix := Ix) (Name := Name) (U := U) (Lvl := Lvl) d i arg10 harg10 arg11 harg11 arg13 harg13 arg15 harg15 arg17 harg17 arg18 harg18 packed pi rows cols w (chunkFold 125 packed pi rows cols w acc)
            -∗ wp frame (wpE defs 𝒱 (thr d i) bd) E (kk ⟨⟩) Q)
          -∗ wp frame (wpE defs 𝒱 (thr d i) bd) E
              (Scf.Loop.for k1_t6_loop k1_t6_ok ⟨⟩ (k1_t6_body i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 arg22 v91_r0 v91_r1 v91_r2 v91_r3 v91_r4) >>= kk) Q) := by
  refine loop_chunk 𝒱 d bd E i harg10 harg11 harg13 harg15 harg17 harg18 packed pi rows cols w acc k1_t6_loop k1_t6_ok _ fun k => ?_
  have hk : k.val < 125 := lt_of_lt_of_le k.isLt k1_t6_abs.2.1
  unfold k1_t6_body
  iintro ⟨HP, HA, HC, HR, HW, HPi⟩
  repeat (
    sl_exec (disch := first
    | (show ∀ a x, _ < S8192.size a; exact and8191_inb _)
    | (show ∀ a x, _ < S16.size a; exact and3_inb _)
    | (show ∀ a x, _ < S50176.size a; exact rowsOK_readAt _ rows hrows _ _))
    first | rw [SparseCore.vectorLoadIdx_bind (c := thr d i)] | rw [SparseCore.vectorStoreIdx_bind (c := thr d i)])
  sl_exec
  sl_step
  isplitl [HP]; · iexact HP
  isplitl [HA]
  · iapply (pointsTo_unread_of_read (thr d i) harg11 _ _ ?_) $$ HA
    rw [read_writes_whole_cons, chunkFold_trip]
    sl_unfold_run_names
    refine step_spelled hrows (k1_off43_eq k) (k1_off44_eq k) (by omega) (readCov_whole ?_)
    refine step_spelled hrows (k1_off41_eq k) (k1_off42_eq k) (by omega) (readCov_whole ?_)
    refine step_spelled hrows (k1_off39_eq k) (k1_off40_eq k) (by omega) (readCov_whole ?_)
    refine step_spelled hrows (k1_off37_eq k) (k1_off38_eq k) (by omega) (readCov_whole ?_)
    exact step_spelled hrows (k1_off35_eq k) (k1_off36_eq k) (by omega) (readAt_whole_unread _ _)
  isplitl [HC]; · iexact HC
  isplitl [HR]; · iexact HR
  isplitl [HW]; · iexact HW
  iexact HPi

end Cert.ProofB.Tile
-- ==== Proof.Bits.TileChunkT7.lean ====
import proofs.«215744_g19043884990565_cont_8to1_1279_72_alg».proof.Proof.Bits.TileChunk

noncomputable section

namespace Cert.ProofB.Tile
open Cert.Proof
open Cert.Proof.Tile

open Cert.Kernel Cert.Kernel.Gen
open Idealize.ShloMosaic
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]
variable {Ix : Type} [DecidableEq Ix] {Name : Type} [DecidableEq Name] {U : Type} [URA U] {Lvl : Type} [Preorder Lvl]
variable {defs : Defs nD τ sig (Elt F) Λ₀} (𝒱 : Variants) (d : Dev nD) (bd : Option 𝒱.V) (E : Set Name)

/-- The fifth chunk's edge loop takes the accumulator from `acc` to `chunkFold 125 … acc`. -/
theorem loop_t7 (i : grid1.Coords) (arg2 : Memref sig .scVector .hbm S1x8192 .i32) (harg2 : arg2.IsWhole) (arg3 : Memref sig .scVector .hbm S1600000 .i32) (harg3 : arg3.IsWhole) (arg4 : Memref sig .scVector .hbm S1600000 .i32) (harg4 : arg4.IsWhole) (arg5 : Memref sig .scVector .hbm S1600000 .f32) (harg5 : arg5.IsWhole) (arg6 : Memref sig .scVector .hbm S16 .f32) (harg6 : arg6.IsWhole) (arg7 : Memref sig .scVector .hbm S1x200704 .f32) (harg7 : arg7.IsWhole) (arg8 : Memref sig .scVector .hbm S16 .f32) (harg8 : arg8.IsWhole) (arg9 : Memref sig .scVector .hbm S32x50176 .f32) (harg9 : arg9.IsWhole) (arg10 : Memref sig .scVector .vmem S8192 .i32) (harg10 : arg10.IsWhole) (arg11 : Memref sig .scVector .vmem S50176 .f32) (harg11 : arg11.IsWhole) (arg12 : Memref sig .scVector .vmem S10000 .i32) (harg12 : arg12.IsWhole) (arg13 : Memref sig .scVector .vmem S10000 .i32) (harg13 : arg13.IsWhole) (arg14 : Memref sig .scVector .vmem S10000 .i32) (harg14 : arg14.IsWhole) (arg15 : Memref sig .scVector .vmem S10000 .i32) (harg15 : arg15.IsWhole) (arg16 : Memref sig .scVector .vmem S10000 .f32) (harg16 : arg16.IsWhole) (arg17 : Memref sig .scVector .vmem S10000 .f32) (harg17 : arg17.IsWhole) (arg18 : Memref sig .scVector .vmem S16 .f32) (harg18 : arg18.IsWhole) (arg19 : Memref sig .scVector .vmem S6272 .f32) (harg19 : arg19.IsWhole) (arg20 : Memref sig .scVector .vmem S16 .f32) (harg20 : arg20.IsWhole) (arg21 : DmaSems sig S_) (arg22 : DmaSems sig S_) (v91_r0 : DmaSems sig S_) (v91_r1 : DmaSems sig S_) (v91_r2 : DmaSems sig S_) (v91_r3 : DmaSems sig S_) (v91_r4 : DmaSems sig S_)
    (packed : Vec F S8192 .i32) (pi : Vec F S16 .f32) (rows cols : Vec F S10000 .i32) (w : Vec F S10000 .f32)
    (acc : Vec F S50176 .f32) (hrows : ∀ x, (rows x).toNat ≤ 199999)
    {α : Type} {kk : Unit → Prog (TpuEff nD τ sig (Elt F) Λ₀ (thr d i).2) α} {Q : α → sProp (MT nD τ sig Ix (Elt F) Name U Lvl)} :
    (Held (Ix := Ix) (Name := Name) (U := U) (Lvl := Lvl) d i arg10 harg10 arg11 harg11 arg12 harg12 arg14 harg14 arg16 harg16 arg18 harg18 packed pi rows cols w acc)
      ⊢ iprop((Held (Ix := Ix) (Name := Name) (U := U) (Lvl := Lvl) d i arg10 harg10 arg11 harg11 arg12 harg12 arg14 harg14 arg16 harg16 arg18 harg18 packed pi rows cols w (chunkFold 125 packed pi rows cols w acc)
            -∗ wp frame (wpE defs 𝒱 (thr d i) bd) E (kk ⟨⟩) Q)
          -∗ wp frame (wpE defs 𝒱 (thr d i) bd) E
              (Scf.Loop.for k1_t7_loop k1_t7_ok ⟨⟩ (k1_t7_body i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 arg22 v91_r0 v91_r1 v91_r2 v91_r3 v91_r4) >>= kk) Q) := by
  refine loop_chunk 𝒱 d bd E i harg10 harg11 harg12 harg14 harg16 harg18 packed pi rows cols w acc k1_t7_loop k1_t7_ok _ fun k => ?_
  have hk : k.val < 125 := lt_of_lt_of_le k.isLt k1_t7_abs.2.1
  unfold k1_t7_body
  iintro ⟨HP, HA, HC, HR, HW, HPi⟩
  repeat (
    sl_exec (disch := first
    | (show ∀ a x, _ < S8192.size a; exact and8191_inb _)
    | (show ∀ a x, _ < S16.size a; exact and3_inb _)
    | (show ∀ a x, _ < S50176.size a; exact rowsOK_readAt _ rows hrows _ _))
    first | rw [SparseCore.vectorLoadIdx_bind (c := thr d i)] | rw [SparseCore.vectorStoreIdx_bind (c := thr d i)])
  sl_exec
  sl_step
  isplitl [HP]; · iexact HP
  isplitl [HA]
  · iapply (pointsTo_unread_of_read (thr d i) harg11 _ _ ?_) $$ HA
    rw [read_writes_whole_cons, chunkFold_trip]
    sl_unfold_run_names
    refine step_spelled hrows (k1_off53_eq k) (k1_off54_eq k) (by omega) (readCov_whole ?_)
    refine step_spelled hrows (k1_off51_eq k) (k1_off52_eq k) (by omega) (readCov_whole ?_)
    refine step_spelled hrows (k1_off49_eq k) (k1_off50_eq k) (by omega) (readCov_whole ?_)
    refine step_spelled hrows (k1_off47_eq k) (k1_off48_eq k) (by omega) (readCov_whole ?_)
    exact step_spelled hrows (k1_off45_eq k) (k1_off46_eq k) (by omega) (readAt_whole_unread _ _)
  isplitl [HC]; · iexact HC
  isplitl [HR]; · iexact HR
  isplitl [HW]; · iexact HW
  iexact HPi

end Cert.ProofB.Tile
-- ==== Proof.Bits.TileBody.lean ====
import proofs.«215744_g19043884990565_cont_8to1_1279_72_alg».proof.Proof.Bits.TileBatch
import proofs.«215744_g19043884990565_cont_8to1_1279_72_alg».proof.Proof.TileOut
import proofs.«215744_g19043884990565_cont_8to1_1279_72_alg».proof.Proof.Bits.TilePrologue
import proofs.«215744_g19043884990565_cont_8to1_1279_72_alg».proof.Proof.Bits.TileChunk
import proofs.«215744_g19043884990565_cont_8to1_1279_72_alg».proof.Proof.Bits.TileChunkT4
import proofs.«215744_g19043884990565_cont_8to1_1279_72_alg».proof.Proof.Bits.TileChunkT5
import proofs.«215744_g19043884990565_cont_8to1_1279_72_alg».proof.Proof.Bits.TileChunkT6
import proofs.«215744_g19043884990565_cont_8to1_1279_72_alg».proof.Proof.Bits.TileChunkT7

noncomputable section

namespace Cert.ProofB.Tile
open Cert.Proof
open Cert.Proof.Tile

open Cert.Kernel Cert.Kernel.Gen Cert.ProofB.Launch
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F] {U : Type} [URA U] [CountersIn U]

local notation "𝕄" => MT nD τ sig (HIx 1) (Elt F) ℕ U ℕ

theorem chunk_eq {e : EltTy} (X : Vec F S1600000 e) (i : grid1.Coords) (r : Fin 5) (x : S10000.Idx) (j : S1600000.Idx)
    (hj : (j 0 : ℕ) = k1_off4 i (BitVec.ofNat 32 (10000 * r.val)) 0 + 1 * (x 0 : ℕ)) : X j = chunkOf X (widOf i) r x := by
  unfold chunkOf
  congr 1
  funext a
  apply Fin.ext
  obtain rfl := Fin.eq_zero a
  rw [chunkOf_idx]
  refine hj.trans ?_
  rw [k1_off4_eq i r, widOf_val]
  simp only [Matrix.cons_val_zero]
  omega

theorem rowsChunk_eq (d : Dev nD) (i : grid1.Coords) (cv : CallVals (F := F) d) (r : Fin 5) :
    Copies.rowsChunk d i cv r = chunkOf (F := F) (cv.rows : Vec F S1600000 .i32) (widOf i) r := by
  funext x; exact chunk_eq (cv.rows : Vec F S1600000 .i32) i r x _ (by rfl)
theorem colsChunk_eq (d : Dev nD) (i : grid1.Coords) (cv : CallVals (F := F) d) (r : Fin 5) :
    Copies.colsChunk d i cv r = chunkOf (F := F) (cv.cols : Vec F S1600000 .i32) (widOf i) r := by
  funext x; exact chunk_eq (cv.cols : Vec F S1600000 .i32) i r x _ (by rfl)
theorem wChunk_eq (d : Dev nD) (i : grid1.Coords) (cv : CallVals (F := F) d) (r : Fin 5) :
    Copies.wChunk d i cv r = chunkOf (F := F) (cv.w : Vec F S1600000 .f32) (widOf i) r := by
  funext x; exact chunk_eq (cv.w : Vec F S1600000 .f32) i r x _ (by rfl)

theorem held_in (c : Thread nD τ) {s : Shape} {e : EltTy} {m : Memref sig c.2.kind .vmem s e} (hm : m.IsWhole)
    (f : m.view.ty.Contents (Elt F)) (X : Vec F s e) (h : m.view.read (Elt F) f = X) :
    (m.view.loc c ↦{fullShare} f : sProp 𝕄) ⊢ (m.view.loc c ↦[m.view.set]{fullShare} hm.unread X) := by
  rw [hm.set_eq_univ, ← hm.eq_unread h]

theorem held_ex (c : Thread nD τ) {s : Shape} {e : EltTy} {m : Memref sig c.2.kind .vmem s e} (hm : m.IsWhole) (X : Vec F s e) :
    (m.view.loc c ↦[m.view.set]{fullShare} hm.unread X : sProp 𝕄) ⊢ iprop(∃ f, m.view.loc c ↦{fullShare} f) := by
  rw [hm.set_eq_univ]
  iintro H
  iexists _
  iexact H

-- A whole buffer rewritten with a chunk the copies brought holds the tile's chunk of the array.
theorem held_chunk (d : Dev nD) (i : grid1.Coords) {e : EltTy} {b : Memref sig .scVector .vmem S10000 e} (hb : b.IsWhole)
    (f : Buf (Elt F) (b.view.loc (tthr d i))) {Y : Vec F S10000 e} {X : Vec F S1600000 e} {r : Fin 5} (h : Y = chunkOf X (widOf i) r) :
    (b.view.loc (tthr d i) ↦{fullShare} b.view.write (Elt F) f Y Finset.univ : sProp 𝕄)
      ⊢ (b.view.loc (tthr d i) ↦[b.view.set]{fullShare} hb.unread (chunkAt X (widOf i) r.val)) :=
  held_in (tthr d i) hb _ _ ((View.read_write_univ _ _).trans (h.trans (chunkAt_lt _ _ r.val r.isLt).symm))

abbrev accN (d : Dev nD) (i : grid1.Coords) (cv : CallVals (F := F) d) (j : Nat) : Vec F S50176 .f32 :=
  chunksFold (pkRow (cv.pk : Vec F S1x8192 .i32)) (cv.pi : Vec F S16 .f32) (chunkAt (cv.rows : Vec F S1600000 .i32) (widOf i)) (chunkAt (cv.cols : Vec F S1600000 .i32) (widOf i)) (chunkAt (cv.w : Vec F S1600000 .f32) (widOf i)) j
    (accInit (cv.sd : Vec F S16 .f32) (cv.psc : Vec F S1x200704 .f32) (widOf i))

theorem chunkAt_le (X : Vec F S1600000 .i32) (hX : ∀ x, (X x).toNat ≤ 199999) (wid : Fin 32) (j : Nat) :
    ∀ x, ((chunkAt X wid j) x).toNat ≤ 199999 := by
  intro x
  unfold chunkAt
  split <;> exact hX _

abbrev outSl (i : grid1.Coords) : Memref sig .scVector .hbm S50176 .f32 :=
  ((Memref.whole main_v9_scv : Memref sig .scVector .hbm S32x50176 .f32).slice
    (Rect.unit (s := S32x50176) (k1_off55 i) S1x50176.size (k1_off55_inb i)) (fun _ => rfl)).squeeze S50176 squeezes_S1x50176_S50176

theorem outRect_eq (i : grid1.Coords) :
    Rect.unit (s := S32x50176) (k1_off55 i) S1x50176.size (k1_off55_inb i) = outRow (widOf i) := by
  unfold outRow Rect.part Rect.block
  congr 1 <;> funext a
  · rw [k1_off55_eq]
    match a with
    | 0 => simp [Shape.partIx, Shape.partSize, widOf_val]
    | 1 => simp [Shape.partIx, Shape.partSize]
  · match a with
    | 0 => simp [Shape.partSize]
    | 1 => simp [Shape.partSize]

theorem set_outSl (i : grid1.Coords) : (outSl i).view.set = rowSet (widOf i) := by
  show (((outV : Memref sig .scVector .hbm S32x50176 .f32).view.slice (Rect.unit (s := S32x50176) (k1_off55 i) S1x50176.size (k1_off55_inb i))).reshape S50176 squeezes_S1x50176_S50176.numel_eq).set
    = ((outV : Memref sig .scVector .hbm S32x50176 .f32).view.slice (outRow (widOf i))).set
  rw [View.set_reshape]
  exact outRect_eq i ▸ rfl

theorem pts_out (d : Dev nD) (i : grid1.Coords) (f : Buf (Elt F) (outLoc d)) :
    ((outSl i).view.loc (tthr d i) ↦[(outSl i).view.set]{fullShare} f : sProp 𝕄) = outLoc d ↦[rowSet (widOf i)]{fullShare} f := by
  rw [set_outSl]

theorem row_agree (d : Dev nD) (i : grid1.Coords) (g po : Buf (Elt F) (outLoc d)) (T : Vec F S50176 .f32)
    (hg : (outSl i).view.read (Elt F) (g : Buf (Elt F) ((outSl i).view.loc (tthr d i))) = T)
    (hpo : (outSl i).view.read (Elt F) (po : Buf (Elt F) ((outSl i).view.loc (tthr d i))) = T) :
    ∀ j ∈ rowSet (widOf i), g j = po j := by
  intro j hj
  rw [← set_outSl] at hj
  obtain ⟨x, -, rfl⟩ := Finset.mem_map.1 hj
  have h := congrFun (hg.trans hpo.symm) x
  unfold View.read at h
  exact (cast_inj _).1 h

section CopyOut

variable (d : Dev nD) (i : grid1.Coords)
variable (O : CellTallies nD τ sig (HIx 1)) (W : Waits sig (HIx 1))

local notation "sAcc" => (Memref.whole cc1_scratch1 : Memref sig Kind.scVector Space.vmem S50176 EltTy.f32)

abbrev NO (i : grid1.Coords) : ℕ := (outSl i).view.dmaCredit
theorem NO_pos (i : grid1.Coords) : 0 < NO i := View.dmaCredit_pos _ (by decide)

def delivOut (acc : Buf (Elt F) ((sAcc).view.loc (tthr d i))) (f0 : Buf (Elt F) ((outSl i).view.loc (tthr d i))) : Fin 1 → sProp 𝕄 := fun _ =>
  iprop(((outSl i).view.loc (tthr d i) ↦[(outSl i).view.set]{fullShare} (outSl i).view.write (Elt F) f0 ((sAcc).view.read (Elt F) acc) Finset.univ)
    ∗ ((sAcc).view.loc (tthr d i) ↦[(sAcc).view.set]{fullShare} acc))

instance delivOut_storable (acc : Buf (Elt F) ((sAcc).view.loc (tthr d i))) (f0 : Buf (Elt F) ((outSl i).view.loc (tthr d i))) (t : Fin 1) :
    Storable (upEmb : UEmb _ 𝕄) (delivOut d i acc f0 t) := by
  unfold delivOut; infer_instance

theorem delivOut_split (acc : Buf (Elt F) ((sAcc).view.loc (tthr d i))) (f0 : Buf (Elt F) ((outSl i).view.loc (tthr d i))) :
    (bigSep Finset.univ (delivOut d i acc f0) : sProp 𝕄) ⊢ delivOut d i acc f0 0 := by
  rw [Idealize.SL.BI.bigSep_univ_eq_bigSepL [0] (by decide) (by decide) _]
  exact .rfl

theorem wp_copyOut (acc : Buf (Elt F) ((sAcc).view.loc (tthr d i))) (f0 : Buf (Elt F) ((outSl i).view.loc (tthr d i)))
    {α : Type} (k : Copies.PT (F := F) d i α) (Q : α → sProp 𝕄) :
    iprop(((sAcc).view.loc (tthr d i) ↦[(sAcc).view.set]{fullShare} acc)
        ∗ ((outSl i).view.loc (tthr d i) ↦[(outSl i).view.set]{fullShare} f0)
        ∗ semVal (tthr d i, SemLoc.dma cc1_scoped4.sem) 0
        ∗ Copies.owesN d i O W ∗ Transfers.MayWaits (tthr d i) (none : HIx 1) O
        ∗ ((((sAcc).view.loc (tthr d i) ↦[(sAcc).view.set]{fullShare} acc)
            ∗ ((outSl i).view.loc (tthr d i) ↦[(outSl i).view.set]{fullShare} (outSl i).view.write (Elt F) f0 ((sAcc).view.read (Elt F) acc) Finset.univ)
            ∗ semVal (tthr d i, SemLoc.dma cc1_scoped4.sem) 0 ∗ Copies.owesN d i O W)
          -∗ Copies.wpT d i k Q))
      ⊢ Copies.wpT d i (do
          Prog.lift (.enqueueDma sAcc (.here (outSl i)) (.dma cc1_scoped4.sem) (Memref.isWhole_whole _).wordExact ((View.wordExact_bits rfl).reshape _ _) ⟨Or.inl rfl, trivial⟩)
          Prog.lift (.waitDma2 cc1_scoped4.sem sAcc (outSl i) (Memref.isWhole_whole _).wordExact ((View.wordExact_bits rfl).reshape _ _))
          k) Q := by
  iintro ⟨Hacc, Hout, Hsem, ⟨%W', %hW', HO⟩, #Hmw, Hk⟩
  imod (Transfers.batch_alloc' (Lvl := ℕ) (countersEmb (U := U)) (tthr d i) (none : HIx 1) (NO i) (delivOut d i acc f0)
    (sm := .dma cc1_scoped4.sem) (E := Set.univ)) $$ Hsem with HB
  iapply (Transfers.wp_dmaBatch (countersEmb (U := U)) 𝒱₀ (tthr d i) none (src := sAcc) (dst := outSl i) (sm := SemLoc.dma cc1_scoped4.sem) (none : HIx 1) (NO i) rfl subset_rfl
    (D := delivOut d i acc f0) (j := 0) (u := 0) (by decide) (Nat.zero_le _) (by unfold delivOut; exact .rfl)) $$ [$Hacc $Hout $HB]
  iintro HB
  simp only [Copies.ret_bind']
  ihave Hm := (Transfers.MayWaits.elim (SemLoc.dma cc1_scoped4.sem)) $$ Hmw
  iapply (Transfers.wp_waitBatchLastO (countersEmb (U := U)) 𝒱₀ (tthr d i) none (none : HIx 1) rfl (NO_pos i)
    (D := delivOut d i acc f0) (u := 0) (by omega) (O := O) (W := W')) $$ [$HB $HO $Hm]
  iintro ⟨HD, Hv, HO⟩
  simp only [Copies.ret_bind']
  ihave HD' := (delivOut_split d i acc f0) $$ HD
  unfold delivOut
  icases HD' with ⟨Hout, Hacc⟩
  iapply Hk
  iframe Hacc Hout Hv
  iapply (Copies.owesN_ins d i O W _ hW') $$ HO

end CopyOut

section Wrapper

open Idealize.ShloMosaic.SparseCore.Cfg (ownBufs ownSems0 ownCells ownRefs mem_ownCells mem_ownRefs)

variable (d : Dev nD) (c : Fin τ.nSC) (s : Fin τ.nSub)

def myRefs : List (DevRef τ sig) :=
  ([cc1_scratch0, cc1_scratch1, cc1_scratch2, cc1_scratch3, cc1_scratch4, cc1_scratch5, cc1_scratch6, cc1_scratch7, cc1_scratch8, cc1_scratch9, cc1_scratch10] : List (Ref sig .scVector)).map (Proc.scVector c s).devRef

theorem myRefs_nodup : (myRefs c s).Nodup :=
  List.Nodup.map (Proc.devRef_injective _) (by decide +revert)

theorem myRefs_sub : (myRefs c s).toFinset ⊆ ownRefs (τ := τ) (sig := sig) (.scVector c s) := by
  intro b hb
  rw [List.mem_toFinset] at hb
  simp only [myRefs, List.map_cons, List.map_nil, List.mem_cons, List.not_mem_nil, or_false] at hb
  rcases hb with rfl | rfl | rfl | rfl | rfl | rfl | rfl | rfl | rfl | rfl | rfl
  all_goals exact SparseCore.Cfg.mem_ownRefs_of_owner rfl

abbrev bufsMine : sProp 𝕄 :=
  iprop((∃ f, (V d c s).loc cc1_scratch0 ↦{fullShare} f)
    ∗ (∃ f, (V d c s).loc cc1_scratch1 ↦{fullShare} f)
    ∗ (∃ f, (V d c s).loc cc1_scratch2 ↦{fullShare} f)
    ∗ (∃ f, (V d c s).loc cc1_scratch3 ↦{fullShare} f)
    ∗ (∃ f, (V d c s).loc cc1_scratch4 ↦{fullShare} f)
    ∗ (∃ f, (V d c s).loc cc1_scratch5 ↦{fullShare} f)
    ∗ (∃ f, (V d c s).loc cc1_scratch6 ↦{fullShare} f)
    ∗ (∃ f, (V d c s).loc cc1_scratch7 ↦{fullShare} f)
    ∗ (∃ f, (V d c s).loc cc1_scratch8 ↦{fullShare} f)
    ∗ (∃ f, (V d c s).loc cc1_scratch9 ↦{fullShare} f)
    ∗ (∃ f, (V d c s).loc cc1_scratch10 ↦{fullShare} f))

theorem ownBufs_mine :
    (ownBufs (V d c s) : sProp 𝕄)
      = iprop(bufsMine d c s ∗ bigSep (ownRefs (τ := τ) (sig := sig) (.scVector c s) \ (myRefs c s).toFinset)
              fun b => iprop(∃ f, ((d, b) : Loc nD τ sig) ↦{fullShare} f)) := by
  unfold SparseCore.Cfg.ownBufs
  show bigSep (ownRefs (τ := τ) (sig := sig) (.scVector c s)) _ = _
  rw [SparseCore.bigSep_sdiff_split' (myRefs_sub c s), Idealize.SL.BI.bigSep_eq_bigSepL _ (myRefs_nodup c s)]
  rfl

def myCells : List (GSem nD τ sig) :=
  ([SemLoc.dma cc1_scratch11.sem, SemLoc.dma cc1_scratch12.sem, SemLoc.dma cc1_scoped0.sem, SemLoc.dma cc1_scoped1.sem, SemLoc.dma cc1_scoped2.sem, SemLoc.dma cc1_scoped3.sem, SemLoc.dma cc1_scoped4.sem] : List (SemLoc sig)).map fun sm => (V d c s, sm)

theorem myCells_nodup : (myCells d c s).Nodup :=
  List.Nodup.map (fun _ _ e => (Prod.mk.inj e).2) (by decide +revert)

theorem myCells_sub : (myCells d c s).toFinset ⊆ ownCells (V d c s) := by
  intro g hg
  rw [List.mem_toFinset] at hg
  simp only [myCells, List.map_cons, List.map_nil, List.mem_cons, List.not_mem_nil, or_false] at hg
  rcases hg with rfl | rfl | rfl | rfl | rfl | rfl | rfl
  all_goals exact mem_ownCells.mpr ⟨rfl, show SemLoc.isScoped .scVector (SemLoc.dma _) = true by decide⟩

abbrev semsMine : sProp 𝕄 :=
  iprop(semVal (V d c s, SemLoc.dma cc1_scratch11.sem) 0
    ∗ semVal (V d c s, SemLoc.dma cc1_scratch12.sem) 0
    ∗ semVal (V d c s, SemLoc.dma cc1_scoped0.sem) 0
    ∗ semVal (V d c s, SemLoc.dma cc1_scoped1.sem) 0
    ∗ semVal (V d c s, SemLoc.dma cc1_scoped2.sem) 0
    ∗ semVal (V d c s, SemLoc.dma cc1_scoped3.sem) 0
    ∗ semVal (V d c s, SemLoc.dma cc1_scoped4.sem) 0)

theorem ownSems0_mine :
    (ownSems0 (V d c s) : sProp 𝕄)
      = iprop(semsMine d c s ∗ bigSep (ownCells (V d c s) \ (myCells d c s).toFinset) fun g => semVal g 0) := by
  unfold SparseCore.Cfg.ownSems0
  rw [SparseCore.bigSep_sdiff_split' (myCells_sub d c s), Idealize.SL.BI.bigSep_eq_bigSepL _ (myCells_nodup d c s)]
  rfl

end Wrapper

section Core

variable (d : Dev nD) (i : grid1.Coords) (q : PosShare TreeShare) (cv : CallVals (F := F) d)
variable (O : CellTallies nD τ sig (HIx 1)) (W : Waits sig (HIx 1))

set_option maxHeartbeats 8000000 in
theorem tile_core (f0 po : Buf (Elt F) (outLoc d)) (hrows : ∀ x, ((cv.rows : Vec F S1600000 .i32) x).toNat ≤ 199999)
    (hpo : (outSl i).view.read (Elt F) (po : Buf (Elt F) ((outSl i).view.loc (tthr d i))) = accN d i cv 5) :
    (iprop(Transfers.MayWaits (tthr d i) (none : HIx 1) O ∗ (reads d cv q ∗ outRowPts d (widOf i) f0)
        ∗ bufsMine d ((i 0).castLE hcore1) ((i 1).castLE hsub1) ∗ semsMine d ((i 0).castLE hcore1) ((i 1).castLE hsub1) ∗ owes (tthr d i) O W) : sProp 𝕄)
      ⊢ Copies.wpT d i (cc1__sc_edge_kernel i (Memref.whole main_v8_scv) (Memref.isWhole_whole _) (Memref.whole main_v1_scv) (Memref.isWhole_whole _) (Memref.whole main_v3_scv) (Memref.isWhole_whole _) (Memref.whole main_arg6_scv) (Memref.isWhole_whole _) (Memref.whole main_v4_scv) (Memref.isWhole_whole _) (Memref.whole main_v6_scv) (Memref.isWhole_whole _) (Memref.whole main_v5_scv) (Memref.isWhole_whole _) (Memref.whole main_v9_scv) (Memref.isWhole_whole _) (Memref.whole cc1_scratch0) (Memref.isWhole_whole _) (Memref.whole cc1_scratch1) (Memref.isWhole_whole _) (Memref.whole cc1_scratch2) (Memref.isWhole_whole _) (Memref.whole cc1_scratch3) (Memref.isWhole_whole _) (Memref.whole cc1_scratch4) (Memref.isWhole_whole _) (Memref.whole cc1_scratch5) (Memref.isWhole_whole _) (Memref.whole cc1_scratch6) (Memref.isWhole_whole _) (Memref.whole cc1_scratch7) (Memref.isWhole_whole _) (Memref.whole cc1_scratch8) (Memref.isWhole_whole _) (Memref.whole cc1_scratch9) (Memref.isWhole_whole _) (Memref.whole cc1_scratch10) (Memref.isWhole_whole _) cc1_scratch11 cc1_scratch12 cc1_scoped0 cc1_scoped1 cc1_scoped2 cc1_scoped3 cc1_scoped4) fun _ => iprop((reads d cv q ∗ outRowPts d (widOf i) po)
          ∗ bufsMine d ((i 0).castLE hcore1) ((i 1).castLE hsub1) ∗ semsMine d ((i 0).castLE hcore1) ((i 1).castLE hsub1) ∗ Copies.owesN d i O W) := by
  unfold Copies.wpT reads bufsMine semsMine
  rw [cc1__sc_edge_kernel_eq_skeleton]; unfold cc1__sc_edge_kernel_skel
  iintro ⟨#Hmw, ⟨⟨Hpk, Hrows, Hcols, Hw, Hpi, Hpsc, Hsd⟩, Hout⟩,
    ⟨⟨%f10, H10⟩, ⟨%f11, H11⟩, ⟨%fC0, HC0⟩, ⟨%fC1, HC1⟩, ⟨%fR0, HR0⟩, ⟨%fR1, HR1⟩, ⟨%fW0, HW0⟩, ⟨%fW1, HW1⟩, ⟨%f18, H18⟩, ⟨%f19, H19⟩, ⟨%f20, H20⟩⟩,
    ⟨Hs21, Hs22, Hs0, Hs1, Hs2, Hs3, Hs4⟩, HO⟩
  ihave Hout := (Entails.of_eq (pts_out d i f0).symm) $$ Hout
  rw [wp_bind]
  ihave H11 := (wp_part11 d i O W q q q q (cv.pk : Vec F S1x8192 .i32) (cv.pi : Vec F S16 .f32) (cv.sd : Vec F S16 .f32) (cv.psc : Vec F S1x200704 .f32) f10 f11 f18 f19 f20) $$ [Hpk Hpi Hpsc Hsd H10 H11 H18 H19 H20 Hs0 Hs1 Hs2 Hs3 HO]
  · unfold hbmIn scratch sems0
    iframe Hmw Hpk Hpi Hpsc Hsd H10 H11 H18 H19 H20 Hs0 Hs1 Hs2 Hs3
    iexact HO
  iapply (wp_wand_r frame _ _)
  isplitl [H11]; · iexact H11
  iintro %r ⟨%hr, Hhbm, Hscr, Hsems, HO⟩
  subst hr
  dsimp only
  rw [wp_bind, k1_part12_eq_skeleton]; unfold k1_part12_skel
  unfold scratch
  icases Hscr with ⟨H10, H11, H18, H19, H20⟩
  iapply (wp_part12Head d i _ _ (cv.sd : Vec F S16 .f32) (cv.psc : Vec F S1x200704 .f32)) $$ [$H11 $H19 $H20]
  iintro ⟨H11, H19, H20⟩
  iapply (Copies.wp_fire d i q cv Copies.set0 fR0 fC0 fW0 0 _ _)
  iframe Hrows Hcols Hw HR0 HC0 HW0 Hs21
  iintro HF0
  iapply (Copies.wp_waitAll d i q cv Copies.set0 fR0 fC0 fW0 O W 0 _ _)
  iframe HF0 HO Hmw
  iintro ⟨⟨Hrows, Hcols, Hw, HR0, HC0, HW0, Hs21⟩, HO⟩
  iapply (Copies.wp_fire d i q cv Copies.set1 fR1 fC1 fW1 1 _ _)
  iframe Hrows Hcols Hw HR1 HC1 HW1 Hs22
  iintro ⟨HB1, HX1⟩
  ihave H10 := (held_in (tthr d i) (Memref.isWhole_whole cc1_scratch0) (pkRow (cv.pk : Vec F S1x8192 .i32)) (pkRow (cv.pk : Vec F S1x8192 .i32)) rfl) $$ H10
  ihave H11 := (held_in (tthr d i) (Memref.isWhole_whole cc1_scratch1) (accInit (cv.sd : Vec F S16 .f32) (cv.psc : Vec F S1x200704 .f32) (widOf i)) (accN d i cv 0) rfl) $$ H11
  ihave H18 := (held_in (tthr d i) (Memref.isWhole_whole cc1_scratch8) (cv.pi : Vec F S16 .f32) (cv.pi : Vec F S16 .f32) rfl) $$ H18
  iapply (loop_t3 𝒱₀ d none Set.univ i (packed := pkRow cv.pk) (pi := cv.pi) (rows := chunkAt cv.rows (widOf i) 0) (cols := chunkAt cv.cols (widOf i) 0)
    (w := chunkAt cv.w (widOf i) 0) (acc := accN d i cv 0) (hrows := chunkAt_le _ hrows _ _)) $$ [H10 H11 HC0 HR0 HW0 H18]
  · isplitl [H10]; · iexact H10
    isplitl [H11]; · iexact H11
    isplitl [HC0]; · iapply (held_chunk d i Copies.set0.hC fC0 (colsChunk_eq d i cv 0)); iexact HC0
    isplitl [HR0]; · iapply (held_chunk d i Copies.set0.hR fR0 (rowsChunk_eq d i cv 0)); iexact HR0
    isplitl [HW0]; · iapply (held_chunk d i Copies.set0.hW fW0 (wChunk_eq d i cv 0)); iexact HW0
    iexact H18
  iintro ⟨H10, H11, HC0, HR0, HW0, H18⟩
  iapply (Copies.wp_waitMid d i q cv Copies.set1 fR1 fC1 fW1 O W (Copies.rowsSl i 1) Copies.set1.R Copies.set1.nR _ _ 1 0 (by have := Copies.NB_pos; omega) _ _)
  iframe HB1 HO Hmw
  iintro ⟨HB1, HO⟩
  unfold Copies.wpT
  sl_step
  try dsimp only
  rw [wp_bind, k1_part13_eq_skeleton]; unfold k1_part13_skel
  iapply (Copies.wp_wait23 d i q cv Copies.set1 fR1 fC1 fW1 O W 1 _ _)
  iframe HB1 HX1 HO Hmw
  iintro ⟨⟨Hrows, Hcols, Hw, HR1, HC1, HW1, Hs22⟩, HO⟩
  ihave ⟨%gR, HR0⟩ := (held_ex (tthr d i) Copies.set0.hR _) $$ HR0
  ihave ⟨%gC, HC0⟩ := (held_ex (tthr d i) Copies.set0.hC _) $$ HC0
  ihave ⟨%gW, HW0⟩ := (held_ex (tthr d i) Copies.set0.hW _) $$ HW0
  iapply (Copies.wp_fire d i q cv Copies.set0 gR gC gW 2 _ _)
  iframe Hrows Hcols Hw HR0 HC0 HW0 Hs21
  iintro HF2
  iapply (loop_t4 𝒱₀ d none Set.univ i (packed := pkRow cv.pk) (pi := cv.pi) (rows := chunkAt cv.rows (widOf i) 1) (cols := chunkAt cv.cols (widOf i) 1)
    (w := chunkAt cv.w (widOf i) 1) (acc := accN d i cv 1) (hrows := chunkAt_le _ hrows _ _)) $$ [H10 H11 HC1 HR1 HW1 H18]
  · isplitl [H10]; · iexact H10
    isplitl [H11]; · iexact H11
    isplitl [HC1]; · iapply (held_chunk d i Copies.set1.hC fC1 (colsChunk_eq d i cv 1)); iexact HC1
    isplitl [HR1]; · iapply (held_chunk d i Copies.set1.hR fR1 (rowsChunk_eq d i cv 1)); iexact HR1
    isplitl [HW1]; · iapply (held_chunk d i Copies.set1.hW fW1 (wChunk_eq d i cv 1)); iexact HW1
    iexact H18
  iintro ⟨H10, H11, HC1, HR1, HW1, H18⟩
  iapply (Copies.wp_waitAll d i q cv Copies.set0 gR gC gW O W 2 _ _)
  iframe HF2 HO Hmw
  iintro ⟨⟨Hrows, Hcols, Hw, HR0, HC0, HW0, Hs21⟩, HO⟩
  ihave ⟨%hR, HR1⟩ := (held_ex (tthr d i) Copies.set1.hR _) $$ HR1
  ihave ⟨%hC, HC1⟩ := (held_ex (tthr d i) Copies.set1.hC _) $$ HC1
  ihave ⟨%hW, HW1⟩ := (held_ex (tthr d i) Copies.set1.hW _) $$ HW1
  iapply (Copies.wp_fire d i q cv Copies.set1 hR hC hW 3 _ _)
  iframe Hrows Hcols Hw HR1 HC1 HW1 Hs22
  iintro HF3
  iapply (loop_t5 𝒱₀ d none Set.univ i (packed := pkRow cv.pk) (pi := cv.pi) (rows := chunkAt cv.rows (widOf i) 2) (cols := chunkAt cv.cols (widOf i) 2)
    (w := chunkAt cv.w (widOf i) 2) (acc := accN d i cv 2) (hrows := chunkAt_le _ hrows _ _)) $$ [H10 H11 HC0 HR0 HW0 H18]
  · isplitl [H10]; · iexact H10
    isplitl [H11]; · iexact H11
    isplitl [HC0]; · iapply (held_chunk d i Copies.set0.hC gC (colsChunk_eq d i cv 2)); iexact HC0
    isplitl [HR0]; · iapply (held_chunk d i Copies.set0.hR gR (rowsChunk_eq d i cv 2)); iexact HR0
    isplitl [HW0]; · iapply (held_chunk d i Copies.set0.hW gW (wChunk_eq d i cv 2)); iexact HW0
    iexact H18
  iintro ⟨H10, H11, HC0, HR0, HW0, H18⟩
  iapply (Copies.wp_waitAll d i q cv Copies.set1 hR hC hW O W 3 _ _)
  iframe HF3 HO Hmw
  iintro ⟨⟨Hrows, Hcols, Hw, HR1, HC1, HW1, Hs22⟩, HO⟩
  unfold Copies.wpT
  sl_step
  try dsimp only
  ihave ⟨%kR, HR0⟩ := (held_ex (tthr d i) Copies.set0.hR _) $$ HR0
  ihave ⟨%kC, HC0⟩ := (held_ex (tthr d i) Copies.set0.hC _) $$ HC0
  ihave ⟨%kW, HW0⟩ := (held_ex (tthr d i) Copies.set0.hW _) $$ HW0
  iapply (Copies.wp_fire d i q cv Copies.set0 kR kC kW 4 _ _)
  iframe Hrows Hcols Hw HR0 HC0 HW0 Hs21
  iintro HF4
  iapply (loop_t6 𝒱₀ d none Set.univ i (packed := pkRow cv.pk) (pi := cv.pi) (rows := chunkAt cv.rows (widOf i) 3) (cols := chunkAt cv.cols (widOf i) 3)
    (w := chunkAt cv.w (widOf i) 3) (acc := accN d i cv 3) (hrows := chunkAt_le _ hrows _ _)) $$ [H10 H11 HC1 HR1 HW1 H18]
  · isplitl [H10]; · iexact H10
    isplitl [H11]; · iexact H11
    isplitl [HC1]; · iapply (held_chunk d i Copies.set1.hC hC (colsChunk_eq d i cv 3)); iexact HC1
    isplitl [HR1]; · iapply (held_chunk d i Copies.set1.hR hR (rowsChunk_eq d i cv 3)); iexact HR1
    isplitl [HW1]; · iapply (held_chunk d i Copies.set1.hW hW (wChunk_eq d i cv 3)); iexact HW1
    iexact H18
  iintro ⟨H10, H11, HC1, HR1, HW1, H18⟩
  iapply (Copies.wp_waitAll d i q cv Copies.set0 kR kC kW O W 4 _ _)
  iframe HF4 HO Hmw
  iintro ⟨⟨Hrows, Hcols, Hw, HR0, HC0, HW0, Hs21⟩, HO⟩
  iapply (loop_t7 𝒱₀ d none Set.univ i (packed := pkRow cv.pk) (pi := cv.pi) (rows := chunkAt cv.rows (widOf i) 4) (cols := chunkAt cv.cols (widOf i) 4)
    (w := chunkAt cv.w (widOf i) 4) (acc := accN d i cv 4) (hrows := chunkAt_le _ hrows _ _)) $$ [H10 H11 HC0 HR0 HW0 H18]
  · isplitl [H10]; · iexact H10
    isplitl [H11]; · iexact H11
    isplitl [HC0]; · iapply (held_chunk d i Copies.set0.hC kC (colsChunk_eq d i cv 4)); iexact HC0
    isplitl [HR0]; · iapply (held_chunk d i Copies.set0.hR kR (rowsChunk_eq d i cv 4)); iexact HR0
    isplitl [HW0]; · iapply (held_chunk d i Copies.set0.hW kW (wChunk_eq d i cv 4)); iexact HW0
    iexact H18
  iintro ⟨H10, H11, HC0, HR0, HW0, H18⟩
  iapply (wp_copyOut d i O W ((Memref.isWhole_whole cc1_scratch1).unread (accN d i cv 5)) f0 _ _)
  iframe Hout Hs4 HO Hmw
  isplitl [H11]; · iexact H11
  iintro ⟨H11, Hout, Hs4, HO⟩
  unfold Copies.wpT
  sl_step
  unfold hbmIn sems0
  icases Hhbm with ⟨Hpk, Hpi, Hpsc, Hsd⟩
  icases Hsems with ⟨Hs0, Hs1, Hs2, Hs3⟩
  ihave Hout := (Entails.of_eq ((pts_out d i _).trans (pointsTo_congr (row_agree d i _ po _ ((View.read_write_univ _ _).trans (Memref.IsWhole.read_unread _ _)) hpo)))) $$ Hout
  isplitl [Hpk Hrows Hcols Hw Hpi Hpsc Hsd Hout]
  · iframe Hpk Hrows Hcols Hw Hpi Hpsc Hsd
    iexact Hout
  isplitl [H10 H11 HC0 HC1 HR0 HR1 HW0 HW1 H18 H19 H20]
  · isplitl [H10]; · iapply (held_ex (tthr d i) (Memref.isWhole_whole cc1_scratch0) _); iexact H10
    isplitl [H11]; · iapply (held_ex (tthr d i) (Memref.isWhole_whole cc1_scratch1) _); iexact H11
    isplitl [HC0]; · iapply (held_ex (tthr d i) Copies.set0.hC _); iexact HC0
    isplitl [HC1]; · iapply (held_ex (tthr d i) Copies.set1.hC _); iexact HC1
    isplitl [HR0]; · iapply (held_ex (tthr d i) Copies.set0.hR _); iexact HR0
    isplitl [HR1]; · iapply (held_ex (tthr d i) Copies.set1.hR _); iexact HR1
    isplitl [HW0]; · iapply (held_ex (tthr d i) Copies.set0.hW _); iexact HW0
    isplitl [HW1]; · iapply (held_ex (tthr d i) Copies.set1.hW _); iexact HW1
    isplitl [H18]; · iapply (held_ex (tthr d i) (Memref.isWhole_whole cc1_scratch8) _); iexact H18
    isplitl [H19]; · iexists _; iexact H19
    iexists _; iexact H20
  isplitl [Hs21 Hs22 Hs0 Hs1 Hs2 Hs3 Hs4]
  · iframe Hs21 Hs22 Hs0 Hs1 Hs2 Hs3
    iexact Hs4
  iexact HO

end Core

section Body

variable (d : Dev nD) (L : grid1.Coords) (q : PosShare TreeShare) (cv : CallVals (F := F) d)

set_option maxHeartbeats 2000000 in
theorem tile_body (hF : (K (F := F)).Facts) (f0 po : Buf (Elt F) (outLoc d))
    (hrows : ∀ x, ((cv.rows : Vec F S1600000 .i32) x).toNat ≤ 199999)
    (hpo : (outSl L).view.read (Elt F) (po : Buf (Elt F) ((outSl L).view.loc (tthr d L))) = tileOut (cv.pk : Vec F S1x8192 .i32) (cv.rows : Vec F S1600000 .i32) (cv.cols : Vec F S1600000 .i32) (cv.w : Vec F S1600000 .f32) (cv.pi : Vec F S16 .f32) (cv.sd : Vec F S16 .f32) (cv.psc : Vec F S1x200704 .f32) (widOf L))
    (O : CellTallies nD τ sig (HIx 1)) (W : Waits sig (HIx 1)) (hO : ∀ g, O g none = 0) :
    iprop(levAts (K (F := F)).L (K (F := F)).lev ∗ emp ∗ (reads d cv q ∗ outRowPts d (widOf L) f0)
        ∗ scopedBufs (tthr d L) ∗ scopedSems0 (tthr d L) ∗ owes (tthr d L) O W)
      ⊢ wp frame (wpE (defs₀ (F := F)) 𝒱₀ (tthr d L) none) Set.univ (cc1__sc_edge_kernel L (Memref.whole main_v8_scv) (Memref.isWhole_whole _) (Memref.whole main_v1_scv) (Memref.isWhole_whole _) (Memref.whole main_v3_scv) (Memref.isWhole_whole _) (Memref.whole main_arg6_scv) (Memref.isWhole_whole _) (Memref.whole main_v4_scv) (Memref.isWhole_whole _) (Memref.whole main_v6_scv) (Memref.isWhole_whole _) (Memref.whole main_v5_scv) (Memref.isWhole_whole _) (Memref.whole main_v9_scv) (Memref.isWhole_whole _) (Memref.whole cc1_scratch0) (Memref.isWhole_whole _) (Memref.whole cc1_scratch1) (Memref.isWhole_whole _) (Memref.whole cc1_scratch2) (Memref.isWhole_whole _) (Memref.whole cc1_scratch3) (Memref.isWhole_whole _) (Memref.whole cc1_scratch4) (Memref.isWhole_whole _) (Memref.whole cc1_scratch5) (Memref.isWhole_whole _) (Memref.whole cc1_scratch6) (Memref.isWhole_whole _) (Memref.whole cc1_scratch7) (Memref.isWhole_whole _) (Memref.whole cc1_scratch8) (Memref.isWhole_whole _) (Memref.whole cc1_scratch9) (Memref.isWhole_whole _) (Memref.whole cc1_scratch10) (Memref.isWhole_whole _) cc1_scratch11 cc1_scratch12 cc1_scoped0 cc1_scoped1 cc1_scoped2 cc1_scoped3 cc1_scoped4)
          fun _ => (iprop((reads d cv q ∗ outRowPts d (widOf L) po) ∗ scopedBufs (tthr d L) ∗ scopedSems0 (tthr d L)
            ∗ ∃ W', ⌜∀ p ∈ W', p ∈ W ∨ p.2 = none⌝ ∗ owes (tthr d L) O W') : sProp 𝕄) := by
  rw [(K (F := F)).scopedBufs_V hF d _ _, SparseCore.Cfg.scopedSems0_V (Val := Elt F) d _ _, ownBufs_mine, ownSems0_mine]
  iintro ⟨#Hlv, -, Hr, ⟨Hb, Hbrest⟩, ⟨Hs, Hsrest⟩, HO⟩
  ihave Hmw := ((K (F := F)).mayWaits_none (thr := tthr d L) hO) $$ Hlv
  iapply (wp_wand_r frame _ _)
  isplitl [Hr Hb Hs HO]
  · iapply (tile_core d L q cv O W f0 po hrows hpo)
    iframe Hmw Hr Hb Hs
    iexact HO
  iintro %u ⟨Hr, Hb, Hs, HO⟩
  iframe Hr Hb Hbrest Hs Hsrest
  iexact HO

end Body

end Cert.ProofB.Tile

end
-- ==== Proof.Bits.TileRow.lean ====
import proofs.«215744_g19043884990565_cont_8to1_1279_72_alg».proof.Proof.TileInit
import proofs.«215744_g19043884990565_cont_8to1_1279_72_alg».proof.Proof.Gen.Kernel
import Idealize.ShloMosaic.Lib.ValueIdx

noncomputable section

namespace Cert.ProofB.Tile
open Cert.Proof
open Cert.Proof.Tile

open Cert.Kernel Cert.Kernel.Gen

open Idealize.ShloMosaic
open Idealize.ShloMosaic.ValueIdx

variable {F : FTy → Type}

abbrev rowSl (i : grid1.Coords) : Memref sig .scVector .hbm S50176 .f32 :=
  ((Memref.whole main_v9_scv : Memref sig Kind.scVector .hbm S32x50176 EltTy.f32).slice
      (Rect.unit (s := S32x50176) (k1_off55 i) S1x50176.size (k1_off55_inb i)) (fun _ => rfl)).squeeze S50176
    squeezes_S1x50176_S50176

-- The row-major position of `(0, j)` in a `1 × n` shape is `j`.
theorem squeeze_row_idx {n : Nat} (h : (⟨1, ![n]⟩ : Shape).numel = (⟨2, ![1, n]⟩ : Shape).numel) (j : (⟨1, ![n]⟩ : Shape).Idx) :
    Shape.reshapeEquiv h j = ix2 (0 : Fin 1) (Fin.mk (n := n) (j 0).val (j 0).isLt) :=
  Shape.reshapeEquiv_eq_of_rowMajor h
    ((Shape.rowMajor_val_two (d := ![1, n]) _).trans
      ((show 0 * n + (j 0).val = (j 0).val by omega).trans (Shape.rowMajor_val_one (d := ![n]) j).symm))

-- The slice's offset is `(2 (i 1) + i 0, 0)`, so index `x` lands on `(widOf i, x)`.
theorem read_rowSl (g : Fin 32 → Vec F S50176 .f32) (i : grid1.Coords) :
    (rowSl i).view.read (Elt F)
        (fun j : S32x50176.Idx => g (⟨(j 0).val, (j 0).isLt⟩ : Fin 32) (ix1 (⟨(j 1).val, (j 1).isLt⟩ : Fin 50176)))
      = g (widOf i) := by
  funext x
  have h0 : (k1_off55 i) 0 = 2 * (i 1).val + (i 0).val := by rw [k1_off55_eq]; rfl
  have h1 : (k1_off55 i) 1 = 0 := by rw [k1_off55_eq]; rfl
  show (fun j : S32x50176.Idx => g (⟨(j 0).val, (j 0).isLt⟩ : Fin 32) (ix1 (⟨(j 1).val, (j 1).isLt⟩ : Fin 50176)))
      (((Memref.whole main_v9_scv : Memref sig Kind.scVector .hbm S32x50176 EltTy.f32).view.slice
          (Rect.unit (s := S32x50176) (k1_off55 i) S1x50176.size (k1_off55_inb i))).emb
        (Shape.reshapeEquiv (s := ⟨2, ![1, 50176]⟩) (s' := ⟨1, ![50176]⟩) squeezes_S1x50176_S50176.numel_eq x))
    = g (widOf i) x
  rw [squeeze_row_idx]
  beta_reduce
  refine congr (congrArg g (Fin.ext ?_)) (funext fun a => ?_)
  · show (k1_off55 i) 0 + 1 * 0 = (widOf i).val
    rw [h0, widOf_val]; omega
  · have ha : a = (0 : Fin 1) := Subsingleton.elim (α := Fin 1) a 0
    subst ha
    apply Fin.ext
    show (k1_off55 i) 1 + 1 * (x 0).val = (x 0).val
    rw [h1]; omega

end Cert.ProofB.Tile

end
-- ==== Proof.Bits.Final.lean ====
import proofs.«215744_g19043884990565_cont_8to1_1279_72_alg».proof.Proof.Bits.Run
import proofs.«215744_g19043884990565_cont_8to1_1279_72_alg».proof.Proof.Bits.TileObl
import proofs.«215744_g19043884990565_cont_8to1_1279_72_alg».proof.Proof.Bits.KernelHost
import proofs.«215744_g19043884990565_cont_8to1_1279_72_alg».proof.Proof.Bits.RegionCalls
import proofs.«215744_g19043884990565_cont_8to1_1279_72_alg».proof.Proof.TileOut
import proofs.«215744_g19043884990565_cont_8to1_1279_72_alg».proof.Proof.Bits.TileBody
import proofs.«215744_g19043884990565_cont_8to1_1279_72_alg».proof.Proof.Bits.TileRow
import proofs.«215744_g19043884990565_cont_8to1_1279_72_alg».proof.Proof.Bits.UpdateBody

noncomputable section

namespace Cert.ProofB.Launch
open Cert.Proof
open Cert.Proof.Tile
open Cert.Proof.Update

open Cert.Kernel Cert.Kernel.Gen
open Idealize.ShloMosaic Idealize.ShloMosaic.ValueIdx
open Idealize.ShloMosaic.SparseCore (S V T)
open Idealize.ShloMosaic.SparseCore.Cfg (HIx Pay)
open Idealize.ShloMosaic.StableHlo (held)
open Idealize.ShloMosaic.Pipeline (ucRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Proof

variable {F : FTy → Type} [FloatOps F]

variable (m : (ℓ : Loc nD τ sig) → Buf (Elt F) ℓ) (ρ : Dev nD → PrngReg)

-- Array `main_v1` is untouched by the first call, so the precondition's bound applies.
theorem rows_ok [Cert.Pre_input_domain.Facts] (d : Dev nD) (hpre : KHost.PreAt (V0 m d)) (x : S1600000.Idx) :
    ((cvOf d (V1 m Pack.packed d)).rows x).toNat ≤ 199999 := by
  show ((Function.update (VA m d) (rf main_v8) (Pack.packed (VA m d (rf main_v7))) (rf main_v1) : IVec S1600000 32) x).toNat ≤ 199999
  rw [Function.update_of_ne (show rf main_v1 ≠ rf main_v8 by decide), eq_ix1 x]
  exact KHost.rows_le (V0 m d) hpre (x 0)

-- `run_main` with its five hypotheses supplied.
theorem run_all [∀ e, Nonempty (Elt F e)] [Cert.Pre_input_domain.Facts] (hpre : ∀ d, KHost.PreAt (V0 m d)) :
    θ_run (Cert.Kernel.defs (F := F)) (Cert.Kernel.threads (F := F)) ⟨m, fun _ => 0, ρ⟩
      (QC m Pack.packed Tile.tileOut Update.out) :=
  run_main m ρ Pack.packed Tile.tileOut Update.out (Gp (F := F) 0) (Gp (F := F) 1)
    (fun d => KHost.VA_keep (V0 m d) main_v9 (by decide))
    (tileObl m Pack.packed Tile.tileOut fun d L O W hO => by
      have hw : wid (cL L) (sL L) = Tile.widOf L := Fin.ext rfl
      unfold goAt tdAt
      rw [hw]
      exact Tile.tile_body (U := UU) d L (tileShare (cL L) (sL L)) (cvOf d (V1 m Pack.packed d)) facts (m (outLoc d))
        (poOf m Pack.packed Tile.tileOut d) (rows_ok m d (hpre d)) (Tile.read_rowSl _ L) O W hO)
    G_split (region_0 (PM m Pack.packed Tile.tileOut)) (region_1 (PM m Pack.packed Tile.tileOut))

end Cert.ProofB.Launch

end
-- ==== Proof.Bits.ArgsKept.lean ====
import proofs.«215744_g19043884990565_cont_8to1_1279_72_alg».proof.Proof.Bits.Main
import proofs.«215744_g19043884990565_cont_8to1_1279_72_alg».proof.Proof.Bits.KernelHost

noncomputable section

namespace Cert.ProofB.Launch
open Cert.Proof

open Cert.Kernel Cert.Kernel.Gen
open Idealize.ShloMosaic Idealize.ShloMosaic.ValueIdx
open Idealize.SL Idealize.SL.Sem

variable {F : FTy → Type} [FloatOps F]
variable (m : (ℓ : Loc nD τ sig) → Buf (Elt F) ℓ)

variable (packF : Vec F S1x262144 .f32 → Vec F S1x8192 .i32)
variable (tileF : Vec F S1x8192 .i32 → Vec F S1600000 .i32 → Vec F S1600000 .i32 → Vec F S1600000 .f32 → Vec F S16 .f32 → Vec F S16 .f32
  → Vec F S1x200704 .f32 → Fin 32 → Vec F S50176 .f32)
variable (updF : Vec F S32x50176 .f32 → Vec F S1x50000 .f32 → Vec F S1x50000 .f32 → Vec F S1x50000 .f32 → Vec F S1x50000 .f32 → Vec F S1x50000 .f32
  → Vec F S1x50000 .f32 → Vec F S1x50000 .f32 → Vec F S1x50000 .f32 → Vec F S1x50000 .f32 → Vec F S1x50000 .f32 → Vec F S1x50000 .f32
  → Vec F S1x50000 .f32 → Vec F S2 .f32 → Vec F S2 .f32 → Vec F S1x50000 .f32)

abbrev argRefs : List (Ref sig .tc) :=
  [main_arg0, main_arg1, main_arg2, main_arg3, main_arg4, main_arg5, main_arg6, main_arg7, main_arg8, main_arg9,
   main_arg10, main_arg11, main_arg12, main_arg13, main_arg14, main_arg15, main_arg16, main_arg17, main_arg18]

-- No host operation writes an argument, and no call's result is one.
theorem argRefs_clear : ∀ r ∈ argRefs, r ∉ KHost.writtenA ∧ r ∉ KHost.writtenB
    ∧ rf r ≠ rf main_v8 ∧ rf r ≠ rf main_v9 ∧ rf r ≠ rf main_v17 := by decide

-- So an argument holds its launch contents after the second call, after the second line, and at the end.
theorem V2_arg (d : Dev nD) (r : Ref sig .tc) (hr : r ∈ argRefs) : V2 m packF tileF d (rf r) = m (d, rf r) :=
  have h := argRefs_clear r hr
  (Function.update_of_ne h.2.2.2.1 _ _).trans ((Function.update_of_ne h.2.2.1 _ _).trans (KHost.VA_keep _ r h.1))

theorem VB_arg (d : Dev nD) (r : Ref sig .tc) (hr : r ∈ argRefs) : VB m packF tileF d (rf r) = m (d, rf r) :=
  (KHost.VB_keep _ r (argRefs_clear r hr).2.1).trans (V2_arg m packF tileF d r hr)

theorem args_kept (d : Dev nD) (r : Ref sig .tc) (hr : r ∈ argRefs) :
    V3 m packF tileF updF d (rf r) = m ((d.tc : Thread nD τ).loc r) :=
  (Function.update_of_ne (argRefs_clear r hr).2.2.2.2 _ _).trans (VB_arg m packF tileF d r hr)

theorem V3_result (d : Dev nD) :
    V3 m packF tileF updF d (rf main_v17)
      = updF (VB m packF tileF d (rf main_v9)) (VB m packF tileF d (rf main_arg1)) (VB m packF tileF d (rf main_arg2))
          (VB m packF tileF d (rf main_arg3)) (VB m packF tileF d (rf main_arg4)) (VB m packF tileF d (rf main_arg7))
          (VB m packF tileF d (rf main_v10)) (VB m packF tileF d (rf main_v11)) (VB m packF tileF d (rf main_v12))
          (VB m packF tileF d (rf main_v13)) (VB m packF tileF d (rf main_v14)) (VB m packF tileF d (rf main_v15))
          (VB m packF tileF d (rf main_v16)) (VB m packF tileF d (rf main_arg11)) (VB m packF tileF d (rf main_arg10)) :=
  Function.update_self _ _ _

theorem VB_v9 (d : Dev nD) : VB m packF tileF d (rf main_v9) = poOf m packF tileF d :=
  (KHost.VB_keep _ main_v9 (by decide)).trans (Function.update_self _ _ _)

-- Row `t` of the partial sums is what tile `t` leaves, of the packed padded spikes, the first line's six arrays and the weights.
theorem poOf_apply (d : Dev nD) (t : Fin 32) (n : Fin 50176) :
    poOf m packF tileF d (ix2 t n)
      = tileF (packF (VA m d (rf main_v7))) (VA m d (rf main_v1)) (VA m d (rf main_v3)) (m (d, rf main_arg6))
          (VA m d (rf main_v4)) (VA m d (rf main_v5)) (VA m d (rf main_v6)) t (ix1 n) := by
  unfold poOf V1
  rw [Function.update_self]; repeat rw [Function.update_of_ne (by decide)]
  rw [show VA m d (rf main_arg6) = m (d, rf main_arg6) from KHost.VA_keep _ main_arg6 (by decide)] <;> rfl

end Cert.ProofB.Launch

end
-- ==== Proof.Bits.Frames.lean ====
import proofs.«215744_g19043884990565_cont_8to1_1279_72_alg».proof.Proof.Bits.Run
import proofs.«215744_g19043884990565_cont_8to1_1279_72_alg».proof.Proof.Bits.ArgsKept

noncomputable section

namespace Cert.ProofB.Launch
open Cert.Proof

open Cert.Kernel Cert.Kernel.Gen
open Idealize.ShloMosaic Idealize.ShloMosaic.ValueIdx
open Idealize.ShloMosaic.Pipeline (ucRefs)
open Idealize.SL Idealize.SL.Sem

variable {F : FTy → Type} [FloatOps F]

variable (m : (ℓ : Loc nD τ sig) → Buf (Elt F) ℓ)
variable (packF : Vec F S1x262144 .f32 → Vec F S1x8192 .i32)
variable (tileF : Vec F S1x8192 .i32 → Vec F S1600000 .i32 → Vec F S1600000 .i32 → Vec F S1600000 .f32 → Vec F S16 .f32 → Vec F S16 .f32
  → Vec F S1x200704 .f32 → Fin 32 → Vec F S50176 .f32)
variable (updF : Vec F S32x50176 .f32 → Vec F S1x50000 .f32 → Vec F S1x50000 .f32 → Vec F S1x50000 .f32 → Vec F S1x50000 .f32 → Vec F S1x50000 .f32
  → Vec F S1x50000 .f32 → Vec F S1x50000 .f32 → Vec F S1x50000 .f32 → Vec F S1x50000 .f32 → Vec F S1x50000 .f32 → Vec F S1x50000 .f32
  → Vec F S1x50000 .f32 → Vec F S2 .f32 → Vec F S2 .f32 → Vec F S1x50000 .f32)

-- Each argument array ends at the last valuation's value, which is its launch contents.
theorem post_args (r : PUnit × MemSt nD τ sig (Elt F)) (h : QC m packF tileF updF r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18) := by
  have e : ∀ a ∈ argRefs, r.2.mem ((c.tc : Thread nD τ).loc a) = m ((c.tc : Thread nD τ).loc a) := fun a ha =>
    (h c (rf a) ((by decide : ∀ a ∈ argRefs, rf a ∈ ucRefs τ sig) a ha)).trans (args_kept m packF tileF updF c a ha)
  and_intros <;> exact e _ (by decide)

theorem post_result (r : PUnit × MemSt nD τ sig (Elt F)) (h : QC m packF tileF updF r) (c : Dev nD) :
    r.2.mem ((c.tc : Thread nD τ).loc main_v17) = V3 m packF tileF updF c (rf main_v17) :=
  h c (rf main_v17) (by decide)

end Cert.ProofB.Launch

end
-- ==== Proof.RefOps.lean ====
import proofs.«215744_g19043884990565_cont_8to1_1279_72_alg».proof.Proof.Gen.ReferenceIdeal
import Idealize.ShloMosaic.Lib.StableHlo.Run

noncomputable section

namespace Cert.Proof.RefRun

open Cert.ReferenceIdeal Cert.ReferenceIdeal.Gen Idealize.ShloMosaic Idealize.ShloMosaic.TcCoe Idealize.SL.Sem Idealize.ShloMosaic.StableHlo

/-- The contents of a buffer of shape `s` and element type `t`. -/
abbrev Arr (F : FTy → Type) (s : Shape) (t : EltTy) : Type := (⟨s, t⟩ : BufTy).Contents (Elt F)

/-- A binary operation on such contents. -/
abbrev Bin (F : FTy → Type) (s : Shape) (t : EltTy) : Type := Arr F s t → Arr F s t → Arr F s t

variable {F : FTy → Type} [FloatOps F]

/-- The reference's straight line: every operation of @main, its calls inlined. -/
abbrev ops : List (HloOp τ sig (Elt F)) :=
  [ unary main_arg18 main_v0 ((extractStridedSlice S1600000x1 ![0, 0] · slices_S1600000x2_S1600000x1_0_0) : Arr F S1600000x2 .i32 → Arr F S1600000x1 .i32),
    reshape main_v0 main_v1 rfl shapeCasts_S1600000x1_S1600000,
    unary main_arg18 main_v2 ((extractStridedSlice S1600000x1 ![0, 1] · slices_S1600000x2_S1600000x1_0_1) : Arr F S1600000x2 .i32 → Arr F S1600000x1 .i32),
    reshape main_v2 main_v3 rfl shapeCasts_S1600000x1_S1600000,
    TRef.nullary main_call0.c (constantI S_ 32 0#32),
    TRef.unary main_call0.c main_call0.v0 (broadcastInDim S1600000 ![] bcast_S_S1600000),
    TRef.binary (.of main_v3 : TRef sig ⟨S1600000, .i32⟩) main_call0.v0 main_call0.v1 (cmpi .slt),
    TRef.nullary main_call0.c_0 (constantI S_ 32 250000#32),
    TRef.unary main_call0.c_0 main_call0.v2 (broadcastInDim S1600000 ![] bcast_S_S1600000),
    TRef.binary (.of main_v3 : TRef sig ⟨S1600000, .i32⟩) main_call0.v2 main_call0.v3 addi,
    TRef.ternary main_call0.v1 main_call0.v3 (.of main_v3 : TRef sig ⟨S1600000, .i32⟩) main_call0.call0.v0 select,
    TRef.unary main_call0.call0.v0 main_call0.v5 (broadcastInDim S1600000x1 ![0] bcast_S1600000_S1600000x1_0),
    TRef.nullary main_call0.c_1 (constantI S1 32 249999#32),
    TRef.nullary main_call0.c_2 (constantI S_ 32 0#32),
    TRef.unary main_call0.c_2 main_call0.v6 (broadcastInDim S1600000x1 ![] bcast_S_S1600000x1),
    TRef.binary main_call0.v5 main_call0.v6 main_call0.v7 (cmpi .sge),
    TRef.unary main_call0.c_1 main_call0.v8 (broadcastInDim S1x1 ![1] bcast_S1_S1x1_1),
    TRef.unary main_call0.v8 main_call0.v9 (broadcastInDim S1600000x1 ![0, 1] bcast_S1x1_S1600000x1_0_1),
    TRef.binary main_call0.v5 main_call0.v9 main_call0.v10 (cmpi .sle),
    TRef.binary main_call0.v7 main_call0.v10 main_call0.v11 andi,
    TRef.nullary main_call0.c_3 (constantI S_ 1 1#1),
    TRef.binary main_call0.v11 main_call0.c_3 main_call0.v12 (fun x v => Host.reduce IntOp.andi x v reducesTo_S1600000x1_S1600000_d1 h_S_),
    TRef.binary (.of main_arg0 : TRef sig ⟨S1x250000, .f32⟩) main_call0.v5 main_call0.v13 (fun x i => Host.gather gather_S1x250000_S1600000x1_S1x1600000_0_1_n_n_1_1_11 x i),
    TRef.unary main_call0.v12 main_call0.v14 (broadcastInDim S1x1600000 ![1] bcast_S1600000_S1x1600000_1),
    TRef.nullary main_call0.cst (constant S_ .f32 0x7FC00000#32),
    TRef.unary main_call0.cst main_call0.v15 (broadcastInDim S1x1600000 ![] bcast_S_S1x1600000),
    TRef.ternary main_call0.v14 main_call0.v13 main_call0.v15 main_call0.v16 select,
    unary main_arg6 main_v5 (broadcastInDim S1x1600000 ![1] bcast_S1600000_S1x1600000_1 : Arr F S1600000 .f32 → Arr F S1x1600000 .f32),
    binary main_v4 main_v5 main_v6 (mulf : Bin F S1x1600000 .f32),
    unary main_v6 main_v7 ((transpose S1600000x1 [1, 0] · transposes_S1x1600000_S1600000x1_1_0) : Arr F S1x1600000 .f32 → Arr F S1600000x1 .f32),
    nullary main_cst (constant S_ .f32 0x00000000#32),
    unary main_cst main_v8 (broadcastInDim S200000x1 ![] bcast_S_S200000x1 : Arr F S_ .f32 → Arr F S200000x1 .f32),
    unary main_v1 main_v9 (broadcastInDim S1600000x1 ![0] bcast_S1600000_S1600000x1_0 : Arr F S1600000 .i32 → Arr F S1600000x1 .i32),
    ternary main_v8 main_v9 main_v7 main_v10 ((fun x i u => Host.scatterAdd scatter_S200000x1_S1600000x1_S1600000x1_1_0_0_1 x i u) : Arr F S200000x1 .f32 → Arr F S1600000x1 .i32 → Arr F S1600000x1 .f32 → Arr F S200000x1 .f32),
    unary main_v10 main_v11 ((transpose S1x200000 [1, 0] · transposes_S200000x1_S1x200000_1_0) : Arr F S200000x1 .f32 → Arr F S1x200000 .f32),
    reshape main_v11 main_v12 rfl shapeCasts_S1x200000_S1x50000x4,
    reshape main_arg5 main_v13 rfl shapeCasts_S1x200000_S1x50000x4,
    unary main_arg8 main_v14 (broadcastInDim S1x1x4 ![2] bcast_S4_S1x1x4_2 : Arr F S4 .f32 → Arr F S1x1x4 .f32),
    unary main_v14 main_v15 (broadcastInDim S1x50000x4 ![0, 1, 2] bcast_S1x1x4_S1x50000x4_0_1_2 : Arr F S1x1x4 .f32 → Arr F S1x50000x4 .f32),
    binary main_v13 main_v15 main_v16 (mulf : Bin F S1x50000x4 .f32),
    unary main_arg9 main_v17 (broadcastInDim S1x1x4 ![2] bcast_S4_S1x1x4_2 : Arr F S4 .f32 → Arr F S1x1x4 .f32),
    unary main_v17 main_v18 (broadcastInDim S1x50000x4 ![0, 1, 2] bcast_S1x1x4_S1x50000x4_0_1_2 : Arr F S1x1x4 .f32 → Arr F S1x50000x4 .f32),
    binary main_v12 main_v18 main_v19 (mulf : Bin F S1x50000x4 .f32),
    binary main_v16 main_v19 main_v20 (addf : Bin F S1x50000x4 .f32),
    unary main_arg0 main_v21 ((extractStridedSlice S1x50000 ![0, 0] · slices_S1x250000_S1x50000_0_0) : Arr F S1x250000 .f32 → Arr F S1x50000 .f32),
    unary main_arg11 main_v22 ((extractStridedSlice S1 ![0] · slices_S2_S1_0) : Arr F S2 .f32 → Arr F S1 .f32),
    reshape main_v22 main_v23 rfl shapeCasts_S1_S_,
    unary main_v23 main_v24 (broadcastInDim S1x50000 ![] bcast_S_S1x50000 : Arr F S_ .f32 → Arr F S1x50000 .f32),
    binary main_v24 main_arg3 main_v25 (mulf : Bin F S1x50000 .f32),
    unary main_arg10 main_v26 ((extractStridedSlice S1 ![0] · slices_S2_S1_0) : Arr F S2 .f32 → Arr F S1 .f32),
    reshape main_v26 main_v27 rfl shapeCasts_S1_S_,
    unary main_v27 main_v28 (broadcastInDim S1x50000 ![] bcast_S_S1x50000 : Arr F S_ .f32 → Arr F S1x50000 .f32),
    binary main_v21 main_v28 main_v29 (mulf : Bin F S1x50000 .f32),
    binary main_v25 main_v29 main_v30 (addf : Bin F S1x50000 .f32),
    unary main_arg11 main_v31 ((extractStridedSlice S1 ![1] · slices_S2_S1_1) : Arr F S2 .f32 → Arr F S1 .f32),
    reshape main_v31 main_v32 rfl shapeCasts_S1_S_,
    unary main_v32 main_v33 (broadcastInDim S1x50000 ![] bcast_S_S1x50000 : Arr F S_ .f32 → Arr F S1x50000 .f32),
    binary main_v33 main_arg4 main_v34 (mulf : Bin F S1x50000 .f32),
    unary main_arg10 main_v35 ((extractStridedSlice S1 ![1] · slices_S2_S1_1) : Arr F S2 .f32 → Arr F S1 .f32),
    reshape main_v35 main_v36 rfl shapeCasts_S1_S_,
    unary main_v36 main_v37 (broadcastInDim S1x50000 ![] bcast_S_S1x50000 : Arr F S_ .f32 → Arr F S1x50000 .f32),
    binary main_v21 main_v37 main_v38 (mulf : Bin F S1x50000 .f32),
    binary main_v34 main_v38 main_v39 (addf : Bin F S1x50000 .f32),
    nullary main_cst_0 (constant S_ .f32 0x00000000#32),
    binary main_v20 main_cst_0 main_v40 ((fun x v => Host.reduceAdd x v reducesTo_S1x50000x4_S1x50000_d2 h_S_) : Arr F S1x50000x4 .f32 → Arr F S_ .f32 → Arr F S1x50000 .f32),
    binary main_v40 main_arg7 main_v41 (addf : Bin F S1x50000 .f32),
    binary main_v41 main_v30 main_v42 (addf : Bin F S1x50000 .f32),
    binary main_v42 main_v39 main_v43 (addf : Bin F S1x50000 .f32),
    unary main_arg12 main_v44 (broadcastInDim S1x50000 ![1] bcast_S50000_S1x50000_1 : Arr F S50000 .f32 → Arr F S1x50000 .f32),
    binary main_v44 main_arg1 main_v45 (mulf : Bin F S1x50000 .f32),
    unary main_arg13 main_v46 (broadcastInDim S1x50000 ![1] bcast_S50000_S1x50000_1 : Arr F S50000 .f32 → Arr F S1x50000 .f32),
    binary main_v46 main_v43 main_v47 (mulf : Bin F S1x50000 .f32),
    binary main_v45 main_v47 main_v48 (addf : Bin F S1x50000 .f32),
    nullary main_cst_1 (constant S_ .f32 0x3F000000#32),
    unary main_cst_1 main_v49 (broadcastInDim S1x50000 ![] bcast_S_S1x50000 : Arr F S_ .f32 → Arr F S1x50000 .f32),
    binary main_v21 main_v49 main_v50 (cmpf .ogt : Arr F S1x50000 .f32 → Arr F S1x50000 .f32 → Arr F S1x50000 .i1),
    unary main_arg15 main_v51 (broadcastInDim S1x50000 ![1] bcast_S50000_S1x50000_1 : Arr F S50000 .f32 → Arr F S1x50000 .f32),
    TRef.ternary (.of main_v50 : TRef sig ⟨S1x50000, .i1⟩) (.of main_v51 : TRef sig ⟨S1x50000, .f32⟩) (.of main_v48 : TRef sig ⟨S1x50000, .f32⟩) main_call1.v0 select,
    unary main_arg17 main_v53 (broadcastInDim S1x50000 ![1] bcast_S50000_S1x50000_1 : Arr F S50000 .f32 → Arr F S1x50000 .f32),
    binary main_v21 main_v53 main_v54 (mulf : Bin F S1x50000 .f32),
    binary main_arg2 main_v54 main_v55 (addf : Bin F S1x50000 .f32),
    nullary main_cst_2 (constant S_ .f32 0x3F800000#32),
    unary main_cst_2 main_v56 (broadcastInDim S1x50000 ![] bcast_S_S1x50000 : Arr F S_ .f32 → Arr F S1x50000 .f32),
    binary main_v55 main_v56 main_v57 (subf : Bin F S1x50000 .f32),
    nullary main_cst_3 (constant S_ .f32 0x00000000#32),
    unary main_cst_3 main_v58 (broadcastInDim S1x50000 ![] bcast_S_S1x50000 : Arr F S_ .f32 → Arr F S1x50000 .f32),
    binary main_v57 main_v58 main_v59 (maximumf : Bin F S1x50000 .f32),
    unary main_arg14 main_v60 (broadcastInDim S1x50000 ![1] bcast_S50000_S1x50000_1 : Arr F S50000 .f32 → Arr F S1x50000 .f32),
    binary main_v52 main_v60 main_v61 (subf : Bin F S1x50000 .f32),
    unary main_arg14 main_v62 (broadcastInDim S1x50000 ![1] bcast_S50000_S1x50000_1 : Arr F S50000 .f32 → Arr F S1x50000 .f32),
    unary main_arg16 main_v63 (broadcastInDim S1x50000 ![1] bcast_S50000_S1x50000_1 : Arr F S50000 .f32 → Arr F S1x50000 .f32),
    binary main_v62 main_v63 main_v64 (subf : Bin F S1x50000 .f32),
    nullary main_cst_4 (constant S_ .f32 0x322BCC77#32),
    unary main_cst_4 main_v65 (broadcastInDim S1x50000 ![] bcast_S_S1x50000 : Arr F S_ .f32 → Arr F S1x50000 .f32),
    binary main_v64 main_v65 main_v66 (addf : Bin F S1x50000 .f32),
    binary main_v61 main_v66 main_v67 (Host.divf : Bin F S1x50000 .f32),
    nullary main_cst_5 (constant S_ .f32 0x3F000000#32),
    nullary main_cst_6 (constant S_ .f32 0x3E99999A#32),
    nullary main_cst_7 (constant S_ .f32 0x00000000#32),
    unary main_cst_7 main_v68 (broadcastInDim S1x50000 ![] bcast_S_S1x50000 : Arr F S_ .f32 → Arr F S1x50000 .f32),
    binary main_v67 main_v68 main_v69 (cmpf .ogt : Arr F S1x50000 .f32 → Arr F S1x50000 .f32 → Arr F S1x50000 .i1),
    unary main_v69 main_v70 (uitofp .f32 : Arr F S1x50000 .i1 → Arr F S1x50000 .f32),
    nullary main_cst_8 (constant S_ .f32 0x00000000#32),
    unary main_cst_8 main_v71 (broadcastInDim S1x50000 ![] bcast_S_S1x50000 : Arr F S_ .f32 → Arr F S1x50000 .f32),
    binary main_v59 main_v71 main_v72 (cmpf .ogt : Arr F S1x50000 .f32 → Arr F S1x50000 .f32 → Arr F S1x50000 .i1),
    nullary main_cst_9 (constant S_ .f32 0x00000000#32),
    TRef.unary (.of main_cst_9 : TRef sig ⟨S_, .f32⟩) main_call2.v0 id,
    TRef.unary main_call2.v0 main_call2.v1 (broadcastInDim S1x50000 ![] bcast_S_S1x50000),
    TRef.ternary (.of main_v72 : TRef sig ⟨S1x50000, .i1⟩) main_call2.v1 (.of main_v70 : TRef sig ⟨S1x50000, .f32⟩) main_call2.v2 select ]

/-- The first 36: from the edge table to the recurrent input per receptor. -/
abbrev opsA : List (HloOp τ sig (Elt F)) := ops.take 36

/-- The next 32: the input current. -/
abbrev opsB : List (HloOp τ sig (Elt F)) := (ops.drop 36).take 32

/-- The last 41: the pointwise update, down to the spikes sent. -/
abbrev opsC : List (HloOp τ sig (Elt F)) := ops.drop 68

end Cert.Proof.RefRun

end
-- ==== Proof.RefStages.lean ====
import proofs.«215744_g19043884990565_cont_8to1_1279_72_alg».proof.Proof.Gen.ReferenceIdeal

noncomputable section

namespace Cert.Proof.RefRun

open Cert.ReferenceIdeal Cert.ReferenceIdeal.Gen Idealize.ShloMosaic

variable {F : FTy → Type} [FloatOps F]

/-- Entries 0 … 49999 of the spike buffer: the spikes of the previous step. -/
def prevZ (z : FVec F S1x250000 .f32) : FVec F S1x50000 .f32 :=
  extractStridedSlice S1x50000 ![0, 0] z slices_S1x250000_S1x50000_0_0

/-- Column `o` of the edge table: 0 the receptor row an edge feeds, 1 the position in the spike buffer it reads. -/
def edgeCol (o : Nat) (h : S1600000x2.Slices ![0, o] S1600000x1) (idx : IVec S1600000x2 32) : IVec S1600000 32 :=
  fun i => shapeCast S1600000 (extractStridedSlice S1600000x1 ![0, o] idx h) shapeCasts_S1600000x1_S1600000 i

/-- Each position as a start index, 250000 added where it is negative. -/
def takeStart (c : IVec S1600000 32) : IVec S1600000x1 32 :=
  broadcastInDim S1600000x1 ![0] bcast_S1600000_S1600000x1_0
    (select (cmpi .slt c (broadcastInDim S1600000 ![] bcast_S_S1600000 (constantI S_ 32 0#32)))
      (addi c (broadcastInDim S1600000 ![] bcast_S_S1600000 (constantI S_ 32 250000#32))) c)

/-- The mask of the start indices within `[0, 249999]`. -/
def inRangeOf (s : IVec S1600000x1 32) : IVec S1600000 1 :=
  Host.reduce IntOp.andi
    (andi (cmpi .sge s (broadcastInDim S1600000x1 ![] bcast_S_S1600000x1 (constantI S_ 32 0#32)))
      (cmpi .sle s
        (broadcastInDim S1600000x1 ![0, 1] bcast_S1x1_S1600000x1_0_1
          (broadcastInDim S1x1 ![1] bcast_S1_S1x1_1 (constantI S1 32 249999#32)))))
    (constantI S_ 1 1#1) reducesTo_S1600000x1_S1600000_d1 h_S_

/-- The spike buffer read at the start indices where the mask is set, the quiet NaN elsewhere. -/
def takeSel (m : IVec S1600000 1) (z : FVec F S1x250000 .f32) (s : IVec S1600000x1 32) : FVec F S1x1600000 .f32 :=
  select (broadcastInDim S1x1600000 ![1] bcast_S1600000_S1x1600000_1 m)
    (Host.gather gather_S1x250000_S1600000x1_S1x1600000_0_1_n_n_1_1_11 z s)
    (broadcastInDim S1x1600000 ![] bcast_S_S1x1600000 (constant S_ .f32 0x7FC00000#32))

/-- The delayed spikes along the edges whose positions are `c`. -/
def takeStage (z : FVec F S1x250000 .f32) (c : IVec S1600000 32) : FVec F S1x1600000 .f32 :=
  takeSel (inRangeOf (takeStart c)) z (takeStart c)

/-- The products of `x` with the weights summed, from zero, into the receptor rows `rows`, as 50000 × 4. -/
def irecTail (x : FVec F S1x1600000 .f32) (w : FVec F S1600000 .f32) (rows : IVec S1600000 32) : FVec F S1x50000x4 .f32 :=
  fun i => shapeCast S1x50000x4
    (transpose S1x200000 [1, 0]
      (Host.scatterAdd scatter_S200000x1_S1600000x1_S1600000x1_1_0_0_1
        (broadcastInDim S200000x1 ![] bcast_S_S200000x1 (constant S_ .f32 0x00000000#32))
        (broadcastInDim S1600000x1 ![0] bcast_S1600000_S1600000x1_0 rows)
        (transpose S1600000x1 [1, 0]
          (mulf x (broadcastInDim S1x1600000 ![1] bcast_S1600000_S1x1600000_1 w))
          transposes_S1x1600000_S1600000x1_1_0))
      transposes_S200000x1_S1x200000_1_0)
    shapeCasts_S1x200000_S1x50000x4 i

/-- The recurrent input per receptor: over the edges `e`, `z[cols e] · w e` summed into row `rows e`. -/
def irecStage (z : FVec F S1x250000 .f32) (w : FVec F S1600000 .f32) (idx : IVec S1600000x2 32) : FVec F S1x50000x4 .f32 :=
  irecTail (takeStage z (edgeCol 1 slices_S1600000x2_S1600000x1_0_1 idx)) w (edgeCol 0 slices_S1600000x2_S1600000x1_0_0 idx)

/-- Word `o` of a two-word table, at every neuron. -/
def word (o : Nat) (h : S2.Slices ![o] S1) (v : FVec F S2 .f32) : FVec F S1x50000 .f32 :=
  broadcastInDim S1x50000 ![] bcast_S_S1x50000 (fun i => shapeCast S_ (extractStridedSlice S1 ![o] v h) shapeCasts_S1_S_ i)

/-- A per-receptor table at every neuron. -/
def perRcp (v : FVec F S4 .f32) : FVec F S1x50000x4 .f32 :=
  broadcastInDim S1x50000x4 ![0, 1, 2] bcast_S1x1x4_S1x50000x4_0_1_2 (broadcastInDim S1x1x4 ![2] bcast_S4_S1x1x4_2 v)

/-- A per-neuron table as one row. -/
def perNeuron (v : FVec F S50000 .f32) : FVec F S1x50000 .f32 := broadcastInDim S1x50000 ![1] bcast_S50000_S1x50000_1 v

/-- A constant at every neuron. -/
def constRow (b : BitVec 32) : FVec F S1x50000 .f32 := broadcastInDim S1x50000 ![] bcast_S_S1x50000 (constant S_ .f32 b)

/-- `k_decay[o] · asc + prev_z · asc_amps[o]`: what after-spike current `o` adds to the input current. -/
def ascTerm (o : Nat) (h : S2.Slices ![o] S1) (z : FVec F S1x250000 .f32) (asc : FVec F S1x50000 .f32) (aa kd : FVec F S2 .f32) :
    FVec F S1x50000 .f32 :=
  addf (mulf (word o h kd) asc) (mulf (prevZ z) (word o h aa))

/-- The input current: `∑ receptors (psc · syn_decay + i_rec · psc_initial)`, the external current, the two after-spike terms. -/
def curStage (irec : FVec F S1x50000x4 .f32) (z : FVec F S1x250000 .f32) (a1 a2 : FVec F S1x50000 .f32)
    (psc : FVec F S1x200000 .f32) (ext : FVec F S1x50000 .f32) (sd pi : FVec F S4 .f32) (aa kd : FVec F S2 .f32) :
    FVec F S1x50000 .f32 :=
  addf (addf (addf
    (Host.reduceAdd
      (addf (mulf (fun i => shapeCast S1x50000x4 psc shapeCasts_S1x200000_S1x50000x4 i) (perRcp sd)) (mulf irec (perRcp pi)))
      (constant S_ .f32 0x00000000#32) reducesTo_S1x50000x4_S1x50000_d2 h_S_)
    ext) (ascTerm 0 slices_S2_S1_0 z a1 aa kd)) (ascTerm 1 slices_S2_S1_1 z a2 aa kd)

/-- `v_reset` where `prev_z > 1/2`, else `decay · v + current_factor · cur`: the new membrane potential. -/
def newV (cur pz v : FVec F S1x50000 .f32) (decay cf vreset : FVec F S50000 .f32) : FVec F S1x50000 .f32 :=
  select (cmpf .ogt pz (constRow 0x3F000000#32)) (perNeuron vreset)
    (addf (mulf (perNeuron decay) v) (mulf (perNeuron cf) cur))

/-- `max (r + prev_z · t_ref − 1) 0`: the new refractory counter. -/
def newR (pz r : FVec F S1x50000 .f32) (tref : FVec F S50000 .f32) : FVec F S1x50000 .f32 :=
  maximumf (subf (addf r (mulf pz (perNeuron tref))) (constRow 0x3F800000#32)) (constRow 0x00000000#32)

/-- `(new_v − v_th) / (v_th − e_l + ε)`: the potential relative to the threshold. -/
def vScaled (nv : FVec F S1x50000 .f32) (vth el : FVec F S50000 .f32) : FVec F S1x50000 .f32 :=
  Host.divf (subf nv (perNeuron vth)) (addf (subf (perNeuron vth) (perNeuron el)) (constRow 0x322BCC77#32))

/-- The spikes sent: none while `new_r > 0`, otherwise one where the scaled potential exceeds zero. -/
def closeStage (cur pz v r : FVec F S1x50000 .f32) (decay cf vth vreset el tref : FVec F S50000 .f32) : FVec F S1x50000 .f32 :=
  select (cmpf .ogt (newR pz r tref) (constRow 0x00000000#32)) (constRow 0x00000000#32)
    (uitofp .f32 (cmpf .ogt (vScaled (newV cur pz v decay cf vreset) vth el) (constRow 0x00000000#32)))

/-- What the reference computes from its nineteen arguments, taken in @main's order. -/
def resultTerm (a0 : FVec F S1x250000 .f32) (a1 a2 a3 a4 : FVec F S1x50000 .f32) (a5 : FVec F S1x200000 .f32)
    (a6 : FVec F S1600000 .f32) (a7 : FVec F S1x50000 .f32) (a8 a9 : FVec F S4 .f32) (a10 a11 : FVec F S2 .f32)
    (a12 a13 a14 a15 a16 a17 : FVec F S50000 .f32) (a18 : IVec S1600000x2 32) : FVec F S1x50000 .f32 :=
  closeStage (curStage (irecStage a0 a6 a18) a0 a3 a4 a5 a7 a8 a9 a10 a11) (prevZ a0) a1 a2 a12 a13 a14 a15 a16 a17

end Cert.Proof.RefRun

end
-- ==== Proof.RefArgs.lean ====
import proofs.«215744_g19043884990565_cont_8to1_1279_72_alg».proof.Proof.RefOps

noncomputable section

namespace Cert.Proof.RefRun

open Cert.ReferenceIdeal Cert.ReferenceIdeal.Gen Idealize.ShloMosaic Idealize.ShloMosaic.TcCoe Idealize.SL.Sem Idealize.ShloMosaic.StableHlo

variable {F : FTy → Type} [FloatOps F]

/-- Every buffer that some operation of the line writes. -/
abbrev written : List (Ref sig .tc) :=
    [main_v0, main_v1, main_v2, main_v3,
     main_call0_c, main_call0_v0, main_call0_v1, main_call0_c_0, main_call0_v2, main_call0_v3, main_call0_v4, main_call0_v5,
     main_call0_c_1, main_call0_c_2, main_call0_v6, main_call0_v7, main_call0_v8, main_call0_v9, main_call0_v10,
     main_call0_v11, main_call0_c_3, main_call0_v12, main_call0_v13, main_call0_v14, main_call0_cst, main_call0_v15,
     main_v4, main_v5, main_v6, main_v7, main_cst, main_v8, main_v9, main_v10, main_v11, main_v12, main_v13, main_v14,
     main_v15, main_v16, main_v17, main_v18, main_v19, main_v20, main_v21, main_v22, main_v23, main_v24, main_v25,
     main_v26, main_v27, main_v28, main_v29, main_v30, main_v31, main_v32, main_v33, main_v34, main_v35, main_v36,
     main_v37, main_v38, main_v39, main_cst_0, main_v40, main_v41, main_v42, main_v43, main_v44, main_v45, main_v46,
     main_v47, main_v48, main_cst_1, main_v49, main_v50, main_v51, main_v52, main_v53, main_v54, main_v55, main_cst_2,
     main_v56, main_v57, main_cst_3, main_v58, main_v59, main_v60, main_v61, main_v62, main_v63, main_v64, main_cst_4,
     main_v65, main_v66, main_v67, main_cst_5, main_cst_6, main_cst_7, main_v68, main_v69, main_v70, main_cst_8,
     main_v71, main_v72, main_cst_9, main_call2_v0, main_call2_v1, main_v73]

/-- If the single buffer an operation writes is in `W`, its writes lie in `W`. -/
theorem writes_sub_of_mem {W : List (Ref sig .tc)} {op : HloOp τ sig (Elt F)} {y : Ref sig .tc}
    (hw : op.writes = {Proc.devRef .tc y}) (hy : y ∈ W) :
    op.writes ⊆ (W.map (Proc.devRef (τ := τ) .tc)).toFinset := by
  rw [hw, Finset.singleton_subset_iff, List.mem_toFinset]
  exact List.mem_map_of_mem hy

set_option maxRecDepth 8192 in
/-- Operation by operation: the buffer written is listed in `written`. -/
theorem ops_writes :
    (ops (F := F)).Forall fun op => op.writes ⊆ (written.map (Proc.devRef (τ := τ) .tc)).toFinset := by
  repeat (refine (List.forall_cons _ _ _).2 ⟨writes_sub_of_mem rfl (by decide), ?_⟩)
  exact trivial

/-- So a buffer outside them keeps its contents over any part of the line. -/
theorem kept {l : List (HloOp τ sig (Elt F))} (hl : l ⊆ ops) (V : Valuation τ sig (Elt F)) {r : Ref sig .tc}
    (hr : r ∉ written) : after l V (Proc.devRef .tc r) = V (Proc.devRef .tc r) :=
  after_of_writes_sub l V (List.forall_iff_forall_mem.2 fun op h => List.forall_iff_forall_mem.1 ops_writes op (hl h)) hr

end Cert.Proof.RefRun

end
-- ==== Proof.RefA.lean ====
import proofs.«215744_g19043884990565_cont_8to1_1279_72_alg».proof.Proof.RefOps
import proofs.«215744_g19043884990565_cont_8to1_1279_72_alg».proof.Proof.RefStages
import Idealize.ShloMosaic.Lib.Pipeline.Frame
import Idealize.ShloMosaic.Lib.Pipeline.Regions

noncomputable section

namespace Cert.Proof.RefRun

open Cert.ReferenceIdeal Cert.ReferenceIdeal.Gen Idealize.ShloMosaic Idealize.ShloMosaic.TcCoe Idealize.SL.Sem Idealize.ShloMosaic.StableHlo

variable {F : FTy → Type} [FloatOps F]

/-- The first stretch cut in five, so that each value several later operations read is folded once. -/
abbrev opsA1 : List (HloOp τ sig (Elt F)) := opsA.take 4
abbrev opsA2a : List (HloOp τ sig (Elt F)) := (opsA.drop 4).take 8
abbrev opsA2b : List (HloOp τ sig (Elt F)) := (opsA.drop 12).take 10
abbrev opsA2c : List (HloOp τ sig (Elt F)) := (opsA.drop 22).take 5
abbrev opsA3 : List (HloOp τ sig (Elt F)) := opsA.drop 27

theorem opsA_cut : (opsA : List (HloOp τ sig (Elt F))) = opsA1 ++ (opsA2a ++ (opsA2b ++ (opsA2c ++ opsA3))) := rfl

variable (W : Valuation τ sig (Elt F))

/-- Each piece from any contents: what it leaves in the buffer read later, and the buffers read later that it keeps. -/
theorem afterA1_v1 : after opsA1 W main_v1 = edgeCol 0 slices_S1600000x2_S1600000x1_0_0 (W main_arg18) := by chain_rfl
theorem afterA1_v3 : after opsA1 W main_v3 = edgeCol 1 slices_S1600000x2_S1600000x1_0_1 (W main_arg18) := by chain_rfl
theorem keepA1_arg0 : after opsA1 W main_arg0 = W main_arg0 := by chain_rfl
theorem keepA1_arg6 : after opsA1 W main_arg6 = W main_arg6 := by chain_rfl

theorem afterA2a_v5 : after opsA2a W main_call0_v5 = takeStart (W main_v3) := by chain_rfl
theorem keepA2a_arg0 : after opsA2a W main_arg0 = W main_arg0 := by chain_rfl
theorem keepA2a_arg6 : after opsA2a W main_arg6 = W main_arg6 := by chain_rfl
theorem keepA2a_v1 : after opsA2a W main_v1 = W main_v1 := by chain_rfl

theorem afterA2b_v12 : after opsA2b W main_call0_v12 = inRangeOf (W main_call0_v5) := by chain_rfl
theorem keepA2b_v5 : after opsA2b W main_call0_v5 = W main_call0_v5 := by chain_rfl
theorem keepA2b_arg0 : after opsA2b W main_arg0 = W main_arg0 := by chain_rfl
theorem keepA2b_arg6 : after opsA2b W main_arg6 = W main_arg6 := by chain_rfl
theorem keepA2b_v1 : after opsA2b W main_v1 = W main_v1 := by chain_rfl

theorem afterA2c_v4 : after opsA2c W main_v4 = takeSel (W main_call0_v12) (W main_arg0) (W main_call0_v5) := by chain_rfl
theorem keepA2c_arg6 : after opsA2c W main_arg6 = W main_arg6 := by chain_rfl
theorem keepA2c_v1 : after opsA2c W main_v1 = W main_v1 := by chain_rfl

theorem afterA3_v12 : after opsA3 W main_v12 = irecTail (W main_v4) (W main_arg6) (W main_v1) := by chain_rfl

/-- The pieces joined: the first stretch leaves the recurrent input of the spike buffer, the weights and the edge table. -/
theorem afterA_v12 : after opsA W main_v12 = irecStage (W main_arg0) (W main_arg6) (W main_arg18) := by
  rw [opsA_cut, after_append, after_append, after_append, after_append, afterA3_v12, afterA2c_v4, keepA2c_arg6, keepA2c_v1,
    afterA2b_v12, keepA2b_arg0, keepA2b_v5, keepA2b_arg6, keepA2b_v1, afterA2a_v5, keepA2a_arg0, keepA2a_arg6, keepA2a_v1,
    afterA1_v3, afterA1_v1, keepA1_arg0, keepA1_arg6]
  rfl

end Cert.Proof.RefRun

end
-- ==== Proof.RefB.lean ====
import proofs.«215744_g19043884990565_cont_8to1_1279_72_alg».proof.Proof.RefOps
import proofs.«215744_g19043884990565_cont_8to1_1279_72_alg».proof.Proof.RefStages
import Idealize.ShloMosaic.Lib.Pipeline.Frame
import Idealize.ShloMosaic.Lib.Pipeline.Regions

noncomputable section

namespace Cert.Proof.RefRun

open Cert.ReferenceIdeal Cert.ReferenceIdeal.Gen Idealize.ShloMosaic Idealize.ShloMosaic.TcCoe Idealize.SL.Sem Idealize.ShloMosaic.StableHlo

variable {F : FTy → Type} [FloatOps F]

variable (W : Valuation τ sig (Elt F))

set_option maxRecDepth 8192 in
set_option maxHeartbeats 4000000 in
/-- The second stretch leaves the previous step's spikes in the slice's buffer, -/
theorem afterB_v21 : after opsB W main_v21 = prevZ (W main_arg0) := by
  chain_rfl

set_option maxRecDepth 8192 in
set_option maxHeartbeats 4000000 in
/-- and the input current, of the recurrent input the first stretch left and of the arguments, in the last sum's. -/
theorem afterB_v43 :
    after opsB W main_v43 = curStage (W main_v12) (W main_arg0) (W main_arg3) (W main_arg4) (W main_arg5) (W main_arg7)
      (W main_arg8) (W main_arg9) (W main_arg10) (W main_arg11) := by
  chain_rfl

end Cert.Proof.RefRun

end
-- ==== Proof.RefC.lean ====
import proofs.«215744_g19043884990565_cont_8to1_1279_72_alg».proof.Proof.RefOps
import proofs.«215744_g19043884990565_cont_8to1_1279_72_alg».proof.Proof.RefStages
import Idealize.ShloMosaic.Lib.Pipeline.Regions

noncomputable section

namespace Cert.Proof.RefRun

open Cert.ReferenceIdeal Cert.ReferenceIdeal.Gen Idealize.ShloMosaic Idealize.ShloMosaic.TcCoe Idealize.SL.Sem Idealize.ShloMosaic.StableHlo

variable {F : FTy → Type} [FloatOps F]

/-- The third stretch leaves the closing chain of the current and previous spikes the second left, and of the arguments. -/
theorem afterC_v73 (W : Valuation τ sig (Elt F)) :
    after opsC W main_v73 = closeStage (W main_v43) (W main_v21) (W main_arg1) (W main_arg2) (W main_arg12) (W main_arg13)
      (W main_arg14) (W main_arg15) (W main_arg16) (W main_arg17) := by
  chain_rfl

end Cert.Proof.RefRun

end
-- ==== Proof.RefRun.lean ====
import proofs.«215744_g19043884990565_cont_8to1_1279_72_alg».proof.Proof.RefOps
import proofs.«215744_g19043884990565_cont_8to1_1279_72_alg».proof.Proof.RefStages
import proofs.«215744_g19043884990565_cont_8to1_1279_72_alg».proof.Proof.RefArgs
import proofs.«215744_g19043884990565_cont_8to1_1279_72_alg».proof.Proof.RefA
import proofs.«215744_g19043884990565_cont_8to1_1279_72_alg».proof.Proof.RefB
import proofs.«215744_g19043884990565_cont_8to1_1279_72_alg».proof.Proof.RefC
import Idealize.ShloMosaic.Lib.Pipeline.Frame

noncomputable section

namespace Cert.Proof.RefRun

open Cert.ReferenceIdeal Cert.ReferenceIdeal.Gen Idealize.ShloMosaic Idealize.ShloMosaic.TcCoe Idealize.SL.Sem Idealize.ShloMosaic.StableHlo

variable {F : FTy → Type} [FloatOps F]

set_option maxRecDepth 8192 in
set_option maxHeartbeats 4000000 in
/-- Unfolding @main's parts and the functions it calls, and reassociating the binds, leaves `seq ops`. -/
theorem main_eq (c : Dev nD) : main (F := F) c = seq ops := by
  simp only [main, main_part0, main_part1, fn_take.body, fn_where.body, fn_where_0.body, fn_where_1.body, seq,
    bind_assoc, pure_bind]

theorem scopedRefs_eq : (Finset.univ.filter fun b : Ref sig .tc => b.isScoped) = ∅ := by decide
theorem scopedSems_eq : (Finset.univ.filter fun sm : SemLoc sig => sm.isScoped .tc) = ∅ := by decide

set_option maxRecDepth 8192 in
set_option maxHeartbeats 4000000 in
theorem ops_sub : (ops : List (HloOp τ sig (Elt F))).Forall fun op => op.bufs ⊆ tcRefs τ sig := by
  simp only [ops, List.forall_cons, List.Forall, nullary_bufs_sub, unary_bufs_sub, binary_bufs_sub, ternary_bufs_sub,
    reshape_bufs_sub, and_self]

/-- `ops` splits as the three stretches. -/
theorem ops_cut : (ops : List (HloOp τ sig (Elt F))) = opsA ++ (opsB ++ opsC) := rfl

set_option maxRecDepth 8192 in
/-- Composing the three stretches: the result buffer ends at `resultTerm` of what the argument buffers held. -/
theorem after_result (V : Valuation τ sig (Elt F)) :
    after ops V main_v73 = resultTerm (V main_arg0) (V main_arg1) (V main_arg2) (V main_arg3) (V main_arg4) (V main_arg5) (V main_arg6)
      (V main_arg7) (V main_arg8) (V main_arg9) (V main_arg10) (V main_arg11) (V main_arg12) (V main_arg13)
      (V main_arg14) (V main_arg15) (V main_arg16) (V main_arg17) (V main_arg18) := by
  have A := fun (r : Ref sig .tc) hr => kept (l := opsA) (List.take_subset _ _) V (r := r) hr
  have B := fun (r : Ref sig .tc) hr =>
    (kept (l := opsB) (List.Subset.trans (List.take_subset _ _) (List.drop_subset _ _)) (after opsA V) (r := r) hr).trans
      (A r hr)
  rw [resultTerm, ops_cut, after_append, after_append, afterC_v73, afterB_v43, afterB_v21, afterA_v12,
    B main_arg1 (by decide), B main_arg2 (by decide), B main_arg12 (by decide), B main_arg13 (by decide), B main_arg14 (by decide),
    B main_arg15 (by decide), B main_arg16 (by decide), B main_arg17 (by decide),
    A main_arg0 (by decide), A main_arg3 (by decide), A main_arg4 (by decide), A main_arg5 (by decide),
    A main_arg7 (by decide), A main_arg8 (by decide), A main_arg9 (by decide), A main_arg10 (by decide), A main_arg11 (by decide)]

set_option maxRecDepth 8192 in
/-- Hence the run: on each device the result buffer ends at `resultTerm` of the launch's arguments, and these are untouched. -/
theorem run (m : (ℓ : Loc nD τ sig) → Buf (Elt F) ℓ) (ρ : Dev nD → PrngReg) :
    θ_run (defs (F := F)) (onTc (τ := τ) (main (F := F))) ⟨m, fun _ => 0, ρ⟩ fun r => ∀ c : Dev nD,
      r.2.mem ((c.tc : Thread nD τ).loc main_v73)
        = resultTerm (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))
            (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12))
            (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18) :=
  (θ_run defs _ _).mono (fun _ h c => by
      refine ⟨(h c main_v73).trans (after_result _), ?_, ?_, ?_, ?_, ?_, ?_, ?_, ?_, ?_, ?_, ?_, ?_, ?_, ?_, ?_, ?_, ?_, ?_, ?_⟩ <;>
        exact (h c _).trans (kept (List.Subset.refl _) _ (by decide)))
    (run_seq scopedRefs_eq scopedSems_eq defs main (fun _ => ops) main_eq (fun _ => ops_sub) m ρ)

end Cert.Proof.RefRun

end
-- ==== Proof.Algebra.lean ====
import proofs.«215744_g19043884990565_cont_8to1_1279_72_alg».proof.Proof.Spec
import proofs.«215744_g19043884990565_cont_8to1_1279_72_alg».proof.Proof.TileInit
import proofs.«215744_g19043884990565_cont_8to1_1279_72_alg».proof.Proof.TileValue
import proofs.«215744_g19043884990565_cont_8to1_1279_72_alg».proof.Proof.TileOut
import Idealize.ShloMosaic.PureOps.Ideal.Laws

noncomputable section

namespace Cert.Proof.Algebra

open Cert.KernelIdeal
open Idealize.ShloMosaic
open Idealize.ShloMosaic.ValueIdx
open Cert.Proof.Spec (bitTest bitTest_packed_ideal regroup_ereal_rows exists_real_mul)
open Cert.Proof.Tile

theorem ix_eq_ix1 {N : Nat} (i : Fin N) : ix i = ix1 i := by
  funext d
  match d with
  | ⟨0, _⟩ => rfl

-- Neuron n lies in tile n / 1568 alone; there its four current words are words 4 n to 4 n + 3 of the padded row.
theorem accInit_apply (sd16 : Vec Ideal S16 .f32) (pscpad : Vec Ideal S1x200704 .f32) (t : Fin 32) (n : Fin 50176) :
    (accInit sd16 pscpad t (ix n) : EReal)
      = if t = (⟨n.val / 1568, by have := n.isLt; omega⟩ : Fin 32) then
          ∑ r : Fin 4, pscpad (ix2 (0 : Fin 1) (⟨4 * n.val + r.val, by have := n.isLt; have := r.isLt; omega⟩ : Fin 200704))
            * sd16 (ix1 (⟨r.val + 1, by have := r.isLt; omega⟩ : Fin 16))
        else 0 := by
  by_cases h : t.val = n.val / 1568
  · rw [if_pos (Fin.ext h)]
    have hown : t.val * 1568 ≤ ((ix n) 0 : Fin 50176).val ∧ ((ix n) 0 : Fin 50176).val < t.val * 1568 + 1568 := by
      show t.val * 1568 ≤ n.val ∧ n.val < t.val * 1568 + 1568
      omega
    rw [accInit_own sd16 pscpad t (ix n) hown, Fin.sum_univ_four]
    have h1 : t.val * 1568 ≤ n.val := hown.1
    have hp : ∀ k (hk : k < 4), pscSlice pscpad t (ix1 ⟨4 * (n.val - t.val * 1568) + k, by omega⟩)
        = pscpad (ix2 (0 : Fin 1) ⟨4 * n.val + k, by have := n.isLt; omega⟩) := fun k hk =>
      congrArg (fun q => pscpad (ix2 (0 : Fin 1) q))
        (Fin.ext (by show t.val * 6272 + (4 * (n.val - t.val * 1568) + k) = 4 * n.val + k; omega))
    unfold decayed
    simp only [Ideal.addf_def, Ideal.mulf_def]
    exact congrArg₂ (· + ·) (congrArg₂ (· + ·) (congrArg₂ (· + ·) (congrArg₂ (· * ·) (hp 0 (by omega)) rfl)
      (congrArg₂ (· * ·) (hp 1 (by omega)) rfl)) (congrArg₂ (· * ·) (hp 2 (by omega)) rfl))
      (congrArg₂ (· * ·) (hp 3 (by omega)) rfl)
  · rw [if_neg (fun e => h (congrArg Fin.val e)), accInit_other sd16 pscpad t (ix n) (by
      show ¬ (t.val * 1568 ≤ n.val ∧ n.val < t.val * 1568 + 1568)
      omega)]
    exact Ideal.ofBits_zero_f32

theorem chunkAt_ix {e : EltTy} (X : Vec Ideal S1600000 e) (wid : Fin 32) (j : Nat) (hj : j < 5) (i : Fin 10000) :
    chunkAt X wid j (ix i) = nth (fun e => X (ix e)) (50000 * wid.val + 10000 * j + i.val) := by
  have hlt : 50000 * wid.val + 10000 * j + i.val < 1600000 := by
    have := wid.isLt
    have := i.isLt
    omega
  rw [chunkAt_lt X wid j hj, nth_of_lt _ _ hlt]
  show X _ = X (ix (⟨50000 * wid.val + 10000 * j + i.val, hlt⟩ : Fin 1600000))
  congr 1
  funext a
  apply Fin.ext
  rw [chunkOf_idx wid ⟨j, hj⟩ (ix i) a]
  obtain rfl := Fin.eq_zero a
  rfl

-- Each tile adds its live edges onto its own neurons' decayed currents; the bit test is the spike, so the 32 rows regroup by receptor.
theorem parts_sum_eq
    (Pk : Vec Ideal S1x8192 .i32) (pi16 sd16 : Vec Ideal S16 .f32) (pscpad : Vec Ideal S1x200704 .f32)
    (rows cols : Vec Ideal S1600000 .i32) (w : Vec Ideal S1600000 .f32)
    (z : Vec Ideal S1x250000 .f32) (psc : Vec Ideal S1x200000 .f32) (sd pinit : Vec Ideal S4 .f32)
    (zr : ℕ → EReal)
    (hz01 : ∀ j < 262144, zr j = 0 ∨ zr j = 1)
    (hzr : ∀ (j : ℕ) (h : j < 250000), zr j = z (ix2 (0 : Fin 1) (⟨j, h⟩ : Fin 250000)))
    (hpk : ∀ wd : Fin 8192, Pk (ix2 (0 : Fin 1) wd) = Spec.packed (fun j => Ideal.fptosi 32 (zr j)) wd.val)
    (hrows : ∀ x, (rows x).toNat ≤ 199999) (hcols : ∀ x, (cols x).toNat ≤ 249999)
    (hw : ∀ x, ∃ r : ℝ, w x = r)
    (hpi16 : ∀ r : Fin 4, pi16 (ix1 (⟨r.val, by have := r.isLt; omega⟩ : Fin 16)) = pinit (ix1 r))
    (hsd16 : ∀ r : Fin 4, sd16 (ix1 (⟨r.val + 1, by have := r.isLt; omega⟩ : Fin 16)) = sd (ix1 r))
    (hpscpad : ∀ k : Fin 200000,
      pscpad (ix2 (0 : Fin 1) (⟨k.val, by have := k.isLt; omega⟩ : Fin 200704)) = psc (ix2 (0 : Fin 1) k))
    (hpinit : ∀ x, ∃ r : ℝ, pinit x = r) (hsd : ∀ x, ∃ r : ℝ, sd x = r) (hpsc : ∀ x, ∃ r : ℝ, psc x = r)
    (n : Fin 50000) :
    ∑ t : Fin 32, (tileOut Pk rows cols w pi16 sd16 pscpad t (ix (⟨n.val, by have := n.isLt; omega⟩ : Fin 50176)) : EReal)
      = ∑ r : Fin 4, (psc (ix2 (0 : Fin 1) (⟨4 * n.val + r.val, by have := n.isLt; have := r.isLt; omega⟩ : Fin 200000))
            * sd (ix1 r)
          + (∑ e ∈ Finset.univ.filter (fun e : Fin 1600000 => (rows (ix e)).toNat = 4 * n.val + r.val),
              z (ix2 (0 : Fin 1) (⟨(cols (ix e)).toNat, by have := hcols (ix e); omega⟩ : Fin 250000)) * w (ix e))
            * pinit (ix1 r)) := by
  have hn : n.val < 50000 := n.isLt
  have hc : ∀ e : Fin 1600000, (cols (ix e)).toNat < 262144 := fun e => by have := hcols (ix e); omega
  have hpk' : ∀ wd : Fin 8192, pkRow Pk (ix wd) = Spec.packed (fun j => Ideal.fptosi 32 (zr j)) wd.val := hpk
  have hpi : ∀ r : Fin 4, pi16 (ix (⟨r.val, by have := r.isLt; omega⟩ : Fin 16)) = pinit (ix1 r) :=
    fun r => by rw [ix_eq_ix1, hpi16 r]
  have ha : ∀ r : Fin 4,
      pscpad (ix2 (0 : Fin 1) (⟨4 * n.val + r.val, by have := r.isLt; omega⟩ : Fin 200704))
          * sd16 (ix1 (⟨r.val + 1, by have := r.isLt; omega⟩ : Fin 16))
        = psc (ix2 (0 : Fin 1) ⟨4 * n.val + r.val, by have := r.isLt; omega⟩) * sd (ix1 r) :=
    fun r => by rw [hpscpad ⟨4 * n.val + r.val, by have := r.isLt; omega⟩, hsd16 r]
  have key := regroup_ereal_rows tileOf (fun e => (rows (ix e)).toNat)
    (fun e => bitTest (pkRow Pk (ix ⟨(IntOp.andi (cols (ix e)) 8191#32).toNat, andi_8191_lt _⟩)) (cols (ix e)) = 1#1)
    (⟨n.val / 1568, by omega⟩ : Fin 32) n.val
    (fun r : Fin 4 => pscpad (ix2 (0 : Fin 1) (⟨4 * n.val + r.val, by have := r.isLt; omega⟩ : Fin 200704))
      * sd16 (ix1 (⟨r.val + 1, by have := r.isLt; omega⟩ : Fin 16)))
    (fun r : Fin 4 => pi16 (ix (⟨r.val, by have := r.isLt; omega⟩ : Fin 16)))
    (fun e => w (ix e)) (fun e => zr (cols (ix e)).toNat)
    (fun r => by simp only [ha r]; exact exists_real_mul (hpsc _) (hsd _))
    (fun r => by simp only [hpi r]; exact hpinit _)
    (fun e => hw _) (fun e => hz01 _ (hc e))
    (fun e => by rw [hpk']; exact bitTest_packed_ideal zr hz01 (cols (ix e)) (hc e))
  refine Eq.trans (Finset.sum_congr rfl fun t _ => ?_) (key.trans (Finset.sum_congr rfl fun r _ => ?_))
  · refine (tile_apply (pkRow Pk) pi16 rows cols w hrows t (chunkAt rows t) (chunkAt cols t) (chunkAt w t)
      (fun j hj i => chunkAt_ix rows t j hj i) (fun j hj i => chunkAt_ix cols t j hj i)
      (fun j hj i => chunkAt_ix w t j hj i) (accInit sd16 pscpad t) _).trans ?_
    rw [accInit_apply]
  · simp only [ha r, hpi r]
    refine congrArg₂ (· + ·) rfl (congrArg₂ (· * ·) (Finset.sum_congr rfl fun e _ => ?_) rfl)
    rw [hzr _ (by have := hcols (ix e); omega)]

end Cert.Proof.Algebra
-- ==== Proof.RefValue.lean ====
import proofs.«215744_g19043884990565_cont_8to1_1279_72_alg».proof.Proof.RefStages
import proofs.«215744_g19043884990565_cont_8to1_1279_72_alg».proof.Proof.UpdAt
import Idealize.ShloMosaic.Lib.ValueIdx
import Idealize.ShloMosaic.Lib.IdealHost
import Idealize.ShloMosaic.Lib.ValueLayout
import Idealize.ShloMosaic.Lib.Pipeline.Value
import Idealize.ShloMosaic.PureOps.Ideal.Laws

noncomputable section

namespace Cert.Proof.RefValue

open Cert.ReferenceIdeal Cert.ReferenceIdeal.Gen Idealize.ShloMosaic Idealize.ShloMosaic.ValueIdx Cert.Proof.RefRun
open scoped BigOperators

/-- Entry `(0, e)` of the gather is the operand at column `si[e, 0]`, read signed and clamped into `[0, 249999]`. -/
theorem gather_apply {α : Type} (x : S1x250000.Idx → α) (si : IVec S1600000x1 32) (e : Fin 1600000) :
    Host.gather gather_S1x250000_S1600000x1_S1x1600000_0_1_n_n_1_1_11 x si (ix2 (0 : Fin 1) e)
      = x (ix2 (0 : Fin 1) (⟨min (si (ix2 e (0 : Fin 1))).toInt.toNat 249999, by omega⟩ : Fin 250000)) := by
  unfold Host.gather
  congr 1
  funext a
  refine Fin.ext ?_
  match a with
  | ⟨0, _⟩ =>
    show gather_S1x250000_S1600000x1_S1x1600000_0_1_n_n_1_1_11.start (ix2 (0 : Fin 1) e) si 0
        + gather_S1x250000_S1600000x1_S1x1600000_0_1_n_n_1_1_11.batchCoord (ix2 (0 : Fin 1) e) 0
        + gather_S1x250000_S1600000x1_S1x1600000_0_1_n_n_1_1_11.offCoord (ix2 (0 : Fin 1) e) 0 = 0
    rw [GatherDims.batchCoord_eq_zero _ _ _ List.not_mem_nil]
    have hoff := GatherDims.offCoord_lt gather_S1x250000_S1600000x1_S1x1600000_0_1_n_n_1_1_11 (ix2 (0 : Fin 1) e) 0
      ((GatherDims.mem_sKept _ _).mpr ⟨by decide, List.not_mem_nil⟩)
    have hs : gather_S1x250000_S1600000x1_S1x1600000_0_1_n_n_1_1_11.sliceSizes 0 = 1 := rfl
    have hst : gather_S1x250000_S1600000x1_S1x1600000_0_1_n_n_1_1_11.start (ix2 (0 : Fin 1) e) si 0 = 0 := by
      unfold GatherDims.start
      rw [dif_neg (by decide)]
    omega
  | ⟨1, _⟩ =>
    show gather_S1x250000_S1600000x1_S1x1600000_0_1_n_n_1_1_11.start (ix2 (0 : Fin 1) e) si 1
        + gather_S1x250000_S1600000x1_S1x1600000_0_1_n_n_1_1_11.batchCoord (ix2 (0 : Fin 1) e) 1
        + gather_S1x250000_S1600000x1_S1x1600000_0_1_n_n_1_1_11.offCoord (ix2 (0 : Fin 1) e) 1
      = min (si (ix2 e (0 : Fin 1))).toInt.toNat 249999
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (1 : Fin 2) ∈ gather_S1x250000_S1600000x1_S1x1600000_0_1_n_n_1_1_11.startIndexMap from
      List.mem_singleton.mpr rfl)]
    have hsi : gather_S1x250000_S1600000x1_S1x1600000_0_1_n_n_1_1_11.siIdx (ix2 (0 : Fin 1) e)
        ⟨List.idxOf (1 : Fin 2) gather_S1x250000_S1600000x1_S1x1600000_0_1_n_n_1_1_11.startIndexMap,
          List.idxOf_lt_length_iff.2 (List.mem_singleton.mpr rfl)⟩ = ix2 e (0 : Fin 1) :=
      (eq_ix2 _).trans rfl
    rw [hsi]
    rfl

/-- The one-bit word of a decidable proposition that holds is one, -/
theorem ofBool_decide {p : Prop} [Decidable p] (h : p) : BitVec.ofBool (decide p) = 1#1 := by rw [decide_eq_true h]; rfl
/-- and of one that fails, zero. -/
theorem ofBool_decide_not {p : Prop} [Decidable p] (h : ¬ p) : BitVec.ofBool (decide p) = 0#1 := by rw [decide_eq_false h]; rfl

/-- A position that is not negative is its own start index. -/
theorem takeStart_apply (c : IVec S1600000 32) (e : Fin 1600000) (h0 : 0 ≤ (c (ix1 e)).toInt) :
    takeStart c (ix2 e (0 : Fin 1)) = c (ix1 e) := by
  unfold takeStart
  rw [broadcastInDim_apply ![0] bcast_S1600000_S1600000x1_0 _ (ix2 e (0 : Fin 1)) (ix1 e) (fun a => by
    obtain rfl : a = 0 := Subsingleton.elim _ _
    rw [if_neg (by decide)]
    rfl), select_apply]
  have hm : cmpi .slt c (broadcastInDim S1600000 ![] bcast_S_S1600000 (constantI S_ 32 0#32)) (ix1 e) = 0#1 :=
    ofBool_decide_not (p := _ < (0#32 : BitVec 32).toInt) (not_lt.mpr h0)
  rw [hm, select_zero]

theorem red_S1600000x1 : S1600000x1.Reduces [1] S1600000 := by decide

/-- The range mask is set at an edge whose position lies in `[0, 249999]`. -/
theorem inRange_apply (c : IVec S1600000 32) (e : Fin 1600000) (h0 : 0 ≤ (c (ix1 e)).toInt)
    (h1 : (c (ix1 e)).toInt ≤ 249999) : inRangeOf (takeStart c) (ix1 e) = 1#1 := by
  unfold inRangeOf
  rw [Host.reduce_eq_fold_single IntOp.andi _ _ reducesTo_S1600000x1_S1600000_d1
    red_S1600000x1 h_S_ (ix1 e)]
  show Finset.fold IntOp.andi 1#1
      (fun k : Fin 1 => IntOp.andi
        (IntOp.cmpi .sge (takeStart c (red_S1600000x1.lift (ix1 e) k)) 0#32)
        (IntOp.cmpi .sle (takeStart c (red_S1600000x1.lift (ix1 e) k)) 249999#32))
      (Finset.univ : Finset (Fin 1)) = 1#1
  rw [Finset.univ_unique, Finset.fold_singleton]
  have hl : red_S1600000x1.lift (ix1 e) (default : Fin 1) = ix2 e (0 : Fin 1) :=
    (eq_ix2 _).trans rfl
  rw [hl, takeStart_apply c e h0]
  have hge : IntOp.cmpi .sge (c (ix1 e)) 0#32 = 1#1 := ofBool_decide (p := (0#32 : BitVec 32).toInt ≤ _) h0
  have hle : IntOp.cmpi .sle (c (ix1 e)) 249999#32 = 1#1 := ofBool_decide (p := _ ≤ (249999#32 : BitVec 32).toInt) h1
  rw [hge, hle]
  rfl

/-- With its position `p` in `[0, 249999]`, edge `e` receives `z[p]`. -/
theorem takeStage_apply {F : FTy → Type} [FloatOps F] (z : FVec F S1x250000 .f32) (c : IVec S1600000 32) (e : Fin 1600000)
    (hc : (c (ix1 e)).toInt = ((c (ix1 e)).toNat : ℤ)) (hle : (c (ix1 e)).toNat ≤ 249999) :
    takeStage z c (ix2 (0 : Fin 1) e) = z (ix2 (0 : Fin 1) (⟨(c (ix1 e)).toNat, by omega⟩ : Fin 250000)) := by
  have h0 : 0 ≤ (c (ix1 e)).toInt := by omega
  have h1 : (c (ix1 e)).toInt ≤ 249999 := by omega
  unfold takeStage takeSel
  rw [select_apply]
  have hm : broadcastInDim S1x1600000 ![1] bcast_S1600000_S1x1600000_1 (inRangeOf (takeStart c)) (ix2 (0 : Fin 1) e) = 1#1 := by
    rw [broadcastInDim_apply ![1] bcast_S1600000_S1x1600000_1 _ (ix2 (0 : Fin 1) e) (ix1 e) (fun a => by
      obtain rfl : a = 0 := Subsingleton.elim _ _
      rw [if_neg (by decide)]
      rfl)]
    exact inRange_apply c e h0 h1
  rw [hm, select_one, gather_apply]
  refine congrArg z (congrArg (ix2 (0 : Fin 1)) (Fin.ext ?_))
  show min (takeStart c (ix2 e (0 : Fin 1))).toInt.toNat 249999 = (c (ix1 e)).toNat
  rw [takeStart_apply c e h0]
  omega

/-- Column `o` of the edge table at edge `e` is entry `(e, o)`. -/
theorem edgeCol_apply (o : Nat) (ho : o < 2) (h : S1600000x2.Slices ![0, o] S1600000x1) (idx : IVec S1600000x2 32)
    (e : Fin 1600000) : edgeCol o h idx (ix1 e) = idx (ix2 e (⟨o, ho⟩ : Fin 2)) := by
  unfold edgeCol
  rw [shapeCast_apply _ shapeCasts_S1600000x1_S1600000 (ix1 e) (ix2 e (0 : Fin 1)) (by
    rw [Shape.rowMajor_val_two, Shape.rowMajor_val_one]
    show e.val * 1 + 0 = e.val
    omega)]
  exact extractStridedSlice_apply ![0, o] idx h (ix2 e (0 : Fin 1)) (ix2 e (⟨o, ho⟩ : Fin 2))
    (fun a => match a with
      | ⟨0, _⟩ => by show e.val = 0 + e.val; omega
      | ⟨1, _⟩ => rfl)

/-- An update lands at `i` exactly when, on every axis, its start plus its window coordinate is `i`'s coordinate. -/
theorem resultIdx?_eq_some_iff {s si u : Shape} {w : Nat} (d : ScatterDims s si u) (j : u.Idx) (idx : IVec si w) (i : s.Idx) :
    d.resultIdx? j idx = some i ↔ ∀ a, d.start j idx a + (d.window j a : ℤ) = ((i a).val : ℤ) := by
  unfold ScatterDims.resultIdx?
  constructor
  · intro h a
    split at h
    · rename_i hall
      have hv : (d.start j idx a + (d.window j a : ℤ)).toNat = (i a).val :=
        congrArg Fin.val (congrFun (Option.some.inj h) a)
      have hr := (hall a).1
      omega
    · exact absurd h (by simp)
  · intro h
    have hall : ∀ a, 0 ≤ d.start j idx a + (d.window j a : ℤ) ∧ d.start j idx a + (d.window j a : ℤ) < (s.size a : ℤ) :=
      fun a => by have := (i a).isLt; rw [h a]; omega
    rw [dif_pos hall]
    exact congrArg some (funext fun a => Fin.ext (by
      show (d.start j idx a + (d.window j a : ℤ)).toNat = (i a).val
      rw [h a]; omega))

/-- For this scatter the criterion reads: `si[e, 0]`, signed, is the row `i 0` (the other axis has one entry). -/
theorem scatter_resultIdx (si : IVec S1600000x1 32) (e : Fin 1600000) (i : S200000x1.Idx) :
    scatter_S200000x1_S1600000x1_S1600000x1_1_0_0_1.resultIdx? (ix2 e (0 : Fin 1)) si = some i
      ↔ (si (ix2 e (0 : Fin 1))).toInt = ((i 0).val : ℤ) := by
  have hs0 : scatter_S200000x1_S1600000x1_S1600000x1_1_0_0_1.start (ix2 e (0 : Fin 1)) si (0 : Fin 2) = (si (ix2 e (0 : Fin 1))).toInt := by
    unfold ScatterDims.start
    rw [dif_pos (show (0 : Fin 2) ∈ scatter_S200000x1_S1600000x1_S1600000x1_1_0_0_1.scatterDimsToOperandDims from List.mem_singleton.mpr rfl)]
    have hsi : scatter_S200000x1_S1600000x1_S1600000x1_1_0_0_1.siIdx (ix2 e (0 : Fin 1))
        ⟨List.idxOf (0 : Fin 2) scatter_S200000x1_S1600000x1_S1600000x1_1_0_0_1.scatterDimsToOperandDims,
          List.idxOf_lt_length_iff.2 (List.mem_singleton.mpr rfl)⟩ = ix2 e (0 : Fin 1) :=
      (eq_ix2 _).trans rfl
    rw [hsi]
  have hs1 : scatter_S200000x1_S1600000x1_S1600000x1_1_0_0_1.start (ix2 e (0 : Fin 1)) si (1 : Fin 2) = 0 := by
    unfold ScatterDims.start
    rw [dif_neg (by decide)]
  have hw0 : scatter_S200000x1_S1600000x1_S1600000x1_1_0_0_1.window (ix2 e (0 : Fin 1)) (0 : Fin 2) = 0 := by
    unfold ScatterDims.window
    rw [dif_neg (by decide)]
  have hw1 : scatter_S200000x1_S1600000x1_S1600000x1_1_0_0_1.window (ix2 e (0 : Fin 1)) (1 : Fin 2) = 0 := by
    unfold ScatterDims.window
    rw [dif_pos (by decide)]
    rfl
  have hi1 : (i (1 : Fin 2)).val < 1 := (i 1).isLt
  rw [resultIdx?_eq_some_iff]
  refine Fin.forall_fin_two.trans ?_
  rw [hs0, hs1, hw0, hw1]
  omega

/-- In the extended reals a scatter-add is the operand plus, at each element, the updates that land there. -/
theorem scatterAdd_apply {s si u : Shape} {wd : Nat} (d : ScatterDims s si u) (x : FVec Ideal s .f32) (idx : IVec si wd)
    (upd : FVec Ideal u .f32) (i : s.Idx) :
    (Host.scatterAdd d x idx upd i : EReal)
      = x i + ∑ j ∈ Finset.univ.filter (fun j => d.resultIdx? j idx = some i), upd j := rfl

/-- Summing over the update indices `(e, 0)` that satisfy `P` is summing over the edges `e` with `P (e, 0)`. -/
theorem sum_filter_col {M : Type*} [AddCommMonoid M] {N : Nat} (P : (⟨2, ![N, 1]⟩ : Shape).Idx → Prop) [DecidablePred P]
    (U : (⟨2, ![N, 1]⟩ : Shape).Idx → M) :
    ∑ j ∈ Finset.univ.filter P, U j
      = ∑ e ∈ Finset.univ.filter (fun e : Fin N => P (ix2 e (0 : Fin 1))), U (ix2 e (0 : Fin 1)) := by
  rw [Finset.sum_filter, sum_idx2, Finset.sum_filter]
  refine Finset.sum_congr rfl (fun e _ => ?_)
  rw [Fin.sum_univ_one]

/-- The recurrent input of receptor `r` of neuron `n`: over the edges of row `4 n + r`, spike at the position times weight, summed. -/
theorem irecStage_apply (z : FVec Ideal S1x250000 .f32) (w : FVec Ideal S1600000 .f32) (idx : IVec S1600000x2 32)
    (htoInt : ∀ i, (idx i).toInt = ((idx i).toNat : ℤ))
    (hcol : ∀ e : Fin 1600000, (idx (ix2 e (1 : Fin 2))).toNat ≤ 249999)
    (n : Fin 50000) (r : Fin 4) :
    (irecStage z w idx (ix3 (0 : Fin 1) n r) : EReal)
      = ∑ e ∈ Finset.univ.filter (fun e : Fin 1600000 => (idx (ix2 e (0 : Fin 2))).toNat = 4 * n.val + r.val),
          z (ix2 (0 : Fin 1) (⟨(idx (ix2 e (1 : Fin 2))).toNat, by have := hcol e; omega⟩ : Fin 250000)) * w (ix1 e) := by
  have hk : 4 * n.val + r.val < 200000 := by
    have := n.isLt
    have := r.isLt
    omega
  unfold irecStage irecTail
  rw [shapeCast_apply _ shapeCasts_S1x200000_S1x50000x4 (ix3 (0 : Fin 1) n r)
    (ix2 (0 : Fin 1) (⟨4 * n.val + r.val, hk⟩ : Fin 200000)) (by
      rw [Shape.rowMajor_val_two, Shape.rowMajor_val_three]
      show 0 * 200000 + (4 * n.val + r.val) = (0 * 50000 + n.val) * 4 + r.val
      omega),
    transpose_ix2_apply, scatterAdd_apply, broadcastInDim_scalar_apply, constant_apply, Ideal.ofBits_zero_f32,
    zero_add, sum_filter_col]
  refine Finset.sum_congr (Finset.filter_congr (fun e _ => ?_)) (fun e _ => ?_)
  · rw [scatter_resultIdx,
      broadcastInDim_apply ![0] bcast_S1600000_S1600000x1_0 _ (ix2 e (0 : Fin 1)) (ix1 e) (fun a => by
        obtain rfl : a = 0 := Subsingleton.elim _ _
        rw [if_neg (by decide)]
        rfl),
      edgeCol_apply 0 (by decide), htoInt]
    show ((idx (ix2 e (0 : Fin 2))).toNat : ℤ) = ((4 * n.val + r.val : ℕ) : ℤ) ↔ _
    exact Nat.cast_inj
  · rw [transpose_ix2_apply, mulf_apply,
      takeStage_apply z (edgeCol 1 slices_S1600000x2_S1600000x1_0_1 idx) e (by rw [edgeCol_apply 1 (by decide)]; exact htoInt _) (by rw [edgeCol_apply 1 (by decide)]; exact hcol e),
      broadcastInDim_apply ![1] bcast_S1600000_S1x1600000_1 _ (ix2 (0 : Fin 1) e) (ix1 e) (fun a => by
        obtain rfl : a = 0 := Subsingleton.elim _ _
        rw [if_neg (by decide)]
        rfl)]
    refine congrArg (· * w (ix1 e)) (congrArg z (congrArg (ix2 (0 : Fin 1)) (Fin.ext ?_)))
    exact congrArg BitVec.toNat (edgeCol_apply 1 (by decide) _ idx e)

/-- Slicing entry `o` out of a two-entry table and reshaping it to a scalar gives that entry. -/
theorem scalar_slice_apply {α : Type} (v : S2.Idx → α) (o : Nat) (ho : o < 2) (h : S2.Slices ![o] S1) (j : S_.Idx) :
    shapeCast S_ (extractStridedSlice S1 ![o] v h) shapeCasts_S1_S_ j = v (ix1 (⟨o, ho⟩ : Fin 2)) := by
  rw [shapeCast_apply _ shapeCasts_S1_S_ j (ix1 (0 : Fin 1)) (by
    rw [Shape.rowMajor_val_one]
    have := (S_.rowMajor j).isLt
    have h1 : S_.numel = 1 := rfl
    show 0 = _
    omega)]
  exact extractStridedSlice_apply ![o] v h (ix1 (0 : Fin 1)) (ix1 (⟨o, ho⟩ : Fin 2)) (fun a => by
    obtain rfl : a = 0 := Subsingleton.elim _ _
    show o = o + 0
    omega)

theorem word_apply {F : FTy → Type} [FloatOps F] (o : Nat) (ho : o < 2) (h : S2.Slices ![o] S1) (v : FVec F S2 .f32)
    (j : S1x50000.Idx) : word o h v j = v (ix1 (⟨o, ho⟩ : Fin 2)) := by
  unfold word
  rw [broadcastInDim_scalar_apply]
  exact scalar_slice_apply v o ho h _

theorem prevZ_apply {F : FTy → Type} [FloatOps F] (z : FVec F S1x250000 .f32) (n : Fin 50000) :
    prevZ z (ix2 (0 : Fin 1) n) = z (ix2 (0 : Fin 1) (⟨n.val, by have := n.isLt; omega⟩ : Fin 250000)) := by
  unfold prevZ
  exact extractStridedSlice_apply ![0, 0] z slices_S1x250000_S1x50000_0_0 (ix2 (0 : Fin 1) n) _
    (fun a => match a with
      | ⟨0, _⟩ => rfl
      | ⟨1, _⟩ => by show n.val = 0 + n.val; omega)

theorem perNeuron_apply {F : FTy → Type} [FloatOps F] (v : FVec F S50000 .f32) (n : Fin 50000) :
    perNeuron v (ix2 (0 : Fin 1) n) = v (ix1 n) := by
  unfold perNeuron
  exact broadcastInDim_apply ![1] bcast_S50000_S1x50000_1 v (ix2 (0 : Fin 1) n) (ix1 n) (fun a => by
    obtain rfl : a = 0 := Subsingleton.elim _ _
    rw [if_neg (by decide)]
    rfl)

theorem perRcp_apply {F : FTy → Type} [FloatOps F] (v : FVec F S4 .f32) (n : Fin 50000) (k : Fin 4) :
    perRcp v (ix3 (0 : Fin 1) n k) = v (ix1 k) := by
  unfold perRcp
  rw [broadcastInDim_apply ![0, 1, 2] bcast_S1x1x4_S1x50000x4_0_1_2 _ (ix3 (0 : Fin 1) n k)
    (ix3 (0 : Fin 1) (0 : Fin 1) k) (fun a => match a with
      | ⟨0, _⟩ => (if_pos rfl).symm
      | ⟨1, _⟩ => (if_pos rfl).symm
      | ⟨2, _⟩ => (if_neg (by show ¬ (4 : ℕ) = 1; decide)).symm)]
  exact broadcastInDim_apply ![2] bcast_S4_S1x1x4_2 v (ix3 (0 : Fin 1) (0 : Fin 1) k) (ix1 k) (fun a => by
    obtain rfl : a = 0 := Subsingleton.elim _ _
    rw [if_neg (by decide)]
    rfl)

theorem pscCast_apply {α : Type} (psc : S1x200000.Idx → α) (n : Fin 50000) (k : Fin 4) :
    shapeCast S1x50000x4 psc shapeCasts_S1x200000_S1x50000x4 (ix3 (0 : Fin 1) n k)
      = psc (ix2 (0 : Fin 1) (⟨4 * n.val + k.val, by have := n.isLt; have := k.isLt; omega⟩ : Fin 200000)) :=
  shapeCast_apply psc shapeCasts_S1x200000_S1x50000x4 (ix3 (0 : Fin 1) n k) _ (by
    rw [Shape.rowMajor_val_two, Shape.rowMajor_val_three]
    show 0 * 200000 + (4 * n.val + k.val) = (0 * 50000 + n.val) * 4 + k.val
    omega)

theorem red_S1x50000x4 : S1x50000x4.Reduces [2] S1x50000 := by decide

/-- An after-spike contribution at neuron `n`: `k_decay[o] · asc + prev_z · asc_amps[o]`. -/
theorem ascTerm_apply (o : Nat) (ho : o < 2) (h : S2.Slices ![o] S1) (z : FVec Ideal S1x250000 .f32)
    (asc : FVec Ideal S1x50000 .f32) (aa kd : FVec Ideal S2 .f32) (n : Fin 50000) :
    (ascTerm o h z asc aa kd (ix2 (0 : Fin 1) n) : EReal)
      = kd (ix1 (⟨o, ho⟩ : Fin 2)) * asc (ix2 (0 : Fin 1) n)
        + z (ix2 (0 : Fin 1) (⟨n.val, by have := n.isLt; omega⟩ : Fin 250000)) * aa (ix1 (⟨o, ho⟩ : Fin 2)) := by
  unfold ascTerm
  rw [addf_apply, mulf_apply, mulf_apply, prevZ_apply, word_apply o ho h kd, word_apply o ho h aa]

/-- The input current of neuron `n`: `∑ k, (psc · sd + i_rec · pi)`, the external current, the two after-spike terms. -/
theorem curStage_apply (irec : FVec Ideal S1x50000x4 .f32) (z : FVec Ideal S1x250000 .f32)
    (a1 a2 : FVec Ideal S1x50000 .f32) (psc : FVec Ideal S1x200000 .f32) (ext : FVec Ideal S1x50000 .f32)
    (sd pi : FVec Ideal S4 .f32) (aa kd : FVec Ideal S2 .f32) (n : Fin 50000) :
    (curStage irec z a1 a2 psc ext sd pi aa kd (ix2 (0 : Fin 1) n) : EReal)
      = (∑ k : Fin 4, (psc (ix2 (0 : Fin 1) (⟨4 * n.val + k.val, by have := n.isLt; have := k.isLt; omega⟩ : Fin 200000))
              * sd (ix1 k) + irec (ix3 (0 : Fin 1) n k) * pi (ix1 k)))
          + ext (ix2 (0 : Fin 1) n)
          + (kd (ix1 (0 : Fin 2)) * a1 (ix2 (0 : Fin 1) n)
              + z (ix2 (0 : Fin 1) (⟨n.val, by have := n.isLt; omega⟩ : Fin 250000)) * aa (ix1 (0 : Fin 2)))
          + (kd (ix1 (1 : Fin 2)) * a2 (ix2 (0 : Fin 1) n)
              + z (ix2 (0 : Fin 1) (⟨n.val, by have := n.isLt; omega⟩ : Fin 250000)) * aa (ix1 (1 : Fin 2))) := by
  unfold curStage
  rw [addf_apply, addf_apply, addf_apply, ascTerm_apply 0 (by decide), ascTerm_apply 1 (by decide), hostReduceAdd_apply,
    Ideal.hostReduceAdd_single reducesTo_S1x50000x4_S1x50000_d2 red_S1x50000x4, constant_apply, Ideal.ofBits_zero_f32,
    zero_add]
  refine congrArg (· + _) (congrArg (· + _) (congrArg (· + _) ?_))
  show ∑ k : Fin 4, _ = _
  refine Finset.sum_congr rfl (fun k _ => ?_)
  have hl : red_S1x50000x4.lift (ix2 (0 : Fin 1) n) k = ix3 (0 : Fin 1) n k :=
    (eq_ix3 _).trans rfl
  rw [hl, addf_apply, mulf_apply, mulf_apply, perRcp_apply, perRcp_apply]
  exact congrArg (· * sd (ix1 k) + _) (pscCast_apply psc n k)

theorem constRow_apply (b : BitVec 32) (j : S1x50000.Idx) :
    (constRow (F := Ideal) b j : EReal) = Ideal.ofBits .f32 b := by
  unfold constRow
  rw [broadcastInDim_scalar_apply, constant_apply]

theorem newR_apply (pz r : FVec Ideal S1x50000 .f32) (tref : FVec Ideal S50000 .f32) (n : Fin 50000) :
    (newR pz r tref (ix2 (0 : Fin 1) n) : EReal)
      = max (r (ix2 (0 : Fin 1) n) + pz (ix2 (0 : Fin 1) n) * tref (ix1 n) - Ideal.ofBits .f32 0x3F800000#32)
          (Ideal.ofBits .f32 0x00000000#32) := by
  unfold newR
  rw [maximumf_apply, subf_apply, addf_apply, mulf_apply, perNeuron_apply, constRow_apply, constRow_apply]

theorem newV_apply (cur pz v : FVec Ideal S1x50000 .f32) (decay cf vreset : FVec Ideal S50000 .f32) (n : Fin 50000) :
    (newV cur pz v decay cf vreset (ix2 (0 : Fin 1) n) : EReal)
      = Scalar.select (Ideal.cmp .ogt (pz (ix2 (0 : Fin 1) n)) (Ideal.ofBits .f32 0x3F000000#32))
          (vreset (ix1 n))
          (decay (ix1 n) * v (ix2 (0 : Fin 1) n) + cf (ix1 n) * cur (ix2 (0 : Fin 1) n)) := by
  unfold newV
  rw [select_apply, cmpf_apply, constRow_apply, perNeuron_apply, addf_apply, mulf_apply, mulf_apply, perNeuron_apply,
    perNeuron_apply]
  rfl

theorem vScaled_apply (nv : FVec Ideal S1x50000 .f32) (vth el : FVec Ideal S50000 .f32) (n : Fin 50000) :
    (vScaled nv vth el (ix2 (0 : Fin 1) n) : EReal)
      = Ideal.div (nv (ix2 (0 : Fin 1) n) - vth (ix1 n))
          (vth (ix1 n) - el (ix1 n) + Ideal.ofBits .f32 0x322BCC77#32) := by
  unfold vScaled
  rw [hostDivf_apply, subf_apply, addf_apply, subf_apply, perNeuron_apply, perNeuron_apply, constRow_apply]

/-- Zero-extending one bit to 32 and reading it signed gives the bit's value. -/
theorem setWidth_toInt_bit : ∀ b : BitVec 1, (b.setWidth 32).toInt = (b.toNat : ℤ) := by decide

/-- The reference's result at neuron `n` is the per-neuron update of its input current and its entries of the other inputs. -/
theorem resultTerm_apply (a0 : FVec Ideal S1x250000 .f32) (a1 a2 a3 a4 : FVec Ideal S1x50000 .f32)
    (a5 : FVec Ideal S1x200000 .f32) (a6 : FVec Ideal S1600000 .f32) (a7 : FVec Ideal S1x50000 .f32)
    (a8 a9 : FVec Ideal S4 .f32) (a10 a11 : FVec Ideal S2 .f32) (a12 a13 a14 a15 a16 a17 : FVec Ideal S50000 .f32)
    (a18 : IVec S1600000x2 32)
    (htoInt : ∀ i, (a18 i).toInt = ((a18 i).toNat : ℤ))
    (hcol : ∀ e : Fin 1600000, (a18 (ix2 e (1 : Fin 2))).toNat ≤ 249999)
    (n : Fin 50000) :
    (resultTerm (F := Ideal) a0 a1 a2 a3 a4 a5 a6 a7 a8 a9 a10 a11 a12 a13 a14 a15 a16 a17 a18 (ix2 (0 : Fin 1) n) : EReal)
      = Cert.Proof.Update.updAt
          (∑ k : Fin 4, (a5 (ix2 (0 : Fin 1) (⟨4 * n.val + k.val, by have := n.isLt; have := k.isLt; omega⟩ : Fin 200000))
              * a8 (ix1 k)
            + (∑ e ∈ Finset.univ.filter (fun e : Fin 1600000 => (a18 (ix2 e (0 : Fin 2))).toNat = 4 * n.val + k.val),
                a0 (ix2 (0 : Fin 1) (⟨(a18 (ix2 e (1 : Fin 2))).toNat, by have := hcol e; omega⟩ : Fin 250000)) * a6 (ix1 e))
              * a9 (ix1 k)))
          (a0 (ix2 (0 : Fin 1) (⟨n.val, by have := n.isLt; omega⟩ : Fin 250000)))
          (a1 (ix2 (0 : Fin 1) n)) (a2 (ix2 (0 : Fin 1) n)) (a3 (ix2 (0 : Fin 1) n)) (a4 (ix2 (0 : Fin 1) n))
          (a7 (ix2 (0 : Fin 1) n)) (a12 (ix1 n)) (a13 (ix1 n)) (a14 (ix1 n)) (a15 (ix1 n)) (a16 (ix1 n)) (a17 (ix1 n))
          (a11 (ix1 (0 : Fin 2))) (a11 (ix1 (1 : Fin 2))) (a10 (ix1 (0 : Fin 2))) (a10 (ix1 (1 : Fin 2))) := by
  unfold resultTerm closeStage
  rw [select_apply, cmpf_apply, newR_apply, prevZ_apply, constRow_apply]
  have hu : ∀ b : BitVec 1, (FloatOps.uitofp (F := Ideal) .f32 b : EReal) = (((b.setWidth 32).toInt : ℝ) : EReal) := by
    intro b
    show (((b.toNat : ℝ)) : EReal) = _
    rw [setWidth_toInt_bit b, Int.cast_natCast]
  show Scalar.select _ _ (FloatOps.uitofp (F := Ideal) .f32 (FloatOps.cmpf .ogt
      (vScaled (newV (curStage (irecStage a0 a6 a18) a0 a3 a4 a5 a7 a8 a9 a10 a11) (prevZ a0) a1 a12 a13 a15) a14 a16 (ix2 (0 : Fin 1) n))
      (constRow (F := Ideal) 0x00000000#32 (ix2 (0 : Fin 1) n)))) = _
  rw [hu, constRow_apply, vScaled_apply, newV_apply, prevZ_apply, curStage_apply]
  simp only [irecStage_apply a0 a6 a18 htoInt hcol n]
  rfl

end Cert.Proof.RefValue

end
-- ==== Proof.Bridge.lean ====
import proofs.«215744_g19043884990565_cont_8to1_1279_72_alg».proof.Proof.ArgsKept
import proofs.«215744_g19043884990565_cont_8to1_1279_72_alg».proof.Proof.PackBody
import proofs.«215744_g19043884990565_cont_8to1_1279_72_alg».proof.Proof.Algebra
import proofs.«215744_g19043884990565_cont_8to1_1279_72_alg».proof.Proof.UpdAt
import proofs.«215744_g19043884990565_cont_8to1_1279_72_alg».proof.Proof.RefValue
import proofs.«215744_g19043884990565_cont_8to1_1279_72_alg».proof.Proof.UpdateBody

noncomputable section

namespace Cert.Proof.Bridge

open Cert.KernelIdeal Cert.KernelIdeal.Gen
open Idealize.ShloMosaic Idealize.ShloMosaic.ValueIdx
open Cert.Proof.Launch
open scoped BigOperators

variable [Cert.Pre_input_domain.Facts]
variable (m : (ℓ : Loc nD τ sig) → Buf (Elt Ideal) ℓ) (d : Dev nD)

abbrev zA : FVec Ideal S1x250000 .f32 := m (d, rf main_arg0)
abbrev pscA : FVec Ideal S1x200000 .f32 := m (d, rf main_arg5)
abbrev wA : FVec Ideal S1600000 .f32 := m (d, rf main_arg6)
abbrev sdA : FVec Ideal S4 .f32 := m (d, rf main_arg8)
abbrev piA : FVec Ideal S4 .f32 := m (d, rf main_arg9)
abbrev idxA : IVec S1600000x2 32 := m (d, rf main_arg18)

theorem hcolA (hP : KHost.PreAt (V0 m d)) : ∀ e : Fin 1600000, (idxA m d (ix2 e (1 : Fin 2))).toNat ≤ 249999 :=
  fun e => Cert.Proof.PreFacts.idx_col_le _ _ _ _ _ _ _ _ _ _ _ _ _ _ _ _ _ _ _ hP e
theorem htoIntA (hP : KHost.PreAt (V0 m d)) : ∀ i, (idxA m d i).toInt = ((idxA m d i).toNat : ℤ) :=
  fun i => Cert.Proof.PreFacts.idx_toInt _ _ _ _ _ _ _ _ _ _ _ _ _ _ _ _ _ _ _ hP i

theorem parts_sum (hP : KHost.PreAt (V0 m d)) (n : Fin 50000) :
    ((∑ t : Fin 32, (VB m Pack.packed Tile.tileOut d (rf main_v9) : FVec Ideal S32x50176 .f32)
        (ix2 t (⟨n.val, by have := n.isLt; omega⟩ : Fin 50176))) : EReal) =
    ∑ k : Fin 4, (pscA m d (ix2 (0 : Fin 1) (⟨4 * n.val + k.val, by have := n.isLt; have := k.isLt; omega⟩ : Fin 200000)) * sdA m d (ix1 k)
      + (∑ e ∈ Finset.univ.filter (fun e : Fin 1600000 => (idxA m d (ix2 e (0 : Fin 2))).toNat = 4 * n.val + k.val),
          zA m d (ix2 (0 : Fin 1) (⟨(idxA m d (ix2 e (1 : Fin 2))).toNat, by have := hcolA m d hP e; omega⟩ : Fin 250000)) * wA m d (ix1 e))
        * piA m d (ix1 k)) := by
  refine (Finset.sum_congr rfl fun t _ => ?_).trans ((Algebra.parts_sum_eq (Pack.packed (VA m d (rf main_v7))) (VA m d (rf main_v4)) (VA m d (rf main_v5)) (VA m d (rf main_v6))
    (VA m d (rf main_v1)) (VA m d (rf main_v3)) (m (d, rf main_arg6)) (zA m d) (pscA m d) (sdA m d) (piA m d)
    (Pack.zrow (VA m d (rf main_v7)))
    (fun j hj => by unfold Pack.zrow; rw [dif_pos hj]; exact KHost.zpad_01 (V0 m d) hP ⟨j, hj⟩)
    (fun j h => by
      unfold Pack.zrow; rw [dif_pos (show j < 262144 by omega)]
      exact (KHost.VA_v7 (V0 m d) ⟨j, by omega⟩).trans (dif_pos h))
    (fun wd => Pack.packed_apply (VA m d (rf main_v7)) wd)
    (fun x => by rw [eq_ix1 x]; exact KHost.rows_le (V0 m d) hP _)
    (fun x => by rw [eq_ix1 x]; exact KHost.cols_le (V0 m d) hP _)
    (fun x => Cert.Proof.PreFacts.w_real _ _ _ _ _ _ _ _ _ _ _ _ _ _ _ _ _ _ _ hP x)
    (fun r => (KHost.VA_v4 (V0 m d) ⟨r.val, by have := r.isLt; omega⟩).trans (dif_pos r.isLt))
    (fun r => (KHost.VA_v5 (V0 m d) ⟨r.val + 1, by have := r.isLt; omega⟩).trans
      ((dif_pos (show 1 ≤ r.val + 1 ∧ r.val + 1 ≤ 4 from ⟨by omega, by have := r.isLt; omega⟩)).trans
        (congrArg (fun q : Fin 4 => sdA m d (ix1 q)) (Fin.ext (Nat.add_sub_cancel r.val 1)))))
    (fun k => (KHost.VA_v6 (V0 m d) ⟨k.val, by have := k.isLt; omega⟩).trans (dif_pos k.isLt))
    (fun x => Cert.Proof.PreFacts.pi_real _ _ _ _ _ _ _ _ _ _ _ _ _ _ _ _ _ _ _ hP x)
    (fun x => Cert.Proof.PreFacts.sd_real _ _ _ _ _ _ _ _ _ _ _ _ _ _ _ _ _ _ _ hP x)
    (fun x => Cert.Proof.PreFacts.psc_real _ _ _ _ _ _ _ _ _ _ _ _ _ _ _ _ _ _ _ hP x) n).trans ?_)
  · rw [VB_v9, poOf_apply, Algebra.ix_eq_ix1]
  refine Finset.sum_congr rfl (fun k _ => ?_)
  refine congrArg (fun S : EReal =>
    pscA m d (ix2 (0 : Fin 1) (⟨4 * n.val + k.val, by have := n.isLt; have := k.isLt; omega⟩ : Fin 200000)) * sdA m d (ix1 k)
      + S * piA m d (ix1 k)) ?_
  refine Finset.sum_congr (Finset.filter_congr fun e _ => ?_) (fun e _ => ?_)
  · have hr : (VA m d (rf main_v1) : IVec S1600000 32) (Tile.ix e) = idxA m d (ix2 e (0 : Fin 2)) := by
      rw [Algebra.ix_eq_ix1]; exact KHost.VA_v1 (V0 m d) e
    exact Iff.of_eq (congrArg (fun x : BitVec 32 => x.toNat = 4 * n.val + k.val) hr)
  · have hc : (VA m d (rf main_v3) : IVec S1600000 32) (Tile.ix e) = idxA m d (ix2 e (1 : Fin 2)) := by
      rw [Algebra.ix_eq_ix1]; exact KHost.VA_v3 (V0 m d) e
    refine congrArg₂ (fun a b : EReal => a * b)
      (congrArg (fun q : Fin 250000 => zA m d (ix2 (0 : Fin 1) q)) (Fin.ext ?_)) ?_
    · exact congrArg BitVec.toNat hc
    · rw [Algebra.ix_eq_ix1]

variable (updF : Vec Ideal S32x50176 .f32 → Vec Ideal S1x50000 .f32 → Vec Ideal S1x50000 .f32 → Vec Ideal S1x50000 .f32 → Vec Ideal S1x50000 .f32 → Vec Ideal S1x50000 .f32
  → Vec Ideal S1x50000 .f32 → Vec Ideal S1x50000 .f32 → Vec Ideal S1x50000 .f32 → Vec Ideal S1x50000 .f32 → Vec Ideal S1x50000 .f32 → Vec Ideal S1x50000 .f32
  → Vec Ideal S1x50000 .f32 → Vec Ideal S2 .f32 → Vec Ideal S2 .f32 → Vec Ideal S1x50000 .f32)

theorem result_eq_reference_of (m' : (ℓ : Loc Cert.ReferenceIdeal.nD Cert.ReferenceIdeal.τ Cert.ReferenceIdeal.sig) → Buf (Elt Ideal) ℓ)
    (hP : KHost.PreAt (V0 m d))
    (hout : ∀ (parts : Vec Ideal S32x50176 .f32) (v r a1 a2 ext pz decay cf vth vrst el tref : Vec Ideal S1x50000 .f32)
        (kd aa : Vec Ideal S2 .f32) (n : Fin 50000),
      updF parts v r a1 a2 ext pz decay cf vth vrst el tref kd aa (ix2 (0 : Fin 1) n)
        = Update.updAt (∑ t : Fin 32, parts (ix2 t (⟨n.val, by have := n.isLt; omega⟩ : Fin 50176)))
            (pz (ix2 (0 : Fin 1) n)) (v (ix2 (0 : Fin 1) n)) (r (ix2 (0 : Fin 1) n)) (a1 (ix2 (0 : Fin 1) n)) (a2 (ix2 (0 : Fin 1) n))
            (ext (ix2 (0 : Fin 1) n)) (decay (ix2 (0 : Fin 1) n)) (cf (ix2 (0 : Fin 1) n)) (vth (ix2 (0 : Fin 1) n))
            (vrst (ix2 (0 : Fin 1) n)) (el (ix2 (0 : Fin 1) n)) (tref (ix2 (0 : Fin 1) n))
            (kd (ix1 (0 : Fin 2))) (kd (ix1 (1 : Fin 2))) (aa (ix1 (0 : Fin 2))) (aa (ix1 (1 : Fin 2))))
    (hagree : m' ((d.tc : Thread Cert.ReferenceIdeal.nD Cert.ReferenceIdeal.τ).loc Cert.ReferenceIdeal.main_arg0) = m ((d.tc : Thread nD τ).loc main_arg0)
      ∧ m' ((d.tc : Thread Cert.ReferenceIdeal.nD Cert.ReferenceIdeal.τ).loc Cert.ReferenceIdeal.main_arg1) = m ((d.tc : Thread nD τ).loc main_arg1)
      ∧ m' ((d.tc : Thread Cert.ReferenceIdeal.nD Cert.ReferenceIdeal.τ).loc Cert.ReferenceIdeal.main_arg2) = m ((d.tc : Thread nD τ).loc main_arg2)
      ∧ m' ((d.tc : Thread Cert.ReferenceIdeal.nD Cert.ReferenceIdeal.τ).loc Cert.ReferenceIdeal.main_arg3) = m ((d.tc : Thread nD τ).loc main_arg3)
      ∧ m' ((d.tc : Thread Cert.ReferenceIdeal.nD Cert.ReferenceIdeal.τ).loc Cert.ReferenceIdeal.main_arg4) = m ((d.tc : Thread nD τ).loc main_arg4)
      ∧ m' ((d.tc : Thread Cert.ReferenceIdeal.nD Cert.ReferenceIdeal.τ).loc Cert.ReferenceIdeal.main_arg5) = m ((d.tc : Thread nD τ).loc main_arg5)
      ∧ m' ((d.tc : Thread Cert.ReferenceIdeal.nD Cert.ReferenceIdeal.τ).loc Cert.ReferenceIdeal.main_arg6) = m ((d.tc : Thread nD τ).loc main_arg6)
      ∧ m' ((d.tc : Thread Cert.ReferenceIdeal.nD Cert.ReferenceIdeal.τ).loc Cert.ReferenceIdeal.main_arg7) = m ((d.tc : Thread nD τ).loc main_arg7)
      ∧ m' ((d.tc : Thread Cert.ReferenceIdeal.nD Cert.ReferenceIdeal.τ).loc Cert.ReferenceIdeal.main_arg8) = m ((d.tc : Thread nD τ).loc main_arg8)
      ∧ m' ((d.tc : Thread Cert.ReferenceIdeal.nD Cert.ReferenceIdeal.τ).loc Cert.ReferenceIdeal.main_arg9) = m ((d.tc : Thread nD τ).loc main_arg9)
      ∧ m' ((d.tc : Thread Cert.ReferenceIdeal.nD Cert.ReferenceIdeal.τ).loc Cert.ReferenceIdeal.main_arg10) = m ((d.tc : Thread nD τ).loc main_arg10)
      ∧ m' ((d.tc : Thread Cert.ReferenceIdeal.nD Cert.ReferenceIdeal.τ).loc Cert.ReferenceIdeal.main_arg11) = m ((d.tc : Thread nD τ).loc main_arg11)
      ∧ m' ((d.tc : Thread Cert.ReferenceIdeal.nD Cert.ReferenceIdeal.τ).loc Cert.ReferenceIdeal.main_arg12) = m ((d.tc : Thread nD τ).loc main_arg12)
      ∧ m' ((d.tc : Thread Cert.ReferenceIdeal.nD Cert.ReferenceIdeal.τ).loc Cert.ReferenceIdeal.main_arg13) = m ((d.tc : Thread nD τ).loc main_arg13)
      ∧ m' ((d.tc : Thread Cert.ReferenceIdeal.nD Cert.ReferenceIdeal.τ).loc Cert.ReferenceIdeal.main_arg14) = m ((d.tc : Thread nD τ).loc main_arg14)
      ∧ m' ((d.tc : Thread Cert.ReferenceIdeal.nD Cert.ReferenceIdeal.τ).loc Cert.ReferenceIdeal.main_arg15) = m ((d.tc : Thread nD τ).loc main_arg15)
      ∧ m' ((d.tc : Thread Cert.ReferenceIdeal.nD Cert.ReferenceIdeal.τ).loc Cert.ReferenceIdeal.main_arg16) = m ((d.tc : Thread nD τ).loc main_arg16)
      ∧ m' ((d.tc : Thread Cert.ReferenceIdeal.nD Cert.ReferenceIdeal.τ).loc Cert.ReferenceIdeal.main_arg17) = m ((d.tc : Thread nD τ).loc main_arg17)
      ∧ m' ((d.tc : Thread Cert.ReferenceIdeal.nD Cert.ReferenceIdeal.τ).loc Cert.ReferenceIdeal.main_arg18) = m ((d.tc : Thread nD τ).loc main_arg18)) :
    (V3 m Pack.packed Tile.tileOut updF d (rf main_v17) : FVec Ideal S1x50000 .f32)
      = RefRun.resultTerm (F := Ideal) (m' ((d.tc : Thread Cert.ReferenceIdeal.nD Cert.ReferenceIdeal.τ).loc Cert.ReferenceIdeal.main_arg0))
          (m' ((d.tc : Thread Cert.ReferenceIdeal.nD Cert.ReferenceIdeal.τ).loc Cert.ReferenceIdeal.main_arg1))
          (m' ((d.tc : Thread Cert.ReferenceIdeal.nD Cert.ReferenceIdeal.τ).loc Cert.ReferenceIdeal.main_arg2))
          (m' ((d.tc : Thread Cert.ReferenceIdeal.nD Cert.ReferenceIdeal.τ).loc Cert.ReferenceIdeal.main_arg3))
          (m' ((d.tc : Thread Cert.ReferenceIdeal.nD Cert.ReferenceIdeal.τ).loc Cert.ReferenceIdeal.main_arg4))
          (m' ((d.tc : Thread Cert.ReferenceIdeal.nD Cert.ReferenceIdeal.τ).loc Cert.ReferenceIdeal.main_arg5))
          (m' ((d.tc : Thread Cert.ReferenceIdeal.nD Cert.ReferenceIdeal.τ).loc Cert.ReferenceIdeal.main_arg6))
          (m' ((d.tc : Thread Cert.ReferenceIdeal.nD Cert.ReferenceIdeal.τ).loc Cert.ReferenceIdeal.main_arg7))
          (m' ((d.tc : Thread Cert.ReferenceIdeal.nD Cert.ReferenceIdeal.τ).loc Cert.ReferenceIdeal.main_arg8))
          (m' ((d.tc : Thread Cert.ReferenceIdeal.nD Cert.ReferenceIdeal.τ).loc Cert.ReferenceIdeal.main_arg9))
          (m' ((d.tc : Thread Cert.ReferenceIdeal.nD Cert.ReferenceIdeal.τ).loc Cert.ReferenceIdeal.main_arg10))
          (m' ((d.tc : Thread Cert.ReferenceIdeal.nD Cert.ReferenceIdeal.τ).loc Cert.ReferenceIdeal.main_arg11))
          (m' ((d.tc : Thread Cert.ReferenceIdeal.nD Cert.ReferenceIdeal.τ).loc Cert.ReferenceIdeal.main_arg12))
          (m' ((d.tc : Thread Cert.ReferenceIdeal.nD Cert.ReferenceIdeal.τ).loc Cert.ReferenceIdeal.main_arg13))
          (m' ((d.tc : Thread Cert.ReferenceIdeal.nD Cert.ReferenceIdeal.τ).loc Cert.ReferenceIdeal.main_arg14))
          (m' ((d.tc : Thread Cert.ReferenceIdeal.nD Cert.ReferenceIdeal.τ).loc Cert.ReferenceIdeal.main_arg15))
          (m' ((d.tc : Thread Cert.ReferenceIdeal.nD Cert.ReferenceIdeal.τ).loc Cert.ReferenceIdeal.main_arg16))
          (m' ((d.tc : Thread Cert.ReferenceIdeal.nD Cert.ReferenceIdeal.τ).loc Cert.ReferenceIdeal.main_arg17))
          (m' ((d.tc : Thread Cert.ReferenceIdeal.nD Cert.ReferenceIdeal.τ).loc Cert.ReferenceIdeal.main_arg18)) := by
  obtain ⟨h0, h1, h2, h3, h4, h5, h6, h7, h8, h9, h10, h11, h12, h13, h14, h15, h16, h17, h18⟩ := hagree
  rw [h0, h1, h2, h3, h4, h5, h6, h7, h8, h9, h10, h11, h12, h13, h14, h15, h16, h17, h18]
  funext j
  obtain ⟨n, rfl⟩ : ∃ n : Fin 50000, j = ix2 (0 : Fin 1) n :=
    ⟨j 1, (eq_ix2 j).trans (congrArg (fun a : Fin 1 => ix2 a (j 1)) (Fin.eq_zero (j 0)))⟩
  have hB := VB_arg m Pack.packed Tile.tileOut d
  have h2 := fun r hr => congrFun (V2_arg m Pack.packed Tile.tileOut d r hr)
  have hz : (VB m Pack.packed Tile.tileOut d (rf main_v10) : FVec Ideal S1x50000 .f32) (ix2 (0 : Fin 1) n) = _ :=
    (KHost.VB_v10 (V2 m Pack.packed Tile.tileOut d) n).trans (h2 main_arg0 (by decide) _)
  have hdecay : (VB m Pack.packed Tile.tileOut d (rf main_v11) : FVec Ideal S1x50000 .f32) (ix2 (0 : Fin 1) n) = _ :=
    (KHost.VB_v11 (V2 m Pack.packed Tile.tileOut d) n).trans (h2 main_arg12 (by decide) _)
  have hcf : (VB m Pack.packed Tile.tileOut d (rf main_v12) : FVec Ideal S1x50000 .f32) (ix2 (0 : Fin 1) n) = _ :=
    (KHost.VB_v12 (V2 m Pack.packed Tile.tileOut d) n).trans (h2 main_arg13 (by decide) _)
  have hvth : (VB m Pack.packed Tile.tileOut d (rf main_v13) : FVec Ideal S1x50000 .f32) (ix2 (0 : Fin 1) n) = _ :=
    (KHost.VB_v13 (V2 m Pack.packed Tile.tileOut d) n).trans (h2 main_arg14 (by decide) _)
  have hvrst : (VB m Pack.packed Tile.tileOut d (rf main_v14) : FVec Ideal S1x50000 .f32) (ix2 (0 : Fin 1) n) = _ :=
    (KHost.VB_v14 (V2 m Pack.packed Tile.tileOut d) n).trans (h2 main_arg15 (by decide) _)
  have hel : (VB m Pack.packed Tile.tileOut d (rf main_v15) : FVec Ideal S1x50000 .f32) (ix2 (0 : Fin 1) n) = _ :=
    (KHost.VB_v15 (V2 m Pack.packed Tile.tileOut d) n).trans (h2 main_arg16 (by decide) _)
  have htref : (VB m Pack.packed Tile.tileOut d (rf main_v16) : FVec Ideal S1x50000 .f32) (ix2 (0 : Fin 1) n) = _ :=
    (KHost.VB_v16 (V2 m Pack.packed Tile.tileOut d) n).trans (h2 main_arg17 (by decide) _)
  rw [V3_result, hout, parts_sum m d hP n, hz, hdecay, hcf, hvth, hvrst, hel, htref,
    hB main_arg1 (by decide), hB main_arg2 (by decide), hB main_arg3 (by decide), hB main_arg4 (by decide),
    hB main_arg7 (by decide), hB main_arg11 (by decide), hB main_arg10 (by decide)]
  exact (RefValue.resultTerm_apply _ _ _ _ _ _ _ _ _ _ _ _ _ _ _ _ _ _ _ (htoIntA m d hP) (hcolA m d hP) n).symm

end Cert.Proof.Bridge

end
-- ==== Proof.lean ====
import proofs.«215744_g19043884990565_cont_8to1_1279_72_alg».proof.Defs
import proofs.«215744_g19043884990565_cont_8to1_1279_72_alg».proof.Proof.Gen.Kernel
import proofs.«215744_g19043884990565_cont_8to1_1279_72_alg».proof.Proof.Gen.KernelIdeal
import proofs.«215744_g19043884990565_cont_8to1_1279_72_alg».proof.Proof.Gen.ReferenceIdeal
import proofs.«215744_g19043884990565_cont_8to1_1279_72_alg».proof.Proof.Gen.Pre_input_domain
import proofs.«215744_g19043884990565_cont_8to1_1279_72_alg».proof.Proof.Final
import proofs.«215744_g19043884990565_cont_8to1_1279_72_alg».proof.Proof.Frames
import proofs.«215744_g19043884990565_cont_8to1_1279_72_alg».proof.Proof.Bits.Final
import proofs.«215744_g19043884990565_cont_8to1_1279_72_alg».proof.Proof.Bits.Frames
import proofs.«215744_g19043884990565_cont_8to1_1279_72_alg».proof.Proof.RefRun
import proofs.«215744_g19043884990565_cont_8to1_1279_72_alg».proof.Proof.Bridge
import proofs.«215744_g19043884990565_cont_8to1_1279_72_alg».proof.Proof.UpdateBody

noncomputable section

namespace Cert.Proof

open Idealize.ShloMosaic Idealize.SL.Sem

theorem frame_k : Cert.frame_Kernel (hKernel := Cert.Kernel.Gen.facts) (hPre_input_domain := Cert.Pre_input_domain.Gen.facts) := fun m g hpre =>
  (θ_run (Cert.Kernel.defs (F := Bits)) _ _).mono
    (fun r h c => Cert.ProofB.Launch.post_args m Cert.ProofB.Pack.packed Tile.tileOut Cert.ProofB.Update.out r h c)
    (Cert.ProofB.Launch.run_all m g (fun d => hpre d))

theorem frame_ki : Cert.frame_KernelIdeal (hKernelIdeal := Cert.KernelIdeal.Gen.facts) (hPre_input_domain := Cert.Pre_input_domain.Gen.facts) := fun m g hpre =>
  (θ_run (Cert.KernelIdeal.defs (F := Ideal)) _ _).mono
    (fun r h c => Launch.post_args m Pack.packed Tile.tileOut Update.out r h c)
    (Launch.run_all m g (fun d => hpre d))

theorem frame_ri : Cert.frame_ReferenceIdeal (hReferenceIdeal := Cert.ReferenceIdeal.Gen.facts) (hPre_input_domain := Cert.Pre_input_domain.Gen.facts) := fun m g _ =>
  (θ_run (Cert.ReferenceIdeal.defs (F := Ideal)) _ _).mono (fun _ h c => (h c).2) (RefRun.run (F := Ideal) m g)

theorem algebraic : Cert.algebraic_KernelIdeal_ReferenceIdeal (hKernelIdeal := Cert.KernelIdeal.Gen.facts)
    (hReferenceIdeal := Cert.ReferenceIdeal.Gen.facts) (hPre_input_domain := Cert.Pre_input_domain.Gen.facts) := by
  intro m g m' g' hpre hagree
  refine ⟨_, ?_, RefRun.run (F := Ideal) m' g'⟩
  refine (θ_run (Cert.KernelIdeal.defs (F := Ideal)) _ _).mono (fun r h c => ⟨?_, Launch.post_args m Pack.packed Tile.tileOut Update.out r h c⟩)
    (Launch.run_all m g (fun d => hpre d))
  exact (Launch.post_result m Pack.packed Tile.tileOut Update.out r h c).trans (Bridge.result_eq_reference_of m c Update.out m' (hpre c) Update.out_apply (hagree c))

theorem claim : Cert.Claim :=
  ⟨Cert.Kernel.Gen.facts, Cert.KernelIdeal.Gen.facts, Cert.ReferenceIdeal.Gen.facts, Cert.Pre_input_domain.Gen.facts,
    frame_k, frame_ki, frame_ri, trivial, algebraic⟩

end Cert.Proof

end
